-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S512x512 : Shape := ⟨2, ![512, 512]⟩
abbrev S8x64x512 : Shape := ⟨3, ![8, 64, 512]⟩
abbrev S64x512 : Shape := ⟨2, ![64, 512]⟩
abbrev S4x8 : Shape := ⟨2, ![4, 8]⟩
abbrev S_ : Shape := ⟨0, ![]⟩
abbrev S512x128 : Shape := ⟨2, ![512, 128]⟩
abbrev S1x1 : Shape := ⟨2, ![1, 1]⟩
abbrev S1x64x128 : Shape := ⟨3, ![1, 64, 128]⟩
abbrev S64x128 : Shape := ⟨2, ![64, 128]⟩

abbrev nBuf : Space → Nat
  | .hbm => 2
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S8x64x512, .bf16⟩
  | .local _ .vmem, ⟨4, _⟩ => ⟨S64x512, .bf16⟩
  | .local _ .vmem, ⟨5, _⟩ => ⟨S8x64x512, .bf16⟩
  | _, _ => ⟨S512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v4 : BitVec 32 := Scalar.xori v2 c6_i32
  let c1_i32_1 : BitVec 32 := 1#32
  let v5 : BitVec 32 := Scalar.muli v4 c1_i32_1
  let v6 : BitVec 32 := Scalar.addi c0_i32 v5
  v6.toNat
def k0_dev2 (d0 : Dev nD) : Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v7 : BitVec 32 := Scalar.xori v2 c7_i32
  let c1_i32_3 : BitVec 32 := 1#32
  let v8 : BitVec 32 := Scalar.muli v7 c1_i32_3
  let v9 : BitVec 32 := Scalar.addi c0_i32_4 v8
  v9.toNat
def k0_dev3 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v10 : BitVec 32 := Scalar.xori v2 c5_i32
  let c1_i32_6 : BitVec 32 := 1#32
  let v11 : BitVec 32 := Scalar.muli v10 c1_i32_6
  let v12 : BitVec 32 := Scalar.addi c0_i32_7 v11
  v12.toNat
def k0_dev4 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.xori v2 c2_i32
  let c1_i32_9 : BitVec 32 := 1#32
  let v14 : BitVec 32 := Scalar.muli v13 c1_i32_9
  let v15 : BitVec 32 := Scalar.addi c0_i32_10 v14
  v15.toNat
def k0_dev5 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_12 : BitVec 32 := 1#32
  let v17 : BitVec 32 := Scalar.muli v16 c1_i32_12
  let v18 : BitVec 32 := Scalar.addi c0_i32_13 v17
  v18.toNat
def k0_dev6 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v19 : BitVec 32 := Scalar.xori v2 c3_i32
  let c1_i32_15 : BitVec 32 := 1#32
  let v20 : BitVec 32 := Scalar.muli v19 c1_i32_15
  let v21 : BitVec 32 := Scalar.addi c0_i32_16 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17 : BitVec 32 := 1#32
  let v22 : BitVec 32 := Scalar.xori v2 c1_i32_17
  let c1_i32_19 : BitVec 32 := 1#32
  let v23 : BitVec 32 := Scalar.muli v22 c1_i32_19
  let v24 : BitVec 32 := Scalar.addi c0_i32_20 v23
  v24.toNat
def k0_off1 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_31 : BitVec 32 := 0#32
  let c0_i32_32 : BitVec 32 := 0#32
  ![v2.toNat, 0, 0]
def k0_off3 (d0 : Dev nD) (c6_i32_25 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v31 : BitVec 32 := Scalar.xori v2 c6_i32_25
  let c64_i32 : BitVec 32 := 64#32
  let v32 : BitVec 32 := Scalar.muli v31 c64_i32
  let c0_i32_33 : BitVec 32 := 0#32
  ![v32.toNat, 0]
def k0_dev8 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_25 : BitVec 32 := 6#32
  let v31 : BitVec 32 := Scalar.xori v2 c6_i32_25
  let c1_i32_29 : BitVec 32 := 1#32
  let v33 : BitVec 32 := Scalar.muli v31 c1_i32_29
  let v34 : BitVec 32 := Scalar.addi c0_i32_30 v33
  v34.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_34 : BitVec 32 := 7#32
  let v42 : BitVec 32 := Scalar.xori v2 c7_i32_34
  let c1_i32_39 : BitVec 32 := 1#32
  let v44 : BitVec 32 := Scalar.muli v42 c1_i32_39
  let v45 : BitVec 32 := Scalar.addi c0_i32_40 v44
  v45.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_44 : BitVec 32 := 5#32
  let v53 : BitVec 32 := Scalar.xori v2 c5_i32_44
  let c1_i32_49 : BitVec 32 := 1#32
  let v55 : BitVec 32 := Scalar.muli v53 c1_i32_49
  let v56 : BitVec 32 := Scalar.addi c0_i32_50 v55
  v56.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_54 : BitVec 32 := 2#32
  let v64 : BitVec 32 := Scalar.xori v2 c2_i32_54
  let c1_i32_59 : BitVec 32 := 1#32
  let v66 : BitVec 32 := Scalar.muli v64 c1_i32_59
  let v67 : BitVec 32 := Scalar.addi c0_i32_60 v66
  v67.toNat
def k0_dev12 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v75 : BitVec 32 := Scalar.xori v2 c4_i32_64
  let c1_i32_69 : BitVec 32 := 1#32
  let v77 : BitVec 32 := Scalar.muli v75 c1_i32_69
  let v78 : BitVec 32 := Scalar.addi c0_i32_70 v77
  v78.toNat
def k0_dev13 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_74 : BitVec 32 := 3#32
  let v86 : BitVec 32 := Scalar.xori v2 c3_i32_74
  let c1_i32_79 : BitVec 32 := 1#32
  let v88 : BitVec 32 := Scalar.muli v86 c1_i32_79
  let v89 : BitVec 32 := Scalar.addi c0_i32_80 v88
  v89.toNat
def k0_dev14 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_84 : BitVec 32 := 1#32
  let v97 : BitVec 32 := Scalar.xori v2 c1_i32_84
  let c1_i32_89 : BitVec 32 := 1#32
  let v99 : BitVec 32 := Scalar.muli v97 c1_i32_89
  let v100 : BitVec 32 := Scalar.addi c0_i32_90 v99
  v100.toNat
def k0_off4 (d0 : Dev nD) : Fin 2 → Nat :=
  let c1_i32_99 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_104 : BitVec 32 := 0#32
  let c128_i32 : BitVec 32 := 128#32
  ![v2.toNat, 0, 128]
def k0_off6 (d0 : Dev nD) (c6_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v114 : BitVec 32 := Scalar.xori v2 c6_i32_97
  let c64_i32_98 : BitVec 32 := 64#32
  let v115 : BitVec 32 := Scalar.muli v114 c64_i32_98
  let c128_i32_105 : BitVec 32 := 128#32
  ![v115.toNat, 128]
def k0_dev15 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_97 : BitVec 32 := 6#32
  let v114 : BitVec 32 := Scalar.xori v2 c6_i32_97
  let c1_i32_102 : BitVec 32 := 1#32
  let v116 : BitVec 32 := Scalar.muli v114 c1_i32_102
  let v117 : BitVec 32 := Scalar.addi c0_i32_103 v116
  v117.toNat
def k0_dev16 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_106 : BitVec 32 := 7#32
  let v125 : BitVec 32 := Scalar.xori v2 c7_i32_106
  let c1_i32_111 : BitVec 32 := 1#32
  let v127 : BitVec 32 := Scalar.muli v125 c1_i32_111
  let v128 : BitVec 32 := Scalar.addi c0_i32_112 v127
  v128.toNat
def k0_dev17 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_116 : BitVec 32 := 5#32
  let v136 : BitVec 32 := Scalar.xori v2 c5_i32_116
  let c1_i32_121 : BitVec 32 := 1#32
  let v138 : BitVec 32 := Scalar.muli v136 c1_i32_121
  let v139 : BitVec 32 := Scalar.addi c0_i32_122 v138
  v139.toNat
def k0_dev18 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_126 : BitVec 32 := 2#32
  let v147 : BitVec 32 := Scalar.xori v2 c2_i32_126
  let c1_i32_131 : BitVec 32 := 1#32
  let v149 : BitVec 32 := Scalar.muli v147 c1_i32_131
  let v150 : BitVec 32 := Scalar.addi c0_i32_132 v149
  v150.toNat
def k0_dev19 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_136 : BitVec 32 := 4#32
  let v158 : BitVec 32 := Scalar.xori v2 c4_i32_136
  let c1_i32_141 : BitVec 32 := 1#32
  let v160 : BitVec 32 := Scalar.muli v158 c1_i32_141
  let v161 : BitVec 32 := Scalar.addi c0_i32_142 v160
  v161.toNat
def k0_dev20 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_146 : BitVec 32 := 3#32
  let v169 : BitVec 32 := Scalar.xori v2 c3_i32_146
  let c1_i32_151 : BitVec 32 := 1#32
  let v171 : BitVec 32 := Scalar.muli v169 c1_i32_151
  let v172 : BitVec 32 := Scalar.addi c0_i32_152 v171
  v172.toNat
def k0_dev21 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_156 : BitVec 32 := 1#32
  let v180 : BitVec 32 := Scalar.xori v2 c1_i32_156
  let c1_i32_161 : BitVec 32 := 1#32
  let v182 : BitVec 32 := Scalar.muli v180 c1_i32_161
  let v183 : BitVec 32 := Scalar.addi c0_i32_162 v182
  v183.toNat
def k0_off7 (d0 : Dev nD) : Fin 2 → Nat :=
  let c2_i32_171 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_176 : BitVec 32 := 0#32
  let c256_i32 : BitVec 32 := 256#32
  ![v2.toNat, 0, 256]
def k0_off9 (d0 : Dev nD) (c6_i32_169 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v197 : BitVec 32 := Scalar.xori v2 c6_i32_169
  let c64_i32_170 : BitVec 32 := 64#32
  let v198 : BitVec 32 := Scalar.muli v197 c64_i32_170
  let c256_i32_177 : BitVec 32 := 256#32
  ![v198.toNat, 256]
def k0_dev22 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_169 : BitVec 32 := 6#32
  let v197 : BitVec 32 := Scalar.xori v2 c6_i32_169
  let c1_i32_174 : BitVec 32 := 1#32
  let v199 : BitVec 32 := Scalar.muli v197 c1_i32_174
  let v200 : BitVec 32 := Scalar.addi c0_i32_175 v199
  v200.toNat
def k0_dev23 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v208 : BitVec 32 := Scalar.xori v2 c7_i32_178
  let c1_i32_183 : BitVec 32 := 1#32
  let v210 : BitVec 32 := Scalar.muli v208 c1_i32_183
  let v211 : BitVec 32 := Scalar.addi c0_i32_184 v210
  v211.toNat
def k0_dev24 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_188 : BitVec 32 := 5#32
  let v219 : BitVec 32 := Scalar.xori v2 c5_i32_188
  let c1_i32_193 : BitVec 32 := 1#32
  let v221 : BitVec 32 := Scalar.muli v219 c1_i32_193
  let v222 : BitVec 32 := Scalar.addi c0_i32_194 v221
  v222.toNat
def k0_dev25 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_198 : BitVec 32 := 2#32
  let v230 : BitVec 32 := Scalar.xori v2 c2_i32_198
  let c1_i32_203 : BitVec 32 := 1#32
  let v232 : BitVec 32 := Scalar.muli v230 c1_i32_203
  let v233 : BitVec 32 := Scalar.addi c0_i32_204 v232
  v233.toNat
def k0_dev26 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v241 : BitVec 32 := Scalar.xori v2 c4_i32_208
  let c1_i32_213 : BitVec 32 := 1#32
  let v243 : BitVec 32 := Scalar.muli v241 c1_i32_213
  let v244 : BitVec 32 := Scalar.addi c0_i32_214 v243
  v244.toNat
def k0_dev27 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_218 : BitVec 32 := 3#32
  let v252 : BitVec 32 := Scalar.xori v2 c3_i32_218
  let c1_i32_223 : BitVec 32 := 1#32
  let v254 : BitVec 32 := Scalar.muli v252 c1_i32_223
  let v255 : BitVec 32 := Scalar.addi c0_i32_224 v254
  v255.toNat
def k0_dev28 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_228 : BitVec 32 := 1#32
  let v263 : BitVec 32 := Scalar.xori v2 c1_i32_228
  let c1_i32_233 : BitVec 32 := 1#32
  let v265 : BitVec 32 := Scalar.muli v263 c1_i32_233
  let v266 : BitVec 32 := Scalar.addi c0_i32_234 v265
  v266.toNat
def k0_off10 (d0 : Dev nD) : Fin 2 → Nat :=
  let c3_i32_243 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![3, v2.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_248 : BitVec 32 := 0#32
  let c384_i32 : BitVec 32 := 384#32
  ![v2.toNat, 0, 384]
def k0_off12 (d0 : Dev nD) (c6_i32_241 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v280 : BitVec 32 := Scalar.xori v2 c6_i32_241
  let c64_i32_242 : BitVec 32 := 64#32
  let v281 : BitVec 32 := Scalar.muli v280 c64_i32_242
  let c384_i32_249 : BitVec 32 := 384#32
  ![v281.toNat, 384]
def k0_dev29 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_241 : BitVec 32 := 6#32
  let v280 : BitVec 32 := Scalar.xori v2 c6_i32_241
  let c1_i32_246 : BitVec 32 := 1#32
  let v282 : BitVec 32 := Scalar.muli v280 c1_i32_246
  let v283 : BitVec 32 := Scalar.addi c0_i32_247 v282
  v283.toNat
def k0_dev30 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_250 : BitVec 32 := 7#32
  let v291 : BitVec 32 := Scalar.xori v2 c7_i32_250
  let c1_i32_255 : BitVec 32 := 1#32
  let v293 : BitVec 32 := Scalar.muli v291 c1_i32_255
  let v294 : BitVec 32 := Scalar.addi c0_i32_256 v293
  v294.toNat
def k0_dev31 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_260 : BitVec 32 := 5#32
  let v302 : BitVec 32 := Scalar.xori v2 c5_i32_260
  let c1_i32_265 : BitVec 32 := 1#32
  let v304 : BitVec 32 := Scalar.muli v302 c1_i32_265
  let v305 : BitVec 32 := Scalar.addi c0_i32_266 v304
  v305.toNat
def k0_dev32 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_270 : BitVec 32 := 2#32
  let v313 : BitVec 32 := Scalar.xori v2 c2_i32_270
  let c1_i32_275 : BitVec 32 := 1#32
  let v315 : BitVec 32 := Scalar.muli v313 c1_i32_275
  let v316 : BitVec 32 := Scalar.addi c0_i32_276 v315
  v316.toNat
def k0_dev33 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_280 : BitVec 32 := 4#32
  let v324 : BitVec 32 := Scalar.xori v2 c4_i32_280
  let c1_i32_285 : BitVec 32 := 1#32
  let v326 : BitVec 32 := Scalar.muli v324 c1_i32_285
  let v327 : BitVec 32 := Scalar.addi c0_i32_286 v326
  v327.toNat
def k0_dev34 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_290 : BitVec 32 := 3#32
  let v335 : BitVec 32 := Scalar.xori v2 c3_i32_290
  let c1_i32_295 : BitVec 32 := 1#32
  let v337 : BitVec 32 := Scalar.muli v335 c1_i32_295
  let v338 : BitVec 32 := Scalar.addi c0_i32_296 v337
  v338.toNat
def k0_dev35 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_300 : BitVec 32 := 1#32
  let v346 : BitVec 32 := Scalar.xori v2 c1_i32_300
  let c1_i32_305 : BitVec 32 := 1#32
  let v348 : BitVec 32 := Scalar.muli v346 c1_i32_305
  let v349 : BitVec 32 := Scalar.addi c0_i32_306 v348
  v349.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_310 : BitVec 32 := 64#32
  let v357 : BitVec 32 := Scalar.muli v2 c64_i32_310
  let v358 : Index := Scalar.indexCast v357
  let c0_311 : Index := 0#32
  ![v358.toNat, 0]
def k0_off14 (d0 : Dev nD) (c1_i32_312 : BitVec 32) : Fin 2 → Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v361 : BitVec 32 := Scalar.xori v2 c1_i32_312
  ![0, v361.toNat]
def k0_off15 (d0 : Dev nD) (c1_i32_312 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v361 : BitVec 32 := Scalar.xori v2 c1_i32_312
  let c0_i32_318 : BitVec 32 := 0#32
  let c0_i32_319 : BitVec 32 := 0#32
  ![v361.toNat, 0, 0]
def k0_off16 (d0 : Dev nD) (c1_i32_312 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v361 : BitVec 32 := Scalar.xori v2 c1_i32_312
  let v370 : Index := Scalar.indexCast v361
  let c0_322 : Index := 0#32
  let c0_323 : Index := 0#32
  ![v370.toNat, 0, 0]
def k0_dev36 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_400 : BitVec 32 := 6#32
  let v466 : BitVec 32 := Scalar.xori v2 c6_i32_400
  let c1_i32_404 : BitVec 32 := 1#32
  let v467 : BitVec 32 := Scalar.muli v466 c1_i32_404
  let v468 : BitVec 32 := Scalar.addi c0_i32_405 v467
  v468.toNat
def k0_dev37 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_410 : BitVec 32 := 7#32
  let v476 : BitVec 32 := Scalar.xori v2 c7_i32_410
  let c1_i32_414 : BitVec 32 := 1#32
  let v477 : BitVec 32 := Scalar.muli v476 c1_i32_414
  let v478 : BitVec 32 := Scalar.addi c0_i32_415 v477
  v478.toNat
def k0_dev38 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_420 : BitVec 32 := 5#32
  let v486 : BitVec 32 := Scalar.xori v2 c5_i32_420
  let c1_i32_424 : BitVec 32 := 1#32
  let v487 : BitVec 32 := Scalar.muli v486 c1_i32_424
  let v488 : BitVec 32 := Scalar.addi c0_i32_425 v487
  v488.toNat
def k0_dev39 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_430 : BitVec 32 := 2#32
  let v496 : BitVec 32 := Scalar.xori v2 c2_i32_430
  let c1_i32_434 : BitVec 32 := 1#32
  let v497 : BitVec 32 := Scalar.muli v496 c1_i32_434
  let v498 : BitVec 32 := Scalar.addi c0_i32_435 v497
  v498.toNat
def k0_dev40 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_440 : BitVec 32 := 4#32
  let v506 : BitVec 32 := Scalar.xori v2 c4_i32_440
  let c1_i32_444 : BitVec 32 := 1#32
  let v507 : BitVec 32 := Scalar.muli v506 c1_i32_444
  let v508 : BitVec 32 := Scalar.addi c0_i32_445 v507
  v508.toNat
def k0_dev41 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_450 : BitVec 32 := 3#32
  let v516 : BitVec 32 := Scalar.xori v2 c3_i32_450
  let c1_i32_454 : BitVec 32 := 1#32
  let v517 : BitVec 32 := Scalar.muli v516 c1_i32_454
  let v518 : BitVec 32 := Scalar.addi c0_i32_455 v517
  v518.toNat
def k0_dev42 (d0 : Dev nD) : Nat :=
  let c0_i32_465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_460 : BitVec 32 := 1#32
  let v526 : BitVec 32 := Scalar.xori v2 c1_i32_460
  let c1_i32_464 : BitVec 32 := 1#32
  let v527 : BitVec 32 := Scalar.muli v526 c1_i32_464
  let v528 : BitVec 32 := Scalar.addi c0_i32_465 v527
  v528.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_470 : BitVec 32 := 64#32
  let v536 : BitVec 32 := Scalar.muli v2 c64_i32_470
  let v537 : Index := Scalar.indexCast v536
  let c128_471 : Index := 128#32
  ![v537.toNat, 128]
def k0_off18 (d0 : Dev nD) (c1_i32_472 : BitVec 32) : Fin 2 → Nat :=
  let c1_i32_473 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v540 : BitVec 32 := Scalar.xori v2 c1_i32_472
  ![1, v540.toNat]
def k0_off19 (d0 : Dev nD) (c1_i32_472 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v540 : BitVec 32 := Scalar.xori v2 c1_i32_472
  let c0_i32_478 : BitVec 32 := 0#32
  let c128_i32_479 : BitVec 32 := 128#32
  ![v540.toNat, 0, 128]
def k0_off20 (d0 : Dev nD) (c1_i32_472 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v540 : BitVec 32 := Scalar.xori v2 c1_i32_472
  let v549 : Index := Scalar.indexCast v540
  let c0_482 : Index := 0#32
  let c128_483 : Index := 128#32
  ![v549.toNat, 0, 128]
def k0_dev43 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_560 : BitVec 32 := 6#32
  let v645 : BitVec 32 := Scalar.xori v2 c6_i32_560
  let c1_i32_564 : BitVec 32 := 1#32
  let v646 : BitVec 32 := Scalar.muli v645 c1_i32_564
  let v647 : BitVec 32 := Scalar.addi c0_i32_565 v646
  v647.toNat
def k0_dev44 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_570 : BitVec 32 := 7#32
  let v655 : BitVec 32 := Scalar.xori v2 c7_i32_570
  let c1_i32_574 : BitVec 32 := 1#32
  let v656 : BitVec 32 := Scalar.muli v655 c1_i32_574
  let v657 : BitVec 32 := Scalar.addi c0_i32_575 v656
  v657.toNat
def k0_dev45 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_580 : BitVec 32 := 5#32
  let v665 : BitVec 32 := Scalar.xori v2 c5_i32_580
  let c1_i32_584 : BitVec 32 := 1#32
  let v666 : BitVec 32 := Scalar.muli v665 c1_i32_584
  let v667 : BitVec 32 := Scalar.addi c0_i32_585 v666
  v667.toNat
def k0_dev46 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_590 : BitVec 32 := 2#32
  let v675 : BitVec 32 := Scalar.xori v2 c2_i32_590
  let c1_i32_594 : BitVec 32 := 1#32
  let v676 : BitVec 32 := Scalar.muli v675 c1_i32_594
  let v677 : BitVec 32 := Scalar.addi c0_i32_595 v676
  v677.toNat
def k0_dev47 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_600 : BitVec 32 := 4#32
  let v685 : BitVec 32 := Scalar.xori v2 c4_i32_600
  let c1_i32_604 : BitVec 32 := 1#32
  let v686 : BitVec 32 := Scalar.muli v685 c1_i32_604
  let v687 : BitVec 32 := Scalar.addi c0_i32_605 v686
  v687.toNat
def k0_dev48 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_610 : BitVec 32 := 3#32
  let v695 : BitVec 32 := Scalar.xori v2 c3_i32_610
  let c1_i32_614 : BitVec 32 := 1#32
  let v696 : BitVec 32 := Scalar.muli v695 c1_i32_614
  let v697 : BitVec 32 := Scalar.addi c0_i32_615 v696
  v697.toNat
def k0_dev49 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_620 : BitVec 32 := 1#32
  let v705 : BitVec 32 := Scalar.xori v2 c1_i32_620
  let c1_i32_624 : BitVec 32 := 1#32
  let v706 : BitVec 32 := Scalar.muli v705 c1_i32_624
  let v707 : BitVec 32 := Scalar.addi c0_i32_625 v706
  v707.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_630 : BitVec 32 := 64#32
  let v715 : BitVec 32 := Scalar.muli v2 c64_i32_630
  let v716 : Index := Scalar.indexCast v715
  let c256_631 : Index := 256#32
  ![v716.toNat, 256]
def k0_off22 (d0 : Dev nD) (c1_i32_632 : BitVec 32) : Fin 2 → Nat :=
  let c2_i32_633 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v719 : BitVec 32 := Scalar.xori v2 c1_i32_632
  ![2, v719.toNat]
def k0_off23 (d0 : Dev nD) (c1_i32_632 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v719 : BitVec 32 := Scalar.xori v2 c1_i32_632
  let c0_i32_638 : BitVec 32 := 0#32
  let c256_i32_639 : BitVec 32 := 256#32
  ![v719.toNat, 0, 256]
def k0_off24 (d0 : Dev nD) (c1_i32_632 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v719 : BitVec 32 := Scalar.xori v2 c1_i32_632
  let v728 : Index := Scalar.indexCast v719
  let c0_642 : Index := 0#32
  let c256_643 : Index := 256#32
  ![v728.toNat, 0, 256]
def k0_dev50 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_720 : BitVec 32 := 6#32
  let v824 : BitVec 32 := Scalar.xori v2 c6_i32_720
  let c1_i32_724 : BitVec 32 := 1#32
  let v825 : BitVec 32 := Scalar.muli v824 c1_i32_724
  let v826 : BitVec 32 := Scalar.addi c0_i32_725 v825
  v826.toNat
def k0_dev51 (d0 : Dev nD) : Nat :=
  let c0_i32_735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_730 : BitVec 32 := 7#32
  let v834 : BitVec 32 := Scalar.xori v2 c7_i32_730
  let c1_i32_734 : BitVec 32 := 1#32
  let v835 : BitVec 32 := Scalar.muli v834 c1_i32_734
  let v836 : BitVec 32 := Scalar.addi c0_i32_735 v835
  v836.toNat
def k0_dev52 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_740 : BitVec 32 := 5#32
  let v844 : BitVec 32 := Scalar.xori v2 c5_i32_740
  let c1_i32_744 : BitVec 32 := 1#32
  let v845 : BitVec 32 := Scalar.muli v844 c1_i32_744
  let v846 : BitVec 32 := Scalar.addi c0_i32_745 v845
  v846.toNat
def k0_dev53 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_750 : BitVec 32 := 2#32
  let v854 : BitVec 32 := Scalar.xori v2 c2_i32_750
  let c1_i32_754 : BitVec 32 := 1#32
  let v855 : BitVec 32 := Scalar.muli v854 c1_i32_754
  let v856 : BitVec 32 := Scalar.addi c0_i32_755 v855
  v856.toNat
def k0_dev54 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_760 : BitVec 32 := 4#32
  let v864 : BitVec 32 := Scalar.xori v2 c4_i32_760
  let c1_i32_764 : BitVec 32 := 1#32
  let v865 : BitVec 32 := Scalar.muli v864 c1_i32_764
  let v866 : BitVec 32 := Scalar.addi c0_i32_765 v865
  v866.toNat
def k0_dev55 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_770 : BitVec 32 := 3#32
  let v874 : BitVec 32 := Scalar.xori v2 c3_i32_770
  let c1_i32_774 : BitVec 32 := 1#32
  let v875 : BitVec 32 := Scalar.muli v874 c1_i32_774
  let v876 : BitVec 32 := Scalar.addi c0_i32_775 v875
  v876.toNat
def k0_dev56 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_780 : BitVec 32 := 1#32
  let v884 : BitVec 32 := Scalar.xori v2 c1_i32_780
  let c1_i32_784 : BitVec 32 := 1#32
  let v885 : BitVec 32 := Scalar.muli v884 c1_i32_784
  let v886 : BitVec 32 := Scalar.addi c0_i32_785 v885
  v886.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_790 : BitVec 32 := 64#32
  let v894 : BitVec 32 := Scalar.muli v2 c64_i32_790
  let v895 : Index := Scalar.indexCast v894
  let c384_791 : Index := 384#32
  ![v895.toNat, 384]
def k0_off26 (d0 : Dev nD) (c1_i32_792 : BitVec 32) : Fin 2 → Nat :=
  let c3_i32_793 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v898 : BitVec 32 := Scalar.xori v2 c1_i32_792
  ![3, v898.toNat]
def k0_off27 (d0 : Dev nD) (c1_i32_792 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v898 : BitVec 32 := Scalar.xori v2 c1_i32_792
  let c0_i32_798 : BitVec 32 := 0#32
  let c384_i32_799 : BitVec 32 := 384#32
  ![v898.toNat, 0, 384]
def k0_off28 (d0 : Dev nD) (c1_i32_792 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v898 : BitVec 32 := Scalar.xori v2 c1_i32_792
  let v907 : Index := Scalar.indexCast v898
  let c0_802 : Index := 0#32
  let c384_803 : Index := 384#32
  ![v907.toNat, 0, 384]
def k0_dev57 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_880 : BitVec 32 := 6#32
  let v1003 : BitVec 32 := Scalar.xori v2 c6_i32_880
  let c1_i32_884 : BitVec 32 := 1#32
  let v1004 : BitVec 32 := Scalar.muli v1003 c1_i32_884
  let v1005 : BitVec 32 := Scalar.addi c0_i32_885 v1004
  v1005.toNat
def k0_dev58 (d0 : Dev nD) : Nat :=
  let c0_i32_895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_890 : BitVec 32 := 7#32
  let v1013 : BitVec 32 := Scalar.xori v2 c7_i32_890
  let c1_i32_894 : BitVec 32 := 1#32
  let v1014 : BitVec 32 := Scalar.muli v1013 c1_i32_894
  let v1015 : BitVec 32 := Scalar.addi c0_i32_895 v1014
  v1015.toNat
def k0_dev59 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_900 : BitVec 32 := 5#32
  let v1023 : BitVec 32 := Scalar.xori v2 c5_i32_900
  let c1_i32_904 : BitVec 32 := 1#32
  let v1024 : BitVec 32 := Scalar.muli v1023 c1_i32_904
  let v1025 : BitVec 32 := Scalar.addi c0_i32_905 v1024
  v1025.toNat
def k0_dev60 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_910 : BitVec 32 := 2#32
  let v1033 : BitVec 32 := Scalar.xori v2 c2_i32_910
  let c1_i32_914 : BitVec 32 := 1#32
  let v1034 : BitVec 32 := Scalar.muli v1033 c1_i32_914
  let v1035 : BitVec 32 := Scalar.addi c0_i32_915 v1034
  v1035.toNat
def k0_dev61 (d0 : Dev nD) : Nat :=
  let c0_i32_925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_920 : BitVec 32 := 4#32
  let v1043 : BitVec 32 := Scalar.xori v2 c4_i32_920
  let c1_i32_924 : BitVec 32 := 1#32
  let v1044 : BitVec 32 := Scalar.muli v1043 c1_i32_924
  let v1045 : BitVec 32 := Scalar.addi c0_i32_925 v1044
  v1045.toNat
def k0_dev62 (d0 : Dev nD) : Nat :=
  let c0_i32_935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_930 : BitVec 32 := 3#32
  let v1053 : BitVec 32 := Scalar.xori v2 c3_i32_930
  let c1_i32_934 : BitVec 32 := 1#32
  let v1054 : BitVec 32 := Scalar.muli v1053 c1_i32_934
  let v1055 : BitVec 32 := Scalar.addi c0_i32_935 v1054
  v1055.toNat
def k0_dev63 (d0 : Dev nD) : Nat :=
  let c0_i32_945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_940 : BitVec 32 := 1#32
  let v1063 : BitVec 32 := Scalar.xori v2 c1_i32_940
  let c1_i32_944 : BitVec 32 := 1#32
  let v1064 : BitVec 32 := Scalar.muli v1063 c1_i32_944
  let v1065 : BitVec 32 := Scalar.addi c0_i32_945 v1064
  v1065.toNat
def k0_off29 (d0 : Dev nD) (c1_i32_950 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1073 : BitVec 32 := Scalar.xori v2 c1_i32_950
  let c64_i32_962 : BitVec 32 := 64#32
  let v1086 : BitVec 32 := Scalar.muli v1073 c64_i32_962
  let v1087 : Index := Scalar.indexCast v1086
  let c0_963 : Index := 0#32
  ![v1087.toNat, 0]
def k0_off30 (d0 : Dev nD) (c1_i32_1048 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1185 : BitVec 32 := Scalar.xori v2 c1_i32_1048
  let c64_i32_1060 : BitVec 32 := 64#32
  let v1198 : BitVec 32 := Scalar.muli v1185 c64_i32_1060
  let v1199 : Index := Scalar.indexCast v1198
  let c128_1061 : Index := 128#32
  ![v1199.toNat, 128]
def k0_off31 (d0 : Dev nD) (c1_i32_1146 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1297 : BitVec 32 := Scalar.xori v2 c1_i32_1146
  let c64_i32_1158 : BitVec 32 := 64#32
  let v1310 : BitVec 32 := Scalar.muli v1297 c64_i32_1158
  let v1311 : Index := Scalar.indexCast v1310
  let c256_1159 : Index := 256#32
  ![v1311.toNat, 256]
def k0_off32 (d0 : Dev nD) (c1_i32_1244 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1409 : BitVec 32 := Scalar.xori v2 c1_i32_1244
  let c64_i32_1256 : BitVec 32 := 64#32
  let v1422 : BitVec 32 := Scalar.muli v1409 c64_i32_1256
  let v1423 : Index := Scalar.indexCast v1422
  let c384_1257 : Index := 384#32
  ![v1423.toNat, 384]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_7 : (7#32 : BitVec 32).msb = false
  inb_S512x512_S512x128_0_0 : ∀ a, (![0, 0] : Fin 2 → Nat) a + S512x128.size a ≤ S512x512.size a
  h_S512x128 : 0 < S512x128.numel
  shapeCasts_S512x128_S512x128 : S512x128.ShapeCasts S512x128
  bitsLt_bf16_f32 : FTy.bits .bf16 < FTy.bits .f32
  packedbf16_S512x512_S512x128_0_0 : (Rect.unit (s := S512x512) ![0, 0] S512x128.size inb_S512x512_S512x128_0_0).PackedRows (EltTy.packing .bf16)
  inb_S4x8_S1x1_0_6 : ∀ a, (![0, 6] : Fin 2 → Nat) a + S1x1.size a ≤ S4x8.size a
  squeezes_S1x1_S_ : S1x1.Squeezes S_
  squeezes_S1x64x128_S64x128 : S1x64x128.Squeezes S64x128
  inb_S4x8_S1x1_0_7 : ∀ a, (![0, 7] : Fin 2 → Nat) a + S1x1.size a ≤ S4x8.size a
  inb_S4x8_S1x1_0_5 : ∀ a, (![0, 5] : Fin 2 → Nat) a + S1x1.size a ≤ S4x8.size a
  inb_S4x8_S1x1_0_2 : ∀ a, (![0, 2] : Fin 2 → Nat) a + S1x1.size a ≤ S4x8.size a
  inb_S4x8_S1x1_0_4 : ∀ a, (![0, 4] : Fin 2 → Nat) a + S1x1.size a ≤ S4x8.size a
  inb_S4x8_S1x1_0_3 : ∀ a, (![0, 3] : Fin 2 → Nat) a + S1x1.size a ≤ S4x8.size a
  inb_S4x8_S1x1_0_1 : ∀ a, (![0, 1] : Fin 2 → Nat) a + S1x1.size a ≤ S4x8.size a
  inb_S512x512_S512x128_0_128 : ∀ a, (![0, 128] : Fin 2 → Nat) a + S512x128.size a ≤ S512x512.size a
  packedbf16_S512x512_S512x128_0_128 : (Rect.unit (s := S512x512) ![0, 128] S512x128.size inb_S512x512_S512x128_0_128).PackedRows (EltTy.packing .bf16)
  inb_S4x8_S1x1_1_6 : ∀ a, (![1, 6] : Fin 2 → Nat) a + S1x1.size a ≤ S4x8.size a
  inb_S4x8_S1x1_1_7 : ∀ a, (![1, 7] : Fin 2 → Nat) a + S1x1.size a ≤ S4x8.size a
  inb_S4x8_S1x1_1_5 : ∀ a, (![1, 5] : Fin 2 → Nat) a + S1x1.size a ≤ S4x8.size a
  inb_S4x8_S1x1_1_2 : ∀ a, (![1, 2] : Fin 2 → Nat) a + S1x1.size a ≤ S4x8.size a
  inb_S4x8_S1x1_1_4 : ∀ a, (![1, 4] : Fin 2 → Nat) a + S1x1.size a ≤ S4x8.size a
  inb_S4x8_S1x1_1_3 : ∀ a, (![1, 3] : Fin 2 → Nat) a + S1x1.size a ≤ S4x8.size a
  inb_S4x8_S1x1_1_1 : ∀ a, (![1, 1] : Fin 2 → Nat) a + S1x1.size a ≤ S4x8.size a
  inb_S512x512_S512x128_0_256 : ∀ a, (![0, 256] : Fin 2 → Nat) a + S512x128.size a ≤ S512x512.size a
  packedbf16_S512x512_S512x128_0_256 : (Rect.unit (s := S512x512) ![0, 256] S512x128.size inb_S512x512_S512x128_0_256).PackedRows (EltTy.packing .bf16)
  inb_S4x8_S1x1_2_6 : ∀ a, (![2, 6] : Fin 2 → Nat) a + S1x1.size a ≤ S4x8.size a
  inb_S4x8_S1x1_2_7 : ∀ a, (![2, 7] : Fin 2 → Nat) a + S1x1.size a ≤ S4x8.size a
  inb_S4x8_S1x1_2_5 : ∀ a, (![2, 5] : Fin 2 → Nat) a + S1x1.size a ≤ S4x8.size a
  inb_S4x8_S1x1_2_2 : ∀ a, (![2, 2] : Fin 2 → Nat) a + S1x1.size a ≤ S4x8.size a
  inb_S4x8_S1x1_2_4 : ∀ a, (![2, 4] : Fin 2 → Nat) a + S1x1.size a ≤ S4x8.size a
  inb_S4x8_S1x1_2_3 : ∀ a, (![2, 3] : Fin 2 → Nat) a + S1x1.size a ≤ S4x8.size a
  inb_S4x8_S1x1_2_1 : ∀ a, (![2, 1] : Fin 2 → Nat) a + S1x1.size a ≤ S4x8.size a
  inb_S512x512_S512x128_0_384 : ∀ a, (![0, 384] : Fin 2 → Nat) a + S512x128.size a ≤ S512x512.size a
  packedbf16_S512x512_S512x128_0_384 : (Rect.unit (s := S512x512) ![0, 384] S512x128.size inb_S512x512_S512x128_0_384).PackedRows (EltTy.packing .bf16)
  inb_S4x8_S1x1_3_6 : ∀ a, (![3, 6] : Fin 2 → Nat) a + S1x1.size a ≤ S4x8.size a
  inb_S4x8_S1x1_3_7 : ∀ a, (![3, 7] : Fin 2 → Nat) a + S1x1.size a ≤ S4x8.size a
  inb_S4x8_S1x1_3_5 : ∀ a, (![3, 5] : Fin 2 → Nat) a + S1x1.size a ≤ S4x8.size a
  inb_S4x8_S1x1_3_2 : ∀ a, (![3, 2] : Fin 2 → Nat) a + S1x1.size a ≤ S4x8.size a
  inb_S4x8_S1x1_3_4 : ∀ a, (![3, 4] : Fin 2 → Nat) a + S1x1.size a ≤ S4x8.size a
  inb_S4x8_S1x1_3_3 : ∀ a, (![3, 3] : Fin 2 → Nat) a + S1x1.size a ≤ S4x8.size a
  inb_S4x8_S1x1_3_1 : ∀ a, (![3, 1] : Fin 2 → Nat) a + S1x1.size a ≤ S4x8.size a
  h_S64x128 : 0 < S64x128.numel
  shapeCasts_S64x128_S64x128 : S64x128.ShapeCasts S64x128
  h_S1x64x128 : 0 < S1x64x128.numel
  shapeCasts_S1x64x128_S64x128 : S1x64x128.ShapeCasts S64x128
  inb_S64x512_S64x128_0_0 : ∀ a, (![0, 0] : Fin 2 → Nat) a + S64x128.size a ≤ S64x512.size a
  packedbf16_S64x512_S64x128_0_0 : (Rect.unit (s := S64x512) ![0, 0] S64x128.size inb_S64x512_S64x128_0_0).PackedRows (EltTy.packing .bf16)
  wordsbf16_S64x512_S64x128_0_0 : (Rect.unit (s := S64x512) ![0, 0] S64x128.size inb_S64x512_S64x128_0_0).WholeWords (EltTy.packing .bf16)
  inb_S64x512_S64x128_0_128 : ∀ a, (![0, 128] : Fin 2 → Nat) a + S64x128.size a ≤ S64x512.size a
  packedbf16_S64x512_S64x128_0_128 : (Rect.unit (s := S64x512) ![0, 128] S64x128.size inb_S64x512_S64x128_0_128).PackedRows (EltTy.packing .bf16)
  wordsbf16_S64x512_S64x128_0_128 : (Rect.unit (s := S64x512) ![0, 128] S64x128.size inb_S64x512_S64x128_0_128).WholeWords (EltTy.packing .bf16)
  inb_S64x512_S64x128_0_256 : ∀ a, (![0, 256] : Fin 2 → Nat) a + S64x128.size a ≤ S64x512.size a
  packedbf16_S64x512_S64x128_0_256 : (Rect.unit (s := S64x512) ![0, 256] S64x128.size inb_S64x512_S64x128_0_256).PackedRows (EltTy.packing .bf16)
  wordsbf16_S64x512_S64x128_0_256 : (Rect.unit (s := S64x512) ![0, 256] S64x128.size inb_S64x512_S64x128_0_256).WholeWords (EltTy.packing .bf16)
  inb_S64x512_S64x128_0_384 : ∀ a, (![0, 384] : Fin 2 → Nat) a + S64x128.size a ≤ S64x512.size a
  packedbf16_S64x512_S64x128_0_384 : (Rect.unit (s := S64x512) ![0, 384] S64x128.size inb_S64x512_S64x128_0_384).PackedRows (EltTy.packing .bf16)
  wordsbf16_S64x512_S64x128_0_384 : (Rect.unit (s := S64x512) ![0, 384] S64x128.size inb_S64x512_S64x128_0_384).WholeWords (EltTy.packing .bf16)
  hcc0_scratch4 : 2 + S4x8.numel ≤ 130
  hcc0_scratch5 : 34 + S4x8.numel ≤ 130
  hcc0_scratch6 : 66 + S4x8.numel ≤ 130
  hcc0_scratch7 : 98 + S4x8.numel ≤ 130
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x1.size a ≤ S4x8.size a
  k0_off2_inb : ∀ d0 : Dev nD, ∀ a, (k0_off2 d0) a + S1x64x128.size a ≤ S8x64x512.size a
  k0_off3_inb : ∀ d0 : Dev nD, ∀ (r : Fin 7), ∀ a, (k0_off3 d0 (BitVec.ofNat 32 (1 + r.val))) a + S64x128.size a ≤ S512x512.size a
  k0_off3_wordsbf16 : ∀ d0 : Dev nD, ∀ (r : Fin 7), (Rect.unit (s := S512x512) (k0_off3 d0 (BitVec.ofNat 32 (1 + r.val))) S64x128.size (k0_off3_inb d0 r)).WholeWords (EltTy.packing .bf16)
  k0_off2_wordsbf16 : ∀ d0 : Dev nD, (Rect.unit (s := S8x64x512) (k0_off2 d0) S1x64x128.size (k0_off2_inb d0)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off4_inb : ∀ d0 : Dev nD, ∀ a, (k0_off4 d0) a + S1x1.size a ≤ S4x8.size a
  k0_off5_inb : ∀ d0 : Dev nD, ∀ a, (k0_off5 d0) a + S1x64x128.size a ≤ S8x64x512.size a
  k0_off6_inb : ∀ d0 : Dev nD, ∀ (r : Fin 7), ∀ a, (k0_off6 d0 (BitVec.ofNat 32 (1 + r.val))) a + S64x128.size a ≤ S512x512.size a
  k0_off6_wordsbf16 : ∀ d0 : Dev nD, ∀ (r : Fin 7), (Rect.unit (s := S512x512) (k0_off6 d0 (BitVec.ofNat 32 (1 + r.val))) S64x128.size (k0_off6_inb d0 r)).WholeWords (EltTy.packing .bf16)
  k0_off5_wordsbf16 : ∀ d0 : Dev nD, (Rect.unit (s := S8x64x512) (k0_off5 d0) S1x64x128.size (k0_off5_inb d0)).WholeWords (EltTy.packing .bf16)
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off7_inb : ∀ d0 : Dev nD, ∀ a, (k0_off7 d0) a + S1x1.size a ≤ S4x8.size a
  k0_off8_inb : ∀ d0 : Dev nD, ∀ a, (k0_off8 d0) a + S1x64x128.size a ≤ S8x64x512.size a
  k0_off9_inb : ∀ d0 : Dev nD, ∀ (r : Fin 7), ∀ a, (k0_off9 d0 (BitVec.ofNat 32 (1 + r.val))) a + S64x128.size a ≤ S512x512.size a
  k0_off9_wordsbf16 : ∀ d0 : Dev nD, ∀ (r : Fin 7), (Rect.unit (s := S512x512) (k0_off9 d0 (BitVec.ofNat 32 (1 + r.val))) S64x128.size (k0_off9_inb d0 r)).WholeWords (EltTy.packing .bf16)
  k0_off8_wordsbf16 : ∀ d0 : Dev nD, (Rect.unit (s := S8x64x512) (k0_off8 d0) S1x64x128.size (k0_off8_inb d0)).WholeWords (EltTy.packing .bf16)
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_off10_inb : ∀ d0 : Dev nD, ∀ a, (k0_off10 d0) a + S1x1.size a ≤ S4x8.size a
  k0_off11_inb : ∀ d0 : Dev nD, ∀ a, (k0_off11 d0) a + S1x64x128.size a ≤ S8x64x512.size a
  k0_off12_inb : ∀ d0 : Dev nD, ∀ (r : Fin 7), ∀ a, (k0_off12 d0 (BitVec.ofNat 32 (1 + r.val))) a + S64x128.size a ≤ S512x512.size a
  k0_off12_wordsbf16 : ∀ d0 : Dev nD, ∀ (r : Fin 7), (Rect.unit (s := S512x512) (k0_off12 d0 (BitVec.ofNat 32 (1 + r.val))) S64x128.size (k0_off12_inb d0 r)).WholeWords (EltTy.packing .bf16)
  k0_off11_wordsbf16 : ∀ d0 : Dev nD, (Rect.unit (s := S8x64x512) (k0_off11 d0) S1x64x128.size (k0_off11_inb d0)).WholeWords (EltTy.packing .bf16)
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_off13_inb : ∀ d0 : Dev nD, ∀ a, (k0_off13 d0) a + S64x128.size a ≤ S512x512.size a
  k0_off14_inb : ∀ d0 : Dev nD, ∀ (r : Fin 7), ∀ a, (k0_off14 d0 (BitVec.ofNat 32 (1 + r.val))) a + S1x1.size a ≤ S4x8.size a
  k0_off15_inb : ∀ d0 : Dev nD, ∀ (r : Fin 7), ∀ a, (k0_off15 d0 (BitVec.ofNat 32 (1 + r.val))) a + S1x64x128.size a ≤ S8x64x512.size a
  k0_off15_wordsbf16 : ∀ d0 : Dev nD, ∀ (r : Fin 7), (Rect.unit (s := S8x64x512) (k0_off15 d0 (BitVec.ofNat 32 (1 + r.val))) S1x64x128.size (k0_off15_inb d0 r)).WholeWords (EltTy.packing .bf16)
  k0_off16_inb : ∀ d0 : Dev nD, ∀ (r : Fin 7), ∀ a, (k0_off16 d0 (BitVec.ofNat 32 (1 + r.val))) a + S1x64x128.size a ≤ S8x64x512.size a
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_off17_inb : ∀ d0 : Dev nD, ∀ a, (k0_off17 d0) a + S64x128.size a ≤ S512x512.size a
  k0_off18_inb : ∀ d0 : Dev nD, ∀ (r : Fin 7), ∀ a, (k0_off18 d0 (BitVec.ofNat 32 (1 + r.val))) a + S1x1.size a ≤ S4x8.size a
  k0_off19_inb : ∀ d0 : Dev nD, ∀ (r : Fin 7), ∀ a, (k0_off19 d0 (BitVec.ofNat 32 (1 + r.val))) a + S1x64x128.size a ≤ S8x64x512.size a
  k0_off19_wordsbf16 : ∀ d0 : Dev nD, ∀ (r : Fin 7), (Rect.unit (s := S8x64x512) (k0_off19 d0 (BitVec.ofNat 32 (1 + r.val))) S1x64x128.size (k0_off19_inb d0 r)).WholeWords (EltTy.packing .bf16)
  k0_off20_inb : ∀ d0 : Dev nD, ∀ (r : Fin 7), ∀ a, (k0_off20 d0 (BitVec.ofNat 32 (1 + r.val))) a + S1x64x128.size a ≤ S8x64x512.size a
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_off21_inb : ∀ d0 : Dev nD, ∀ a, (k0_off21 d0) a + S64x128.size a ≤ S512x512.size a
  k0_off22_inb : ∀ d0 : Dev nD, ∀ (r : Fin 7), ∀ a, (k0_off22 d0 (BitVec.ofNat 32 (1 + r.val))) a + S1x1.size a ≤ S4x8.size a
  k0_off23_inb : ∀ d0 : Dev nD, ∀ (r : Fin 7), ∀ a, (k0_off23 d0 (BitVec.ofNat 32 (1 + r.val))) a + S1x64x128.size a ≤ S8x64x512.size a
  k0_off23_wordsbf16 : ∀ d0 : Dev nD, ∀ (r : Fin 7), (Rect.unit (s := S8x64x512) (k0_off23 d0 (BitVec.ofNat 32 (1 + r.val))) S1x64x128.size (k0_off23_inb d0 r)).WholeWords (EltTy.packing .bf16)
  k0_off24_inb : ∀ d0 : Dev nD, ∀ (r : Fin 7), ∀ a, (k0_off24 d0 (BitVec.ofNat 32 (1 + r.val))) a + S1x64x128.size a ≤ S8x64x512.size a
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_off25_inb : ∀ d0 : Dev nD, ∀ a, (k0_off25 d0) a + S64x128.size a ≤ S512x512.size a
  k0_off26_inb : ∀ d0 : Dev nD, ∀ (r : Fin 7), ∀ a, (k0_off26 d0 (BitVec.ofNat 32 (1 + r.val))) a + S1x1.size a ≤ S4x8.size a
  k0_off27_inb : ∀ d0 : Dev nD, ∀ (r : Fin 7), ∀ a, (k0_off27 d0 (BitVec.ofNat 32 (1 + r.val))) a + S1x64x128.size a ≤ S8x64x512.size a
  k0_off27_wordsbf16 : ∀ d0 : Dev nD, ∀ (r : Fin 7), (Rect.unit (s := S8x64x512) (k0_off27 d0 (BitVec.ofNat 32 (1 + r.val))) S1x64x128.size (k0_off27_inb d0 r)).WholeWords (EltTy.packing .bf16)
  k0_off28_inb : ∀ d0 : Dev nD, ∀ (r : Fin 7), ∀ a, (k0_off28 d0 (BitVec.ofNat 32 (1 + r.val))) a + S1x64x128.size a ≤ S8x64x512.size a
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_off29_inb : ∀ d0 : Dev nD, ∀ (r : Fin 7), ∀ a, (k0_off29 d0 (BitVec.ofNat 32 (1 + r.val))) a + S64x128.size a ≤ S512x512.size a
  k0_off30_inb : ∀ d0 : Dev nD, ∀ (r : Fin 7), ∀ a, (k0_off30 d0 (BitVec.ofNat 32 (1 + r.val))) a + S64x128.size a ≤ S512x512.size a
  k0_off31_inb : ∀ d0 : Dev nD, ∀ (r : Fin 7), ∀ a, (k0_off31 d0 (BitVec.ofNat 32 (1 + r.val))) a + S64x128.size a ≤ S512x512.size a
  k0_off32_inb : ∀ d0 : Dev nD, ∀ (r : Fin 7), ∀ a, (k0_off32 d0 (BitVec.ofNat 32 (1 + r.val))) a + S64x128.size a ≤ S512x512.size a
  hstage0_0 : ∀ j, (stage0_0 j).IsWhole
  hstage0_1 : ∀ j, (stage0_1 j).IsWhole

variable [Facts₀]

abbrev cc0_scratch4 : DmaSems sig S4x8 := SemArray.consecutive 2 S4x8 hcc0_scratch4
abbrev cc0_scratch5 : DmaSems sig S4x8 := SemArray.consecutive 34 S4x8 hcc0_scratch5
abbrev cc0_scratch6 : DmaSems sig S4x8 := SemArray.consecutive 66 S4x8 hcc0_scratch6
abbrev cc0_scratch7 : DmaSems sig S4x8 := SemArray.consecutive 98 S4x8 hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S8x512x512 : Shape := ⟨3, ![8, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8x512x512, .f32⟩
  | .hbm, ⟨2, _⟩ => ⟨S_, .f32⟩
  | .hbm, ⟨3, _⟩ => ⟨S512x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S8x512x512 : S4096x512.ShapeCasts S8x512x512
  reducesTo_S8x512x512_S512x512_d0 : S8x512x512.ReducesTo [0] S512x512
  h_S_ : 0 < S_.numel

variable [Facts₀]

class Facts : Prop extends Facts₀ where

variable [Facts]
-- ==== Proof.KernelIdealAR.Contents.lean ====
import proofs.«900697_g7700000000000698_dist_ar_v7x_i8_i_m512_n512_f32_1_alg».proof.Proof.Gen.KernelIdeal
import Idealize.ShloMosaic.PureOps.Vector

noncomputable section

namespace Cert.KernelIdeal.AR

open Cert.KernelIdeal Cert.KernelIdeal.Gen
open Idealize.ShloMosaic

variable {F : FTy → Type} [FloatOps F]

def wire (v : F .f32) : F .f32 := FloatOps.extf .f32 bitsLt_bf16_f32 (FloatOps.truncf .bf16 bitsLt_bf16_f32 v)

def pxn (s : Fin 8) (k : Fin 8) : Fin 8 := ⟨s.val ^^^ k.val, Nat.xor_lt_two_pow (n := 3) s.isLt k.isLt⟩

def grp (i : S512x512.Idx) : Fin 8 := ⟨(i 0).val / 64, by have h : (i 0).val < 512 := (i 0).isLt; omega⟩

def accOf (X : Fin 8 → S512x512.Idx → F .f32) (s : Fin 8) (i : S512x512.Idx) : F .f32 :=
  FloatOps.addf (FloatOps.addf (FloatOps.addf (FloatOps.addf (FloatOps.addf (FloatOps.addf (FloatOps.addf (X s i)
    (wire (X (pxn s 1) i))) (wire (X (pxn s 3) i))) (wire (X (pxn s 4) i))) (wire (X (pxn s 2) i)))
    (wire (X (pxn s 5) i))) (wire (X (pxn s 7) i))) (wire (X (pxn s 6) i))

def outAt (X : Fin 8 → S512x512.Idx → F .f32) (c : Fin 8) (i : S512x512.Idx) : F .f32 :=
  if grp i = c then accOf X (grp i) i else wire (accOf X (grp i) i)

end Cert.KernelIdeal.AR

end
-- ==== Proof.RefValue.lean ====
import proofs.«900697_g7700000000000698_dist_ar_v7x_i8_i_m512_n512_f32_1_alg».proof.Defs
import proofs.«900697_g7700000000000698_dist_ar_v7x_i8_i_m512_n512_f32_1_alg».proof.Proof.Gen.ReferenceIdeal
import proofs.«900697_g7700000000000698_dist_ar_v7x_i8_i_m512_n512_f32_1_alg».proof.Proof.Gen.Pre_finite_inputs_ReferenceIdeal
import proofs.«900697_g7700000000000698_dist_ar_v7x_i8_i_m512_n512_f32_1_alg».proof.Proof.Gen.ReferenceIdeal.Run
import proofs.«900697_g7700000000000698_dist_ar_v7x_i8_i_m512_n512_f32_1_alg».proof.Proof.Gen.ReferenceIdeal.Read
import proofs.«900697_g7700000000000698_dist_ar_v7x_i8_i_m512_n512_f32_1_alg».proof.Proof.KernelIdealAR.Contents
import Idealize.ShloMosaic.Lib.ValueIdx
import Idealize.ShloMosaic.Lib.Layout
import Idealize.ShloMosaic.PureOps.Ideal.Laws
import Mathlib.Algebra.BigOperators.Fin
import Mathlib.Algebra.BigOperators.Group.List.Basic

noncomputable section

namespace Cert.ReferenceIdeal.RefValue

open Idealize.ShloMosaic Idealize.SL.Sem
open Cert.KernelIdeal.AR

theorem frame_ri : Cert.frame_ReferenceIdeal :=
  fun m ρ _ => (θ_run Cert.ReferenceIdeal.defs _ _).mono (fun _ h c => (h c).2) (Cert.ReferenceIdeal.Value.run (F := Ideal) m ρ)

abbrev blk (X' : (⟨Cert.ReferenceIdeal.S4096x512, .f32⟩ : BufTy).Contents (Elt Ideal)) (d : Fin 8) :
    Cert.KernelIdeal.S512x512.Idx → Ideal .f32 :=
  Layout.block ⟨2, ![512, 512]⟩ ⟨2, ![4096, 512]⟩ 0 8 d X'

theorem wire_ideal (v : Ideal .f32) : wire (F := Ideal) v = v := rfl

/-- A device number under the masks 0, 1, 3, 4, 2, 5, 7, 6 runs through all eight devices. -/
theorem masks_perm : ∀ s : Fin 8,
    [s, pxn s 1, pxn s 3, pxn s 4, pxn s 2, pxn s 5, pxn s 7, pxn s 6].Perm (List.finRange 8) := by decide

/-- Exact addition is commutative and associative, so the sum in mask order is the sum over the eight blocks. -/
theorem accOf_ideal (X : Fin 8 → Cert.KernelIdeal.S512x512.Idx → Ideal .f32) (s : Fin 8) (i : Cert.KernelIdeal.S512x512.Idx) :
    accOf (F := Ideal) X s i = ∑ d : Fin 8, X d i := by
  have h := ((masks_perm s).map (fun d => (X d i : EReal))).sum_eq
  rw [Fin.sum_univ_def, ← h]
  simp only [List.map_cons, List.map_nil, List.sum_cons, List.sum_nil, add_zero]
  show (X s i + X (pxn s 1) i + X (pxn s 3) i + X (pxn s 4) i + X (pxn s 2) i + X (pxn s 5) i + X (pxn s 7) i
    + X (pxn s 6) i : EReal) = _
  simp only [add_assoc]

theorem outAt_ideal (X : Fin 8 → Cert.KernelIdeal.S512x512.Idx → Ideal .f32) (c : Fin 8) (i : Cert.KernelIdeal.S512x512.Idx) :
    outAt (F := Ideal) X c i = ∑ d : Fin 8, X d i := by
  unfold outAt
  rw [wire_ideal, ite_self, accOf_ideal]

/-- The reference's entry at (r, l) sums over d the whole array's entry at row 512 d + r, which is block d's entry at (r, l). -/
theorem ref_eq (X' : (⟨Cert.ReferenceIdeal.S4096x512, .f32⟩ : BufTy).Contents (Elt Ideal)) (c : Fin 8) :
    Cert.ReferenceIdeal.Read.val_main_v1 (F := Ideal) X' = outAt (F := Ideal) (blk X') c := by
  funext i
  rw [outAt_ideal, Cert.ReferenceIdeal.Read.val_main_v1_apply, Cert.ReferenceIdeal.Read.val_main_cst_apply,
    Ideal.ofBits_def, Ideal.ofBits_zero_f32, zero_add]
  refine Finset.sum_congr rfl fun k _ => ?_
  rw [Cert.ReferenceIdeal.Read.val_main_v0_apply]
  show X' _ = X' _
  refine congrArg X' (funext fun a => Fin.ext ?_)
  have h0 : (i 0).val < 512 := (i 0).isLt
  have h1 : (i 1).val < 512 := (i 1).isLt
  have hk : k.val < 8 := k.isLt
  match a with
  | ⟨0, _⟩ =>
    show ((k.val * 512 + (i 0).val) * 512 + (i 1).val) / 512 = k.val * 512 + (i 0).val
    omega
  | ⟨1, _⟩ =>
    show ((k.val * 512 + (i 0).val) * 512 + (i 1).val) % 512 = (i 1).val
    omega

end Cert.ReferenceIdeal.RefValue

end
-- ==== Proof.KernelIdealAR.ProtoA.lean ====
import proofs.«900697_g7700000000000698_dist_ar_v7x_i8_i_m512_n512_f32_1_alg».proof.Proof.Gen.KernelIdeal
import proofs.«900697_g7700000000000698_dist_ar_v7x_i8_i_m512_n512_f32_1_alg».proof.Proof.Gen.KernelIdeal.Launch
import proofs.«900697_g7700000000000698_dist_ar_v7x_i8_i_m512_n512_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def px (c : Dev nD) (k : Fin 8) : Dev nD := ⟨c.val ^^^ k.val, Nat.xor_lt_two_pow (n := 3) c.isLt k.isLt⟩

theorem px_px (c : Dev nD) (k : Fin 8) : px (px c k) k = c := by revert c k; decide
theorem px_zero (c : Dev nD) : px c 0 = c := by revert c; decide
theorem px_ne (c : Dev nD) (k : Fin 8) (hk : k ≠ 0) : px c k ≠ c := by revert c k; decide
def mk (c s : Dev nD) : Fin 8 := ⟨c.val ^^^ s.val, Nat.xor_lt_two_pow (n := 3) c.isLt s.isLt⟩
theorem px_mk (c s : Dev nD) : px c (mk c s) = s := by revert c s; decide
theorem mk_px (c : Dev nD) (k : Fin 8) : mk c (px c k) = k := by revert c k; decide

abbrev xM : Memref sig .tc .vmem S512x512 .f32 := Memref.whole cc0_stg0_0
abbrev outM : Memref sig .tc .vmem S512x512 .f32 := Memref.whole cc0_stg1_0
abbrev xbM : Memref sig .tc .vmem S512x512 .bf16 := Memref.whole cc0_scratch0
abbrev gM : Memref sig .tc .vmem S8x64x512 .bf16 := Memref.whole cc0_scratch1
abbrev aM : Memref sig .tc .vmem S64x512 .bf16 := Memref.whole cc0_scratch2
abbrev oM : Memref sig .tc .vmem S8x64x512 .bf16 := Memref.whole cc0_scratch3

theorem inb3 (s : Fin 8) (h : Fin 4) : ∀ a, (![s.val, 0, 128 * h.val] : Fin 3 → Nat) a + S1x64x128.size a ≤ S8x64x512.size a := by
  revert s h; decide
theorem inbX (p : Fin 8) (h : Fin 4) : ∀ a, (![64 * p.val, 128 * h.val] : Fin 2 → Nat) a + S64x128.size a ≤ S512x512.size a := by
  revert p h; decide
theorem inbA (h : Fin 4) : ∀ a, (![0, 128 * h.val] : Fin 2 → Nat) a + S64x128.size a ≤ S64x512.size a := by
  revert h; decide
theorem inbS (h : Fin 4) (j : Fin 8) : ∀ a, (![h.val, j.val] : Fin 2 → Nat) a + S1x1.size a ≤ S4x8.size a := by
  revert h j; decide

abbrev slot (M : Memref sig .tc .vmem S8x64x512 .bf16) (s : Fin 8) (h : Fin 4) : Memref sig .tc .vmem S64x128 .bf16 :=
  (M.slice (Rect.unit (s := S8x64x512) ![s.val, 0, 128 * h.val] S1x64x128.size (inb3 s h)) (fun _ => rfl)).squeeze S64x128 squeezes_S1x64x128_S64x128
abbrev xbPiece (p : Fin 8) (h : Fin 4) : Memref sig .tc .vmem S64x128 .bf16 :=
  xbM.slice (Rect.unit (s := S512x512) ![64 * p.val, 128 * h.val] S64x128.size (inbX p h)) (fun _ => rfl)
abbrev aPiece (h : Fin 4) : Memref sig .tc .vmem S64x128 .bf16 :=
  aM.slice (Rect.unit (s := S64x512) ![0, 128 * h.val] S64x128.size (inbA h)) (fun _ => rfl)

abbrev dsem (A : DmaSems sig S4x8) (h : Fin 4) (j : Fin 8) : DmaSem sig :=
  ((A.slice (Rect.unit (s := S4x8) ![h.val, j.val] S1x1.size (inbS h j))).squeeze S_ squeezes_S1x1_S_).sem

abbrev barS : Sem sig := (SemArray.scalar (sig.barrier 0 rfl) : Sems sig S_).sem
abbrev barCell (c : Dev nD) : GSem nD τ sig := ((c : Thread nD τ), .reg barS)
abbrev s1Cell (c : Dev nD) (h : Fin 4) (k : Fin 8) : GSem nD τ sig := ((c : Thread nD τ), .dma (dsem cc0_scratch4 h k))
abbrev r1Cell (c : Dev nD) (h : Fin 4) (s : Fin 8) : GSem nD τ sig := ((c : Thread nD τ), .dma (dsem cc0_scratch5 h s))
abbrev s2Cell (c : Dev nD) (h : Fin 4) (k : Fin 8) : GSem nD τ sig := ((c : Thread nD τ), .dma (dsem cc0_scratch6 h k))
abbrev r2Cell (c : Dev nD) (h : Fin 4) (s : Fin 8) : GSem nD τ sig := ((c : Thread nD τ), .dma (dsem cc0_scratch7 h s))

theorem dsem_val5 (h : Fin 4) (j : Fin 8) : (dsem cc0_scratch5 h j).val = 34 + 8 * h.val + j.val := by revert h j; decide
theorem dsem_val7 (h : Fin 4) (j : Fin 8) : (dsem cc0_scratch7 h j).val = 98 + 8 * h.val + j.val := by revert h j; decide

abbrev N : ℕ := (slot gM 0 0).view.dmaCredit
theorem N_pos : 0 < N := View.dmaCredit_pos _ (by decide)

end Cert.KernelIdeal.AR

end
-- ==== Proof.KernelIdealAR.ProtoB.lean ====
import proofs.«900697_g7700000000000698_dist_ar_v7x_i8_i_m512_n512_f32_1_alg».proof.Proof.KernelIdealAR.ProtoA
import proofs.«900697_g7700000000000698_dist_ar_v7x_i8_i_m512_n512_f32_1_alg».proof.Proof.KernelIdealAR.Contents
import Idealize.ShloMosaic.Lib.ValueIdx

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def X (d : Fin 8) : S512x512.Idx → F .f32 :=
  (win0_0.blk (0 : Fin 1)).view.read (Elt F) (m (((d : Dev nD) : Thread nD τ).loc main_arg0))

def narrow (v : F .f32) : F .bf16 := FloatOps.truncf .bf16 bitsLt_bf16_f32 v

def ixg (p : Fin 8) (r : Fin 64) (l : Fin 512) : S512x512.Idx :=
  ValueIdx.ix2 ⟨64 * p.val + r.val, by have := p.isLt; have := r.isLt; omega⟩ l

def XB (c : Dev nD) : Buf (Elt F) ((c : Thread nD τ).loc cc0_scratch0) := fun i => narrow (X m c i)
def G1 (c : Dev nD) : Buf (Elt F) ((c : Thread nD τ).loc cc0_scratch1) := fun i => narrow (X m (i 0) (ixg c (i 1) (i 2)))
def AB (c : Dev nD) : Buf (Elt F) ((c : Thread nD τ).loc cc0_scratch2) := fun i => narrow (accOf (X m) c (ixg c (i 0) (i 1)))
def OB (c : Dev nD) : Buf (Elt F) ((c : Thread nD τ).loc cc0_scratch3) := fun i => narrow (accOf (X m) (i 0) (ixg (i 0) (i 1) (i 2)))

def remShare : ℕ → PosShare TreeShare
  | 0 => fullShare
  | n + 1 => (remShare n).left
def lentShare (n : ℕ) : PosShare TreeShare := (remShare n).right
def farPos (k : Fin 8) : ℕ := match k with
  | ⟨6, _⟩ => 0 | ⟨7, _⟩ => 1 | ⟨5, _⟩ => 2 | ⟨2, _⟩ => 3 | ⟨4, _⟩ => 4 | ⟨3, _⟩ => 5 | ⟨1, _⟩ => 6 | _ => 7

def barPay (c p : Dev nD) : sProp 𝕄 :=
  iprop((bigSep Finset.univ fun h : Fin 4 => iprop(∃ f, (slot gM c h).view.loc (p : Thread nD τ) ↦[(slot gM c h).view.set]{fullShare} f))
    ∗ (bigSep Finset.univ fun h : Fin 4 => iprop(∃ f, (slot oM c h).view.loc (p : Thread nD τ) ↦[(slot oM c h).view.set]{fullShare} f)))
def s1Pay (c : Dev nD) (h : Fin 4) (k : Fin 8) : sProp 𝕄 :=
  (xbPiece (px c k) h).view.loc (c : Thread nD τ) ↦[(xbPiece (px c k) h).view.set]{fullShare} XB m c
def r1Pay (c : Dev nD) (h : Fin 4) (s : Fin 8) : sProp 𝕄 :=
  (slot gM s h).view.loc (c : Thread nD τ) ↦[(slot gM s h).view.set]{fullShare} G1 m c
def s2Pay (c : Dev nD) (h : Fin 4) (k : Fin 8) : sProp 𝕄 :=
  (aPiece h).view.loc (c : Thread nD τ) ↦[(aPiece h).view.set]{lentShare (farPos k)} AB m c
def r2Pay (c : Dev nD) (h : Fin 4) (s : Fin 8) : sProp 𝕄 :=
  (slot oM s h).view.loc (c : Thread nD τ) ↦[(slot oM s h).view.set]{fullShare} OB m c

def dec (i : DmaSem sig) : Option (Fin 4 × Fin 4 × Fin 8) :=
  if h : 2 ≤ i.val then
    some (⟨(i.val - 2) / 32, by have := i.isLt; show _ < 4; have : i.val < 130 := i.isLt; omega⟩,
          ⟨(i.val - 2) % 32 / 8, by show _ < 4; omega⟩, ⟨(i.val - 2) % 8, by show _ < 8; omega⟩)
  else none

theorem dec4 (h : Fin 4) (j : Fin 8) : dec (dsem cc0_scratch4 h j) = some (0, h, j) := by revert h j; decide
theorem dec5 (h : Fin 4) (j : Fin 8) : dec (dsem cc0_scratch5 h j) = some (1, h, j) := by revert h j; decide
theorem dec6 (h : Fin 4) (j : Fin 8) : dec (dsem cc0_scratch6 h j) = some (2, h, j) := by revert h j; decide
theorem dec7 (h : Fin 4) (j : Fin 8) : dec (dsem cc0_scratch7 h j) = some (3, h, j) := by revert h j; decide

def used (a : Fin 4) (c : Dev nD) (j : Fin 8) : Prop := if a.val % 2 = 0 then j ≠ 0 else j ≠ c
instance (a : Fin 4) (c : Dev nD) (j : Fin 8) : Decidable (used a c j) := by unfold used; infer_instance

def dmaPay (a : Fin 4) (c : Dev nD) (h : Fin 4) (j : Fin 8) : sProp 𝕄 :=
  match a with
  | ⟨0, _⟩ => s1Pay m c h j
  | ⟨1, _⟩ => r1Pay m c h j
  | ⟨2, _⟩ => s2Pay m c h j
  | _ => r2Pay m c h j

def Rd : Rounds.Schedule (GSem nD τ sig) (Fin 8) 𝕄 where
  duties g r :=
    if r ≠ 0 ∨ g.1.2 ≠ .tc then ∅ else
      match g.2 with
      | .reg s => if s = barS then Finset.univ.erase 0 else ∅
      | .dma i => match dec i with
        | none => ∅
        | some (a, _, j) => if used a g.1.1 j then {0} else ∅
  unitless _ := False
  amount g _ _ := match g.2 with | .reg _ => 1 | .dma _ => N
  payload g _ d := match g.2 with
    | .reg _ => barPay g.1.1 (px g.1.1 d)
    | .dma i => match dec i with
      | none => iprop(emp)
      | some (a, h, j) => dmaPay m a g.1.1 h j
  amount_pos g _ _ _ := by
    cases g.2 with
    | reg _ => exact Nat.one_pos
    | dma _ => exact N_pos

end Cert.KernelIdeal.AR

end
-- ==== Proof.KernelIdealAR.ProtoC.lean ====
import proofs.«900697_g7700000000000698_dist_ar_v7x_i8_i_m512_n512_f32_1_alg».proof.Proof.KernelIdealAR.ProtoB

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def far : Fin 7 → Fin 8 := ![6, 7, 5, 2, 4, 3, 1]
def near : Fin 7 → Fin 8 := ![1, 3, 4, 2, 5, 7, 6]
theorem far_ne (j : Fin 7) : far j ≠ 0 := by revert j; decide
theorem near_ne (j : Fin 7) : near j ≠ 0 := by revert j; decide
theorem farPos_far (j : Fin 7) : farPos (far j) = j.val := by revert j; decide

section Tables
variable (c : Dev nD) (h : Fin 4)

theorem duties_bar : (Rd (F := F) m).duties (barCell c) 0 = Finset.univ.erase 0 := by
  dsimp only [Rd]; rw [if_neg (by simp)]; exact if_pos rfl
theorem duties_s1 (k : Fin 8) (hk : k ≠ 0) : (Rd (F := F) m).duties (s1Cell c h k) 0 = {0} := by
  dsimp only [Rd]; rw [if_neg (by simp)]; simp only [dec4]; exact if_pos (by unfold used; simpa using hk)
theorem duties_r1 (s : Fin 8) (hs : s ≠ c) : (Rd (F := F) m).duties (r1Cell c h s) 0 = {0} := by
  dsimp only [Rd]; rw [if_neg (by simp)]; simp only [dec5]; exact if_pos (by unfold used; simpa using hs)
theorem duties_s2 (k : Fin 8) (hk : k ≠ 0) : (Rd (F := F) m).duties (s2Cell c h k) 0 = {0} := by
  dsimp only [Rd]; rw [if_neg (by simp)]; simp only [dec6]; exact if_pos (by unfold used; simpa using hk)
theorem duties_r2 (s : Fin 8) (hs : s ≠ c) : (Rd (F := F) m).duties (r2Cell c h s) 0 = {0} := by
  dsimp only [Rd]; rw [if_neg (by simp)]; simp only [dec7]; exact if_pos (by unfold used; simpa using hs)
theorem duties_later (g : GSem nD τ sig) : ∀ r, 1 ≤ r → (Rd (F := F) m).duties g r = ∅ :=
  fun r hr => by dsimp only [Rd]; exact if_pos (Or.inl (by omega))

theorem amount_bar (d : Fin 8) : (Rd (F := F) m).amount (barCell c) 0 d = 1 := rfl
theorem amount_dma (i : DmaSem sig) (d : Fin 8) : (Rd (F := F) m).amount ((c : Thread nD τ), .dma i) 0 d = N := rfl

theorem payload_bar (d : Fin 8) : (Rd (F := F) m).payload (barCell c) 0 d = barPay c (px c d) := rfl
theorem payload_s1 (k : Fin 8) (d : Fin 8) : (Rd (F := F) m).payload (s1Cell c h k) 0 d = s1Pay m c h k := by
  dsimp only [Rd]; simp only [dec4]; rfl
theorem payload_r1 (s : Fin 8) (d : Fin 8) : (Rd (F := F) m).payload (r1Cell c h s) 0 d = r1Pay m c h s := by
  dsimp only [Rd]; simp only [dec5]; rfl
theorem payload_s2 (k : Fin 8) (d : Fin 8) : (Rd (F := F) m).payload (s2Cell c h k) 0 d = s2Pay m c h k := by
  dsimp only [Rd]; simp only [dec6]; rfl
theorem payload_r2 (s : Fin 8) (d : Fin 8) : (Rd (F := F) m).payload (r2Cell c h s) 0 d = r2Pay m c h s := by
  dsimp only [Rd]; simp only [dec7]; rfl

theorem expect_bar : (Rd (F := F) m).expect (barCell c) 0 = 7 := by
  unfold Schedule.expect Schedule.amountOf
  rw [duties_bar, Finset.sum_congr rfl fun d _ => amount_bar m c d, Finset.sum_const, smul_eq_mul, Nat.mul_one]; decide
theorem expect_s1 (k : Fin 8) (hk : k ≠ 0) : (Rd (F := F) m).expect (s1Cell c h k) 0 = N := by
  unfold Schedule.expect Schedule.amountOf; rw [duties_s1 m c h k hk, Finset.sum_singleton]; rfl
theorem expect_r1 (s : Fin 8) (hs : s ≠ c) : (Rd (F := F) m).expect (r1Cell c h s) 0 = N := by
  unfold Schedule.expect Schedule.amountOf; rw [duties_r1 m c h s hs, Finset.sum_singleton]; rfl
theorem expect_s2 (k : Fin 8) (hk : k ≠ 0) : (Rd (F := F) m).expect (s2Cell c h k) 0 = N := by
  unfold Schedule.expect Schedule.amountOf; rw [duties_s2 m c h k hk, Finset.sum_singleton]; rfl
theorem expect_r2 (s : Fin 8) (hs : s ≠ c) : (Rd (F := F) m).expect (r2Cell c h s) 0 = N := by
  unfold Schedule.expect Schedule.amountOf; rw [duties_r2 m c h s hs, Finset.sum_singleton]; rfl

end Tables

def pay (c : Dev nD) (n : ℕ) : CellTallies nD τ sig Unit :=
  if n < 7 then tallyAt (barCell (px c (far ⟨n % 7, Nat.mod_lt _ (by decide)⟩))) () 1
  else if n < 35 then
    tallyAt (r1Cell (px c (far ⟨(n - 7) % 7, Nat.mod_lt _ (by decide)⟩)) ⟨(n - 7) / 7 % 4, Nat.mod_lt _ (by decide)⟩ c) () N
  else tallyAt (r2Cell (px c (far ⟨(n - 35) % 7, Nat.mod_lt _ (by decide)⟩)) ⟨(n - 35) / 7 % 4, Nat.mod_lt _ (by decide)⟩ c) () N

def owedFrom (c : Dev nD) (n : ℕ) : CellTallies nD τ sig Unit := ∑ i ∈ Finset.Ico n 63, pay c i

theorem owedFrom_step (c : Dev nD) (n : ℕ) (hn : n < 63) : owedFrom c n = owedFrom c (n + 1) + pay c n := by
  unfold owedFrom; rw [Finset.sum_eq_sum_Ico_succ_bot hn, add_comm]
theorem owedFrom_end (c : Dev nD) : owedFrom c 63 = 0 := by unfold owedFrom; simp

def O₀ (c : Dev nD) : CellTallies nD τ sig Unit := owedFrom c 0

def L (g : GSem nD τ sig) : Finset Unit := if g.1.2 = .tc then {()} else ∅
def lv (g : GSem nD τ sig) (_ : Unit) : ℕ :=
  match g.2 with
  | .reg s => if s = barS then 1 else 0
  | .dma i => match dec i with
    | some (a, _, _) => if a = 1 then 2 else if a = 3 then 3 else 0
    | none => 0

theorem L_of_ne (g : GSem nD τ sig) (hg : g.1.2 ≠ .tc) : L g = ∅ := if_neg hg
theorem L_tc (c : Dev nD) (sm : SemLoc sig) : L ((c : Thread nD τ), sm) = {()} := if_pos rfl
theorem lv_bar (c : Dev nD) : lv (barCell c) () = 1 := by unfold lv; exact if_pos rfl
theorem lv_r1 (c : Dev nD) (h : Fin 4) (s : Fin 8) : lv (r1Cell c h s) () = 2 := by unfold lv; simp only [dec5]; rfl
theorem lv_r2 (c : Dev nD) (h : Fin 4) (s : Fin 8) : lv (r2Cell c h s) () = 3 := by unfold lv; simp only [dec7]; rfl

end Cert.KernelIdeal.AR

end
-- ==== Proof.KernelIdealAR.ProtoD.lean ====
import proofs.«900697_g7700000000000698_dist_ar_v7x_i8_i_m512_n512_f32_1_alg».proof.Proof.KernelIdealAR.ProtoC

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev CIx : Type := Option (Fin 4 × Fin 4 × Fin 8)
abbrev arr (a : Fin 4) : DmaSems sig S4x8 := match a with
  | ⟨0, _⟩ => cc0_scratch4 | ⟨1, _⟩ => cc0_scratch5 | ⟨2, _⟩ => cc0_scratch6 | _ => cc0_scratch7
abbrev kcell (ck : Dev nD × CIx) : GSem nD τ sig := match ck.2 with
  | none => barCell ck.1
  | some (a, h, j) => ((ck.1 : Thread nD τ), .dma (dsem (arr a) h j))
def usedIx (c : Dev nD) : CIx → Prop
  | none => True
  | some (a, _, j) => used a c j
instance (c : Dev nD) (i : CIx) : Decidable (usedIx c i) := by cases i <;> unfold usedIx <;> infer_instance

def records (K : Dev nD × CIx → ℕ) : sProp 𝕄 :=
  iprop((bigSep (Finset.univ.filter fun ck : Dev nD × CIx => usedIx ck.1 ck.2) fun ck => cellInv ER (Rd m) (K ck) (kcell ck))
    ∗ (bigSep (Finset.univ.filter fun ck : Dev nD × CIx => usedIx ck.1 ck.2) fun ck => reached ER (kcell ck) 0)
    ∗ levAts L lv)

structure Stage where
  paid : ℕ
  sigTodo : Finset (Fin 7)
  barTodo : Bool
  s1Todo : Finset (Fin 4 × Fin 7)
  s1Fly : Finset (Fin 4 × Fin 7)
  s1Done : Finset (Fin 4 × Fin 7)
  r1Todo : Finset (Fin 4 × Fin 7)
  r1Done : Finset (Fin 4 × Fin 7)
  s2Todo : Finset (Fin 4 × Fin 7)
  s2Fly : Finset (Fin 4 × Fin 7)
  s2Done : Finset (Fin 4 × Fin 7)
  r2Todo : Finset (Fin 4 × Fin 7)
  r2Done : Finset (Fin 4 × Fin 7)
  xbRaw : Finset (Fin 4)
  xbHave : Finset (Fin 8 × Fin 4)
  gMine : Finset (Fin 8 × Fin 4)
  gLanded : Finset (Fin 8 × Fin 4)
  gPeer : Finset (Fin 7 × Fin 4)
  aRaw : Finset (Fin 4)
  aSent : Fin 4 → ℕ
  aBack : Finset (Fin 4 × Fin 7)
  oMine : Finset (Fin 8 × Fin 4)
  oLanded : Finset (Fin 8 × Fin 4)
  oPeer : Finset (Fin 7 × Fin 4)
  outDone : Finset (Fin 8 × Fin 4)

def σ₀ : Stage where
  paid := 0
  sigTodo := Finset.univ
  barTodo := true
  s1Todo := Finset.univ
  s1Fly := ∅
  s1Done := ∅
  r1Todo := Finset.univ
  r1Done := ∅
  s2Todo := Finset.univ
  s2Fly := ∅
  s2Done := ∅
  r2Todo := Finset.univ
  r2Done := ∅
  xbRaw := Finset.univ
  xbHave := ∅
  gMine := Finset.univ
  gLanded := ∅
  gPeer := ∅
  aRaw := Finset.univ
  aSent := fun _ => 0
  aBack := ∅
  oMine := Finset.univ
  oLanded := ∅
  oPeer := ∅
  outDone := ∅

section St
variable (K : Dev nD × CIx → ℕ) (σ : Stage) (c : Dev nD)

abbrev closedAt (g : GSem nD τ sig) : sProp 𝕄 := semVal g 0
abbrev waitingAt (g : GSem nD τ sig) (n : ℕ) : sProp 𝕄 := iprop(atPos ER g 0 ∅ 0 ∗ cred (tallyAt g () n))

def stOwes : sProp 𝕄 := iprop(∃ W, owes (c : Thread nD τ) (owedFrom c σ.paid) W)

def unusedSems : sProp 𝕄 :=
  bigSep (Finset.univ.filter fun i : Fin 4 × Fin 4 × Fin 8 => ¬ used i.1 c i.2.2) fun i => semVal ((c : Thread nD τ), .dma (dsem (arr i.1) i.2.1 i.2.2)) 0

def stCells : sProp 𝕄 :=
  iprop((bigSep σ.sigTodo fun j => dutyTok ER (barCell (px c (far j))) 0 (far j))
    ∗ (if σ.barTodo then waitingAt (barCell c) 7 else iprop(emp))
    ∗ (bigSep σ.s1Todo fun hj => iprop(atPos ER (s1Cell c hj.1 (far hj.2)) 0 ∅ 0 ∗ dutyTok ER (s1Cell c hj.1 (far hj.2)) 0 0
          ∗ dutyTok ER (r1Cell (px c (far hj.2)) hj.1 c) 0 0))
    ∗ (bigSep σ.s1Fly fun hj => waitingAt (s1Cell c hj.1 (far hj.2)) N)
    ∗ (bigSep σ.s1Done fun hj => closedAt (s1Cell c hj.1 (far hj.2)))
    ∗ (bigSep σ.r1Todo fun hj => waitingAt (r1Cell c hj.1 (px c (near hj.2))) N)
    ∗ (bigSep σ.r1Done fun hj => closedAt (r1Cell c hj.1 (px c (near hj.2))))
    ∗ (bigSep σ.s2Todo fun hj => iprop(atPos ER (s2Cell c hj.1 (far hj.2)) 0 ∅ 0 ∗ dutyTok ER (s2Cell c hj.1 (far hj.2)) 0 0
          ∗ dutyTok ER (r2Cell (px c (far hj.2)) hj.1 c) 0 0))
    ∗ (bigSep σ.s2Fly fun hj => waitingAt (s2Cell c hj.1 (far hj.2)) N)
    ∗ (bigSep σ.s2Done fun hj => closedAt (s2Cell c hj.1 (far hj.2)))
    ∗ (bigSep σ.r2Todo fun hj => waitingAt (r2Cell c hj.1 (px c (near hj.2))) N)
    ∗ (bigSep σ.r2Done fun hj => closedAt (r2Cell c hj.1 (px c (near hj.2)))))

abbrev slotAny (M : Memref sig .tc .vmem S8x64x512 .bf16) (d : Dev nD) (s : Fin 8) (h : Fin 4) : sProp 𝕄 :=
  iprop(∃ f, (slot M s h).view.loc (d : Thread nD τ) ↦[(slot M s h).view.set]{fullShare} f)

abbrev rX (h : Fin 4) : Rect S512x512 := Rect.unit (s := S512x512) ![0, 128 * h.val] S512x128.size (by revert h; decide)
abbrev rA (h : Fin 4) : Rect S64x512 := Rect.unit (s := S64x512) ![0, 128 * h.val] S64x128.size (inbA h)
abbrev rOwn (p : Fin 8) (h : Fin 4) : Rect S512x512 := Rect.unit (s := S512x512) ![64 * p.val, 128 * h.val] S64x128.size (inbX p h)
abbrev rG (s : Fin 8) (h : Fin 4) : Rect S8x64x512 := Rect.unit (s := S8x64x512) ![s.val, 0, 128 * h.val] S1x64x128.size (inb3 s h)

def stStage : sProp 𝕄 :=
  iprop((((c : Thread nD τ).loc cc0_stg0_0) ↦{fullShare} X m c)
    ∗ (∃ f : Buf (Elt F) ((c : Thread nD τ).loc cc0_stg1_0),
        ⌜∀ kh ∈ σ.outDone, ∀ i ∈ (outM.access (rOwn (px c kh.1) kh.2)).set, f i = outAt (X m) c i⌝ ∗ (((c : Thread nD τ).loc cc0_stg1_0) ↦{fullShare} f)))

def stScratch : sProp 𝕄 :=
  iprop(
    (bigSep σ.xbRaw fun h => iprop(∃ f, (xbM.access (rX h)).loc (c : Thread nD τ) ↦[(xbM.access (rX h)).set]{fullShare} f))
    ∗ (bigSep σ.xbHave fun kh => (xbPiece (px c kh.1) kh.2).view.loc (c : Thread nD τ) ↦[(xbPiece (px c kh.1) kh.2).view.set]{fullShare} XB m c)
    ∗ (bigSep σ.gMine fun kh => slotAny gM c (px c kh.1) kh.2)
    ∗ (bigSep σ.gLanded fun kh => (slot gM (px c kh.1) kh.2).view.loc (c : Thread nD τ) ↦[(slot gM (px c kh.1) kh.2).view.set]{fullShare} G1 m c)
    ∗ (bigSep σ.gPeer fun jh => slotAny gM (px c (far jh.1)) c jh.2)
    ∗ (bigSep σ.aRaw fun h => iprop(∃ f, (aPiece h).view.loc (c : Thread nD τ) ↦[(aPiece h).view.set]{fullShare} f))
    ∗ (bigSep (Finset.univ \ σ.aRaw) fun h => (aPiece h).view.loc (c : Thread nD τ) ↦[(aPiece h).view.set]{remShare (σ.aSent h)} AB m c)
    ∗ (bigSep σ.aBack fun hj => (aPiece hj.1).view.loc (c : Thread nD τ) ↦[(aPiece hj.1).view.set]{lentShare hj.2.val} AB m c)
    ∗ (bigSep σ.oMine fun kh => slotAny oM c (px c kh.1) kh.2)
    ∗ (bigSep σ.oLanded fun kh => (slot oM (px c kh.1) kh.2).view.loc (c : Thread nD τ) ↦[(slot oM (px c kh.1) kh.2).view.set]{fullShare} OB m c)
    ∗ (bigSep σ.oPeer fun jh => slotAny oM (px c (far jh.1)) c jh.2))

def St : sProp 𝕄 := iprop(records m K ∗ stOwes σ c ∗ stCells σ c ∗ unusedSems c ∗ stStage m σ c ∗ stScratch m σ c)

end St

end Cert.KernelIdeal.AR

end
-- ==== Proof.KernelIdealAR.ProtoE.lean ====
import proofs.«900697_g7700000000000698_dist_ar_v7x_i8_i_m512_n512_f32_1_alg».proof.Proof.KernelIdealAR.ProtoD
import proofs.«900697_g7700000000000698_dist_ar_v7x_i8_i_m512_n512_f32_1_alg».proof.Proof.Gen.KernelIdeal.Frame

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev 𝒱₀ : Variants := Variants.none

abbrev osem : Fin 4 × Fin 4 × Fin 8 → SemLoc sig := fun i => .dma (dsem (arr i.1) i.2.1 i.2.2)

def Φ₀ (c : Dev nD) : sProp 𝕄 := iprop(∃ K, records m K ∗ stCells σ₀ c ∗ unusedSems c ∗ stScratch m σ₀ c)
def Φ₁ (c : Dev nD) : sProp 𝕄 := iprop(Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => outAt (X m) c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.AR

end
-- ==== Proof.KernelIdealAR.FrameOf.lean ====
import proofs.«900697_g7700000000000698_dist_ar_v7x_i8_i_m512_n512_f32_1_alg».proof.Defs
import proofs.«900697_g7700000000000698_dist_ar_v7x_i8_i_m512_n512_f32_1_alg».proof.Proof.Gen.KernelIdeal
import proofs.«900697_g7700000000000698_dist_ar_v7x_i8_i_m512_n512_f32_1_alg».proof.Proof.Gen.Pre_finite_inputs_Kernel
import proofs.«900697_g7700000000000698_dist_ar_v7x_i8_i_m512_n512_f32_1_alg».proof.Proof.KernelIdealAR.ProtoE

noncomputable section

namespace Cert.KernelIdeal.AR

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]

theorem X_eq (m : (ℓ : Loc nD τ sig) → Buf (Elt F) ℓ) (d : Dev nD) : X m d = m ((d : Thread nD τ).loc main_arg0) := by
  unfold X
  exact Memref.read_access_unit_zero (Elt F) main_arg0 (funext fun a => Nat.zero_mul _) _ _

theorem frame_of_run
    (hrun : ∀ (m : (ℓ : Loc nD τ sig) → Buf (Elt F) ℓ) (ρ : Dev nD → PrngReg),
      θ_run defs (onTc (τ := τ) (main (F := F))) (s₀ m ρ) (fun r => ∀ c : Dev nD, ∀ w : Fin cfg0.W,
        r.2.mem ((cfg0.win w).arr.view.loc (c : Thread nD τ)) = (dats m ρ 0 c).arrAt w cfg0.N))
    (hx : ∀ (m : (ℓ : Loc nD τ sig) → Buf (Elt F) ℓ) (ρ : Dev nD → PrngReg) (c : Dev nD),
      (dats (F := F) m ρ 0 c).arrAt (0 : Fin 2) cfg0.N = (s₀ m ρ).mem (win0_0.arr.view.loc (c : Thread nD τ)))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (hx m ρ c)) (hrun m ρ)

end Cert.KernelIdeal.AR

end
-- ==== Proof.KernelIdealAR.Assemble.lean ====
import proofs.«900697_g7700000000000698_dist_ar_v7x_i8_i_m512_n512_f32_1_alg».proof.Defs
import proofs.«900697_g7700000000000698_dist_ar_v7x_i8_i_m512_n512_f32_1_alg».proof.Proof.Gen.Kernel
import proofs.«900697_g7700000000000698_dist_ar_v7x_i8_i_m512_n512_f32_1_alg».proof.Proof.Gen.KernelIdeal
import proofs.«900697_g7700000000000698_dist_ar_v7x_i8_i_m512_n512_f32_1_alg».proof.Proof.Gen.ReferenceIdeal
import proofs.«900697_g7700000000000698_dist_ar_v7x_i8_i_m512_n512_f32_1_alg».proof.Proof.Gen.Pre_finite_inputs_Kernel
import proofs.«900697_g7700000000000698_dist_ar_v7x_i8_i_m512_n512_f32_1_alg».proof.Proof.Gen.Pre_finite_inputs_ReferenceIdeal
import proofs.«900697_g7700000000000698_dist_ar_v7x_i8_i_m512_n512_f32_1_alg».proof.Proof.KernelIdealAR.FrameOf
import proofs.«900697_g7700000000000698_dist_ar_v7x_i8_i_m512_n512_f32_1_alg».proof.Proof.RefValue

noncomputable section

namespace Cert.KernelIdeal.AR

open Cert.KernelIdeal Cert.KernelIdeal.Gen
open Idealize.ShloMosaic
open Idealize.ShloMosaic.TcCoe
open Idealize.SL.Sem
open Idealize.ShloMosaic.Pipeline (Dat Cfg Window)

/-- Every device ends holding the reference's value: the sum of the eight blocks at every index. -/
theorem algebraic_of_run
    (hrun : ∀ (m : (ℓ : Loc nD τ sig) → Buf (Elt Ideal) ℓ) (ρ : Dev nD → PrngReg),
      θ_run defs (onTc (τ := τ) (main (F := Ideal))) (s₀ m ρ) (fun r => ∀ c : Dev nD, ∀ w : Fin cfg0.W,
        r.2.mem ((cfg0.win w).arr.view.loc (c : Thread nD τ)) = (dats m ρ 0 c).arrAt w cfg0.N))
    (hx : ∀ (m : (ℓ : Loc nD τ sig) → Buf (Elt Ideal) ℓ) (ρ : Dev nD → PrngReg) (c : Dev nD),
      (dats (F := Ideal) m ρ 0 c).arrAt (0 : Fin 2) cfg0.N = (s₀ m ρ).mem (win0_0.arr.view.loc (c : Thread nD τ)))
    (hout : ∀ (m : (ℓ : Loc nD τ sig) → Buf (Elt Ideal) ℓ) (ρ : Dev nD → PrngReg) (c : Dev nD), ∀ i,
      (dats (F := Ideal) m ρ 0 c).arrAt (1 : Fin 2) cfg0.N i = outAt (X m) c i) :
    Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run defs _ _).mono (fun r h c => ⟨?_, (h c 0).trans (hx m g c)⟩) (hrun m g)
    have hX : X m = Cert.ReferenceIdeal.RefValue.blk
        (m' (((0 : Dev Cert.ReferenceIdeal.nD).tc : Thread Cert.ReferenceIdeal.nD Cert.ReferenceIdeal.τ).loc Cert.ReferenceIdeal.main_arg0)) :=
      funext fun d => (X_eq m d).trans (hagree d)
    refine (h c 1).trans ?_
    rw [Cert.ReferenceIdeal.RefValue.ref_eq _ c, ← hX]
    exact funext fun i => hout m g c i
  · refine (θ_run Cert.ReferenceIdeal.defs _ _).mono (fun r h => ⟨?_, (h 0).2⟩)
      (Cert.ReferenceIdeal.Value.run (F := Ideal) m' g')
    exact (h 0).1.trans (Cert.ReferenceIdeal.Read.val_main_v1_eq _)

end Cert.KernelIdeal.AR

end
-- ==== Proof.KernelIdealAR.Levels.lean ====
import proofs.«900697_g7700000000000698_dist_ar_v7x_i8_i_m512_n512_f32_1_alg».proof.Proof.KernelIdealAR.ProtoE

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is owed from the `n`-th payment on is owed to barrier cells (level 1) only if `n < 7`, to phase-1 receive cells (level 2) only if `n < 35`, else to phase-2 receive cells (level 3). -/
theorem owedFrom_above {c : Dev nD} {n b : ℕ} (h1 : 1 ≤ b → 7 ≤ n) (h2 : 2 ≤ b → 35 ≤ n) (hb : b < 3)
    {g : GSem nD τ sig} {u : Unit} (h : 0 < owedFrom c n g u) : u ∈ L g ∧ b < lv g u := by
  unfold owedFrom at h
  obtain ⟨i, hi, hp⟩ := Pipeline.sum_pos_exists h
  have hni := (Finset.mem_Ico.mp hi).1
  unfold pay at hp
  split_ifs at hp with h7 h35 <;> obtain ⟨rfl, -⟩ := Pipeline.tallyAt_pos hp <;>
    refine ⟨by rw [L_tc]; exact Finset.mem_singleton_self _, ?_⟩
  · rw [lv_bar]; omega
  · rw [lv_r1]; omega
  · rw [lv_r2]; omega

/-- A device may wait on a cell of its own at level `b` once its barrier units are paid if `b ≥ 1` and its phase-1 copies too if `b ≥ 2`. -/
theorem mayWait_of (c : Dev nD) (sm : SemLoc sig) {n b : ℕ} (hlv : lv ((c : Thread nD τ), sm) () = b)
    (h1 : 1 ≤ b → 7 ≤ n) (h2 : 2 ≤ b → 35 ≤ n) (hb : b < 3) :
    (levAts L lv : sProp 𝕄) ⊢ MayWait (c : Thread nD τ) sm () (owedFrom c n) :=
  Pipeline.mayWait_of_levAts (by rw [L_tc]; exact Finset.mem_singleton_self _) fun g u hg => by
    rw [hlv]; exact owedFrom_above h1 h2 hb hg

theorem mayWait_bar (c : Dev nD) :
    (levAts L lv : sProp 𝕄) ⊢ MayWait (c : Thread nD τ) (.reg barS) () (owedFrom c 7) :=
  mayWait_of c _ (lv_bar c) (fun _ => le_refl _) (fun h => absurd h (by decide)) (by decide)

theorem mayWait_r1 (c : Dev nD) (h : Fin 4) (s : Fin 8) (n : ℕ) (hn : 35 ≤ n) :
    (levAts L lv : sProp 𝕄) ⊢ MayWait (c : Thread nD τ) (.dma (dsem cc0_scratch5 h s)) () (owedFrom c n) :=
  mayWait_of c _ (lv_r1 c h s) (fun _ => by omega) (fun _ => hn) (by decide)

/-- Semaphores 0 and 1 belong to none of the four arrays, so they sit at level 0, below everything a device ever owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact mayWait_of (b := 0) c _ (by unfold lv; simp only [show dec q = none from dif_neg (by omega)]) (fun h => absurd h (by decide))
      (fun h => absurd h (by decide)) (by decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

abbrev fj (n : ℕ) : Fin 7 := ⟨n % 7, Nat.mod_lt _ (by decide)⟩

/-- The semaphores of one 4×8 array are told apart by slab and column. -/
theorem dsem_inj {A : DmaSems sig S4x8} {o : ℕ} (hv : ∀ h j, (dsem A h j).val = o + 8 * h.val + j.val) {h h' : Fin 4} {j j' : Fin 8}
    (e : dsem A h j = dsem A h' j') : h = h' ∧ j = j' := by
  have := congrArg Fin.val e
  rw [hv, hv] at this
  exact ⟨Fin.ext (by omega), Fin.ext (by omega)⟩

theorem barCell_eq {p c : Dev nD} : barCell p = barCell c ↔ p = c :=
  ⟨fun e => congrArg (fun g : GSem nD τ sig => g.1.1) e, fun e => by rw [e]⟩
theorem rCell_eq {A : DmaSems sig S4x8} {o : ℕ} (hv : ∀ h j, (dsem A h j).val = o + 8 * h.val + j.val) {p c : Dev nD} {h h' : Fin 4} {s s' : Fin 8} :
    (((p : Thread nD τ), .dma (dsem A h s)) : GSem nD τ sig) = ((c : Thread nD τ), .dma (dsem A h' s')) ↔ p = c ∧ h = h' ∧ s = s' :=
  ⟨fun e => ⟨congrArg (fun g : GSem nD τ sig => g.1.1) e, dsem_inj hv (SemLoc.dma.inj (congrArg Prod.snd e))⟩,
    fun ⟨e1, e2, e3⟩ => by rw [e1, e2, e3]⟩
theorem bar_ne_dma (p : Dev nD) (t : Thread nD τ) (q : DmaSem sig) : barCell p ≠ (t, .dma q) := fun e => by
  cases congrArg Prod.snd e
theorem r1_ne_r2 (p c : Dev nD) (h h' : Fin 4) (s s' : Fin 8) : r1Cell p h s ≠ r2Cell c h' s' := fun e => by
  have := congrArg Fin.val (SemLoc.dma.inj (congrArg Prod.snd e))
  rw [dsem_val5, dsem_val7] at this
  omega

theorem pay_bar (d : Dev nD) (i : ℕ) (c : Dev nD) :
    pay d i (barCell c) () = if i < 7 ∧ px d (far (fj i)) = c then 1 else 0 := by
  unfold pay
  by_cases h1 : i < 7
  · rw [if_pos h1, tallyAt_apply]
    exact if_congr ⟨fun ⟨e, _⟩ => ⟨h1, (barCell_eq.mp e).symm⟩, fun ⟨_, e⟩ => ⟨barCell_eq.mpr e.symm, rfl⟩⟩ rfl rfl
  · rw [if_neg h1, if_neg (show ¬(i < 7 ∧ px d (far (fj i)) = c) from fun h => h1 h.1)]
    by_cases h2 : i < 35
    · rw [if_pos h2, tallyAt_ne_cell (bar_ne_dma _ _ _)]; rfl
    · rw [if_neg h2, tallyAt_ne_cell (bar_ne_dma _ _ _)]; rfl

theorem pay_r1 (d : Dev nD) (i : ℕ) (c : Dev nD) (h : Fin 4) (s : Fin 8) :
    pay d i (r1Cell c h s) () = if 7 ≤ i ∧ i < 7 + 28 ∧ px d (far (fj (i - 7))) = c ∧ (i - 7) / 7 % 4 = h.val ∧ d = s then N else 0 := by
  unfold pay
  by_cases h1 : i < 7
  · rw [if_pos h1, tallyAt_ne_cell (bar_ne_dma _ _ _).symm, if_neg (fun hh => by omega)]; rfl
  · rw [if_neg h1]
    by_cases h2 : i < 35
    · rw [if_pos h2, tallyAt_apply]
      refine if_congr ⟨fun ⟨e, _⟩ => ?_, fun ⟨_, _, e1, e2, e3⟩ => ⟨(rCell_eq dsem_val5).mpr ⟨e1.symm, Fin.ext e2.symm, e3.symm⟩, rfl⟩⟩ rfl rfl
      obtain ⟨e1, e2, e3⟩ := (rCell_eq dsem_val5).mp e
      exact ⟨by omega, by omega, e1.symm, (congrArg Fin.val e2).symm, e3.symm⟩
    · rw [if_neg h2, tallyAt_ne_cell (r1_ne_r2 _ _ _ _ _ _), if_neg (fun hh => by omega)]; rfl

theorem pay_r2 (d : Dev nD) (i : ℕ) (hi : i < 63) (c : Dev nD) (h : Fin 4) (s : Fin 8) :
    pay d i (r2Cell c h s) () = if 35 ≤ i ∧ i < 35 + 28 ∧ px d (far (fj (i - 35))) = c ∧ (i - 35) / 7 % 4 = h.val ∧ d = s then N else 0 := by
  unfold pay
  by_cases h1 : i < 7
  · rw [if_pos h1, tallyAt_ne_cell (bar_ne_dma _ _ _).symm, if_neg (fun hh => by omega)]; rfl
  · rw [if_neg h1]
    by_cases h2 : i < 35
    · rw [if_pos h2, tallyAt_ne_cell (r1_ne_r2 _ _ _ _ _ _).symm, if_neg (fun hh => by omega)]; rfl
    · rw [if_neg h2, tallyAt_apply]
      refine if_congr ⟨fun ⟨e, _⟩ => ?_, fun ⟨_, _, e1, e2, e3⟩ => ⟨(rCell_eq dsem_val7).mpr ⟨e1.symm, Fin.ext e2.symm, e3.symm⟩, rfl⟩⟩ rfl rfl
      obtain ⟨e1, e2, e3⟩ := (rCell_eq dsem_val7).mp e
      exact ⟨by omega, by omega, e1.symm, (congrArg Fin.val e2).symm, e3.symm⟩

theorem O₀_apply (d : Dev nD) (g : GSem nD τ sig) : O₀ d g () = ∑ i ∈ Finset.Ico 0 63, pay d i g () := by
  unfold O₀ owedFrom; rw [Finset.sum_apply, Finsupp.finsetSum_apply]

theorem farPos_lt {k : Fin 8} (hk : k ≠ 0) : farPos k < 7 := by revert k; decide
theorem far_of_pos {k : Fin 8} (hk : k ≠ 0) {j : Fin 7} (hj : j.val = farPos k) : far j = k := by revert k j; decide
theorem mk_ne_zero {s c : Dev nD} (h : s ≠ c) : mk s c ≠ 0 := by revert s c; decide
theorem px_eq_iff (d c : Dev nD) (k : Fin 8) : px d k = c ↔ d = px c k :=
  ⟨fun e => by rw [← e, px_px], fun e => by rw [e, px_px]⟩
theorem px_eq_mk {s c : Dev nD} {k : Fin 8} (e : px s k = c) : k = mk s c := by rw [← e, mk_px]

/-- Seven devices each owe a barrier cell one unit: for each of the seven masks, the partner under it. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  have hin : ∀ i, ∑ d : Dev nD, pay d i (barCell c) () = if i < 7 then 1 else 0 := fun i => by
    by_cases h1 : i < 7
    · rw [if_pos h1, Finset.sum_eq_single (px c (far (fj i)))]
      · rw [pay_bar, if_pos ⟨h1, px_px _ _⟩]
      · intro d _ hd; rw [pay_bar]; exact if_neg fun hh => hd ((px_eq_iff _ _ _).mp hh.2)
      · intro hn; exact absurd (Finset.mem_univ _) hn
    · rw [if_neg h1]; exact Finset.sum_eq_zero fun d _ => by rw [pay_bar]; exact if_neg fun hh => h1 hh.1
  rw [Pipeline.launchCredit_owing, Finsupp.single_eq_same, Finset.sum_congr rfl fun d _ => O₀_apply d (barCell c), Finset.sum_comm,
    Finset.sum_congr rfl fun i _ => hin i]
  decide

/-- A used receive cell is owed one slot's transfer, by its sender alone: of the sender's payments from `o` on exactly one lands on it, at slab `h` and the place of the mask that takes the sender to the receiver. -/
theorem launch_recv (g : GSem nD τ sig) (c : Dev nD) (h : Fin 4) (s : Fin 8) (hs : s ≠ c) (o : ℕ) (ho : o + 28 ≤ 63)
    (hpay : ∀ d i, i < 63 → pay d i g () = if o ≤ i ∧ i < o + 28 ∧ px d (far (fj (i - o))) = c ∧ (i - o) / 7 % 4 = h.val ∧ d = s then N else 0) :
    tallyOn g (launchCredit (Pipeline.owing O₀) 0 g) = (tallyAt g () N : CellTallies nD τ sig Unit) := by
  unfold tallyAt; refine congrArg _ (Finsupp.ext fun u => ?_); cases u
  have hk := mk_ne_zero hs
  have hlt := farPos_lt hk
  have hh := h.isLt
  rw [Pipeline.launchCredit_owing, Finsupp.single_eq_same, Finset.sum_eq_single (s : Dev nD)]
  · rw [O₀_apply, Finset.sum_eq_single_of_mem (o + 7 * h.val + farPos (mk s c)) (Finset.mem_Ico.mpr ⟨Nat.zero_le _, by omega⟩)]
    · rw [hpay _ _ (by omega), if_pos]
      refine ⟨by omega, by omega, ?_, by omega, rfl⟩
      rw [far_of_pos hk (j := fj (o + 7 * h.val + farPos (mk s c) - o)) (by show _ % 7 = _; omega), px_mk]
    · intro i hi hne
      rw [hpay _ i (Finset.mem_Ico.mp hi).2]
      refine if_neg fun ⟨h1, h2, h3, h4, _⟩ => hne ?_
      have e2 := farPos_far (fj (i - o))
      rw [px_eq_mk h3] at e2
      have e3 : (fj (i - o)).val = (i - o) % 7 := rfl
      omega
  · intro d _ hd
    rw [O₀_apply]
    exact Finset.sum_eq_zero fun i hi => by rw [hpay d i (Finset.mem_Ico.mp hi).2]; exact if_neg fun hh => hd hh.2.2.2.2
  · intro hn; exact absurd (Finset.mem_univ _) hn

end Cert.KernelIdeal.AR

end
-- ==== Proof.KernelIdealAR.Creds.lean ====
import proofs.«900697_g7700000000000698_dist_ar_v7x_i8_i_m512_n512_f32_1_alg».proof.Proof.KernelIdealAR.Levels

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
abbrev ksem (i : CIx) : SemLoc sig := match i with
  | none => .reg barS
  | some (a, h, j) => .dma (dsem (arr a) h j)
theorem kcell_eq (c : Dev nD) (i : CIx) : kcell (c, i) = ((c : Thread nD τ), ksem i) := by rcases i with _ | ⟨a, h, j⟩ <;> rfl
theorem dsem_val (a h : Fin 4) (j : Fin 8) : (dsem (arr a) h j).val = 2 + 32 * a.val + 8 * h.val + j.val := by revert a h j; decide
/-- The indexed cells have distinct semaphores: the DMA semaphores are numbered array by array and slab by slab, and the barrier's is none of them. -/
theorem ksem_injective : Function.Injective ksem := by
  rintro (_ | ⟨a, h, j⟩) (_ | ⟨a', h', j'⟩) e
  · rfl
  · cases e
  · cases e
  · have := congrArg Fin.val (SemLoc.dma.inj e)
    rw [dsem_val, dsem_val] at this
    rw [show a = a' from Fin.ext (by omega), show h = h' from Fin.ext (by omega), show j = j' from Fin.ext (by omega)]

omit [FloatOps F] in
theorem bigSep_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x; cases x <;> simp
  rw [bigSep_univ_split none, h, bigSep_map]; rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem used0 (c : Dev nD) (j : Fin 8) : used 0 c j ↔ j ≠ 0 := by unfold used; simp
theorem used1 (c : Dev nD) (j : Fin 8) : used 1 c j ↔ j ≠ c := by unfold used; simp
theorem used2 (c : Dev nD) (j : Fin 8) : used 2 c j ↔ j ≠ 0 := by unfold used; simp
theorem used3 (c : Dev nD) (j : Fin 8) : used 3 c j ↔ j ≠ c := by unfold used; simp

omit [FloatOps F] in
/-- One device's used cells are its barrier cell and its used DMA cells. -/
theorem bigSep_used_split (c : Dev nD) (Φ : CIx → sProp 𝕄) :
    bigSep (Finset.univ.filter (usedIx c)) Φ
      = iprop(Φ none ∗ bigSep (Finset.univ.filter fun i : Fin 4 × Fin 4 × Fin 8 => used i.1 c i.2.2) fun i => Φ (some i)) := by
  rw [bigSep_filter, bigSep_option, if_pos (show usedIx c none from trivial), bigSep_filter]
  exact congrArg _ (bigSep_congr fun i _ => if_congr Iff.rfl rfl rfl)

omit [FloatOps F] in
/-- A family over the nonzero masks, in an order `e` that lists them. -/
theorem bigSep_masks (e : Fin 7 ↪ Fin 8) (he : (Finset.univ.filter fun k : Fin 8 => k ≠ 0) = Finset.univ.map e) (Ψ : Fin 8 → sProp 𝕄) :
    (bigSep Finset.univ fun k : Fin 8 => if k ≠ 0 then Ψ k else BI.emp) = bigSep Finset.univ fun j : Fin 7 => Ψ (e j) := by
  rw [← bigSep_filter, he, bigSep_map]

def pxE (c : Dev nD) : Fin 8 ≃ Dev nD := ⟨px c, mk c, mk_px c, px_mk c⟩
theorem px_ne_iff (c : Dev nD) (k : Fin 8) : px c k ≠ c ↔ k ≠ 0 :=
  ⟨fun h hk => h (by rw [hk, px_zero]), px_ne c k⟩

omit [FloatOps F] in
/-- The devices other than `c` are its partners under the nonzero masks. -/
theorem bigSep_others (c : Dev nD) (Ψ : Fin 8 → sProp 𝕄) :
    (bigSep Finset.univ fun s : Dev nD => if s ≠ c then Ψ s else BI.emp)
      = bigSep Finset.univ fun k : Fin 8 => if k ≠ 0 then Ψ (px c k) else BI.emp := by
  rw [bigSep_univ_equiv (pxE c) (fun s : Dev nD => if s ≠ c then Ψ s else BI.emp)]
  exact bigSep_congr fun k _ => by
    show (if px c k ≠ c then Ψ (px c k) else BI.emp) = _
    simp only [px_ne_iff]

omit [FloatOps F] in
theorem bigSep_slab_far (Θ : Fin 4 → Fin 8 → sProp 𝕄) :
    (bigSep Finset.univ fun h : Fin 4 => bigSep Finset.univ fun j : Fin 8 => if j ≠ 0 then Θ h j else BI.emp)
      = bigSep Finset.univ fun hj : Fin 4 × Fin 7 => Θ hj.1 (far hj.2) := by
  rw [bigSep_univ_prod]; exact bigSep_congr fun h _ => bigSep_masks ⟨far, by decide⟩ (by decide) (Θ h)
omit [FloatOps F] in
theorem bigSep_slab_near (c : Dev nD) (Θ : Fin 4 → Fin 8 → sProp 𝕄) :
    (bigSep Finset.univ fun h : Fin 4 => bigSep Finset.univ fun s : Dev nD => if s ≠ c then Θ h s else BI.emp)
      = bigSep Finset.univ fun hj : Fin 4 × Fin 7 => Θ hj.1 (px c (near hj.2)) := by
  rw [bigSep_univ_prod]
  exact bigSep_congr fun h _ => (bigSep_others c (Θ h)).trans (bigSep_masks ⟨near, by decide⟩ (by decide) fun k => Θ h (px c k))

omit [FloatOps F] in
/-- One device's used cells in the order of its program: send columns in sending order, receive columns in waiting order. -/
theorem bigSep_used' (c : Dev nD) (Φ : CIx → sProp 𝕄) :
    bigSep (Finset.univ.filter (usedIx c)) Φ = iprop(Φ none
      ∗ (bigSep Finset.univ fun hj : Fin 4 × Fin 7 => Φ (some (0, hj.1, far hj.2)))
      ∗ (bigSep Finset.univ fun hj : Fin 4 × Fin 7 => Φ (some (1, hj.1, px c (near hj.2))))
      ∗ (bigSep Finset.univ fun hj : Fin 4 × Fin 7 => Φ (some (2, hj.1, far hj.2)))
      ∗ (bigSep Finset.univ fun hj : Fin 4 × Fin 7 => Φ (some (3, hj.1, px c (near hj.2))))) := by
  rw [bigSep_used_split, bigSep_filter, bigSep_univ_prod, bigSep_fin4]
  simp only [bigSep_univ_prod, used0, used1, used2, used3]
  rw [bigSep_slab_far (fun h j => Φ (some (0, h, j))), bigSep_slab_far (fun h j => Φ (some (2, h, j))),
    bigSep_slab_near c (fun h j => Φ (some (1, h, j))), bigSep_slab_near c (fun h j => Φ (some (3, h, j)))]
  simp only [bigSep_univ_prod]

/-- The credit of a device's waits: seven units at its barrier cell, one slot's transfer at each used receive cell. -/
def waitCreds (c : Dev nD) : sProp 𝕄 :=
  iprop(cred (tallyAt (barCell c) () 7)
    ∗ (bigSep (Finset.univ : Finset (Fin 4 × Fin 7)) fun hj => cred (tallyAt (r1Cell c hj.1 (px c (near hj.2))) () N))
    ∗ (bigSep (Finset.univ : Finset (Fin 4 × Fin 7)) fun hj => cred (tallyAt (r2Cell c hj.1 (px c (near hj.2))) () N)))

/-- The launch deals a device the credit of its waits: its used cells have distinct semaphores, and what is dealt for a send cell is let go. -/
theorem creds (c : Dev nD) : (Pipeline.launchCred O₀ c : sProp 𝕄) ⊢ waitCreds c := by
  unfold Pipeline.launchCred waitCreds
  have hsub := bigSep_subset (Finset.subset_univ ((Finset.univ.filter (usedIx c)).map ⟨ksem, ksem_injective⟩))
    (Φ := fun sm : SemLoc sig => (cred (tallyOn ((c : Thread nD τ), sm) (launchCredit (Pipeline.owing O₀) 0 ((c : Thread nD τ), sm))) : sProp 𝕄))
  rw [bigSep_map, bigSep_used' c] at hsub
  refine hsub.trans (show _ ⊢ (_ : sProp 𝕄) from ?_)
  iintro ⟨Hb, -, H1, -, H2⟩
  isplitl [Hb]
  · iapply (Entails.of_eq (congrArg cred (launch_bar c))); iexact Hb
  isplitl [H1]
  · iapply (Entails.of_eq (bigSep_congr fun (hj : Fin 4 × Fin 7) _ => congrArg cred
      (launch_recv _ c hj.1 _ (px_ne c _ (near_ne hj.2)) 7 (by decide) fun d i _ => pay_r1 d i c hj.1 _))); iexact H1
  · iapply (Entails.of_eq (bigSep_congr fun (hj : Fin 4 × Fin 7) _ => congrArg cred
      (launch_recv _ c hj.1 _ (px_ne c _ (near_ne hj.2)) 35 (by decide) fun d i hi => pay_r2 d i hi c hj.1 _))); iexact H2

end Cert.KernelIdeal.AR

end
-- ==== Proof.KernelIdealAR.Geometry.lean ====
import proofs.«900697_g7700000000000698_dist_ar_v7x_i8_i_m512_n512_f32_1_alg».proof.Proof.KernelIdealAR.ProtoE
import Idealize.ShloMosaic.Lib.Pipeline.Value

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep_fin_last (P : ℕ → sProp 𝕄) (n : ℕ) :
    (bigSep (Finset.univ : Finset (Fin (n + 1))) fun j => P j.val)
      = iprop(P n ∗ bigSep (Finset.univ : Finset (Fin n)) fun j => P j.val) := by
  rw [Fin.univ_castSuccEmb, Finset.cons_eq_insert, bigSep_insert (by simp), bigSep_map]
  rfl

theorem a_share_step (c : Dev nD) (h : Fin 4) (n : ℕ) (g : Buf (Elt F) ((aPiece h).view.loc (c : Thread nD τ))) :
    ((aPiece h).view.loc (c : Thread nD τ) ↦[(aPiece h).view.set]{remShare n} g : sProp 𝕄)
      ⊣⊢ iprop(((aPiece h).view.loc (c : Thread nD τ) ↦[(aPiece h).view.set]{remShare (n + 1)} g)
          ∗ ((aPiece h).view.loc (c : Thread nD τ) ↦[(aPiece h).view.set]{lentShare n} g)) :=
  pointsTo_share (PosShare.mem_left_op_right (remShare n))

/-- What is left of a slab after `n` sends, with the `n` shares lent, is the whole slab. -/
theorem a_shares_join (c : Dev nD) (h : Fin 4) (g : Buf (Elt F) ((aPiece h).view.loc (c : Thread nD τ))) (n : ℕ) :
    iprop(((aPiece h).view.loc (c : Thread nD τ) ↦[(aPiece h).view.set]{remShare n} g)
        ∗ bigSep (Finset.univ : Finset (Fin n)) fun j => (aPiece h).view.loc (c : Thread nD τ) ↦[(aPiece h).view.set]{lentShare j.val} g)
      ⊢ ((aPiece h).view.loc (c : Thread nD τ) ↦[(aPiece h).view.set]{fullShare} g : sProp 𝕄) := by
  induction n with
  | zero =>
    iintro ⟨H, -⟩
    iexact H
  | succ n ih =>
    rw [bigSep_fin_last (fun k => ((aPiece h).view.loc (c : Thread nD τ) ↦[(aPiece h).view.set]{lentShare k} g : sProp 𝕄)) n]
    iintro ⟨H, Hl, Hs⟩
    iapply ih
    isplitl [H Hl]
    · iapply (a_share_step c h n g).2
      isplitl [H]
      · iexact H
      · iexact Hl
    · iexact Hs

section Cut

variable {ℓ : Loc nD τ sig} {T : Type} [Fintype T] [DecidableEq T] (K : T → Finset (Idx ℓ))
  (hd : ∀ t t', t ≠ t' → Disjoint (K t) (K t')) (hc : Finset.univ.biUnion K = Finset.univ)
include hd hc
theorem cut_eq (q : PosShare TreeShare) (f : Buf (Elt F) ℓ) :
    (ℓ ↦{q} f : sProp 𝕄) = bigSep Finset.univ fun t => ℓ ↦[K t]{q} f := by
  rw [← pointsTo_biUnion Finset.univ K (fun t _ t' _ h => hd t t' h), hc]
/-- Held whole at some contents it is held piece by piece, each piece at some contents; and such pieces join to the whole. -/
theorem cut_any [Nonempty T] (q : PosShare TreeShare) :
    (iprop(∃ f, ℓ ↦{q} f) : sProp 𝕄) ⊣⊢ bigSep Finset.univ fun t => iprop(∃ f, ℓ ↦[K t]{q} f) := by
  constructor
  ·
    iintro ⟨%f, H⟩
    have h : (ℓ ↦{q} f : sProp 𝕄) ⊢ bigSep Finset.univ fun t => iprop(∃ f, ℓ ↦[K t]{q} f) := by
      rw [cut_eq K hd hc q f]
      exact bigSep_mono fun t _ => (show (ℓ ↦[K t]{q} f : sProp 𝕄) ⊢ iprop(∃ f, ℓ ↦[K t]{q} f) from by
        iintro H; iexists f; iexact H)
    iapply h
    iexact H
  ·
    obtain ⟨t₀⟩ := ‹Nonempty T›
    have e : bigSep Finset.univ (fun t => iprop(∃ f, ℓ ↦[K t]{q} f))
        = (iprop((∃ f, ℓ ↦[K t₀]{q} f) ∗ bigSep (Finset.univ.erase t₀) fun t => iprop(∃ f, ℓ ↦[K t]{q} f)) : sProp 𝕄) :=
      bigSep_univ_split t₀
    refine (show bigSep Finset.univ (fun t => iprop(∃ f, ℓ ↦[K t]{q} f))
        ⊢ (iprop(∃ f₀ : Buf (Elt F) ℓ, bigSep Finset.univ (fun t => iprop(∃ f, ℓ ↦[K t]{q} f))) : sProp 𝕄) from ?_).trans ?_
    · rw [e]
      iintro ⟨⟨%f₀, H0⟩, Hr⟩
      iexists f₀
      isplitl [H0]
      · iexists f₀; iexact H0
      · iexact Hr
    · iintro ⟨%f₀, H⟩
      have : Nonempty (Buf (Elt F) ℓ) := ⟨f₀⟩
      ihave H := (bigSep_exists_pi Finset.univ (fun t (f : Buf (Elt F) ℓ) => (ℓ ↦[K t]{q} f : sProp 𝕄))) $$ H
      icases H with ⟨%fs, H⟩
      ihave H := (pointsTo_biUnion_join Finset.univ K fs f₀ (fun t _ t' _ h => hd t t' h)) $$ H
      icases H with ⟨%g, -, H⟩
      rw [hc]
      iexists g
      iexact H

end Cut

/-- Two different column slabs are 128 columns apart. -/
theorem slab_sep {h h' : Fin 4} (hne : h ≠ h') : 128 * h.val + 128 ≤ 128 * h'.val ∨ 128 * h'.val + 128 ≤ 128 * h.val := by
  have : h.val ≠ h'.val := fun e => hne (Fin.ext e)
  omega

theorem rG_disjoint (sh sh' : Fin 8 × Fin 4) (hne : sh ≠ sh') : Disjoint (rG sh.1 sh.2).set (rG sh'.1 sh'.2).set := by
  by_cases hs : sh.1 = sh'.1
  · exact Rect.unit_disjoint (2 : Fin 3) (slab_sep fun e => hne (Prod.ext hs e))
  · have hv : sh.1.val ≠ sh'.1.val := fun e => hs (Fin.ext e)
    refine Rect.unit_disjoint (0 : Fin 3) ?_
    show sh.1.val + 1 ≤ sh'.1.val ∨ sh'.1.val + 1 ≤ sh.1.val
    omega

theorem rG_cover : (Finset.univ.biUnion fun sh : Fin 8 × Fin 4 => (rG sh.1 sh.2).set) = Finset.univ := by
  ext i
  have h0 : (i 0).val < 8 := (i 0).isLt
  have h1 : (i 1).val < 64 := (i 1).isLt
  have h2 : (i 2).val < 512 := (i 2).isLt
  simp only [Finset.mem_biUnion, Finset.mem_univ, true_and, iff_true]
  refine ⟨(⟨(i 0).val, h0⟩, ⟨(i 2).val / 128, by omega⟩), ?_⟩
  rw [Rect.mem_set_unit]
  intro a
  fin_cases a
  · show (i 0).val ≤ (i 0).val ∧ (i 0).val < (i 0).val + 1
    omega
  · show 0 ≤ (i 1).val ∧ (i 1).val < 0 + 64
    omega
  · show 128 * ((i 2).val / 128) ≤ (i 2).val ∧ (i 2).val < 128 * ((i 2).val / 128) + 128
    omega

section Slots

variable (M : Memref sig .tc .vmem S8x64x512 .bf16)

theorem slot_set (s : Fin 8) (h : Fin 4) :
    ((slot M s h).view.set : Finset M.view.ty.Idx) = (rG s h).set.map M.view.emb :=
  (View.set_reshape (M.view.slice (rG s h)) _).trans (View.set_slice M.view (rG s h))

theorem slots_disjoint (sh sh' : Fin 8 × Fin 4) (hne : sh ≠ sh') :
    Disjoint ((slot M sh.1 sh.2).view.set : Finset M.view.ty.Idx) (slot M sh'.1 sh'.2).view.set := by
  rw [slot_set, slot_set]
  exact (Finset.disjoint_map _).mpr (rG_disjoint sh sh' hne)

theorem slots_cover (hM : M.view.set = Finset.univ) :
    (Finset.biUnion (β := M.view.ty.Idx) Finset.univ fun sh : Fin 8 × Fin 4 => (slot M sh.1 sh.2).view.set) = Finset.univ := by
  rw [← hM]
  apply Finset.ext
  intro j
  constructor
  · intro hj
    obtain ⟨sh, -, hj⟩ := Finset.mem_biUnion.mp hj
    rw [slot_set] at hj
    obtain ⟨x, -, rfl⟩ := Finset.mem_map.mp hj
    exact M.view.emb_mem_set x
  · intro hj
    obtain ⟨x, -, rfl⟩ := Finset.mem_map.mp hj
    have hx : x ∈ Finset.univ.biUnion fun sh : Fin 8 × Fin 4 => (rG sh.1 sh.2).set := by
      rw [rG_cover]; exact Finset.mem_univ x
    obtain ⟨sh, -, hx⟩ := Finset.mem_biUnion.mp hx
    exact Finset.mem_biUnion.mpr ⟨sh, Finset.mem_univ _, by rw [slot_set]; exact Finset.mem_map_of_mem _ hx⟩

end Slots

theorem g_cut (d : Dev nD) :
    (iprop(∃ f, ((d : Thread nD τ).loc cc0_scratch1) ↦{fullShare} f) : sProp 𝕄)
      ⊣⊢ bigSep Finset.univ fun sh : Fin 8 × Fin 4 => slotAny (F := F) gM d sh.1 sh.2 :=
  cut_any (ℓ := (d : Thread nD τ).loc cc0_scratch1) (fun sh : Fin 8 × Fin 4 => (slot gM sh.1 sh.2).view.set)
    (slots_disjoint gM) (slots_cover gM (View.set_whole _)) fullShare

theorem o_cut (d : Dev nD) :
    (iprop(∃ f, ((d : Thread nD τ).loc cc0_scratch3) ↦{fullShare} f) : sProp 𝕄)
      ⊣⊢ bigSep Finset.univ fun sh : Fin 8 × Fin 4 => slotAny (F := F) oM d sh.1 sh.2 :=
  cut_any (ℓ := (d : Thread nD τ).loc cc0_scratch3) (fun sh : Fin 8 × Fin 4 => (slot oM sh.1 sh.2).view.set)
    (slots_disjoint oM) (slots_cover oM (View.set_whole _)) fullShare

theorem rX_cover : (Finset.univ.biUnion fun h : Fin 4 => (rX h).set) = Finset.univ := by
  ext i
  have h0 : (i 0).val < 512 := (i 0).isLt
  have h1 : (i 1).val < 512 := (i 1).isLt
  simp only [Finset.mem_biUnion, Finset.mem_univ, true_and, iff_true]
  refine ⟨⟨(i 1).val / 128, by omega⟩, ?_⟩
  rw [Rect.mem_set_unit]
  intro a
  fin_cases a
  · show 0 ≤ (i 0).val ∧ (i 0).val < 0 + 512
    omega
  · show 128 * ((i 1).val / 128) ≤ (i 1).val ∧ (i 1).val < 128 * ((i 1).val / 128) + 128
    omega

theorem rOwn_disjoint (ph ph' : Fin 8 × Fin 4) (hne : ph ≠ ph') : Disjoint (rOwn ph.1 ph.2).set (rOwn ph'.1 ph'.2).set := by
  by_cases hp : ph.1 = ph'.1
  · exact Rect.unit_disjoint (1 : Fin 2) (slab_sep fun e => hne (Prod.ext hp e))
  · have hv : ph.1.val ≠ ph'.1.val := fun e => hp (Fin.ext e)
    refine Rect.unit_disjoint (0 : Fin 2) ?_
    show 64 * ph.1.val + 64 ≤ 64 * ph'.1.val ∨ 64 * ph'.1.val + 64 ≤ 64 * ph.1.val
    omega

theorem rOwn_cover : (Finset.univ.biUnion fun ph : Fin 8 × Fin 4 => (rOwn ph.1 ph.2).set) = Finset.univ := by
  ext i
  have h0 : (i 0).val < 512 := (i 0).isLt
  have h1 : (i 1).val < 512 := (i 1).isLt
  simp only [Finset.mem_biUnion, Finset.mem_univ, true_and, iff_true]
  refine ⟨(⟨(i 0).val / 64, by omega⟩, ⟨(i 1).val / 128, by omega⟩), ?_⟩
  rw [Rect.mem_set_unit]
  intro a
  fin_cases a
  · show 64 * ((i 0).val / 64) ≤ (i 0).val ∧ (i 0).val < 64 * ((i 0).val / 64) + 64
    omega
  · show 128 * ((i 1).val / 128) ≤ (i 1).val ∧ (i 1).val < 128 * ((i 1).val / 128) + 128
    omega
theorem rOwn_cover_slab (h : Fin 4) : (Finset.univ.biUnion fun p : Fin 8 => (rOwn p h).set) = (rX h).set := by
  ext i
  have h0 : (i 0).val < 512 := (i 0).isLt
  simp only [Finset.mem_biUnion, Finset.mem_univ, true_and, Rect.mem_set_unit]
  constructor
  · rintro ⟨p, hp⟩ a
    have hp1 : 128 * h.val ≤ (i 1).val ∧ (i 1).val < 128 * h.val + 128 := hp 1
    fin_cases a
    · show 0 ≤ (i 0).val ∧ (i 0).val < 0 + 512
      omega
    · exact hp1
  · intro hi
    have hi1 : 128 * h.val ≤ (i 1).val ∧ (i 1).val < 128 * h.val + 128 := hi 1
    refine ⟨⟨(i 0).val / 64, by omega⟩, fun a => ?_⟩
    fin_cases a
    · show 64 * ((i 0).val / 64) ≤ (i 0).val ∧ (i 0).val < 64 * ((i 0).val / 64) + 64
      omega
    · exact hi1

theorem xbSlab_set (h : Fin 4) : ((xbM.access (rX h)).set : Finset xbM.view.ty.Idx) = (rX h).set :=
  View.set_slice_whole cc0_scratch0 (rX h)
theorem xbPiece_set (p : Fin 8) (h : Fin 4) : ((xbPiece p h).view.set : Finset xbM.view.ty.Idx) = (rOwn p h).set :=
  View.set_slice_whole cc0_scratch0 (rOwn p h)

theorem xb_split (c : Dev nD) :
    (iprop(∃ f, ((c : Thread nD τ).loc cc0_scratch0) ↦{fullShare} f) : sProp 𝕄)
      ⊢ bigSep Finset.univ fun h : Fin 4 =>
          iprop(∃ f, (xbM.access (rX h)).loc (c : Thread nD τ) ↦[(xbM.access (rX h)).set]{fullShare} f) :=
  (cut_any (ℓ := (c : Thread nD τ).loc cc0_scratch0) (fun h : Fin 4 => (xbM.access (rX h)).set)
    (fun h h' hne => by rw [xbSlab_set, xbSlab_set]; exact Rect.unit_disjoint (1 : Fin 2) (slab_sep hne))
    ((Finset.biUnion_congr rfl fun h _ => xbSlab_set h).trans rX_cover) fullShare).1

theorem xb_slab_pieces (c : Dev nD) (h : Fin 4) (g : Buf (Elt F) ((c : Thread nD τ).loc cc0_scratch0)) :
    ((xbM.access (rX h)).loc (c : Thread nD τ) ↦[(xbM.access (rX h)).set]{fullShare} g : sProp 𝕄)
      ⊣⊢ bigSep Finset.univ fun p : Fin 8 =>
          (xbPiece p h).view.loc (c : Thread nD τ) ↦[(xbPiece p h).view.set]{fullShare} g := by
  rw [show ((xbM.access (rX h)).set : Finset xbM.view.ty.Idx)
      = Finset.biUnion (β := xbM.view.ty.Idx) Finset.univ fun p : Fin 8 => (xbPiece p h).view.set from by
        rw [xbSlab_set, ← rOwn_cover_slab h]
        exact (Finset.biUnion_congr rfl fun p _ => xbPiece_set p h).symm,
    pointsTo_biUnion (ℓ := (c : Thread nD τ).loc cc0_scratch0) Finset.univ (fun p : Fin 8 => (xbPiece p h).view.set)
      (fun p _ p' _ hne => by
        rw [xbPiece_set, xbPiece_set]
        exact rOwn_disjoint (p, h) (p', h) fun e => hne (congrArg Prod.fst e))]

theorem xb_join (c : Dev nD) (g : Buf (Elt F) ((c : Thread nD τ).loc cc0_scratch0)) :
    (bigSep Finset.univ fun ph : Fin 8 × Fin 4 =>
        (xbPiece ph.1 ph.2).view.loc (c : Thread nD τ) ↦[(xbPiece ph.1 ph.2).view.set]{fullShare} g : sProp 𝕄)
      ⊢ iprop(∃ f, ((c : Thread nD τ).loc cc0_scratch0) ↦{fullShare} f) := by
  rw [← cut_eq (ℓ := (c : Thread nD τ).loc cc0_scratch0) (fun ph : Fin 8 × Fin 4 => (xbPiece ph.1 ph.2).view.set)
    (fun ph ph' hne => by rw [xbPiece_set, xbPiece_set]; exact rOwn_disjoint ph ph' hne)
    ((Finset.biUnion_congr rfl fun ph _ => xbPiece_set ph.1 ph.2).trans rOwn_cover) fullShare g]
  iintro H
  iexists g
  iexact H

theorem rA_cover : (Finset.univ.biUnion fun h : Fin 4 => (rA h).set) = Finset.univ := by
  ext i
  have h0 : (i 0).val < 64 := (i 0).isLt
  have h1 : (i 1).val < 512 := (i 1).isLt
  simp only [Finset.mem_biUnion, Finset.mem_univ, true_and, iff_true]
  refine ⟨⟨(i 1).val / 128, by omega⟩, ?_⟩
  rw [Rect.mem_set_unit]
  intro a
  fin_cases a
  · show 0 ≤ (i 0).val ∧ (i 0).val < 0 + 64
    omega
  · show 128 * ((i 1).val / 128) ≤ (i 1).val ∧ (i 1).val < 128 * ((i 1).val / 128) + 128
    omega

theorem aPiece_set (h : Fin 4) : ((aPiece h).view.set : Finset aM.view.ty.Idx) = (rA h).set :=
  View.set_slice_whole cc0_scratch2 (rA h)

theorem a_disjoint (h h' : Fin 4) (hne : h ≠ h') : Disjoint ((aPiece h).view.set : Finset aM.view.ty.Idx) (aPiece h').view.set := by
  rw [aPiece_set, aPiece_set]; exact Rect.unit_disjoint (1 : Fin 2) (slab_sep hne)

theorem a_cut (c : Dev nD) :
    (iprop(∃ f, ((c : Thread nD τ).loc cc0_scratch2) ↦{fullShare} f) : sProp 𝕄)
      ⊣⊢ bigSep Finset.univ fun h : Fin 4 =>
          iprop(∃ f, (aPiece h).view.loc (c : Thread nD τ) ↦[(aPiece h).view.set]{fullShare} f) :=
  cut_any (ℓ := (c : Thread nD τ).loc cc0_scratch2) (fun h : Fin 4 => (aPiece h).view.set) a_disjoint
    ((Finset.biUnion_congr rfl fun h _ => aPiece_set h).trans rA_cover) fullShare

/-- Re-indexing a family over masks by `k ↦ c xor k`, a bijection, does not change what it holds altogether. -/
theorem bigSep_px (c : Dev nD) (Φ : Fin 8 × Fin 4 → sProp 𝕄) :
    (bigSep Finset.univ fun kh : Fin 8 × Fin 4 => Φ (px c kh.1, kh.2)) = bigSep Finset.univ Φ := by
  let e : Fin 8 × Fin 4 ≃ Fin 8 × Fin 4 :=
    { toFun := fun kh => (px c kh.1, kh.2)
      invFun := fun sh => (mk c sh.1, sh.2)
      left_inv := fun kh => Prod.ext (mk_px c kh.1) rfl
      right_inv := fun sh => Prod.ext (px_mk c sh.1) rfl }
  exact (bigSep_univ_equiv e Φ).symm

variable (m : (ℓ : Loc nD τ sig) → Buf (Elt F) ℓ)

theorem scratch_intro (c : Dev nD) : (Pipeline.scopedRest cfg0.spec c : sProp 𝕄) ⊢ stScratch m σ₀ c := by
  rw [show (Pipeline.scopedRest cfg0.spec c : sProp 𝕄) = _ from Gen.scopedRest0_eq c]
  unfold stScratch
  simp only [σ₀, bigSep_empty, Finset.sdiff_self]
  rw [bigSep_px c (fun sh => slotAny (F := F) gM c sh.1 sh.2), bigSep_px c (fun sh => slotAny (F := F) oM c sh.1 sh.2)]
  iintro ⟨H0, H1, H2, H3⟩
  ihave H0 := xb_split c $$ H0
  ihave H1 := (g_cut c).1 $$ H1
  ihave H2 := (a_cut c).1 $$ H2
  ihave H3 := (o_cut c).1 $$ H3
  isplitl [H0]
  · iexact H0
  isplitr
  · iempintro
  isplitl [H1]
  · iexact H1
  isplitr
  · iempintro
  isplitr
  · iempintro
  isplitl [H2]
  · iexact H2
  isplitr
  · iempintro
  isplitr
  · iempintro
  isplitl [H3]
  · iexact H3
  isplitr
  · iempintro
  · iempintro

end Cert.KernelIdeal.AR

end
-- ==== Proof.KernelIdealAR.Launch.lean ====
import proofs.«900697_g7700000000000698_dist_ar_v7x_i8_i_m512_n512_f32_1_alg».proof.Proof.KernelIdealAR.Creds
import proofs.«900697_g7700000000000698_dist_ar_v7x_i8_i_m512_n512_f32_1_alg».proof.Proof.KernelIdealAR.Geometry

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × CIx → GSem nD τ sig) := by
  rintro ⟨c, i⟩ ⟨c', i'⟩ h
  rw [kcell_eq, kcell_eq] at h
  cases congrArg (fun g : GSem nD τ sig => g.1.1) h
  rw [ksem_injective (congrArg Prod.snd h)]

def US : Finset (Dev nD × CIx) := Finset.univ.filter fun ck : Dev nD × CIx => usedIx ck.1 ck.2
def allCells : Finset (GSem nD τ sig) := US.map ⟨kcell, kcell_injective⟩

/-- The duties device `c` pays, as tokens: a unit to each partner's barrier, and per array, slab and place in the sending order the duty of its own send cell or of its partner's receive cell for sender `c`. -/
def payTok (x : Dev nD × (Fin 7 ⊕ Fin 4 × Fin 4 × Fin 7)) : GSem nD τ sig × ℕ × Fin 8 := match x.2 with
  | .inl j => (barCell (px x.1 (far j)), 0, far j)
  | .inr y => (kcell (if y.1.val % 2 = 0 then x.1 else px x.1 (far y.2.2), some (y.1, y.2.1, if y.1.val % 2 = 0 then far y.2.2 else x.1)), 0, 0)

theorem payTok_injective : Function.Injective payTok := by
  have hf : Function.Injective far := by decide
  rintro ⟨c, j | ⟨a, h, j⟩⟩ ⟨c', j' | ⟨a', h', j'⟩⟩ e
  · cases hf (congrArg (fun x : GSem nD τ sig × ℕ × Fin 8 => x.2.2) e)
    have ec : px c (far j) = px c' (far j) := congrArg (fun x : GSem nD τ sig × ℕ × Fin 8 => x.1.1.1) e
    rw [← px_px c (far j), ec, px_px]
  · exact absurd (congrArg (fun x : GSem nD τ sig × ℕ × Fin 8 => x.2.2) e) (far_ne j)
  · exact absurd (congrArg (fun x : GSem nD τ sig × ℕ × Fin 8 => x.2.2) e).symm (far_ne j')
  · have e0 := congrArg (fun x : GSem nD τ sig × ℕ × Fin 8 => x.1) e
    dsimp only [payTok] at e0
    obtain ⟨e1, e2⟩ := Prod.mk.inj (kcell_injective e0)
    obtain ⟨ea, e3⟩ := Prod.mk.inj (Option.some.inj e2)
    obtain ⟨eh, e4⟩ := Prod.mk.inj e3
    cases ea; cases eh
    by_cases ha : a.val % 2 = 0
    · rw [if_pos ha, if_pos ha] at e1 e4
      cases e1; cases hf e4; rfl
    · rw [if_neg ha, if_neg ha] at e1 e4
      cases e4
      have e5 : far j = far j' := by rw [← mk_px c (far j), e1, mk_px]
      cases hf e5; rfl

def allToks : Finset (GSem nD τ sig × ℕ × Fin 8) := Finset.univ.map ⟨payTok, payTok_injective⟩

def u₀ : UU := (initOf (Pipeline.cells cfgs cellOf_inj) (Pipeline.launchToks cfgs cellOf_inj), initOf allCells allToks)

omit [FloatOps F] in
theorem bigSep_US (Φ : Dev nD × CIx → sProp 𝕄) :
    bigSep US Φ = bigSep Finset.univ fun c : Dev nD => bigSep (Finset.univ.filter (usedIx c)) fun i => Φ (c, i) := by
  unfold US
  rw [bigSep_filter, bigSep_univ_prod]
  exact bigSep_congr fun c _ => (bigSep_filter _ _ _).symm

instance Rd_payload_storable (g : GSem nD τ sig) (r : ℕ) (d : Fin 8) :
    BI.Storable (upEmb : UEmb _ 𝕄) ((Rd (F := F) m).payload g r d) := by
  dsimp only [Rd]
  unfold dmaPay barPay s1Pay r1Pay s2Pay r2Pay
  (repeat' split) <;> infer_instance

def payToks (c : Dev nD) : sProp 𝕄 :=
  iprop((bigSep Finset.univ fun j : Fin 7 => dutyTok ER (barCell (px c (far j))) 0 (far j))
    ∗ (bigSep Finset.univ fun hj : Fin 4 × Fin 7 => dutyTok ER (s1Cell c hj.1 (far hj.2)) 0 0)
    ∗ (bigSep Finset.univ fun hj : Fin 4 × Fin 7 => dutyTok ER (r1Cell (px c (far hj.2)) hj.1 c) 0 0)
    ∗ (bigSep Finset.univ fun hj : Fin 4 × Fin 7 => dutyTok ER (s2Cell c hj.1 (far hj.2)) 0 0)
    ∗ (bigSep Finset.univ fun hj : Fin 4 × Fin 7 => dutyTok ER (r2Cell (px c (far hj.2)) hj.1 c) 0 0))

def G (c : Dev nD) : sProp 𝕄 :=
  iprop((bigSep (Finset.univ.filter (usedIx c)) fun i => roundState ER (Rd m) (kcell (c, i)) 0)
    ∗ (bigSep (Finset.univ.filter (usedIx c)) fun i => iprop(atPos ER (kcell (c, i)) 0 ∅ 0 ∗ reached ER (kcell (c, i)) 0)) ∗ payToks c)

/-- The launch element of the used cells deals every device its cells' round states and positions and the tokens of the duties it pays. -/
theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep (Finset.univ.filter (usedIx c)) fun i => Φ (kcell (c, i)) := by
    unfold allCells; rw [bigSep_map, bigSep_US]; rfl
  have hT : bigSep allToks (fun x => (dutyTok ER x.1 x.2.1 x.2.2 : sProp 𝕄)) = bigSep Finset.univ fun c : Dev nD => payToks c := by
    unfold allToks payToks; rw [bigSep_map, bigSep_univ_prod]
    exact bigSep_congr fun c _ => by rw [bigSep_univ_sum, bigSep_univ_prod, bigSep_fin4]; rfl
  iintro HX
  imod (Rounds.fund ER (Rd m) allCells allToks) $$ HX with ⟨Hst, Hr, Hat, Htok⟩
  imodintro
  unfold G; simp only [bigSep_sep', hX, hT]
  iframe

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_used (c : Dev nD) :
    (Pipeline.ownSems0 osem c : sProp 𝕄)
      = iprop((bigSep (Finset.univ.filter fun i : Fin 4 × Fin 4 × Fin 8 => used i.1 c i.2.2) fun i => semVal (kcell (c, some i)) 0) ∗ unusedSems c) := by
  unfold Pipeline.ownSems0 unusedSems
  rw [bigSep_filter_split Finset.univ (fun i : Fin 4 × Fin 4 × Fin 8 => used i.1 c i.2.2)]
  rfl

/-- A device's holdings once its cells' invariants are allocated. -/
def mid (c : Dev nD) : sProp 𝕄 :=
  iprop((bigSep (Finset.univ.filter (usedIx c)) fun i => iprop(∃ κ : ℕ, cellInv ER (Rd m) κ (kcell (c, i))))
    ∗ unusedSems c
    ∗ (bigSep (Finset.univ.filter (usedIx c)) fun i => iprop(atPos ER (kcell (c, i)) 0 ∅ 0 ∗ reached ER (kcell (c, i)) 0)) ∗ payToks c)

/-- Every used cell of one device gets its invariant, from its counter at zero and its round state. -/
theorem core_alloc (c : Dev nD) :
    iprop((Pipeline.ownSems0 osem c : sProp 𝕄) ∗ unscopedSems0 c ∗ G m c)
      ⊢ |={Set.univ}=> mid m c := by
  unfold G mid
  rw [ownSems0_used, unscopedSems0_eq]
  iintro ⟨⟨Hos, Hun⟩, Hus, Hst, Hat, Htok⟩
  imod (show iprop((bigSep (Finset.univ.filter (usedIx c)) fun i => semVal (kcell (c, i)) 0)
        ∗ bigSep (Finset.univ.filter (usedIx c)) fun i => roundState ER (Rd m) (kcell (c, i)) 0)
      ⊢ (|={Set.univ}=> bigSep (Finset.univ.filter (usedIx c)) fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hos Hus Hst] with Hinv
  · rw [bigSep_used_split c fun i => semVal (kcell (c, i)) 0]; iframe
  imodintro
  iframe

def records₀ (K : Dev nD × CIx → ℕ) : sProp 𝕄 :=
  iprop((bigSep US fun ck => cellInv ER (Rd m) (K ck) (kcell ck)) ∗ (bigSep US fun ck => reached ER (kcell ck) 0))

instance records₀_persistent (K : Dev nD × CIx → ℕ) : BI.Persistent (records₀ m K) := by unfold records₀; infer_instance

def positions (c : Dev nD) : sProp 𝕄 := bigSep (Finset.univ.filter (usedIx c)) fun i => atPos ER (kcell (c, i)) 0 ∅ 0

def G' (c : Dev nD) : sProp 𝕄 := iprop(∃ K, records₀ m K ∗ unusedSems c ∗ positions c ∗ payToks c)

/-- The invariants' names are chosen for all cells at once, so that every device holds every cell's invariant. -/
theorem regroup :
    (bigSep Finset.univ fun c : Dev nD => mid m c : sProp 𝕄) ⊢ bigSep Finset.univ (G' m) := by
  simp only [mid, bigSep_sep']
  rw [← bigSep_US (fun ck => iprop(∃ κ : ℕ, cellInv ER (Rd m) κ (kcell ck))), ← bigSep_US (fun ck => (reached ER (kcell ck) 0 : sProp 𝕄))]
  iintro ⟨HI, Hun, ⟨Hat, #HR⟩, Htok⟩
  ihave HK := (BI.bigSep_exists_pi US (fun (ck : Dev nD × CIx) (κ : ℕ) => (cellInv ER (Rd m) κ (kcell ck) : sProp 𝕄))) $$ HI
  icases HK with ⟨%K, #HI⟩
  iapply (bigSep_with_persistent (R := records₀ m K) (Φ := fun c => iprop(unusedSems c ∗ positions c ∗ payToks c)) fun c _ => by
    unfold G'; iintro H; iexists K; iexact H)
  unfold records₀ positions
  simp only [bigSep_sep']
  iframe # ∗

theorem glob : (bigSep Finset.univ fun c => iprop((Pipeline.ownSems0 osem c : sProp 𝕄) ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The entry stage's cells: the device's positions at its own cells, the tokens of the duties it pays, and the credit of its waits. -/
theorem stCells_intro (c : Dev nD) : iprop(positions c ∗ payToks c ∗ waitCreds c) ⊢ (stCells σ₀ c : sProp 𝕄) := by
  unfold stCells positions payToks waitCreds
  rw [bigSep_used' c fun i => (atPos ER (kcell (c, i)) 0 ∅ 0 : sProp 𝕄)]
  simp only [σ₀, waitingAt, bigSep_empty, ↓reduceIte, bigSep_sep']
  iintro ⟨⟨Hb, H1, Hr1, H2, Hr2⟩, ⟨Ht, Ts1, Tr1, Ts2, Tr2⟩, Hcb, Hc1, Hc2⟩
  iframe
  repeat' first | iempintro | isplitr

def start (c : Dev nD) : sProp 𝕄 := iprop(∃ K, records m K ∗ stCells σ₀ c ∗ unusedSems c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' records records₀ US
  iintro ⟨-, #Hlev, Hcr, -, %K, ⟨#HI, #HR⟩, Hun, Hp, Ht⟩
  ihave Hc := (creds c) $$ Hcr
  imodintro
  isplitl
  · iexists K
    iframe Hun
    isplitr
    · iframe #
    · iapply (stCells_intro c); iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ start
  iintro ⟨⟨%K, HR, Hst, Hun⟩, -, Hsc⟩
  iexists K
  iframe
  iapply (scratch_intro m c); iexact Hsc

theorem ownSemFacts : Pipeline.OwnSemFacts cfg0.spec osem :=
  ⟨by decide, fun a b h => Option.some.inj (ksem_injective (h : ksem (some a) = ksem (some b))), by decide⟩

theorem share_eq (c : Dev nD) (w : Fin cfg0.W) : (dats m ρ 0 c).share w = fullShare := by unfold Dat.share; split <;> rfl

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the eight devices terminates, with every array at its computed final contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m ρ) (hout := fun _ => BI.emp_sep.2)
    (QY := fun _ _ => True)
    (hY := fun c s' => by
      iintro ⟨-, -, HSI⟩
      imodintro
      iframe)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

/-- The result array is a single block, so its final contents are the last block written to it. -/
theorem finalA_out (c : Dev nD) :
    (win0_1.blk (0 : Fin 1)).view.read (Elt F) (finalA m ρ c (1 : Fin 2)) = outAt (X m) c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 _, if_pos rfl]
  exact View.read_write_univ _ _

end Cert.KernelIdeal.AR

end
-- ==== Proof.KernelIdealAR.ProtoF.lean ====
import proofs.«900697_g7700000000000698_dist_ar_v7x_i8_i_m512_n512_f32_1_alg».proof.Proof.KernelIdealAR.ProtoE

namespace Cert.KernelIdeal.AR

namespace Stage

def signal (σ : Stage) (j : Fin 7) : Stage :=
  { σ with paid := σ.paid + 1, sigTodo := σ.sigTodo.erase j,
           gMine := σ.gMine.filter (fun kh => kh.1 ≠ far j), oMine := σ.oMine.filter (fun kh => kh.1 ≠ far j) }

def barWait (σ : Stage) : Stage := { σ with barTodo := false, gPeer := Finset.univ, oPeer := Finset.univ }

def xbStore (σ : Stage) (h : Fin 4) : Stage :=
  { σ with xbRaw := σ.xbRaw.erase h, xbHave := σ.xbHave ∪ Finset.univ.filter (fun kh => kh.2 = h) }

def send1 (σ : Stage) (h : Fin 4) (j : Fin 7) : Stage :=
  { σ with paid := σ.paid + 1, s1Todo := σ.s1Todo.erase (h, j), s1Fly := insert (h, j) σ.s1Fly,
           xbHave := σ.xbHave.erase (far j, h), gPeer := σ.gPeer.erase (j, h) }

def recv1 (σ : Stage) (h : Fin 4) (j : Fin 7) : Stage :=
  { σ with r1Todo := σ.r1Todo.erase (h, j), r1Done := insert (h, j) σ.r1Done, gLanded := insert (near j, h) σ.gLanded }

def outStore (σ : Stage) (k : Fin 8) (h : Fin 4) : Stage := { σ with outDone := insert (k, h) σ.outDone }

def aStore (σ : Stage) (h : Fin 4) : Stage := { σ with aRaw := σ.aRaw.erase h, aSent := Function.update σ.aSent h 0 }

def send2 (σ : Stage) (h : Fin 4) (j : Fin 7) : Stage :=
  { σ with paid := σ.paid + 1, s2Todo := σ.s2Todo.erase (h, j), s2Fly := insert (h, j) σ.s2Fly,
           aSent := Function.update σ.aSent h (σ.aSent h + 1), oPeer := σ.oPeer.erase (j, h) }

def recv2 (σ : Stage) (h : Fin 4) (j : Fin 7) : Stage :=
  { σ with r2Todo := σ.r2Todo.erase (h, j), r2Done := insert (h, j) σ.r2Done, oLanded := insert (near j, h) σ.oLanded }

def sendWait1 (σ : Stage) (h : Fin 4) (j : Fin 7) : Stage :=
  { σ with s1Fly := σ.s1Fly.erase (h, j), s1Done := insert (h, j) σ.s1Done, xbHave := insert (far j, h) σ.xbHave }

def sendWait2 (σ : Stage) (h : Fin 4) (j : Fin 7) : Stage :=
  { σ with s2Fly := σ.s2Fly.erase (h, j), s2Done := insert (h, j) σ.s2Done, aBack := insert (h, j) σ.aBack }

end Stage

def σ₁ : Stage where
  paid := 63
  sigTodo := ∅
  barTodo := false
  s1Todo := ∅
  s1Fly := ∅
  s1Done := Finset.univ
  r1Todo := ∅
  r1Done := Finset.univ
  s2Todo := ∅
  s2Fly := ∅
  s2Done := Finset.univ
  r2Todo := ∅
  r2Done := Finset.univ
  xbRaw := ∅
  xbHave := Finset.univ
  gMine := Finset.univ.filter (fun kh => kh.1 = 0)
  gLanded := Finset.univ.filter (fun kh => kh.1 ≠ 0)
  gPeer := ∅
  aRaw := ∅
  aSent := fun _ => 7
  aBack := Finset.univ
  oMine := Finset.univ.filter (fun kh => kh.1 = 0)
  oLanded := Finset.univ.filter (fun kh => kh.1 ≠ 0)
  oPeer := ∅
  outDone := Finset.univ

end Cert.KernelIdeal.AR
-- ==== Proof.KernelIdealAR.ProtoG.lean ====
import proofs.«900697_g7700000000000698_dist_ar_v7x_i8_i_m512_n512_f32_1_alg».proof.Proof.KernelIdealAR.ProtoF

namespace Cert.KernelIdeal.AR

def nearPos (k : Fin 8) : ℕ := match k with
  | ⟨1, _⟩ => 0 | ⟨3, _⟩ => 1 | ⟨4, _⟩ => 2 | ⟨2, _⟩ => 3 | ⟨5, _⟩ => 4 | ⟨7, _⟩ => 5 | ⟨6, _⟩ => 6 | _ => 7

structure Cnt where
  nsig : ℕ
  bar : Bool
  nxb : ℕ
  n1 : ℕ
  nr1 : ℕ
  nown : ℕ
  na : ℕ
  n2 : ℕ
  nr2 : ℕ
  noth : ℕ
  nw1 : ℕ
  nw2 : ℕ
  deriving DecidableEq

abbrev num (hj : Fin 4 × Fin 7) : ℕ := 7 * hj.1.val + hj.2.val

def stageOf (k : Cnt) : Stage where
  paid := k.nsig + k.n1 + k.n2
  sigTodo := Finset.univ.filter fun j => k.nsig ≤ j.val
  barTodo := !k.bar
  s1Todo := Finset.univ.filter fun hj => k.n1 ≤ num hj
  s1Fly := Finset.univ.filter fun hj => num hj < k.n1 ∧ k.nw1 ≤ num hj
  s1Done := Finset.univ.filter fun hj => num hj < k.nw1
  r1Todo := Finset.univ.filter fun hj => k.nr1 ≤ num hj
  r1Done := Finset.univ.filter fun hj => num hj < k.nr1
  s2Todo := Finset.univ.filter fun hj => k.n2 ≤ num hj
  s2Fly := Finset.univ.filter fun hj => num hj < k.n2 ∧ k.nw2 ≤ num hj
  s2Done := Finset.univ.filter fun hj => num hj < k.nw2
  r2Todo := Finset.univ.filter fun hj => k.nr2 ≤ num hj
  r2Done := Finset.univ.filter fun hj => num hj < k.nr2
  xbRaw := Finset.univ.filter fun h => k.nxb ≤ h.val
  xbHave := Finset.univ.filter fun kh => kh.2.val < k.nxb ∧ (kh.1 = 0 ∨ k.n1 ≤ 7 * kh.2.val + farPos kh.1 ∨ 7 * kh.2.val + farPos kh.1 < k.nw1)
  gMine := Finset.univ.filter fun kh => kh.1 = 0 ∨ k.nsig ≤ farPos kh.1
  gLanded := Finset.univ.filter fun kh => kh.1 ≠ 0 ∧ 7 * kh.2.val + nearPos kh.1 < k.nr1
  gPeer := if k.bar then Finset.univ.filter fun jh => k.n1 ≤ 7 * jh.2.val + jh.1.val else ∅
  aRaw := Finset.univ.filter fun h => k.na ≤ h.val
  aSent := fun h => min 7 (k.n2 - 7 * h.val)
  aBack := Finset.univ.filter fun hj => num hj < k.nw2
  oMine := Finset.univ.filter fun kh => kh.1 = 0 ∨ k.nsig ≤ farPos kh.1
  oLanded := Finset.univ.filter fun kh => kh.1 ≠ 0 ∧ 7 * kh.2.val + nearPos kh.1 < k.nr2
  oPeer := if k.bar then Finset.univ.filter fun jh => k.n2 ≤ 7 * jh.2.val + jh.1.val else ∅
  outDone := Finset.univ.filter fun kh => (kh.1 = 0 ∧ kh.2.val < k.nown) ∨ (kh.1 ≠ 0 ∧ 7 * kh.2.val + nearPos kh.1 < k.noth)

def k₀ : Cnt := ⟨0, false, 0, 0, 0, 0, 0, 0, 0, 0, 0, 0⟩
def k₁ : Cnt := ⟨7, true, 4, 28, 28, 4, 4, 28, 28, 28, 28, 28⟩

end Cert.KernelIdeal.AR
-- ==== Proof.KernelIdealAR.Trans.lean ====
import proofs.«900697_g7700000000000698_dist_ar_v7x_i8_i_m512_n512_f32_1_alg».proof.Proof.KernelIdealAR.ProtoG

namespace Cert.KernelIdeal.AR

theorem farPos_eq_iff (p : Fin 8) (j : Fin 7) : farPos p = j.val ↔ p = far j := by revert p j; decide
theorem nearPos_eq_iff (p : Fin 8) (j : Fin 7) : nearPos p = j.val ↔ p = near j := by revert p j; decide
theorem farPos_eq_seven_iff (p : Fin 8) : farPos p = 7 ↔ p = 0 := by revert p; decide
theorem nearPos_eq_seven_iff (p : Fin 8) : nearPos p = 7 ↔ p = 0 := by revert p; decide
theorem farPos_le (p : Fin 8) : farPos p ≤ 7 := by revert p; decide
theorem nearPos_le (p : Fin 8) : nearPos p ≤ 7 := by revert p; decide

attribute [local ext (iff := false)] Stage

section Mem
variable (k : Cnt)

theorem mem_sigTodo (j : Fin 7) : j ∈ (stageOf k).sigTodo ↔ k.nsig ≤ j.val := Finset.mem_filter_univ _
theorem mem_s1Todo (hj : Fin 4 × Fin 7) : hj ∈ (stageOf k).s1Todo ↔ k.n1 ≤ num hj := Finset.mem_filter_univ _
theorem mem_s1Fly (hj : Fin 4 × Fin 7) : hj ∈ (stageOf k).s1Fly ↔ num hj < k.n1 ∧ k.nw1 ≤ num hj := Finset.mem_filter_univ _
theorem mem_r1Todo (hj : Fin 4 × Fin 7) : hj ∈ (stageOf k).r1Todo ↔ k.nr1 ≤ num hj := Finset.mem_filter_univ _
theorem mem_s2Todo (hj : Fin 4 × Fin 7) : hj ∈ (stageOf k).s2Todo ↔ k.n2 ≤ num hj := Finset.mem_filter_univ _
theorem mem_s2Fly (hj : Fin 4 × Fin 7) : hj ∈ (stageOf k).s2Fly ↔ num hj < k.n2 ∧ k.nw2 ≤ num hj := Finset.mem_filter_univ _
theorem mem_r2Todo (hj : Fin 4 × Fin 7) : hj ∈ (stageOf k).r2Todo ↔ k.nr2 ≤ num hj := Finset.mem_filter_univ _
theorem mem_xbRaw (h : Fin 4) : h ∈ (stageOf k).xbRaw ↔ k.nxb ≤ h.val := Finset.mem_filter_univ _
theorem mem_xbHave (kh : Fin 8 × Fin 4) : kh ∈ (stageOf k).xbHave ↔
    kh.2.val < k.nxb ∧ (kh.1 = 0 ∨ k.n1 ≤ 7 * kh.2.val + farPos kh.1 ∨ 7 * kh.2.val + farPos kh.1 < k.nw1) :=
  Finset.mem_filter_univ _
theorem mem_gMine (kh : Fin 8 × Fin 4) : kh ∈ (stageOf k).gMine ↔ kh.1 = 0 ∨ k.nsig ≤ farPos kh.1 := Finset.mem_filter_univ _
theorem mem_gLanded (kh : Fin 8 × Fin 4) : kh ∈ (stageOf k).gLanded ↔ kh.1 ≠ 0 ∧ 7 * kh.2.val + nearPos kh.1 < k.nr1 :=
  Finset.mem_filter_univ _
theorem mem_gPeer (jh : Fin 7 × Fin 4) : jh ∈ (stageOf k).gPeer ↔ k.bar = true ∧ k.n1 ≤ 7 * jh.2.val + jh.1.val := by
  cases hb : k.bar <;> simp [stageOf, hb]
theorem mem_aRaw (h : Fin 4) : h ∈ (stageOf k).aRaw ↔ k.na ≤ h.val := Finset.mem_filter_univ _
theorem mem_oMine (kh : Fin 8 × Fin 4) : kh ∈ (stageOf k).oMine ↔ kh.1 = 0 ∨ k.nsig ≤ farPos kh.1 := Finset.mem_filter_univ _
theorem mem_oLanded (kh : Fin 8 × Fin 4) : kh ∈ (stageOf k).oLanded ↔ kh.1 ≠ 0 ∧ 7 * kh.2.val + nearPos kh.1 < k.nr2 :=
  Finset.mem_filter_univ _
theorem mem_oPeer (jh : Fin 7 × Fin 4) : jh ∈ (stageOf k).oPeer ↔ k.bar = true ∧ k.n2 ≤ 7 * jh.2.val + jh.1.val := by
  cases hb : k.bar <;> simp [stageOf, hb]

end Mem

section Sets
variable (n w : ℕ) (h : Fin 4) (j : Fin 7)

-- A pair is determined by its number, so taking out or putting in pair number `n` moves a bound at `n` by one.
theorem todo_step (hn : 7 * h.val + j.val = n) :
    (Finset.univ.filter fun hj => n ≤ num hj).erase (h, j) = Finset.univ.filter fun hj => n + 1 ≤ num hj := by
  ext ⟨h', j'⟩; simp only [num, Finset.mem_erase, Finset.mem_filter_univ, ne_eq, Prod.mk.injEq, Fin.ext_iff]; omega
theorem done_step (hn : 7 * h.val + j.val = n) :
    insert (h, j) (Finset.univ.filter fun hj => num hj < n) = Finset.univ.filter fun hj => num hj < n + 1 := by
  ext ⟨h', j'⟩; simp only [num, Finset.mem_insert, Finset.mem_filter_univ, Prod.mk.injEq, Fin.ext_iff]; omega
theorem fly_in (hn : 7 * h.val + j.val = n) (hw : w ≤ n) :
    insert (h, j) (Finset.univ.filter fun hj => num hj < n ∧ w ≤ num hj)
      = Finset.univ.filter fun hj => num hj < n + 1 ∧ w ≤ num hj := by
  ext ⟨h', j'⟩; simp only [num, Finset.mem_insert, Finset.mem_filter_univ, Prod.mk.injEq, Fin.ext_iff]; omega
theorem fly_out (hn : 7 * h.val + j.val = w) :
    (Finset.univ.filter fun hj => num hj < n ∧ w ≤ num hj).erase (h, j)
      = Finset.univ.filter fun hj => num hj < n ∧ w + 1 ≤ num hj := by
  ext ⟨h', j'⟩; simp only [num, Finset.mem_erase, Finset.mem_filter_univ, ne_eq, Prod.mk.injEq, Fin.ext_iff]; omega
-- A mask enters only through its place in its order: `far j` is the mask at place `j`, and 0 the one at place 7.
theorem mine_step (hj : j.val = n) :
    (Finset.univ.filter fun kh : Fin 8 × Fin 4 => kh.1 = 0 ∨ n ≤ farPos kh.1).filter (fun kh => kh.1 ≠ far j)
      = Finset.univ.filter fun kh => kh.1 = 0 ∨ n + 1 ≤ farPos kh.1 := by
  ext ⟨p, h'⟩; simp only [Finset.mem_filter, Finset.mem_univ, true_and, ne_eq, ← farPos_eq_iff, ← farPos_eq_seven_iff]; omega
theorem landed_step (hn : 7 * h.val + j.val = n) :
    insert (near j, h) (Finset.univ.filter fun kh : Fin 8 × Fin 4 => kh.1 ≠ 0 ∧ 7 * kh.2.val + nearPos kh.1 < n)
      = Finset.univ.filter fun kh => kh.1 ≠ 0 ∧ 7 * kh.2.val + nearPos kh.1 < n + 1 := by
  ext ⟨p, h'⟩; have := nearPos_le p
  simp only [Finset.mem_insert, Finset.mem_filter_univ, ne_eq, Prod.mk.injEq, ← nearPos_eq_iff, ← nearPos_eq_seven_iff]; omega
theorem peer_step (b : Bool) (hn : 7 * h.val + j.val = n) :
    (if b then Finset.univ.filter fun jh : Fin 7 × Fin 4 => n ≤ 7 * jh.2.val + jh.1.val else ∅).erase (j, h)
      = if b then Finset.univ.filter fun jh => n + 1 ≤ 7 * jh.2.val + jh.1.val else ∅ := by
  cases b
  · exact Finset.erase_empty _
  · ext ⟨j', h'⟩; simp only [if_true, Finset.mem_erase, Finset.mem_filter_univ, ne_eq, Prod.mk.injEq, Fin.ext_iff]; omega
theorem peer_open (hn : n = 0) :
    (Finset.univ : Finset (Fin 7 × Fin 4)) = if true then Finset.univ.filter fun jh => n ≤ 7 * jh.2.val + jh.1.val else ∅ := by
  ext jh; simp only [if_true, Finset.mem_filter_univ, Finset.mem_univ, hn, Nat.zero_le]

end Sets

theorem tr_signal (k : Cnt) (j : Fin 7) (hj : j.val = k.nsig) :
    (stageOf k).signal j = stageOf { k with nsig := k.nsig + 1 } := by
  apply Stage.ext <;> try rfl
  case paid => simp only [stageOf, Stage.signal]; omega
  case sigTodo =>
    ext j'; simp only [stageOf, Stage.signal, Finset.mem_erase, Finset.mem_filter_univ, ne_eq, Fin.ext_iff]; omega
  case gMine => exact mine_step _ j hj
  case oMine => exact mine_step _ j hj

theorem tr_barWait (k : Cnt) (h1 : k.n1 = 0) (h2 : k.n2 = 0) :
    (stageOf k).barWait = stageOf { k with bar := true } := by
  apply Stage.ext <;> try rfl
  case gPeer => exact peer_open _ h1
  case oPeer => exact peer_open _ h2

theorem tr_xbStore (k : Cnt) (h : Fin 4) (hh : h.val = k.nxb) (hn : k.n1 ≤ 7 * h.val) :
    (stageOf k).xbStore h = stageOf { k with nxb := k.nxb + 1 } := by
  apply Stage.ext <;> try rfl
  case xbRaw =>
    ext h'; simp only [stageOf, Stage.xbStore, Finset.mem_erase, Finset.mem_filter_univ, ne_eq, Fin.ext_iff]; omega
  case xbHave =>
    ext ⟨p, h'⟩
    simp only [stageOf, Stage.xbStore, Finset.mem_union, Finset.mem_filter_univ, ← farPos_eq_seven_iff]; omega

theorem tr_send1 (k : Cnt) (h : Fin 4) (j : Fin 7) (hn : 7 * h.val + j.val = k.n1) (hw : k.nw1 ≤ k.n1) :
    (stageOf k).send1 h j = stageOf { k with n1 := k.n1 + 1 } := by
  apply Stage.ext <;> try rfl
  case paid => simp only [stageOf, Stage.send1]; omega
  case s1Todo => exact todo_step _ h j hn
  case s1Fly => exact fly_in _ _ h j hn hw
  case xbHave =>
    ext ⟨p, h'⟩; have := farPos_le p
    simp only [stageOf, Stage.send1, Finset.mem_erase, Finset.mem_filter_univ, ne_eq, Prod.mk.injEq, ← farPos_eq_iff,
      ← farPos_eq_seven_iff]
    omega
  case gPeer => exact peer_step _ h j _ hn

theorem tr_recv1 (k : Cnt) (h : Fin 4) (j : Fin 7) (hn : 7 * h.val + j.val = k.nr1) :
    (stageOf k).recv1 h j = stageOf { k with nr1 := k.nr1 + 1 } := by
  apply Stage.ext <;> try rfl
  case r1Todo => exact todo_step _ h j hn
  case r1Done => exact done_step _ h j hn
  case gLanded => exact landed_step _ h j hn

theorem tr_outOwn (k : Cnt) (h : Fin 4) (hh : h.val = k.nown) :
    (stageOf k).outStore 0 h = stageOf { k with nown := k.nown + 1 } := by
  apply Stage.ext <;> try rfl
  case outDone =>
    ext ⟨p, h'⟩
    simp only [stageOf, Stage.outStore, Finset.mem_insert, Finset.mem_filter_univ, ne_eq, Prod.mk.injEq, ← nearPos_eq_seven_iff]
    omega

theorem tr_aStore (k : Cnt) (h : Fin 4) (hh : h.val = k.na) (hn : k.n2 ≤ 7 * h.val) :
    (stageOf k).aStore h = stageOf { k with na := k.na + 1 } := by
  apply Stage.ext <;> try rfl
  case aRaw =>
    ext h'; simp only [stageOf, Stage.aStore, Finset.mem_erase, Finset.mem_filter_univ, ne_eq, Fin.ext_iff]; omega
  case aSent =>
    funext h'; simp only [stageOf, Stage.aStore, Function.update_apply]
    split_ifs with e
    · subst e; omega
    · rfl

theorem tr_send2 (k : Cnt) (h : Fin 4) (j : Fin 7) (hn : 7 * h.val + j.val = k.n2) (hw : k.nw2 ≤ k.n2) :
    (stageOf k).send2 h j = stageOf { k with n2 := k.n2 + 1 } := by
  apply Stage.ext <;> try rfl
  case s2Todo => exact todo_step _ h j hn
  case s2Fly => exact fly_in _ _ h j hn hw
  case aSent =>
    funext h'; simp only [stageOf, Stage.send2, Function.update_apply]
    split_ifs with e
    · subst e; omega
    · have : h'.val ≠ h.val := fun q => e (Fin.ext q)
      omega
  case oPeer => exact peer_step _ h j _ hn

theorem tr_recv2 (k : Cnt) (h : Fin 4) (j : Fin 7) (hn : 7 * h.val + j.val = k.nr2) :
    (stageOf k).recv2 h j = stageOf { k with nr2 := k.nr2 + 1 } := by
  apply Stage.ext <;> try rfl
  case r2Todo => exact todo_step _ h j hn
  case r2Done => exact done_step _ h j hn
  case oLanded => exact landed_step _ h j hn

theorem tr_outOther (k : Cnt) (h : Fin 4) (j : Fin 7) (hn : 7 * h.val + j.val = k.noth) :
    (stageOf k).outStore (near j) h = stageOf { k with noth := k.noth + 1 } := by
  apply Stage.ext <;> try rfl
  case outDone =>
    ext ⟨p, h'⟩; have := nearPos_le p
    simp only [stageOf, Stage.outStore, Finset.mem_insert, Finset.mem_filter_univ, ne_eq, Prod.mk.injEq, ← nearPos_eq_iff,
      ← nearPos_eq_seven_iff]
    omega

theorem tr_sendWait1 (k : Cnt) (h : Fin 4) (j : Fin 7) (hn : 7 * h.val + j.val = k.nw1) (hx : h.val < k.nxb) :
    (stageOf k).sendWait1 h j = stageOf { k with nw1 := k.nw1 + 1 } := by
  apply Stage.ext <;> try rfl
  case s1Fly => exact fly_out _ _ h j hn
  case s1Done => exact done_step _ h j hn
  case xbHave =>
    ext ⟨p, h'⟩; have := farPos_le p
    simp only [stageOf, Stage.sendWait1, Finset.mem_insert, Finset.mem_filter_univ, Prod.mk.injEq, ← farPos_eq_iff,
      ← farPos_eq_seven_iff]
    omega

theorem tr_sendWait2 (k : Cnt) (h : Fin 4) (j : Fin 7) (hn : 7 * h.val + j.val = k.nw2) :
    (stageOf k).sendWait2 h j = stageOf { k with nw2 := k.nw2 + 1 } := by
  apply Stage.ext <;> try rfl
  case s2Fly => exact fly_out _ _ h j hn
  case s2Done => exact done_step _ h j hn
  case aBack => exact done_step _ h j hn

theorem stage_k₀ : stageOf k₀ = σ₀ := by
  apply Stage.ext <;> first | rfl | decide | (funext h; revert h; decide)

theorem stage_k₁ : stageOf k₁ = σ₁ := by
  apply Stage.ext <;> first | rfl | decide | (funext h; revert h; decide)

end Cert.KernelIdeal.AR
-- ==== Proof.KernelIdealAR.StepSignal.lean ====
import proofs.«900697_g7700000000000698_dist_ar_v7x_i8_i_m512_n512_f32_1_alg».proof.Proof.KernelIdealAR.ProtoF
import proofs.«900697_g7700000000000698_dist_ar_v7x_i8_i_m512_n512_f32_1_alg».proof.Proof.KernelIdealAR.Levels

noncomputable section

namespace Cert.KernelIdeal.AR

open Cert.KernelIdeal Cert.KernelIdeal.Gen
open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- In an affine logic a summand joins an iterated conjunction whether or not its index is there already. -/
theorem bigSep_ins {I : Type} [DecidableEq I] {s : Finset I} {i : I} {Φ : I → sProp 𝕄} :
    iprop(Φ i ∗ bigSep s Φ) ⊢ bigSep (insert i s) Φ := by
  by_cases hi : i ∈ s
  · rw [Finset.insert_eq_of_mem hi]; exact sep_elim_right
  · rw [bigSep_insert hi]; exact .rfl

/-- Four ways into a right-nested chain of conjuncts: take a part out of, or put a part into, its head or its tail. -/
theorem pk_l {A W X X' : sProp 𝕄} (h : X ⊢ iprop(W ∗ X')) : iprop(A ∗ X) ⊢ iprop(W ∗ A ∗ X') :=
  (sep_mono_right h).trans sep_left_comm.1
theorem pk_r {A A' R W : sProp 𝕄} (h : A ⊢ iprop(W ∗ A')) : iprop(A ∗ R) ⊢ iprop(W ∗ A' ∗ R) :=
  (sep_mono_left h).trans Laws.sep_assoc.1
theorem ins_l {A C X X' : sProp 𝕄} (h : iprop(C ∗ X) ⊢ X') : iprop(C ∗ A ∗ X) ⊢ iprop(A ∗ X') :=
  sep_left_comm.1.trans (sep_mono_right h)
theorem ins_r {A A' C R : sProp 𝕄} (h : iprop(C ∗ A) ⊢ A') : iprop(C ∗ A ∗ R) ⊢ iprop(A' ∗ R) :=
  Laws.sep_assoc.2.trans (sep_mono_left h)

instance records_pers (K : Dev nD × CIx → ℕ) : BI.Persistent (records m K : sProp 𝕄) := by
  unfold records; infer_instance

/-- What all devices share says of a used cell: its invariant, that its round 0 is reached, and the levels. -/
theorem records_get (K : Dev nD × CIx → ℕ) (ck : Dev nD × CIx) (hu : usedIx ck.1 ck.2) :
    (records m K : sProp 𝕄) ⊢ iprop(cellInv ER (Rd m) (K ck) (kcell ck) ∗ reached ER (kcell ck) 0 ∗ levAts L lv) := by
  have hi : ck ∈ Finset.univ.filter (fun ck : Dev nD × CIx => usedIx ck.1 ck.2) := Finset.mem_filter.mpr ⟨Finset.mem_univ _, hu⟩
  unfold records
  exact sep_mono (bigSep_elim hi) (sep_mono (bigSep_elim hi) (Entails.refl _))

theorem used_send (a : Fin 4) (ha : a.val % 2 = 0) (c : Dev nD) (h : Fin 4) (k : Fin 8) (hk : k ≠ 0) : usedIx c (some (a, h, k)) :=
  (if_pos ha).mpr hk
theorem used_recv (a : Fin 4) (ha : ¬ a.val % 2 = 0) (c : Dev nD) (h : Fin 4) (s : Fin 8) (hs : s ≠ c) : usedIx c (some (a, h, s)) :=
  (if_neg ha).mpr hs

/-- A family over pairs that holds the whole fibre over `a` gives the fibre up and keeps the pairs off it. -/
theorem bigSep_fibre {A B : Type} [DecidableEq A] [DecidableEq B] [Fintype B] {s : Finset (A × B)} {a : A}
    (hs : ∀ b, (a, b) ∈ s) {Φ : A × B → sProp 𝕄} :
    bigSep s Φ ⊢ iprop((bigSep Finset.univ fun b => Φ (a, b)) ∗ bigSep (s.filter fun kh => kh.1 ≠ a) Φ) := by
  have e : (s.filter fun kh => ¬ kh.1 ≠ a) = Finset.univ.map ⟨fun b : B => (a, b), fun b b' hb => (Prod.mk.inj hb).2⟩ := by
    ext ⟨x, y⟩
    rw [Finset.mem_filter, Finset.mem_map]
    constructor
    · rintro ⟨-, hx⟩
      refine ⟨y, Finset.mem_univ _, ?_⟩
      have hx' : x = a := not_not.mp hx
      show (a, y) = (x, y)
      rw [hx']
    · rintro ⟨b, -, hb⟩
      obtain ⟨rfl, rfl⟩ := Prod.mk.inj (hb : (a, b) = (x, y))
      exact ⟨hs _, not_not.mpr rfl⟩
  rw [bigSep_filter_split s (fun kh => kh.1 ≠ a), e, bigSep_map]
  exact sep_comm.1

/-- The `j`-th payment, `j < 7`, is the unit on the barrier cell of partner `far j`. -/
theorem owed_sig (c : Dev nD) (j : Fin 7) :
    owedFrom c j.val = owedFrom c (j.val + 1) + tallyAt (barCell (px c (far j))) () 1 := by
  have e : (⟨j.val % 7, Nat.mod_lt _ (by decide)⟩ : Fin 7) = j := Fin.ext (Nat.mod_eq_of_lt j.isLt)
  rw [owedFrom_step c j.val (by have := j.isLt; omega)]; unfold pay; rw [if_pos j.isLt, e]

theorem step_signal (K : Dev nD × CIx → ℕ) (σ : Stage) (c : Dev nD) (j : Fin 7)
    (hj : j ∈ σ.sigTodo) (hp : σ.paid = j.val)
    (hg : ∀ h : Fin 4, (far j, h) ∈ σ.gMine) (ho : ∀ h : Fin 4, (far j, h) ∈ σ.oMine)
    {d : Dev nD} (hd : d = px c (far j)) {n : ℕ} (hn : n = 1)
    {α : Type} {Q : α → sProp 𝕄} {k : PUnit → Prog (TpuEff nD τ sig (Elt F) Λ₀ .tc) α} :
    St m K σ c ⊢ iprop((St m K (σ.signal j) c -∗ wp frame (wpE (defs₀ (F := F)) 𝒱₀ (c : Thread nD τ) none) Set.univ (k ⟨⟩) Q)
      -∗ wp frame (wpE (defs₀ (F := F)) 𝒱₀ (c : Thread nD τ) none) Set.univ (.op (.semSignal ((d, Proc.tc) : Thread nD τ) barS n) k) Q) := by
  subst hd hn
  have hO : owedFrom c σ.paid = owedFrom c (σ.paid + 1) + tallyAt (barCell (px c (far j))) () 1 := by rw [hp, owed_sig]
  have hduty : far j ∈ (Rd (F := F) m).duties (barCell (px c (far j))) 0 := by
    rw [duties_bar]; exact Finset.mem_erase.mpr ⟨far_ne j, Finset.mem_univ _⟩
  unfold St stOwes stCells stStage stScratch
  dsimp only [Stage.signal]
  iintro ⟨#Hrec, ⟨%W, Howes⟩, Hcells, Hun, Hstage, Hscr⟩ Hk
  ihave ⟨Htok, Hcells⟩ := (pk_r (bigSep_pick hj)) $$ Hcells
  ihave ⟨Hpay, Hscr⟩ := ((pk_l (pk_l (pk_l (pk_l (pk_l (pk_l (pk_l (pk_l (pk_r (bigSep_fibre ho)))))))))).trans ((pk_l (pk_l (pk_l (pk_r (bigSep_fibre hg))))).trans Laws.sep_assoc.2)) $$ Hscr
  ihave Hb := (records_get m K (px c (far j), none) trivial) $$ Hrec
  icases Hb with ⟨#Hinv, #Hre, -⟩
  iapply (wp_signal 𝒱₀ ER (Rd m) (c : Thread nD τ) none (dst := ((px c (far j), Proc.tc) : Thread nD τ)) (sem := barS) (r := 0) (d := far j) (k' := 1)
    (κ := K (px c (far j), none)) hduty (amount_bar m _ _) () (owedFrom c (σ.paid + 1)) hO (W := W) (Es := Set.univ)
    (Topo.routes_tc _ _)) $$ [$Hinv $Howes $Htok $Hre Hpay]
  · rw [payload_bar, px_px]; unfold barPay; iexact Hpay
  iintro Howes
  iapply Hk
  iframe Hrec Hun Hstage Hscr
  isplitl [Howes]; · iexists W; iexact Howes
  iexact Hcells

theorem far_inj : Function.Injective far := by decide

/-- The seven payloads of the barrier's round, by place in `far` and slab: the device's own slot in every partner's two gather buffers. -/
theorem barPays (c : Dev nD) :
    bigSep ((Rd (F := F) m).duties (barCell c) 0 \ ∅) (fun d => (Rd (F := F) m).payload (barCell c) 0 d)
      = iprop((bigSep Finset.univ fun jh : Fin 7 × Fin 4 => slotAny (F := F) gM (px c (far jh.1)) c jh.2)
          ∗ (bigSep Finset.univ fun jh : Fin 7 × Fin 4 => slotAny (F := F) oM (px c (far jh.1)) c jh.2)) := by
  rw [duties_bar, (by decide : (Finset.univ.erase (0 : Fin 8) \ ∅) = Finset.univ.map ⟨far, far_inj⟩), bigSep_map, bigSep_univ_prod, bigSep_univ_prod]
  exact bigSep_sep Finset.univ (fun a : Fin 7 => bigSep Finset.univ fun b : Fin 4 => slotAny (F := F) gM (px c (far a)) c b)
    (fun a : Fin 7 => bigSep Finset.univ fun b : Fin 4 => slotAny (F := F) oM (px c (far a)) c b)

theorem step_barWait (K : Dev nD × CIx → ℕ) (σ : Stage) (c : Dev nD)
    (hb : σ.barTodo = true) (hp : σ.paid = 7) (hgp : σ.gPeer = ∅) (hop : σ.oPeer = ∅) {n : ℕ} (hn : n = 7)
    {α : Type} {Q : α → sProp 𝕄} {k : PUnit → Prog (TpuEff nD τ sig (Elt F) Λ₀ .tc) α} :
    St m K σ c ⊢ iprop((St m K σ.barWait c -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS n) k) Q) := by
  subst hn
  have hexp : 0 + 7 = (Rd (F := F) m).expect ((c : Thread nD τ), .reg barS) 0 := by rw [expect_bar]
  unfold St stOwes stCells stStage stScratch
  dsimp only [Stage.barWait]
  rw [hb, hp]
  iintro ⟨#Hrec, ⟨%W, Howes⟩, ⟨Hsig, Hbar, Hcells⟩, Hun, Hstage, Hscr⟩ Hk
  ihave ⟨Hat, Hcr⟩ := (Entails.of_eq (if_pos rfl)) $$ Hbar
  ihave Hb := (records_get m K (c, none) trivial) $$ Hrec
  icases Hb with ⟨#Hinv, -, #Hlev⟩
  iapply (wp_wait_rest_token 𝒱₀ ER (Rd m) (c : Thread nD τ) none (defs := defs₀ (F := F)) (w := .semWait barS 7) (sm := .reg barS) (k' := 7)
    (Es := Set.univ) (κ := K (c, none)) (wpE_semWait_eq 𝒱₀ (c : Thread nD τ) none Set.univ) (Set.mem_univ _) ()
    (O := owedFrom c 7) (W := W) (R := 0) (m := 0) (T := ∅) hexp) $$ [$Hinv $Hcr $Howes $Hat]
  · iapply (mayWait_bar c); iexact Hlev
  iintro ⟨Howes, -, -, Hpay⟩
  ihave Hpay := (Entails.of_eq (barPays m c)) $$ Hpay
  iapply Hk
  iframe Hrec Hun Hstage
  isplitl [Howes]; · iexists _; iexact Howes
  isplitl [Hsig Hcells]
  · isplitl [Hsig]; · iexact Hsig
    isplitr; · iapply (Entails.of_eq (if_neg Bool.false_ne_true).symm); iempintro
    iexact Hcells
  iapply (Laws.sep_assoc.1.trans ((sep_mono_right (ins_l (ins_l (ins_l (ins_l (ins_l (ins_l (ins_l (ins_l (ins_l (ins_l (sep_elim_left)))))))))))).trans (ins_l (ins_l (ins_l (ins_l (ins_r sep_elim_left)))))))
  isplitl [Hpay]; · iexact Hpay
  iexact Hscr

end Cert.KernelIdeal.AR

end
-- ==== Proof.KernelIdealAR.StepLocal.lean ====
import proofs.«900697_g7700000000000698_dist_ar_v7x_i8_i_m512_n512_f32_1_alg».proof.Proof.KernelIdealAR.ProtoF
import proofs.«900697_g7700000000000698_dist_ar_v7x_i8_i_m512_n512_f32_1_alg».proof.Proof.KernelIdealAR.Geometry

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local macro "ikeep " h:ident : tactic => `(tactic| (isplitl [$h]; iexact $h))

private theorem bigSep_unpick {I : Type} [DecidableEq I] {s : Finset I} {i : I} (hi : i ∈ s)
    {Φ : I → sProp 𝕄} : iprop(Φ i ∗ bigSep (s.erase i) Φ) ⊢ bigSep s Φ :=
  Entails.of_eq (bigSep_erase hi).symm

private theorem bigSep_join {I : Type} [DecidableEq I] (s t : Finset I) {Φ : I → sProp 𝕄} :
    iprop(bigSep s Φ ∗ bigSep t Φ) ⊢ bigSep (s ∪ t) Φ :=
  bigSep_sep_union s t

private theorem slot_sub (M : Memref sig .tc .vmem S8x64x512 .bf16) (s : Fin 8) (h : Fin 4) :
    M.view.setOn (rG s h).toLoadRect.set ⊆ (slot M s h).view.set :=
  subset_of_eq (slot_set M s h).symm

private theorem out_blocks_disjoint (ph ph' : Fin 8 × Fin 4) (hne : ph ≠ ph') :
    Disjoint (outM.access (rOwn ph.1 ph.2)).set (outM.access (rOwn ph'.1 ph'.2)).set := by
  rw [show (outM.access (rOwn ph.1 ph.2)).set = (rOwn ph.1 ph.2).set from View.set_slice_whole cc0_stg1_0 _,
    show (outM.access (rOwn ph'.1 ph'.2)).set = (rOwn ph'.1 ph'.2).set from View.set_slice_whole cc0_stg1_0 _]
  exact rOwn_disjoint ph ph' hne

private theorem px_inj (c : Dev nD) {k k' : Fin 8} (e : px c k = px c k') : k = k' := by
  have := congrArg (mk c) e
  rwa [mk_px, mk_px] at this

private theorem pieces_by_mask (c : Dev nD) (h : Fin 4) (Φ : Fin 8 → Fin 4 → sProp 𝕄) :
    (bigSep Finset.univ fun p : Fin 8 => Φ p h)
      = bigSep (Finset.univ.filter fun kh : Fin 8 × Fin 4 => kh.2 = h) fun kh => Φ (px c kh.1) kh.2 := by
  have e : (Finset.univ.filter fun kh : Fin 8 × Fin 4 => kh.2 = h)
      = Finset.univ.map (⟨fun k : Fin 8 => (k, h), fun a b e => (Prod.mk.inj e).1⟩ : Fin 8 ↪ Fin 8 × Fin 4) := by
    ext kh
    rw [Finset.mem_filter, Finset.mem_map]
    exact ⟨fun ⟨_, e⟩ => ⟨kh.1, Finset.mem_univ _, Prod.ext rfl e.symm⟩, fun ⟨k, _, e⟩ => e ▸ ⟨Finset.mem_univ _, rfl⟩⟩
  rw [e, bigSep_map]
  exact bigSep_univ_equiv (⟨fun k => px c k, fun p => mk c p, mk_px c, px_mk c⟩ : Fin 8 ≃ Fin 8) (fun p => Φ p h)

theorem step_xLoad (K : Dev nD × CIx → ℕ) (σ : Stage) (c : Dev nD) {r : LoadRect S512x512} {hl : xM.view.LoadsAt r}
    {α : Type} {Q : α → sProp 𝕄} {k : (r.shape.Idx → Elt F .f32) → Prog (TpuEff nD τ sig (Elt F) Λ₀ .tc) α} :
    St m K σ c ⊢ iprop((St m K σ c -∗ wp frame (wpE (defs₀ (F := F)) 𝒱₀ (c : Thread nD τ) none) Set.univ (k (xM.view.readAt (Elt F) r (X m c))) Q)
      -∗ wp frame (wpE (defs₀ (F := F)) 𝒱₀ (c : Thread nD τ) none) Set.univ (.op (.load xM r hl) k) Q) := by
  unfold St stStage
  iintro ⟨HR, HO, HC, HU, ⟨HX, HY⟩, HS⟩ Hk
  iapply (wp_load 𝒱₀ (c : Thread nD τ) none Set.univ (m := xM) (Finset.subset_univ _)) $$ HX
  iintro HX
  iapply Hk
  iframe

theorem step_xbLoadRaw (K : Dev nD × CIx → ℕ) (σ : Stage) (c : Dev nD) (h : Fin 4) (hh : h ∈ σ.xbRaw)
    {r : LoadRect S512x512} (hr : r = (rX h).toLoadRect) {hl : xbM.view.LoadsAt r}
    {α : Type} {Q : α → sProp 𝕄} {k : (r.shape.Idx → Elt F .bf16) → Prog (TpuEff nD τ sig (Elt F) Λ₀ .tc) α} :
    St m K σ c ⊢ iprop((∀ v, St m K σ c -∗ wp frame (wpE (defs₀ (F := F)) 𝒱₀ (c : Thread nD τ) none) Set.univ (k v) Q)
      -∗ wp frame (wpE (defs₀ (F := F)) 𝒱₀ (c : Thread nD τ) none) Set.univ (.op (.load xbM r hl) k) Q) := by
  subst hr
  unfold St stScratch
  iintro ⟨HR, HO, HC, HU, HG, H1, HS⟩ Hk
  ihave H1 := (bigSep_pick hh) $$ H1
  icases H1 with ⟨⟨%f, Hx⟩, H1⟩
  iapply (wp_load_rect 𝒱₀ (c : Thread nD τ) none Set.univ (m := xbM) (r := rX h) (Finset.Subset.refl _)) $$ Hx
  iintro Hx
  iapply Hk $$ %((xbM.access (rX h)).read (Elt F) f)
  iframe
  iapply (bigSep_unpick hh)
  iframe
  iexists f
  iexact Hx

theorem step_xbStore (K : Dev nD × CIx → ℕ) (σ : Stage) (c : Dev nD) (h : Fin 4) (hh : h ∈ σ.xbRaw)
    {r : Rect S512x512} (hr : r = rX h) {w : r.shape.Idx → Elt F .bf16}
    {hx : (xbM.access r).Stores Finset.univ} {hm : (Finset.univ : Finset r.shape.Idx) = Finset.univ ∨ ∀ a, r.stride a = 1}
    (hw : ∀ f, ∀ i ∈ (xbM.access r).set, ((xbM.access r).write (Elt F) f w Finset.univ) i = XB m c i)
    {α : Type} {Q : α → sProp 𝕄} {k : PUnit → Prog (TpuEff nD τ sig (Elt F) Λ₀ .tc) α} :
    St m K σ c ⊢ iprop((St m K (σ.xbStore h) c -∗ wp frame (wpE (defs₀ (F := F)) 𝒱₀ (c : Thread nD τ) none) Set.univ (k ⟨⟩) Q)
      -∗ wp frame (wpE (defs₀ (F := F)) 𝒱₀ (c : Thread nD τ) none) Set.univ (.op (.store xbM r w Finset.univ hx hm) k) Q) := by
  subst hr
  unfold St stScratch
  iintro ⟨HR, HO, HC, HU, HG, H1, H2, HS⟩ Hk
  ihave H1 := (bigSep_pick hh) $$ H1
  icases H1 with ⟨⟨%f, Hx⟩, H1⟩
  iapply (wp_store 𝒱₀ (c : Thread nD τ) none Set.univ (m := xbM) (r := rX h) (Mk := Finset.univ) (S := (xbM.access (rX h)).set)
    (Finset.Subset.refl _)) $$ Hx
  iintro Hx
  ihave Hx := (Entails.of_eq (pointsTo_congr (hw f))) $$ Hx
  ihave Hx := (xb_slab_pieces c h (XB m c)).1 $$ Hx
  ihave Hx := (Entails.of_eq (pieces_by_mask c h
    (fun p h' => (xbPiece p h').view.loc (c : Thread nD τ) ↦[(xbPiece p h').view.set]{fullShare} XB m c))) $$ Hx
  iapply Hk
  ikeep HR
  ikeep HO
  ikeep HC
  ikeep HU
  ikeep HG
  ikeep H1
  isplitr [HS]
  · iapply (bigSep_join σ.xbHave (Finset.univ.filter fun kh : Fin 8 × Fin 4 => kh.2 = h))
    isplitl [H2]
    · iexact H2
    · iexact Hx
  · iexact HS

theorem step_outLoad (K : Dev nD × CIx → ℕ) (σ : Stage) (c : Dev nD) {r : LoadRect S512x512} {hl : outM.view.LoadsAt r}
    {α : Type} {Q : α → sProp 𝕄} {k : (r.shape.Idx → Elt F .f32) → Prog (TpuEff nD τ sig (Elt F) Λ₀ .tc) α} :
    St m K σ c ⊢ iprop((∀ v, St m K σ c -∗ wp frame (wpE (defs₀ (F := F)) 𝒱₀ (c : Thread nD τ) none) Set.univ (k v) Q)
      -∗ wp frame (wpE (defs₀ (F := F)) 𝒱₀ (c : Thread nD τ) none) Set.univ (.op (.load outM r hl) k) Q) := by
  unfold St stStage
  iintro ⟨HR, HO, HC, HU, ⟨HX, ⟨%f, %hf, HY⟩⟩, HS⟩ Hk
  iapply (wp_load 𝒱₀ (c : Thread nD τ) none Set.univ (m := outM) (Finset.subset_univ _)) $$ HY
  iintro HY
  iapply Hk $$ %(outM.view.readAt (Elt F) r f)
  iframe
  iexists f
  iframe
  ipureintro
  exact hf

theorem step_outStore (K : Dev nD × CIx → ℕ) (σ : Stage) (c : Dev nD) (k₀ : Fin 8) (h : Fin 4) (p : Fin 8) (hp : p = px c k₀)
    {off : Fin 2 → ℕ} {hin : ∀ a, off a + S64x128.size a ≤ S512x512.size a} (hoff : off = ![64 * p.val, 128 * h.val])
    {w : (Rect.unit (s := S512x512) off S64x128.size hin).shape.Idx → Elt F .f32}
    {hx : (outM.access (Rect.unit (s := S512x512) off S64x128.size hin)).Stores Finset.univ}
    {hm : (Finset.univ : Finset (Rect.unit (s := S512x512) off S64x128.size hin).shape.Idx) = Finset.univ
      ∨ ∀ a, (Rect.unit (s := S512x512) off S64x128.size hin).stride a = 1}
    (hw : ∀ f, ∀ i ∈ (outM.access (rOwn p h)).set, ((outM.access (rOwn p h)).write (Elt F) f w Finset.univ) i = outAt (X m) c i)
    {α : Type} {Q : α → sProp 𝕄} {k : PUnit → Prog (TpuEff nD τ sig (Elt F) Λ₀ .tc) α} :
    St m K σ c ⊢ iprop((St m K (σ.outStore k₀ h) c -∗ wp frame (wpE (defs₀ (F := F)) 𝒱₀ (c : Thread nD τ) none) Set.univ (k ⟨⟩) Q)
      -∗ wp frame (wpE (defs₀ (F := F)) 𝒱₀ (c : Thread nD τ) none) Set.univ (.op (.store outM (Rect.unit (s := S512x512) off S64x128.size hin) w Finset.univ hx hm) k) Q) := by
  subst hp
  subst hoff
  unfold St stStage
  iintro ⟨HR, HO, HC, HU, ⟨HX, ⟨%f, %hf, HY⟩⟩, HS⟩ Hk
  iapply (wp_store 𝒱₀ (c : Thread nD τ) none Set.univ (m := outM) (r := rOwn (px c k₀) h) (Finset.subset_univ _)) $$ HY
  iintro HY
  iapply Hk
  ikeep HR
  ikeep HO
  ikeep HC
  ikeep HU
  isplitr [HS]; swap; · iexact HS
  ikeep HX
  iexists ((outM.access (rOwn (px c k₀) h)).write (Elt F) f w Finset.univ)
  isplitr; swap; · iexact HY
  ipureintro
  intro kh hkh i hi
  by_cases e : kh = (k₀, h)
  · subst e
    exact hw f i hi
  · have hne : (px c kh.1, kh.2) ≠ (px c k₀, h) :=
      fun e' => e (Prod.ext (px_inj c (Prod.mk.inj e').1) (Prod.mk.inj e').2)
    rw [View.write_of_not_mem _ _ _ fun hi' =>
      Finset.disjoint_left.mp (out_blocks_disjoint (px c kh.1, kh.2) (px c k₀, h) hne) hi hi']
    exact hf kh ((Finset.mem_insert.mp hkh).resolve_left e) i hi

theorem step_aLoadRaw (K : Dev nD × CIx → ℕ) (σ : Stage) (c : Dev nD) (h : Fin 4) (hh : h ∈ σ.aRaw)
    {r : LoadRect S64x512} (hr : r = (rA h).toLoadRect) {hl : aM.view.LoadsAt r}
    {α : Type} {Q : α → sProp 𝕄} {k : (r.shape.Idx → Elt F .bf16) → Prog (TpuEff nD τ sig (Elt F) Λ₀ .tc) α} :
    St m K σ c ⊢ iprop((∀ v, St m K σ c -∗ wp frame (wpE (defs₀ (F := F)) 𝒱₀ (c : Thread nD τ) none) Set.univ (k v) Q)
      -∗ wp frame (wpE (defs₀ (F := F)) 𝒱₀ (c : Thread nD τ) none) Set.univ (.op (.load aM r hl) k) Q) := by
  subst hr
  unfold St stScratch
  iintro ⟨HR, HO, HC, HU, HG, H1, H2, H3, H4, H5, H6, HS⟩ Hk
  ihave H6 := (bigSep_pick hh) $$ H6
  icases H6 with ⟨⟨%f, Hx⟩, H6⟩
  iapply (wp_load_rect 𝒱₀ (c : Thread nD τ) none Set.univ (m := aM) (r := rA h) (S := (aPiece h).view.set) (Finset.Subset.refl _)) $$ Hx
  iintro Hx
  iapply Hk $$ %((aM.access (rA h)).read (Elt F) f)
  iframe
  iapply (bigSep_unpick hh)
  iframe
  iexists f
  iexact Hx

private theorem a_written (σ : Stage) (c : Dev nD) (h : Fin 4) (hh : h ∈ σ.aRaw) :
    iprop(((aPiece h).view.loc (c : Thread nD τ) ↦[(aPiece h).view.set]{fullShare} AB m c)
      ∗ bigSep (Finset.univ \ σ.aRaw) fun h' => (aPiece h').view.loc (c : Thread nD τ) ↦[(aPiece h').view.set]{remShare (σ.aSent h')} AB m c)
    ⊢ (bigSep (Finset.univ \ (σ.aStore h).aRaw) fun h' =>
        (aPiece h').view.loc (c : Thread nD τ) ↦[(aPiece h').view.set]{remShare ((σ.aStore h).aSent h')} AB m c : sProp 𝕄) := by
  have hn : h ∉ Finset.univ \ σ.aRaw := fun hm => (Finset.mem_sdiff.mp hm).2 hh
  show _ ⊢ bigSep (Finset.univ \ σ.aRaw.erase h) fun h' =>
    ((aPiece h').view.loc (c : Thread nD τ) ↦[(aPiece h').view.set]{remShare (Function.update σ.aSent h 0 h')} AB m c : sProp 𝕄)
  rw [Finset.sdiff_erase (Finset.mem_univ h), bigSep_insert hn]
  refine sep_mono (Entails.of_eq ?_) (Entails.of_eq (bigSep_congr fun h' hh' => ?_))
  · rw [Function.update_self]
    rfl
  · rw [Function.update_of_ne fun e : h' = h => (Finset.mem_sdiff.mp hh').2 (e ▸ hh)]

theorem step_aStore (K : Dev nD × CIx → ℕ) (σ : Stage) (c : Dev nD) (h : Fin 4) (hh : h ∈ σ.aRaw)
    {r : Rect S64x512} (hr : r = rA h) {w : r.shape.Idx → Elt F .bf16}
    {hx : (aM.access r).Stores Finset.univ} {hm : (Finset.univ : Finset r.shape.Idx) = Finset.univ ∨ ∀ a, r.stride a = 1}
    (hw : ∀ f, ∀ i ∈ (aM.access r).set, ((aM.access r).write (Elt F) f w Finset.univ) i = AB m c i)
    {α : Type} {Q : α → sProp 𝕄} {k : PUnit → Prog (TpuEff nD τ sig (Elt F) Λ₀ .tc) α} :
    St m K σ c ⊢ iprop((St m K (σ.aStore h) c -∗ wp frame (wpE (defs₀ (F := F)) 𝒱₀ (c : Thread nD τ) none) Set.univ (k ⟨⟩) Q)
      -∗ wp frame (wpE (defs₀ (F := F)) 𝒱₀ (c : Thread nD τ) none) Set.univ (.op (.store aM r w Finset.univ hx hm) k) Q) := by
  subst hr
  unfold St stScratch
  iintro ⟨HR, HO, HC, HU, HG, H1, H2, H3, H4, H5, H6, H7, HS⟩ Hk
  ihave H6 := (bigSep_pick hh) $$ H6
  icases H6 with ⟨⟨%f, Hx⟩, H6⟩
  iapply (wp_store 𝒱₀ (c : Thread nD τ) none Set.univ (m := aM) (r := rA h) (Mk := Finset.univ) (S := (aPiece h).view.set)
    (Finset.Subset.refl _)) $$ Hx
  iintro Hx
  ihave Hx := (Entails.of_eq (pointsTo_congr (hw f))) $$ Hx
  iapply Hk
  ikeep HR
  ikeep HO
  ikeep HC
  ikeep HU
  ikeep HG
  ikeep H1
  ikeep H2
  ikeep H3
  ikeep H4
  ikeep H5
  ikeep H6
  isplitr [HS]
  · iapply (a_written m σ c h hh)
    isplitl [Hx]
    · iexact Hx
    · iexact H7
  · iexact HS

theorem step_gLoad (K : Dev nD × CIx → ℕ) (σ : Stage) (c : Dev nD) (k₀ : Fin 8) (h : Fin 4) (hk : (k₀, h) ∈ σ.gLanded)
    (p : Fin 8) (hp : p = px c k₀)
    {off : Fin 3 → ℕ} {hin : ∀ a, off a + S1x64x128.size a ≤ S8x64x512.size a} (hoff : off = ![p.val, 0, 128 * h.val])
    {hl : gM.view.LoadsAt (Rect.unit (s := S8x64x512) off S1x64x128.size hin).toLoadRect}
    {α : Type} {Q : α → sProp 𝕄}
    {k : ((Rect.unit (s := S8x64x512) off S1x64x128.size hin).toLoadRect.shape.Idx → Elt F .bf16) → Prog (TpuEff nD τ sig (Elt F) Λ₀ .tc) α} :
    St m K σ c ⊢ iprop((St m K σ c -∗ wp frame (wpE (defs₀ (F := F)) 𝒱₀ (c : Thread nD τ) none) Set.univ (k (gM.view.readAt (Elt F) (rG p h).toLoadRect (G1 m c))) Q)
      -∗ wp frame (wpE (defs₀ (F := F)) 𝒱₀ (c : Thread nD τ) none) Set.univ (.op (.load gM (Rect.unit (s := S8x64x512) off S1x64x128.size hin).toLoadRect hl) k) Q) := by
  subst hp
  subst hoff
  unfold St stScratch
  iintro ⟨HR, HO, HC, HU, HG, H1, H2, H3, H4, HS⟩ Hk
  ihave H4 := (bigSep_pick hk) $$ H4
  icases H4 with ⟨Hx, H4⟩
  iapply (wp_load 𝒱₀ (c : Thread nD τ) none Set.univ (m := gM) (r := (rG (px c k₀) h).toLoadRect) (slot_sub gM (px c k₀) h)) $$ Hx
  iintro Hx
  iapply Hk
  iframe
  iapply (bigSep_unpick hk)
  iframe

theorem step_oLoad (K : Dev nD × CIx → ℕ) (σ : Stage) (c : Dev nD) (k₀ : Fin 8) (h : Fin 4) (hk : (k₀, h) ∈ σ.oLanded)
    (p : Fin 8) (hp : p = px c k₀)
    {off : Fin 3 → ℕ} {hin : ∀ a, off a + S1x64x128.size a ≤ S8x64x512.size a} (hoff : off = ![p.val, 0, 128 * h.val])
    {hl : oM.view.LoadsAt (Rect.unit (s := S8x64x512) off S1x64x128.size hin).toLoadRect}
    {α : Type} {Q : α → sProp 𝕄}
    {k : ((Rect.unit (s := S8x64x512) off S1x64x128.size hin).toLoadRect.shape.Idx → Elt F .bf16) → Prog (TpuEff nD τ sig (Elt F) Λ₀ .tc) α} :
    St m K σ c ⊢ iprop((St m K σ c -∗ wp frame (wpE (defs₀ (F := F)) 𝒱₀ (c : Thread nD τ) none) Set.univ (k (oM.view.readAt (Elt F) (rG p h).toLoadRect (OB m c))) Q)
      -∗ wp frame (wpE (defs₀ (F := F)) 𝒱₀ (c : Thread nD τ) none) Set.univ (.op (.load oM (Rect.unit (s := S8x64x512) off S1x64x128.size hin).toLoadRect hl) k) Q) := by
  subst hp
  subst hoff
  unfold St stScratch
  iintro ⟨HR, HO, HC, HU, HG, H1, H2, H3, H4, H5, H6, H7, H8, H9, H10, HS⟩ Hk
  ihave H10 := (bigSep_pick hk) $$ H10
  icases H10 with ⟨Hx, H10⟩
  iapply (wp_load 𝒱₀ (c : Thread nD τ) none Set.univ (m := oM) (r := (rG (px c k₀) h).toLoadRect) (slot_sub oM (px c k₀) h)) $$ Hx
  iintro Hx
  iapply Hk
  iframe
  iapply (bigSep_unpick hk)
  iframe

end Cert.KernelIdeal.AR

end
-- ==== Proof.KernelIdealAR.StepSend.lean ====
import proofs.«900697_g7700000000000698_dist_ar_v7x_i8_i_m512_n512_f32_1_alg».proof.Proof.KernelIdealAR.StepSignal
import proofs.«900697_g7700000000000698_dist_ar_v7x_i8_i_m512_n512_f32_1_alg».proof.Proof.KernelIdealAR.Geometry

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

private theorem decode (b : ℕ) (h : Fin 4) (j : Fin 7) :
    (⟨(b + 7 * h.val + j.val - b) % 7, Nat.mod_lt _ (by decide)⟩ : Fin 7) = j
      ∧ (⟨(b + 7 * h.val + j.val - b) / 7 % 4, Nat.mod_lt _ (by decide)⟩ : Fin 4) = h :=
  ⟨Fin.ext (by have := j.isLt; simp only; omega), Fin.ext (by have := h.isLt; have := j.isLt; simp only; omega)⟩
/-- After the seven signals come the 28 arrivals of phase 1, then the 28 of phase 2, slab by slab in the order of `far`. -/
private theorem pay_phase (c : Dev nD) (h : Fin 4) (j : Fin 7) {n : ℕ} :
    (n = 7 + 7 * h.val + j.val → pay c n = tallyAt (r1Cell (px c (far j)) h c) () N)
      ∧ (n = 35 + 7 * h.val + j.val → pay c n = tallyAt (r2Cell (px c (far j)) h c) () N) := by
  have hh := h.isLt; have hjj := j.isLt
  refine ⟨fun e => ?_, fun e => ?_⟩ <;> subst e <;> unfold pay
  · rw [if_neg (by omega), if_pos (by omega), (decode 7 h j).1, (decode 7 h j).2]
  · rw [if_neg (by omega), if_neg (by omega), (decode 35 h j).1, (decode 35 h j).2]

/-- A copy to a partner pays the sender's send cell with the source and the partner's receive cell with the slot as it will land; the arrival is no longer owed. -/
theorem step_send (K : Dev nD × CIx → ℕ) (σ σ' : Stage) (c : Dev nD) (a a' h : Fin 4) (j : Fin 7)
    (src : Memref sig .tc .vmem S64x128 .bf16) (G : Memref sig .tc .vmem S8x64x512 .bf16)
    {q : PosShare TreeShare} {fs : Buf (Elt F) (src.view.loc (c : Thread nD τ))} {Fl Mid : sProp 𝕄}
    (hu₁ : usedIx c (some (a, h, far j))) (hu₂ : usedIx (px c (far j)) (some (a', h, c)))
    (hd₁ : (Rd (F := F) m).duties (kcell (c, some (a, h, far j))) 0 = {0})
    (hd₂ : (Rd (F := F) m).duties (kcell (px c (far j), some (a', h, c))) 0 = {0})
    (hlt : σ.paid < 63) (hσ : σ'.paid = σ.paid + 1)
    (hpay : pay c σ.paid = tallyAt (kcell (px c (far j), some (a', h, c))) () N)
    (hT : stStage m σ' c = stStage m σ c)
    (hC : (stCells σ c : sProp 𝕄) ⊢ iprop((atPos ER (kcell (c, some (a, h, far j))) 0 ∅ 0 ∗ dutyTok ER (kcell (c, some (a, h, far j))) 0 0
        ∗ dutyTok ER (kcell (px c (far j), some (a', h, c))) 0 0) ∗ Mid))
    (hC' : iprop(Fl ∗ Mid) ⊢ stCells σ' c)
    (hFl : waitingAt (kcell (c, some (a, h, far j))) N ⊢ Fl)
    (hS : stScratch m σ c ⊢ iprop(slotAny G (px c (far j)) c h ∗ (src.view.loc (c : Thread nD τ) ↦[src.view.set]{q} fs) ∗ stScratch m σ' c))
    (hp₁ : (src.view.loc (c : Thread nD τ) ↦[src.view.set]{q} fs : sProp 𝕄) ⊢ (Rd (F := F) m).payload (kcell (c, some (a, h, far j))) 0 0)
    (hp₂ : ∀ fd, ((slot G c h).view.loc ((px c (far j) : Dev nD) : Thread nD τ) ↦[(slot G c h).view.set]{fullShare}
          ((slot G c h).view.write (Elt F) fd (src.view.read (Elt F) fs) Finset.univ) : sProp 𝕄)
        ⊢ (Rd (F := F) m).payload (kcell (px c (far j), some (a', h, c))) 0 0)
    {hsc} {hsrc} {hdst} {hsem}
    {α : Type} {Q : α → sProp 𝕄} {k : PUnit → Prog (TpuEff nD τ sig (Elt F) Λ₀ .tc) α} :
    St m K σ c ⊢ iprop((St m K σ' c -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote ((px c (far j) : Dev nD) : Thread nD τ) (slot G c h) (.dma (dsem (arr a) h (far j))) hsc)
            (.dma (dsem (arr a') h c)) hsrc hdst hsem) k) Q) := by
  have hO : owedFrom c σ.paid = owedFrom c σ'.paid + tallyAt (kcell (px c (far j), some (a', h, c))) () N := by
    rw [hσ, owedFrom_step c σ.paid hlt, hpay]
  unfold St stOwes
  rw [hT]
  iintro ⟨#Hrec, ⟨%W, How⟩, Hcells, Hun, Hstg, Hscr⟩ Hk
  ihave Hb := (records_get m K (c, some (a, h, far j)) hu₁) $$ Hrec
  icases Hb with ⟨#HI₁, #Hre₁, -⟩
  ihave Hb := (records_get m K (px c (far j), some (a', h, c)) hu₂) $$ Hrec
  icases Hb with ⟨#HI₂, #Hre₂, -⟩
  ihave ⟨⟨Hat, Ht1, Ht2⟩, Hmid⟩ := hC $$ Hcells
  ihave ⟨⟨%fd, Hdst⟩, Hsrc, Hscr⟩ := hS $$ Hscr
  iapply (wp_send_pointsTo (defs := defs₀ (F := F)) 𝒱₀ ER (Rd (F := F) m) (c : Thread nD τ) none
      (c' := ((px c (far j) : Dev nD) : Thread nD τ)) (src := src) (dst := slot G c h)
      (sS := .dma (dsem (arr a) h (far j))) (sem := .dma (dsem (arr a') h c))
      (q := q) (fs := fs) (fd := fd) (r₁ := 0) (r₂ := 0) (d₁ := (0 : Fin 8)) (d₂ := (0 : Fin 8))
      (κ₁ := K (c, some (a, h, far j))) (κ₂ := K (px c (far j), some (a', h, c)))
      (by rw [hd₁]; exact Finset.mem_singleton_self _) (by rw [hd₂]; exact Finset.mem_singleton_self _) () () N rfl rfl rfl
      (owedFrom c σ'.paid) hO hp₁ (hp₂ fd)) $$ [$HI₁ $HI₂ $Hsrc $Hdst $How $Ht1 $Hre₁ $Ht2 $Hre₂]
  iintro ⟨Hcr, How⟩
  iapply Hk
  iframe Hrec Hun Hstg Hscr
  isplitl [How]; · iexists W; iexact How
  iapply hC'
  iframe Hmid
  iapply hFl
  isplitl [Hat] <;> iassumption

/-- A written slab of the narrowed sum lends its next share: what is left of it is one send further. -/
private theorem aHave_lend (c : Dev nD) (cnt : Fin 4 → ℕ) {S : Finset (Fin 4)} {h : Fin 4} (hS : h ∈ S) :
    (bigSep S fun h' => ((aPiece h').view.loc (c : Thread nD τ) ↦[(aPiece h').view.set]{remShare (cnt h')} AB m c : sProp 𝕄))
      ⊢ iprop(((aPiece h).view.loc (c : Thread nD τ) ↦[(aPiece h).view.set]{lentShare (cnt h)} AB m c)
        ∗ bigSep S fun h' => ((aPiece h').view.loc (c : Thread nD τ) ↦[(aPiece h').view.set]{remShare (Function.update cnt h (cnt h + 1) h')} AB m c : sProp 𝕄)) := by
  rw [bigSep_erase hS, bigSep_erase hS, Function.update_self]
  refine (sep_mono_left ((a_share_step c h (cnt h) (AB m c)).1.trans sep_comm.1)).trans (Laws.sep_assoc.1.trans
    (sep_mono_right (sep_mono_right (Entails.of_eq (bigSep_congr fun i hi => ?_)))))
  rw [Function.update_of_ne (Finset.ne_of_mem_erase hi)]

theorem step_send1 (K : Dev nD × CIx → ℕ) (σ : Stage) (c : Dev nD) (h : Fin 4) (j : Fin 7)
    (hj : (h, j) ∈ σ.s1Todo) (hp : σ.paid = 7 + 7 * h.val + j.val)
    (hx : (far j, h) ∈ σ.xbHave) (hg : (j, h) ∈ σ.gPeer)
    (hland : ∀ fd : Buf (Elt F) ((slot gM c h).view.loc ((px c (far j) : Dev nD) : Thread nD τ)), ∀ i ∈ (slot gM c h).view.set,
      ((slot gM c h).view.write (Elt F) fd ((xbPiece (px c (far j)) h).view.read (Elt F) (XB m c)) Finset.univ) i = G1 m (px c (far j)) i)
    {offS : Fin 2 → ℕ} {hinS : ∀ a, offS a + S64x128.size a ≤ S512x512.size a} (hoffS : offS = ![64 * (px c (far j)).val, 128 * h.val])
    {offD : Fin 3 → ℕ} {hinD : ∀ a, offD a + S1x64x128.size a ≤ S8x64x512.size a} (hoffD : offD = ![c.val, 0, 128 * h.val])
    {offs : Fin 2 → ℕ} {hins : ∀ a, offs a + S1x1.size a ≤ S4x8.size a} (hoffs : offs = ![h.val, (far j).val])
    {offr : Fin 2 → ℕ} {hinr : ∀ a, offr a + S1x1.size a ≤ S4x8.size a} (hoffr : offr = ![h.val, c.val])
    {d : Dev nD} (hd : d = px c (far j)) {hsc} {hsrc} {hdst} {hsem}
    {α : Type} {Q : α → sProp 𝕄} {k : PUnit → Prog (TpuEff nD τ sig (Elt F) Λ₀ .tc) α} :
    St m K σ c ⊢ iprop((St m K (σ.send1 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (xbM.slice (Rect.unit (s := S512x512) offS S64x128.size hinS) (fun _ => rfl))
            (.remote (Dev.tc d : Thread nD τ) ((gM.slice (Rect.unit (s := S8x64x512) offD S1x64x128.size hinD) (fun _ => rfl)).squeeze S64x128 squeezes_S1x64x128_S64x128)
              (.dma ((cc0_scratch4.slice (Rect.unit (s := S4x8) offs S1x1.size hins)).squeeze S_ squeezes_S1x1_S_).sem) hsc)
            (.dma ((cc0_scratch5.slice (Rect.unit (s := S4x8) offr S1x1.size hinr)).squeeze S_ squeezes_S1x1_S_).sem) hsrc hdst hsem) k) Q) := by
  subst hoffS hoffD hoffs hoffr hd
  have hh := h.isLt; have hjj := j.isLt
  have hne : (c : Fin 8) ≠ px c (far j) := (px_ne c (far j) (far_ne j)).symm
  exact step_send m K σ (σ.send1 h j) c 0 1 h j (xbPiece (px c (far j)) h) gM
    (used_send 0 (by decide) c h _ (far_ne j)) (used_recv 1 (by decide) _ h _ hne)
    (duties_s1 m c h _ (far_ne j)) (duties_r1 m _ h c hne) (by omega) rfl ((pay_phase c h j).1 hp) rfl
    (pk_l (pk_l (pk_r (bigSep_pick hj)))) (ins_l (ins_l (ins_l (ins_r bigSep_ins)))) .rfl
    ((pk_l (pk_r (bigSep_pick hx))).trans (pk_l (pk_l (pk_l (pk_l (pk_l (pk_r (bigSep_pick hg))))))))
    (Entails.of_eq (payload_s1 m c h (far j) 0).symm)
    (fun fd => Entails.of_eq ((pointsTo_congr (hland fd)).trans (payload_r1 m (px c (far j)) h c 0).symm))

theorem step_send2 (K : Dev nD × CIx → ℕ) (σ : Stage) (c : Dev nD) (h : Fin 4) (j : Fin 7)
    (hj : (h, j) ∈ σ.s2Todo) (hp : σ.paid = 35 + 7 * h.val + j.val)
    (ha : h ∉ σ.aRaw) (hn : σ.aSent h = j.val) (ho : (j, h) ∈ σ.oPeer)
    (hland : ∀ fd : Buf (Elt F) ((slot oM c h).view.loc ((px c (far j) : Dev nD) : Thread nD τ)), ∀ i ∈ (slot oM c h).view.set,
      ((slot oM c h).view.write (Elt F) fd ((aPiece h).view.read (Elt F) (AB m c)) Finset.univ) i = OB m (px c (far j)) i)
    {offS : Fin 2 → ℕ} {hinS : ∀ a, offS a + S64x128.size a ≤ S64x512.size a} (hoffS : offS = ![0, 128 * h.val])
    {offD : Fin 3 → ℕ} {hinD : ∀ a, offD a + S1x64x128.size a ≤ S8x64x512.size a} (hoffD : offD = ![c.val, 0, 128 * h.val])
    {offs : Fin 2 → ℕ} {hins : ∀ a, offs a + S1x1.size a ≤ S4x8.size a} (hoffs : offs = ![h.val, (far j).val])
    {offr : Fin 2 → ℕ} {hinr : ∀ a, offr a + S1x1.size a ≤ S4x8.size a} (hoffr : offr = ![h.val, c.val])
    {d : Dev nD} (hd : d = px c (far j)) {hsc} {hsrc} {hdst} {hsem}
    {α : Type} {Q : α → sProp 𝕄} {k : PUnit → Prog (TpuEff nD τ sig (Elt F) Λ₀ .tc) α} :
    St m K σ c ⊢ iprop((St m K (σ.send2 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (aM.slice (Rect.unit (s := S64x512) offS S64x128.size hinS) (fun _ => rfl))
            (.remote (Dev.tc d : Thread nD τ) ((oM.slice (Rect.unit (s := S8x64x512) offD S1x64x128.size hinD) (fun _ => rfl)).squeeze S64x128 squeezes_S1x64x128_S64x128)
              (.dma ((cc0_scratch6.slice (Rect.unit (s := S4x8) offs S1x1.size hins)).squeeze S_ squeezes_S1x1_S_).sem) hsc)
            (.dma ((cc0_scratch7.slice (Rect.unit (s := S4x8) offr S1x1.size hinr)).squeeze S_ squeezes_S1x1_S_).sem) hsrc hdst hsem) k) Q) := by
  subst hoffS hoffD hoffs hoffr hd
  have hh := h.isLt; have hjj := j.isLt
  have hne : (c : Fin 8) ≠ px c (far j) := (px_ne c (far j) (far_ne j)).symm
  exact step_send m K σ (σ.send2 h j) c 2 3 h j (aPiece h) oM
    (used_send 2 (by decide) c h _ (far_ne j)) (used_recv 3 (by decide) _ h _ hne)
    (duties_s2 m c h _ (far_ne j)) (duties_r2 m _ h c hne) (by omega) rfl ((pay_phase c h j).2 hp) rfl
    (pk_l (pk_l (pk_l (pk_l (pk_l (pk_l (pk_l (pk_r (bigSep_pick hj))))))))) (ins_l (ins_l (ins_l (ins_l (ins_l (ins_l (ins_l (ins_l (ins_r bigSep_ins))))))))) .rfl
    ((pk_l (pk_l (pk_l (pk_l (pk_l (pk_l (pk_r (aHave_lend m c σ.aSent (Finset.mem_sdiff.mpr ⟨Finset.mem_univ _, ha⟩))))))))).trans (pk_l (pk_l (pk_l (pk_l (pk_l (pk_l (pk_l (pk_l (pk_l (pk_l (pk_l (bigSep_pick ho)))))))))))))
    (by show _ ⊢ (Rd (F := F) m).payload (s2Cell c h (far j)) 0 0; rw [payload_s2, hn]; unfold s2Pay; rw [farPos_far])
    (fun fd => Entails.of_eq ((pointsTo_congr (hland fd)).trans (payload_r2 m (px c (far j)) h c 0).symm))

end Cert.KernelIdeal.AR

end
-- ==== Proof.KernelIdealAR.StepWait.lean ====
import proofs.«900697_g7700000000000698_dist_ar_v7x_i8_i_m512_n512_f32_1_alg».proof.Proof.KernelIdealAR.StepSignal

noncomputable section

namespace Cert.KernelIdeal.AR

open Cert.KernelIdeal Cert.KernelIdeal.Gen
open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Once every payment is made nothing is owed, so any wait is allowed. -/
theorem mayWait_end (c : Dev nD) (sm : SemLoc sig) {n : ℕ} (hn : n = 63) :
    (levAts L lv : sProp 𝕄) ⊢ MayWait (c : Thread nD τ) sm () (owedFrom c n) := by
  rw [hn, owedFrom_end, MayWait_zero]; exact BI.affine

/-- The wait on a used cell of one copy spends the credit held for it, takes the round's one payload and closes the cell, no later round having a duty. -/
theorem step_wait (K : Dev nD × CIx → ℕ) (σ σ' : Stage) (c : Dev nD) (a h : Fin 4) (s : Fin 8) {P Cl Mid : sProp 𝕄}
    (hu : usedIx c (some (a, h, s)))
    (hd : (Rd (F := F) m).duties (kcell (c, some (a, h, s))) 0 = {0})
    (hW : (levAts L lv : sProp 𝕄) ⊢ MayWait (c : Thread nD τ) (.dma (dsem (arr a) h s)) () (owedFrom c σ.paid))
    (hO : σ'.paid = σ.paid) (hT : stStage m σ' c = stStage m σ c)
    (hC : (stCells σ c : sProp 𝕄) ⊢ iprop(waitingAt (kcell (c, some (a, h, s))) N ∗ Mid))
    (hC' : iprop(Cl ∗ Mid) ⊢ stCells σ' c)
    (hS : iprop(P ∗ stScratch m σ c) ⊢ stScratch m σ' c)
    (hCl : closedAt (kcell (c, some (a, h, s))) ⊢ Cl)
    (hP : (Rd (F := F) m).payload (kcell (c, some (a, h, s))) 0 0 = P)
    {src dst : Memref sig .tc .vmem S64x128 .bf16} {hs : src.view.WordExact} {hd' : dst.view.WordExact}
    {α : Type} {Q : α → sProp 𝕄} {k : PUnit → Prog (TpuEff nD τ sig (Elt F) Λ₀ .tc) α} :
    St m K σ c ⊢ iprop((St m K σ' c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (dsem (arr a) h s) src dst hs hd') k) Q) := by
  have hamt : dst.view.dmaCredit = N := rfl
  have hexp : 0 + dst.view.dmaCredit = (Rd (F := F) m).expect (kcell (c, some (a, h, s))) 0 := by
    unfold Schedule.expect Schedule.amountOf; rw [Nat.zero_add, hd, Finset.sum_singleton]; rfl
  have hrest : bigSep ((Rd (F := F) m).duties (kcell (c, some (a, h, s))) 0 \ ∅) (fun d => (Rd (F := F) m).payload (kcell (c, some (a, h, s))) 0 d) = P := by
    rw [hd, Finset.sdiff_empty, bigSep_singleton, hP]
  unfold St stOwes
  rw [hO, hT]
  iintro ⟨#Hrec, ⟨%W, HO⟩, Hcells, Hun, Hstage, Hscr⟩ Hk
  ihave Hb := (records_get m K (c, some (a, h, s)) hu) $$ Hrec
  icases Hb with ⟨#HI, -, #Hlev⟩
  ihave ⟨⟨Hat, Hcr⟩, Hmid⟩ := hC $$ Hcells
  iapply (Rounds.wp_wait_rest_token 𝒱₀ ER (Rd m) (c : Thread nD τ) none (κ := K (c, some (a, h, s)))
      (w := .waitDma2 (dsem (arr a) h s) src dst hs hd') (sm := .dma (dsem (arr a) h s)) (k' := dst.view.dmaCredit)
      (wpE_waitDma2_eq 𝒱₀ (c : Thread nD τ) none Set.univ) (Set.mem_univ _) () (O := owedFrom c σ.paid) (W := W) (R := 0) (m := 0) (T := ∅)
      hexp) $$ [$HI $HO $Hat Hcr]
  · rw [hamt]; iframe Hcr; iapply hW; iexact Hlev
  iintro ⟨HO, Hat, -, Hpay⟩
  ihave Hpay := (Entails.of_eq hrest) $$ Hpay
  imod (Rounds.cell_close ER (Rd m) (Set.mem_univ (K (c, some (a, h, s)))) (fun hh => hh) (R := 0 + 1)
      (duties_later m (kcell (c, some (a, h, s))))) $$ [$HI $Hat] with Hz
  iapply Hk
  iframe Hrec Hun Hstage
  isplitl [HO]; · iexists _; iexact HO
  isplitl [Hmid Hz]
  · iapply hC'; iframe Hmid; iapply hCl; iexact Hz
  iapply hS; iframe

theorem step_recv1 (K : Dev nD × CIx → ℕ) (σ : Stage) (c : Dev nD) (h : Fin 4) (j : Fin 7)
    (hj : (h, j) ∈ σ.r1Todo) (hp : 35 ≤ σ.paid)
    {off : Fin 2 → ℕ} {hin : ∀ a, off a + S1x1.size a ≤ S4x8.size a} (hoff : off = ![h.val, (px c (near j)).val])
    {src dst : Memref sig .tc .vmem S64x128 .bf16} {hs : src.view.WordExact} {hd : dst.view.WordExact}
    {α : Type} {Q : α → sProp 𝕄} {k : PUnit → Prog (TpuEff nD τ sig (Elt F) Λ₀ .tc) α} :
    St m K σ c ⊢ iprop((St m K (σ.recv1 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 ((cc0_scratch5.slice (Rect.unit (s := S4x8) off S1x1.size hin)).squeeze S_ squeezes_S1x1_S_).sem src dst hs hd) k) Q) := by
  subst hoff
  have hne := px_ne c (near j) (near_ne j)
  exact step_wait m K σ (σ.recv1 h j) c 1 h _ (used_recv 1 (by decide) c h _ hne) (duties_r1 m c h _ hne)
    (mayWait_r1 c h _ σ.paid hp) rfl rfl (pk_l (pk_l (pk_l (pk_l (pk_l (pk_r (bigSep_pick hj)))))))
    (ins_l (ins_l (ins_l (ins_l (ins_l (ins_l (ins_r bigSep_ins)))))))
    (ins_l (ins_l (ins_l (ins_r bigSep_ins)))) .rfl (payload_r1 m c h _ 0)

theorem step_recv2 (K : Dev nD × CIx → ℕ) (σ : Stage) (c : Dev nD) (h : Fin 4) (j : Fin 7)
    (hj : (h, j) ∈ σ.r2Todo) (hp : σ.paid = 63)
    {off : Fin 2 → ℕ} {hin : ∀ a, off a + S1x1.size a ≤ S4x8.size a} (hoff : off = ![h.val, (px c (near j)).val])
    {src dst : Memref sig .tc .vmem S64x128 .bf16} {hs : src.view.WordExact} {hd : dst.view.WordExact}
    {α : Type} {Q : α → sProp 𝕄} {k : PUnit → Prog (TpuEff nD τ sig (Elt F) Λ₀ .tc) α} :
    St m K σ c ⊢ iprop((St m K (σ.recv2 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 ((cc0_scratch7.slice (Rect.unit (s := S4x8) off S1x1.size hin)).squeeze S_ squeezes_S1x1_S_).sem src dst hs hd) k) Q) := by
  subst hoff
  have hne := px_ne c (near j) (near_ne j)
  exact step_wait m K σ (σ.recv2 h j) c 3 h _ (used_recv 3 (by decide) c h _ hne) (duties_r2 m c h _ hne)
    (mayWait_end c _ hp) rfl rfl (pk_l (pk_l (pk_l (pk_l (pk_l (pk_l (pk_l (pk_l (pk_l (pk_l (pk_r (bigSep_pick hj))))))))))))
    (ins_l (ins_l (ins_l (ins_l (ins_l (ins_l (ins_l (ins_l (ins_l (ins_l (ins_l (bigSep_ins))))))))))))
    (ins_l (ins_l (ins_l (ins_l (ins_l (ins_l (ins_l (ins_l (ins_l (ins_r bigSep_ins)))))))))) .rfl (payload_r2 m c h _ 0)

theorem step_sendWait1 (K : Dev nD × CIx → ℕ) (σ : Stage) (c : Dev nD) (h : Fin 4) (j : Fin 7)
    (hj : (h, j) ∈ σ.s1Fly) (hp : σ.paid = 63)
    {off : Fin 2 → ℕ} {hin : ∀ a, off a + S1x1.size a ≤ S4x8.size a} (hoff : off = ![h.val, (far j).val])
    {src dst : Memref sig .tc .vmem S64x128 .bf16} {hs : src.view.WordExact} {hd : dst.view.WordExact}
    {α : Type} {Q : α → sProp 𝕄} {k : PUnit → Prog (TpuEff nD τ sig (Elt F) Λ₀ .tc) α} :
    St m K σ c ⊢ iprop((St m K (σ.sendWait1 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 ((cc0_scratch4.slice (Rect.unit (s := S4x8) off S1x1.size hin)).squeeze S_ squeezes_S1x1_S_).sem src dst hs hd) k) Q) := by
  subst hoff
  exact step_wait m K σ (σ.sendWait1 h j) c 0 h _ (used_send 0 (by decide) c h _ (far_ne j)) (duties_s1 m c h _ (far_ne j))
    (mayWait_end c _ hp) rfl rfl (pk_l (pk_l (pk_l (pk_r (bigSep_pick hj)))))
    (ins_l (ins_l (ins_l (ins_l (ins_r bigSep_ins)))))
    (ins_l (ins_r bigSep_ins)) .rfl (payload_s1 m c h _ 0)

theorem step_sendWait2 (K : Dev nD × CIx → ℕ) (σ : Stage) (c : Dev nD) (h : Fin 4) (j : Fin 7)
    (hj : (h, j) ∈ σ.s2Fly) (hp : σ.paid = 63)
    {off : Fin 2 → ℕ} {hin : ∀ a, off a + S1x1.size a ≤ S4x8.size a} (hoff : off = ![h.val, (far j).val])
    {src dst : Memref sig .tc .vmem S64x128 .bf16} {hs : src.view.WordExact} {hd : dst.view.WordExact}
    {α : Type} {Q : α → sProp 𝕄} {k : PUnit → Prog (TpuEff nD τ sig (Elt F) Λ₀ .tc) α} :
    St m K σ c ⊢ iprop((St m K (σ.sendWait2 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 ((cc0_scratch6.slice (Rect.unit (s := S4x8) off S1x1.size hin)).squeeze S_ squeezes_S1x1_S_).sem src dst hs hd) k) Q) := by
  subst hoff
  exact step_wait m K σ (σ.sendWait2 h j) c 2 h _ (used_send 2 (by decide) c h _ (far_ne j)) (duties_s2 m c h _ (far_ne j))
    (mayWait_end c _ hp) rfl rfl (pk_l (pk_l (pk_l (pk_l (pk_l (pk_l (pk_l (pk_l (pk_r (bigSep_pick hj))))))))))
    (ins_l (ins_l (ins_l (ins_l (ins_l (ins_l (ins_l (ins_l (ins_l (ins_r bigSep_ins))))))))))
    (ins_l (ins_l (ins_l (ins_l (ins_l (ins_l (ins_l (ins_r bigSep_ins)))))))) .rfl ((payload_s2 m c h _ 0).trans (by unfold s2Pay; rw [farPos_far]))

end Cert.KernelIdeal.AR

end
-- ==== Proof.KernelIdealAR.Values.lean ====
import proofs.«900697_g7700000000000698_dist_ar_v7x_i8_i_m512_n512_f32_1_alg».proof.Proof.KernelIdealAR.ProtoD
import proofs.«900697_g7700000000000698_dist_ar_v7x_i8_i_m512_n512_f32_1_alg».proof.Proof.Gen.KernelIdeal.Skeleton
import Idealize.ShloMosaic.Lib.Pipeline.Value
import Idealize.ShloMosaic.Lib.ValueIdx

noncomputable section

namespace Cert.KernelIdeal.AR

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ)

theorem col_lt (h : Fin 4) (l : Fin 128) : 128 * h.val + l.val < 512 := by have := h.isLt; have := l.isLt; omega

theorem grp_ixg (p : Fin 8) (r : Fin 64) (l : Fin 512) : grp (ixg p r l) = p :=
  Fin.ext (by show (64 * p.val + r.val) / 64 = p.val; have := r.isLt; omega)

/-- At an index of row group `s` a device holds that group's sum: as it is if the group is its own, else as the wire carries it. -/
theorem outAt_ixg (Y : Fin 8 → S512x512.Idx → F .f32) (c s : Fin 8) (r : Fin 64) (l : Fin 512) :
    outAt Y c (ixg s r l) = if s = c then accOf Y s (ixg s r l) else wire (accOf Y s (ixg s r l)) := by
  unfold outAt; rw [grp_ixg]

/-- Element `(r, l)` of row group `p`, slab `h` sits at row `64 p + r`, column `128 h + l` of the block. -/
theorem out_emb (p : Fin 8) (h : Fin 4) (y : (rOwn p h).shape.Idx) :
    (outM.access (rOwn p h)).emb y = ixg p (y 0) ⟨128 * h.val + (y 1).val, col_lt h (y 1)⟩ :=
  funext fun a => Fin.ext (match a with
    | ⟨0, _⟩ => by show 64 * p.val + 1 * (y 0).val = 64 * p.val + (y 0).val; omega
    | ⟨1, _⟩ => by show 128 * h.val + 1 * (y 1).val = 128 * h.val + (y 1).val; omega)

theorem out_own_ok (c : Dev nD) (h : Fin 4) : ∀ f, ∀ i ∈ (outM.access (rOwn c h)).set,
    ((outM.access (rOwn c h)).write (Elt F) f
      (fun j => accOf (X m) c (ixg c (j 0) ⟨128 * h.val + (j 1).val, col_lt h (j 1)⟩)) Finset.univ) i = outAt (X m) c i := by
  intro f i hi
  obtain ⟨y, rfl⟩ := View.exists_emb_of_mem_set _ hi
  rw [View.write_emb_of_mem _ _ (Finset.mem_univ y), out_emb]
  exact ((outAt_ixg (X m) c c (y 0) ⟨128 * h.val + (y 1).val, col_lt h (y 1)⟩).trans (if_pos rfl)).symm

/-- Element `(r, l)` of slot `s`, slab `h` sits at `(s, r, 128 h + l)` of a gather buffer. -/
theorem rG_idx (s : Fin 8) (h : Fin 4) (y : S64x128.Idx) :
    (rG s h).toLoadRect.idx (Fin.cons ⟨0, Nat.one_pos⟩ y) = ValueIdx.ix3 s (y 0) ⟨128 * h.val + (y 1).val, col_lt h (y 1)⟩ :=
  funext fun a => Fin.ext (match a with
    | ⟨0, _⟩ => by show s.val + 1 * 0 = s.val; omega
    | ⟨1, _⟩ => by show 0 + 1 * (y 0).val = (y 0).val; omega
    | ⟨2, _⟩ => by show 128 * h.val + 1 * (y 1).val = 128 * h.val + (y 1).val; omega)

theorem widen_apply (v : Vec F S1x64x128 .bf16) (y : S64x128.Idx) :
    k0_pay28 v y = FloatOps.extf .f32 bitsLt_bf16_f32 (v (Fin.cons ⟨0, Nat.one_pos⟩ y)) := by
  show FloatOps.extf .f32 bitsLt_bf16_f32 (shapeCast S64x128 v shapeCasts_S1x64x128_S64x128 y) = _
  rw [shapeCast_dropUnit_apply]

theorem out_other_ok (c s : Dev nD) (h : Fin 4) (hs : s ≠ c) : ∀ f, ∀ i ∈ (outM.access (rOwn s h)).set,
    ((outM.access (rOwn s h)).write (Elt F) f
      (k0_pay28 (oM.view.readAt (Elt F) (rG s h).toLoadRect (OB m c))) Finset.univ) i = outAt (X m) c i := by
  intro f i hi
  obtain ⟨y, rfl⟩ := View.exists_emb_of_mem_set _ hi
  rw [View.write_emb_of_mem _ _ (Finset.mem_univ y), out_emb]
  refine Eq.trans ?_ ((outAt_ixg (X m) c s (y 0) ⟨128 * h.val + (y 1).val, col_lt h (y 1)⟩).trans (if_neg hs)).symm
  exact ((widen_apply _ y).trans (congrArg _ (congrArg (OB m c) (rG_idx s h y)))).trans rfl

theorem slot_emb (M : Memref sig .tc .vmem S8x64x512 .bf16) (s : Fin 8) (h : Fin 4) (y : S64x128.Idx) :
    (slot M s h).view.emb y = M.view.emb (ValueIdx.ix3 s (y 0) ⟨128 * h.val + (y 1).val, col_lt h (y 1)⟩) := by
  show M.view.emb ((rG s h).emb (Shape.reshapeEquiv _ y)) = _
  rw [Shape.reshapeEquiv_cons_one]; exact congrArg _ (rG_idx s h y)

theorem a_emb (h : Fin 4) (y : S64x128.Idx) :
    (aPiece h).view.emb y = ValueIdx.ix2 (y 0) ⟨128 * h.val + (y 1).val, col_lt h (y 1)⟩ :=
  funext fun a => Fin.ext (match a with
    | ⟨0, _⟩ => by show 0 + 1 * (y 0).val = (y 0).val; omega
    | ⟨1, _⟩ => by show 128 * h.val + 1 * (y 1).val = 128 * h.val + (y 1).val; omega)

theorem p1_land_ok (c : Dev nD) (k : Fin 8) (h : Fin 4) : ∀ fd, ∀ i ∈ (slot gM c h).view.set,
    ((slot gM c h).view.write (Elt F) fd ((xbPiece (px c k) h).view.read (Elt F) (XB m c)) Finset.univ) i
      = G1 m (px c k) i := by
  intro fd i hi
  obtain ⟨y, rfl⟩ := View.exists_emb_of_mem_set _ hi
  rw [View.write_emb_of_mem _ _ (Finset.mem_univ y), slot_emb]
  exact (congrArg (XB m c) (out_emb (px c k) h y)).trans rfl

theorem p2_land_ok (c : Dev nD) (k : Fin 8) (h : Fin 4) : ∀ fd, ∀ i ∈ (slot oM c h).view.set,
    ((slot oM c h).view.write (Elt F) fd ((aPiece h).view.read (Elt F) (AB m c)) Finset.univ) i
      = OB m (px c k) i := by
  intro fd i hi
  obtain ⟨y, rfl⟩ := View.exists_emb_of_mem_set _ hi
  rw [View.write_emb_of_mem _ _ (Finset.mem_univ y), slot_emb]
  exact (congrArg (AB m c) (a_emb h y)).trans rfl

theorem ab_store_ok (c : Dev nD) (h : Fin 4) : ∀ f, ∀ i ∈ (aM.access (rA h)).set,
    ((aM.access (rA h)).write (Elt F) f
      (fun j => narrow (accOf (X m) c (ixg c (j 0) ⟨128 * h.val + (j 1).val, col_lt h (j 1)⟩))) Finset.univ) i = AB m c i := by
  intro f i hi
  obtain ⟨y, rfl⟩ := View.exists_emb_of_mem_set _ hi
  rw [View.write_emb_of_mem _ _ (Finset.mem_univ y), show (aM.access (rA h)).emb y = _ from a_emb h y]
  rfl

theorem pay1_apply (v : Vec F S512x128 .f32) (y : S512x128.Idx) : k0_pay1 v y = narrow (v y) := by
  unfold k0_pay1; simp only [shapeCast_self]; rfl

/-- A column slab of the block, narrowed element by element, is that slab of the narrowed copy; the four slabs' printed narrowings unfold to one. -/
theorem xb_store_ok (c : Dev nD) (h : Fin 4) : ∀ f, ∀ i ∈ (xbM.access (rX h)).set,
    ((xbM.access (rX h)).write (Elt F) f (k0_pay1 (xM.view.readAt (Elt F) (rX h).toLoadRect (X m c))) Finset.univ) i
      = XB m c i := by
  intro f i hi
  obtain ⟨y, rfl⟩ := View.exists_emb_of_mem_set _ hi
  rw [View.write_emb_of_mem _ _ (Finset.mem_univ y)]
  exact (pay1_apply _ y).trans rfl

theorem xb_store_ok_0 (c : Dev nD) : ∀ f, ∀ i ∈ (xbM.access (rX 0)).set,
    ((xbM.access (rX 0)).write (Elt F) f (k0_pay1 (xM.view.readAt (Elt F) (rX 0).toLoadRect (X m c))) Finset.univ) i
      = XB m c i := xb_store_ok m c 0
theorem xb_store_ok_1 (c : Dev nD) : ∀ f, ∀ i ∈ (xbM.access (rX 1)).set,
    ((xbM.access (rX 1)).write (Elt F) f (k0_pay3 (k0_pay2 (xM.view.readAt (Elt F) (rX 1).toLoadRect (X m c)))) Finset.univ) i
      = XB m c i := xb_store_ok m c 1
theorem xb_store_ok_2 (c : Dev nD) : ∀ f, ∀ i ∈ (xbM.access (rX 2)).set,
    ((xbM.access (rX 2)).write (Elt F) f (k0_pay4 (xM.view.readAt (Elt F) (rX 2).toLoadRect (X m c))) Finset.univ) i
      = XB m c i := xb_store_ok m c 2
theorem xb_store_ok_3 (c : Dev nD) : ∀ f, ∀ i ∈ (xbM.access (rX 3)).set,
    ((xbM.access (rX 3)).write (Elt F) f (k0_pay5 (xM.view.readAt (Elt F) (rX 3).toLoadRect (X m c))) Finset.univ) i
      = XB m c i := xb_store_ok m c 3

theorem xM_read (c : Dev nD) (p : Fin 8) (h : Fin 4) (y : S64x128.Idx) :
    xM.view.readAt (Elt F) (rOwn p h).toLoadRect (X m c) y = X m c (ixg p (y 0) ⟨128 * h.val + (y 1).val, col_lt h (y 1)⟩) :=
  congrArg (X m c) (out_emb p h y)

def up (y : S64x128.Idx) : S1x64x128.Idx := Fin.cons ⟨0, Nat.one_pos⟩ y

theorem drop_apply {α : Type} (v : S1x64x128.Idx → α) (y : S64x128.Idx) :
    shapeCast S64x128 v shapeCasts_S1x64x128_S64x128 y = v (up y) :=
  shapeCast_dropUnit_apply _ v _ y

/-- Partner `k`'s landed slot holds the partner's entries of this device's row group, narrowed. -/
theorem g_read (c : Dev nD) (h : Fin 4) (k : Fin 8) (y : S64x128.Idx) :
    gM.view.readAt (Elt F) (rG (px c k) h).toLoadRect (G1 m c) (up y)
      = narrow (X m (pxn c k) (ixg c (y 0) ⟨128 * h.val + (y 1).val, col_lt h (y 1)⟩)) :=
  (congrArg (G1 m c) (rG_idx (px c k) h y)).trans rfl

abbrev vxL (c : Dev nD) (h : Fin 4) : Vec F S64x128 .f32 := xM.view.readAt (Elt F) (rOwn c h).toLoadRect (X m c)
abbrev vgL (c : Dev nD) (h : Fin 4) (k : Fin 8) : Vec F S1x64x128 .bf16 :=
  gM.view.readAt (Elt F) (rG (px c k) h).toLoadRect (G1 m c)

/-- The printed chain adds to the own entry the seven slots, widened, in the order of masks 1, 3, 4, 2, 5, 7, 6: the device's sum. -/
theorem chain (Y : Fin 8 → S512x512.Idx → F .f32) (c : Fin 8) (I : S64x128.Idx → S512x512.Idx)
    (vx : Vec F S64x128 .f32) (g : Fin 8 → Vec F S1x64x128 .bf16)
    (hx : ∀ y, vx y = Y c (I y)) (hg : ∀ k y, g k (up y) = narrow (Y (pxn c k) (I y))) :
    k0_pay9 (k0_pay8 (k0_pay7 (k0_pay6 vx (g 1)) (g 3) (g 4) (g 2)) (g 5) (g 7)) (g 6) = fun y => accOf Y c (I y) := by
  funext y
  simp only [k0_pay9, k0_pay8, k0_pay7, k0_pay6, Idealize.ShloMosaic.addf, Idealize.ShloMosaic.extf, shapeCast_self, drop_apply, hx, hg]
  rfl

/-- At the program's loads; the four slabs' chains unfold to one expression, so slab 0's stands for all. -/
theorem acc_ok (c : Dev nD) (h : Fin 4) :
    k0_pay9 (k0_pay8 (k0_pay7 (k0_pay6 (vxL m c h) (vgL m c h 1)) (vgL m c h 3) (vgL m c h 4) (vgL m c h 2)) (vgL m c h 5) (vgL m c h 7)) (vgL m c h 6)
      = fun i => accOf (X m) c (ixg c (i 0) ⟨128 * h.val + (i 1).val, col_lt h (i 1)⟩) :=
  chain (X m) c (fun y => ixg c (y 0) ⟨128 * h.val + (y 1).val, col_lt h (y 1)⟩) _ (vgL m c h)
    (fun y => xM_read m c c h y) (fun k y => g_read m c h k y)

theorem accb_ok (c : Dev nD) (h : Fin 4) :
    k0_pay10 (k0_pay8 (k0_pay7 (k0_pay6 (vxL m c h) (vgL m c h 1)) (vgL m c h 3) (vgL m c h 4) (vgL m c h 2)) (vgL m c h 5) (vgL m c h 7)) (vgL m c h 6)
      = fun i => narrow (accOf (X m) c (ixg c (i 0) ⟨128 * h.val + (i 1).val, col_lt h (i 1)⟩)) := by
  funext y; unfold k0_pay10; simp only [shapeCast_self]
  exact congrArg narrow (congrFun (acc_ok m c h) y)

theorem acc_ok_0 (c : Dev nD) :
    k0_pay9 (k0_pay8 (k0_pay7 (k0_pay6 (vxL m c 0) (vgL m c 0 1)) (vgL m c 0 3) (vgL m c 0 4) (vgL m c 0 2)) (vgL m c 0 5) (vgL m c 0 7)) (vgL m c 0 6)
      = fun i => accOf (X m) c (ixg c (i 0) ⟨128 * (0 : Fin 4).val + (i 1).val, col_lt 0 (i 1)⟩) := acc_ok m c 0
theorem accb_ok_0 (c : Dev nD) :
    k0_pay10 (k0_pay8 (k0_pay7 (k0_pay6 (vxL m c 0) (vgL m c 0 1)) (vgL m c 0 3) (vgL m c 0 4) (vgL m c 0 2)) (vgL m c 0 5) (vgL m c 0 7)) (vgL m c 0 6)
      = fun i => narrow (accOf (X m) c (ixg c (i 0) ⟨128 * (0 : Fin 4).val + (i 1).val, col_lt 0 (i 1)⟩)) := accb_ok m c 0
theorem acc_ok_1 (c : Dev nD) :
    k0_pay15 (k0_pay14 (k0_pay13 (k0_pay11 (vxL m c 1) (vgL m c 1 1)) (k0_pay12 (vgL m c 1 3)) (vgL m c 1 4) (vgL m c 1 2)) (vgL m c 1 5) (vgL m c 1 7)) (vgL m c 1 6)
      = fun i => accOf (X m) c (ixg c (i 0) ⟨128 * (1 : Fin 4).val + (i 1).val, col_lt 1 (i 1)⟩) := acc_ok m c 1
theorem accb_ok_1 (c : Dev nD) :
    k0_pay16 (k0_pay14 (k0_pay13 (k0_pay11 (vxL m c 1) (vgL m c 1 1)) (k0_pay12 (vgL m c 1 3)) (vgL m c 1 4) (vgL m c 1 2)) (vgL m c 1 5) (vgL m c 1 7)) (vgL m c 1 6)
      = fun i => narrow (accOf (X m) c (ixg c (i 0) ⟨128 * (1 : Fin 4).val + (i 1).val, col_lt 1 (i 1)⟩)) := accb_ok m c 1
theorem acc_ok_2 (c : Dev nD) :
    k0_pay20 (k0_pay19 (k0_pay18 (k0_pay17 (vxL m c 2) (vgL m c 2 1) (vgL m c 2 3)) (vgL m c 2 4) (vgL m c 2 2)) (vgL m c 2 5) (vgL m c 2 7)) (vgL m c 2 6)
      = fun i => accOf (X m) c (ixg c (i 0) ⟨128 * (2 : Fin 4).val + (i 1).val, col_lt 2 (i 1)⟩) := acc_ok m c 2
theorem accb_ok_2 (c : Dev nD) :
    k0_pay21 (k0_pay19 (k0_pay18 (k0_pay17 (vxL m c 2) (vgL m c 2 1) (vgL m c 2 3)) (vgL m c 2 4) (vgL m c 2 2)) (vgL m c 2 5) (vgL m c 2 7)) (vgL m c 2 6)
      = fun i => narrow (accOf (X m) c (ixg c (i 0) ⟨128 * (2 : Fin 4).val + (i 1).val, col_lt 2 (i 1)⟩)) := accb_ok m c 2
theorem acc_ok_3 (c : Dev nD) :
    k0_pay26 (k0_pay25 (k0_pay24 (k0_pay23 (k0_pay22 (vxL m c 3)) (vgL m c 3 1) (vgL m c 3 3)) (vgL m c 3 4) (vgL m c 3 2)) (vgL m c 3 5) (vgL m c 3 7)) (vgL m c 3 6)
      = fun i => accOf (X m) c (ixg c (i 0) ⟨128 * (3 : Fin 4).val + (i 1).val, col_lt 3 (i 1)⟩) := acc_ok m c 3
theorem accb_ok_3 (c : Dev nD) :
    k0_pay27 (k0_pay25 (k0_pay24 (k0_pay23 (k0_pay22 (vxL m c 3)) (vgL m c 3 1) (vgL m c 3 3)) (vgL m c 3 4) (vgL m c 3 2)) (vgL m c 3 5) (vgL m c 3 7)) (vgL m c 3 6)
      = fun i => narrow (accOf (X m) c (ixg c (i 0) ⟨128 * (3 : Fin 4).val + (i 1).val, col_lt 3 (i 1)⟩)) := accb_ok m c 3

end Cert.KernelIdeal.AR

end
-- ==== Proof.KernelIdealAR.PartsPre.lean ====
import proofs.«900697_g7700000000000698_dist_ar_v7x_i8_i_m512_n512_f32_1_alg».proof.Proof.KernelIdealAR.ProtoG
import proofs.«900697_g7700000000000698_dist_ar_v7x_i8_i_m512_n512_f32_1_alg».proof.Proof.KernelIdealAR.Values

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

abbrev wpB {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

-- A part of the body at the launch's six buffers and four semaphore arrays.
abbrev onBufs {β : Sort _} (f : (a0 : Memref sig .tc .vmem S512x512 .f32) → a0.IsWhole → (a1 : Memref sig .tc .vmem S512x512 .f32) → a1.IsWhole →
    (a2 : Memref sig .tc .vmem S512x512 .bf16) → a2.IsWhole → (a3 : Memref sig .tc .vmem S8x64x512 .bf16) → a3.IsWhole →
    (a4 : Memref sig .tc .vmem S64x512 .bf16) → a4.IsWhole → (a5 : Memref sig .tc .vmem S8x64x512 .bf16) → a5.IsWhole →
    DmaSems sig S4x8 → DmaSems sig S4x8 → DmaSems sig S4x8 → DmaSems sig S4x8 → β) : β :=
  f xM (Memref.isWhole_whole _) outM (Memref.isWhole_whole _) xbM (Memref.isWhole_whole _) gM (Memref.isWhole_whole _)
    aM (Memref.isWhole_whole _) oM (Memref.isWhole_whole _) cc0_scratch4 cc0_scratch5 cc0_scratch6 cc0_scratch7

abbrev xsl (c : Dev nD) (h : Fin 4) : Vec F S512x128 .f32 := xM.view.readAt (Elt F) (rX h).toLoadRect (X m c)

abbrev voL (c : Dev nD) (h : Fin 4) (k : Fin 8) : Vec F S1x64x128 .bf16 := oM.view.readAt (Elt F) (rG (px c k) h).toLoadRect (OB m c)

end Cert.KernelIdeal.AR

end
-- ==== Proof.KernelIdealAR.CSteps.lean ====
import proofs.«900697_g7700000000000698_dist_ar_v7x_i8_i_m512_n512_f32_1_alg».proof.Proof.KernelIdealAR.Trans
import proofs.«900697_g7700000000000698_dist_ar_v7x_i8_i_m512_n512_f32_1_alg».proof.Proof.KernelIdealAR.StepSignal
import proofs.«900697_g7700000000000698_dist_ar_v7x_i8_i_m512_n512_f32_1_alg».proof.Proof.KernelIdealAR.StepLocal
import proofs.«900697_g7700000000000698_dist_ar_v7x_i8_i_m512_n512_f32_1_alg».proof.Proof.KernelIdealAR.StepSend
import proofs.«900697_g7700000000000698_dist_ar_v7x_i8_i_m512_n512_f32_1_alg».proof.Proof.KernelIdealAR.StepWait
import proofs.«900697_g7700000000000698_dist_ar_v7x_i8_i_m512_n512_f32_1_alg».proof.Proof.KernelIdealAR.PartsPre

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A stage along the program's order is the stage of twelve counters: an effect bumps its own, and what it asks of the stage is arithmetic on them.
variable (m : (ℓ : Loc nD τ sig) → Buf (Elt F) ℓ) (K : Dev nD × CIx → ℕ) (c : Dev nD)
  {nsig : ℕ} {bar : Bool} {nxb n1 nr1 nown na n2 nr2 noth nw1 nw2 : ℕ}

theorem cstep_signal (j : Fin 7) {d : Dev nD} (hd : d = px c (far j)) {n : ℕ} {α : Type} {Q : α → sProp 𝕄} {k : PUnit → Prog (TpuEff nD τ sig (Elt F) Λ₀ .tc) α}
    (hj : j.val = nsig := by decide) (h1 : n1 = 0 := by decide) (h2 : n2 = 0 := by decide) (hn : n = 1 := by decide) :
    St m K (stageOf ⟨nsig, bar, nxb, n1, nr1, nown, na, n2, nr2, noth, nw1, nw2⟩) c ⊢ iprop((St m K (stageOf ⟨nsig + 1, bar, nxb, n1, nr1, nown, na, n2, nr2, noth, nw1, nw2⟩) c -∗ wpB c (k ⟨⟩) Q)
      -∗ wpB c (.op (.semSignal ((d, Proc.tc) : Thread nD τ) barS n) k) Q) := by
  have s := step_signal m K (stageOf ⟨nsig, bar, nxb, n1, nr1, nown, na, n2, nr2, noth, nw1, nw2⟩) c j
    ((mem_sigTodo _ _).2 (Nat.le_of_eq hj.symm)) (by show nsig + n1 + n2 = j.val; omega)
    (fun h => (mem_gMine _ _).2 (Or.inr (by show nsig ≤ farPos (far j); rw [farPos_far]; omega)))
    (fun h => (mem_oMine _ _).2 (Or.inr (by show nsig ≤ farPos (far j); rw [farPos_far]; omega)))
    hd hn (Q := Q) (k := k)
  rw [tr_signal ⟨nsig, bar, nxb, n1, nr1, nown, na, n2, nr2, noth, nw1, nw2⟩ j hj] at s
  exact s

theorem cstep_barWait {n : ℕ} {α : Type} {Q : α → sProp 𝕄} {k : PUnit → Prog (TpuEff nD τ sig (Elt F) Λ₀ .tc) α}
    (hb : bar = false := by decide) (hs : nsig = 7 := by decide) (h1 : n1 = 0 := by decide) (h2 : n2 = 0 := by decide) (hn : n = 7 := by decide) :
    St m K (stageOf ⟨nsig, bar, nxb, n1, nr1, nown, na, n2, nr2, noth, nw1, nw2⟩) c ⊢ iprop((St m K (stageOf ⟨nsig, true, nxb, n1, nr1, nown, na, n2, nr2, noth, nw1, nw2⟩) c -∗ wpB c (k ⟨⟩) Q)
      -∗ wpB c (.op (.semWait barS n) k) Q) := by
  subst hb
  have s := step_barWait m K (stageOf ⟨nsig, false, nxb, n1, nr1, nown, na, n2, nr2, noth, nw1, nw2⟩) c rfl (by show nsig + n1 + n2 = 7; omega) rfl rfl hn (Q := Q) (k := k)
  rw [tr_barWait ⟨nsig, false, nxb, n1, nr1, nown, na, n2, nr2, noth, nw1, nw2⟩ h1 h2] at s
  exact s

theorem cstep_xLoad {r : LoadRect S512x512} {hl : xM.view.LoadsAt r} {α : Type} {Q : α → sProp 𝕄} {k : (r.shape.Idx → Elt F .f32) → Prog (TpuEff nD τ sig (Elt F) Λ₀ .tc) α} :
    St m K (stageOf ⟨nsig, bar, nxb, n1, nr1, nown, na, n2, nr2, noth, nw1, nw2⟩) c ⊢ iprop((St m K (stageOf ⟨nsig, bar, nxb, n1, nr1, nown, na, n2, nr2, noth, nw1, nw2⟩) c -∗ wpB c (k (xM.view.readAt (Elt F) r (X m c))) Q)
      -∗ wpB c (.op (.load xM r hl) k) Q) :=
  step_xLoad m K (stageOf ⟨nsig, bar, nxb, n1, nr1, nown, na, n2, nr2, noth, nw1, nw2⟩) c

theorem cstep_xLoadOwn (h : Fin 4) {off : Fin 2 → ℕ} {hin : ∀ a, off a + S64x128.size a ≤ S512x512.size a} (hoff : off = ![64 * c.val, 128 * h.val])
    {hl : xM.view.LoadsAt (Rect.unit (s := S512x512) off S64x128.size hin).toLoadRect}
    {α : Type} {Q : α → sProp 𝕄} {k : ((Rect.unit (s := S512x512) off S64x128.size hin).toLoadRect.shape.Idx → Elt F .f32) → Prog (TpuEff nD τ sig (Elt F) Λ₀ .tc) α} :
    St m K (stageOf ⟨nsig, bar, nxb, n1, nr1, nown, na, n2, nr2, noth, nw1, nw2⟩) c ⊢ iprop((St m K (stageOf ⟨nsig, bar, nxb, n1, nr1, nown, na, n2, nr2, noth, nw1, nw2⟩) c -∗ wpB c (k (vxL m c h)) Q)
      -∗ wpB c (.op (.load xM (Rect.unit (s := S512x512) off S64x128.size hin).toLoadRect hl) k) Q) := by
  subst hoff
  exact step_xLoad m K (stageOf ⟨nsig, bar, nxb, n1, nr1, nown, na, n2, nr2, noth, nw1, nw2⟩) c

theorem cstep_xbLoadRaw (h : Fin 4) {r : LoadRect S512x512} {hl : xbM.view.LoadsAt r}
    {α : Type} {Q : α → sProp 𝕄} {k : (r.shape.Idx → Elt F .bf16) → Prog (TpuEff nD τ sig (Elt F) Λ₀ .tc) α}
    (hh : nxb ≤ h.val := by decide) (hr : r = (rX h).toLoadRect := by rfl) :
    St m K (stageOf ⟨nsig, bar, nxb, n1, nr1, nown, na, n2, nr2, noth, nw1, nw2⟩) c ⊢ iprop((∀ v, St m K (stageOf ⟨nsig, bar, nxb, n1, nr1, nown, na, n2, nr2, noth, nw1, nw2⟩) c -∗ wpB c (k v) Q)
      -∗ wpB c (.op (.load xbM r hl) k) Q) :=
  step_xbLoadRaw m K (stageOf ⟨nsig, bar, nxb, n1, nr1, nown, na, n2, nr2, noth, nw1, nw2⟩) c h ((mem_xbRaw _ _).2 hh) hr

theorem cstep_xbStore (h : Fin 4) {r : Rect S512x512} {w : r.shape.Idx → Elt F .bf16}
    {hx : (xbM.access r).Stores Finset.univ} {hm : (Finset.univ : Finset r.shape.Idx) = Finset.univ ∨ ∀ a, r.stride a = 1}
    (hw : ∀ f, ∀ i ∈ (xbM.access r).set, ((xbM.access r).write (Elt F) f w Finset.univ) i = XB m c i) {α : Type} {Q : α → sProp 𝕄} {k : PUnit → Prog (TpuEff nD τ sig (Elt F) Λ₀ .tc) α}
    (hh : h.val = nxb := by decide) (hn : n1 ≤ 7 * h.val := by decide) (hr : r = rX h := by rfl) :
    St m K (stageOf ⟨nsig, bar, nxb, n1, nr1, nown, na, n2, nr2, noth, nw1, nw2⟩) c ⊢ iprop((St m K (stageOf ⟨nsig, bar, nxb + 1, n1, nr1, nown, na, n2, nr2, noth, nw1, nw2⟩) c -∗ wpB c (k ⟨⟩) Q)
      -∗ wpB c (.op (.store xbM r w Finset.univ hx hm) k) Q) := by
  rw [← tr_xbStore ⟨nsig, bar, nxb, n1, nr1, nown, na, n2, nr2, noth, nw1, nw2⟩ h hh hn]
  exact step_xbStore m K (stageOf ⟨nsig, bar, nxb, n1, nr1, nown, na, n2, nr2, noth, nw1, nw2⟩) c h ((mem_xbRaw _ _).2 (Nat.le_of_eq hh.symm)) hr hw

theorem cstep_outLoad {r : LoadRect S512x512} {hl : outM.view.LoadsAt r} {α : Type} {Q : α → sProp 𝕄} {k : (r.shape.Idx → Elt F .f32) → Prog (TpuEff nD τ sig (Elt F) Λ₀ .tc) α} :
    St m K (stageOf ⟨nsig, bar, nxb, n1, nr1, nown, na, n2, nr2, noth, nw1, nw2⟩) c ⊢ iprop((∀ v, St m K (stageOf ⟨nsig, bar, nxb, n1, nr1, nown, na, n2, nr2, noth, nw1, nw2⟩) c -∗ wpB c (k v) Q)
      -∗ wpB c (.op (.load outM r hl) k) Q) :=
  step_outLoad m K (stageOf ⟨nsig, bar, nxb, n1, nr1, nown, na, n2, nr2, noth, nw1, nw2⟩) c

theorem cstep_outOwn (h : Fin 4) {off : Fin 2 → ℕ} {hin : ∀ a, off a + S64x128.size a ≤ S512x512.size a} (hoff : off = ![64 * c.val, 128 * h.val])
    {w : (Rect.unit (s := S512x512) off S64x128.size hin).shape.Idx → Elt F .f32}
    {hx : (outM.access (Rect.unit (s := S512x512) off S64x128.size hin)).Stores Finset.univ}
    {hm : (Finset.univ : Finset (Rect.unit (s := S512x512) off S64x128.size hin).shape.Idx) = Finset.univ
      ∨ ∀ a, (Rect.unit (s := S512x512) off S64x128.size hin).stride a = 1}
    (hw : ∀ f, ∀ i ∈ (outM.access (rOwn c h)).set, ((outM.access (rOwn c h)).write (Elt F) f w Finset.univ) i = outAt (X m) c i) {α : Type} {Q : α → sProp 𝕄} {k : PUnit → Prog (TpuEff nD τ sig (Elt F) Λ₀ .tc) α}
    (hh : h.val = nown := by decide) :
    St m K (stageOf ⟨nsig, bar, nxb, n1, nr1, nown, na, n2, nr2, noth, nw1, nw2⟩) c ⊢ iprop((St m K (stageOf ⟨nsig, bar, nxb, n1, nr1, nown + 1, na, n2, nr2, noth, nw1, nw2⟩) c -∗ wpB c (k ⟨⟩) Q)
      -∗ wpB c (.op (.store outM (Rect.unit (s := S512x512) off S64x128.size hin) w Finset.univ hx hm) k) Q) := by
  rw [← tr_outOwn ⟨nsig, bar, nxb, n1, nr1, nown, na, n2, nr2, noth, nw1, nw2⟩ h hh]
  exact step_outStore m K (stageOf ⟨nsig, bar, nxb, n1, nr1, nown, na, n2, nr2, noth, nw1, nw2⟩) c 0 h c (px_zero c).symm hoff hw

theorem cstep_outOther (h : Fin 4) (j : Fin 7) {off : Fin 2 → ℕ} {hin : ∀ a, off a + S64x128.size a ≤ S512x512.size a} (hoff : off = ![64 * (px c (near j)).val, 128 * h.val])
    {w : (Rect.unit (s := S512x512) off S64x128.size hin).shape.Idx → Elt F .f32}
    {hx : (outM.access (Rect.unit (s := S512x512) off S64x128.size hin)).Stores Finset.univ}
    {hm : (Finset.univ : Finset (Rect.unit (s := S512x512) off S64x128.size hin).shape.Idx) = Finset.univ
      ∨ ∀ a, (Rect.unit (s := S512x512) off S64x128.size hin).stride a = 1}
    (hw : ∀ f, ∀ i ∈ (outM.access (rOwn (px c (near j)) h)).set, ((outM.access (rOwn (px c (near j)) h)).write (Elt F) f w Finset.univ) i = outAt (X m) c i) {α : Type} {Q : α → sProp 𝕄} {k : PUnit → Prog (TpuEff nD τ sig (Elt F) Λ₀ .tc) α}
    (hn : 7 * h.val + j.val = noth := by decide) :
    St m K (stageOf ⟨nsig, bar, nxb, n1, nr1, nown, na, n2, nr2, noth, nw1, nw2⟩) c ⊢ iprop((St m K (stageOf ⟨nsig, bar, nxb, n1, nr1, nown, na, n2, nr2, noth + 1, nw1, nw2⟩) c -∗ wpB c (k ⟨⟩) Q)
      -∗ wpB c (.op (.store outM (Rect.unit (s := S512x512) off S64x128.size hin) w Finset.univ hx hm) k) Q) := by
  rw [← tr_outOther ⟨nsig, bar, nxb, n1, nr1, nown, na, n2, nr2, noth, nw1, nw2⟩ h j hn]
  exact step_outStore m K (stageOf ⟨nsig, bar, nxb, n1, nr1, nown, na, n2, nr2, noth, nw1, nw2⟩) c (near j) h _ rfl hoff hw

theorem cstep_aLoadRaw (h : Fin 4) {r : LoadRect S64x512} {hl : aM.view.LoadsAt r}
    {α : Type} {Q : α → sProp 𝕄} {k : (r.shape.Idx → Elt F .bf16) → Prog (TpuEff nD τ sig (Elt F) Λ₀ .tc) α}
    (hh : na ≤ h.val := by decide) (hr : r = (rA h).toLoadRect := by rfl) :
    St m K (stageOf ⟨nsig, bar, nxb, n1, nr1, nown, na, n2, nr2, noth, nw1, nw2⟩) c ⊢ iprop((∀ v, St m K (stageOf ⟨nsig, bar, nxb, n1, nr1, nown, na, n2, nr2, noth, nw1, nw2⟩) c -∗ wpB c (k v) Q)
      -∗ wpB c (.op (.load aM r hl) k) Q) :=
  step_aLoadRaw m K (stageOf ⟨nsig, bar, nxb, n1, nr1, nown, na, n2, nr2, noth, nw1, nw2⟩) c h ((mem_aRaw _ _).2 hh) hr

theorem cstep_aStore (h : Fin 4) {r : Rect S64x512} {w : r.shape.Idx → Elt F .bf16}
    {hx : (aM.access r).Stores Finset.univ} {hm : (Finset.univ : Finset r.shape.Idx) = Finset.univ ∨ ∀ a, r.stride a = 1}
    (hw : ∀ f, ∀ i ∈ (aM.access r).set, ((aM.access r).write (Elt F) f w Finset.univ) i = AB m c i) {α : Type} {Q : α → sProp 𝕄} {k : PUnit → Prog (TpuEff nD τ sig (Elt F) Λ₀ .tc) α}
    (hh : h.val = na := by decide) (hn : n2 ≤ 7 * h.val := by decide) (hr : r = rA h := by rfl) :
    St m K (stageOf ⟨nsig, bar, nxb, n1, nr1, nown, na, n2, nr2, noth, nw1, nw2⟩) c ⊢ iprop((St m K (stageOf ⟨nsig, bar, nxb, n1, nr1, nown, na + 1, n2, nr2, noth, nw1, nw2⟩) c -∗ wpB c (k ⟨⟩) Q)
      -∗ wpB c (.op (.store aM r w Finset.univ hx hm) k) Q) := by
  rw [← tr_aStore ⟨nsig, bar, nxb, n1, nr1, nown, na, n2, nr2, noth, nw1, nw2⟩ h hh hn]
  exact step_aStore m K (stageOf ⟨nsig, bar, nxb, n1, nr1, nown, na, n2, nr2, noth, nw1, nw2⟩) c h ((mem_aRaw _ _).2 (Nat.le_of_eq hh.symm)) hr hw

theorem cstep_gLoad (k₀ : Fin 8) (h : Fin 4)
    {off : Fin 3 → ℕ} {hin : ∀ a, off a + S1x64x128.size a ≤ S8x64x512.size a} (hoff : off = ![(px c k₀).val, 0, 128 * h.val])
    {hl : gM.view.LoadsAt (Rect.unit (s := S8x64x512) off S1x64x128.size hin).toLoadRect}
    {α : Type} {Q : α → sProp 𝕄} {k : ((Rect.unit (s := S8x64x512) off S1x64x128.size hin).toLoadRect.shape.Idx → Elt F .bf16) → Prog (TpuEff nD τ sig (Elt F) Λ₀ .tc) α}
    (hk0 : k₀ ≠ 0 := by decide) (hk : 7 * h.val + nearPos k₀ < nr1 := by decide) :
    St m K (stageOf ⟨nsig, bar, nxb, n1, nr1, nown, na, n2, nr2, noth, nw1, nw2⟩) c ⊢ iprop((St m K (stageOf ⟨nsig, bar, nxb, n1, nr1, nown, na, n2, nr2, noth, nw1, nw2⟩) c -∗ wpB c (k (gM.view.readAt (Elt F) (rG (px c k₀) h).toLoadRect (G1 m c))) Q)
      -∗ wpB c (.op (.load gM (Rect.unit (s := S8x64x512) off S1x64x128.size hin).toLoadRect hl) k) Q) :=
  step_gLoad m K (stageOf ⟨nsig, bar, nxb, n1, nr1, nown, na, n2, nr2, noth, nw1, nw2⟩) c k₀ h ((mem_gLanded _ _).2 ⟨hk0, hk⟩) _ rfl hoff

theorem cstep_oLoad (k₀ : Fin 8) (h : Fin 4)
    {off : Fin 3 → ℕ} {hin : ∀ a, off a + S1x64x128.size a ≤ S8x64x512.size a} (hoff : off = ![(px c k₀).val, 0, 128 * h.val])
    {hl : oM.view.LoadsAt (Rect.unit (s := S8x64x512) off S1x64x128.size hin).toLoadRect}
    {α : Type} {Q : α → sProp 𝕄} {k : ((Rect.unit (s := S8x64x512) off S1x64x128.size hin).toLoadRect.shape.Idx → Elt F .bf16) → Prog (TpuEff nD τ sig (Elt F) Λ₀ .tc) α}
    (hk0 : k₀ ≠ 0 := by decide) (hk : 7 * h.val + nearPos k₀ < nr2 := by decide) :
    St m K (stageOf ⟨nsig, bar, nxb, n1, nr1, nown, na, n2, nr2, noth, nw1, nw2⟩) c ⊢ iprop((St m K (stageOf ⟨nsig, bar, nxb, n1, nr1, nown, na, n2, nr2, noth, nw1, nw2⟩) c -∗ wpB c (k (oM.view.readAt (Elt F) (rG (px c k₀) h).toLoadRect (OB m c))) Q)
      -∗ wpB c (.op (.load oM (Rect.unit (s := S8x64x512) off S1x64x128.size hin).toLoadRect hl) k) Q) :=
  step_oLoad m K (stageOf ⟨nsig, bar, nxb, n1, nr1, nown, na, n2, nr2, noth, nw1, nw2⟩) c k₀ h ((mem_oLanded _ _).2 ⟨hk0, hk⟩) _ rfl hoff

theorem cstep_send1 (h : Fin 4) (j : Fin 7)
    {offS : Fin 2 → ℕ} {hinS : ∀ a, offS a + S64x128.size a ≤ S512x512.size a} (hoffS : offS = ![64 * (px c (far j)).val, 128 * h.val])
    {offD : Fin 3 → ℕ} {hinD : ∀ a, offD a + S1x64x128.size a ≤ S8x64x512.size a} (hoffD : offD = ![c.val, 0, 128 * h.val])
    {offr : Fin 2 → ℕ} {hinr : ∀ a, offr a + S1x1.size a ≤ S4x8.size a} (hoffr : offr = ![h.val, c.val])
    {d : Dev nD} (hd : d = px c (far j))
    {offs : Fin 2 → ℕ} {hins : ∀ a, offs a + S1x1.size a ≤ S4x8.size a} {hsc} {hsrc} {hdst} {hsem} {α : Type} {Q : α → sProp 𝕄} {k : PUnit → Prog (TpuEff nD τ sig (Elt F) Λ₀ .tc) α}
    (hoffs : offs = ![h.val, (far j).val] := by rfl)
    (hn : 7 * h.val + j.val = n1 := by decide) (hs : nsig = 7 := by decide) (h2 : n2 = 0 := by decide) (hb : bar = true := by decide)
    (hx : h.val < nxb := by decide) (hw : nw1 ≤ n1 := by decide) :
    St m K (stageOf ⟨nsig, bar, nxb, n1, nr1, nown, na, n2, nr2, noth, nw1, nw2⟩) c ⊢ iprop((St m K (stageOf ⟨nsig, bar, nxb, n1 + 1, nr1, nown, na, n2, nr2, noth, nw1, nw2⟩) c -∗ wpB c (k ⟨⟩) Q)
      -∗ wpB c (.op (.enqueueDma (xbM.slice (Rect.unit (s := S512x512) offS S64x128.size hinS) (fun _ => rfl))
            (.remote (Dev.tc d : Thread nD τ) ((gM.slice (Rect.unit (s := S8x64x512) offD S1x64x128.size hinD) (fun _ => rfl)).squeeze S64x128 squeezes_S1x64x128_S64x128)
              (.dma ((cc0_scratch4.slice (Rect.unit (s := S4x8) offs S1x1.size hins)).squeeze S_ squeezes_S1x1_S_).sem) hsc)
            (.dma ((cc0_scratch5.slice (Rect.unit (s := S4x8) offr S1x1.size hinr)).squeeze S_ squeezes_S1x1_S_).sem) hsrc hdst hsem) k) Q) := by
  subst hb
  rw [← tr_send1 ⟨nsig, true, nxb, n1, nr1, nown, na, n2, nr2, noth, nw1, nw2⟩ h j hn hw]
  exact step_send1 m K (stageOf ⟨nsig, true, nxb, n1, nr1, nown, na, n2, nr2, noth, nw1, nw2⟩) c h j ((mem_s1Todo _ _).2 (Nat.le_of_eq hn.symm))
    (by show nsig + n1 + n2 = 7 + 7 * h.val + j.val; omega)
    ((mem_xbHave _ _).2 ⟨hx, Or.inr (Or.inl (by show n1 ≤ 7 * h.val + farPos (far j); rw [farPos_far]; omega))⟩)
    ((mem_gPeer _ _).2 ⟨rfl, Nat.le_of_eq hn.symm⟩) (p1_land_ok m c (far j) h) hoffS hoffD hoffs hoffr hd

theorem cstep_send2 (h : Fin 4) (j : Fin 7)
    {offD : Fin 3 → ℕ} {hinD : ∀ a, offD a + S1x64x128.size a ≤ S8x64x512.size a} (hoffD : offD = ![c.val, 0, 128 * h.val])
    {offr : Fin 2 → ℕ} {hinr : ∀ a, offr a + S1x1.size a ≤ S4x8.size a} (hoffr : offr = ![h.val, c.val])
    {d : Dev nD} (hd : d = px c (far j))
    {offS : Fin 2 → ℕ} {hinS : ∀ a, offS a + S64x128.size a ≤ S64x512.size a}
    {offs : Fin 2 → ℕ} {hins : ∀ a, offs a + S1x1.size a ≤ S4x8.size a} {hsc} {hsrc} {hdst} {hsem} {α : Type} {Q : α → sProp 𝕄} {k : PUnit → Prog (TpuEff nD τ sig (Elt F) Λ₀ .tc) α}
    (hoffS : offS = ![0, 128 * h.val] := by rfl) (hoffs : offs = ![h.val, (far j).val] := by rfl)
    (hn : 7 * h.val + j.val = n2 := by decide) (hs : nsig = 7 := by decide) (h1 : n1 = 28 := by decide) (hb : bar = true := by decide)
    (ha : h.val < na := by decide) (hw : nw2 ≤ n2 := by decide) :
    St m K (stageOf ⟨nsig, bar, nxb, n1, nr1, nown, na, n2, nr2, noth, nw1, nw2⟩) c ⊢ iprop((St m K (stageOf ⟨nsig, bar, nxb, n1, nr1, nown, na, n2 + 1, nr2, noth, nw1, nw2⟩) c -∗ wpB c (k ⟨⟩) Q)
      -∗ wpB c (.op (.enqueueDma (aM.slice (Rect.unit (s := S64x512) offS S64x128.size hinS) (fun _ => rfl))
            (.remote (Dev.tc d : Thread nD τ) ((oM.slice (Rect.unit (s := S8x64x512) offD S1x64x128.size hinD) (fun _ => rfl)).squeeze S64x128 squeezes_S1x64x128_S64x128)
              (.dma ((cc0_scratch6.slice (Rect.unit (s := S4x8) offs S1x1.size hins)).squeeze S_ squeezes_S1x1_S_).sem) hsc)
            (.dma ((cc0_scratch7.slice (Rect.unit (s := S4x8) offr S1x1.size hinr)).squeeze S_ squeezes_S1x1_S_).sem) hsrc hdst hsem) k) Q) := by
  subst hb
  rw [← tr_send2 ⟨nsig, true, nxb, n1, nr1, nown, na, n2, nr2, noth, nw1, nw2⟩ h j hn hw]
  exact step_send2 m K (stageOf ⟨nsig, true, nxb, n1, nr1, nown, na, n2, nr2, noth, nw1, nw2⟩) c h j ((mem_s2Todo _ _).2 (Nat.le_of_eq hn.symm))
    (by show nsig + n1 + n2 = 35 + 7 * h.val + j.val; omega)
    (fun hm => absurd ((mem_aRaw _ _).1 hm) (by show ¬ na ≤ h.val; omega))
    (by show min 7 (n2 - 7 * h.val) = j.val; have := j.isLt; omega)
    ((mem_oPeer _ _).2 ⟨rfl, Nat.le_of_eq hn.symm⟩) (p2_land_ok m c (far j) h) hoffS hoffD hoffs hoffr hd

theorem cstep_recv1 (h : Fin 4) (j : Fin 7)
    {off : Fin 2 → ℕ} {hin : ∀ a, off a + S1x1.size a ≤ S4x8.size a} (hoff : off = ![h.val, (px c (near j)).val])
    {src dst : Memref sig .tc .vmem S64x128 .bf16} {hs : src.view.WordExact} {hd : dst.view.WordExact} {α : Type} {Q : α → sProp 𝕄} {k : PUnit → Prog (TpuEff nD τ sig (Elt F) Λ₀ .tc) α}
    (hn : 7 * h.val + j.val = nr1 := by decide) (hp : 35 ≤ nsig + n1 + n2 := by decide) :
    St m K (stageOf ⟨nsig, bar, nxb, n1, nr1, nown, na, n2, nr2, noth, nw1, nw2⟩) c ⊢ iprop((St m K (stageOf ⟨nsig, bar, nxb, n1, nr1 + 1, nown, na, n2, nr2, noth, nw1, nw2⟩) c -∗ wpB c (k ⟨⟩) Q)
      -∗ wpB c (.op (.waitDma2 ((cc0_scratch5.slice (Rect.unit (s := S4x8) off S1x1.size hin)).squeeze S_ squeezes_S1x1_S_).sem src dst hs hd) k) Q) := by
  rw [← tr_recv1 ⟨nsig, bar, nxb, n1, nr1, nown, na, n2, nr2, noth, nw1, nw2⟩ h j hn]
  exact step_recv1 m K (stageOf ⟨nsig, bar, nxb, n1, nr1, nown, na, n2, nr2, noth, nw1, nw2⟩) c h j ((mem_r1Todo _ _).2 (Nat.le_of_eq hn.symm)) hp hoff

theorem cstep_recv2 (h : Fin 4) (j : Fin 7)
    {off : Fin 2 → ℕ} {hin : ∀ a, off a + S1x1.size a ≤ S4x8.size a} (hoff : off = ![h.val, (px c (near j)).val])
    {src dst : Memref sig .tc .vmem S64x128 .bf16} {hs : src.view.WordExact} {hd : dst.view.WordExact} {α : Type} {Q : α → sProp 𝕄} {k : PUnit → Prog (TpuEff nD τ sig (Elt F) Λ₀ .tc) α}
    (hn : 7 * h.val + j.val = nr2 := by decide) (hp : nsig + n1 + n2 = 63 := by decide) :
    St m K (stageOf ⟨nsig, bar, nxb, n1, nr1, nown, na, n2, nr2, noth, nw1, nw2⟩) c ⊢ iprop((St m K (stageOf ⟨nsig, bar, nxb, n1, nr1, nown, na, n2, nr2 + 1, noth, nw1, nw2⟩) c -∗ wpB c (k ⟨⟩) Q)
      -∗ wpB c (.op (.waitDma2 ((cc0_scratch7.slice (Rect.unit (s := S4x8) off S1x1.size hin)).squeeze S_ squeezes_S1x1_S_).sem src dst hs hd) k) Q) := by
  rw [← tr_recv2 ⟨nsig, bar, nxb, n1, nr1, nown, na, n2, nr2, noth, nw1, nw2⟩ h j hn]
  exact step_recv2 m K (stageOf ⟨nsig, bar, nxb, n1, nr1, nown, na, n2, nr2, noth, nw1, nw2⟩) c h j ((mem_r2Todo _ _).2 (Nat.le_of_eq hn.symm)) hp hoff

theorem cstep_sendWait1 (h : Fin 4) (j : Fin 7)
    {off : Fin 2 → ℕ} {hin : ∀ a, off a + S1x1.size a ≤ S4x8.size a}
    {src dst : Memref sig .tc .vmem S64x128 .bf16} {hs : src.view.WordExact} {hd : dst.view.WordExact} {α : Type} {Q : α → sProp 𝕄} {k : PUnit → Prog (TpuEff nD τ sig (Elt F) Λ₀ .tc) α}
    (hoff : off = ![h.val, (far j).val] := by rfl) (hn : 7 * h.val + j.val = nw1 := by decide) (hf : nw1 < n1 := by decide) (hx : h.val < nxb := by decide) (hp : nsig + n1 + n2 = 63 := by decide) :
    St m K (stageOf ⟨nsig, bar, nxb, n1, nr1, nown, na, n2, nr2, noth, nw1, nw2⟩) c ⊢ iprop((St m K (stageOf ⟨nsig, bar, nxb, n1, nr1, nown, na, n2, nr2, noth, nw1 + 1, nw2⟩) c -∗ wpB c (k ⟨⟩) Q)
      -∗ wpB c (.op (.waitDma2 ((cc0_scratch4.slice (Rect.unit (s := S4x8) off S1x1.size hin)).squeeze S_ squeezes_S1x1_S_).sem src dst hs hd) k) Q) := by
  rw [← tr_sendWait1 ⟨nsig, bar, nxb, n1, nr1, nown, na, n2, nr2, noth, nw1, nw2⟩ h j hn hx]
  exact step_sendWait1 m K (stageOf ⟨nsig, bar, nxb, n1, nr1, nown, na, n2, nr2, noth, nw1, nw2⟩) c h j
    ((mem_s1Fly _ _).2 ⟨by show 7 * h.val + j.val < n1; omega, Nat.le_of_eq hn.symm⟩) hp hoff

theorem cstep_sendWait2 (h : Fin 4) (j : Fin 7)
    {off : Fin 2 → ℕ} {hin : ∀ a, off a + S1x1.size a ≤ S4x8.size a}
    {src dst : Memref sig .tc .vmem S64x128 .bf16} {hs : src.view.WordExact} {hd : dst.view.WordExact} {α : Type} {Q : α → sProp 𝕄} {k : PUnit → Prog (TpuEff nD τ sig (Elt F) Λ₀ .tc) α}
    (hoff : off = ![h.val, (far j).val] := by rfl) (hn : 7 * h.val + j.val = nw2 := by decide) (hf : nw2 < n2 := by decide) (hp : nsig + n1 + n2 = 63 := by decide) :
    St m K (stageOf ⟨nsig, bar, nxb, n1, nr1, nown, na, n2, nr2, noth, nw1, nw2⟩) c ⊢ iprop((St m K (stageOf ⟨nsig, bar, nxb, n1, nr1, nown, na, n2, nr2, noth, nw1, nw2 + 1⟩) c -∗ wpB c (k ⟨⟩) Q)
      -∗ wpB c (.op (.waitDma2 ((cc0_scratch6.slice (Rect.unit (s := S4x8) off S1x1.size hin)).squeeze S_ squeezes_S1x1_S_).sem src dst hs hd) k) Q) := by
  rw [← tr_sendWait2 ⟨nsig, bar, nxb, n1, nr1, nown, na, n2, nr2, noth, nw1, nw2⟩ h j hn]
  exact step_sendWait2 m K (stageOf ⟨nsig, bar, nxb, n1, nr1, nown, na, n2, nr2, noth, nw1, nw2⟩) c h j
    ((mem_s2Fly _ _).2 ⟨by show 7 * h.val + j.val < n2; omega, Nat.le_of_eq hn.symm⟩) hp hoff

end Cert.KernelIdeal.AR

end
-- ==== Proof.KernelIdealAR.Chains.lean ====
import proofs.«900697_g7700000000000698_dist_ar_v7x_i8_i_m512_n512_f32_1_alg».proof.Proof.KernelIdealAR.ProtoA

set_option Elab.async false

namespace Cert.KernelIdeal.AR

open Cert.KernelIdeal Cert.KernelIdeal.Gen
open Idealize.ShloMosaic

-- Device chain N is the partner under its mask; the masks run 6, 7, 5, 2, 4, 3, 1 and repeat.
theorem dev_eq_1 (c : Dev nD) : ⟨k0_dev1 c, k0_dev1_lt c⟩ = px c 6 := by revert c; decide +kernel
theorem dev_eq_2 (c : Dev nD) : ⟨k0_dev2 c, k0_dev2_lt c⟩ = px c 7 := by revert c; decide +kernel
theorem dev_eq_3 (c : Dev nD) : ⟨k0_dev3 c, k0_dev3_lt c⟩ = px c 5 := by revert c; decide +kernel
theorem dev_eq_4 (c : Dev nD) : ⟨k0_dev4 c, k0_dev4_lt c⟩ = px c 2 := by revert c; decide +kernel
theorem dev_eq_5 (c : Dev nD) : ⟨k0_dev5 c, k0_dev5_lt c⟩ = px c 4 := by revert c; decide +kernel
theorem dev_eq_6 (c : Dev nD) : ⟨k0_dev6 c, k0_dev6_lt c⟩ = px c 3 := by revert c; decide +kernel
theorem dev_eq_7 (c : Dev nD) : ⟨k0_dev7 c, k0_dev7_lt c⟩ = px c 1 := by revert c; decide +kernel
theorem dev_eq_8 (c : Dev nD) : ⟨k0_dev8 c, k0_dev8_lt c⟩ = px c 6 := by revert c; decide +kernel
theorem dev_eq_9 (c : Dev nD) : ⟨k0_dev9 c, k0_dev9_lt c⟩ = px c 7 := by revert c; decide +kernel
theorem dev_eq_10 (c : Dev nD) : ⟨k0_dev10 c, k0_dev10_lt c⟩ = px c 5 := by revert c; decide +kernel
theorem dev_eq_11 (c : Dev nD) : ⟨k0_dev11 c, k0_dev11_lt c⟩ = px c 2 := by revert c; decide +kernel
theorem dev_eq_12 (c : Dev nD) : ⟨k0_dev12 c, k0_dev12_lt c⟩ = px c 4 := by revert c; decide +kernel
theorem dev_eq_13 (c : Dev nD) : ⟨k0_dev13 c, k0_dev13_lt c⟩ = px c 3 := by revert c; decide +kernel
theorem dev_eq_14 (c : Dev nD) : ⟨k0_dev14 c, k0_dev14_lt c⟩ = px c 1 := by revert c; decide +kernel
theorem dev_eq_15 (c : Dev nD) : ⟨k0_dev15 c, k0_dev15_lt c⟩ = px c 6 := by revert c; decide +kernel
theorem dev_eq_16 (c : Dev nD) : ⟨k0_dev16 c, k0_dev16_lt c⟩ = px c 7 := by revert c; decide +kernel
theorem dev_eq_17 (c : Dev nD) : ⟨k0_dev17 c, k0_dev17_lt c⟩ = px c 5 := by revert c; decide +kernel
theorem dev_eq_18 (c : Dev nD) : ⟨k0_dev18 c, k0_dev18_lt c⟩ = px c 2 := by revert c; decide +kernel
theorem dev_eq_19 (c : Dev nD) : ⟨k0_dev19 c, k0_dev19_lt c⟩ = px c 4 := by revert c; decide +kernel
theorem dev_eq_20 (c : Dev nD) : ⟨k0_dev20 c, k0_dev20_lt c⟩ = px c 3 := by revert c; decide +kernel
theorem dev_eq_21 (c : Dev nD) : ⟨k0_dev21 c, k0_dev21_lt c⟩ = px c 1 := by revert c; decide +kernel
theorem dev_eq_22 (c : Dev nD) : ⟨k0_dev22 c, k0_dev22_lt c⟩ = px c 6 := by revert c; decide +kernel
theorem dev_eq_23 (c : Dev nD) : ⟨k0_dev23 c, k0_dev23_lt c⟩ = px c 7 := by revert c; decide +kernel
theorem dev_eq_24 (c : Dev nD) : ⟨k0_dev24 c, k0_dev24_lt c⟩ = px c 5 := by revert c; decide +kernel
theorem dev_eq_25 (c : Dev nD) : ⟨k0_dev25 c, k0_dev25_lt c⟩ = px c 2 := by revert c; decide +kernel
theorem dev_eq_26 (c : Dev nD) : ⟨k0_dev26 c, k0_dev26_lt c⟩ = px c 4 := by revert c; decide +kernel
theorem dev_eq_27 (c : Dev nD) : ⟨k0_dev27 c, k0_dev27_lt c⟩ = px c 3 := by revert c; decide +kernel
theorem dev_eq_28 (c : Dev nD) : ⟨k0_dev28 c, k0_dev28_lt c⟩ = px c 1 := by revert c; decide +kernel
theorem dev_eq_29 (c : Dev nD) : ⟨k0_dev29 c, k0_dev29_lt c⟩ = px c 6 := by revert c; decide +kernel
theorem dev_eq_30 (c : Dev nD) : ⟨k0_dev30 c, k0_dev30_lt c⟩ = px c 7 := by revert c; decide +kernel
theorem dev_eq_31 (c : Dev nD) : ⟨k0_dev31 c, k0_dev31_lt c⟩ = px c 5 := by revert c; decide +kernel
theorem dev_eq_32 (c : Dev nD) : ⟨k0_dev32 c, k0_dev32_lt c⟩ = px c 2 := by revert c; decide +kernel
theorem dev_eq_33 (c : Dev nD) : ⟨k0_dev33 c, k0_dev33_lt c⟩ = px c 4 := by revert c; decide +kernel
theorem dev_eq_34 (c : Dev nD) : ⟨k0_dev34 c, k0_dev34_lt c⟩ = px c 3 := by revert c; decide +kernel
theorem dev_eq_35 (c : Dev nD) : ⟨k0_dev35 c, k0_dev35_lt c⟩ = px c 1 := by revert c; decide +kernel
theorem dev_eq_36 (c : Dev nD) : ⟨k0_dev36 c, k0_dev36_lt c⟩ = px c 6 := by revert c; decide +kernel
theorem dev_eq_37 (c : Dev nD) : ⟨k0_dev37 c, k0_dev37_lt c⟩ = px c 7 := by revert c; decide +kernel
theorem dev_eq_38 (c : Dev nD) : ⟨k0_dev38 c, k0_dev38_lt c⟩ = px c 5 := by revert c; decide +kernel
theorem dev_eq_39 (c : Dev nD) : ⟨k0_dev39 c, k0_dev39_lt c⟩ = px c 2 := by revert c; decide +kernel
theorem dev_eq_40 (c : Dev nD) : ⟨k0_dev40 c, k0_dev40_lt c⟩ = px c 4 := by revert c; decide +kernel
theorem dev_eq_41 (c : Dev nD) : ⟨k0_dev41 c, k0_dev41_lt c⟩ = px c 3 := by revert c; decide +kernel
theorem dev_eq_42 (c : Dev nD) : ⟨k0_dev42 c, k0_dev42_lt c⟩ = px c 1 := by revert c; decide +kernel
theorem dev_eq_43 (c : Dev nD) : ⟨k0_dev43 c, k0_dev43_lt c⟩ = px c 6 := by revert c; decide +kernel
theorem dev_eq_44 (c : Dev nD) : ⟨k0_dev44 c, k0_dev44_lt c⟩ = px c 7 := by revert c; decide +kernel
theorem dev_eq_45 (c : Dev nD) : ⟨k0_dev45 c, k0_dev45_lt c⟩ = px c 5 := by revert c; decide +kernel
theorem dev_eq_46 (c : Dev nD) : ⟨k0_dev46 c, k0_dev46_lt c⟩ = px c 2 := by revert c; decide +kernel
theorem dev_eq_47 (c : Dev nD) : ⟨k0_dev47 c, k0_dev47_lt c⟩ = px c 4 := by revert c; decide +kernel
theorem dev_eq_48 (c : Dev nD) : ⟨k0_dev48 c, k0_dev48_lt c⟩ = px c 3 := by revert c; decide +kernel
theorem dev_eq_49 (c : Dev nD) : ⟨k0_dev49 c, k0_dev49_lt c⟩ = px c 1 := by revert c; decide +kernel
theorem dev_eq_50 (c : Dev nD) : ⟨k0_dev50 c, k0_dev50_lt c⟩ = px c 6 := by revert c; decide +kernel
theorem dev_eq_51 (c : Dev nD) : ⟨k0_dev51 c, k0_dev51_lt c⟩ = px c 7 := by revert c; decide +kernel
theorem dev_eq_52 (c : Dev nD) : ⟨k0_dev52 c, k0_dev52_lt c⟩ = px c 5 := by revert c; decide +kernel
theorem dev_eq_53 (c : Dev nD) : ⟨k0_dev53 c, k0_dev53_lt c⟩ = px c 2 := by revert c; decide +kernel
theorem dev_eq_54 (c : Dev nD) : ⟨k0_dev54 c, k0_dev54_lt c⟩ = px c 4 := by revert c; decide +kernel
theorem dev_eq_55 (c : Dev nD) : ⟨k0_dev55 c, k0_dev55_lt c⟩ = px c 3 := by revert c; decide +kernel
theorem dev_eq_56 (c : Dev nD) : ⟨k0_dev56 c, k0_dev56_lt c⟩ = px c 1 := by revert c; decide +kernel
theorem dev_eq_57 (c : Dev nD) : ⟨k0_dev57 c, k0_dev57_lt c⟩ = px c 6 := by revert c; decide +kernel
theorem dev_eq_58 (c : Dev nD) : ⟨k0_dev58 c, k0_dev58_lt c⟩ = px c 7 := by revert c; decide +kernel
theorem dev_eq_59 (c : Dev nD) : ⟨k0_dev59 c, k0_dev59_lt c⟩ = px c 5 := by revert c; decide +kernel
theorem dev_eq_60 (c : Dev nD) : ⟨k0_dev60 c, k0_dev60_lt c⟩ = px c 2 := by revert c; decide +kernel
theorem dev_eq_61 (c : Dev nD) : ⟨k0_dev61 c, k0_dev61_lt c⟩ = px c 4 := by revert c; decide +kernel
theorem dev_eq_62 (c : Dev nD) : ⟨k0_dev62 c, k0_dev62_lt c⟩ = px c 3 := by revert c; decide +kernel
theorem dev_eq_63 (c : Dev nD) : ⟨k0_dev63 c, k0_dev63_lt c⟩ = px c 1 := by revert c; decide +kernel

-- A fact about the mask words 1 to 7 follows from its check at the words 1 + r, r < 7.
theorem of_words {α : Type} {g : BitVec 32 → α} {f : ℕ → α} (h : ∀ r : Fin 7, g (BitVec.ofNat 32 (1 + r.val)) = f (1 + r.val))
    (w : ℕ) (hw : 0 < w ∧ w < 8) : g (BitVec.ofNat 32 w) = f w := by
  have e : g (BitVec.ofNat 32 (1 + (w - 1))) = f (1 + (w - 1)) := h ⟨w - 1, by omega⟩
  rwa [show 1 + (w - 1) = w by omega] at e

-- Every offset chain over a mask word varies only in the partner's number, or 64 times it (a row group of 64 rows).
theorem k0_off3_eq (d0 : Dev nD) (w : ℕ) (hw : 0 < w ∧ w < 8 := by decide) : k0_off3 d0 (BitVec.ofNat 32 w) = ![64 * (d0.val ^^^ w), 0] :=
  of_words (f := fun w => ![64 * (d0.val ^^^ w), 0]) (by revert d0; decide +kernel) w hw
theorem k0_off6_eq (d0 : Dev nD) (w : ℕ) (hw : 0 < w ∧ w < 8 := by decide) : k0_off6 d0 (BitVec.ofNat 32 w) = ![64 * (d0.val ^^^ w), 128] :=
  of_words (f := fun w => ![64 * (d0.val ^^^ w), 128]) (by revert d0; decide +kernel) w hw
theorem k0_off9_eq (d0 : Dev nD) (w : ℕ) (hw : 0 < w ∧ w < 8 := by decide) : k0_off9 d0 (BitVec.ofNat 32 w) = ![64 * (d0.val ^^^ w), 256] :=
  of_words (f := fun w => ![64 * (d0.val ^^^ w), 256]) (by revert d0; decide +kernel) w hw
theorem k0_off12_eq (d0 : Dev nD) (w : ℕ) (hw : 0 < w ∧ w < 8 := by decide) : k0_off12 d0 (BitVec.ofNat 32 w) = ![64 * (d0.val ^^^ w), 384] :=
  of_words (f := fun w => ![64 * (d0.val ^^^ w), 384]) (by revert d0; decide +kernel) w hw
theorem k0_off14_eq (d0 : Dev nD) (w : ℕ) (hw : 0 < w ∧ w < 8 := by decide) : k0_off14 d0 (BitVec.ofNat 32 w) = ![0, (d0.val ^^^ w)] :=
  of_words (f := fun w => ![0, (d0.val ^^^ w)]) (by revert d0; decide +kernel) w hw
theorem k0_off15_eq (d0 : Dev nD) (w : ℕ) (hw : 0 < w ∧ w < 8 := by decide) : k0_off15 d0 (BitVec.ofNat 32 w) = ![(d0.val ^^^ w), 0, 0] :=
  of_words (f := fun w => ![(d0.val ^^^ w), 0, 0]) (by revert d0; decide +kernel) w hw
theorem k0_off16_eq (d0 : Dev nD) (w : ℕ) (hw : 0 < w ∧ w < 8 := by decide) : k0_off16 d0 (BitVec.ofNat 32 w) = ![(d0.val ^^^ w), 0, 0] :=
  of_words (f := fun w => ![(d0.val ^^^ w), 0, 0]) (by revert d0; decide +kernel) w hw
theorem k0_off18_eq (d0 : Dev nD) (w : ℕ) (hw : 0 < w ∧ w < 8 := by decide) : k0_off18 d0 (BitVec.ofNat 32 w) = ![1, (d0.val ^^^ w)] :=
  of_words (f := fun w => ![1, (d0.val ^^^ w)]) (by revert d0; decide +kernel) w hw
theorem k0_off19_eq (d0 : Dev nD) (w : ℕ) (hw : 0 < w ∧ w < 8 := by decide) : k0_off19 d0 (BitVec.ofNat 32 w) = ![(d0.val ^^^ w), 0, 128] :=
  of_words (f := fun w => ![(d0.val ^^^ w), 0, 128]) (by revert d0; decide +kernel) w hw
theorem k0_off20_eq (d0 : Dev nD) (w : ℕ) (hw : 0 < w ∧ w < 8 := by decide) : k0_off20 d0 (BitVec.ofNat 32 w) = ![(d0.val ^^^ w), 0, 128] :=
  of_words (f := fun w => ![(d0.val ^^^ w), 0, 128]) (by revert d0; decide +kernel) w hw
theorem k0_off22_eq (d0 : Dev nD) (w : ℕ) (hw : 0 < w ∧ w < 8 := by decide) : k0_off22 d0 (BitVec.ofNat 32 w) = ![2, (d0.val ^^^ w)] :=
  of_words (f := fun w => ![2, (d0.val ^^^ w)]) (by revert d0; decide +kernel) w hw
theorem k0_off23_eq (d0 : Dev nD) (w : ℕ) (hw : 0 < w ∧ w < 8 := by decide) : k0_off23 d0 (BitVec.ofNat 32 w) = ![(d0.val ^^^ w), 0, 256] :=
  of_words (f := fun w => ![(d0.val ^^^ w), 0, 256]) (by revert d0; decide +kernel) w hw
theorem k0_off24_eq (d0 : Dev nD) (w : ℕ) (hw : 0 < w ∧ w < 8 := by decide) : k0_off24 d0 (BitVec.ofNat 32 w) = ![(d0.val ^^^ w), 0, 256] :=
  of_words (f := fun w => ![(d0.val ^^^ w), 0, 256]) (by revert d0; decide +kernel) w hw
theorem k0_off26_eq (d0 : Dev nD) (w : ℕ) (hw : 0 < w ∧ w < 8 := by decide) : k0_off26 d0 (BitVec.ofNat 32 w) = ![3, (d0.val ^^^ w)] :=
  of_words (f := fun w => ![3, (d0.val ^^^ w)]) (by revert d0; decide +kernel) w hw
theorem k0_off27_eq (d0 : Dev nD) (w : ℕ) (hw : 0 < w ∧ w < 8 := by decide) : k0_off27 d0 (BitVec.ofNat 32 w) = ![(d0.val ^^^ w), 0, 384] :=
  of_words (f := fun w => ![(d0.val ^^^ w), 0, 384]) (by revert d0; decide +kernel) w hw
theorem k0_off28_eq (d0 : Dev nD) (w : ℕ) (hw : 0 < w ∧ w < 8 := by decide) : k0_off28 d0 (BitVec.ofNat 32 w) = ![(d0.val ^^^ w), 0, 384] :=
  of_words (f := fun w => ![(d0.val ^^^ w), 0, 384]) (by revert d0; decide +kernel) w hw
theorem k0_off29_eq (d0 : Dev nD) (w : ℕ) (hw : 0 < w ∧ w < 8 := by decide) : k0_off29 d0 (BitVec.ofNat 32 w) = ![64 * (d0.val ^^^ w), 0] :=
  of_words (f := fun w => ![64 * (d0.val ^^^ w), 0]) (by revert d0; decide +kernel) w hw
theorem k0_off30_eq (d0 : Dev nD) (w : ℕ) (hw : 0 < w ∧ w < 8 := by decide) : k0_off30 d0 (BitVec.ofNat 32 w) = ![64 * (d0.val ^^^ w), 128] :=
  of_words (f := fun w => ![64 * (d0.val ^^^ w), 128]) (by revert d0; decide +kernel) w hw
theorem k0_off31_eq (d0 : Dev nD) (w : ℕ) (hw : 0 < w ∧ w < 8 := by decide) : k0_off31 d0 (BitVec.ofNat 32 w) = ![64 * (d0.val ^^^ w), 256] :=
  of_words (f := fun w => ![64 * (d0.val ^^^ w), 256]) (by revert d0; decide +kernel) w hw
theorem k0_off32_eq (d0 : Dev nD) (w : ℕ) (hw : 0 < w ∧ w < 8 := by decide) : k0_off32 d0 (BitVec.ofNat 32 w) = ![64 * (d0.val ^^^ w), 384] :=
  of_words (f := fun w => ![64 * (d0.val ^^^ w), 384]) (by revert d0; decide +kernel) w hw

end Cert.KernelIdeal.AR
-- ==== Proof.KernelIdealAR.Parts_01_12.lean ====
import proofs.«900697_g7700000000000698_dist_ar_v7x_i8_i_m512_n512_f32_1_alg».proof.Proof.KernelIdealAR.CSteps
import proofs.«900697_g7700000000000698_dist_ar_v7x_i8_i_m512_n512_f32_1_alg».proof.Proof.KernelIdealAR.PartsPre
import proofs.«900697_g7700000000000698_dist_ar_v7x_i8_i_m512_n512_f32_1_alg».proof.Proof.KernelIdealAR.Chains
import proofs.«900697_g7700000000000698_dist_ar_v7x_i8_i_m512_n512_f32_1_alg».proof.Proof.Gen.KernelIdeal.Skeleton

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 1 to 12: the seven entry signals and the wait for the partners', then per slab the narrowed copy and its seven scatter copies. -/
theorem part_1 (Q : (Σ' (d0 : Dev nD) (v2 : BitVec 32) (v3 : Sems sig S_), BitVec 32) → sProp 𝕄) :
    iprop(St m K (stageOf ⟨0, false, 0, 0, 0, 0, 0, 0, 0, 0, 0, 0⟩) c
        ∗ (∀ w₁ w₂, St m K (stageOf ⟨6, false, 0, 0, 0, 0, 0, 0, 0, 0, 0, 0⟩) c -∗ Q ⟨c, w₁, SemArray.scalar (sig.barrier 0 rfl), w₂⟩))
      ⊢ wpB c (onBufs k0_part1) Q := by
  rw [onBufs, k0_part1_eq_skeleton]; unfold k0_part1_skel wpB
  simp only [semSignalWord, semWaitWord, Prog.lift, Prog.bind_op, Prog.bind_ret, Prog.pure_eq_ret]
  rw [wp_deviceId]
  iintro ⟨HSt, Hk⟩
  iapply (cstep_signal m K c 0 (dev_eq_1 c)) $$ HSt; iintro HSt
  iapply (cstep_signal m K c 1 (dev_eq_2 c)) $$ HSt; iintro HSt
  iapply (cstep_signal m K c 2 (dev_eq_3 c)) $$ HSt; iintro HSt
  iapply (cstep_signal m K c 3 (dev_eq_4 c)) $$ HSt; iintro HSt
  iapply (cstep_signal m K c 4 (dev_eq_5 c)) $$ HSt; iintro HSt
  iapply (cstep_signal m K c 5 (dev_eq_6 c)) $$ HSt; iintro HSt
  iapply (le_wp_ret _ _)
  iapply Hk; iexact HSt

theorem part_2 (v2 : BitVec 32) (v3 : Sems sig S_) (v23 : BitVec 32)
    (hv3 : v3 = SemArray.scalar (sig.barrier 0 rfl)) (Q : PUnit → sProp 𝕄) :
    iprop(St m K (stageOf ⟨6, false, 0, 0, 0, 0, 0, 0, 0, 0, 0, 0⟩) c
        ∗ (St m K (stageOf ⟨7, true, 1, 1, 0, 0, 0, 0, 0, 0, 0, 0⟩) c -∗ Q ⟨⟩))
      ⊢ wpB c (onBufs k0_part2 c v2 v3 v23) Q := by
  subst hv3
  rw [onBufs, k0_part2_eq_skeleton]; unfold k0_part2_skel wpB
  simp only [semSignalWord, semWaitWord, Prog.lift, Prog.bind_op, Prog.bind_ret, Prog.pure_eq_ret]
  iintro ⟨HSt, Hk⟩
  iapply (cstep_signal m K c 6 (dev_eq_7 c)) $$ HSt; iintro HSt
  iapply (cstep_barWait m K c) $$ HSt; iintro HSt
  iapply (cstep_xLoad m K c) $$ HSt; iintro HSt
  iapply (cstep_xbLoadRaw m K c 0) $$ HSt; iintro %v HSt
  iapply (cstep_xbStore m K c 0 (xb_store_ok_0 m c)) $$ HSt; iintro HSt
  iapply (cstep_send1 m K c 0 0 (k0_off3_eq c 6) (k0_off2_eq c) (k0_off1_eq c) (dev_eq_8 c)) $$ HSt; iintro HSt
  iapply (le_wp_ret _ _)
  iapply Hk; iexact HSt

theorem part_3 (v2 : BitVec 32) (Q : PUnit → sProp 𝕄) :
    iprop(St m K (stageOf ⟨7, true, 1, 1, 0, 0, 0, 0, 0, 0, 0, 0⟩) c
        ∗ (St m K (stageOf ⟨7, true, 1, 4, 0, 0, 0, 0, 0, 0, 0, 0⟩) c -∗ Q ⟨⟩))
      ⊢ wpB c (onBufs k0_part3 c v2) Q := by
  rw [onBufs, k0_part3_eq_skeleton]; unfold k0_part3_skel wpB
  simp only [semSignalWord, semWaitWord, Prog.lift, Prog.bind_op, Prog.bind_ret, Prog.pure_eq_ret]
  iintro ⟨HSt, Hk⟩
  iapply (cstep_send1 m K c 0 1 (k0_off3_eq c 7) (k0_off2_eq c) (k0_off1_eq c) (dev_eq_9 c)) $$ HSt; iintro HSt
  iapply (cstep_send1 m K c 0 2 (k0_off3_eq c 5) (k0_off2_eq c) (k0_off1_eq c) (dev_eq_10 c)) $$ HSt; iintro HSt
  iapply (cstep_send1 m K c 0 3 (k0_off3_eq c 2) (k0_off2_eq c) (k0_off1_eq c) (dev_eq_11 c)) $$ HSt; iintro HSt
  iapply (le_wp_ret _ _)
  iapply Hk; iexact HSt

theorem part_4 (v2 : BitVec 32) (Q : FVec F S512x128 .bf16 → sProp 𝕄) :
    iprop(St m K (stageOf ⟨7, true, 1, 4, 0, 0, 0, 0, 0, 0, 0, 0⟩) c
        ∗ (St m K (stageOf ⟨7, true, 1, 7, 0, 0, 0, 0, 0, 0, 0, 0⟩) c -∗ Q (k0_pay2 (xsl m c 1))))
      ⊢ wpB c (onBufs k0_part4 c v2) Q := by
  rw [onBufs, k0_part4_eq_skeleton]; unfold k0_part4_skel wpB
  simp only [semSignalWord, semWaitWord, Prog.lift, Prog.bind_op, Prog.bind_ret, Prog.pure_eq_ret]
  iintro ⟨HSt, Hk⟩
  iapply (cstep_send1 m K c 0 4 (k0_off3_eq c 4) (k0_off2_eq c) (k0_off1_eq c) (dev_eq_12 c)) $$ HSt; iintro HSt
  iapply (cstep_send1 m K c 0 5 (k0_off3_eq c 3) (k0_off2_eq c) (k0_off1_eq c) (dev_eq_13 c)) $$ HSt; iintro HSt
  iapply (cstep_send1 m K c 0 6 (k0_off3_eq c 1) (k0_off2_eq c) (k0_off1_eq c) (dev_eq_14 c)) $$ HSt; iintro HSt
  iapply (cstep_xLoad m K c) $$ HSt; iintro HSt
  iapply (cstep_xbLoadRaw m K c 1) $$ HSt; iintro %v HSt
  iapply (le_wp_ret _ _)
  iapply Hk; iexact HSt

theorem part_5 (v2 : BitVec 32) (v110 : FVec F S512x128 .bf16) (hv : v110 = k0_pay2 (xsl m c 1)) (Q : PUnit → sProp 𝕄) :
    iprop(St m K (stageOf ⟨7, true, 1, 7, 0, 0, 0, 0, 0, 0, 0, 0⟩) c
        ∗ (St m K (stageOf ⟨7, true, 2, 9, 0, 0, 0, 0, 0, 0, 0, 0⟩) c -∗ Q ⟨⟩))
      ⊢ wpB c (onBufs k0_part5 c v2 v110) Q := by
  subst hv
  rw [onBufs, k0_part5_eq_skeleton]; unfold k0_part5_skel wpB
  simp only [semSignalWord, semWaitWord, Prog.lift, Prog.bind_op, Prog.bind_ret, Prog.pure_eq_ret]
  iintro ⟨HSt, Hk⟩
  iapply (cstep_xbStore m K c 1 (xb_store_ok_1 m c)) $$ HSt; iintro HSt
  iapply (cstep_send1 m K c 1 0 (k0_off6_eq c 6) (k0_off5_eq c) (k0_off4_eq c) (dev_eq_15 c)) $$ HSt; iintro HSt
  iapply (cstep_send1 m K c 1 1 (k0_off6_eq c 7) (k0_off5_eq c) (k0_off4_eq c) (dev_eq_16 c)) $$ HSt; iintro HSt
  iapply (le_wp_ret _ _)
  iapply Hk; iexact HSt

theorem part_6 (v2 : BitVec 32) (Q : (Σ' (v169 : BitVec 32), BitVec 32) → sProp 𝕄) :
    iprop(St m K (stageOf ⟨7, true, 2, 9, 0, 0, 0, 0, 0, 0, 0, 0⟩) c
        ∗ (∀ w₁ w₂, St m K (stageOf ⟨7, true, 2, 12, 0, 0, 0, 0, 0, 0, 0, 0⟩) c -∗ Q ⟨w₁, w₂⟩))
      ⊢ wpB c (onBufs k0_part6 c v2) Q := by
  rw [onBufs, k0_part6_eq_skeleton]; unfold k0_part6_skel wpB
  simp only [semSignalWord, semWaitWord, Prog.lift, Prog.bind_op, Prog.bind_ret, Prog.pure_eq_ret]
  iintro ⟨HSt, Hk⟩
  iapply (cstep_send1 m K c 1 2 (k0_off6_eq c 5) (k0_off5_eq c) (k0_off4_eq c) (dev_eq_17 c)) $$ HSt; iintro HSt
  iapply (cstep_send1 m K c 1 3 (k0_off6_eq c 2) (k0_off5_eq c) (k0_off4_eq c) (dev_eq_18 c)) $$ HSt; iintro HSt
  iapply (cstep_send1 m K c 1 4 (k0_off6_eq c 4) (k0_off5_eq c) (k0_off4_eq c) (dev_eq_19 c)) $$ HSt; iintro HSt
  iapply (le_wp_ret _ _)
  iapply Hk; iexact HSt

theorem part_7 (v2 : BitVec 32) (v169 : BitVec 32) (c1_i32_151 : BitVec 32) (Q : PUnit → sProp 𝕄) :
    iprop(St m K (stageOf ⟨7, true, 2, 12, 0, 0, 0, 0, 0, 0, 0, 0⟩) c
        ∗ (St m K (stageOf ⟨7, true, 3, 14, 0, 0, 0, 0, 0, 0, 0, 0⟩) c -∗ Q ⟨⟩))
      ⊢ wpB c (onBufs k0_part7 c v2 v169 c1_i32_151) Q := by
  rw [onBufs, k0_part7_eq_skeleton]; unfold k0_part7_skel wpB
  simp only [semSignalWord, semWaitWord, Prog.lift, Prog.bind_op, Prog.bind_ret, Prog.pure_eq_ret]
  iintro ⟨HSt, Hk⟩
  iapply (cstep_send1 m K c 1 5 (k0_off6_eq c 3) (k0_off5_eq c) (k0_off4_eq c) (dev_eq_20 c)) $$ HSt; iintro HSt
  iapply (cstep_send1 m K c 1 6 (k0_off6_eq c 1) (k0_off5_eq c) (k0_off4_eq c) (dev_eq_21 c)) $$ HSt; iintro HSt
  iapply (cstep_xLoad m K c) $$ HSt; iintro HSt
  iapply (cstep_xbLoadRaw m K c 2) $$ HSt; iintro %v HSt
  iapply (cstep_xbStore m K c 2 (xb_store_ok_2 m c)) $$ HSt; iintro HSt
  iapply (le_wp_ret _ _)
  iapply Hk; iexact HSt

theorem part_8 (v2 : BitVec 32) (Q : BitVec 32 → sProp 𝕄) :
    iprop(St m K (stageOf ⟨7, true, 3, 14, 0, 0, 0, 0, 0, 0, 0, 0⟩) c
        ∗ (∀ w₁, St m K (stageOf ⟨7, true, 3, 17, 0, 0, 0, 0, 0, 0, 0, 0⟩) c -∗ Q w₁))
      ⊢ wpB c (onBufs k0_part8 c v2) Q := by
  rw [onBufs, k0_part8_eq_skeleton]; unfold k0_part8_skel wpB
  simp only [semSignalWord, semWaitWord, Prog.lift, Prog.bind_op, Prog.bind_ret, Prog.pure_eq_ret]
  iintro ⟨HSt, Hk⟩
  iapply (cstep_send1 m K c 2 0 (k0_off9_eq c 6) (k0_off8_eq c) (k0_off7_eq c) (dev_eq_22 c)) $$ HSt; iintro HSt
  iapply (cstep_send1 m K c 2 1 (k0_off9_eq c 7) (k0_off8_eq c) (k0_off7_eq c) (dev_eq_23 c)) $$ HSt; iintro HSt
  iapply (cstep_send1 m K c 2 2 (k0_off9_eq c 5) (k0_off8_eq c) (k0_off7_eq c) (dev_eq_24 c)) $$ HSt; iintro HSt
  iapply (le_wp_ret _ _)
  iapply Hk; iexact HSt

theorem part_9 (v2 : BitVec 32) (v230 : BitVec 32) (Q : BitVec 32 → sProp 𝕄) :
    iprop(St m K (stageOf ⟨7, true, 3, 17, 0, 0, 0, 0, 0, 0, 0, 0⟩) c
        ∗ (∀ w₁, St m K (stageOf ⟨7, true, 3, 20, 0, 0, 0, 0, 0, 0, 0, 0⟩) c -∗ Q w₁))
      ⊢ wpB c (onBufs k0_part9 c v2 v230) Q := by
  rw [onBufs, k0_part9_eq_skeleton]; unfold k0_part9_skel wpB
  simp only [semSignalWord, semWaitWord, Prog.lift, Prog.bind_op, Prog.bind_ret, Prog.pure_eq_ret]
  iintro ⟨HSt, Hk⟩
  iapply (cstep_send1 m K c 2 3 (k0_off9_eq c 2) (k0_off8_eq c) (k0_off7_eq c) (dev_eq_25 c)) $$ HSt; iintro HSt
  iapply (cstep_send1 m K c 2 4 (k0_off9_eq c 4) (k0_off8_eq c) (k0_off7_eq c) (dev_eq_26 c)) $$ HSt; iintro HSt
  iapply (cstep_send1 m K c 2 5 (k0_off9_eq c 3) (k0_off8_eq c) (k0_off7_eq c) (dev_eq_27 c)) $$ HSt; iintro HSt
  iapply (le_wp_ret _ _)
  iapply Hk; iexact HSt

theorem part_10 (v2 : BitVec 32) (c1_i32_228 : BitVec 32) (Q : BitVec 32 → sProp 𝕄) :
    iprop(St m K (stageOf ⟨7, true, 3, 20, 0, 0, 0, 0, 0, 0, 0, 0⟩) c
        ∗ (∀ w₁, St m K (stageOf ⟨7, true, 4, 22, 0, 0, 0, 0, 0, 0, 0, 0⟩) c -∗ Q w₁))
      ⊢ wpB c (onBufs k0_part10 c v2 c1_i32_228) Q := by
  rw [onBufs, k0_part10_eq_skeleton]; unfold k0_part10_skel wpB
  simp only [semSignalWord, semWaitWord, Prog.lift, Prog.bind_op, Prog.bind_ret, Prog.pure_eq_ret]
  iintro ⟨HSt, Hk⟩
  iapply (cstep_send1 m K c 2 6 (k0_off9_eq c 1) (k0_off8_eq c) (k0_off7_eq c) (dev_eq_28 c)) $$ HSt; iintro HSt
  iapply (cstep_xLoad m K c) $$ HSt; iintro HSt
  iapply (cstep_xbLoadRaw m K c 3) $$ HSt; iintro %v HSt
  iapply (cstep_xbStore m K c 3 (xb_store_ok_3 m c)) $$ HSt; iintro HSt
  iapply (cstep_send1 m K c 3 0 (k0_off12_eq c 6) (k0_off11_eq c) (k0_off10_eq c) (dev_eq_29 c)) $$ HSt; iintro HSt
  iapply (le_wp_ret _ _)
  iapply Hk; iexact HSt

theorem part_11 (v2 : BitVec 32) (v291 : BitVec 32) (Q : PUnit → sProp 𝕄) :
    iprop(St m K (stageOf ⟨7, true, 4, 22, 0, 0, 0, 0, 0, 0, 0, 0⟩) c
        ∗ (St m K (stageOf ⟨7, true, 4, 25, 0, 0, 0, 0, 0, 0, 0, 0⟩) c -∗ Q ⟨⟩))
      ⊢ wpB c (onBufs k0_part11 c v2 v291) Q := by
  rw [onBufs, k0_part11_eq_skeleton]; unfold k0_part11_skel wpB
  simp only [semSignalWord, semWaitWord, Prog.lift, Prog.bind_op, Prog.bind_ret, Prog.pure_eq_ret]
  iintro ⟨HSt, Hk⟩
  iapply (cstep_send1 m K c 3 1 (k0_off12_eq c 7) (k0_off11_eq c) (k0_off10_eq c) (dev_eq_30 c)) $$ HSt; iintro HSt
  iapply (cstep_send1 m K c 3 2 (k0_off12_eq c 5) (k0_off11_eq c) (k0_off10_eq c) (dev_eq_31 c)) $$ HSt; iintro HSt
  iapply (cstep_send1 m K c 3 3 (k0_off12_eq c 2) (k0_off11_eq c) (k0_off10_eq c) (dev_eq_32 c)) $$ HSt; iintro HSt
  iapply (le_wp_ret _ _)
  iapply Hk; iexact HSt

theorem part_12 (v2 : BitVec 32) (Q : PUnit → sProp 𝕄) :
    iprop(St m K (stageOf ⟨7, true, 4, 25, 0, 0, 0, 0, 0, 0, 0, 0⟩) c
        ∗ (St m K (stageOf ⟨7, true, 4, 27, 0, 0, 0, 0, 0, 0, 0, 0⟩) c -∗ Q ⟨⟩))
      ⊢ wpB c (onBufs k0_part12 c v2) Q := by
  rw [onBufs, k0_part12_eq_skeleton]; unfold k0_part12_skel wpB
  simp only [semSignalWord, semWaitWord, Prog.lift, Prog.bind_op, Prog.bind_ret, Prog.pure_eq_ret]
  iintro ⟨HSt, Hk⟩
  iapply (cstep_send1 m K c 3 4 (k0_off12_eq c 4) (k0_off11_eq c) (k0_off10_eq c) (dev_eq_33 c)) $$ HSt; iintro HSt
  iapply (cstep_send1 m K c 3 5 (k0_off12_eq c 3) (k0_off11_eq c) (k0_off10_eq c) (dev_eq_34 c)) $$ HSt; iintro HSt
  iapply (le_wp_ret _ _)
  iapply Hk; iexact HSt

end Cert.KernelIdeal.AR

end
-- ==== Proof.KernelIdealAR.Parts_13_24.lean ====
import proofs.«900697_g7700000000000698_dist_ar_v7x_i8_i_m512_n512_f32_1_alg».proof.Proof.KernelIdealAR.CSteps
import proofs.«900697_g7700000000000698_dist_ar_v7x_i8_i_m512_n512_f32_1_alg».proof.Proof.KernelIdealAR.PartsPre
import proofs.«900697_g7700000000000698_dist_ar_v7x_i8_i_m512_n512_f32_1_alg».proof.Proof.KernelIdealAR.Chains
import proofs.«900697_g7700000000000698_dist_ar_v7x_i8_i_m512_n512_f32_1_alg».proof.Proof.Gen.KernelIdeal.Skeleton

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 13 to 24, slabs 0 and 1: the own row group plus the seven received slots in mask order 1, 3, 4, 2, 5, 7, 6; the sum is kept and sent to every partner. -/
theorem part_13 (v2 : BitVec 32) (Q : FVec F S64x128 .f32 → sProp 𝕄) :
    iprop(St m K (stageOf ⟨7, true, 4, 27, 0, 0, 0, 0, 0, 0, 0, 0⟩) c ∗ (St m K (stageOf ⟨7, true, 4, 28, 2, 0, 0, 0, 0, 0, 0, 0⟩) c -∗ Q (k0_pay6 (vxL m c 0) (vgL m c 0 1)))) ⊢ wpB c (onBufs k0_part13 c v2) Q := by
  rw [onBufs, k0_part13_eq_skeleton]; unfold k0_part13_skel wpB
  simp only [semSignalWord, semWaitWord, Prog.lift, Prog.bind_op, Prog.bind_ret, Prog.pure_eq_ret]
  iintro ⟨HSt, Hk⟩
  iapply (cstep_send1 m K c 3 6 (k0_off12_eq c 1) (k0_off11_eq c) (k0_off10_eq c) (dev_eq_35 c)) $$ HSt; iintro HSt
  iapply (cstep_xLoadOwn m K c 0 (k0_off13_eq c)) $$ HSt; iintro HSt
  iapply (cstep_recv1 m K c 0 0 (k0_off14_eq c 1)) $$ HSt; iintro HSt
  iapply (cstep_gLoad m K c 1 0 (k0_off16_eq c 1)) $$ HSt; iintro HSt
  iapply (cstep_recv1 m K c 0 1 (k0_off14_eq c 3)) $$ HSt; iintro HSt
  iapply (le_wp_ret _ _)
  iapply Hk; iexact HSt

theorem part_14 (v2 : BitVec 32) (v374 : FVec F S64x128 .f32) (Q : FVec F S64x128 .f32 → sProp 𝕄) :
    iprop(St m K (stageOf ⟨7, true, 4, 28, 2, 0, 0, 0, 0, 0, 0, 0⟩) c ∗ (St m K (stageOf ⟨7, true, 4, 28, 4, 0, 0, 0, 0, 0, 0, 0⟩) c -∗ Q (k0_pay7 v374 (vgL m c 0 3) (vgL m c 0 4) (vgL m c 0 2)))) ⊢ wpB c (onBufs k0_part14 c v2 v374) Q := by
  rw [onBufs, k0_part14_eq_skeleton]; unfold k0_part14_skel wpB
  simp only [semSignalWord, semWaitWord, Prog.lift, Prog.bind_op, Prog.bind_ret, Prog.pure_eq_ret]
  iintro ⟨HSt, Hk⟩
  iapply (cstep_gLoad m K c 3 0 (k0_off16_eq c 3)) $$ HSt; iintro HSt
  iapply (cstep_recv1 m K c 0 2 (k0_off14_eq c 4)) $$ HSt; iintro HSt
  iapply (cstep_gLoad m K c 4 0 (k0_off16_eq c 4)) $$ HSt; iintro HSt
  iapply (cstep_recv1 m K c 0 3 (k0_off14_eq c 2)) $$ HSt; iintro HSt
  iapply (cstep_gLoad m K c 2 0 (k0_off16_eq c 2)) $$ HSt; iintro HSt
  iapply (le_wp_ret _ _)
  iapply Hk; iexact HSt

theorem part_15 (v2 : BitVec 32) (v416 : FVec F S64x128 .f32) (Q : (Σ' (v444 : FVec F S64x128 .f32) (v445 : BitVec 32), BitVec 32) → sProp 𝕄) :
    iprop(St m K (stageOf ⟨7, true, 4, 28, 4, 0, 0, 0, 0, 0, 0, 0⟩) c ∗ (∀ w₁ w₂, St m K (stageOf ⟨7, true, 4, 28, 6, 0, 0, 0, 0, 0, 0, 0⟩) c -∗ Q ⟨k0_pay8 v416 (vgL m c 0 5) (vgL m c 0 7), w₁, w₂⟩)) ⊢ wpB c (onBufs k0_part15 c v2 v416) Q := by
  rw [onBufs, k0_part15_eq_skeleton]; unfold k0_part15_skel wpB
  simp only [semSignalWord, semWaitWord, Prog.lift, Prog.bind_op, Prog.bind_ret, Prog.pure_eq_ret]
  iintro ⟨HSt, Hk⟩
  iapply (cstep_recv1 m K c 0 4 (k0_off14_eq c 5)) $$ HSt; iintro HSt
  iapply (cstep_gLoad m K c 5 0 (k0_off16_eq c 5)) $$ HSt; iintro HSt
  iapply (cstep_recv1 m K c 0 5 (k0_off14_eq c 7)) $$ HSt; iintro HSt
  iapply (cstep_gLoad m K c 7 0 (k0_off16_eq c 7)) $$ HSt; iintro HSt
  iapply (le_wp_ret _ _)
  iapply Hk; iexact HSt

theorem part_16 (v2 : BitVec 32) (v444 : FVec F S64x128 .f32) (v445 : BitVec 32) (c1_i32_388 : BitVec 32)
    (ho : k0_pay9 v444 (vgL m c 0 6) = fun i => accOf (X m) c (ixg c (i 0) ⟨128 * (0 : Fin 4).val + (i 1).val, col_lt 0 (i 1)⟩))
    (hb : k0_pay10 v444 (vgL m c 0 6) = fun i => narrow (accOf (X m) c (ixg c (i 0) ⟨128 * (0 : Fin 4).val + (i 1).val, col_lt 0 (i 1)⟩)))
    (Q : BitVec 32 → sProp 𝕄) :
    iprop(St m K (stageOf ⟨7, true, 4, 28, 6, 0, 0, 0, 0, 0, 0, 0⟩) c ∗ (∀ w₁, St m K (stageOf ⟨7, true, 4, 28, 7, 1, 1, 1, 0, 0, 0, 0⟩) c -∗ Q w₁)) ⊢ wpB c (onBufs k0_part16 c v2 v444 v445 c1_i32_388) Q := by
  rw [onBufs, k0_part16_eq_skeleton]; unfold k0_part16_skel wpB
  simp only [semSignalWord, semWaitWord, Prog.lift, Prog.bind_op, Prog.bind_ret, Prog.pure_eq_ret]
  iintro ⟨HSt, Hk⟩
  iapply (cstep_recv1 m K c 0 6 (k0_off14_eq c 6)) $$ HSt; iintro HSt
  iapply (cstep_gLoad m K c 6 0 (k0_off16_eq c 6)) $$ HSt; iintro HSt
  iapply (cstep_outLoad m K c) $$ HSt; iintro %vo HSt
  iapply (cstep_outOwn m K c 0 (k0_off13_eq c) (by rw [ho]; exact out_own_ok m c 0)) $$ HSt; iintro HSt
  iapply (cstep_aLoadRaw m K c 0) $$ HSt; iintro %va HSt
  iapply (cstep_aStore m K c 0 (by rw [hb]; exact ab_store_ok m c 0)) $$ HSt; iintro HSt
  iapply (cstep_send2 m K c 0 0 (k0_off2_eq c) (k0_off1_eq c) (dev_eq_36 c)) $$ HSt; iintro HSt
  iapply (le_wp_ret _ _)
  iapply Hk; iexact HSt

theorem part_17 (v2 : BitVec 32) (v476 : BitVec 32) (Q : BitVec 32 → sProp 𝕄) :
    iprop(St m K (stageOf ⟨7, true, 4, 28, 7, 1, 1, 1, 0, 0, 0, 0⟩) c ∗ (∀ w₁, St m K (stageOf ⟨7, true, 4, 28, 7, 1, 1, 4, 0, 0, 0, 0⟩) c -∗ Q w₁)) ⊢ wpB c (onBufs k0_part17 c v2 v476) Q := by
  rw [onBufs, k0_part17_eq_skeleton]; unfold k0_part17_skel wpB
  simp only [semSignalWord, semWaitWord, Prog.lift, Prog.bind_op, Prog.bind_ret, Prog.pure_eq_ret]
  iintro ⟨HSt, Hk⟩
  iapply (cstep_send2 m K c 0 1 (k0_off2_eq c) (k0_off1_eq c) (dev_eq_37 c)) $$ HSt; iintro HSt
  iapply (cstep_send2 m K c 0 2 (k0_off2_eq c) (k0_off1_eq c) (dev_eq_38 c)) $$ HSt; iintro HSt
  iapply (cstep_send2 m K c 0 3 (k0_off2_eq c) (k0_off1_eq c) (dev_eq_39 c)) $$ HSt; iintro HSt
  iapply (le_wp_ret _ _)
  iapply Hk; iexact HSt

theorem part_18 (v2 : BitVec 32) (v506 : BitVec 32) (Q : PUnit → sProp 𝕄) :
    iprop(St m K (stageOf ⟨7, true, 4, 28, 7, 1, 1, 4, 0, 0, 0, 0⟩) c ∗ (St m K (stageOf ⟨7, true, 4, 28, 7, 1, 1, 6, 0, 0, 0, 0⟩) c -∗ Q ⟨⟩)) ⊢ wpB c (onBufs k0_part18 c v2 v506) Q := by
  rw [onBufs, k0_part18_eq_skeleton]; unfold k0_part18_skel wpB
  simp only [semSignalWord, semWaitWord, Prog.lift, Prog.bind_op, Prog.bind_ret, Prog.pure_eq_ret]
  iintro ⟨HSt, Hk⟩
  iapply (cstep_send2 m K c 0 4 (k0_off2_eq c) (k0_off1_eq c) (dev_eq_40 c)) $$ HSt; iintro HSt
  iapply (cstep_send2 m K c 0 5 (k0_off2_eq c) (k0_off1_eq c) (dev_eq_41 c)) $$ HSt; iintro HSt
  iapply (le_wp_ret _ _)
  iapply Hk; iexact HSt

theorem part_19 (v2 : BitVec 32) (Q : (Σ' (v553 : FVec F S64x128 .f32), FVec F S64x128 .f32) → sProp 𝕄) :
    iprop(St m K (stageOf ⟨7, true, 4, 28, 7, 1, 1, 6, 0, 0, 0, 0⟩) c ∗ (St m K (stageOf ⟨7, true, 4, 28, 9, 1, 1, 7, 0, 0, 0, 0⟩) c -∗ Q ⟨k0_pay11 (vxL m c 1) (vgL m c 1 1), k0_pay12 (vgL m c 1 3)⟩)) ⊢ wpB c (onBufs k0_part19 c v2) Q := by
  rw [onBufs, k0_part19_eq_skeleton]; unfold k0_part19_skel wpB
  simp only [semSignalWord, semWaitWord, Prog.lift, Prog.bind_op, Prog.bind_ret, Prog.pure_eq_ret]
  iintro ⟨HSt, Hk⟩
  iapply (cstep_send2 m K c 0 6 (k0_off2_eq c) (k0_off1_eq c) (dev_eq_42 c)) $$ HSt; iintro HSt
  iapply (cstep_xLoadOwn m K c 1 (k0_off17_eq c)) $$ HSt; iintro HSt
  iapply (cstep_recv1 m K c 1 0 (k0_off18_eq c 1)) $$ HSt; iintro HSt
  iapply (cstep_gLoad m K c 1 1 (k0_off20_eq c 1)) $$ HSt; iintro HSt
  iapply (cstep_recv1 m K c 1 1 (k0_off18_eq c 3)) $$ HSt; iintro HSt
  iapply (cstep_gLoad m K c 3 1 (k0_off20_eq c 3)) $$ HSt; iintro HSt
  iapply (le_wp_ret _ _)
  iapply Hk; iexact HSt

theorem part_20 (v2 : BitVec 32) (v553 : FVec F S64x128 .f32) (v566 : FVec F S64x128 .f32) (Q : (Σ' (v595 : FVec F S64x128 .f32), BitVec 32) → sProp 𝕄) :
    iprop(St m K (stageOf ⟨7, true, 4, 28, 9, 1, 1, 7, 0, 0, 0, 0⟩) c ∗ (∀ w₁, St m K (stageOf ⟨7, true, 4, 28, 11, 1, 1, 7, 0, 0, 0, 0⟩) c -∗ Q ⟨k0_pay13 v553 v566 (vgL m c 1 4) (vgL m c 1 2), w₁⟩)) ⊢ wpB c (onBufs k0_part20 c v2 v553 v566) Q := by
  rw [onBufs, k0_part20_eq_skeleton]; unfold k0_part20_skel wpB
  simp only [semSignalWord, semWaitWord, Prog.lift, Prog.bind_op, Prog.bind_ret, Prog.pure_eq_ret]
  iintro ⟨HSt, Hk⟩
  iapply (cstep_recv1 m K c 1 2 (k0_off18_eq c 4)) $$ HSt; iintro HSt
  iapply (cstep_gLoad m K c 4 1 (k0_off20_eq c 4)) $$ HSt; iintro HSt
  iapply (cstep_recv1 m K c 1 3 (k0_off18_eq c 2)) $$ HSt; iintro HSt
  iapply (cstep_gLoad m K c 2 1 (k0_off20_eq c 2)) $$ HSt; iintro HSt
  iapply (le_wp_ret _ _)
  iapply Hk; iexact HSt

theorem part_21 (v2 : BitVec 32) (v595 : FVec F S64x128 .f32) (v596 : BitVec 32) (Q : (Σ' (v623 : FVec F S64x128 .f32), BitVec 32) → sProp 𝕄) :
    iprop(St m K (stageOf ⟨7, true, 4, 28, 11, 1, 1, 7, 0, 0, 0, 0⟩) c ∗ (∀ w₁, St m K (stageOf ⟨7, true, 4, 28, 13, 1, 1, 7, 0, 0, 0, 0⟩) c -∗ Q ⟨k0_pay14 v595 (vgL m c 1 5) (vgL m c 1 7), w₁⟩)) ⊢ wpB c (onBufs k0_part21 c v2 v595 v596) Q := by
  rw [onBufs, k0_part21_eq_skeleton]; unfold k0_part21_skel wpB
  simp only [semSignalWord, semWaitWord, Prog.lift, Prog.bind_op, Prog.bind_ret, Prog.pure_eq_ret]
  iintro ⟨HSt, Hk⟩
  iapply (cstep_recv1 m K c 1 4 (k0_off18_eq c 5)) $$ HSt; iintro HSt
  iapply (cstep_gLoad m K c 5 1 (k0_off20_eq c 5)) $$ HSt; iintro HSt
  iapply (cstep_recv1 m K c 1 5 (k0_off18_eq c 7)) $$ HSt; iintro HSt
  iapply (cstep_gLoad m K c 7 1 (k0_off20_eq c 7)) $$ HSt; iintro HSt
  iapply (le_wp_ret _ _)
  iapply Hk; iexact HSt

theorem part_22 (v2 : BitVec 32) (v623 : FVec F S64x128 .f32) (v624 : BitVec 32)
    (ho : k0_pay15 v623 (vgL m c 1 6) = fun i => accOf (X m) c (ixg c (i 0) ⟨128 * (1 : Fin 4).val + (i 1).val, col_lt 1 (i 1)⟩))
    (hb : k0_pay16 v623 (vgL m c 1 6) = fun i => narrow (accOf (X m) c (ixg c (i 0) ⟨128 * (1 : Fin 4).val + (i 1).val, col_lt 1 (i 1)⟩)))
    (Q : PUnit → sProp 𝕄) :
    iprop(St m K (stageOf ⟨7, true, 4, 28, 13, 1, 1, 7, 0, 0, 0, 0⟩) c ∗ (St m K (stageOf ⟨7, true, 4, 28, 14, 2, 2, 8, 0, 0, 0, 0⟩) c -∗ Q ⟨⟩)) ⊢ wpB c (onBufs k0_part22 c v2 v623 v624) Q := by
  rw [onBufs, k0_part22_eq_skeleton]; unfold k0_part22_skel wpB
  simp only [semSignalWord, semWaitWord, Prog.lift, Prog.bind_op, Prog.bind_ret, Prog.pure_eq_ret]
  iintro ⟨HSt, Hk⟩
  iapply (cstep_recv1 m K c 1 6 (k0_off18_eq c 6)) $$ HSt; iintro HSt
  iapply (cstep_gLoad m K c 6 1 (k0_off20_eq c 6)) $$ HSt; iintro HSt
  iapply (cstep_outLoad m K c) $$ HSt; iintro %vo HSt
  iapply (cstep_outOwn m K c 1 (k0_off17_eq c) (by rw [ho]; exact out_own_ok m c 1)) $$ HSt; iintro HSt
  iapply (cstep_aLoadRaw m K c 1) $$ HSt; iintro %va HSt
  iapply (cstep_aStore m K c 1 (by rw [hb]; exact ab_store_ok m c 1)) $$ HSt; iintro HSt
  iapply (cstep_send2 m K c 1 0 (k0_off5_eq c) (k0_off4_eq c) (dev_eq_43 c)) $$ HSt; iintro HSt
  iapply (le_wp_ret _ _)
  iapply Hk; iexact HSt

theorem part_23 (v2 : BitVec 32) (Q : BitVec 32 → sProp 𝕄) :
    iprop(St m K (stageOf ⟨7, true, 4, 28, 14, 2, 2, 8, 0, 0, 0, 0⟩) c ∗ (∀ w₁, St m K (stageOf ⟨7, true, 4, 28, 14, 2, 2, 11, 0, 0, 0, 0⟩) c -∗ Q w₁)) ⊢ wpB c (onBufs k0_part23 c v2) Q := by
  rw [onBufs, k0_part23_eq_skeleton]; unfold k0_part23_skel wpB
  simp only [semSignalWord, semWaitWord, Prog.lift, Prog.bind_op, Prog.bind_ret, Prog.pure_eq_ret]
  iintro ⟨HSt, Hk⟩
  iapply (cstep_send2 m K c 1 1 (k0_off5_eq c) (k0_off4_eq c) (dev_eq_44 c)) $$ HSt; iintro HSt
  iapply (cstep_send2 m K c 1 2 (k0_off5_eq c) (k0_off4_eq c) (dev_eq_45 c)) $$ HSt; iintro HSt
  iapply (cstep_send2 m K c 1 3 (k0_off5_eq c) (k0_off4_eq c) (dev_eq_46 c)) $$ HSt; iintro HSt
  iapply (le_wp_ret _ _)
  iapply Hk; iexact HSt

theorem part_24 (v2 : BitVec 32) (v686 : BitVec 32) (Q : PUnit → sProp 𝕄) :
    iprop(St m K (stageOf ⟨7, true, 4, 28, 14, 2, 2, 11, 0, 0, 0, 0⟩) c ∗ (St m K (stageOf ⟨7, true, 4, 28, 14, 2, 2, 14, 0, 0, 0, 0⟩) c -∗ Q ⟨⟩)) ⊢ wpB c (onBufs k0_part24 c v2 v686) Q := by
  rw [onBufs, k0_part24_eq_skeleton]; unfold k0_part24_skel wpB
  simp only [semSignalWord, semWaitWord, Prog.lift, Prog.bind_op, Prog.bind_ret, Prog.pure_eq_ret]
  iintro ⟨HSt, Hk⟩
  iapply (cstep_send2 m K c 1 4 (k0_off5_eq c) (k0_off4_eq c) (dev_eq_47 c)) $$ HSt; iintro HSt
  iapply (cstep_send2 m K c 1 5 (k0_off5_eq c) (k0_off4_eq c) (dev_eq_48 c)) $$ HSt; iintro HSt
  iapply (cstep_send2 m K c 1 6 (k0_off5_eq c) (k0_off4_eq c) (dev_eq_49 c)) $$ HSt; iintro HSt
  iapply (le_wp_ret _ _)
  iapply Hk; iexact HSt

end Cert.KernelIdeal.AR

end
-- ==== Proof.KernelIdealAR.Parts_25_36.lean ====
import proofs.«900697_g7700000000000698_dist_ar_v7x_i8_i_m512_n512_f32_1_alg».proof.Proof.KernelIdealAR.CSteps
import proofs.«900697_g7700000000000698_dist_ar_v7x_i8_i_m512_n512_f32_1_alg».proof.Proof.KernelIdealAR.PartsPre
import proofs.«900697_g7700000000000698_dist_ar_v7x_i8_i_m512_n512_f32_1_alg».proof.Proof.KernelIdealAR.Chains
import proofs.«900697_g7700000000000698_dist_ar_v7x_i8_i_m512_n512_f32_1_alg».proof.Proof.Gen.KernelIdeal.Skeleton

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 25 to 36, slabs 2 and 3 of the same reduction. -/
theorem part_25 (v2 : BitVec 32) (Q : (Σ' (v746 : FVec F S64x128 .f32), BitVec 32) → sProp 𝕄) :
    iprop(St m K (stageOf ⟨7, true, 4, 28, 14, 2, 2, 14, 0, 0, 0, 0⟩) c ∗ (∀ w₁, St m K (stageOf ⟨7, true, 4, 28, 16, 2, 2, 14, 0, 0, 0, 0⟩) c -∗ Q ⟨k0_pay17 (vxL m c 2) (vgL m c 2 1) (vgL m c 2 3), w₁⟩))
      ⊢ wpB c (onBufs k0_part25 c v2) Q := by
  rw [onBufs, k0_part25_eq_skeleton]; unfold k0_part25_skel wpB
  simp only [semSignalWord, semWaitWord, Prog.lift, Prog.bind_op, Prog.bind_ret, Prog.pure_eq_ret]
  iintro ⟨HSt, Hk⟩
  iapply (cstep_xLoadOwn m K c 2 (k0_off21_eq c)) $$ HSt; iintro HSt
  iapply (cstep_recv1 m K c 2 0 (k0_off22_eq c 1)) $$ HSt; iintro HSt
  iapply (cstep_gLoad m K c 1 2 (k0_off24_eq c 1)) $$ HSt; iintro HSt
  iapply (cstep_recv1 m K c 2 1 (k0_off22_eq c 3)) $$ HSt; iintro HSt
  iapply (cstep_gLoad m K c 3 2 (k0_off24_eq c 3)) $$ HSt; iintro HSt
  iapply (le_wp_ret _ _)
  iapply Hk; iexact HSt

theorem part_26 (v2 : BitVec 32) (v746 : FVec F S64x128 .f32) (v747 : BitVec 32) (Q : (Σ' (v774 : FVec F S64x128 .f32), BitVec 32) → sProp 𝕄) :
    iprop(St m K (stageOf ⟨7, true, 4, 28, 16, 2, 2, 14, 0, 0, 0, 0⟩) c ∗ (∀ w₁, St m K (stageOf ⟨7, true, 4, 28, 18, 2, 2, 14, 0, 0, 0, 0⟩) c -∗ Q ⟨k0_pay18 v746 (vgL m c 2 4) (vgL m c 2 2), w₁⟩))
      ⊢ wpB c (onBufs k0_part26 c v2 v746 v747) Q := by
  rw [onBufs, k0_part26_eq_skeleton]; unfold k0_part26_skel wpB
  simp only [semSignalWord, semWaitWord, Prog.lift, Prog.bind_op, Prog.bind_ret, Prog.pure_eq_ret]
  iintro ⟨HSt, Hk⟩
  iapply (cstep_recv1 m K c 2 2 (k0_off22_eq c 4)) $$ HSt; iintro HSt
  iapply (cstep_gLoad m K c 4 2 (k0_off24_eq c 4)) $$ HSt; iintro HSt
  iapply (cstep_recv1 m K c 2 3 (k0_off22_eq c 2)) $$ HSt; iintro HSt
  iapply (cstep_gLoad m K c 2 2 (k0_off24_eq c 2)) $$ HSt; iintro HSt
  iapply (le_wp_ret _ _)
  iapply Hk; iexact HSt

theorem part_27 (v2 : BitVec 32) (v774 : FVec F S64x128 .f32) (v775 : BitVec 32) (Q : (Σ' (v802 : FVec F S64x128 .f32), BitVec 32) → sProp 𝕄) :
    iprop(St m K (stageOf ⟨7, true, 4, 28, 18, 2, 2, 14, 0, 0, 0, 0⟩) c ∗ (∀ w₁, St m K (stageOf ⟨7, true, 4, 28, 20, 2, 2, 14, 0, 0, 0, 0⟩) c -∗ Q ⟨k0_pay19 v774 (vgL m c 2 5) (vgL m c 2 7), w₁⟩))
      ⊢ wpB c (onBufs k0_part27 c v2 v774 v775) Q := by
  rw [onBufs, k0_part27_eq_skeleton]; unfold k0_part27_skel wpB
  simp only [semSignalWord, semWaitWord, Prog.lift, Prog.bind_op, Prog.bind_ret, Prog.pure_eq_ret]
  iintro ⟨HSt, Hk⟩
  iapply (cstep_recv1 m K c 2 4 (k0_off22_eq c 5)) $$ HSt; iintro HSt
  iapply (cstep_gLoad m K c 5 2 (k0_off24_eq c 5)) $$ HSt; iintro HSt
  iapply (cstep_recv1 m K c 2 5 (k0_off22_eq c 7)) $$ HSt; iintro HSt
  iapply (cstep_gLoad m K c 7 2 (k0_off24_eq c 7)) $$ HSt; iintro HSt
  iapply (le_wp_ret _ _)
  iapply Hk; iexact HSt

theorem part_28 (v2 : BitVec 32) (v802 : FVec F S64x128 .f32) (v803 : BitVec 32)
    (ho : k0_pay20 v802 (vgL m c 2 6) = fun i => accOf (X m) c (ixg c (i 0) ⟨128 * (2 : Fin 4).val + (i 1).val, col_lt 2 (i 1)⟩))
    (hb : k0_pay21 v802 (vgL m c 2 6) = fun i => narrow (accOf (X m) c (ixg c (i 0) ⟨128 * (2 : Fin 4).val + (i 1).val, col_lt 2 (i 1)⟩)))
    (Q : PUnit → sProp 𝕄) :
    iprop(St m K (stageOf ⟨7, true, 4, 28, 20, 2, 2, 14, 0, 0, 0, 0⟩) c ∗ (St m K (stageOf ⟨7, true, 4, 28, 21, 3, 3, 15, 0, 0, 0, 0⟩) c -∗ Q ⟨⟩))
      ⊢ wpB c (onBufs k0_part28 c v2 v802 v803) Q := by
  have hwo : ∀ f, ∀ i ∈ (outM.access (rOwn c 2)).set,
      ((outM.access (rOwn c 2)).write (Elt F) f (k0_pay20 v802 (vgL m c 2 6)) Finset.univ) i = outAt (X m) c i := by
    rw [ho]; exact out_own_ok m c 2
  have hwa : ∀ f, ∀ i ∈ (aM.access (rA 2)).set,
      ((aM.access (rA 2)).write (Elt F) f (k0_pay21 v802 (vgL m c 2 6)) Finset.univ) i = AB m c i := by
    rw [hb]; exact ab_store_ok m c 2
  rw [onBufs, k0_part28_eq_skeleton]; unfold k0_part28_skel wpB
  simp only [semSignalWord, semWaitWord, Prog.lift, Prog.bind_op, Prog.bind_ret, Prog.pure_eq_ret]
  iintro ⟨HSt, Hk⟩
  iapply (cstep_recv1 m K c 2 6 (k0_off22_eq c 6)) $$ HSt; iintro HSt
  iapply (cstep_gLoad m K c 6 2 (k0_off24_eq c 6)) $$ HSt; iintro HSt
  iapply (cstep_outLoad m K c) $$ HSt; iintro %vo HSt
  iapply (cstep_outOwn m K c 2 (k0_off21_eq c) hwo) $$ HSt; iintro HSt
  iapply (cstep_aLoadRaw m K c 2) $$ HSt; iintro %va HSt
  iapply (cstep_aStore m K c 2 hwa) $$ HSt; iintro HSt
  iapply (cstep_send2 m K c 2 0 (k0_off8_eq c) (k0_off7_eq c) (dev_eq_50 c)) $$ HSt; iintro HSt
  iapply (le_wp_ret _ _)
  iapply Hk; iexact HSt

theorem part_29 (v2 : BitVec 32) (Q : PUnit → sProp 𝕄) :
    iprop(St m K (stageOf ⟨7, true, 4, 28, 21, 3, 3, 15, 0, 0, 0, 0⟩) c ∗ (St m K (stageOf ⟨7, true, 4, 28, 21, 3, 3, 18, 0, 0, 0, 0⟩) c -∗ Q ⟨⟩))
      ⊢ wpB c (onBufs k0_part29 c v2) Q := by
  rw [onBufs, k0_part29_eq_skeleton]; unfold k0_part29_skel wpB
  simp only [semSignalWord, semWaitWord, Prog.lift, Prog.bind_op, Prog.bind_ret, Prog.pure_eq_ret]
  iintro ⟨HSt, Hk⟩
  iapply (cstep_send2 m K c 2 1 (k0_off8_eq c) (k0_off7_eq c) (dev_eq_51 c)) $$ HSt; iintro HSt
  iapply (cstep_send2 m K c 2 2 (k0_off8_eq c) (k0_off7_eq c) (dev_eq_52 c)) $$ HSt; iintro HSt
  iapply (cstep_send2 m K c 2 3 (k0_off8_eq c) (k0_off7_eq c) (dev_eq_53 c)) $$ HSt; iintro HSt
  iapply (le_wp_ret _ _)
  iapply Hk; iexact HSt

theorem part_30 (v2 : BitVec 32) (Q : (Σ' (v897 : FVec F S64x128 .f32), BitVec 32) → sProp 𝕄) :
    iprop(St m K (stageOf ⟨7, true, 4, 28, 21, 3, 3, 18, 0, 0, 0, 0⟩) c ∗ (∀ w₁, St m K (stageOf ⟨7, true, 4, 28, 21, 3, 3, 21, 0, 0, 0, 0⟩) c -∗ Q ⟨k0_pay22 (vxL m c 3), w₁⟩))
      ⊢ wpB c (onBufs k0_part30 c v2) Q := by
  rw [onBufs, k0_part30_eq_skeleton]; unfold k0_part30_skel wpB
  simp only [semSignalWord, semWaitWord, Prog.lift, Prog.bind_op, Prog.bind_ret, Prog.pure_eq_ret]
  iintro ⟨HSt, Hk⟩
  iapply (cstep_send2 m K c 2 4 (k0_off8_eq c) (k0_off7_eq c) (dev_eq_54 c)) $$ HSt; iintro HSt
  iapply (cstep_send2 m K c 2 5 (k0_off8_eq c) (k0_off7_eq c) (dev_eq_55 c)) $$ HSt; iintro HSt
  iapply (cstep_send2 m K c 2 6 (k0_off8_eq c) (k0_off7_eq c) (dev_eq_56 c)) $$ HSt; iintro HSt
  iapply (cstep_xLoadOwn m K c 3 (k0_off25_eq c)) $$ HSt; iintro HSt
  iapply (le_wp_ret _ _)
  iapply Hk; iexact HSt

theorem part_31 (v2 : BitVec 32) (v897 : FVec F S64x128 .f32) (v898 : BitVec 32) (Q : (Σ' (v925 : FVec F S64x128 .f32), BitVec 32) → sProp 𝕄) :
    iprop(St m K (stageOf ⟨7, true, 4, 28, 21, 3, 3, 21, 0, 0, 0, 0⟩) c ∗ (∀ w₁, St m K (stageOf ⟨7, true, 4, 28, 23, 3, 3, 21, 0, 0, 0, 0⟩) c -∗ Q ⟨k0_pay23 v897 (vgL m c 3 1) (vgL m c 3 3), w₁⟩))
      ⊢ wpB c (onBufs k0_part31 c v2 v897 v898) Q := by
  rw [onBufs, k0_part31_eq_skeleton]; unfold k0_part31_skel wpB
  simp only [semSignalWord, semWaitWord, Prog.lift, Prog.bind_op, Prog.bind_ret, Prog.pure_eq_ret]
  iintro ⟨HSt, Hk⟩
  iapply (cstep_recv1 m K c 3 0 (k0_off26_eq c 1)) $$ HSt; iintro HSt
  iapply (cstep_gLoad m K c 1 3 (k0_off28_eq c 1)) $$ HSt; iintro HSt
  iapply (cstep_recv1 m K c 3 1 (k0_off26_eq c 3)) $$ HSt; iintro HSt
  iapply (cstep_gLoad m K c 3 3 (k0_off28_eq c 3)) $$ HSt; iintro HSt
  iapply (le_wp_ret _ _)
  iapply Hk; iexact HSt

theorem part_32 (v2 : BitVec 32) (v925 : FVec F S64x128 .f32) (v926 : BitVec 32) (Q : (Σ' (v953 : FVec F S64x128 .f32), BitVec 32) → sProp 𝕄) :
    iprop(St m K (stageOf ⟨7, true, 4, 28, 23, 3, 3, 21, 0, 0, 0, 0⟩) c ∗ (∀ w₁, St m K (stageOf ⟨7, true, 4, 28, 25, 3, 3, 21, 0, 0, 0, 0⟩) c -∗ Q ⟨k0_pay24 v925 (vgL m c 3 4) (vgL m c 3 2), w₁⟩))
      ⊢ wpB c (onBufs k0_part32 c v2 v925 v926) Q := by
  rw [onBufs, k0_part32_eq_skeleton]; unfold k0_part32_skel wpB
  simp only [semSignalWord, semWaitWord, Prog.lift, Prog.bind_op, Prog.bind_ret, Prog.pure_eq_ret]
  iintro ⟨HSt, Hk⟩
  iapply (cstep_recv1 m K c 3 2 (k0_off26_eq c 4)) $$ HSt; iintro HSt
  iapply (cstep_gLoad m K c 4 3 (k0_off28_eq c 4)) $$ HSt; iintro HSt
  iapply (cstep_recv1 m K c 3 3 (k0_off26_eq c 2)) $$ HSt; iintro HSt
  iapply (cstep_gLoad m K c 2 3 (k0_off28_eq c 2)) $$ HSt; iintro HSt
  iapply (le_wp_ret _ _)
  iapply Hk; iexact HSt

theorem part_33 (v2 : BitVec 32) (v953 : FVec F S64x128 .f32) (v954 : BitVec 32) (Q : FVec F S64x128 .f32 → sProp 𝕄) :
    iprop(St m K (stageOf ⟨7, true, 4, 28, 25, 3, 3, 21, 0, 0, 0, 0⟩) c ∗ (St m K (stageOf ⟨7, true, 4, 28, 28, 3, 3, 21, 0, 0, 0, 0⟩) c -∗ Q (k0_pay25 v953 (vgL m c 3 5) (vgL m c 3 7))))
      ⊢ wpB c (onBufs k0_part33 c v2 v953 v954) Q := by
  rw [onBufs, k0_part33_eq_skeleton]; unfold k0_part33_skel wpB
  simp only [semSignalWord, semWaitWord, Prog.lift, Prog.bind_op, Prog.bind_ret, Prog.pure_eq_ret]
  iintro ⟨HSt, Hk⟩
  iapply (cstep_recv1 m K c 3 4 (k0_off26_eq c 5)) $$ HSt; iintro HSt
  iapply (cstep_gLoad m K c 5 3 (k0_off28_eq c 5)) $$ HSt; iintro HSt
  iapply (cstep_recv1 m K c 3 5 (k0_off26_eq c 7)) $$ HSt; iintro HSt
  iapply (cstep_gLoad m K c 7 3 (k0_off28_eq c 7)) $$ HSt; iintro HSt
  iapply (cstep_recv1 m K c 3 6 (k0_off26_eq c 6)) $$ HSt; iintro HSt
  iapply (le_wp_ret _ _)
  iapply Hk; iexact HSt

theorem part_34 (v2 : BitVec 32) (v981 : FVec F S64x128 .f32)
    (ho : k0_pay26 v981 (vgL m c 3 6) = fun i => accOf (X m) c (ixg c (i 0) ⟨128 * (3 : Fin 4).val + (i 1).val, col_lt 3 (i 1)⟩))
    (hb : k0_pay27 v981 (vgL m c 3 6) = fun i => narrow (accOf (X m) c (ixg c (i 0) ⟨128 * (3 : Fin 4).val + (i 1).val, col_lt 3 (i 1)⟩)))
    (Q : PUnit → sProp 𝕄) :
    iprop(St m K (stageOf ⟨7, true, 4, 28, 28, 3, 3, 21, 0, 0, 0, 0⟩) c ∗ (St m K (stageOf ⟨7, true, 4, 28, 28, 4, 4, 22, 0, 0, 0, 0⟩) c -∗ Q ⟨⟩))
      ⊢ wpB c (onBufs k0_part34 c v2 v981) Q := by
  have hwo : ∀ f, ∀ i ∈ (outM.access (rOwn c 3)).set,
      ((outM.access (rOwn c 3)).write (Elt F) f (k0_pay26 v981 (vgL m c 3 6)) Finset.univ) i = outAt (X m) c i := by
    rw [ho]; exact out_own_ok m c 3
  have hwa : ∀ f, ∀ i ∈ (aM.access (rA 3)).set,
      ((aM.access (rA 3)).write (Elt F) f (k0_pay27 v981 (vgL m c 3 6)) Finset.univ) i = AB m c i := by
    rw [hb]; exact ab_store_ok m c 3
  rw [onBufs, k0_part34_eq_skeleton]; unfold k0_part34_skel wpB
  simp only [semSignalWord, semWaitWord, Prog.lift, Prog.bind_op, Prog.bind_ret, Prog.pure_eq_ret]
  iintro ⟨HSt, Hk⟩
  iapply (cstep_gLoad m K c 6 3 (k0_off28_eq c 6)) $$ HSt; iintro HSt
  iapply (cstep_outLoad m K c) $$ HSt; iintro %vo HSt
  iapply (cstep_outOwn m K c 3 (k0_off25_eq c) hwo) $$ HSt; iintro HSt
  iapply (cstep_aLoadRaw m K c 3) $$ HSt; iintro %va HSt
  iapply (cstep_aStore m K c 3 hwa) $$ HSt; iintro HSt
  iapply (cstep_send2 m K c 3 0 (k0_off11_eq c) (k0_off10_eq c) (dev_eq_57 c)) $$ HSt; iintro HSt
  iapply (le_wp_ret _ _)
  iapply Hk; iexact HSt

theorem part_35 (v2 : BitVec 32) (Q : PUnit → sProp 𝕄) :
    iprop(St m K (stageOf ⟨7, true, 4, 28, 28, 4, 4, 22, 0, 0, 0, 0⟩) c ∗ (St m K (stageOf ⟨7, true, 4, 28, 28, 4, 4, 25, 0, 0, 0, 0⟩) c -∗ Q ⟨⟩))
      ⊢ wpB c (onBufs k0_part35 c v2) Q := by
  rw [onBufs, k0_part35_eq_skeleton]; unfold k0_part35_skel wpB
  simp only [semSignalWord, semWaitWord, Prog.lift, Prog.bind_op, Prog.bind_ret, Prog.pure_eq_ret]
  iintro ⟨HSt, Hk⟩
  iapply (cstep_send2 m K c 3 1 (k0_off11_eq c) (k0_off10_eq c) (dev_eq_58 c)) $$ HSt; iintro HSt
  iapply (cstep_send2 m K c 3 2 (k0_off11_eq c) (k0_off10_eq c) (dev_eq_59 c)) $$ HSt; iintro HSt
  iapply (cstep_send2 m K c 3 3 (k0_off11_eq c) (k0_off10_eq c) (dev_eq_60 c)) $$ HSt; iintro HSt
  iapply (le_wp_ret _ _)
  iapply Hk; iexact HSt

theorem part_36 (v2 : BitVec 32) (Q : BitVec 32 → sProp 𝕄) :
    iprop(St m K (stageOf ⟨7, true, 4, 28, 28, 4, 4, 25, 0, 0, 0, 0⟩) c ∗ (∀ w₁, St m K (stageOf ⟨7, true, 4, 28, 28, 4, 4, 28, 0, 0, 0, 0⟩) c -∗ Q w₁))
      ⊢ wpB c (onBufs k0_part36 c v2) Q := by
  rw [onBufs, k0_part36_eq_skeleton]; unfold k0_part36_skel wpB
  simp only [semSignalWord, semWaitWord, Prog.lift, Prog.bind_op, Prog.bind_ret, Prog.pure_eq_ret]
  iintro ⟨HSt, Hk⟩
  iapply (cstep_send2 m K c 3 4 (k0_off11_eq c) (k0_off10_eq c) (dev_eq_61 c)) $$ HSt; iintro HSt
  iapply (cstep_send2 m K c 3 5 (k0_off11_eq c) (k0_off10_eq c) (dev_eq_62 c)) $$ HSt; iintro HSt
  iapply (cstep_send2 m K c 3 6 (k0_off11_eq c) (k0_off10_eq c) (dev_eq_63 c)) $$ HSt; iintro HSt
  iapply (le_wp_ret _ _)
  iapply Hk; iexact HSt

end Cert.KernelIdeal.AR

end
-- ==== Proof.KernelIdealAR.Parts_37_44.lean ====
import proofs.«900697_g7700000000000698_dist_ar_v7x_i8_i_m512_n512_f32_1_alg».proof.Proof.KernelIdealAR.CSteps
import proofs.«900697_g7700000000000698_dist_ar_v7x_i8_i_m512_n512_f32_1_alg».proof.Proof.KernelIdealAR.PartsPre
import proofs.«900697_g7700000000000698_dist_ar_v7x_i8_i_m512_n512_f32_1_alg».proof.Proof.KernelIdealAR.Chains
import proofs.«900697_g7700000000000698_dist_ar_v7x_i8_i_m512_n512_f32_1_alg».proof.Proof.Gen.KernelIdeal.Skeleton

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 37 to 44: each received sum is the sender's row group of the result, slabs 0 and 1. -/
theorem part_37 (v2 : BitVec 32) (v1073 : BitVec 32) (Q : BitVec 32 → sProp 𝕄) :
    iprop(St m K (stageOf ⟨7, true, 4, 28, 28, 4, 4, 28, 0, 0, 0, 0⟩) c ∗ (∀ w₁, St m K (stageOf ⟨7, true, 4, 28, 28, 4, 4, 28, 2, 2, 0, 0⟩) c -∗ Q w₁))
      ⊢ wpB c (onBufs k0_part37 c v2 v1073) Q := by
  rw [onBufs, k0_part37_eq_skeleton]
  unfold k0_part37_skel wpB
  simp only [Prog.lift, Prog.bind_op, Prog.bind_ret, Prog.pure_eq_ret]
  iintro ⟨HSt, Hk⟩
  iapply (cstep_recv2 m K c 0 0 (k0_off14_eq c 1)) $$ HSt
  iintro HSt
  iapply (cstep_oLoad m K c 1 0 (k0_off16_eq c 1)) $$ HSt
  iintro HSt
  iapply (cstep_outLoad m K c) $$ HSt
  iintro %old1 HSt
  iapply (cstep_outOther m K c 0 0 (k0_off29_eq c 1) (out_other_ok m c (px c 1) 0 (px_ne c 1 (by decide)))) $$ HSt
  iintro HSt
  iapply (cstep_recv2 m K c 0 1 (k0_off14_eq c 3)) $$ HSt
  iintro HSt
  iapply (cstep_oLoad m K c 3 0 (k0_off16_eq c 3)) $$ HSt
  iintro HSt
  iapply (cstep_outLoad m K c) $$ HSt
  iintro %old3 HSt
  iapply (cstep_outOther m K c 0 1 (k0_off29_eq c 3) (out_other_ok m c (px c 3) 0 (px_ne c 3 (by decide)))) $$ HSt
  iintro HSt
  iapply (le_wp_ret _ _)
  iapply Hk
  iexact HSt

theorem part_38 (v2 : BitVec 32) (v1105 : BitVec 32) (Q : (Σ' (v1137 : BitVec 32), BitVec 32) → sProp 𝕄) :
    iprop(St m K (stageOf ⟨7, true, 4, 28, 28, 4, 4, 28, 2, 2, 0, 0⟩) c ∗ (∀ w₁ w₂, St m K (stageOf ⟨7, true, 4, 28, 28, 4, 4, 28, 4, 4, 0, 0⟩) c -∗ Q ⟨w₁, w₂⟩))
      ⊢ wpB c (onBufs k0_part38 c v2 v1105) Q := by
  rw [onBufs, k0_part38_eq_skeleton]
  unfold k0_part38_skel wpB
  simp only [Prog.lift, Prog.bind_op, Prog.bind_ret, Prog.pure_eq_ret]
  iintro ⟨HSt, Hk⟩
  iapply (cstep_recv2 m K c 0 2 (k0_off14_eq c 4)) $$ HSt
  iintro HSt
  iapply (cstep_oLoad m K c 4 0 (k0_off16_eq c 4)) $$ HSt
  iintro HSt
  iapply (cstep_outLoad m K c) $$ HSt
  iintro %old4 HSt
  iapply (cstep_outOther m K c 0 2 (k0_off29_eq c 4) (out_other_ok m c (px c 4) 0 (px_ne c 4 (by decide)))) $$ HSt
  iintro HSt
  iapply (cstep_recv2 m K c 0 3 (k0_off14_eq c 2)) $$ HSt
  iintro HSt
  iapply (cstep_oLoad m K c 2 0 (k0_off16_eq c 2)) $$ HSt
  iintro HSt
  iapply (cstep_outLoad m K c) $$ HSt
  iintro %old2 HSt
  iapply (cstep_outOther m K c 0 3 (k0_off29_eq c 2) (out_other_ok m c (px c 2) 0 (px_ne c 2 (by decide)))) $$ HSt
  iintro HSt
  iapply (le_wp_ret _ _)
  iapply Hk
  iexact HSt

theorem part_39 (v2 : BitVec 32) (v1137 : BitVec 32) (c1_i32_1010 : BitVec 32) (Q : BitVec 32 → sProp 𝕄) :
    iprop(St m K (stageOf ⟨7, true, 4, 28, 28, 4, 4, 28, 4, 4, 0, 0⟩) c ∗ (∀ w₁, St m K (stageOf ⟨7, true, 4, 28, 28, 4, 4, 28, 6, 6, 0, 0⟩) c -∗ Q w₁))
      ⊢ wpB c (onBufs k0_part39 c v2 v1137 c1_i32_1010) Q := by
  rw [onBufs, k0_part39_eq_skeleton]
  unfold k0_part39_skel wpB
  simp only [Prog.lift, Prog.bind_op, Prog.bind_ret, Prog.pure_eq_ret]
  iintro ⟨HSt, Hk⟩
  iapply (cstep_recv2 m K c 0 4 (k0_off14_eq c 5)) $$ HSt
  iintro HSt
  iapply (cstep_oLoad m K c 5 0 (k0_off16_eq c 5)) $$ HSt
  iintro HSt
  iapply (cstep_outLoad m K c) $$ HSt
  iintro %old5 HSt
  iapply (cstep_outOther m K c 0 4 (k0_off29_eq c 5) (out_other_ok m c (px c 5) 0 (px_ne c 5 (by decide)))) $$ HSt
  iintro HSt
  iapply (cstep_recv2 m K c 0 5 (k0_off14_eq c 7)) $$ HSt
  iintro HSt
  iapply (cstep_oLoad m K c 7 0 (k0_off16_eq c 7)) $$ HSt
  iintro HSt
  iapply (cstep_outLoad m K c) $$ HSt
  iintro %old7 HSt
  iapply (cstep_outOther m K c 0 5 (k0_off29_eq c 7) (out_other_ok m c (px c 7) 0 (px_ne c 7 (by decide)))) $$ HSt
  iintro HSt
  iapply (le_wp_ret _ _)
  iapply Hk
  iexact HSt

theorem part_40 (v2 : BitVec 32) (v1169 : BitVec 32) (Q : FVec F S64x128 .f32 → sProp 𝕄) :
    iprop(St m K (stageOf ⟨7, true, 4, 28, 28, 4, 4, 28, 6, 6, 0, 0⟩) c ∗ (St m K (stageOf ⟨7, true, 4, 28, 28, 4, 4, 28, 8, 7, 0, 0⟩) c -∗ Q (k0_pay35 (voL m c 1 1))))
      ⊢ wpB c (onBufs k0_part40 c v2 v1169) Q := by
  rw [onBufs, k0_part40_eq_skeleton]
  unfold k0_part40_skel wpB
  simp only [Prog.lift, Prog.bind_op, Prog.bind_ret, Prog.pure_eq_ret]
  iintro ⟨HSt, Hk⟩
  iapply (cstep_recv2 m K c 0 6 (k0_off14_eq c 6)) $$ HSt
  iintro HSt
  iapply (cstep_oLoad m K c 6 0 (k0_off16_eq c 6)) $$ HSt
  iintro HSt
  iapply (cstep_outLoad m K c) $$ HSt
  iintro %old6 HSt
  iapply (cstep_outOther m K c 0 6 (k0_off29_eq c 6) (out_other_ok m c (px c 6) 0 (px_ne c 6 (by decide)))) $$ HSt
  iintro HSt
  iapply (cstep_recv2 m K c 1 0 (k0_off18_eq c 1)) $$ HSt
  iintro HSt
  iapply (cstep_oLoad m K c 1 1 (k0_off20_eq c 1)) $$ HSt
  iintro HSt
  iapply (le_wp_ret _ _)
  iapply Hk
  iexact HSt

theorem part_41 (v2 : BitVec 32) (v1197 : FVec F S64x128 .f32) (hv : v1197 = k0_pay35 (voL m c 1 1)) (Q : (Σ' (v1217 : BitVec 32), FVec F S64x128 .f32) → sProp 𝕄) :
    iprop(St m K (stageOf ⟨7, true, 4, 28, 28, 4, 4, 28, 8, 7, 0, 0⟩) c ∗ (∀ w₁, St m K (stageOf ⟨7, true, 4, 28, 28, 4, 4, 28, 10, 9, 0, 0⟩) c -∗ Q ⟨w₁, k0_pay37 (voL m c 1 4)⟩))
      ⊢ wpB c (onBufs k0_part41 c v2 v1197) Q := by
  subst hv
  rw [onBufs, k0_part41_eq_skeleton]
  unfold k0_part41_skel wpB
  simp only [Prog.lift, Prog.bind_op, Prog.bind_ret, Prog.pure_eq_ret]
  iintro ⟨HSt, Hk⟩
  iapply (cstep_outLoad m K c) $$ HSt
  iintro %old1 HSt
  iapply (cstep_outOther m K c 1 0 (k0_off30_eq c 1) (out_other_ok m c (px c 1) 1 (px_ne c 1 (by decide)))) $$ HSt
  iintro HSt
  iapply (cstep_recv2 m K c 1 1 (k0_off18_eq c 3)) $$ HSt
  iintro HSt
  iapply (cstep_oLoad m K c 3 1 (k0_off20_eq c 3)) $$ HSt
  iintro HSt
  iapply (cstep_outLoad m K c) $$ HSt
  iintro %old3 HSt
  iapply (cstep_outOther m K c 1 1 (k0_off30_eq c 3) (out_other_ok m c (px c 3) 1 (px_ne c 3 (by decide)))) $$ HSt
  iintro HSt
  iapply (cstep_recv2 m K c 1 2 (k0_off18_eq c 4)) $$ HSt
  iintro HSt
  iapply (cstep_oLoad m K c 4 1 (k0_off20_eq c 4)) $$ HSt
  iintro HSt
  iapply (le_wp_ret _ _)
  iapply Hk
  iexact HSt

theorem part_42 (v2 : BitVec 32) (v1217 : BitVec 32) (v1229 : FVec F S64x128 .f32) (hv : v1229 = k0_pay37 (voL m c 1 4)) (Q : BitVec 32 → sProp 𝕄) :
    iprop(St m K (stageOf ⟨7, true, 4, 28, 28, 4, 4, 28, 10, 9, 0, 0⟩) c ∗ (∀ w₁, St m K (stageOf ⟨7, true, 4, 28, 28, 4, 4, 28, 12, 11, 0, 0⟩) c -∗ Q w₁))
      ⊢ wpB c (onBufs k0_part42 c v2 v1217 v1229) Q := by
  subst hv
  rw [onBufs, k0_part42_eq_skeleton]
  unfold k0_part42_skel wpB
  simp only [Prog.lift, Prog.bind_op, Prog.bind_ret, Prog.pure_eq_ret]
  iintro ⟨HSt, Hk⟩
  iapply (cstep_outLoad m K c) $$ HSt
  iintro %old4 HSt
  iapply (cstep_outOther m K c 1 2 (k0_off30_eq c 4) (out_other_ok m c (px c 4) 1 (px_ne c 4 (by decide)))) $$ HSt
  iintro HSt
  iapply (cstep_recv2 m K c 1 3 (k0_off18_eq c 2)) $$ HSt
  iintro HSt
  iapply (cstep_oLoad m K c 2 1 (k0_off20_eq c 2)) $$ HSt
  iintro HSt
  iapply (cstep_outLoad m K c) $$ HSt
  iintro %old2 HSt
  iapply (cstep_outOther m K c 1 3 (k0_off30_eq c 2) (out_other_ok m c (px c 2) 1 (px_ne c 2 (by decide)))) $$ HSt
  iintro HSt
  iapply (cstep_recv2 m K c 1 4 (k0_off18_eq c 5)) $$ HSt
  iintro HSt
  iapply (le_wp_ret _ _)
  iapply Hk
  iexact HSt

theorem part_43 (v2 : BitVec 32) (v1249 : BitVec 32) (Q : BitVec 32 → sProp 𝕄) :
    iprop(St m K (stageOf ⟨7, true, 4, 28, 28, 4, 4, 28, 12, 11, 0, 0⟩) c ∗ (∀ w₁, St m K (stageOf ⟨7, true, 4, 28, 28, 4, 4, 28, 13, 13, 0, 0⟩) c -∗ Q w₁))
      ⊢ wpB c (onBufs k0_part43 c v2 v1249) Q := by
  rw [onBufs, k0_part43_eq_skeleton]
  unfold k0_part43_skel wpB
  simp only [Prog.lift, Prog.bind_op, Prog.bind_ret, Prog.pure_eq_ret]
  iintro ⟨HSt, Hk⟩
  iapply (cstep_oLoad m K c 5 1 (k0_off20_eq c 5)) $$ HSt
  iintro HSt
  iapply (cstep_outLoad m K c) $$ HSt
  iintro %old5 HSt
  iapply (cstep_outOther m K c 1 4 (k0_off30_eq c 5) (out_other_ok m c (px c 5) 1 (px_ne c 5 (by decide)))) $$ HSt
  iintro HSt
  iapply (cstep_recv2 m K c 1 5 (k0_off18_eq c 7)) $$ HSt
  iintro HSt
  iapply (cstep_oLoad m K c 7 1 (k0_off20_eq c 7)) $$ HSt
  iintro HSt
  iapply (cstep_outLoad m K c) $$ HSt
  iintro %old7 HSt
  iapply (cstep_outOther m K c 1 5 (k0_off30_eq c 7) (out_other_ok m c (px c 7) 1 (px_ne c 7 (by decide)))) $$ HSt
  iintro HSt
  iapply (le_wp_ret _ _)
  iapply Hk
  iexact HSt

theorem part_44 (v2 : BitVec 32) (v1281 : BitVec 32) (Q : BitVec 32 → sProp 𝕄) :
    iprop(St m K (stageOf ⟨7, true, 4, 28, 28, 4, 4, 28, 13, 13, 0, 0⟩) c ∗ (∀ w₁, St m K (stageOf ⟨7, true, 4, 28, 28, 4, 4, 28, 15, 15, 0, 0⟩) c -∗ Q w₁))
      ⊢ wpB c (onBufs k0_part44 c v2 v1281) Q := by
  rw [onBufs, k0_part44_eq_skeleton]
  unfold k0_part44_skel wpB
  simp only [Prog.lift, Prog.bind_op, Prog.bind_ret, Prog.pure_eq_ret]
  iintro ⟨HSt, Hk⟩
  iapply (cstep_recv2 m K c 1 6 (k0_off18_eq c 6)) $$ HSt
  iintro HSt
  iapply (cstep_oLoad m K c 6 1 (k0_off20_eq c 6)) $$ HSt
  iintro HSt
  iapply (cstep_outLoad m K c) $$ HSt
  iintro %old6 HSt
  iapply (cstep_outOther m K c 1 6 (k0_off30_eq c 6) (out_other_ok m c (px c 6) 1 (px_ne c 6 (by decide)))) $$ HSt
  iintro HSt
  iapply (cstep_recv2 m K c 2 0 (k0_off22_eq c 1)) $$ HSt
  iintro HSt
  iapply (cstep_oLoad m K c 1 2 (k0_off24_eq c 1)) $$ HSt
  iintro HSt
  iapply (cstep_outLoad m K c) $$ HSt
  iintro %old1 HSt
  iapply (cstep_outOther m K c 2 0 (k0_off31_eq c 1) (out_other_ok m c (px c 1) 2 (px_ne c 1 (by decide)))) $$ HSt
  iintro HSt
  iapply (le_wp_ret _ _)
  iapply Hk
  iexact HSt

end Cert.KernelIdeal.AR

end
-- ==== Proof.KernelIdealAR.Parts_45_51.lean ====
import proofs.«900697_g7700000000000698_dist_ar_v7x_i8_i_m512_n512_f32_1_alg».proof.Proof.KernelIdealAR.CSteps
import proofs.«900697_g7700000000000698_dist_ar_v7x_i8_i_m512_n512_f32_1_alg».proof.Proof.KernelIdealAR.PartsPre
import proofs.«900697_g7700000000000698_dist_ar_v7x_i8_i_m512_n512_f32_1_alg».proof.Proof.KernelIdealAR.Chains
import proofs.«900697_g7700000000000698_dist_ar_v7x_i8_i_m512_n512_f32_1_alg».proof.Proof.Gen.KernelIdeal.Skeleton

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 45 to 51: the same for slabs 2 and 3; the first send cell is waited at the end. -/
theorem part_45 (v2 : BitVec 32) (v1313 : BitVec 32) (Q : BitVec 32 → sProp 𝕄) :
    iprop(St m K (stageOf ⟨7, true, 4, 28, 28, 4, 4, 28, 15, 15, 0, 0⟩) c ∗ (∀ w₁, St m K (stageOf ⟨7, true, 4, 28, 28, 4, 4, 28, 17, 17, 0, 0⟩) c -∗ Q w₁)) ⊢ wpB c (onBufs k0_part45 c v2 v1313) Q := by
  rw [onBufs, k0_part45_eq_skeleton]; unfold k0_part45_skel wpB
  simp only [semSignalWord, semWaitWord, Prog.lift, Prog.bind_op, Prog.bind_ret, Prog.pure_eq_ret]
  iintro ⟨HSt, Hk⟩
  iapply (cstep_recv2 m K c 2 1 (k0_off22_eq c 3)) $$ HSt; iintro HSt
  iapply (cstep_oLoad m K c 3 2 (k0_off24_eq c 3)) $$ HSt; iintro HSt
  iapply (cstep_outLoad m K c) $$ HSt; iintro %u3 HSt
  iapply (cstep_outOther m K c 2 1 (k0_off31_eq c 3) (out_other_ok m c (px c 3) 2 (px_ne c 3 (by decide)))) $$ HSt; iintro HSt
  iapply (cstep_recv2 m K c 2 2 (k0_off22_eq c 4)) $$ HSt; iintro HSt
  iapply (cstep_oLoad m K c 4 2 (k0_off24_eq c 4)) $$ HSt; iintro HSt
  iapply (cstep_outLoad m K c) $$ HSt; iintro %u4 HSt
  iapply (cstep_outOther m K c 2 2 (k0_off31_eq c 4) (out_other_ok m c (px c 4) 2 (px_ne c 4 (by decide)))) $$ HSt; iintro HSt
  iapply (le_wp_ret _ _ _ _ _)
  iapply Hk; iexact HSt

theorem part_46 (v2 : BitVec 32) (v1345 : BitVec 32) (Q : (Σ' (v1377 : BitVec 32), BitVec 32) → sProp 𝕄) :
    iprop(St m K (stageOf ⟨7, true, 4, 28, 28, 4, 4, 28, 17, 17, 0, 0⟩) c ∗ (∀ w₁ w₂, St m K (stageOf ⟨7, true, 4, 28, 28, 4, 4, 28, 19, 19, 0, 0⟩) c -∗ Q ⟨w₁, w₂⟩)) ⊢ wpB c (onBufs k0_part46 c v2 v1345) Q := by
  rw [onBufs, k0_part46_eq_skeleton]; unfold k0_part46_skel wpB
  simp only [semSignalWord, semWaitWord, Prog.lift, Prog.bind_op, Prog.bind_ret, Prog.pure_eq_ret]
  iintro ⟨HSt, Hk⟩
  iapply (cstep_recv2 m K c 2 3 (k0_off22_eq c 2)) $$ HSt; iintro HSt
  iapply (cstep_oLoad m K c 2 2 (k0_off24_eq c 2)) $$ HSt; iintro HSt
  iapply (cstep_outLoad m K c) $$ HSt; iintro %u2 HSt
  iapply (cstep_outOther m K c 2 3 (k0_off31_eq c 2) (out_other_ok m c (px c 2) 2 (px_ne c 2 (by decide)))) $$ HSt; iintro HSt
  iapply (cstep_recv2 m K c 2 4 (k0_off22_eq c 5)) $$ HSt; iintro HSt
  iapply (cstep_oLoad m K c 5 2 (k0_off24_eq c 5)) $$ HSt; iintro HSt
  iapply (cstep_outLoad m K c) $$ HSt; iintro %u5 HSt
  iapply (cstep_outOther m K c 2 4 (k0_off31_eq c 5) (out_other_ok m c (px c 5) 2 (px_ne c 5 (by decide)))) $$ HSt; iintro HSt
  iapply (le_wp_ret _ _ _ _ _)
  iapply Hk; iexact HSt

theorem part_47 (v2 : BitVec 32) (v1377 : BitVec 32) (c1_i32_1220 : BitVec 32) (Q : BitVec 32 → sProp 𝕄) :
    iprop(St m K (stageOf ⟨7, true, 4, 28, 28, 4, 4, 28, 19, 19, 0, 0⟩) c ∗ (∀ w₁, St m K (stageOf ⟨7, true, 4, 28, 28, 4, 4, 28, 21, 21, 0, 0⟩) c -∗ Q w₁)) ⊢ wpB c (onBufs k0_part47 c v2 v1377 c1_i32_1220) Q := by
  rw [onBufs, k0_part47_eq_skeleton]; unfold k0_part47_skel wpB
  simp only [semSignalWord, semWaitWord, Prog.lift, Prog.bind_op, Prog.bind_ret, Prog.pure_eq_ret]
  iintro ⟨HSt, Hk⟩
  iapply (cstep_recv2 m K c 2 5 (k0_off22_eq c 7)) $$ HSt; iintro HSt
  iapply (cstep_oLoad m K c 7 2 (k0_off24_eq c 7)) $$ HSt; iintro HSt
  iapply (cstep_outLoad m K c) $$ HSt; iintro %u7 HSt
  iapply (cstep_outOther m K c 2 5 (k0_off31_eq c 7) (out_other_ok m c (px c 7) 2 (px_ne c 7 (by decide)))) $$ HSt; iintro HSt
  iapply (cstep_recv2 m K c 2 6 (k0_off22_eq c 6)) $$ HSt; iintro HSt
  iapply (cstep_oLoad m K c 6 2 (k0_off24_eq c 6)) $$ HSt; iintro HSt
  iapply (cstep_outLoad m K c) $$ HSt; iintro %u6 HSt
  iapply (cstep_outOther m K c 2 6 (k0_off31_eq c 6) (out_other_ok m c (px c 6) 2 (px_ne c 6 (by decide)))) $$ HSt; iintro HSt
  iapply (le_wp_ret _ _ _ _ _)
  iapply Hk; iexact HSt

theorem part_48 (v2 : BitVec 32) (v1409 : BitVec 32) (Q : FVec F S64x128 .f32 → sProp 𝕄) :
    iprop(St m K (stageOf ⟨7, true, 4, 28, 28, 4, 4, 28, 21, 21, 0, 0⟩) c ∗ (St m K (stageOf ⟨7, true, 4, 28, 28, 4, 4, 28, 23, 22, 0, 0⟩) c -∗ Q (k0_pay50 (voL m c 3 3)))) ⊢ wpB c (onBufs k0_part48 c v2 v1409) Q := by
  rw [onBufs, k0_part48_eq_skeleton]; unfold k0_part48_skel wpB
  simp only [semSignalWord, semWaitWord, Prog.lift, Prog.bind_op, Prog.bind_ret, Prog.pure_eq_ret]
  iintro ⟨HSt, Hk⟩
  iapply (cstep_recv2 m K c 3 0 (k0_off26_eq c 1)) $$ HSt; iintro HSt
  iapply (cstep_oLoad m K c 1 3 (k0_off28_eq c 1)) $$ HSt; iintro HSt
  iapply (cstep_outLoad m K c) $$ HSt; iintro %u1 HSt
  iapply (cstep_outOther m K c 3 0 (k0_off32_eq c 1) (out_other_ok m c (px c 1) 3 (px_ne c 1 (by decide)))) $$ HSt; iintro HSt
  iapply (cstep_recv2 m K c 3 1 (k0_off26_eq c 3)) $$ HSt; iintro HSt
  iapply (cstep_oLoad m K c 3 3 (k0_off28_eq c 3)) $$ HSt; iintro HSt
  iapply (le_wp_ret _ _ _ _ _)
  iapply Hk; iexact HSt

theorem part_49 (v2 : BitVec 32) (v1437 : FVec F S64x128 .f32) (hv : v1437 = k0_pay50 (voL m c 3 3)) (Q : (Σ' (v1457 : BitVec 32), FVec F S64x128 .f32) → sProp 𝕄) :
    iprop(St m K (stageOf ⟨7, true, 4, 28, 28, 4, 4, 28, 23, 22, 0, 0⟩) c ∗ (∀ w₁, St m K (stageOf ⟨7, true, 4, 28, 28, 4, 4, 28, 25, 24, 0, 0⟩) c -∗ Q ⟨w₁, k0_pay52 (voL m c 3 2)⟩)) ⊢ wpB c (onBufs k0_part49 c v2 v1437) Q := by
  subst hv
  rw [onBufs, k0_part49_eq_skeleton]; unfold k0_part49_skel wpB
  simp only [semSignalWord, semWaitWord, Prog.lift, Prog.bind_op, Prog.bind_ret, Prog.pure_eq_ret]
  iintro ⟨HSt, Hk⟩
  iapply (cstep_outLoad m K c) $$ HSt; iintro %u3 HSt
  iapply (cstep_outOther m K c 3 1 (k0_off32_eq c 3) (out_other_ok m c (px c 3) 3 (px_ne c 3 (by decide)))) $$ HSt; iintro HSt
  iapply (cstep_recv2 m K c 3 2 (k0_off26_eq c 4)) $$ HSt; iintro HSt
  iapply (cstep_oLoad m K c 4 3 (k0_off28_eq c 4)) $$ HSt; iintro HSt
  iapply (cstep_outLoad m K c) $$ HSt; iintro %u4 HSt
  iapply (cstep_outOther m K c 3 2 (k0_off32_eq c 4) (out_other_ok m c (px c 4) 3 (px_ne c 4 (by decide)))) $$ HSt; iintro HSt
  iapply (cstep_recv2 m K c 3 3 (k0_off26_eq c 2)) $$ HSt; iintro HSt
  iapply (cstep_oLoad m K c 2 3 (k0_off28_eq c 2)) $$ HSt; iintro HSt
  iapply (le_wp_ret _ _ _ _ _)
  iapply Hk; iexact HSt

theorem part_50 (v2 : BitVec 32) (v1457 : BitVec 32) (v1469 : FVec F S64x128 .f32) (hv : v1469 = k0_pay52 (voL m c 3 2)) (Q : BitVec 32 → sProp 𝕄) :
    iprop(St m K (stageOf ⟨7, true, 4, 28, 28, 4, 4, 28, 25, 24, 0, 0⟩) c ∗ (∀ w₁, St m K (stageOf ⟨7, true, 4, 28, 28, 4, 4, 28, 27, 26, 0, 0⟩) c -∗ Q w₁)) ⊢ wpB c (onBufs k0_part50 c v2 v1457 v1469) Q := by
  subst hv
  rw [onBufs, k0_part50_eq_skeleton]; unfold k0_part50_skel wpB
  simp only [semSignalWord, semWaitWord, Prog.lift, Prog.bind_op, Prog.bind_ret, Prog.pure_eq_ret]
  iintro ⟨HSt, Hk⟩
  iapply (cstep_outLoad m K c) $$ HSt; iintro %u2 HSt
  iapply (cstep_outOther m K c 3 3 (k0_off32_eq c 2) (out_other_ok m c (px c 2) 3 (px_ne c 2 (by decide)))) $$ HSt; iintro HSt
  iapply (cstep_recv2 m K c 3 4 (k0_off26_eq c 5)) $$ HSt; iintro HSt
  iapply (cstep_oLoad m K c 5 3 (k0_off28_eq c 5)) $$ HSt; iintro HSt
  iapply (cstep_outLoad m K c) $$ HSt; iintro %u5 HSt
  iapply (cstep_outOther m K c 3 4 (k0_off32_eq c 5) (out_other_ok m c (px c 5) 3 (px_ne c 5 (by decide)))) $$ HSt; iintro HSt
  iapply (cstep_recv2 m K c 3 5 (k0_off26_eq c 7)) $$ HSt; iintro HSt
  iapply (le_wp_ret _ _ _ _ _)
  iapply Hk; iexact HSt

theorem part_51 (v2 : BitVec 32) (v1489 : BitVec 32) (Q : PUnit → sProp 𝕄) :
    iprop(St m K (stageOf ⟨7, true, 4, 28, 28, 4, 4, 28, 27, 26, 0, 0⟩) c ∗ (St m K (stageOf ⟨7, true, 4, 28, 28, 4, 4, 28, 28, 28, 1, 0⟩) c -∗ Q ⟨⟩)) ⊢ wpB c (onBufs k0_part51 c v2 v1489) Q := by
  rw [onBufs, k0_part51_eq_skeleton]; unfold k0_part51_skel wpB
  simp only [semSignalWord, semWaitWord, Prog.lift, Prog.bind_op, Prog.bind_ret, Prog.pure_eq_ret]
  iintro ⟨HSt, Hk⟩
  iapply (cstep_oLoad m K c 7 3 (k0_off28_eq c 7)) $$ HSt; iintro HSt
  iapply (cstep_outLoad m K c) $$ HSt; iintro %u7 HSt
  iapply (cstep_outOther m K c 3 5 (k0_off32_eq c 7) (out_other_ok m c (px c 7) 3 (px_ne c 7 (by decide)))) $$ HSt; iintro HSt
  iapply (cstep_recv2 m K c 3 6 (k0_off26_eq c 6)) $$ HSt; iintro HSt
  iapply (cstep_oLoad m K c 6 3 (k0_off28_eq c 6)) $$ HSt; iintro HSt
  iapply (cstep_outLoad m K c) $$ HSt; iintro %u6 HSt
  iapply (cstep_outOther m K c 3 6 (k0_off32_eq c 6) (out_other_ok m c (px c 6) 3 (px_ne c 6 (by decide)))) $$ HSt; iintro HSt
  iapply (cstep_sendWait1 m K c 0 0) $$ HSt; iintro HSt
  iapply (le_wp_ret _ _ _ _ _)
  iapply Hk; iexact HSt

end Cert.KernelIdeal.AR

end
-- ==== Proof.KernelIdealAR.Parts_52_63.lean ====
import proofs.«900697_g7700000000000698_dist_ar_v7x_i8_i_m512_n512_f32_1_alg».proof.Proof.KernelIdealAR.CSteps
import proofs.«900697_g7700000000000698_dist_ar_v7x_i8_i_m512_n512_f32_1_alg».proof.Proof.KernelIdealAR.PartsPre
import proofs.«900697_g7700000000000698_dist_ar_v7x_i8_i_m512_n512_f32_1_alg».proof.Proof.Gen.KernelIdeal.Skeleton

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 52 to 63: the waits on the remaining send cells, in sending order. -/
theorem part_52 (Q : PUnit → sProp 𝕄) :
    iprop(St m K (stageOf ⟨7, true, 4, 28, 28, 4, 4, 28, 28, 28, 1, 0⟩) c ∗ (St m K (stageOf ⟨7, true, 4, 28, 28, 4, 4, 28, 28, 28, 6, 0⟩) c -∗ Q ⟨⟩)) ⊢ wpB c (onBufs k0_part52 c ) Q := by
  rw [onBufs, k0_part52_eq_skeleton]; unfold k0_part52_skel wpB
  simp only [semSignalWord, semWaitWord, Prog.lift, Prog.bind_op, Prog.bind_ret, Prog.pure_eq_ret]
  iintro ⟨HSt, Hk⟩
  iapply (cstep_sendWait1 m K c 0 1) $$ HSt; iintro HSt
  iapply (cstep_sendWait1 m K c 0 2) $$ HSt; iintro HSt
  iapply (cstep_sendWait1 m K c 0 3) $$ HSt; iintro HSt
  iapply (cstep_sendWait1 m K c 0 4) $$ HSt; iintro HSt
  iapply (cstep_sendWait1 m K c 0 5) $$ HSt; iintro HSt
  iapply (le_wp_ret _ _)
  iapply Hk; iexact HSt

theorem part_53 (Q : PUnit → sProp 𝕄) :
    iprop(St m K (stageOf ⟨7, true, 4, 28, 28, 4, 4, 28, 28, 28, 6, 0⟩) c ∗ (St m K (stageOf ⟨7, true, 4, 28, 28, 4, 4, 28, 28, 28, 10, 0⟩) c -∗ Q ⟨⟩)) ⊢ wpB c (onBufs k0_part53 c ) Q := by
  rw [onBufs, k0_part53_eq_skeleton]; unfold k0_part53_skel wpB
  simp only [semSignalWord, semWaitWord, Prog.lift, Prog.bind_op, Prog.bind_ret, Prog.pure_eq_ret]
  iintro ⟨HSt, Hk⟩
  iapply (cstep_sendWait1 m K c 0 6) $$ HSt; iintro HSt
  iapply (cstep_sendWait1 m K c 1 0) $$ HSt; iintro HSt
  iapply (cstep_sendWait1 m K c 1 1) $$ HSt; iintro HSt
  iapply (cstep_sendWait1 m K c 1 2) $$ HSt; iintro HSt
  iapply (le_wp_ret _ _)
  iapply Hk; iexact HSt

theorem part_54 (Q : PUnit → sProp 𝕄) :
    iprop(St m K (stageOf ⟨7, true, 4, 28, 28, 4, 4, 28, 28, 28, 10, 0⟩) c ∗ (St m K (stageOf ⟨7, true, 4, 28, 28, 4, 4, 28, 28, 28, 15, 0⟩) c -∗ Q ⟨⟩)) ⊢ wpB c (onBufs k0_part54 c ) Q := by
  rw [onBufs, k0_part54_eq_skeleton]; unfold k0_part54_skel wpB
  simp only [semSignalWord, semWaitWord, Prog.lift, Prog.bind_op, Prog.bind_ret, Prog.pure_eq_ret]
  iintro ⟨HSt, Hk⟩
  iapply (cstep_sendWait1 m K c 1 3) $$ HSt; iintro HSt
  iapply (cstep_sendWait1 m K c 1 4) $$ HSt; iintro HSt
  iapply (cstep_sendWait1 m K c 1 5) $$ HSt; iintro HSt
  iapply (cstep_sendWait1 m K c 1 6) $$ HSt; iintro HSt
  iapply (cstep_sendWait1 m K c 2 0) $$ HSt; iintro HSt
  iapply (le_wp_ret _ _)
  iapply Hk; iexact HSt

theorem part_55 (Q : PUnit → sProp 𝕄) :
    iprop(St m K (stageOf ⟨7, true, 4, 28, 28, 4, 4, 28, 28, 28, 15, 0⟩) c ∗ (St m K (stageOf ⟨7, true, 4, 28, 28, 4, 4, 28, 28, 28, 19, 0⟩) c -∗ Q ⟨⟩)) ⊢ wpB c (onBufs k0_part55 c ) Q := by
  rw [onBufs, k0_part55_eq_skeleton]; unfold k0_part55_skel wpB
  simp only [semSignalWord, semWaitWord, Prog.lift, Prog.bind_op, Prog.bind_ret, Prog.pure_eq_ret]
  iintro ⟨HSt, Hk⟩
  iapply (cstep_sendWait1 m K c 2 1) $$ HSt; iintro HSt
  iapply (cstep_sendWait1 m K c 2 2) $$ HSt; iintro HSt
  iapply (cstep_sendWait1 m K c 2 3) $$ HSt; iintro HSt
  iapply (cstep_sendWait1 m K c 2 4) $$ HSt; iintro HSt
  iapply (le_wp_ret _ _)
  iapply Hk; iexact HSt

theorem part_56 (Q : PUnit → sProp 𝕄) :
    iprop(St m K (stageOf ⟨7, true, 4, 28, 28, 4, 4, 28, 28, 28, 19, 0⟩) c ∗ (St m K (stageOf ⟨7, true, 4, 28, 28, 4, 4, 28, 28, 28, 24, 0⟩) c -∗ Q ⟨⟩)) ⊢ wpB c (onBufs k0_part56 c ) Q := by
  rw [onBufs, k0_part56_eq_skeleton]; unfold k0_part56_skel wpB
  simp only [semSignalWord, semWaitWord, Prog.lift, Prog.bind_op, Prog.bind_ret, Prog.pure_eq_ret]
  iintro ⟨HSt, Hk⟩
  iapply (cstep_sendWait1 m K c 2 5) $$ HSt; iintro HSt
  iapply (cstep_sendWait1 m K c 2 6) $$ HSt; iintro HSt
  iapply (cstep_sendWait1 m K c 3 0) $$ HSt; iintro HSt
  iapply (cstep_sendWait1 m K c 3 1) $$ HSt; iintro HSt
  iapply (cstep_sendWait1 m K c 3 2) $$ HSt; iintro HSt
  iapply (le_wp_ret _ _)
  iapply Hk; iexact HSt

theorem part_57 (Q : PUnit → sProp 𝕄) :
    iprop(St m K (stageOf ⟨7, true, 4, 28, 28, 4, 4, 28, 28, 28, 24, 0⟩) c ∗ (St m K (stageOf ⟨7, true, 4, 28, 28, 4, 4, 28, 28, 28, 28, 1⟩) c -∗ Q ⟨⟩)) ⊢ wpB c (onBufs k0_part57 c ) Q := by
  rw [onBufs, k0_part57_eq_skeleton]; unfold k0_part57_skel wpB
  simp only [semSignalWord, semWaitWord, Prog.lift, Prog.bind_op, Prog.bind_ret, Prog.pure_eq_ret]
  iintro ⟨HSt, Hk⟩
  iapply (cstep_sendWait1 m K c 3 3) $$ HSt; iintro HSt
  iapply (cstep_sendWait1 m K c 3 4) $$ HSt; iintro HSt
  iapply (cstep_sendWait1 m K c 3 5) $$ HSt; iintro HSt
  iapply (cstep_sendWait1 m K c 3 6) $$ HSt; iintro HSt
  iapply (cstep_sendWait2 m K c 0 0) $$ HSt; iintro HSt
  iapply (le_wp_ret _ _)
  iapply Hk; iexact HSt

theorem part_58 (Q : PUnit → sProp 𝕄) :
    iprop(St m K (stageOf ⟨7, true, 4, 28, 28, 4, 4, 28, 28, 28, 28, 1⟩) c ∗ (St m K (stageOf ⟨7, true, 4, 28, 28, 4, 4, 28, 28, 28, 28, 5⟩) c -∗ Q ⟨⟩)) ⊢ wpB c (onBufs k0_part58 c ) Q := by
  rw [onBufs, k0_part58_eq_skeleton]; unfold k0_part58_skel wpB
  simp only [semSignalWord, semWaitWord, Prog.lift, Prog.bind_op, Prog.bind_ret, Prog.pure_eq_ret]
  iintro ⟨HSt, Hk⟩
  iapply (cstep_sendWait2 m K c 0 1) $$ HSt; iintro HSt
  iapply (cstep_sendWait2 m K c 0 2) $$ HSt; iintro HSt
  iapply (cstep_sendWait2 m K c 0 3) $$ HSt; iintro HSt
  iapply (cstep_sendWait2 m K c 0 4) $$ HSt; iintro HSt
  iapply (le_wp_ret _ _)
  iapply Hk; iexact HSt

theorem part_59 (Q : PUnit → sProp 𝕄) :
    iprop(St m K (stageOf ⟨7, true, 4, 28, 28, 4, 4, 28, 28, 28, 28, 5⟩) c ∗ (St m K (stageOf ⟨7, true, 4, 28, 28, 4, 4, 28, 28, 28, 28, 9⟩) c -∗ Q ⟨⟩)) ⊢ wpB c (onBufs k0_part59 c ) Q := by
  rw [onBufs, k0_part59_eq_skeleton]; unfold k0_part59_skel wpB
  simp only [semSignalWord, semWaitWord, Prog.lift, Prog.bind_op, Prog.bind_ret, Prog.pure_eq_ret]
  iintro ⟨HSt, Hk⟩
  iapply (cstep_sendWait2 m K c 0 5) $$ HSt; iintro HSt
  iapply (cstep_sendWait2 m K c 0 6) $$ HSt; iintro HSt
  iapply (cstep_sendWait2 m K c 1 0) $$ HSt; iintro HSt
  iapply (cstep_sendWait2 m K c 1 1) $$ HSt; iintro HSt
  iapply (le_wp_ret _ _)
  iapply Hk; iexact HSt

theorem part_60 (Q : PUnit → sProp 𝕄) :
    iprop(St m K (stageOf ⟨7, true, 4, 28, 28, 4, 4, 28, 28, 28, 28, 9⟩) c ∗ (St m K (stageOf ⟨7, true, 4, 28, 28, 4, 4, 28, 28, 28, 28, 13⟩) c -∗ Q ⟨⟩)) ⊢ wpB c (onBufs k0_part60 c ) Q := by
  rw [onBufs, k0_part60_eq_skeleton]; unfold k0_part60_skel wpB
  simp only [semSignalWord, semWaitWord, Prog.lift, Prog.bind_op, Prog.bind_ret, Prog.pure_eq_ret]
  iintro ⟨HSt, Hk⟩
  iapply (cstep_sendWait2 m K c 1 2) $$ HSt; iintro HSt
  iapply (cstep_sendWait2 m K c 1 3) $$ HSt; iintro HSt
  iapply (cstep_sendWait2 m K c 1 4) $$ HSt; iintro HSt
  iapply (cstep_sendWait2 m K c 1 5) $$ HSt; iintro HSt
  iapply (le_wp_ret _ _)
  iapply Hk; iexact HSt

theorem part_61 (Q : PUnit → sProp 𝕄) :
    iprop(St m K (stageOf ⟨7, true, 4, 28, 28, 4, 4, 28, 28, 28, 28, 13⟩) c ∗ (St m K (stageOf ⟨7, true, 4, 28, 28, 4, 4, 28, 28, 28, 28, 18⟩) c -∗ Q ⟨⟩)) ⊢ wpB c (onBufs k0_part61 c ) Q := by
  rw [onBufs, k0_part61_eq_skeleton]; unfold k0_part61_skel wpB
  simp only [semSignalWord, semWaitWord, Prog.lift, Prog.bind_op, Prog.bind_ret, Prog.pure_eq_ret]
  iintro ⟨HSt, Hk⟩
  iapply (cstep_sendWait2 m K c 1 6) $$ HSt; iintro HSt
  iapply (cstep_sendWait2 m K c 2 0) $$ HSt; iintro HSt
  iapply (cstep_sendWait2 m K c 2 1) $$ HSt; iintro HSt
  iapply (cstep_sendWait2 m K c 2 2) $$ HSt; iintro HSt
  iapply (cstep_sendWait2 m K c 2 3) $$ HSt; iintro HSt
  iapply (le_wp_ret _ _)
  iapply Hk; iexact HSt

theorem part_62 (Q : PUnit → sProp 𝕄) :
    iprop(St m K (stageOf ⟨7, true, 4, 28, 28, 4, 4, 28, 28, 28, 28, 18⟩) c ∗ (St m K (stageOf ⟨7, true, 4, 28, 28, 4, 4, 28, 28, 28, 28, 22⟩) c -∗ Q ⟨⟩)) ⊢ wpB c (onBufs k0_part62 c ) Q := by
  rw [onBufs, k0_part62_eq_skeleton]; unfold k0_part62_skel wpB
  simp only [semSignalWord, semWaitWord, Prog.lift, Prog.bind_op, Prog.bind_ret, Prog.pure_eq_ret]
  iintro ⟨HSt, Hk⟩
  iapply (cstep_sendWait2 m K c 2 4) $$ HSt; iintro HSt
  iapply (cstep_sendWait2 m K c 2 5) $$ HSt; iintro HSt
  iapply (cstep_sendWait2 m K c 2 6) $$ HSt; iintro HSt
  iapply (cstep_sendWait2 m K c 3 0) $$ HSt; iintro HSt
  iapply (le_wp_ret _ _)
  iapply Hk; iexact HSt

theorem part_63 (Q : PUnit → sProp 𝕄) :
    iprop(St m K (stageOf ⟨7, true, 4, 28, 28, 4, 4, 28, 28, 28, 28, 22⟩) c ∗ (St m K (stageOf ⟨7, true, 4, 28, 28, 4, 4, 28, 28, 28, 28, 26⟩) c -∗ Q ⟨⟩)) ⊢ wpB c (onBufs k0_part63 c ) Q := by
  rw [onBufs, k0_part63_eq_skeleton]; unfold k0_part63_skel wpB
  simp only [semSignalWord, semWaitWord, Prog.lift, Prog.bind_op, Prog.bind_ret, Prog.pure_eq_ret]
  iintro ⟨HSt, Hk⟩
  iapply (cstep_sendWait2 m K c 3 1) $$ HSt; iintro HSt
  iapply (cstep_sendWait2 m K c 3 2) $$ HSt; iintro HSt
  iapply (cstep_sendWait2 m K c 3 3) $$ HSt; iintro HSt
  iapply (cstep_sendWait2 m K c 3 4) $$ HSt; iintro HSt
  iapply (le_wp_ret _ _)
  iapply Hk; iexact HSt

end Cert.KernelIdeal.AR

end
-- ==== Proof.KernelIdealAR.Wrap.lean ====
import proofs.«900697_g7700000000000698_dist_ar_v7x_i8_i_m512_n512_f32_1_alg».proof.Proof.KernelIdealAR.ProtoG

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem bigSep_W (Φ : Fin cfg0.W → sProp 𝕄) : bigSep Finset.univ Φ = iprop(Φ (0 : Fin 2) ∗ Φ (1 : Fin 2)) := bigSep_W0 Φ

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

set_option maxRecDepth 65536 in
theorem body_obligation_of_walk
    (hwalk : ∀ (K : Dev nD × CIx → ℕ) (c : Dev nD) (Kt : PUnit → sProp 𝕄),
      iprop(St m K (stageOf k₀) c ∗ (St m K (stageOf k₁) c -∗ Kt ⟨⟩))
        ⊢ wp frame (wpE (defs₀ (F := F)) 𝒱₀ (c : Thread nD τ) none) Set.univ
            (cc0_body xM (Memref.isWhole_whole _) outM (Memref.isWhole_whole _) xbM (Memref.isWhole_whole _) gM (Memref.isWhole_whole _)
              aM (Memref.isWhole_whole _) oM (Memref.isWhole_whole _) cc0_scratch4 cc0_scratch5 cc0_scratch6 cc0_scratch7) Kt)
    (h0 : stageOf k₀ = σ₀) (h1 : stageOf k₁ = σ₁)
    (hexit : ∀ (K : Dev nD × CIx → ℕ) (c : Dev nD), St m K σ₁ c ⊢ iprop(Φ₁ c ∗ stOwes σ₁ c
      ∗ (((c : Thread nD τ).loc cc0_stg0_0) ↦{fullShare} X m c) ∗ (((c : Thread nD τ).loc cc0_stg1_0) ↦{fullShare} outAt (X m) c)))
    (c : Dev nD) : BodyObligation (dats (F := F) m ρ 0 c) (defs₀ (F := F)) 𝒱₀ () Set.univ := fun t => by
  have ht := fin_N0 t
  subst ht
  rw [bigSep_W, bigSep_W]
  simp only [owns_whole_eq]
  show iprop(Φ₀ m c ∗ (dats m ρ 0 c).owesAt () t0_0.castSucc
        ∗ (∃ d, stg c cc0_stg0_0 ((dats m ρ 0 c).before (0 : Fin 2) t0_0 d))
        ∗ (∃ d, stg c cc0_stg1_0 ((dats m ρ 0 c).before (1 : Fin 2) t0_0 d)))
      ⊢ wp frame (wpE (defs₀ (F := F)) 𝒱₀ (c : Thread nD τ) none) Set.univ
          (cc0_body xM (Memref.isWhole_whole _) outM (Memref.isWhole_whole _) xbM (Memref.isWhole_whole _) gM (Memref.isWhole_whole _)
            aM (Memref.isWhole_whole _) oM (Memref.isWhole_whole _) cc0_scratch4 cc0_scratch5 cc0_scratch6 cc0_scratch7)
          (fun _ => iprop(Φ₁ c ∗ (dats m ρ 0 c).owesAt () t0_0.succ ∗ stg c cc0_stg0_0 (X m c) ∗ stg c cc0_stg1_0 (outAt (X m) c)))
  unfold Φ₀
  iintro ⟨⟨%K, Hrec, Hcells, Hunused, Hscr⟩, Ho, ⟨%d0, %g0, %hg0, Hx⟩, ⟨%d1, %g1, %hg1, Hout⟩⟩
  have hx : g0 = X m c := by
    rw [hg0]; unfold Dat.before
    exact (if_pos (fetch0_0 t0_0)).trans rfl
  subst hx
  unfold Dat.owesAt Pipeline.owesWithin
  icases Ho with ⟨%W, %hW, HO⟩
  iapply (hwalk K c _)
  rw [h0, h1]
  isplitr []
  · unfold St stOwes stStage
    isplitl [Hrec]; · iexact Hrec
    isplitl [HO]; · iexists W; iexact HO
    isplitl [Hcells]; · iexact Hcells
    isplitl [Hunused]; · iexact Hunused
    isplitr [Hscr]
    · isplitl [Hx]; · iexact Hx
      iexists g1; isplitr
      · ipureintro; intro kh hkh; exact absurd hkh (Finset.notMem_empty kh)
      iexact Hout
    iexact Hscr
  · iintro H
    ihave H' := (hexit K c) $$ H
    unfold stOwes
    icases H' with ⟨HΦ, ⟨%W', HO'⟩, Hx', Hout'⟩
    rw [show owedFrom c σ₁.paid = 0 from owedFrom_end c]
    isplitl [HΦ]; · iexact HΦ
    isplitl [HO']
    · iexists W'; isplitr
      · ipureintro; exact fun _ _ => Or.inl trivial
      iexact HO'
    isplitl [Hx']
    · iexists _; isplitr; · (ipureintro; rfl)
      iexact Hx'
    iexists _; isplitr; · (ipureintro; rfl)
    iexact Hout'

end Cert.KernelIdeal.AR

end
-- ==== Proof.KernelIdealAR.Finish.lean ====
import proofs.«900697_g7700000000000698_dist_ar_v7x_i8_i_m512_n512_f32_1_alg».proof.Proof.KernelIdealAR.ProtoG
import proofs.«900697_g7700000000000698_dist_ar_v7x_i8_i_m512_n512_f32_1_alg».proof.Proof.KernelIdealAR.Values
import proofs.«900697_g7700000000000698_dist_ar_v7x_i8_i_m512_n512_f32_1_alg».proof.Proof.KernelIdealAR.Geometry

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The column of the cell of array `a` used at place `j`: a mask in a send array, a sender in a receive array. -/
def col (c : Dev nD) (a : Fin 4) (j : Fin 7) : Fin 8 := if a.val % 2 = 0 then far j else px c (near j)

theorem col_zero (c : Dev nD) (j : Fin 7) : col c 0 j = far j := rfl
theorem col_one (c : Dev nD) (j : Fin 7) : col c 1 j = px c (near j) := rfl
theorem col_two (c : Dev nD) (j : Fin 7) : col c 2 j = far j := rfl
theorem col_three (c : Dev nD) (j : Fin 7) : col c 3 j = px c (near j) := rfl

theorem col_inj (c : Dev nD) (a : Fin 4) (j j' : Fin 7) : col c a j = col c a j' → j = j' := by
  unfold col; revert c a j j'; decide +kernel

theorem used_iff_col (c : Dev nD) (a : Fin 4) (k : Fin 8) : used a c k ↔ ∃ j : Fin 7, col c a j = k := by
  unfold used col; revert c a k; decide +kernel

def cellEmb (c : Dev nD) : Fin 4 × Fin 4 × Fin 7 ↪ Fin 4 × Fin 4 × Fin 8 where
  toFun x := (x.1, x.2.1, col c x.1 x.2.2)
  inj' := by
    rintro ⟨a, h, j⟩ ⟨a', h', j'⟩ e
    simp only [Prod.mk.injEq] at e
    obtain ⟨rfl, rfl, e⟩ := e
    rw [col_inj c a j j' e]

theorem cellEmb_apply (c : Dev nD) (a : Fin 4) (hj : Fin 4 × Fin 7) : cellEmb c (a, hj) = (a, hj.1, col c a hj.2) := rfl

theorem used_eq_map (c : Dev nD) :
    (Finset.univ.filter fun i : Fin 4 × Fin 4 × Fin 8 => used i.1 c i.2.2) = Finset.univ.map (cellEmb c) := by
  ext ⟨a, h, k⟩
  simp only [Finset.mem_filter, Finset.mem_univ, true_and, Finset.mem_map]
  rw [used_iff_col]
  constructor
  · rintro ⟨j, rfl⟩; exact ⟨(a, h, j), rfl⟩
  · rintro ⟨⟨a', h', j⟩, e⟩
    have e' : (a', h', col c a' j) = (a, h, k) := e
    simp only [Prod.mk.injEq] at e'
    obtain ⟨rfl, rfl, rfl⟩ := e'
    exact ⟨j, rfl⟩

def cellAt (c : Dev nD) (i : Fin 4 × Fin 4 × Fin 8) : sProp 𝕄 := semVal ((c.tc : Thread nD τ), osem i) 0

theorem fam0 (c : Dev nD) : (fun hj : Fin 4 × Fin 7 => cellAt (F := F) c (cellEmb c (0, hj)))
    = fun hj => closedAt (s1Cell c hj.1 (far hj.2)) := by
  funext hj; rw [cellEmb_apply, col_zero]; rfl
theorem fam1 (c : Dev nD) : (fun hj : Fin 4 × Fin 7 => cellAt (F := F) c (cellEmb c (1, hj)))
    = fun hj => closedAt (r1Cell c hj.1 (px c (near hj.2))) := by
  funext hj; rw [cellEmb_apply, col_one]; rfl
theorem fam2 (c : Dev nD) : (fun hj : Fin 4 × Fin 7 => cellAt (F := F) c (cellEmb c (2, hj)))
    = fun hj => closedAt (s2Cell c hj.1 (far hj.2)) := by
  funext hj; rw [cellEmb_apply, col_two]; rfl
theorem fam3 (c : Dev nD) : (fun hj : Fin 4 × Fin 7 => cellAt (F := F) c (cellEmb c (3, hj)))
    = fun hj => closedAt (r2Cell c hj.1 (px c (near hj.2))) := by
  funext hj; rw [cellEmb_apply, col_three]; rfl

/-- The used cells of the four arrays are the four closed families. -/
theorem cells_used (c : Dev nD) :
    bigSep (Finset.univ.filter fun i : Fin 4 × Fin 4 × Fin 8 => used i.1 c i.2.2) (cellAt (F := F) c)
      = iprop((bigSep Finset.univ fun hj : Fin 4 × Fin 7 => closedAt (s1Cell c hj.1 (far hj.2)))
          ∗ (bigSep Finset.univ fun hj : Fin 4 × Fin 7 => closedAt (r1Cell c hj.1 (px c (near hj.2))))
          ∗ (bigSep Finset.univ fun hj : Fin 4 × Fin 7 => closedAt (s2Cell c hj.1 (far hj.2)))
          ∗ (bigSep Finset.univ fun hj : Fin 4 × Fin 7 => closedAt (r2Cell c hj.1 (px c (near hj.2))))) := by
  rw [used_eq_map, bigSep_map, bigSep_univ_prod, show (Finset.univ : Finset (Fin 4)) = {0, 1, 2, 3} from by decide,
    bigSep_insert (by decide), bigSep_insert (by decide), bigSep_insert (by decide), bigSep_singleton,
    fam0, fam1, fam2, fam3]
  rfl

theorem ownSems0_split (c : Dev nD) : (Pipeline.ownSems0 osem c : sProp 𝕄)
    = iprop(bigSep (Finset.univ.filter fun i : Fin 4 × Fin 4 × Fin 8 => used i.1 c i.2.2) (cellAt (F := F) c) ∗ unusedSems c) :=
  bigSep_filter_split Finset.univ (fun i : Fin 4 × Fin 4 × Fin 8 => used i.1 c i.2.2)

theorem cells_exit (c : Dev nD) : iprop(stCells σ₁ c ∗ unusedSems c) ⊢ (Pipeline.ownSems0 osem c : sProp 𝕄) := by
  rw [ownSems0_split, cells_used]
  unfold stCells
  iintro ⟨⟨-, -, -, -, H1, -, H2, -, -, H3, -, H4⟩, HU⟩
  isplitr [HU]
  · isplitl [H1]
    · iexact H1
    isplitl [H2]
    · iexact H2
    isplitl [H3]
    · iexact H3
    iexact H4
  · iexact HU

theorem out_exit (c : Dev nD) : stStage m σ₁ c
    ⊢ iprop((((c : Thread nD τ).loc cc0_stg0_0) ↦{fullShare} X m c) ∗ (((c : Thread nD τ).loc cc0_stg1_0) ↦{fullShare} outAt (X m) c)) := by
  unfold stStage
  iintro ⟨H0, ⟨%f, %hf, H1⟩⟩
  have e : f = outAt (X m) c := funext fun i => by
    have hi : i ∈ Finset.univ.biUnion fun ph : Fin 8 × Fin 4 => (rOwn ph.1 ph.2).set := by
      rw [rOwn_cover]; exact Finset.mem_univ i
    obtain ⟨sh, -, hi⟩ := Finset.mem_biUnion.mp hi
    have hm : i ∈ (outM.access (rOwn (px c (mk c sh.1)) sh.2)).set := by
      rw [px_mk, show (outM.access (rOwn sh.1 sh.2)).set = (rOwn sh.1 sh.2).set from View.set_slice_whole cc0_stg1_0 (rOwn sh.1 sh.2)]
      exact hi
    exact hf (mk c sh.1, sh.2) (Finset.mem_univ _) i hm
  subst e
  isplitl [H0]
  · iexact H0
  · iexact H1

theorem xb_piece (c : Dev nD) :
    (bigSep σ₁.xbHave fun kh => (xbPiece (px c kh.1) kh.2).view.loc (c : Thread nD τ)
        ↦[(xbPiece (px c kh.1) kh.2).view.set]{fullShare} XB m c : sProp 𝕄)
      ⊢ iprop(∃ f, ((c : Thread nD τ).loc cc0_scratch0) ↦{fullShare} f) :=
  (bigSep_px c fun ph : Fin 8 × Fin 4 =>
    ((xbPiece ph.1 ph.2).view.loc (c : Thread nD τ) ↦[(xbPiece ph.1 ph.2).view.set]{fullShare} XB m c : sProp 𝕄)) ▸ xb_join c (XB m c)

/-- The own slot (mask 0) at some contents and the landed slots (the other masks) are all the slots of a gather buffer. -/
theorem slots_piece (M : Memref sig .tc .vmem S8x64x512 .bf16) (c : Dev nD) (Y : Buf (Elt F) (M.view.loc (c : Thread nD τ))) :
    iprop((bigSep (Finset.univ.filter fun kh : Fin 8 × Fin 4 => kh.1 = 0) fun kh => slotAny M c (px c kh.1) kh.2)
      ∗ (bigSep (Finset.univ.filter fun kh : Fin 8 × Fin 4 => ¬ kh.1 = 0) fun kh => (slot M (px c kh.1) kh.2).view.loc (c : Thread nD τ) ↦[(slot M (px c kh.1) kh.2).view.set]{fullShare} Y))
      ⊢ (bigSep Finset.univ fun sh : Fin 8 × Fin 4 => slotAny M c sh.1 sh.2 : sProp 𝕄) := by
  rw [← bigSep_px c (fun sh => slotAny (F := F) M c sh.1 sh.2), bigSep_filter_split Finset.univ (fun kh : Fin 8 × Fin 4 => kh.1 = 0)]
  have step : ∀ kh : Fin 8 × Fin 4,
      ((slot M (px c kh.1) kh.2).view.loc (c : Thread nD τ) ↦[(slot M (px c kh.1) kh.2).view.set]{fullShare} Y : sProp 𝕄)
        ⊢ slotAny M c (px c kh.1) kh.2 := fun kh => by
    iintro H
    iexists Y
    iexact H
  exact sep_mono_right (bigSep_mono fun kh _ => step kh)

/-- Per slab, what is left of the share after seven sends and the seven shares back are the whole slab. -/
theorem a_piece (c : Dev nD) :
    iprop((bigSep (Finset.univ \ σ₁.aRaw) fun h => (aPiece h).view.loc (c : Thread nD τ) ↦[(aPiece h).view.set]{remShare (σ₁.aSent h)} AB m c)
      ∗ (bigSep σ₁.aBack fun hj => (aPiece hj.1).view.loc (c : Thread nD τ) ↦[(aPiece hj.1).view.set]{lentShare hj.2.val} AB m c))
      ⊢ (bigSep Finset.univ fun h : Fin 4 => iprop(∃ f, (aPiece h).view.loc (c : Thread nD τ) ↦[(aPiece h).view.set]{fullShare} f) : sProp 𝕄) := by
  rw [show Finset.univ \ σ₁.aRaw = (Finset.univ : Finset (Fin 4)) from Finset.sdiff_empty, show σ₁.aBack = Finset.univ from rfl,
    bigSep_univ_prod, ← bigSep_sep']
  have step : ∀ h : Fin 4,
      iprop(((aPiece h).view.loc (c : Thread nD τ) ↦[(aPiece h).view.set]{remShare 7} AB m c)
          ∗ bigSep (Finset.univ : Finset (Fin 7)) fun j => (aPiece h).view.loc (c : Thread nD τ) ↦[(aPiece h).view.set]{lentShare j.val} AB m c)
        ⊢ (iprop(∃ f, (aPiece h).view.loc (c : Thread nD τ) ↦[(aPiece h).view.set]{fullShare} f) : sProp 𝕄) := fun h => by
    iintro H
    iexists AB m c
    iapply a_shares_join c h (AB m c) 7
    iexact H
  exact bigSep_mono fun h _ => step h

theorem scratch_exit_st (c : Dev nD) : stScratch m σ₁ c ⊢ (Pipeline.scopedRest cfg0.spec c : sProp 𝕄) := by
  rw [show (Pipeline.scopedRest cfg0.spec c : sProp 𝕄) = _ from Gen.scopedRest0_eq c]
  unfold stScratch
  iintro ⟨-, Hxb, HgM, HgL, -, -, HaR, HaB, HoM, HoL, -⟩
  isplitl [Hxb]
  · iapply xb_piece m c
    iexact Hxb
  isplitl [HgM HgL]
  · iapply (g_cut c).2
    iapply slots_piece gM c (G1 m c)
    isplitl [HgM]
    · iexact HgM
    · iexact HgL
  isplitl [HaR HaB]
  · iapply (a_cut c).2
    iapply a_piece m c
    isplitl [HaR]
    · iexact HaR
    · iexact HaB
  · iapply (o_cut c).2
    iapply slots_piece oM c (OB m c)
    isplitl [HoM]
    · iexact HoM
    · iexact HoL

/-- The body's exit: at the last stage a device holds its semaphores at zero, its scratch buffers whole, the block and the result. -/
theorem st_exit (K : Dev nD × CIx → ℕ) (c : Dev nD) : St m K σ₁ c
    ⊢ iprop(Φ₁ c ∗ stOwes σ₁ c ∗ (((c : Thread nD τ).loc cc0_stg0_0) ↦{fullShare} X m c)
        ∗ (((c : Thread nD τ).loc cc0_stg1_0) ↦{fullShare} outAt (X m) c)) := by
  unfold St Φ₁
  iintro ⟨-, HO, HC, HU, HS, HSc⟩
  isplitl [HC HU HSc]
  · isplitl [HC HU]
    · iapply cells_exit c
      isplitl [HC]
      · iexact HC
      · iexact HU
    · iapply scratch_exit_st m c
      iexact HSc
  isplitl [HO]
  · iexact HO
  · iapply out_exit m c
    iexact HS

end Cert.KernelIdeal.AR

end
-- ==== Proof.KernelIdealAR.Body.lean ====
import proofs.«900697_g7700000000000698_dist_ar_v7x_i8_i_m512_n512_f32_1_alg».proof.Proof.KernelIdealAR.Parts_01_12
import proofs.«900697_g7700000000000698_dist_ar_v7x_i8_i_m512_n512_f32_1_alg».proof.Proof.KernelIdealAR.Parts_13_24
import proofs.«900697_g7700000000000698_dist_ar_v7x_i8_i_m512_n512_f32_1_alg».proof.Proof.KernelIdealAR.Parts_25_36
import proofs.«900697_g7700000000000698_dist_ar_v7x_i8_i_m512_n512_f32_1_alg».proof.Proof.KernelIdealAR.Parts_37_44
import proofs.«900697_g7700000000000698_dist_ar_v7x_i8_i_m512_n512_f32_1_alg».proof.Proof.KernelIdealAR.Parts_45_51
import proofs.«900697_g7700000000000698_dist_ar_v7x_i8_i_m512_n512_f32_1_alg».proof.Proof.KernelIdealAR.Parts_52_63
import proofs.«900697_g7700000000000698_dist_ar_v7x_i8_i_m512_n512_f32_1_alg».proof.Proof.KernelIdealAR.CSteps
import proofs.«900697_g7700000000000698_dist_ar_v7x_i8_i_m512_n512_f32_1_alg».proof.Proof.KernelIdealAR.Wrap
import proofs.«900697_g7700000000000698_dist_ar_v7x_i8_i_m512_n512_f32_1_alg».proof.Proof.KernelIdealAR.Finish

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The root part is parts 1 to 60 in sequence, each taking the counters where the one before left them. -/
theorem part_64 (K : Dev nD × CIx → ℕ) (c : Dev nD) (Q : Dev nD → sProp 𝕄) :
    iprop(St m K (stageOf ⟨0, false, 0, 0, 0, 0, 0, 0, 0, 0, 0, 0⟩) c
        ∗ (St m K (stageOf ⟨7, true, 4, 28, 28, 4, 4, 28, 28, 28, 28, 13⟩) c -∗ Q c))
      ⊢ wpB c (onBufs k0_part64) Q := by
  rw [onBufs, k0_part64_eq_skeleton]; unfold k0_part64_skel wpB
  simp only [wp_bind]
  iintro ⟨HSt, Hk⟩
  iapply (part_1 m K c _); isplitl [HSt]; · iexact HSt
  iintro %w₁ %w₂ HSt
  iapply (part_2 m K c _ _ _ rfl _); isplitl [HSt]; · iexact HSt
  iintro HSt
  iapply (part_3 m K c _ _); isplitl [HSt]; · iexact HSt
  iintro HSt
  iapply (part_4 m K c _ _); isplitl [HSt]; · iexact HSt
  iintro HSt
  iapply (part_5 m K c _ _ rfl _); isplitl [HSt]; · iexact HSt
  iintro HSt
  iapply (part_6 m K c _ _); isplitl [HSt]; · iexact HSt
  iintro %w₁ %w₂ HSt
  iapply (part_7 m K c _ _ _ _); isplitl [HSt]; · iexact HSt
  iintro HSt
  iapply (part_8 m K c _ _); isplitl [HSt]; · iexact HSt
  iintro %w₁ HSt
  iapply (part_9 m K c _ _ _); isplitl [HSt]; · iexact HSt
  iintro %w₁ HSt
  iapply (part_10 m K c _ _ _); isplitl [HSt]; · iexact HSt
  iintro %w₁ HSt
  iapply (part_11 m K c _ _ _); isplitl [HSt]; · iexact HSt
  iintro HSt
  iapply (part_12 m K c _ _); isplitl [HSt]; · iexact HSt
  iintro HSt
  iapply (part_13 m K c _ _); isplitl [HSt]; · iexact HSt
  iintro HSt
  iapply (part_14 m K c _ _ _); isplitl [HSt]; · iexact HSt
  iintro HSt
  iapply (part_15 m K c _ _ _); isplitl [HSt]; · iexact HSt
  iintro %w₁ %w₂ HSt
  iapply (part_16 m K c _ _ _ _ (acc_ok_0 m c) (accb_ok_0 m c) _); isplitl [HSt]; · iexact HSt
  iintro %w₁ HSt
  iapply (part_17 m K c _ _ _); isplitl [HSt]; · iexact HSt
  iintro %w₁ HSt
  iapply (part_18 m K c _ _ _); isplitl [HSt]; · iexact HSt
  iintro HSt
  iapply (part_19 m K c _ _); isplitl [HSt]; · iexact HSt
  iintro HSt
  iapply (part_20 m K c _ _ _ _); isplitl [HSt]; · iexact HSt
  iintro %w₁ HSt
  iapply (part_21 m K c _ _ _ _); isplitl [HSt]; · iexact HSt
  iintro %w₁ HSt
  iapply (part_22 m K c _ _ _ (acc_ok_1 m c) (accb_ok_1 m c) _); isplitl [HSt]; · iexact HSt
  iintro HSt
  iapply (part_23 m K c _ _); isplitl [HSt]; · iexact HSt
  iintro %w₁ HSt
  iapply (part_24 m K c _ _ _); isplitl [HSt]; · iexact HSt
  iintro HSt
  iapply (part_25 m K c _ _); isplitl [HSt]; · iexact HSt
  iintro %w₁ HSt
  iapply (part_26 m K c _ _ _ _); isplitl [HSt]; · iexact HSt
  iintro %w₁ HSt
  iapply (part_27 m K c _ _ _ _); isplitl [HSt]; · iexact HSt
  iintro %w₁ HSt
  iapply (part_28 m K c _ _ _ (acc_ok_2 m c) (accb_ok_2 m c) _); isplitl [HSt]; · iexact HSt
  iintro HSt
  iapply (part_29 m K c _ _); isplitl [HSt]; · iexact HSt
  iintro HSt
  iapply (part_30 m K c _ _); isplitl [HSt]; · iexact HSt
  iintro %w₁ HSt
  iapply (part_31 m K c _ _ _ _); isplitl [HSt]; · iexact HSt
  iintro %w₁ HSt
  iapply (part_32 m K c _ _ _ _); isplitl [HSt]; · iexact HSt
  iintro %w₁ HSt
  iapply (part_33 m K c _ _ _ _); isplitl [HSt]; · iexact HSt
  iintro HSt
  iapply (part_34 m K c _ _ (acc_ok_3 m c) (accb_ok_3 m c) _); isplitl [HSt]; · iexact HSt
  iintro HSt
  iapply (part_35 m K c _ _); isplitl [HSt]; · iexact HSt
  iintro HSt
  iapply (part_36 m K c _ _); isplitl [HSt]; · iexact HSt
  iintro %w₁ HSt
  iapply (part_37 m K c _ _ _); isplitl [HSt]; · iexact HSt
  iintro %w₁ HSt
  iapply (part_38 m K c _ _ _); isplitl [HSt]; · iexact HSt
  iintro %w₁ %w₂ HSt
  iapply (part_39 m K c _ _ _ _); isplitl [HSt]; · iexact HSt
  iintro %w₁ HSt
  iapply (part_40 m K c _ _ _); isplitl [HSt]; · iexact HSt
  iintro HSt
  iapply (part_41 m K c _ _ rfl _); isplitl [HSt]; · iexact HSt
  iintro %w₁ HSt
  iapply (part_42 m K c _ _ _ rfl _); isplitl [HSt]; · iexact HSt
  iintro %w₁ HSt
  iapply (part_43 m K c _ _ _); isplitl [HSt]; · iexact HSt
  iintro %w₁ HSt
  iapply (part_44 m K c _ _ _); isplitl [HSt]; · iexact HSt
  iintro %w₁ HSt
  iapply (part_45 m K c _ _ _); isplitl [HSt]; · iexact HSt
  iintro %w₁ HSt
  iapply (part_46 m K c _ _ _); isplitl [HSt]; · iexact HSt
  iintro %w₁ %w₂ HSt
  iapply (part_47 m K c _ _ _ _); isplitl [HSt]; · iexact HSt
  iintro %w₁ HSt
  iapply (part_48 m K c _ _ _); isplitl [HSt]; · iexact HSt
  iintro HSt
  iapply (part_49 m K c _ _ rfl _); isplitl [HSt]; · iexact HSt
  iintro %w₁ HSt
  iapply (part_50 m K c _ _ _ rfl _); isplitl [HSt]; · iexact HSt
  iintro %w₁ HSt
  iapply (part_51 m K c _ _ _); isplitl [HSt]; · iexact HSt
  iintro HSt
  iapply (part_52 m K c _); isplitl [HSt]; · iexact HSt
  iintro HSt
  iapply (part_53 m K c _); isplitl [HSt]; · iexact HSt
  iintro HSt
  iapply (part_54 m K c _); isplitl [HSt]; · iexact HSt
  iintro HSt
  iapply (part_55 m K c _); isplitl [HSt]; · iexact HSt
  iintro HSt
  iapply (part_56 m K c _); isplitl [HSt]; · iexact HSt
  iintro HSt
  iapply (part_57 m K c _); isplitl [HSt]; · iexact HSt
  iintro HSt
  iapply (part_58 m K c _); isplitl [HSt]; · iexact HSt
  iintro HSt
  iapply (part_59 m K c _); isplitl [HSt]; · iexact HSt
  iintro HSt
  iapply (part_60 m K c _); isplitl [HSt]; · iexact HSt
  iintro HSt
  iapply (le_wp_ret _ _)
  iapply Hk; iexact HSt

theorem walk (K : Dev nD × CIx → ℕ) (c : Dev nD) (Kt : PUnit → sProp 𝕄) :
    iprop(St m K (stageOf k₀) c ∗ (St m K (stageOf k₁) c -∗ Kt ⟨⟩))
      ⊢ wp frame (wpE (defs₀ (F := F)) 𝒱₀ (c : Thread nD τ) none) Set.univ
          (cc0_body xM (Memref.isWhole_whole _) outM (Memref.isWhole_whole _) xbM (Memref.isWhole_whole _) gM (Memref.isWhole_whole _)
            aM (Memref.isWhole_whole _) oM (Memref.isWhole_whole _) cc0_scratch4 cc0_scratch5 cc0_scratch6 cc0_scratch7) Kt := by
  unfold k₀ k₁
  rw [cc0_body_eq_skeleton]; unfold cc0_body_skel
  simp only [wp_bind, Prog.lift, Prog.bind_op, Prog.bind_ret, Prog.pure_eq_ret]
  iintro ⟨HSt, Hk⟩
  iapply (part_64 m K c _); isplitl [HSt]; · iexact HSt
  iintro HSt
  iapply (part_61 m K c _); isplitl [HSt]; · iexact HSt
  iintro HSt
  iapply (part_62 m K c _); isplitl [HSt]; · iexact HSt
  iintro HSt
  iapply (part_63 m K c _); isplitl [HSt]; · iexact HSt
  iintro HSt
  iapply (cstep_sendWait2 m K c 3 5) $$ HSt; iintro HSt
  iapply (cstep_sendWait2 m K c 3 6) $$ HSt; iintro HSt
  iapply (le_wp_ret _ _)
  iapply Hk; iexact HSt

theorem body_obligation (c : Dev nD) : BodyObligation (dats (F := F) m ρ 0 c) (defs₀ (F := F)) 𝒱₀ () Set.univ :=
  body_obligation_of_walk m ρ (walk m) stage_k₀ stage_k₁ (st_exit m) c

end Cert.KernelIdeal.AR

end
-- ==== Proof.KernelAR.ProtoA.lean ====
import proofs.«900697_g7700000000000698_dist_ar_v7x_i8_i_m512_n512_f32_1_alg».proof.Proof.Gen.Kernel
import proofs.«900697_g7700000000000698_dist_ar_v7x_i8_i_m512_n512_f32_1_alg».proof.Proof.Gen.Kernel.Launch
import proofs.«900697_g7700000000000698_dist_ar_v7x_i8_i_m512_n512_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def px (c : Dev nD) (k : Fin 8) : Dev nD := ⟨c.val ^^^ k.val, Nat.xor_lt_two_pow (n := 3) c.isLt k.isLt⟩

theorem px_px (c : Dev nD) (k : Fin 8) : px (px c k) k = c := by revert c k; decide
theorem px_zero (c : Dev nD) : px c 0 = c := by revert c; decide
theorem px_ne (c : Dev nD) (k : Fin 8) (hk : k ≠ 0) : px c k ≠ c := by revert c k; decide
def mk (c s : Dev nD) : Fin 8 := ⟨c.val ^^^ s.val, Nat.xor_lt_two_pow (n := 3) c.isLt s.isLt⟩
theorem px_mk (c s : Dev nD) : px c (mk c s) = s := by revert c s; decide
theorem mk_px (c : Dev nD) (k : Fin 8) : mk c (px c k) = k := by revert c k; decide

abbrev xM : Memref sig .tc .vmem S512x512 .f32 := Memref.whole cc0_stg0_0
abbrev outM : Memref sig .tc .vmem S512x512 .f32 := Memref.whole cc0_stg1_0
abbrev xbM : Memref sig .tc .vmem S512x512 .bf16 := Memref.whole cc0_scratch0
abbrev gM : Memref sig .tc .vmem S8x64x512 .bf16 := Memref.whole cc0_scratch1
abbrev aM : Memref sig .tc .vmem S64x512 .bf16 := Memref.whole cc0_scratch2
abbrev oM : Memref sig .tc .vmem S8x64x512 .bf16 := Memref.whole cc0_scratch3

theorem inb3 (s : Fin 8) (h : Fin 4) : ∀ a, (![s.val, 0, 128 * h.val] : Fin 3 → Nat) a + S1x64x128.size a ≤ S8x64x512.size a := by
  revert s h; decide
theorem inbX (p : Fin 8) (h : Fin 4) : ∀ a, (![64 * p.val, 128 * h.val] : Fin 2 → Nat) a + S64x128.size a ≤ S512x512.size a := by
  revert p h; decide
theorem inbA (h : Fin 4) : ∀ a, (![0, 128 * h.val] : Fin 2 → Nat) a + S64x128.size a ≤ S64x512.size a := by
  revert h; decide
theorem inbS (h : Fin 4) (j : Fin 8) : ∀ a, (![h.val, j.val] : Fin 2 → Nat) a + S1x1.size a ≤ S4x8.size a := by
  revert h j; decide

abbrev slot (M : Memref sig .tc .vmem S8x64x512 .bf16) (s : Fin 8) (h : Fin 4) : Memref sig .tc .vmem S64x128 .bf16 :=
  (M.slice (Rect.unit (s := S8x64x512) ![s.val, 0, 128 * h.val] S1x64x128.size (inb3 s h)) (fun _ => rfl)).squeeze S64x128 squeezes_S1x64x128_S64x128
abbrev xbPiece (p : Fin 8) (h : Fin 4) : Memref sig .tc .vmem S64x128 .bf16 :=
  xbM.slice (Rect.unit (s := S512x512) ![64 * p.val, 128 * h.val] S64x128.size (inbX p h)) (fun _ => rfl)
abbrev aPiece (h : Fin 4) : Memref sig .tc .vmem S64x128 .bf16 :=
  aM.slice (Rect.unit (s := S64x512) ![0, 128 * h.val] S64x128.size (inbA h)) (fun _ => rfl)

abbrev dsem (A : DmaSems sig S4x8) (h : Fin 4) (j : Fin 8) : DmaSem sig :=
  ((A.slice (Rect.unit (s := S4x8) ![h.val, j.val] S1x1.size (inbS h j))).squeeze S_ squeezes_S1x1_S_).sem

abbrev barS : Sem sig := (SemArray.scalar (sig.barrier 0 rfl) : Sems sig S_).sem
abbrev barCell (c : Dev nD) : GSem nD τ sig := ((c : Thread nD τ), .reg barS)
abbrev s1Cell (c : Dev nD) (h : Fin 4) (k : Fin 8) : GSem nD τ sig := ((c : Thread nD τ), .dma (dsem cc0_scratch4 h k))
abbrev r1Cell (c : Dev nD) (h : Fin 4) (s : Fin 8) : GSem nD τ sig := ((c : Thread nD τ), .dma (dsem cc0_scratch5 h s))
abbrev s2Cell (c : Dev nD) (h : Fin 4) (k : Fin 8) : GSem nD τ sig := ((c : Thread nD τ), .dma (dsem cc0_scratch6 h k))
abbrev r2Cell (c : Dev nD) (h : Fin 4) (s : Fin 8) : GSem nD τ sig := ((c : Thread nD τ), .dma (dsem cc0_scratch7 h s))

theorem dsem_val5 (h : Fin 4) (j : Fin 8) : (dsem cc0_scratch5 h j).val = 34 + 8 * h.val + j.val := by revert h j; decide
theorem dsem_val7 (h : Fin 4) (j : Fin 8) : (dsem cc0_scratch7 h j).val = 98 + 8 * h.val + j.val := by revert h j; decide

abbrev N : ℕ := (slot gM 0 0).view.dmaCredit
theorem N_pos : 0 < N := View.dmaCredit_pos _ (by decide)

end Cert.Kernel.AR

end
-- ==== Proof.KernelAR.Contents.lean ====
import proofs.«900697_g7700000000000698_dist_ar_v7x_i8_i_m512_n512_f32_1_alg».proof.Proof.Gen.Kernel
import Idealize.ShloMosaic.PureOps.Vector

noncomputable section

namespace Cert.Kernel.AR

open Cert.Kernel Cert.Kernel.Gen
open Idealize.ShloMosaic

variable {F : FTy → Type} [FloatOps F]

def wire (v : F .f32) : F .f32 := FloatOps.extf .f32 bitsLt_bf16_f32 (FloatOps.truncf .bf16 bitsLt_bf16_f32 v)

def pxn (s : Fin 8) (k : Fin 8) : Fin 8 := ⟨s.val ^^^ k.val, Nat.xor_lt_two_pow (n := 3) s.isLt k.isLt⟩

def grp (i : S512x512.Idx) : Fin 8 := ⟨(i 0).val / 64, by have h : (i 0).val < 512 := (i 0).isLt; omega⟩

def accOf (X : Fin 8 → S512x512.Idx → F .f32) (s : Fin 8) (i : S512x512.Idx) : F .f32 :=
  FloatOps.addf (FloatOps.addf (FloatOps.addf (FloatOps.addf (FloatOps.addf (FloatOps.addf (FloatOps.addf (X s i)
    (wire (X (pxn s 1) i))) (wire (X (pxn s 3) i))) (wire (X (pxn s 4) i))) (wire (X (pxn s 2) i)))
    (wire (X (pxn s 5) i))) (wire (X (pxn s 7) i))) (wire (X (pxn s 6) i))

def outAt (X : Fin 8 → S512x512.Idx → F .f32) (c : Fin 8) (i : S512x512.Idx) : F .f32 :=
  if grp i = c then accOf X (grp i) i else wire (accOf X (grp i) i)

end Cert.Kernel.AR

end
-- ==== Proof.KernelAR.ProtoB.lean ====
import proofs.«900697_g7700000000000698_dist_ar_v7x_i8_i_m512_n512_f32_1_alg».proof.Proof.KernelAR.ProtoA
import proofs.«900697_g7700000000000698_dist_ar_v7x_i8_i_m512_n512_f32_1_alg».proof.Proof.KernelAR.Contents
import Idealize.ShloMosaic.Lib.ValueIdx

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def X (d : Fin 8) : S512x512.Idx → F .f32 :=
  (win0_0.blk (0 : Fin 1)).view.read (Elt F) (m (((d : Dev nD) : Thread nD τ).loc main_arg0))

def narrow (v : F .f32) : F .bf16 := FloatOps.truncf .bf16 bitsLt_bf16_f32 v

def ixg (p : Fin 8) (r : Fin 64) (l : Fin 512) : S512x512.Idx :=
  ValueIdx.ix2 ⟨64 * p.val + r.val, by have := p.isLt; have := r.isLt; omega⟩ l

def XB (c : Dev nD) : Buf (Elt F) ((c : Thread nD τ).loc cc0_scratch0) := fun i => narrow (X m c i)
def G1 (c : Dev nD) : Buf (Elt F) ((c : Thread nD τ).loc cc0_scratch1) := fun i => narrow (X m (i 0) (ixg c (i 1) (i 2)))
def AB (c : Dev nD) : Buf (Elt F) ((c : Thread nD τ).loc cc0_scratch2) := fun i => narrow (accOf (X m) c (ixg c (i 0) (i 1)))
def OB (c : Dev nD) : Buf (Elt F) ((c : Thread nD τ).loc cc0_scratch3) := fun i => narrow (accOf (X m) (i 0) (ixg (i 0) (i 1) (i 2)))

def remShare : ℕ → PosShare TreeShare
  | 0 => fullShare
  | n + 1 => (remShare n).left
def lentShare (n : ℕ) : PosShare TreeShare := (remShare n).right
def farPos (k : Fin 8) : ℕ := match k with
  | ⟨6, _⟩ => 0 | ⟨7, _⟩ => 1 | ⟨5, _⟩ => 2 | ⟨2, _⟩ => 3 | ⟨4, _⟩ => 4 | ⟨3, _⟩ => 5 | ⟨1, _⟩ => 6 | _ => 7

def barPay (c p : Dev nD) : sProp 𝕄 :=
  iprop((bigSep Finset.univ fun h : Fin 4 => iprop(∃ f, (slot gM c h).view.loc (p : Thread nD τ) ↦[(slot gM c h).view.set]{fullShare} f))
    ∗ (bigSep Finset.univ fun h : Fin 4 => iprop(∃ f, (slot oM c h).view.loc (p : Thread nD τ) ↦[(slot oM c h).view.set]{fullShare} f)))
def s1Pay (c : Dev nD) (h : Fin 4) (k : Fin 8) : sProp 𝕄 :=
  (xbPiece (px c k) h).view.loc (c : Thread nD τ) ↦[(xbPiece (px c k) h).view.set]{fullShare} XB m c
def r1Pay (c : Dev nD) (h : Fin 4) (s : Fin 8) : sProp 𝕄 :=
  (slot gM s h).view.loc (c : Thread nD τ) ↦[(slot gM s h).view.set]{fullShare} G1 m c
def s2Pay (c : Dev nD) (h : Fin 4) (k : Fin 8) : sProp 𝕄 :=
  (aPiece h).view.loc (c : Thread nD τ) ↦[(aPiece h).view.set]{lentShare (farPos k)} AB m c
def r2Pay (c : Dev nD) (h : Fin 4) (s : Fin 8) : sProp 𝕄 :=
  (slot oM s h).view.loc (c : Thread nD τ) ↦[(slot oM s h).view.set]{fullShare} OB m c

def dec (i : DmaSem sig) : Option (Fin 4 × Fin 4 × Fin 8) :=
  if h : 2 ≤ i.val then
    some (⟨(i.val - 2) / 32, by have := i.isLt; show _ < 4; have : i.val < 130 := i.isLt; omega⟩,
          ⟨(i.val - 2) % 32 / 8, by show _ < 4; omega⟩, ⟨(i.val - 2) % 8, by show _ < 8; omega⟩)
  else none

theorem dec4 (h : Fin 4) (j : Fin 8) : dec (dsem cc0_scratch4 h j) = some (0, h, j) := by revert h j; decide
theorem dec5 (h : Fin 4) (j : Fin 8) : dec (dsem cc0_scratch5 h j) = some (1, h, j) := by revert h j; decide
theorem dec6 (h : Fin 4) (j : Fin 8) : dec (dsem cc0_scratch6 h j) = some (2, h, j) := by revert h j; decide
theorem dec7 (h : Fin 4) (j : Fin 8) : dec (dsem cc0_scratch7 h j) = some (3, h, j) := by revert h j; decide

def used (a : Fin 4) (c : Dev nD) (j : Fin 8) : Prop := if a.val % 2 = 0 then j ≠ 0 else j ≠ c
instance (a : Fin 4) (c : Dev nD) (j : Fin 8) : Decidable (used a c j) := by unfold used; infer_instance

def dmaPay (a : Fin 4) (c : Dev nD) (h : Fin 4) (j : Fin 8) : sProp 𝕄 :=
  match a with
  | ⟨0, _⟩ => s1Pay m c h j
  | ⟨1, _⟩ => r1Pay m c h j
  | ⟨2, _⟩ => s2Pay m c h j
  | _ => r2Pay m c h j

def Rd : Rounds.Schedule (GSem nD τ sig) (Fin 8) 𝕄 where
  duties g r :=
    if r ≠ 0 ∨ g.1.2 ≠ .tc then ∅ else
      match g.2 with
      | .reg s => if s = barS then Finset.univ.erase 0 else ∅
      | .dma i => match dec i with
        | none => ∅
        | some (a, _, j) => if used a g.1.1 j then {0} else ∅
  unitless _ := False
  amount g _ _ := match g.2 with | .reg _ => 1 | .dma _ => N
  payload g _ d := match g.2 with
    | .reg _ => barPay g.1.1 (px g.1.1 d)
    | .dma i => match dec i with
      | none => iprop(emp)
      | some (a, h, j) => dmaPay m a g.1.1 h j
  amount_pos g _ _ _ := by
    cases g.2 with
    | reg _ => exact Nat.one_pos
    | dma _ => exact N_pos

end Cert.Kernel.AR

end
-- ==== Proof.KernelAR.ProtoC.lean ====
import proofs.«900697_g7700000000000698_dist_ar_v7x_i8_i_m512_n512_f32_1_alg».proof.Proof.KernelAR.ProtoB

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def far : Fin 7 → Fin 8 := ![6, 7, 5, 2, 4, 3, 1]
def near : Fin 7 → Fin 8 := ![1, 3, 4, 2, 5, 7, 6]
theorem far_ne (j : Fin 7) : far j ≠ 0 := by revert j; decide
theorem near_ne (j : Fin 7) : near j ≠ 0 := by revert j; decide
theorem farPos_far (j : Fin 7) : farPos (far j) = j.val := by revert j; decide

section Tables
variable (c : Dev nD) (h : Fin 4)

theorem duties_bar : (Rd (F := F) m).duties (barCell c) 0 = Finset.univ.erase 0 := by
  dsimp only [Rd]; rw [if_neg (by simp)]; exact if_pos rfl
theorem duties_s1 (k : Fin 8) (hk : k ≠ 0) : (Rd (F := F) m).duties (s1Cell c h k) 0 = {0} := by
  dsimp only [Rd]; rw [if_neg (by simp)]; simp only [dec4]; exact if_pos (by unfold used; simpa using hk)
theorem duties_r1 (s : Fin 8) (hs : s ≠ c) : (Rd (F := F) m).duties (r1Cell c h s) 0 = {0} := by
  dsimp only [Rd]; rw [if_neg (by simp)]; simp only [dec5]; exact if_pos (by unfold used; simpa using hs)
theorem duties_s2 (k : Fin 8) (hk : k ≠ 0) : (Rd (F := F) m).duties (s2Cell c h k) 0 = {0} := by
  dsimp only [Rd]; rw [if_neg (by simp)]; simp only [dec6]; exact if_pos (by unfold used; simpa using hk)
theorem duties_r2 (s : Fin 8) (hs : s ≠ c) : (Rd (F := F) m).duties (r2Cell c h s) 0 = {0} := by
  dsimp only [Rd]; rw [if_neg (by simp)]; simp only [dec7]; exact if_pos (by unfold used; simpa using hs)
theorem duties_later (g : GSem nD τ sig) : ∀ r, 1 ≤ r → (Rd (F := F) m).duties g r = ∅ :=
  fun r hr => by dsimp only [Rd]; exact if_pos (Or.inl (by omega))

theorem amount_bar (d : Fin 8) : (Rd (F := F) m).amount (barCell c) 0 d = 1 := rfl
theorem amount_dma (i : DmaSem sig) (d : Fin 8) : (Rd (F := F) m).amount ((c : Thread nD τ), .dma i) 0 d = N := rfl

theorem payload_bar (d : Fin 8) : (Rd (F := F) m).payload (barCell c) 0 d = barPay c (px c d) := rfl
theorem payload_s1 (k : Fin 8) (d : Fin 8) : (Rd (F := F) m).payload (s1Cell c h k) 0 d = s1Pay m c h k := by
  dsimp only [Rd]; simp only [dec4]; rfl
theorem payload_r1 (s : Fin 8) (d : Fin 8) : (Rd (F := F) m).payload (r1Cell c h s) 0 d = r1Pay m c h s := by
  dsimp only [Rd]; simp only [dec5]; rfl
theorem payload_s2 (k : Fin 8) (d : Fin 8) : (Rd (F := F) m).payload (s2Cell c h k) 0 d = s2Pay m c h k := by
  dsimp only [Rd]; simp only [dec6]; rfl
theorem payload_r2 (s : Fin 8) (d : Fin 8) : (Rd (F := F) m).payload (r2Cell c h s) 0 d = r2Pay m c h s := by
  dsimp only [Rd]; simp only [dec7]; rfl

theorem expect_bar : (Rd (F := F) m).expect (barCell c) 0 = 7 := by
  unfold Schedule.expect Schedule.amountOf
  rw [duties_bar, Finset.sum_congr rfl fun d _ => amount_bar m c d, Finset.sum_const, smul_eq_mul, Nat.mul_one]; decide
theorem expect_s1 (k : Fin 8) (hk : k ≠ 0) : (Rd (F := F) m).expect (s1Cell c h k) 0 = N := by
  unfold Schedule.expect Schedule.amountOf; rw [duties_s1 m c h k hk, Finset.sum_singleton]; rfl
theorem expect_r1 (s : Fin 8) (hs : s ≠ c) : (Rd (F := F) m).expect (r1Cell c h s) 0 = N := by
  unfold Schedule.expect Schedule.amountOf; rw [duties_r1 m c h s hs, Finset.sum_singleton]; rfl
theorem expect_s2 (k : Fin 8) (hk : k ≠ 0) : (Rd (F := F) m).expect (s2Cell c h k) 0 = N := by
  unfold Schedule.expect Schedule.amountOf; rw [duties_s2 m c h k hk, Finset.sum_singleton]; rfl
theorem expect_r2 (s : Fin 8) (hs : s ≠ c) : (Rd (F := F) m).expect (r2Cell c h s) 0 = N := by
  unfold Schedule.expect Schedule.amountOf; rw [duties_r2 m c h s hs, Finset.sum_singleton]; rfl

end Tables

def pay (c : Dev nD) (n : ℕ) : CellTallies nD τ sig Unit :=
  if n < 7 then tallyAt (barCell (px c (far ⟨n % 7, Nat.mod_lt _ (by decide)⟩))) () 1
  else if n < 35 then
    tallyAt (r1Cell (px c (far ⟨(n - 7) % 7, Nat.mod_lt _ (by decide)⟩)) ⟨(n - 7) / 7 % 4, Nat.mod_lt _ (by decide)⟩ c) () N
  else tallyAt (r2Cell (px c (far ⟨(n - 35) % 7, Nat.mod_lt _ (by decide)⟩)) ⟨(n - 35) / 7 % 4, Nat.mod_lt _ (by decide)⟩ c) () N

def owedFrom (c : Dev nD) (n : ℕ) : CellTallies nD τ sig Unit := ∑ i ∈ Finset.Ico n 63, pay c i

theorem owedFrom_step (c : Dev nD) (n : ℕ) (hn : n < 63) : owedFrom c n = owedFrom c (n + 1) + pay c n := by
  unfold owedFrom; rw [Finset.sum_eq_sum_Ico_succ_bot hn, add_comm]
theorem owedFrom_end (c : Dev nD) : owedFrom c 63 = 0 := by unfold owedFrom; simp

def O₀ (c : Dev nD) : CellTallies nD τ sig Unit := owedFrom c 0

def L (g : GSem nD τ sig) : Finset Unit := if g.1.2 = .tc then {()} else ∅
def lv (g : GSem nD τ sig) (_ : Unit) : ℕ :=
  match g.2 with
  | .reg s => if s = barS then 1 else 0
  | .dma i => match dec i with
    | some (a, _, _) => if a = 1 then 2 else if a = 3 then 3 else 0
    | none => 0

theorem L_of_ne (g : GSem nD τ sig) (hg : g.1.2 ≠ .tc) : L g = ∅ := if_neg hg
theorem L_tc (c : Dev nD) (sm : SemLoc sig) : L ((c : Thread nD τ), sm) = {()} := if_pos rfl
theorem lv_bar (c : Dev nD) : lv (barCell c) () = 1 := by unfold lv; exact if_pos rfl
theorem lv_r1 (c : Dev nD) (h : Fin 4) (s : Fin 8) : lv (r1Cell c h s) () = 2 := by unfold lv; simp only [dec5]; rfl
theorem lv_r2 (c : Dev nD) (h : Fin 4) (s : Fin 8) : lv (r2Cell c h s) () = 3 := by unfold lv; simp only [dec7]; rfl

end Cert.Kernel.AR

end
-- ==== Proof.KernelAR.ProtoD.lean ====
import proofs.«900697_g7700000000000698_dist_ar_v7x_i8_i_m512_n512_f32_1_alg».proof.Proof.KernelAR.ProtoC

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev CIx : Type := Option (Fin 4 × Fin 4 × Fin 8)
abbrev arr (a : Fin 4) : DmaSems sig S4x8 := match a with
  | ⟨0, _⟩ => cc0_scratch4 | ⟨1, _⟩ => cc0_scratch5 | ⟨2, _⟩ => cc0_scratch6 | _ => cc0_scratch7
abbrev kcell (ck : Dev nD × CIx) : GSem nD τ sig := match ck.2 with
  | none => barCell ck.1
  | some (a, h, j) => ((ck.1 : Thread nD τ), .dma (dsem (arr a) h j))
def usedIx (c : Dev nD) : CIx → Prop
  | none => True
  | some (a, _, j) => used a c j
instance (c : Dev nD) (i : CIx) : Decidable (usedIx c i) := by cases i <;> unfold usedIx <;> infer_instance

def records (K : Dev nD × CIx → ℕ) : sProp 𝕄 :=
  iprop((bigSep (Finset.univ.filter fun ck : Dev nD × CIx => usedIx ck.1 ck.2) fun ck => cellInv ER (Rd m) (K ck) (kcell ck))
    ∗ (bigSep (Finset.univ.filter fun ck : Dev nD × CIx => usedIx ck.1 ck.2) fun ck => reached ER (kcell ck) 0)
    ∗ levAts L lv)

structure Stage where
  paid : ℕ
  sigTodo : Finset (Fin 7)
  barTodo : Bool
  s1Todo : Finset (Fin 4 × Fin 7)
  s1Fly : Finset (Fin 4 × Fin 7)
  s1Done : Finset (Fin 4 × Fin 7)
  r1Todo : Finset (Fin 4 × Fin 7)
  r1Done : Finset (Fin 4 × Fin 7)
  s2Todo : Finset (Fin 4 × Fin 7)
  s2Fly : Finset (Fin 4 × Fin 7)
  s2Done : Finset (Fin 4 × Fin 7)
  r2Todo : Finset (Fin 4 × Fin 7)
  r2Done : Finset (Fin 4 × Fin 7)
  xbRaw : Finset (Fin 4)
  xbHave : Finset (Fin 8 × Fin 4)
  gMine : Finset (Fin 8 × Fin 4)
  gLanded : Finset (Fin 8 × Fin 4)
  gPeer : Finset (Fin 7 × Fin 4)
  aRaw : Finset (Fin 4)
  aSent : Fin 4 → ℕ
  aBack : Finset (Fin 4 × Fin 7)
  oMine : Finset (Fin 8 × Fin 4)
  oLanded : Finset (Fin 8 × Fin 4)
  oPeer : Finset (Fin 7 × Fin 4)
  outDone : Finset (Fin 8 × Fin 4)

def σ₀ : Stage where
  paid := 0
  sigTodo := Finset.univ
  barTodo := true
  s1Todo := Finset.univ
  s1Fly := ∅
  s1Done := ∅
  r1Todo := Finset.univ
  r1Done := ∅
  s2Todo := Finset.univ
  s2Fly := ∅
  s2Done := ∅
  r2Todo := Finset.univ
  r2Done := ∅
  xbRaw := Finset.univ
  xbHave := ∅
  gMine := Finset.univ
  gLanded := ∅
  gPeer := ∅
  aRaw := Finset.univ
  aSent := fun _ => 0
  aBack := ∅
  oMine := Finset.univ
  oLanded := ∅
  oPeer := ∅
  outDone := ∅

section St
variable (K : Dev nD × CIx → ℕ) (σ : Stage) (c : Dev nD)

abbrev closedAt (g : GSem nD τ sig) : sProp 𝕄 := semVal g 0
abbrev waitingAt (g : GSem nD τ sig) (n : ℕ) : sProp 𝕄 := iprop(atPos ER g 0 ∅ 0 ∗ cred (tallyAt g () n))

def stOwes : sProp 𝕄 := iprop(∃ W, owes (c : Thread nD τ) (owedFrom c σ.paid) W)

def unusedSems : sProp 𝕄 :=
  bigSep (Finset.univ.filter fun i : Fin 4 × Fin 4 × Fin 8 => ¬ used i.1 c i.2.2) fun i => semVal ((c : Thread nD τ), .dma (dsem (arr i.1) i.2.1 i.2.2)) 0

def stCells : sProp 𝕄 :=
  iprop((bigSep σ.sigTodo fun j => dutyTok ER (barCell (px c (far j))) 0 (far j))
    ∗ (if σ.barTodo then waitingAt (barCell c) 7 else iprop(emp))
    ∗ (bigSep σ.s1Todo fun hj => iprop(atPos ER (s1Cell c hj.1 (far hj.2)) 0 ∅ 0 ∗ dutyTok ER (s1Cell c hj.1 (far hj.2)) 0 0
          ∗ dutyTok ER (r1Cell (px c (far hj.2)) hj.1 c) 0 0))
    ∗ (bigSep σ.s1Fly fun hj => waitingAt (s1Cell c hj.1 (far hj.2)) N)
    ∗ (bigSep σ.s1Done fun hj => closedAt (s1Cell c hj.1 (far hj.2)))
    ∗ (bigSep σ.r1Todo fun hj => waitingAt (r1Cell c hj.1 (px c (near hj.2))) N)
    ∗ (bigSep σ.r1Done fun hj => closedAt (r1Cell c hj.1 (px c (near hj.2))))
    ∗ (bigSep σ.s2Todo fun hj => iprop(atPos ER (s2Cell c hj.1 (far hj.2)) 0 ∅ 0 ∗ dutyTok ER (s2Cell c hj.1 (far hj.2)) 0 0
          ∗ dutyTok ER (r2Cell (px c (far hj.2)) hj.1 c) 0 0))
    ∗ (bigSep σ.s2Fly fun hj => waitingAt (s2Cell c hj.1 (far hj.2)) N)
    ∗ (bigSep σ.s2Done fun hj => closedAt (s2Cell c hj.1 (far hj.2)))
    ∗ (bigSep σ.r2Todo fun hj => waitingAt (r2Cell c hj.1 (px c (near hj.2))) N)
    ∗ (bigSep σ.r2Done fun hj => closedAt (r2Cell c hj.1 (px c (near hj.2)))))

abbrev slotAny (M : Memref sig .tc .vmem S8x64x512 .bf16) (d : Dev nD) (s : Fin 8) (h : Fin 4) : sProp 𝕄 :=
  iprop(∃ f, (slot M s h).view.loc (d : Thread nD τ) ↦[(slot M s h).view.set]{fullShare} f)

abbrev rX (h : Fin 4) : Rect S512x512 := Rect.unit (s := S512x512) ![0, 128 * h.val] S512x128.size (by revert h; decide)
abbrev rA (h : Fin 4) : Rect S64x512 := Rect.unit (s := S64x512) ![0, 128 * h.val] S64x128.size (inbA h)
abbrev rOwn (p : Fin 8) (h : Fin 4) : Rect S512x512 := Rect.unit (s := S512x512) ![64 * p.val, 128 * h.val] S64x128.size (inbX p h)
abbrev rG (s : Fin 8) (h : Fin 4) : Rect S8x64x512 := Rect.unit (s := S8x64x512) ![s.val, 0, 128 * h.val] S1x64x128.size (inb3 s h)

def stStage : sProp 𝕄 :=
  iprop((((c : Thread nD τ).loc cc0_stg0_0) ↦{fullShare} X m c)
    ∗ (∃ f : Buf (Elt F) ((c : Thread nD τ).loc cc0_stg1_0),
        ⌜∀ kh ∈ σ.outDone, ∀ i ∈ (outM.access (rOwn (px c kh.1) kh.2)).set, f i = outAt (X m) c i⌝ ∗ (((c : Thread nD τ).loc cc0_stg1_0) ↦{fullShare} f)))

def stScratch : sProp 𝕄 :=
  iprop(
    (bigSep σ.xbRaw fun h => iprop(∃ f, (xbM.access (rX h)).loc (c : Thread nD τ) ↦[(xbM.access (rX h)).set]{fullShare} f))
    ∗ (bigSep σ.xbHave fun kh => (xbPiece (px c kh.1) kh.2).view.loc (c : Thread nD τ) ↦[(xbPiece (px c kh.1) kh.2).view.set]{fullShare} XB m c)
    ∗ (bigSep σ.gMine fun kh => slotAny gM c (px c kh.1) kh.2)
    ∗ (bigSep σ.gLanded fun kh => (slot gM (px c kh.1) kh.2).view.loc (c : Thread nD τ) ↦[(slot gM (px c kh.1) kh.2).view.set]{fullShare} G1 m c)
    ∗ (bigSep σ.gPeer fun jh => slotAny gM (px c (far jh.1)) c jh.2)
    ∗ (bigSep σ.aRaw fun h => iprop(∃ f, (aPiece h).view.loc (c : Thread nD τ) ↦[(aPiece h).view.set]{fullShare} f))
    ∗ (bigSep (Finset.univ \ σ.aRaw) fun h => (aPiece h).view.loc (c : Thread nD τ) ↦[(aPiece h).view.set]{remShare (σ.aSent h)} AB m c)
    ∗ (bigSep σ.aBack fun hj => (aPiece hj.1).view.loc (c : Thread nD τ) ↦[(aPiece hj.1).view.set]{lentShare hj.2.val} AB m c)
    ∗ (bigSep σ.oMine fun kh => slotAny oM c (px c kh.1) kh.2)
    ∗ (bigSep σ.oLanded fun kh => (slot oM (px c kh.1) kh.2).view.loc (c : Thread nD τ) ↦[(slot oM (px c kh.1) kh.2).view.set]{fullShare} OB m c)
    ∗ (bigSep σ.oPeer fun jh => slotAny oM (px c (far jh.1)) c jh.2))

def St : sProp 𝕄 := iprop(records m K ∗ stOwes σ c ∗ stCells σ c ∗ unusedSems c ∗ stStage m σ c ∗ stScratch m σ c)

end St

end Cert.Kernel.AR

end
-- ==== Proof.KernelAR.ProtoE.lean ====
import proofs.«900697_g7700000000000698_dist_ar_v7x_i8_i_m512_n512_f32_1_alg».proof.Proof.KernelAR.ProtoD
import proofs.«900697_g7700000000000698_dist_ar_v7x_i8_i_m512_n512_f32_1_alg».proof.Proof.Gen.Kernel.Frame

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev 𝒱₀ : Variants := Variants.none

abbrev osem : Fin 4 × Fin 4 × Fin 8 → SemLoc sig := fun i => .dma (dsem (arr i.1) i.2.1 i.2.2)

def Φ₀ (c : Dev nD) : sProp 𝕄 := iprop(∃ K, records m K ∗ stCells σ₀ c ∗ unusedSems c ∗ stScratch m σ₀ c)
def Φ₁ (c : Dev nD) : sProp 𝕄 := iprop(Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => outAt (X m) c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.AR

end
-- ==== Proof.KernelAR.FrameOf.lean ====
import proofs.«900697_g7700000000000698_dist_ar_v7x_i8_i_m512_n512_f32_1_alg».proof.Defs
import proofs.«900697_g7700000000000698_dist_ar_v7x_i8_i_m512_n512_f32_1_alg».proof.Proof.Gen.Kernel
import proofs.«900697_g7700000000000698_dist_ar_v7x_i8_i_m512_n512_f32_1_alg».proof.Proof.Gen.Pre_finite_inputs_Kernel
import proofs.«900697_g7700000000000698_dist_ar_v7x_i8_i_m512_n512_f32_1_alg».proof.Proof.KernelAR.ProtoE

noncomputable section

namespace Cert.Kernel.AR

open Cert.Kernel Cert.Kernel.Gen
open Idealize.ShloMosaic
open Idealize.ShloMosaic.TcCoe
open Idealize.SL.Sem
open Idealize.ShloMosaic.Pipeline (Dat Cfg Window)

variable {F : FTy → Type} [FloatOps F]

theorem X_eq (m : (ℓ : Loc nD τ sig) → Buf (Elt F) ℓ) (d : Dev nD) : X m d = m ((d : Thread nD τ).loc main_arg0) := by
  unfold X
  exact Memref.read_access_unit_zero (Elt F) main_arg0 (funext fun a => Nat.zero_mul _) _ _

theorem frame_of_run
    (hrun : ∀ (m : (ℓ : Loc nD τ sig) → Buf (Elt F) ℓ) (ρ : Dev nD → PrngReg),
      θ_run defs (onTc (τ := τ) (main (F := F))) (s₀ m ρ) (fun r => ∀ c : Dev nD, ∀ w : Fin cfg0.W,
        r.2.mem ((cfg0.win w).arr.view.loc (c : Thread nD τ)) = (dats m ρ 0 c).arrAt w cfg0.N))
    (hx : ∀ (m : (ℓ : Loc nD τ sig) → Buf (Elt F) ℓ) (ρ : Dev nD → PrngReg) (c : Dev nD),
      (dats (F := F) m ρ 0 c).arrAt (0 : Fin 2) cfg0.N = (s₀ m ρ).mem (win0_0.arr.view.loc (c : Thread nD τ)))
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (hx m ρ c)) (hrun m ρ)

end Cert.Kernel.AR

end
-- ==== Proof.KernelAR.Levels.lean ====
import proofs.«900697_g7700000000000698_dist_ar_v7x_i8_i_m512_n512_f32_1_alg».proof.Proof.KernelAR.ProtoE

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is owed from the `n`-th payment on is owed to barrier cells (level 1) only if `n < 7`, to phase-1 receive cells (level 2) only if `n < 35`, else to phase-2 receive cells (level 3). -/
theorem owedFrom_above {c : Dev nD} {n b : ℕ} (h1 : 1 ≤ b → 7 ≤ n) (h2 : 2 ≤ b → 35 ≤ n) (hb : b < 3)
    {g : GSem nD τ sig} {u : Unit} (h : 0 < owedFrom c n g u) : u ∈ L g ∧ b < lv g u := by
  unfold owedFrom at h
  obtain ⟨i, hi, hp⟩ := Pipeline.sum_pos_exists h
  have hni := (Finset.mem_Ico.mp hi).1
  unfold pay at hp
  split_ifs at hp with h7 h35 <;> obtain ⟨rfl, -⟩ := Pipeline.tallyAt_pos hp <;>
    refine ⟨by rw [L_tc]; exact Finset.mem_singleton_self _, ?_⟩
  · rw [lv_bar]; omega
  · rw [lv_r1]; omega
  · rw [lv_r2]; omega

/-- A device may wait on a cell of its own at level `b` once its barrier units are paid if `b ≥ 1` and its phase-1 copies too if `b ≥ 2`. -/
theorem mayWait_of (c : Dev nD) (sm : SemLoc sig) {n b : ℕ} (hlv : lv ((c : Thread nD τ), sm) () = b)
    (h1 : 1 ≤ b → 7 ≤ n) (h2 : 2 ≤ b → 35 ≤ n) (hb : b < 3) :
    (levAts L lv : sProp 𝕄) ⊢ MayWait (c : Thread nD τ) sm () (owedFrom c n) :=
  Pipeline.mayWait_of_levAts (by rw [L_tc]; exact Finset.mem_singleton_self _) fun g u hg => by
    rw [hlv]; exact owedFrom_above h1 h2 hb hg

theorem mayWait_bar (c : Dev nD) :
    (levAts L lv : sProp 𝕄) ⊢ MayWait (c : Thread nD τ) (.reg barS) () (owedFrom c 7) :=
  mayWait_of c _ (lv_bar c) (fun _ => le_refl _) (fun h => absurd h (by decide)) (by decide)

theorem mayWait_r1 (c : Dev nD) (h : Fin 4) (s : Fin 8) (n : ℕ) (hn : 35 ≤ n) :
    (levAts L lv : sProp 𝕄) ⊢ MayWait (c : Thread nD τ) (.dma (dsem cc0_scratch5 h s)) () (owedFrom c n) :=
  mayWait_of c _ (lv_r1 c h s) (fun _ => by omega) (fun _ => hn) (by decide)

/-- Semaphores 0 and 1 belong to none of the four arrays, so they sit at level 0, below everything a device ever owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact mayWait_of (b := 0) c _ (by unfold lv; simp only [show dec q = none from dif_neg (by omega)]) (fun h => absurd h (by decide))
      (fun h => absurd h (by decide)) (by decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

abbrev fj (n : ℕ) : Fin 7 := ⟨n % 7, Nat.mod_lt _ (by decide)⟩

/-- The semaphores of one 4×8 array are told apart by slab and column. -/
theorem dsem_inj {A : DmaSems sig S4x8} {o : ℕ} (hv : ∀ h j, (dsem A h j).val = o + 8 * h.val + j.val) {h h' : Fin 4} {j j' : Fin 8}
    (e : dsem A h j = dsem A h' j') : h = h' ∧ j = j' := by
  have := congrArg Fin.val e
  rw [hv, hv] at this
  exact ⟨Fin.ext (by omega), Fin.ext (by omega)⟩

theorem barCell_eq {p c : Dev nD} : barCell p = barCell c ↔ p = c :=
  ⟨fun e => congrArg (fun g : GSem nD τ sig => g.1.1) e, fun e => by rw [e]⟩
theorem rCell_eq {A : DmaSems sig S4x8} {o : ℕ} (hv : ∀ h j, (dsem A h j).val = o + 8 * h.val + j.val) {p c : Dev nD} {h h' : Fin 4} {s s' : Fin 8} :
    (((p : Thread nD τ), .dma (dsem A h s)) : GSem nD τ sig) = ((c : Thread nD τ), .dma (dsem A h' s')) ↔ p = c ∧ h = h' ∧ s = s' :=
  ⟨fun e => ⟨congrArg (fun g : GSem nD τ sig => g.1.1) e, dsem_inj hv (SemLoc.dma.inj (congrArg Prod.snd e))⟩,
    fun ⟨e1, e2, e3⟩ => by rw [e1, e2, e3]⟩
theorem bar_ne_dma (p : Dev nD) (t : Thread nD τ) (q : DmaSem sig) : barCell p ≠ (t, .dma q) := fun e => by
  cases congrArg Prod.snd e
theorem r1_ne_r2 (p c : Dev nD) (h h' : Fin 4) (s s' : Fin 8) : r1Cell p h s ≠ r2Cell c h' s' := fun e => by
  have := congrArg Fin.val (SemLoc.dma.inj (congrArg Prod.snd e))
  rw [dsem_val5, dsem_val7] at this
  omega

theorem pay_bar (d : Dev nD) (i : ℕ) (c : Dev nD) :
    pay d i (barCell c) () = if i < 7 ∧ px d (far (fj i)) = c then 1 else 0 := by
  unfold pay
  by_cases h1 : i < 7
  · rw [if_pos h1, tallyAt_apply]
    exact if_congr ⟨fun ⟨e, _⟩ => ⟨h1, (barCell_eq.mp e).symm⟩, fun ⟨_, e⟩ => ⟨barCell_eq.mpr e.symm, rfl⟩⟩ rfl rfl
  · rw [if_neg h1, if_neg (show ¬(i < 7 ∧ px d (far (fj i)) = c) from fun h => h1 h.1)]
    by_cases h2 : i < 35
    · rw [if_pos h2, tallyAt_ne_cell (bar_ne_dma _ _ _)]; rfl
    · rw [if_neg h2, tallyAt_ne_cell (bar_ne_dma _ _ _)]; rfl

theorem pay_r1 (d : Dev nD) (i : ℕ) (c : Dev nD) (h : Fin 4) (s : Fin 8) :
    pay d i (r1Cell c h s) () = if 7 ≤ i ∧ i < 7 + 28 ∧ px d (far (fj (i - 7))) = c ∧ (i - 7) / 7 % 4 = h.val ∧ d = s then N else 0 := by
  unfold pay
  by_cases h1 : i < 7
  · rw [if_pos h1, tallyAt_ne_cell (bar_ne_dma _ _ _).symm, if_neg (fun hh => by omega)]; rfl
  · rw [if_neg h1]
    by_cases h2 : i < 35
    · rw [if_pos h2, tallyAt_apply]
      refine if_congr ⟨fun ⟨e, _⟩ => ?_, fun ⟨_, _, e1, e2, e3⟩ => ⟨(rCell_eq dsem_val5).mpr ⟨e1.symm, Fin.ext e2.symm, e3.symm⟩, rfl⟩⟩ rfl rfl
      obtain ⟨e1, e2, e3⟩ := (rCell_eq dsem_val5).mp e
      exact ⟨by omega, by omega, e1.symm, (congrArg Fin.val e2).symm, e3.symm⟩
    · rw [if_neg h2, tallyAt_ne_cell (r1_ne_r2 _ _ _ _ _ _), if_neg (fun hh => by omega)]; rfl

theorem pay_r2 (d : Dev nD) (i : ℕ) (hi : i < 63) (c : Dev nD) (h : Fin 4) (s : Fin 8) :
    pay d i (r2Cell c h s) () = if 35 ≤ i ∧ i < 35 + 28 ∧ px d (far (fj (i - 35))) = c ∧ (i - 35) / 7 % 4 = h.val ∧ d = s then N else 0 := by
  unfold pay
  by_cases h1 : i < 7
  · rw [if_pos h1, tallyAt_ne_cell (bar_ne_dma _ _ _).symm, if_neg (fun hh => by omega)]; rfl
  · rw [if_neg h1]
    by_cases h2 : i < 35
    · rw [if_pos h2, tallyAt_ne_cell (r1_ne_r2 _ _ _ _ _ _).symm, if_neg (fun hh => by omega)]; rfl
    · rw [if_neg h2, tallyAt_apply]
      refine if_congr ⟨fun ⟨e, _⟩ => ?_, fun ⟨_, _, e1, e2, e3⟩ => ⟨(rCell_eq dsem_val7).mpr ⟨e1.symm, Fin.ext e2.symm, e3.symm⟩, rfl⟩⟩ rfl rfl
      obtain ⟨e1, e2, e3⟩ := (rCell_eq dsem_val7).mp e
      exact ⟨by omega, by omega, e1.symm, (congrArg Fin.val e2).symm, e3.symm⟩

theorem O₀_apply (d : Dev nD) (g : GSem nD τ sig) : O₀ d g () = ∑ i ∈ Finset.Ico 0 63, pay d i g () := by
  unfold O₀ owedFrom; rw [Finset.sum_apply, Finsupp.finsetSum_apply]

theorem farPos_lt {k : Fin 8} (hk : k ≠ 0) : farPos k < 7 := by revert k; decide
theorem far_of_pos {k : Fin 8} (hk : k ≠ 0) {j : Fin 7} (hj : j.val = farPos k) : far j = k := by revert k j; decide
theorem mk_ne_zero {s c : Dev nD} (h : s ≠ c) : mk s c ≠ 0 := by revert s c; decide
theorem px_eq_iff (d c : Dev nD) (k : Fin 8) : px d k = c ↔ d = px c k :=
  ⟨fun e => by rw [← e, px_px], fun e => by rw [e, px_px]⟩
theorem px_eq_mk {s c : Dev nD} {k : Fin 8} (e : px s k = c) : k = mk s c := by rw [← e, mk_px]

/-- Seven devices each owe a barrier cell one unit: for each of the seven masks, the partner under it. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  have hin : ∀ i, ∑ d : Dev nD, pay d i (barCell c) () = if i < 7 then 1 else 0 := fun i => by
    by_cases h1 : i < 7
    · rw [if_pos h1, Finset.sum_eq_single (px c (far (fj i)))]
      · rw [pay_bar, if_pos ⟨h1, px_px _ _⟩]
      · intro d _ hd; rw [pay_bar]; exact if_neg fun hh => hd ((px_eq_iff _ _ _).mp hh.2)
      · intro hn; exact absurd (Finset.mem_univ _) hn
    · rw [if_neg h1]; exact Finset.sum_eq_zero fun d _ => by rw [pay_bar]; exact if_neg fun hh => h1 hh.1
  rw [Pipeline.launchCredit_owing, Finsupp.single_eq_same, Finset.sum_congr rfl fun d _ => O₀_apply d (barCell c), Finset.sum_comm,
    Finset.sum_congr rfl fun i _ => hin i]
  decide

/-- A used receive cell is owed one slot's transfer, by its sender alone: of the sender's payments from `o` on exactly one lands on it, at slab `h` and the place of the mask that takes the sender to the receiver. -/
theorem launch_recv (g : GSem nD τ sig) (c : Dev nD) (h : Fin 4) (s : Fin 8) (hs : s ≠ c) (o : ℕ) (ho : o + 28 ≤ 63)
    (hpay : ∀ d i, i < 63 → pay d i g () = if o ≤ i ∧ i < o + 28 ∧ px d (far (fj (i - o))) = c ∧ (i - o) / 7 % 4 = h.val ∧ d = s then N else 0) :
    tallyOn g (launchCredit (Pipeline.owing O₀) 0 g) = (tallyAt g () N : CellTallies nD τ sig Unit) := by
  unfold tallyAt; refine congrArg _ (Finsupp.ext fun u => ?_); cases u
  have hk := mk_ne_zero hs
  have hlt := farPos_lt hk
  have hh := h.isLt
  rw [Pipeline.launchCredit_owing, Finsupp.single_eq_same, Finset.sum_eq_single (s : Dev nD)]
  · rw [O₀_apply, Finset.sum_eq_single_of_mem (o + 7 * h.val + farPos (mk s c)) (Finset.mem_Ico.mpr ⟨Nat.zero_le _, by omega⟩)]
    · rw [hpay _ _ (by omega), if_pos]
      refine ⟨by omega, by omega, ?_, by omega, rfl⟩
      rw [far_of_pos hk (j := fj (o + 7 * h.val + farPos (mk s c) - o)) (by show _ % 7 = _; omega), px_mk]
    · intro i hi hne
      rw [hpay _ i (Finset.mem_Ico.mp hi).2]
      refine if_neg fun ⟨h1, h2, h3, h4, _⟩ => hne ?_
      have e2 := farPos_far (fj (i - o))
      rw [px_eq_mk h3] at e2
      have e3 : (fj (i - o)).val = (i - o) % 7 := rfl
      omega
  · intro d _ hd
    rw [O₀_apply]
    exact Finset.sum_eq_zero fun i hi => by rw [hpay d i (Finset.mem_Ico.mp hi).2]; exact if_neg fun hh => hd hh.2.2.2.2
  · intro hn; exact absurd (Finset.mem_univ _) hn

end Cert.Kernel.AR

end
-- ==== Proof.KernelAR.Creds.lean ====
import proofs.«900697_g7700000000000698_dist_ar_v7x_i8_i_m512_n512_f32_1_alg».proof.Proof.KernelAR.Levels

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
abbrev ksem (i : CIx) : SemLoc sig := match i with
  | none => .reg barS
  | some (a, h, j) => .dma (dsem (arr a) h j)
theorem kcell_eq (c : Dev nD) (i : CIx) : kcell (c, i) = ((c : Thread nD τ), ksem i) := by rcases i with _ | ⟨a, h, j⟩ <;> rfl
theorem dsem_val (a h : Fin 4) (j : Fin 8) : (dsem (arr a) h j).val = 2 + 32 * a.val + 8 * h.val + j.val := by revert a h j; decide
/-- The indexed cells have distinct semaphores: the DMA semaphores are numbered array by array and slab by slab, and the barrier's is none of them. -/
theorem ksem_injective : Function.Injective ksem := by
  rintro (_ | ⟨a, h, j⟩) (_ | ⟨a', h', j'⟩) e
  · rfl
  · cases e
  · cases e
  · have := congrArg Fin.val (SemLoc.dma.inj e)
    rw [dsem_val, dsem_val] at this
    rw [show a = a' from Fin.ext (by omega), show h = h' from Fin.ext (by omega), show j = j' from Fin.ext (by omega)]

omit [FloatOps F] in
theorem bigSep_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x; cases x <;> simp
  rw [bigSep_univ_split none, h, bigSep_map]; rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem used0 (c : Dev nD) (j : Fin 8) : used 0 c j ↔ j ≠ 0 := by unfold used; simp
theorem used1 (c : Dev nD) (j : Fin 8) : used 1 c j ↔ j ≠ c := by unfold used; simp
theorem used2 (c : Dev nD) (j : Fin 8) : used 2 c j ↔ j ≠ 0 := by unfold used; simp
theorem used3 (c : Dev nD) (j : Fin 8) : used 3 c j ↔ j ≠ c := by unfold used; simp

omit [FloatOps F] in
/-- One device's used cells are its barrier cell and its used DMA cells. -/
theorem bigSep_used_split (c : Dev nD) (Φ : CIx → sProp 𝕄) :
    bigSep (Finset.univ.filter (usedIx c)) Φ
      = iprop(Φ none ∗ bigSep (Finset.univ.filter fun i : Fin 4 × Fin 4 × Fin 8 => used i.1 c i.2.2) fun i => Φ (some i)) := by
  rw [bigSep_filter, bigSep_option, if_pos (show usedIx c none from trivial), bigSep_filter]
  exact congrArg _ (bigSep_congr fun i _ => if_congr Iff.rfl rfl rfl)

omit [FloatOps F] in
/-- A family over the nonzero masks, in an order `e` that lists them. -/
theorem bigSep_masks (e : Fin 7 ↪ Fin 8) (he : (Finset.univ.filter fun k : Fin 8 => k ≠ 0) = Finset.univ.map e) (Ψ : Fin 8 → sProp 𝕄) :
    (bigSep Finset.univ fun k : Fin 8 => if k ≠ 0 then Ψ k else BI.emp) = bigSep Finset.univ fun j : Fin 7 => Ψ (e j) := by
  rw [← bigSep_filter, he, bigSep_map]

def pxE (c : Dev nD) : Fin 8 ≃ Dev nD := ⟨px c, mk c, mk_px c, px_mk c⟩
theorem px_ne_iff (c : Dev nD) (k : Fin 8) : px c k ≠ c ↔ k ≠ 0 :=
  ⟨fun h hk => h (by rw [hk, px_zero]), px_ne c k⟩

omit [FloatOps F] in
/-- The devices other than `c` are its partners under the nonzero masks. -/
theorem bigSep_others (c : Dev nD) (Ψ : Fin 8 → sProp 𝕄) :
    (bigSep Finset.univ fun s : Dev nD => if s ≠ c then Ψ s else BI.emp)
      = bigSep Finset.univ fun k : Fin 8 => if k ≠ 0 then Ψ (px c k) else BI.emp := by
  rw [bigSep_univ_equiv (pxE c) (fun s : Dev nD => if s ≠ c then Ψ s else BI.emp)]
  exact bigSep_congr fun k _ => by
    show (if px c k ≠ c then Ψ (px c k) else BI.emp) = _
    simp only [px_ne_iff]

omit [FloatOps F] in
theorem bigSep_slab_far (Θ : Fin 4 → Fin 8 → sProp 𝕄) :
    (bigSep Finset.univ fun h : Fin 4 => bigSep Finset.univ fun j : Fin 8 => if j ≠ 0 then Θ h j else BI.emp)
      = bigSep Finset.univ fun hj : Fin 4 × Fin 7 => Θ hj.1 (far hj.2) := by
  rw [bigSep_univ_prod]; exact bigSep_congr fun h _ => bigSep_masks ⟨far, by decide⟩ (by decide) (Θ h)
omit [FloatOps F] in
theorem bigSep_slab_near (c : Dev nD) (Θ : Fin 4 → Fin 8 → sProp 𝕄) :
    (bigSep Finset.univ fun h : Fin 4 => bigSep Finset.univ fun s : Dev nD => if s ≠ c then Θ h s else BI.emp)
      = bigSep Finset.univ fun hj : Fin 4 × Fin 7 => Θ hj.1 (px c (near hj.2)) := by
  rw [bigSep_univ_prod]
  exact bigSep_congr fun h _ => (bigSep_others c (Θ h)).trans (bigSep_masks ⟨near, by decide⟩ (by decide) fun k => Θ h (px c k))

omit [FloatOps F] in
/-- One device's used cells in the order of its program: send columns in sending order, receive columns in waiting order. -/
theorem bigSep_used' (c : Dev nD) (Φ : CIx → sProp 𝕄) :
    bigSep (Finset.univ.filter (usedIx c)) Φ = iprop(Φ none
      ∗ (bigSep Finset.univ fun hj : Fin 4 × Fin 7 => Φ (some (0, hj.1, far hj.2)))
      ∗ (bigSep Finset.univ fun hj : Fin 4 × Fin 7 => Φ (some (1, hj.1, px c (near hj.2))))
      ∗ (bigSep Finset.univ fun hj : Fin 4 × Fin 7 => Φ (some (2, hj.1, far hj.2)))
      ∗ (bigSep Finset.univ fun hj : Fin 4 × Fin 7 => Φ (some (3, hj.1, px c (near hj.2))))) := by
  rw [bigSep_used_split, bigSep_filter, bigSep_univ_prod, bigSep_fin4]
  simp only [bigSep_univ_prod, used0, used1, used2, used3]
  rw [bigSep_slab_far (fun h j => Φ (some (0, h, j))), bigSep_slab_far (fun h j => Φ (some (2, h, j))),
    bigSep_slab_near c (fun h j => Φ (some (1, h, j))), bigSep_slab_near c (fun h j => Φ (some (3, h, j)))]
  simp only [bigSep_univ_prod]

/-- The credit of a device's waits: seven units at its barrier cell, one slot's transfer at each used receive cell. -/
def waitCreds (c : Dev nD) : sProp 𝕄 :=
  iprop(cred (tallyAt (barCell c) () 7)
    ∗ (bigSep (Finset.univ : Finset (Fin 4 × Fin 7)) fun hj => cred (tallyAt (r1Cell c hj.1 (px c (near hj.2))) () N))
    ∗ (bigSep (Finset.univ : Finset (Fin 4 × Fin 7)) fun hj => cred (tallyAt (r2Cell c hj.1 (px c (near hj.2))) () N)))

/-- The launch deals a device the credit of its waits: its used cells have distinct semaphores, and what is dealt for a send cell is let go. -/
theorem creds (c : Dev nD) : (Pipeline.launchCred O₀ c : sProp 𝕄) ⊢ waitCreds c := by
  unfold Pipeline.launchCred waitCreds
  have hsub := bigSep_subset (Finset.subset_univ ((Finset.univ.filter (usedIx c)).map ⟨ksem, ksem_injective⟩))
    (Φ := fun sm : SemLoc sig => (cred (tallyOn ((c : Thread nD τ), sm) (launchCredit (Pipeline.owing O₀) 0 ((c : Thread nD τ), sm))) : sProp 𝕄))
  rw [bigSep_map, bigSep_used' c] at hsub
  refine hsub.trans (show _ ⊢ (_ : sProp 𝕄) from ?_)
  iintro ⟨Hb, -, H1, -, H2⟩
  isplitl [Hb]
  · iapply (Entails.of_eq (congrArg cred (launch_bar c))); iexact Hb
  isplitl [H1]
  · iapply (Entails.of_eq (bigSep_congr fun (hj : Fin 4 × Fin 7) _ => congrArg cred
      (launch_recv _ c hj.1 _ (px_ne c _ (near_ne hj.2)) 7 (by decide) fun d i _ => pay_r1 d i c hj.1 _))); iexact H1
  · iapply (Entails.of_eq (bigSep_congr fun (hj : Fin 4 × Fin 7) _ => congrArg cred
      (launch_recv _ c hj.1 _ (px_ne c _ (near_ne hj.2)) 35 (by decide) fun d i hi => pay_r2 d i hi c hj.1 _))); iexact H2

end Cert.Kernel.AR

end
-- ==== Proof.KernelAR.Geometry.lean ====
import proofs.«900697_g7700000000000698_dist_ar_v7x_i8_i_m512_n512_f32_1_alg».proof.Proof.KernelAR.ProtoE
import Idealize.ShloMosaic.Lib.Pipeline.Value

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep_fin_last (P : ℕ → sProp 𝕄) (n : ℕ) :
    (bigSep (Finset.univ : Finset (Fin (n + 1))) fun j => P j.val)
      = iprop(P n ∗ bigSep (Finset.univ : Finset (Fin n)) fun j => P j.val) := by
  rw [Fin.univ_castSuccEmb, Finset.cons_eq_insert, bigSep_insert (by simp), bigSep_map]
  rfl

theorem a_share_step (c : Dev nD) (h : Fin 4) (n : ℕ) (g : Buf (Elt F) ((aPiece h).view.loc (c : Thread nD τ))) :
    ((aPiece h).view.loc (c : Thread nD τ) ↦[(aPiece h).view.set]{remShare n} g : sProp 𝕄)
      ⊣⊢ iprop(((aPiece h).view.loc (c : Thread nD τ) ↦[(aPiece h).view.set]{remShare (n + 1)} g)
          ∗ ((aPiece h).view.loc (c : Thread nD τ) ↦[(aPiece h).view.set]{lentShare n} g)) :=
  pointsTo_share (PosShare.mem_left_op_right (remShare n))

/-- What is left of a slab after `n` sends, with the `n` shares lent, is the whole slab. -/
theorem a_shares_join (c : Dev nD) (h : Fin 4) (g : Buf (Elt F) ((aPiece h).view.loc (c : Thread nD τ))) (n : ℕ) :
    iprop(((aPiece h).view.loc (c : Thread nD τ) ↦[(aPiece h).view.set]{remShare n} g)
        ∗ bigSep (Finset.univ : Finset (Fin n)) fun j => (aPiece h).view.loc (c : Thread nD τ) ↦[(aPiece h).view.set]{lentShare j.val} g)
      ⊢ ((aPiece h).view.loc (c : Thread nD τ) ↦[(aPiece h).view.set]{fullShare} g : sProp 𝕄) := by
  induction n with
  | zero =>
    iintro ⟨H, -⟩
    iexact H
  | succ n ih =>
    rw [bigSep_fin_last (fun k => ((aPiece h).view.loc (c : Thread nD τ) ↦[(aPiece h).view.set]{lentShare k} g : sProp 𝕄)) n]
    iintro ⟨H, Hl, Hs⟩
    iapply ih
    isplitl [H Hl]
    · iapply (a_share_step c h n g).2
      isplitl [H]
      · iexact H
      · iexact Hl
    · iexact Hs

section Cut

variable {ℓ : Loc nD τ sig} {T : Type} [Fintype T] [DecidableEq T] (K : T → Finset (Idx ℓ))
  (hd : ∀ t t', t ≠ t' → Disjoint (K t) (K t')) (hc : Finset.univ.biUnion K = Finset.univ)
include hd hc
theorem cut_eq (q : PosShare TreeShare) (f : Buf (Elt F) ℓ) :
    (ℓ ↦{q} f : sProp 𝕄) = bigSep Finset.univ fun t => ℓ ↦[K t]{q} f := by
  rw [← pointsTo_biUnion Finset.univ K (fun t _ t' _ h => hd t t' h), hc]
/-- Held whole at some contents it is held piece by piece, each piece at some contents; and such pieces join to the whole. -/
theorem cut_any [Nonempty T] (q : PosShare TreeShare) :
    (iprop(∃ f, ℓ ↦{q} f) : sProp 𝕄) ⊣⊢ bigSep Finset.univ fun t => iprop(∃ f, ℓ ↦[K t]{q} f) := by
  constructor
  ·
    iintro ⟨%f, H⟩
    have h : (ℓ ↦{q} f : sProp 𝕄) ⊢ bigSep Finset.univ fun t => iprop(∃ f, ℓ ↦[K t]{q} f) := by
      rw [cut_eq K hd hc q f]
      exact bigSep_mono fun t _ => (show (ℓ ↦[K t]{q} f : sProp 𝕄) ⊢ iprop(∃ f, ℓ ↦[K t]{q} f) from by
        iintro H; iexists f; iexact H)
    iapply h
    iexact H
  ·
    obtain ⟨t₀⟩ := ‹Nonempty T›
    have e : bigSep Finset.univ (fun t => iprop(∃ f, ℓ ↦[K t]{q} f))
        = (iprop((∃ f, ℓ ↦[K t₀]{q} f) ∗ bigSep (Finset.univ.erase t₀) fun t => iprop(∃ f, ℓ ↦[K t]{q} f)) : sProp 𝕄) :=
      bigSep_univ_split t₀
    refine (show bigSep Finset.univ (fun t => iprop(∃ f, ℓ ↦[K t]{q} f))
        ⊢ (iprop(∃ f₀ : Buf (Elt F) ℓ, bigSep Finset.univ (fun t => iprop(∃ f, ℓ ↦[K t]{q} f))) : sProp 𝕄) from ?_).trans ?_
    · rw [e]
      iintro ⟨⟨%f₀, H0⟩, Hr⟩
      iexists f₀
      isplitl [H0]
      · iexists f₀; iexact H0
      · iexact Hr
    · iintro ⟨%f₀, H⟩
      have : Nonempty (Buf (Elt F) ℓ) := ⟨f₀⟩
      ihave H := (bigSep_exists_pi Finset.univ (fun t (f : Buf (Elt F) ℓ) => (ℓ ↦[K t]{q} f : sProp 𝕄))) $$ H
      icases H with ⟨%fs, H⟩
      ihave H := (pointsTo_biUnion_join Finset.univ K fs f₀ (fun t _ t' _ h => hd t t' h)) $$ H
      icases H with ⟨%g, -, H⟩
      rw [hc]
      iexists g
      iexact H

end Cut

/-- Two different column slabs are 128 columns apart. -/
theorem slab_sep {h h' : Fin 4} (hne : h ≠ h') : 128 * h.val + 128 ≤ 128 * h'.val ∨ 128 * h'.val + 128 ≤ 128 * h.val := by
  have : h.val ≠ h'.val := fun e => hne (Fin.ext e)
  omega

theorem rG_disjoint (sh sh' : Fin 8 × Fin 4) (hne : sh ≠ sh') : Disjoint (rG sh.1 sh.2).set (rG sh'.1 sh'.2).set := by
  by_cases hs : sh.1 = sh'.1
  · exact Rect.unit_disjoint (2 : Fin 3) (slab_sep fun e => hne (Prod.ext hs e))
  · have hv : sh.1.val ≠ sh'.1.val := fun e => hs (Fin.ext e)
    refine Rect.unit_disjoint (0 : Fin 3) ?_
    show sh.1.val + 1 ≤ sh'.1.val ∨ sh'.1.val + 1 ≤ sh.1.val
    omega

theorem rG_cover : (Finset.univ.biUnion fun sh : Fin 8 × Fin 4 => (rG sh.1 sh.2).set) = Finset.univ := by
  ext i
  have h0 : (i 0).val < 8 := (i 0).isLt
  have h1 : (i 1).val < 64 := (i 1).isLt
  have h2 : (i 2).val < 512 := (i 2).isLt
  simp only [Finset.mem_biUnion, Finset.mem_univ, true_and, iff_true]
  refine ⟨(⟨(i 0).val, h0⟩, ⟨(i 2).val / 128, by omega⟩), ?_⟩
  rw [Rect.mem_set_unit]
  intro a
  fin_cases a
  · show (i 0).val ≤ (i 0).val ∧ (i 0).val < (i 0).val + 1
    omega
  · show 0 ≤ (i 1).val ∧ (i 1).val < 0 + 64
    omega
  · show 128 * ((i 2).val / 128) ≤ (i 2).val ∧ (i 2).val < 128 * ((i 2).val / 128) + 128
    omega

section Slots

variable (M : Memref sig .tc .vmem S8x64x512 .bf16)

theorem slot_set (s : Fin 8) (h : Fin 4) :
    ((slot M s h).view.set : Finset M.view.ty.Idx) = (rG s h).set.map M.view.emb :=
  (View.set_reshape (M.view.slice (rG s h)) _).trans (View.set_slice M.view (rG s h))

theorem slots_disjoint (sh sh' : Fin 8 × Fin 4) (hne : sh ≠ sh') :
    Disjoint ((slot M sh.1 sh.2).view.set : Finset M.view.ty.Idx) (slot M sh'.1 sh'.2).view.set := by
  rw [slot_set, slot_set]
  exact (Finset.disjoint_map _).mpr (rG_disjoint sh sh' hne)

theorem slots_cover (hM : M.view.set = Finset.univ) :
    (Finset.biUnion (β := M.view.ty.Idx) Finset.univ fun sh : Fin 8 × Fin 4 => (slot M sh.1 sh.2).view.set) = Finset.univ := by
  rw [← hM]
  apply Finset.ext
  intro j
  constructor
  · intro hj
    obtain ⟨sh, -, hj⟩ := Finset.mem_biUnion.mp hj
    rw [slot_set] at hj
    obtain ⟨x, -, rfl⟩ := Finset.mem_map.mp hj
    exact M.view.emb_mem_set x
  · intro hj
    obtain ⟨x, -, rfl⟩ := Finset.mem_map.mp hj
    have hx : x ∈ Finset.univ.biUnion fun sh : Fin 8 × Fin 4 => (rG sh.1 sh.2).set := by
      rw [rG_cover]; exact Finset.mem_univ x
    obtain ⟨sh, -, hx⟩ := Finset.mem_biUnion.mp hx
    exact Finset.mem_biUnion.mpr ⟨sh, Finset.mem_univ _, by rw [slot_set]; exact Finset.mem_map_of_mem _ hx⟩

end Slots

theorem g_cut (d : Dev nD) :
    (iprop(∃ f, ((d : Thread nD τ).loc cc0_scratch1) ↦{fullShare} f) : sProp 𝕄)
      ⊣⊢ bigSep Finset.univ fun sh : Fin 8 × Fin 4 => slotAny (F := F) gM d sh.1 sh.2 :=
  cut_any (ℓ := (d : Thread nD τ).loc cc0_scratch1) (fun sh : Fin 8 × Fin 4 => (slot gM sh.1 sh.2).view.set)
    (slots_disjoint gM) (slots_cover gM (View.set_whole _)) fullShare

theorem o_cut (d : Dev nD) :
    (iprop(∃ f, ((d : Thread nD τ).loc cc0_scratch3) ↦{fullShare} f) : sProp 𝕄)
      ⊣⊢ bigSep Finset.univ fun sh : Fin 8 × Fin 4 => slotAny (F := F) oM d sh.1 sh.2 :=
  cut_any (ℓ := (d : Thread nD τ).loc cc0_scratch3) (fun sh : Fin 8 × Fin 4 => (slot oM sh.1 sh.2).view.set)
    (slots_disjoint oM) (slots_cover oM (View.set_whole _)) fullShare

theorem rX_cover : (Finset.univ.biUnion fun h : Fin 4 => (rX h).set) = Finset.univ := by
  ext i
  have h0 : (i 0).val < 512 := (i 0).isLt
  have h1 : (i 1).val < 512 := (i 1).isLt
  simp only [Finset.mem_biUnion, Finset.mem_univ, true_and, iff_true]
  refine ⟨⟨(i 1).val / 128, by omega⟩, ?_⟩
  rw [Rect.mem_set_unit]
  intro a
  fin_cases a
  · show 0 ≤ (i 0).val ∧ (i 0).val < 0 + 512
    omega
  · show 128 * ((i 1).val / 128) ≤ (i 1).val ∧ (i 1).val < 128 * ((i 1).val / 128) + 128
    omega

theorem rOwn_disjoint (ph ph' : Fin 8 × Fin 4) (hne : ph ≠ ph') : Disjoint (rOwn ph.1 ph.2).set (rOwn ph'.1 ph'.2).set := by
  by_cases hp : ph.1 = ph'.1
  · exact Rect.unit_disjoint (1 : Fin 2) (slab_sep fun e => hne (Prod.ext hp e))
  · have hv : ph.1.val ≠ ph'.1.val := fun e => hp (Fin.ext e)
    refine Rect.unit_disjoint (0 : Fin 2) ?_
    show 64 * ph.1.val + 64 ≤ 64 * ph'.1.val ∨ 64 * ph'.1.val + 64 ≤ 64 * ph.1.val
    omega

theorem rOwn_cover : (Finset.univ.biUnion fun ph : Fin 8 × Fin 4 => (rOwn ph.1 ph.2).set) = Finset.univ := by
  ext i
  have h0 : (i 0).val < 512 := (i 0).isLt
  have h1 : (i 1).val < 512 := (i 1).isLt
  simp only [Finset.mem_biUnion, Finset.mem_univ, true_and, iff_true]
  refine ⟨(⟨(i 0).val / 64, by omega⟩, ⟨(i 1).val / 128, by omega⟩), ?_⟩
  rw [Rect.mem_set_unit]
  intro a
  fin_cases a
  · show 64 * ((i 0).val / 64) ≤ (i 0).val ∧ (i 0).val < 64 * ((i 0).val / 64) + 64
    omega
  · show 128 * ((i 1).val / 128) ≤ (i 1).val ∧ (i 1).val < 128 * ((i 1).val / 128) + 128
    omega
theorem rOwn_cover_slab (h : Fin 4) : (Finset.univ.biUnion fun p : Fin 8 => (rOwn p h).set) = (rX h).set := by
  ext i
  have h0 : (i 0).val < 512 := (i 0).isLt
  simp only [Finset.mem_biUnion, Finset.mem_univ, true_and, Rect.mem_set_unit]
  constructor
  · rintro ⟨p, hp⟩ a
    have hp1 : 128 * h.val ≤ (i 1).val ∧ (i 1).val < 128 * h.val + 128 := hp 1
    fin_cases a
    · show 0 ≤ (i 0).val ∧ (i 0).val < 0 + 512
      omega
    · exact hp1
  · intro hi
    have hi1 : 128 * h.val ≤ (i 1).val ∧ (i 1).val < 128 * h.val + 128 := hi 1
    refine ⟨⟨(i 0).val / 64, by omega⟩, fun a => ?_⟩
    fin_cases a
    · show 64 * ((i 0).val / 64) ≤ (i 0).val ∧ (i 0).val < 64 * ((i 0).val / 64) + 64
      omega
    · exact hi1

theorem xbSlab_set (h : Fin 4) : ((xbM.access (rX h)).set : Finset xbM.view.ty.Idx) = (rX h).set :=
  View.set_slice_whole cc0_scratch0 (rX h)
theorem xbPiece_set (p : Fin 8) (h : Fin 4) : ((xbPiece p h).view.set : Finset xbM.view.ty.Idx) = (rOwn p h).set :=
  View.set_slice_whole cc0_scratch0 (rOwn p h)

theorem xb_split (c : Dev nD) :
    (iprop(∃ f, ((c : Thread nD τ).loc cc0_scratch0) ↦{fullShare} f) : sProp 𝕄)
      ⊢ bigSep Finset.univ fun h : Fin 4 =>
          iprop(∃ f, (xbM.access (rX h)).loc (c : Thread nD τ) ↦[(xbM.access (rX h)).set]{fullShare} f) :=
  (cut_any (ℓ := (c : Thread nD τ).loc cc0_scratch0) (fun h : Fin 4 => (xbM.access (rX h)).set)
    (fun h h' hne => by rw [xbSlab_set, xbSlab_set]; exact Rect.unit_disjoint (1 : Fin 2) (slab_sep hne))
    ((Finset.biUnion_congr rfl fun h _ => xbSlab_set h).trans rX_cover) fullShare).1

theorem xb_slab_pieces (c : Dev nD) (h : Fin 4) (g : Buf (Elt F) ((c : Thread nD τ).loc cc0_scratch0)) :
    ((xbM.access (rX h)).loc (c : Thread nD τ) ↦[(xbM.access (rX h)).set]{fullShare} g : sProp 𝕄)
      ⊣⊢ bigSep Finset.univ fun p : Fin 8 =>
          (xbPiece p h).view.loc (c : Thread nD τ) ↦[(xbPiece p h).view.set]{fullShare} g := by
  rw [show ((xbM.access (rX h)).set : Finset xbM.view.ty.Idx)
      = Finset.biUnion (β := xbM.view.ty.Idx) Finset.univ fun p : Fin 8 => (xbPiece p h).view.set from by
        rw [xbSlab_set, ← rOwn_cover_slab h]
        exact (Finset.biUnion_congr rfl fun p _ => xbPiece_set p h).symm,
    pointsTo_biUnion (ℓ := (c : Thread nD τ).loc cc0_scratch0) Finset.univ (fun p : Fin 8 => (xbPiece p h).view.set)
      (fun p _ p' _ hne => by
        rw [xbPiece_set, xbPiece_set]
        exact rOwn_disjoint (p, h) (p', h) fun e => hne (congrArg Prod.fst e))]

theorem xb_join (c : Dev nD) (g : Buf (Elt F) ((c : Thread nD τ).loc cc0_scratch0)) :
    (bigSep Finset.univ fun ph : Fin 8 × Fin 4 =>
        (xbPiece ph.1 ph.2).view.loc (c : Thread nD τ) ↦[(xbPiece ph.1 ph.2).view.set]{fullShare} g : sProp 𝕄)
      ⊢ iprop(∃ f, ((c : Thread nD τ).loc cc0_scratch0) ↦{fullShare} f) := by
  rw [← cut_eq (ℓ := (c : Thread nD τ).loc cc0_scratch0) (fun ph : Fin 8 × Fin 4 => (xbPiece ph.1 ph.2).view.set)
    (fun ph ph' hne => by rw [xbPiece_set, xbPiece_set]; exact rOwn_disjoint ph ph' hne)
    ((Finset.biUnion_congr rfl fun ph _ => xbPiece_set ph.1 ph.2).trans rOwn_cover) fullShare g]
  iintro H
  iexists g
  iexact H

theorem rA_cover : (Finset.univ.biUnion fun h : Fin 4 => (rA h).set) = Finset.univ := by
  ext i
  have h0 : (i 0).val < 64 := (i 0).isLt
  have h1 : (i 1).val < 512 := (i 1).isLt
  simp only [Finset.mem_biUnion, Finset.mem_univ, true_and, iff_true]
  refine ⟨⟨(i 1).val / 128, by omega⟩, ?_⟩
  rw [Rect.mem_set_unit]
  intro a
  fin_cases a
  · show 0 ≤ (i 0).val ∧ (i 0).val < 0 + 64
    omega
  · show 128 * ((i 1).val / 128) ≤ (i 1).val ∧ (i 1).val < 128 * ((i 1).val / 128) + 128
    omega

theorem aPiece_set (h : Fin 4) : ((aPiece h).view.set : Finset aM.view.ty.Idx) = (rA h).set :=
  View.set_slice_whole cc0_scratch2 (rA h)

theorem a_disjoint (h h' : Fin 4) (hne : h ≠ h') : Disjoint ((aPiece h).view.set : Finset aM.view.ty.Idx) (aPiece h').view.set := by
  rw [aPiece_set, aPiece_set]; exact Rect.unit_disjoint (1 : Fin 2) (slab_sep hne)

theorem a_cut (c : Dev nD) :
    (iprop(∃ f, ((c : Thread nD τ).loc cc0_scratch2) ↦{fullShare} f) : sProp 𝕄)
      ⊣⊢ bigSep Finset.univ fun h : Fin 4 =>
          iprop(∃ f, (aPiece h).view.loc (c : Thread nD τ) ↦[(aPiece h).view.set]{fullShare} f) :=
  cut_any (ℓ := (c : Thread nD τ).loc cc0_scratch2) (fun h : Fin 4 => (aPiece h).view.set) a_disjoint
    ((Finset.biUnion_congr rfl fun h _ => aPiece_set h).trans rA_cover) fullShare

/-- Re-indexing a family over masks by `k ↦ c xor k`, a bijection, does not change what it holds altogether. -/
theorem bigSep_px (c : Dev nD) (Φ : Fin 8 × Fin 4 → sProp 𝕄) :
    (bigSep Finset.univ fun kh : Fin 8 × Fin 4 => Φ (px c kh.1, kh.2)) = bigSep Finset.univ Φ := by
  let e : Fin 8 × Fin 4 ≃ Fin 8 × Fin 4 :=
    { toFun := fun kh => (px c kh.1, kh.2)
      invFun := fun sh => (mk c sh.1, sh.2)
      left_inv := fun kh => Prod.ext (mk_px c kh.1) rfl
      right_inv := fun sh => Prod.ext (px_mk c sh.1) rfl }
  exact (bigSep_univ_equiv e Φ).symm

variable (m : (ℓ : Loc nD τ sig) → Buf (Elt F) ℓ)

theorem scratch_intro (c : Dev nD) : (Pipeline.scopedRest cfg0.spec c : sProp 𝕄) ⊢ stScratch m σ₀ c := by
  rw [show (Pipeline.scopedRest cfg0.spec c : sProp 𝕄) = _ from Gen.scopedRest0_eq c]
  unfold stScratch
  simp only [σ₀, bigSep_empty, Finset.sdiff_self]
  rw [bigSep_px c (fun sh => slotAny (F := F) gM c sh.1 sh.2), bigSep_px c (fun sh => slotAny (F := F) oM c sh.1 sh.2)]
  iintro ⟨H0, H1, H2, H3⟩
  ihave H0 := xb_split c $$ H0
  ihave H1 := (g_cut c).1 $$ H1
  ihave H2 := (a_cut c).1 $$ H2
  ihave H3 := (o_cut c).1 $$ H3
  isplitl [H0]
  · iexact H0
  isplitr
  · iempintro
  isplitl [H1]
  · iexact H1
  isplitr
  · iempintro
  isplitr
  · iempintro
  isplitl [H2]
  · iexact H2
  isplitr
  · iempintro
  isplitr
  · iempintro
  isplitl [H3]
  · iexact H3
  isplitr
  · iempintro
  · iempintro

end Cert.Kernel.AR

end
-- ==== Proof.KernelAR.Launch.lean ====
import proofs.«900697_g7700000000000698_dist_ar_v7x_i8_i_m512_n512_f32_1_alg».proof.Proof.KernelAR.Creds
import proofs.«900697_g7700000000000698_dist_ar_v7x_i8_i_m512_n512_f32_1_alg».proof.Proof.KernelAR.Geometry

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × CIx → GSem nD τ sig) := by
  rintro ⟨c, i⟩ ⟨c', i'⟩ h
  rw [kcell_eq, kcell_eq] at h
  cases congrArg (fun g : GSem nD τ sig => g.1.1) h
  rw [ksem_injective (congrArg Prod.snd h)]

def US : Finset (Dev nD × CIx) := Finset.univ.filter fun ck : Dev nD × CIx => usedIx ck.1 ck.2
def allCells : Finset (GSem nD τ sig) := US.map ⟨kcell, kcell_injective⟩

/-- The duties device `c` pays, as tokens: a unit to each partner's barrier, and per array, slab and place in the sending order the duty of its own send cell or of its partner's receive cell for sender `c`. -/
def payTok (x : Dev nD × (Fin 7 ⊕ Fin 4 × Fin 4 × Fin 7)) : GSem nD τ sig × ℕ × Fin 8 := match x.2 with
  | .inl j => (barCell (px x.1 (far j)), 0, far j)
  | .inr y => (kcell (if y.1.val % 2 = 0 then x.1 else px x.1 (far y.2.2), some (y.1, y.2.1, if y.1.val % 2 = 0 then far y.2.2 else x.1)), 0, 0)

theorem payTok_injective : Function.Injective payTok := by
  have hf : Function.Injective far := by decide
  rintro ⟨c, j | ⟨a, h, j⟩⟩ ⟨c', j' | ⟨a', h', j'⟩⟩ e
  · cases hf (congrArg (fun x : GSem nD τ sig × ℕ × Fin 8 => x.2.2) e)
    have ec : px c (far j) = px c' (far j) := congrArg (fun x : GSem nD τ sig × ℕ × Fin 8 => x.1.1.1) e
    rw [← px_px c (far j), ec, px_px]
  · exact absurd (congrArg (fun x : GSem nD τ sig × ℕ × Fin 8 => x.2.2) e) (far_ne j)
  · exact absurd (congrArg (fun x : GSem nD τ sig × ℕ × Fin 8 => x.2.2) e).symm (far_ne j')
  · have e0 := congrArg (fun x : GSem nD τ sig × ℕ × Fin 8 => x.1) e
    dsimp only [payTok] at e0
    obtain ⟨e1, e2⟩ := Prod.mk.inj (kcell_injective e0)
    obtain ⟨ea, e3⟩ := Prod.mk.inj (Option.some.inj e2)
    obtain ⟨eh, e4⟩ := Prod.mk.inj e3
    cases ea; cases eh
    by_cases ha : a.val % 2 = 0
    · rw [if_pos ha, if_pos ha] at e1 e4
      cases e1; cases hf e4; rfl
    · rw [if_neg ha, if_neg ha] at e1 e4
      cases e4
      have e5 : far j = far j' := by rw [← mk_px c (far j), e1, mk_px]
      cases hf e5; rfl

def allToks : Finset (GSem nD τ sig × ℕ × Fin 8) := Finset.univ.map ⟨payTok, payTok_injective⟩

def u₀ : UU := (initOf (Pipeline.cells cfgs cellOf_inj) (Pipeline.launchToks cfgs cellOf_inj), initOf allCells allToks)

omit [FloatOps F] in
theorem bigSep_US (Φ : Dev nD × CIx → sProp 𝕄) :
    bigSep US Φ = bigSep Finset.univ fun c : Dev nD => bigSep (Finset.univ.filter (usedIx c)) fun i => Φ (c, i) := by
  unfold US
  rw [bigSep_filter, bigSep_univ_prod]
  exact bigSep_congr fun c _ => (bigSep_filter _ _ _).symm

instance Rd_payload_storable (g : GSem nD τ sig) (r : ℕ) (d : Fin 8) :
    BI.Storable (upEmb : UEmb _ 𝕄) ((Rd (F := F) m).payload g r d) := by
  dsimp only [Rd]
  unfold dmaPay barPay s1Pay r1Pay s2Pay r2Pay
  (repeat' split) <;> infer_instance

def payToks (c : Dev nD) : sProp 𝕄 :=
  iprop((bigSep Finset.univ fun j : Fin 7 => dutyTok ER (barCell (px c (far j))) 0 (far j))
    ∗ (bigSep Finset.univ fun hj : Fin 4 × Fin 7 => dutyTok ER (s1Cell c hj.1 (far hj.2)) 0 0)
    ∗ (bigSep Finset.univ fun hj : Fin 4 × Fin 7 => dutyTok ER (r1Cell (px c (far hj.2)) hj.1 c) 0 0)
    ∗ (bigSep Finset.univ fun hj : Fin 4 × Fin 7 => dutyTok ER (s2Cell c hj.1 (far hj.2)) 0 0)
    ∗ (bigSep Finset.univ fun hj : Fin 4 × Fin 7 => dutyTok ER (r2Cell (px c (far hj.2)) hj.1 c) 0 0))

def G (c : Dev nD) : sProp 𝕄 :=
  iprop((bigSep (Finset.univ.filter (usedIx c)) fun i => roundState ER (Rd m) (kcell (c, i)) 0)
    ∗ (bigSep (Finset.univ.filter (usedIx c)) fun i => iprop(atPos ER (kcell (c, i)) 0 ∅ 0 ∗ reached ER (kcell (c, i)) 0)) ∗ payToks c)

/-- The launch element of the used cells deals every device its cells' round states and positions and the tokens of the duties it pays. -/
theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep (Finset.univ.filter (usedIx c)) fun i => Φ (kcell (c, i)) := by
    unfold allCells; rw [bigSep_map, bigSep_US]; rfl
  have hT : bigSep allToks (fun x => (dutyTok ER x.1 x.2.1 x.2.2 : sProp 𝕄)) = bigSep Finset.univ fun c : Dev nD => payToks c := by
    unfold allToks payToks; rw [bigSep_map, bigSep_univ_prod]
    exact bigSep_congr fun c _ => by rw [bigSep_univ_sum, bigSep_univ_prod, bigSep_fin4]; rfl
  iintro HX
  imod (Rounds.fund ER (Rd m) allCells allToks) $$ HX with ⟨Hst, Hr, Hat, Htok⟩
  imodintro
  unfold G; simp only [bigSep_sep', hX, hT]
  iframe

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_used (c : Dev nD) :
    (Pipeline.ownSems0 osem c : sProp 𝕄)
      = iprop((bigSep (Finset.univ.filter fun i : Fin 4 × Fin 4 × Fin 8 => used i.1 c i.2.2) fun i => semVal (kcell (c, some i)) 0) ∗ unusedSems c) := by
  unfold Pipeline.ownSems0 unusedSems
  rw [bigSep_filter_split Finset.univ (fun i : Fin 4 × Fin 4 × Fin 8 => used i.1 c i.2.2)]
  rfl

/-- A device's holdings once its cells' invariants are allocated. -/
def mid (c : Dev nD) : sProp 𝕄 :=
  iprop((bigSep (Finset.univ.filter (usedIx c)) fun i => iprop(∃ κ : ℕ, cellInv ER (Rd m) κ (kcell (c, i))))
    ∗ unusedSems c
    ∗ (bigSep (Finset.univ.filter (usedIx c)) fun i => iprop(atPos ER (kcell (c, i)) 0 ∅ 0 ∗ reached ER (kcell (c, i)) 0)) ∗ payToks c)

/-- Every used cell of one device gets its invariant, from its counter at zero and its round state. -/
theorem core_alloc (c : Dev nD) :
    iprop((Pipeline.ownSems0 osem c : sProp 𝕄) ∗ unscopedSems0 c ∗ G m c)
      ⊢ |={Set.univ}=> mid m c := by
  unfold G mid
  rw [ownSems0_used, unscopedSems0_eq]
  iintro ⟨⟨Hos, Hun⟩, Hus, Hst, Hat, Htok⟩
  imod (show iprop((bigSep (Finset.univ.filter (usedIx c)) fun i => semVal (kcell (c, i)) 0)
        ∗ bigSep (Finset.univ.filter (usedIx c)) fun i => roundState ER (Rd m) (kcell (c, i)) 0)
      ⊢ (|={Set.univ}=> bigSep (Finset.univ.filter (usedIx c)) fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hos Hus Hst] with Hinv
  · rw [bigSep_used_split c fun i => semVal (kcell (c, i)) 0]; iframe
  imodintro
  iframe

def records₀ (K : Dev nD × CIx → ℕ) : sProp 𝕄 :=
  iprop((bigSep US fun ck => cellInv ER (Rd m) (K ck) (kcell ck)) ∗ (bigSep US fun ck => reached ER (kcell ck) 0))

instance records₀_persistent (K : Dev nD × CIx → ℕ) : BI.Persistent (records₀ m K) := by unfold records₀; infer_instance

def positions (c : Dev nD) : sProp 𝕄 := bigSep (Finset.univ.filter (usedIx c)) fun i => atPos ER (kcell (c, i)) 0 ∅ 0

def G' (c : Dev nD) : sProp 𝕄 := iprop(∃ K, records₀ m K ∗ unusedSems c ∗ positions c ∗ payToks c)

/-- The invariants' names are chosen for all cells at once, so that every device holds every cell's invariant. -/
theorem regroup :
    (bigSep Finset.univ fun c : Dev nD => mid m c : sProp 𝕄) ⊢ bigSep Finset.univ (G' m) := by
  simp only [mid, bigSep_sep']
  rw [← bigSep_US (fun ck => iprop(∃ κ : ℕ, cellInv ER (Rd m) κ (kcell ck))), ← bigSep_US (fun ck => (reached ER (kcell ck) 0 : sProp 𝕄))]
  iintro ⟨HI, Hun, ⟨Hat, #HR⟩, Htok⟩
  ihave HK := (BI.bigSep_exists_pi US (fun (ck : Dev nD × CIx) (κ : ℕ) => (cellInv ER (Rd m) κ (kcell ck) : sProp 𝕄))) $$ HI
  icases HK with ⟨%K, #HI⟩
  iapply (bigSep_with_persistent (R := records₀ m K) (Φ := fun c => iprop(unusedSems c ∗ positions c ∗ payToks c)) fun c _ => by
    unfold G'; iintro H; iexists K; iexact H)
  unfold records₀ positions
  simp only [bigSep_sep']
  iframe # ∗

theorem glob : (bigSep Finset.univ fun c => iprop((Pipeline.ownSems0 osem c : sProp 𝕄) ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The entry stage's cells: the device's positions at its own cells, the tokens of the duties it pays, and the credit of its waits. -/
theorem stCells_intro (c : Dev nD) : iprop(positions c ∗ payToks c ∗ waitCreds c) ⊢ (stCells σ₀ c : sProp 𝕄) := by
  unfold stCells positions payToks waitCreds
  rw [bigSep_used' c fun i => (atPos ER (kcell (c, i)) 0 ∅ 0 : sProp 𝕄)]
  simp only [σ₀, waitingAt, bigSep_empty, ↓reduceIte, bigSep_sep']
  iintro ⟨⟨Hb, H1, Hr1, H2, Hr2⟩, ⟨Ht, Ts1, Tr1, Ts2, Tr2⟩, Hcb, Hc1, Hc2⟩
  iframe
  repeat' first | iempintro | isplitr

def start (c : Dev nD) : sProp 𝕄 := iprop(∃ K, records m K ∗ stCells σ₀ c ∗ unusedSems c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' records records₀ US
  iintro ⟨-, #Hlev, Hcr, -, %K, ⟨#HI, #HR⟩, Hun, Hp, Ht⟩
  ihave Hc := (creds c) $$ Hcr
  imodintro
  isplitl
  · iexists K
    iframe Hun
    isplitr
    · iframe #
    · iapply (stCells_intro c); iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ start
  iintro ⟨⟨%K, HR, Hst, Hun⟩, -, Hsc⟩
  iexists K
  iframe
  iapply (scratch_intro m c); iexact Hsc

theorem ownSemFacts : Pipeline.OwnSemFacts cfg0.spec osem :=
  ⟨by decide, fun a b h => Option.some.inj (ksem_injective (h : ksem (some a) = ksem (some b))), by decide⟩

theorem share_eq (c : Dev nD) (w : Fin cfg0.W) : (dats m ρ 0 c).share w = fullShare := by unfold Dat.share; split <;> rfl

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the eight devices terminates, with every array at its computed final contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m ρ) (hout := fun _ => BI.emp_sep.2)
    (QY := fun _ _ => True)
    (hY := fun c s' => by
      iintro ⟨-, -, HSI⟩
      imodintro
      iframe)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

/-- The result array is a single block, so its final contents are the last block written to it. -/
theorem finalA_out (c : Dev nD) :
    (win0_1.blk (0 : Fin 1)).view.read (Elt F) (finalA m ρ c (1 : Fin 2)) = outAt (X m) c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 _, if_pos rfl]
  exact View.read_write_univ _ _

end Cert.Kernel.AR

end
-- ==== Proof.KernelAR.ProtoF.lean ====
import proofs.«900697_g7700000000000698_dist_ar_v7x_i8_i_m512_n512_f32_1_alg».proof.Proof.KernelAR.ProtoE

namespace Cert.Kernel.AR

namespace Stage

def signal (σ : Stage) (j : Fin 7) : Stage :=
  { σ with paid := σ.paid + 1, sigTodo := σ.sigTodo.erase j,
           gMine := σ.gMine.filter (fun kh => kh.1 ≠ far j), oMine := σ.oMine.filter (fun kh => kh.1 ≠ far j) }

def barWait (σ : Stage) : Stage := { σ with barTodo := false, gPeer := Finset.univ, oPeer := Finset.univ }

def xbStore (σ : Stage) (h : Fin 4) : Stage :=
  { σ with xbRaw := σ.xbRaw.erase h, xbHave := σ.xbHave ∪ Finset.univ.filter (fun kh => kh.2 = h) }

def send1 (σ : Stage) (h : Fin 4) (j : Fin 7) : Stage :=
  { σ with paid := σ.paid + 1, s1Todo := σ.s1Todo.erase (h, j), s1Fly := insert (h, j) σ.s1Fly,
           xbHave := σ.xbHave.erase (far j, h), gPeer := σ.gPeer.erase (j, h) }

def recv1 (σ : Stage) (h : Fin 4) (j : Fin 7) : Stage :=
  { σ with r1Todo := σ.r1Todo.erase (h, j), r1Done := insert (h, j) σ.r1Done, gLanded := insert (near j, h) σ.gLanded }

def outStore (σ : Stage) (k : Fin 8) (h : Fin 4) : Stage := { σ with outDone := insert (k, h) σ.outDone }

def aStore (σ : Stage) (h : Fin 4) : Stage := { σ with aRaw := σ.aRaw.erase h, aSent := Function.update σ.aSent h 0 }

def send2 (σ : Stage) (h : Fin 4) (j : Fin 7) : Stage :=
  { σ with paid := σ.paid + 1, s2Todo := σ.s2Todo.erase (h, j), s2Fly := insert (h, j) σ.s2Fly,
           aSent := Function.update σ.aSent h (σ.aSent h + 1), oPeer := σ.oPeer.erase (j, h) }

def recv2 (σ : Stage) (h : Fin 4) (j : Fin 7) : Stage :=
  { σ with r2Todo := σ.r2Todo.erase (h, j), r2Done := insert (h, j) σ.r2Done, oLanded := insert (near j, h) σ.oLanded }

def sendWait1 (σ : Stage) (h : Fin 4) (j : Fin 7) : Stage :=
  { σ with s1Fly := σ.s1Fly.erase (h, j), s1Done := insert (h, j) σ.s1Done, xbHave := insert (far j, h) σ.xbHave }

def sendWait2 (σ : Stage) (h : Fin 4) (j : Fin 7) : Stage :=
  { σ with s2Fly := σ.s2Fly.erase (h, j), s2Done := insert (h, j) σ.s2Done, aBack := insert (h, j) σ.aBack }

end Stage

def σ₁ : Stage where
  paid := 63
  sigTodo := ∅
  barTodo := false
  s1Todo := ∅
  s1Fly := ∅
  s1Done := Finset.univ
  r1Todo := ∅
  r1Done := Finset.univ
  s2Todo := ∅
  s2Fly := ∅
  s2Done := Finset.univ
  r2Todo := ∅
  r2Done := Finset.univ
  xbRaw := ∅
  xbHave := Finset.univ
  gMine := Finset.univ.filter (fun kh => kh.1 = 0)
  gLanded := Finset.univ.filter (fun kh => kh.1 ≠ 0)
  gPeer := ∅
  aRaw := ∅
  aSent := fun _ => 7
  aBack := Finset.univ
  oMine := Finset.univ.filter (fun kh => kh.1 = 0)
  oLanded := Finset.univ.filter (fun kh => kh.1 ≠ 0)
  oPeer := ∅
  outDone := Finset.univ

end Cert.Kernel.AR
-- ==== Proof.KernelAR.ProtoG.lean ====
import proofs.«900697_g7700000000000698_dist_ar_v7x_i8_i_m512_n512_f32_1_alg».proof.Proof.KernelAR.ProtoF

namespace Cert.Kernel.AR

def nearPos (k : Fin 8) : ℕ := match k with
  | ⟨1, _⟩ => 0 | ⟨3, _⟩ => 1 | ⟨4, _⟩ => 2 | ⟨2, _⟩ => 3 | ⟨5, _⟩ => 4 | ⟨7, _⟩ => 5 | ⟨6, _⟩ => 6 | _ => 7

structure Cnt where
  nsig : ℕ
  bar : Bool
  nxb : ℕ
  n1 : ℕ
  nr1 : ℕ
  nown : ℕ
  na : ℕ
  n2 : ℕ
  nr2 : ℕ
  noth : ℕ
  nw1 : ℕ
  nw2 : ℕ
  deriving DecidableEq

abbrev num (hj : Fin 4 × Fin 7) : ℕ := 7 * hj.1.val + hj.2.val

def stageOf (k : Cnt) : Stage where
  paid := k.nsig + k.n1 + k.n2
  sigTodo := Finset.univ.filter fun j => k.nsig ≤ j.val
  barTodo := !k.bar
  s1Todo := Finset.univ.filter fun hj => k.n1 ≤ num hj
  s1Fly := Finset.univ.filter fun hj => num hj < k.n1 ∧ k.nw1 ≤ num hj
  s1Done := Finset.univ.filter fun hj => num hj < k.nw1
  r1Todo := Finset.univ.filter fun hj => k.nr1 ≤ num hj
  r1Done := Finset.univ.filter fun hj => num hj < k.nr1
  s2Todo := Finset.univ.filter fun hj => k.n2 ≤ num hj
  s2Fly := Finset.univ.filter fun hj => num hj < k.n2 ∧ k.nw2 ≤ num hj
  s2Done := Finset.univ.filter fun hj => num hj < k.nw2
  r2Todo := Finset.univ.filter fun hj => k.nr2 ≤ num hj
  r2Done := Finset.univ.filter fun hj => num hj < k.nr2
  xbRaw := Finset.univ.filter fun h => k.nxb ≤ h.val
  xbHave := Finset.univ.filter fun kh => kh.2.val < k.nxb ∧ (kh.1 = 0 ∨ k.n1 ≤ 7 * kh.2.val + farPos kh.1 ∨ 7 * kh.2.val + farPos kh.1 < k.nw1)
  gMine := Finset.univ.filter fun kh => kh.1 = 0 ∨ k.nsig ≤ farPos kh.1
  gLanded := Finset.univ.filter fun kh => kh.1 ≠ 0 ∧ 7 * kh.2.val + nearPos kh.1 < k.nr1
  gPeer := if k.bar then Finset.univ.filter fun jh => k.n1 ≤ 7 * jh.2.val + jh.1.val else ∅
  aRaw := Finset.univ.filter fun h => k.na ≤ h.val
  aSent := fun h => min 7 (k.n2 - 7 * h.val)
  aBack := Finset.univ.filter fun hj => num hj < k.nw2
  oMine := Finset.univ.filter fun kh => kh.1 = 0 ∨ k.nsig ≤ farPos kh.1
  oLanded := Finset.univ.filter fun kh => kh.1 ≠ 0 ∧ 7 * kh.2.val + nearPos kh.1 < k.nr2
  oPeer := if k.bar then Finset.univ.filter fun jh => k.n2 ≤ 7 * jh.2.val + jh.1.val else ∅
  outDone := Finset.univ.filter fun kh => (kh.1 = 0 ∧ kh.2.val < k.nown) ∨ (kh.1 ≠ 0 ∧ 7 * kh.2.val + nearPos kh.1 < k.noth)

def k₀ : Cnt := ⟨0, false, 0, 0, 0, 0, 0, 0, 0, 0, 0, 0⟩
def k₁ : Cnt := ⟨7, true, 4, 28, 28, 4, 4, 28, 28, 28, 28, 28⟩

end Cert.Kernel.AR
-- ==== Proof.KernelAR.Trans.lean ====
import proofs.«900697_g7700000000000698_dist_ar_v7x_i8_i_m512_n512_f32_1_alg».proof.Proof.KernelAR.ProtoG

namespace Cert.Kernel.AR

theorem farPos_eq_iff (p : Fin 8) (j : Fin 7) : farPos p = j.val ↔ p = far j := by revert p j; decide
theorem nearPos_eq_iff (p : Fin 8) (j : Fin 7) : nearPos p = j.val ↔ p = near j := by revert p j; decide
theorem farPos_eq_seven_iff (p : Fin 8) : farPos p = 7 ↔ p = 0 := by revert p; decide
theorem nearPos_eq_seven_iff (p : Fin 8) : nearPos p = 7 ↔ p = 0 := by revert p; decide
theorem farPos_le (p : Fin 8) : farPos p ≤ 7 := by revert p; decide
theorem nearPos_le (p : Fin 8) : nearPos p ≤ 7 := by revert p; decide

attribute [local ext (iff := false)] Stage

section Mem
variable (k : Cnt)

theorem mem_sigTodo (j : Fin 7) : j ∈ (stageOf k).sigTodo ↔ k.nsig ≤ j.val := Finset.mem_filter_univ _
theorem mem_s1Todo (hj : Fin 4 × Fin 7) : hj ∈ (stageOf k).s1Todo ↔ k.n1 ≤ num hj := Finset.mem_filter_univ _
theorem mem_s1Fly (hj : Fin 4 × Fin 7) : hj ∈ (stageOf k).s1Fly ↔ num hj < k.n1 ∧ k.nw1 ≤ num hj := Finset.mem_filter_univ _
theorem mem_r1Todo (hj : Fin 4 × Fin 7) : hj ∈ (stageOf k).r1Todo ↔ k.nr1 ≤ num hj := Finset.mem_filter_univ _
theorem mem_s2Todo (hj : Fin 4 × Fin 7) : hj ∈ (stageOf k).s2Todo ↔ k.n2 ≤ num hj := Finset.mem_filter_univ _
theorem mem_s2Fly (hj : Fin 4 × Fin 7) : hj ∈ (stageOf k).s2Fly ↔ num hj < k.n2 ∧ k.nw2 ≤ num hj := Finset.mem_filter_univ _
theorem mem_r2Todo (hj : Fin 4 × Fin 7) : hj ∈ (stageOf k).r2Todo ↔ k.nr2 ≤ num hj := Finset.mem_filter_univ _
theorem mem_xbRaw (h : Fin 4) : h ∈ (stageOf k).xbRaw ↔ k.nxb ≤ h.val := Finset.mem_filter_univ _
theorem mem_xbHave (kh : Fin 8 × Fin 4) : kh ∈ (stageOf k).xbHave ↔
    kh.2.val < k.nxb ∧ (kh.1 = 0 ∨ k.n1 ≤ 7 * kh.2.val + farPos kh.1 ∨ 7 * kh.2.val + farPos kh.1 < k.nw1) :=
  Finset.mem_filter_univ _
theorem mem_gMine (kh : Fin 8 × Fin 4) : kh ∈ (stageOf k).gMine ↔ kh.1 = 0 ∨ k.nsig ≤ farPos kh.1 := Finset.mem_filter_univ _
theorem mem_gLanded (kh : Fin 8 × Fin 4) : kh ∈ (stageOf k).gLanded ↔ kh.1 ≠ 0 ∧ 7 * kh.2.val + nearPos kh.1 < k.nr1 :=
  Finset.mem_filter_univ _
theorem mem_gPeer (jh : Fin 7 × Fin 4) : jh ∈ (stageOf k).gPeer ↔ k.bar = true ∧ k.n1 ≤ 7 * jh.2.val + jh.1.val := by
  cases hb : k.bar <;> simp [stageOf, hb]
theorem mem_aRaw (h : Fin 4) : h ∈ (stageOf k).aRaw ↔ k.na ≤ h.val := Finset.mem_filter_univ _
theorem mem_oMine (kh : Fin 8 × Fin 4) : kh ∈ (stageOf k).oMine ↔ kh.1 = 0 ∨ k.nsig ≤ farPos kh.1 := Finset.mem_filter_univ _
theorem mem_oLanded (kh : Fin 8 × Fin 4) : kh ∈ (stageOf k).oLanded ↔ kh.1 ≠ 0 ∧ 7 * kh.2.val + nearPos kh.1 < k.nr2 :=
  Finset.mem_filter_univ _
theorem mem_oPeer (jh : Fin 7 × Fin 4) : jh ∈ (stageOf k).oPeer ↔ k.bar = true ∧ k.n2 ≤ 7 * jh.2.val + jh.1.val := by
  cases hb : k.bar <;> simp [stageOf, hb]

end Mem

section Sets
variable (n w : ℕ) (h : Fin 4) (j : Fin 7)

-- A pair is determined by its number, so taking out or putting in pair number `n` moves a bound at `n` by one.
theorem todo_step (hn : 7 * h.val + j.val = n) :
    (Finset.univ.filter fun hj => n ≤ num hj).erase (h, j) = Finset.univ.filter fun hj => n + 1 ≤ num hj := by
  ext ⟨h', j'⟩; simp only [num, Finset.mem_erase, Finset.mem_filter_univ, ne_eq, Prod.mk.injEq, Fin.ext_iff]; omega
theorem done_step (hn : 7 * h.val + j.val = n) :
    insert (h, j) (Finset.univ.filter fun hj => num hj < n) = Finset.univ.filter fun hj => num hj < n + 1 := by
  ext ⟨h', j'⟩; simp only [num, Finset.mem_insert, Finset.mem_filter_univ, Prod.mk.injEq, Fin.ext_iff]; omega
theorem fly_in (hn : 7 * h.val + j.val = n) (hw : w ≤ n) :
    insert (h, j) (Finset.univ.filter fun hj => num hj < n ∧ w ≤ num hj)
      = Finset.univ.filter fun hj => num hj < n + 1 ∧ w ≤ num hj := by
  ext ⟨h', j'⟩; simp only [num, Finset.mem_insert, Finset.mem_filter_univ, Prod.mk.injEq, Fin.ext_iff]; omega
theorem fly_out (hn : 7 * h.val + j.val = w) :
    (Finset.univ.filter fun hj => num hj < n ∧ w ≤ num hj).erase (h, j)
      = Finset.univ.filter fun hj => num hj < n ∧ w + 1 ≤ num hj := by
  ext ⟨h', j'⟩; simp only [num, Finset.mem_erase, Finset.mem_filter_univ, ne_eq, Prod.mk.injEq, Fin.ext_iff]; omega
-- A mask enters only through its place in its order: `far j` is the mask at place `j`, and 0 the one at place 7.
theorem mine_step (hj : j.val = n) :
    (Finset.univ.filter fun kh : Fin 8 × Fin 4 => kh.1 = 0 ∨ n ≤ farPos kh.1).filter (fun kh => kh.1 ≠ far j)
      = Finset.univ.filter fun kh => kh.1 = 0 ∨ n + 1 ≤ farPos kh.1 := by
  ext ⟨p, h'⟩; simp only [Finset.mem_filter, Finset.mem_univ, true_and, ne_eq, ← farPos_eq_iff, ← farPos_eq_seven_iff]; omega
theorem landed_step (hn : 7 * h.val + j.val = n) :
    insert (near j, h) (Finset.univ.filter fun kh : Fin 8 × Fin 4 => kh.1 ≠ 0 ∧ 7 * kh.2.val + nearPos kh.1 < n)
      = Finset.univ.filter fun kh => kh.1 ≠ 0 ∧ 7 * kh.2.val + nearPos kh.1 < n + 1 := by
  ext ⟨p, h'⟩; have := nearPos_le p
  simp only [Finset.mem_insert, Finset.mem_filter_univ, ne_eq, Prod.mk.injEq, ← nearPos_eq_iff, ← nearPos_eq_seven_iff]; omega
theorem peer_step (b : Bool) (hn : 7 * h.val + j.val = n) :
    (if b then Finset.univ.filter fun jh : Fin 7 × Fin 4 => n ≤ 7 * jh.2.val + jh.1.val else ∅).erase (j, h)
      = if b then Finset.univ.filter fun jh => n + 1 ≤ 7 * jh.2.val + jh.1.val else ∅ := by
  cases b
  · exact Finset.erase_empty _
  · ext ⟨j', h'⟩; simp only [if_true, Finset.mem_erase, Finset.mem_filter_univ, ne_eq, Prod.mk.injEq, Fin.ext_iff]; omega
theorem peer_open (hn : n = 0) :
    (Finset.univ : Finset (Fin 7 × Fin 4)) = if true then Finset.univ.filter fun jh => n ≤ 7 * jh.2.val + jh.1.val else ∅ := by
  ext jh; simp only [if_true, Finset.mem_filter_univ, Finset.mem_univ, hn, Nat.zero_le]

end Sets

theorem tr_signal (k : Cnt) (j : Fin 7) (hj : j.val = k.nsig) :
    (stageOf k).signal j = stageOf { k with nsig := k.nsig + 1 } := by
  apply Stage.ext <;> try rfl
  case paid => simp only [stageOf, Stage.signal]; omega
  case sigTodo =>
    ext j'; simp only [stageOf, Stage.signal, Finset.mem_erase, Finset.mem_filter_univ, ne_eq, Fin.ext_iff]; omega
  case gMine => exact mine_step _ j hj
  case oMine => exact mine_step _ j hj

theorem tr_barWait (k : Cnt) (h1 : k.n1 = 0) (h2 : k.n2 = 0) :
    (stageOf k).barWait = stageOf { k with bar := true } := by
  apply Stage.ext <;> try rfl
  case gPeer => exact peer_open _ h1
  case oPeer => exact peer_open _ h2

theorem tr_xbStore (k : Cnt) (h : Fin 4) (hh : h.val = k.nxb) (hn : k.n1 ≤ 7 * h.val) :
    (stageOf k).xbStore h = stageOf { k with nxb := k.nxb + 1 } := by
  apply Stage.ext <;> try rfl
  case xbRaw =>
    ext h'; simp only [stageOf, Stage.xbStore, Finset.mem_erase, Finset.mem_filter_univ, ne_eq, Fin.ext_iff]; omega
  case xbHave =>
    ext ⟨p, h'⟩
    simp only [stageOf, Stage.xbStore, Finset.mem_union, Finset.mem_filter_univ, ← farPos_eq_seven_iff]; omega

theorem tr_send1 (k : Cnt) (h : Fin 4) (j : Fin 7) (hn : 7 * h.val + j.val = k.n1) (hw : k.nw1 ≤ k.n1) :
    (stageOf k).send1 h j = stageOf { k with n1 := k.n1 + 1 } := by
  apply Stage.ext <;> try rfl
  case paid => simp only [stageOf, Stage.send1]; omega
  case s1Todo => exact todo_step _ h j hn
  case s1Fly => exact fly_in _ _ h j hn hw
  case xbHave =>
    ext ⟨p, h'⟩; have := farPos_le p
    simp only [stageOf, Stage.send1, Finset.mem_erase, Finset.mem_filter_univ, ne_eq, Prod.mk.injEq, ← farPos_eq_iff,
      ← farPos_eq_seven_iff]
    omega
  case gPeer => exact peer_step _ h j _ hn

theorem tr_recv1 (k : Cnt) (h : Fin 4) (j : Fin 7) (hn : 7 * h.val + j.val = k.nr1) :
    (stageOf k).recv1 h j = stageOf { k with nr1 := k.nr1 + 1 } := by
  apply Stage.ext <;> try rfl
  case r1Todo => exact todo_step _ h j hn
  case r1Done => exact done_step _ h j hn
  case gLanded => exact landed_step _ h j hn

theorem tr_outOwn (k : Cnt) (h : Fin 4) (hh : h.val = k.nown) :
    (stageOf k).outStore 0 h = stageOf { k with nown := k.nown + 1 } := by
  apply Stage.ext <;> try rfl
  case outDone =>
    ext ⟨p, h'⟩
    simp only [stageOf, Stage.outStore, Finset.mem_insert, Finset.mem_filter_univ, ne_eq, Prod.mk.injEq, ← nearPos_eq_seven_iff]
    omega

theorem tr_aStore (k : Cnt) (h : Fin 4) (hh : h.val = k.na) (hn : k.n2 ≤ 7 * h.val) :
    (stageOf k).aStore h = stageOf { k with na := k.na + 1 } := by
  apply Stage.ext <;> try rfl
  case aRaw =>
    ext h'; simp only [stageOf, Stage.aStore, Finset.mem_erase, Finset.mem_filter_univ, ne_eq, Fin.ext_iff]; omega
  case aSent =>
    funext h'; simp only [stageOf, Stage.aStore, Function.update_apply]
    split_ifs with e
    · subst e; omega
    · rfl

theorem tr_send2 (k : Cnt) (h : Fin 4) (j : Fin 7) (hn : 7 * h.val + j.val = k.n2) (hw : k.nw2 ≤ k.n2) :
    (stageOf k).send2 h j = stageOf { k with n2 := k.n2 + 1 } := by
  apply Stage.ext <;> try rfl
  case s2Todo => exact todo_step _ h j hn
  case s2Fly => exact fly_in _ _ h j hn hw
  case aSent =>
    funext h'; simp only [stageOf, Stage.send2, Function.update_apply]
    split_ifs with e
    · subst e; omega
    · have : h'.val ≠ h.val := fun q => e (Fin.ext q)
      omega
  case oPeer => exact peer_step _ h j _ hn

theorem tr_recv2 (k : Cnt) (h : Fin 4) (j : Fin 7) (hn : 7 * h.val + j.val = k.nr2) :
    (stageOf k).recv2 h j = stageOf { k with nr2 := k.nr2 + 1 } := by
  apply Stage.ext <;> try rfl
  case r2Todo => exact todo_step _ h j hn
  case r2Done => exact done_step _ h j hn
  case oLanded => exact landed_step _ h j hn

theorem tr_outOther (k : Cnt) (h : Fin 4) (j : Fin 7) (hn : 7 * h.val + j.val = k.noth) :
    (stageOf k).outStore (near j) h = stageOf { k with noth := k.noth + 1 } := by
  apply Stage.ext <;> try rfl
  case outDone =>
    ext ⟨p, h'⟩; have := nearPos_le p
    simp only [stageOf, Stage.outStore, Finset.mem_insert, Finset.mem_filter_univ, ne_eq, Prod.mk.injEq, ← nearPos_eq_iff,
      ← nearPos_eq_seven_iff]
    omega

theorem tr_sendWait1 (k : Cnt) (h : Fin 4) (j : Fin 7) (hn : 7 * h.val + j.val = k.nw1) (hx : h.val < k.nxb) :
    (stageOf k).sendWait1 h j = stageOf { k with nw1 := k.nw1 + 1 } := by
  apply Stage.ext <;> try rfl
  case s1Fly => exact fly_out _ _ h j hn
  case s1Done => exact done_step _ h j hn
  case xbHave =>
    ext ⟨p, h'⟩; have := farPos_le p
    simp only [stageOf, Stage.sendWait1, Finset.mem_insert, Finset.mem_filter_univ, Prod.mk.injEq, ← farPos_eq_iff,
      ← farPos_eq_seven_iff]
    omega

theorem tr_sendWait2 (k : Cnt) (h : Fin 4) (j : Fin 7) (hn : 7 * h.val + j.val = k.nw2) :
    (stageOf k).sendWait2 h j = stageOf { k with nw2 := k.nw2 + 1 } := by
  apply Stage.ext <;> try rfl
  case s2Fly => exact fly_out _ _ h j hn
  case s2Done => exact done_step _ h j hn
  case aBack => exact done_step _ h j hn

theorem stage_k₀ : stageOf k₀ = σ₀ := by
  apply Stage.ext <;> first | rfl | decide | (funext h; revert h; decide)

theorem stage_k₁ : stageOf k₁ = σ₁ := by
  apply Stage.ext <;> first | rfl | decide | (funext h; revert h; decide)

end Cert.Kernel.AR
-- ==== Proof.KernelAR.StepSignal.lean ====
import proofs.«900697_g7700000000000698_dist_ar_v7x_i8_i_m512_n512_f32_1_alg».proof.Proof.KernelAR.ProtoF
import proofs.«900697_g7700000000000698_dist_ar_v7x_i8_i_m512_n512_f32_1_alg».proof.Proof.KernelAR.Levels

noncomputable section

namespace Cert.Kernel.AR

open Cert.Kernel Cert.Kernel.Gen
open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- In an affine logic a summand joins an iterated conjunction whether or not its index is there already. -/
theorem bigSep_ins {I : Type} [DecidableEq I] {s : Finset I} {i : I} {Φ : I → sProp 𝕄} :
    iprop(Φ i ∗ bigSep s Φ) ⊢ bigSep (insert i s) Φ := by
  by_cases hi : i ∈ s
  · rw [Finset.insert_eq_of_mem hi]; exact sep_elim_right
  · rw [bigSep_insert hi]; exact .rfl

/-- Four ways into a right-nested chain of conjuncts: take a part out of, or put a part into, its head or its tail. -/
theorem pk_l {A W X X' : sProp 𝕄} (h : X ⊢ iprop(W ∗ X')) : iprop(A ∗ X) ⊢ iprop(W ∗ A ∗ X') :=
  (sep_mono_right h).trans sep_left_comm.1
theorem pk_r {A A' R W : sProp 𝕄} (h : A ⊢ iprop(W ∗ A')) : iprop(A ∗ R) ⊢ iprop(W ∗ A' ∗ R) :=
  (sep_mono_left h).trans Laws.sep_assoc.1
theorem ins_l {A C X X' : sProp 𝕄} (h : iprop(C ∗ X) ⊢ X') : iprop(C ∗ A ∗ X) ⊢ iprop(A ∗ X') :=
  sep_left_comm.1.trans (sep_mono_right h)
theorem ins_r {A A' C R : sProp 𝕄} (h : iprop(C ∗ A) ⊢ A') : iprop(C ∗ A ∗ R) ⊢ iprop(A' ∗ R) :=
  Laws.sep_assoc.2.trans (sep_mono_left h)

instance records_pers (K : Dev nD × CIx → ℕ) : BI.Persistent (records m K : sProp 𝕄) := by
  unfold records; infer_instance

/-- What all devices share says of a used cell: its invariant, that its round 0 is reached, and the levels. -/
theorem records_get (K : Dev nD × CIx → ℕ) (ck : Dev nD × CIx) (hu : usedIx ck.1 ck.2) :
    (records m K : sProp 𝕄) ⊢ iprop(cellInv ER (Rd m) (K ck) (kcell ck) ∗ reached ER (kcell ck) 0 ∗ levAts L lv) := by
  have hi : ck ∈ Finset.univ.filter (fun ck : Dev nD × CIx => usedIx ck.1 ck.2) := Finset.mem_filter.mpr ⟨Finset.mem_univ _, hu⟩
  unfold records
  exact sep_mono (bigSep_elim hi) (sep_mono (bigSep_elim hi) (Entails.refl _))

theorem used_send (a : Fin 4) (ha : a.val % 2 = 0) (c : Dev nD) (h : Fin 4) (k : Fin 8) (hk : k ≠ 0) : usedIx c (some (a, h, k)) :=
  (if_pos ha).mpr hk
theorem used_recv (a : Fin 4) (ha : ¬ a.val % 2 = 0) (c : Dev nD) (h : Fin 4) (s : Fin 8) (hs : s ≠ c) : usedIx c (some (a, h, s)) :=
  (if_neg ha).mpr hs

/-- A family over pairs that holds the whole fibre over `a` gives the fibre up and keeps the pairs off it. -/
theorem bigSep_fibre {A B : Type} [DecidableEq A] [DecidableEq B] [Fintype B] {s : Finset (A × B)} {a : A}
    (hs : ∀ b, (a, b) ∈ s) {Φ : A × B → sProp 𝕄} :
    bigSep s Φ ⊢ iprop((bigSep Finset.univ fun b => Φ (a, b)) ∗ bigSep (s.filter fun kh => kh.1 ≠ a) Φ) := by
  have e : (s.filter fun kh => ¬ kh.1 ≠ a) = Finset.univ.map ⟨fun b : B => (a, b), fun b b' hb => (Prod.mk.inj hb).2⟩ := by
    ext ⟨x, y⟩
    rw [Finset.mem_filter, Finset.mem_map]
    constructor
    · rintro ⟨-, hx⟩
      refine ⟨y, Finset.mem_univ _, ?_⟩
      have hx' : x = a := not_not.mp hx
      show (a, y) = (x, y)
      rw [hx']
    · rintro ⟨b, -, hb⟩
      obtain ⟨rfl, rfl⟩ := Prod.mk.inj (hb : (a, b) = (x, y))
      exact ⟨hs _, not_not.mpr rfl⟩
  rw [bigSep_filter_split s (fun kh => kh.1 ≠ a), e, bigSep_map]
  exact sep_comm.1

/-- The `j`-th payment, `j < 7`, is the unit on the barrier cell of partner `far j`. -/
theorem owed_sig (c : Dev nD) (j : Fin 7) :
    owedFrom c j.val = owedFrom c (j.val + 1) + tallyAt (barCell (px c (far j))) () 1 := by
  have e : (⟨j.val % 7, Nat.mod_lt _ (by decide)⟩ : Fin 7) = j := Fin.ext (Nat.mod_eq_of_lt j.isLt)
  rw [owedFrom_step c j.val (by have := j.isLt; omega)]; unfold pay; rw [if_pos j.isLt, e]

theorem step_signal (K : Dev nD × CIx → ℕ) (σ : Stage) (c : Dev nD) (j : Fin 7)
    (hj : j ∈ σ.sigTodo) (hp : σ.paid = j.val)
    (hg : ∀ h : Fin 4, (far j, h) ∈ σ.gMine) (ho : ∀ h : Fin 4, (far j, h) ∈ σ.oMine)
    {d : Dev nD} (hd : d = px c (far j)) {n : ℕ} (hn : n = 1)
    {α : Type} {Q : α → sProp 𝕄} {k : PUnit → Prog (TpuEff nD τ sig (Elt F) Λ₀ .tc) α} :
    St m K σ c ⊢ iprop((St m K (σ.signal j) c -∗ wp frame (wpE (defs₀ (F := F)) 𝒱₀ (c : Thread nD τ) none) Set.univ (k ⟨⟩) Q)
      -∗ wp frame (wpE (defs₀ (F := F)) 𝒱₀ (c : Thread nD τ) none) Set.univ (.op (.semSignal ((d, Proc.tc) : Thread nD τ) barS n) k) Q) := by
  subst hd hn
  have hO : owedFrom c σ.paid = owedFrom c (σ.paid + 1) + tallyAt (barCell (px c (far j))) () 1 := by rw [hp, owed_sig]
  have hduty : far j ∈ (Rd (F := F) m).duties (barCell (px c (far j))) 0 := by
    rw [duties_bar]; exact Finset.mem_erase.mpr ⟨far_ne j, Finset.mem_univ _⟩
  unfold St stOwes stCells stStage stScratch
  dsimp only [Stage.signal]
  iintro ⟨#Hrec, ⟨%W, Howes⟩, Hcells, Hun, Hstage, Hscr⟩ Hk
  ihave ⟨Htok, Hcells⟩ := (pk_r (bigSep_pick hj)) $$ Hcells
  ihave ⟨Hpay, Hscr⟩ := ((pk_l (pk_l (pk_l (pk_l (pk_l (pk_l (pk_l (pk_l (pk_r (bigSep_fibre ho)))))))))).trans ((pk_l (pk_l (pk_l (pk_r (bigSep_fibre hg))))).trans Laws.sep_assoc.2)) $$ Hscr
  ihave Hb := (records_get m K (px c (far j), none) trivial) $$ Hrec
  icases Hb with ⟨#Hinv, #Hre, -⟩
  iapply (wp_signal 𝒱₀ ER (Rd m) (c : Thread nD τ) none (dst := ((px c (far j), Proc.tc) : Thread nD τ)) (sem := barS) (r := 0) (d := far j) (k' := 1)
    (κ := K (px c (far j), none)) hduty (amount_bar m _ _) () (owedFrom c (σ.paid + 1)) hO (W := W) (Es := Set.univ)
    (Topo.routes_tc _ _)) $$ [$Hinv $Howes $Htok $Hre Hpay]
  · rw [payload_bar, px_px]; unfold barPay; iexact Hpay
  iintro Howes
  iapply Hk
  iframe Hrec Hun Hstage Hscr
  isplitl [Howes]; · iexists W; iexact Howes
  iexact Hcells

theorem far_inj : Function.Injective far := by decide

/-- The seven payloads of the barrier's round, by place in `far` and slab: the device's own slot in every partner's two gather buffers. -/
theorem barPays (c : Dev nD) :
    bigSep ((Rd (F := F) m).duties (barCell c) 0 \ ∅) (fun d => (Rd (F := F) m).payload (barCell c) 0 d)
      = iprop((bigSep Finset.univ fun jh : Fin 7 × Fin 4 => slotAny (F := F) gM (px c (far jh.1)) c jh.2)
          ∗ (bigSep Finset.univ fun jh : Fin 7 × Fin 4 => slotAny (F := F) oM (px c (far jh.1)) c jh.2)) := by
  rw [duties_bar, (by decide : (Finset.univ.erase (0 : Fin 8) \ ∅) = Finset.univ.map ⟨far, far_inj⟩), bigSep_map, bigSep_univ_prod, bigSep_univ_prod]
  exact bigSep_sep Finset.univ (fun a : Fin 7 => bigSep Finset.univ fun b : Fin 4 => slotAny (F := F) gM (px c (far a)) c b)
    (fun a : Fin 7 => bigSep Finset.univ fun b : Fin 4 => slotAny (F := F) oM (px c (far a)) c b)

theorem step_barWait (K : Dev nD × CIx → ℕ) (σ : Stage) (c : Dev nD)
    (hb : σ.barTodo = true) (hp : σ.paid = 7) (hgp : σ.gPeer = ∅) (hop : σ.oPeer = ∅) {n : ℕ} (hn : n = 7)
    {α : Type} {Q : α → sProp 𝕄} {k : PUnit → Prog (TpuEff nD τ sig (Elt F) Λ₀ .tc) α} :
    St m K σ c ⊢ iprop((St m K σ.barWait c -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS n) k) Q) := by
  subst hn
  have hexp : 0 + 7 = (Rd (F := F) m).expect ((c : Thread nD τ), .reg barS) 0 := by rw [expect_bar]
  unfold St stOwes stCells stStage stScratch
  dsimp only [Stage.barWait]
  rw [hb, hp]
  iintro ⟨#Hrec, ⟨%W, Howes⟩, ⟨Hsig, Hbar, Hcells⟩, Hun, Hstage, Hscr⟩ Hk
  ihave ⟨Hat, Hcr⟩ := (Entails.of_eq (if_pos rfl)) $$ Hbar
  ihave Hb := (records_get m K (c, none) trivial) $$ Hrec
  icases Hb with ⟨#Hinv, -, #Hlev⟩
  iapply (wp_wait_rest_token 𝒱₀ ER (Rd m) (c : Thread nD τ) none (defs := defs₀ (F := F)) (w := .semWait barS 7) (sm := .reg barS) (k' := 7)
    (Es := Set.univ) (κ := K (c, none)) (wpE_semWait_eq 𝒱₀ (c : Thread nD τ) none Set.univ) (Set.mem_univ _) ()
    (O := owedFrom c 7) (W := W) (R := 0) (m := 0) (T := ∅) hexp) $$ [$Hinv $Hcr $Howes $Hat]
  · iapply (mayWait_bar c); iexact Hlev
  iintro ⟨Howes, -, -, Hpay⟩
  ihave Hpay := (Entails.of_eq (barPays m c)) $$ Hpay
  iapply Hk
  iframe Hrec Hun Hstage
  isplitl [Howes]; · iexists _; iexact Howes
  isplitl [Hsig Hcells]
  · isplitl [Hsig]; · iexact Hsig
    isplitr; · iapply (Entails.of_eq (if_neg Bool.false_ne_true).symm); iempintro
    iexact Hcells
  iapply (Laws.sep_assoc.1.trans ((sep_mono_right (ins_l (ins_l (ins_l (ins_l (ins_l (ins_l (ins_l (ins_l (ins_l (ins_l (sep_elim_left)))))))))))).trans (ins_l (ins_l (ins_l (ins_l (ins_r sep_elim_left)))))))
  isplitl [Hpay]; · iexact Hpay
  iexact Hscr

end Cert.Kernel.AR

end
-- ==== Proof.KernelAR.StepLocal.lean ====
import proofs.«900697_g7700000000000698_dist_ar_v7x_i8_i_m512_n512_f32_1_alg».proof.Proof.KernelAR.ProtoF
import proofs.«900697_g7700000000000698_dist_ar_v7x_i8_i_m512_n512_f32_1_alg».proof.Proof.KernelAR.Geometry

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local macro "ikeep " h:ident : tactic => `(tactic| (isplitl [$h]; iexact $h))

private theorem bigSep_unpick {I : Type} [DecidableEq I] {s : Finset I} {i : I} (hi : i ∈ s)
    {Φ : I → sProp 𝕄} : iprop(Φ i ∗ bigSep (s.erase i) Φ) ⊢ bigSep s Φ :=
  Entails.of_eq (bigSep_erase hi).symm

private theorem bigSep_join {I : Type} [DecidableEq I] (s t : Finset I) {Φ : I → sProp 𝕄} :
    iprop(bigSep s Φ ∗ bigSep t Φ) ⊢ bigSep (s ∪ t) Φ :=
  bigSep_sep_union s t

private theorem slot_sub (M : Memref sig .tc .vmem S8x64x512 .bf16) (s : Fin 8) (h : Fin 4) :
    M.view.setOn (rG s h).toLoadRect.set ⊆ (slot M s h).view.set :=
  subset_of_eq (slot_set M s h).symm

private theorem out_blocks_disjoint (ph ph' : Fin 8 × Fin 4) (hne : ph ≠ ph') :
    Disjoint (outM.access (rOwn ph.1 ph.2)).set (outM.access (rOwn ph'.1 ph'.2)).set := by
  rw [show (outM.access (rOwn ph.1 ph.2)).set = (rOwn ph.1 ph.2).set from View.set_slice_whole cc0_stg1_0 _,
    show (outM.access (rOwn ph'.1 ph'.2)).set = (rOwn ph'.1 ph'.2).set from View.set_slice_whole cc0_stg1_0 _]
  exact rOwn_disjoint ph ph' hne

private theorem px_inj (c : Dev nD) {k k' : Fin 8} (e : px c k = px c k') : k = k' := by
  have := congrArg (mk c) e
  rwa [mk_px, mk_px] at this

private theorem pieces_by_mask (c : Dev nD) (h : Fin 4) (Φ : Fin 8 → Fin 4 → sProp 𝕄) :
    (bigSep Finset.univ fun p : Fin 8 => Φ p h)
      = bigSep (Finset.univ.filter fun kh : Fin 8 × Fin 4 => kh.2 = h) fun kh => Φ (px c kh.1) kh.2 := by
  have e : (Finset.univ.filter fun kh : Fin 8 × Fin 4 => kh.2 = h)
      = Finset.univ.map (⟨fun k : Fin 8 => (k, h), fun a b e => (Prod.mk.inj e).1⟩ : Fin 8 ↪ Fin 8 × Fin 4) := by
    ext kh
    rw [Finset.mem_filter, Finset.mem_map]
    exact ⟨fun ⟨_, e⟩ => ⟨kh.1, Finset.mem_univ _, Prod.ext rfl e.symm⟩, fun ⟨k, _, e⟩ => e ▸ ⟨Finset.mem_univ _, rfl⟩⟩
  rw [e, bigSep_map]
  exact bigSep_univ_equiv (⟨fun k => px c k, fun p => mk c p, mk_px c, px_mk c⟩ : Fin 8 ≃ Fin 8) (fun p => Φ p h)

theorem step_xLoad (K : Dev nD × CIx → ℕ) (σ : Stage) (c : Dev nD) {r : LoadRect S512x512} {hl : xM.view.LoadsAt r}
    {α : Type} {Q : α → sProp 𝕄} {k : (r.shape.Idx → Elt F .f32) → Prog (TpuEff nD τ sig (Elt F) Λ₀ .tc) α} :
    St m K σ c ⊢ iprop((St m K σ c -∗ wp frame (wpE (defs₀ (F := F)) 𝒱₀ (c : Thread nD τ) none) Set.univ (k (xM.view.readAt (Elt F) r (X m c))) Q)
      -∗ wp frame (wpE (defs₀ (F := F)) 𝒱₀ (c : Thread nD τ) none) Set.univ (.op (.load xM r hl) k) Q) := by
  unfold St stStage
  iintro ⟨HR, HO, HC, HU, ⟨HX, HY⟩, HS⟩ Hk
  iapply (wp_load 𝒱₀ (c : Thread nD τ) none Set.univ (m := xM) (Finset.subset_univ _)) $$ HX
  iintro HX
  iapply Hk
  iframe

theorem step_xbLoadRaw (K : Dev nD × CIx → ℕ) (σ : Stage) (c : Dev nD) (h : Fin 4) (hh : h ∈ σ.xbRaw)
    {r : LoadRect S512x512} (hr : r = (rX h).toLoadRect) {hl : xbM.view.LoadsAt r}
    {α : Type} {Q : α → sProp 𝕄} {k : (r.shape.Idx → Elt F .bf16) → Prog (TpuEff nD τ sig (Elt F) Λ₀ .tc) α} :
    St m K σ c ⊢ iprop((∀ v, St m K σ c -∗ wp frame (wpE (defs₀ (F := F)) 𝒱₀ (c : Thread nD τ) none) Set.univ (k v) Q)
      -∗ wp frame (wpE (defs₀ (F := F)) 𝒱₀ (c : Thread nD τ) none) Set.univ (.op (.load xbM r hl) k) Q) := by
  subst hr
  unfold St stScratch
  iintro ⟨HR, HO, HC, HU, HG, H1, HS⟩ Hk
  ihave H1 := (bigSep_pick hh) $$ H1
  icases H1 with ⟨⟨%f, Hx⟩, H1⟩
  iapply (wp_load_rect 𝒱₀ (c : Thread nD τ) none Set.univ (m := xbM) (r := rX h) (Finset.Subset.refl _)) $$ Hx
  iintro Hx
  iapply Hk $$ %((xbM.access (rX h)).read (Elt F) f)
  iframe
  iapply (bigSep_unpick hh)
  iframe
  iexists f
  iexact Hx

theorem step_xbStore (K : Dev nD × CIx → ℕ) (σ : Stage) (c : Dev nD) (h : Fin 4) (hh : h ∈ σ.xbRaw)
    {r : Rect S512x512} (hr : r = rX h) {w : r.shape.Idx → Elt F .bf16}
    {hx : (xbM.access r).Stores Finset.univ} {hm : (Finset.univ : Finset r.shape.Idx) = Finset.univ ∨ ∀ a, r.stride a = 1}
    (hw : ∀ f, ∀ i ∈ (xbM.access r).set, ((xbM.access r).write (Elt F) f w Finset.univ) i = XB m c i)
    {α : Type} {Q : α → sProp 𝕄} {k : PUnit → Prog (TpuEff nD τ sig (Elt F) Λ₀ .tc) α} :
    St m K σ c ⊢ iprop((St m K (σ.xbStore h) c -∗ wp frame (wpE (defs₀ (F := F)) 𝒱₀ (c : Thread nD τ) none) Set.univ (k ⟨⟩) Q)
      -∗ wp frame (wpE (defs₀ (F := F)) 𝒱₀ (c : Thread nD τ) none) Set.univ (.op (.store xbM r w Finset.univ hx hm) k) Q) := by
  subst hr
  unfold St stScratch
  iintro ⟨HR, HO, HC, HU, HG, H1, H2, HS⟩ Hk
  ihave H1 := (bigSep_pick hh) $$ H1
  icases H1 with ⟨⟨%f, Hx⟩, H1⟩
  iapply (wp_store 𝒱₀ (c : Thread nD τ) none Set.univ (m := xbM) (r := rX h) (Mk := Finset.univ) (S := (xbM.access (rX h)).set)
    (Finset.Subset.refl _)) $$ Hx
  iintro Hx
  ihave Hx := (Entails.of_eq (pointsTo_congr (hw f))) $$ Hx
  ihave Hx := (xb_slab_pieces c h (XB m c)).1 $$ Hx
  ihave Hx := (Entails.of_eq (pieces_by_mask c h
    (fun p h' => (xbPiece p h').view.loc (c : Thread nD τ) ↦[(xbPiece p h').view.set]{fullShare} XB m c))) $$ Hx
  iapply Hk
  ikeep HR
  ikeep HO
  ikeep HC
  ikeep HU
  ikeep HG
  ikeep H1
  isplitr [HS]
  · iapply (bigSep_join σ.xbHave (Finset.univ.filter fun kh : Fin 8 × Fin 4 => kh.2 = h))
    isplitl [H2]
    · iexact H2
    · iexact Hx
  · iexact HS

theorem step_outLoad (K : Dev nD × CIx → ℕ) (σ : Stage) (c : Dev nD) {r : LoadRect S512x512} {hl : outM.view.LoadsAt r}
    {α : Type} {Q : α → sProp 𝕄} {k : (r.shape.Idx → Elt F .f32) → Prog (TpuEff nD τ sig (Elt F) Λ₀ .tc) α} :
    St m K σ c ⊢ iprop((∀ v, St m K σ c -∗ wp frame (wpE (defs₀ (F := F)) 𝒱₀ (c : Thread nD τ) none) Set.univ (k v) Q)
      -∗ wp frame (wpE (defs₀ (F := F)) 𝒱₀ (c : Thread nD τ) none) Set.univ (.op (.load outM r hl) k) Q) := by
  unfold St stStage
  iintro ⟨HR, HO, HC, HU, ⟨HX, ⟨%f, %hf, HY⟩⟩, HS⟩ Hk
  iapply (wp_load 𝒱₀ (c : Thread nD τ) none Set.univ (m := outM) (Finset.subset_univ _)) $$ HY
  iintro HY
  iapply Hk $$ %(outM.view.readAt (Elt F) r f)
  iframe
  iexists f
  iframe
  ipureintro
  exact hf

theorem step_outStore (K : Dev nD × CIx → ℕ) (σ : Stage) (c : Dev nD) (k₀ : Fin 8) (h : Fin 4) (p : Fin 8) (hp : p = px c k₀)
    {off : Fin 2 → ℕ} {hin : ∀ a, off a + S64x128.size a ≤ S512x512.size a} (hoff : off = ![64 * p.val, 128 * h.val])
    {w : (Rect.unit (s := S512x512) off S64x128.size hin).shape.Idx → Elt F .f32}
    {hx : (outM.access (Rect.unit (s := S512x512) off S64x128.size hin)).Stores Finset.univ}
    {hm : (Finset.univ : Finset (Rect.unit (s := S512x512) off S64x128.size hin).shape.Idx) = Finset.univ
      ∨ ∀ a, (Rect.unit (s := S512x512) off S64x128.size hin).stride a = 1}
    (hw : ∀ f, ∀ i ∈ (outM.access (rOwn p h)).set, ((outM.access (rOwn p h)).write (Elt F) f w Finset.univ) i = outAt (X m) c i)
    {α : Type} {Q : α → sProp 𝕄} {k : PUnit → Prog (TpuEff nD τ sig (Elt F) Λ₀ .tc) α} :
    St m K σ c ⊢ iprop((St m K (σ.outStore k₀ h) c -∗ wp frame (wpE (defs₀ (F := F)) 𝒱₀ (c : Thread nD τ) none) Set.univ (k ⟨⟩) Q)
      -∗ wp frame (wpE (defs₀ (F := F)) 𝒱₀ (c : Thread nD τ) none) Set.univ (.op (.store outM (Rect.unit (s := S512x512) off S64x128.size hin) w Finset.univ hx hm) k) Q) := by
  subst hp
  subst hoff
  unfold St stStage
  iintro ⟨HR, HO, HC, HU, ⟨HX, ⟨%f, %hf, HY⟩⟩, HS⟩ Hk
  iapply (wp_store 𝒱₀ (c : Thread nD τ) none Set.univ (m := outM) (r := rOwn (px c k₀) h) (Finset.subset_univ _)) $$ HY
  iintro HY
  iapply Hk
  ikeep HR
  ikeep HO
  ikeep HC
  ikeep HU
  isplitr [HS]; swap; · iexact HS
  ikeep HX
  iexists ((outM.access (rOwn (px c k₀) h)).write (Elt F) f w Finset.univ)
  isplitr; swap; · iexact HY
  ipureintro
  intro kh hkh i hi
  by_cases e : kh = (k₀, h)
  · subst e
    exact hw f i hi
  · have hne : (px c kh.1, kh.2) ≠ (px c k₀, h) :=
      fun e' => e (Prod.ext (px_inj c (Prod.mk.inj e').1) (Prod.mk.inj e').2)
    rw [View.write_of_not_mem _ _ _ fun hi' =>
      Finset.disjoint_left.mp (out_blocks_disjoint (px c kh.1, kh.2) (px c k₀, h) hne) hi hi']
    exact hf kh ((Finset.mem_insert.mp hkh).resolve_left e) i hi

theorem step_aLoadRaw (K : Dev nD × CIx → ℕ) (σ : Stage) (c : Dev nD) (h : Fin 4) (hh : h ∈ σ.aRaw)
    {r : LoadRect S64x512} (hr : r = (rA h).toLoadRect) {hl : aM.view.LoadsAt r}
    {α : Type} {Q : α → sProp 𝕄} {k : (r.shape.Idx → Elt F .bf16) → Prog (TpuEff nD τ sig (Elt F) Λ₀ .tc) α} :
    St m K σ c ⊢ iprop((∀ v, St m K σ c -∗ wp frame (wpE (defs₀ (F := F)) 𝒱₀ (c : Thread nD τ) none) Set.univ (k v) Q)
      -∗ wp frame (wpE (defs₀ (F := F)) 𝒱₀ (c : Thread nD τ) none) Set.univ (.op (.load aM r hl) k) Q) := by
  subst hr
  unfold St stScratch
  iintro ⟨HR, HO, HC, HU, HG, H1, H2, H3, H4, H5, H6, HS⟩ Hk
  ihave H6 := (bigSep_pick hh) $$ H6
  icases H6 with ⟨⟨%f, Hx⟩, H6⟩
  iapply (wp_load_rect 𝒱₀ (c : Thread nD τ) none Set.univ (m := aM) (r := rA h) (S := (aPiece h).view.set) (Finset.Subset.refl _)) $$ Hx
  iintro Hx
  iapply Hk $$ %((aM.access (rA h)).read (Elt F) f)
  iframe
  iapply (bigSep_unpick hh)
  iframe
  iexists f
  iexact Hx

private theorem a_written (σ : Stage) (c : Dev nD) (h : Fin 4) (hh : h ∈ σ.aRaw) :
    iprop(((aPiece h).view.loc (c : Thread nD τ) ↦[(aPiece h).view.set]{fullShare} AB m c)
      ∗ bigSep (Finset.univ \ σ.aRaw) fun h' => (aPiece h').view.loc (c : Thread nD τ) ↦[(aPiece h').view.set]{remShare (σ.aSent h')} AB m c)
    ⊢ (bigSep (Finset.univ \ (σ.aStore h).aRaw) fun h' =>
        (aPiece h').view.loc (c : Thread nD τ) ↦[(aPiece h').view.set]{remShare ((σ.aStore h).aSent h')} AB m c : sProp 𝕄) := by
  have hn : h ∉ Finset.univ \ σ.aRaw := fun hm => (Finset.mem_sdiff.mp hm).2 hh
  show _ ⊢ bigSep (Finset.univ \ σ.aRaw.erase h) fun h' =>
    ((aPiece h').view.loc (c : Thread nD τ) ↦[(aPiece h').view.set]{remShare (Function.update σ.aSent h 0 h')} AB m c : sProp 𝕄)
  rw [Finset.sdiff_erase (Finset.mem_univ h), bigSep_insert hn]
  refine sep_mono (Entails.of_eq ?_) (Entails.of_eq (bigSep_congr fun h' hh' => ?_))
  · rw [Function.update_self]
    rfl
  · rw [Function.update_of_ne fun e : h' = h => (Finset.mem_sdiff.mp hh').2 (e ▸ hh)]

theorem step_aStore (K : Dev nD × CIx → ℕ) (σ : Stage) (c : Dev nD) (h : Fin 4) (hh : h ∈ σ.aRaw)
    {r : Rect S64x512} (hr : r = rA h) {w : r.shape.Idx → Elt F .bf16}
    {hx : (aM.access r).Stores Finset.univ} {hm : (Finset.univ : Finset r.shape.Idx) = Finset.univ ∨ ∀ a, r.stride a = 1}
    (hw : ∀ f, ∀ i ∈ (aM.access r).set, ((aM.access r).write (Elt F) f w Finset.univ) i = AB m c i)
    {α : Type} {Q : α → sProp 𝕄} {k : PUnit → Prog (TpuEff nD τ sig (Elt F) Λ₀ .tc) α} :
    St m K σ c ⊢ iprop((St m K (σ.aStore h) c -∗ wp frame (wpE (defs₀ (F := F)) 𝒱₀ (c : Thread nD τ) none) Set.univ (k ⟨⟩) Q)
      -∗ wp frame (wpE (defs₀ (F := F)) 𝒱₀ (c : Thread nD τ) none) Set.univ (.op (.store aM r w Finset.univ hx hm) k) Q) := by
  subst hr
  unfold St stScratch
  iintro ⟨HR, HO, HC, HU, HG, H1, H2, H3, H4, H5, H6, H7, HS⟩ Hk
  ihave H6 := (bigSep_pick hh) $$ H6
  icases H6 with ⟨⟨%f, Hx⟩, H6⟩
  iapply (wp_store 𝒱₀ (c : Thread nD τ) none Set.univ (m := aM) (r := rA h) (Mk := Finset.univ) (S := (aPiece h).view.set)
    (Finset.Subset.refl _)) $$ Hx
  iintro Hx
  ihave Hx := (Entails.of_eq (pointsTo_congr (hw f))) $$ Hx
  iapply Hk
  ikeep HR
  ikeep HO
  ikeep HC
  ikeep HU
  ikeep HG
  ikeep H1
  ikeep H2
  ikeep H3
  ikeep H4
  ikeep H5
  ikeep H6
  isplitr [HS]
  · iapply (a_written m σ c h hh)
    isplitl [Hx]
    · iexact Hx
    · iexact H7
  · iexact HS

theorem step_gLoad (K : Dev nD × CIx → ℕ) (σ : Stage) (c : Dev nD) (k₀ : Fin 8) (h : Fin 4) (hk : (k₀, h) ∈ σ.gLanded)
    (p : Fin 8) (hp : p = px c k₀)
    {off : Fin 3 → ℕ} {hin : ∀ a, off a + S1x64x128.size a ≤ S8x64x512.size a} (hoff : off = ![p.val, 0, 128 * h.val])
    {hl : gM.view.LoadsAt (Rect.unit (s := S8x64x512) off S1x64x128.size hin).toLoadRect}
    {α : Type} {Q : α → sProp 𝕄}
    {k : ((Rect.unit (s := S8x64x512) off S1x64x128.size hin).toLoadRect.shape.Idx → Elt F .bf16) → Prog (TpuEff nD τ sig (Elt F) Λ₀ .tc) α} :
    St m K σ c ⊢ iprop((St m K σ c -∗ wp frame (wpE (defs₀ (F := F)) 𝒱₀ (c : Thread nD τ) none) Set.univ (k (gM.view.readAt (Elt F) (rG p h).toLoadRect (G1 m c))) Q)
      -∗ wp frame (wpE (defs₀ (F := F)) 𝒱₀ (c : Thread nD τ) none) Set.univ (.op (.load gM (Rect.unit (s := S8x64x512) off S1x64x128.size hin).toLoadRect hl) k) Q) := by
  subst hp
  subst hoff
  unfold St stScratch
  iintro ⟨HR, HO, HC, HU, HG, H1, H2, H3, H4, HS⟩ Hk
  ihave H4 := (bigSep_pick hk) $$ H4
  icases H4 with ⟨Hx, H4⟩
  iapply (wp_load 𝒱₀ (c : Thread nD τ) none Set.univ (m := gM) (r := (rG (px c k₀) h).toLoadRect) (slot_sub gM (px c k₀) h)) $$ Hx
  iintro Hx
  iapply Hk
  iframe
  iapply (bigSep_unpick hk)
  iframe

theorem step_oLoad (K : Dev nD × CIx → ℕ) (σ : Stage) (c : Dev nD) (k₀ : Fin 8) (h : Fin 4) (hk : (k₀, h) ∈ σ.oLanded)
    (p : Fin 8) (hp : p = px c k₀)
    {off : Fin 3 → ℕ} {hin : ∀ a, off a + S1x64x128.size a ≤ S8x64x512.size a} (hoff : off = ![p.val, 0, 128 * h.val])
    {hl : oM.view.LoadsAt (Rect.unit (s := S8x64x512) off S1x64x128.size hin).toLoadRect}
    {α : Type} {Q : α → sProp 𝕄}
    {k : ((Rect.unit (s := S8x64x512) off S1x64x128.size hin).toLoadRect.shape.Idx → Elt F .bf16) → Prog (TpuEff nD τ sig (Elt F) Λ₀ .tc) α} :
    St m K σ c ⊢ iprop((St m K σ c -∗ wp frame (wpE (defs₀ (F := F)) 𝒱₀ (c : Thread nD τ) none) Set.univ (k (oM.view.readAt (Elt F) (rG p h).toLoadRect (OB m c))) Q)
      -∗ wp frame (wpE (defs₀ (F := F)) 𝒱₀ (c : Thread nD τ) none) Set.univ (.op (.load oM (Rect.unit (s := S8x64x512) off S1x64x128.size hin).toLoadRect hl) k) Q) := by
  subst hp
  subst hoff
  unfold St stScratch
  iintro ⟨HR, HO, HC, HU, HG, H1, H2, H3, H4, H5, H6, H7, H8, H9, H10, HS⟩ Hk
  ihave H10 := (bigSep_pick hk) $$ H10
  icases H10 with ⟨Hx, H10⟩
  iapply (wp_load 𝒱₀ (c : Thread nD τ) none Set.univ (m := oM) (r := (rG (px c k₀) h).toLoadRect) (slot_sub oM (px c k₀) h)) $$ Hx
  iintro Hx
  iapply Hk
  iframe
  iapply (bigSep_unpick hk)
  iframe

end Cert.Kernel.AR

end
-- ==== Proof.KernelAR.StepSend.lean ====
import proofs.«900697_g7700000000000698_dist_ar_v7x_i8_i_m512_n512_f32_1_alg».proof.Proof.KernelAR.StepSignal
import proofs.«900697_g7700000000000698_dist_ar_v7x_i8_i_m512_n512_f32_1_alg».proof.Proof.KernelAR.Geometry

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

private theorem decode (b : ℕ) (h : Fin 4) (j : Fin 7) :
    (⟨(b + 7 * h.val + j.val - b) % 7, Nat.mod_lt _ (by decide)⟩ : Fin 7) = j
      ∧ (⟨(b + 7 * h.val + j.val - b) / 7 % 4, Nat.mod_lt _ (by decide)⟩ : Fin 4) = h :=
  ⟨Fin.ext (by have := j.isLt; simp only; omega), Fin.ext (by have := h.isLt; have := j.isLt; simp only; omega)⟩
/-- After the seven signals come the 28 arrivals of phase 1, then the 28 of phase 2, slab by slab in the order of `far`. -/
private theorem pay_phase (c : Dev nD) (h : Fin 4) (j : Fin 7) {n : ℕ} :
    (n = 7 + 7 * h.val + j.val → pay c n = tallyAt (r1Cell (px c (far j)) h c) () N)
      ∧ (n = 35 + 7 * h.val + j.val → pay c n = tallyAt (r2Cell (px c (far j)) h c) () N) := by
  have hh := h.isLt; have hjj := j.isLt
  refine ⟨fun e => ?_, fun e => ?_⟩ <;> subst e <;> unfold pay
  · rw [if_neg (by omega), if_pos (by omega), (decode 7 h j).1, (decode 7 h j).2]
  · rw [if_neg (by omega), if_neg (by omega), (decode 35 h j).1, (decode 35 h j).2]

/-- A copy to a partner pays the sender's send cell with the source and the partner's receive cell with the slot as it will land; the arrival is no longer owed. -/
theorem step_send (K : Dev nD × CIx → ℕ) (σ σ' : Stage) (c : Dev nD) (a a' h : Fin 4) (j : Fin 7)
    (src : Memref sig .tc .vmem S64x128 .bf16) (G : Memref sig .tc .vmem S8x64x512 .bf16)
    {q : PosShare TreeShare} {fs : Buf (Elt F) (src.view.loc (c : Thread nD τ))} {Fl Mid : sProp 𝕄}
    (hu₁ : usedIx c (some (a, h, far j))) (hu₂ : usedIx (px c (far j)) (some (a', h, c)))
    (hd₁ : (Rd (F := F) m).duties (kcell (c, some (a, h, far j))) 0 = {0})
    (hd₂ : (Rd (F := F) m).duties (kcell (px c (far j), some (a', h, c))) 0 = {0})
    (hlt : σ.paid < 63) (hσ : σ'.paid = σ.paid + 1)
    (hpay : pay c σ.paid = tallyAt (kcell (px c (far j), some (a', h, c))) () N)
    (hT : stStage m σ' c = stStage m σ c)
    (hC : (stCells σ c : sProp 𝕄) ⊢ iprop((atPos ER (kcell (c, some (a, h, far j))) 0 ∅ 0 ∗ dutyTok ER (kcell (c, some (a, h, far j))) 0 0
        ∗ dutyTok ER (kcell (px c (far j), some (a', h, c))) 0 0) ∗ Mid))
    (hC' : iprop(Fl ∗ Mid) ⊢ stCells σ' c)
    (hFl : waitingAt (kcell (c, some (a, h, far j))) N ⊢ Fl)
    (hS : stScratch m σ c ⊢ iprop(slotAny G (px c (far j)) c h ∗ (src.view.loc (c : Thread nD τ) ↦[src.view.set]{q} fs) ∗ stScratch m σ' c))
    (hp₁ : (src.view.loc (c : Thread nD τ) ↦[src.view.set]{q} fs : sProp 𝕄) ⊢ (Rd (F := F) m).payload (kcell (c, some (a, h, far j))) 0 0)
    (hp₂ : ∀ fd, ((slot G c h).view.loc ((px c (far j) : Dev nD) : Thread nD τ) ↦[(slot G c h).view.set]{fullShare}
          ((slot G c h).view.write (Elt F) fd (src.view.read (Elt F) fs) Finset.univ) : sProp 𝕄)
        ⊢ (Rd (F := F) m).payload (kcell (px c (far j), some (a', h, c))) 0 0)
    {hsc} {hsrc} {hdst} {hsem}
    {α : Type} {Q : α → sProp 𝕄} {k : PUnit → Prog (TpuEff nD τ sig (Elt F) Λ₀ .tc) α} :
    St m K σ c ⊢ iprop((St m K σ' c -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote ((px c (far j) : Dev nD) : Thread nD τ) (slot G c h) (.dma (dsem (arr a) h (far j))) hsc)
            (.dma (dsem (arr a') h c)) hsrc hdst hsem) k) Q) := by
  have hO : owedFrom c σ.paid = owedFrom c σ'.paid + tallyAt (kcell (px c (far j), some (a', h, c))) () N := by
    rw [hσ, owedFrom_step c σ.paid hlt, hpay]
  unfold St stOwes
  rw [hT]
  iintro ⟨#Hrec, ⟨%W, How⟩, Hcells, Hun, Hstg, Hscr⟩ Hk
  ihave Hb := (records_get m K (c, some (a, h, far j)) hu₁) $$ Hrec
  icases Hb with ⟨#HI₁, #Hre₁, -⟩
  ihave Hb := (records_get m K (px c (far j), some (a', h, c)) hu₂) $$ Hrec
  icases Hb with ⟨#HI₂, #Hre₂, -⟩
  ihave ⟨⟨Hat, Ht1, Ht2⟩, Hmid⟩ := hC $$ Hcells
  ihave ⟨⟨%fd, Hdst⟩, Hsrc, Hscr⟩ := hS $$ Hscr
  iapply (wp_send_pointsTo (defs := defs₀ (F := F)) 𝒱₀ ER (Rd (F := F) m) (c : Thread nD τ) none
      (c' := ((px c (far j) : Dev nD) : Thread nD τ)) (src := src) (dst := slot G c h)
      (sS := .dma (dsem (arr a) h (far j))) (sem := .dma (dsem (arr a') h c))
      (q := q) (fs := fs) (fd := fd) (r₁ := 0) (r₂ := 0) (d₁ := (0 : Fin 8)) (d₂ := (0 : Fin 8))
      (κ₁ := K (c, some (a, h, far j))) (κ₂ := K (px c (far j), some (a', h, c)))
      (by rw [hd₁]; exact Finset.mem_singleton_self _) (by rw [hd₂]; exact Finset.mem_singleton_self _) () () N rfl rfl rfl
      (owedFrom c σ'.paid) hO hp₁ (hp₂ fd)) $$ [$HI₁ $HI₂ $Hsrc $Hdst $How $Ht1 $Hre₁ $Ht2 $Hre₂]
  iintro ⟨Hcr, How⟩
  iapply Hk
  iframe Hrec Hun Hstg Hscr
  isplitl [How]; · iexists W; iexact How
  iapply hC'
  iframe Hmid
  iapply hFl
  isplitl [Hat] <;> iassumption

/-- A written slab of the narrowed sum lends its next share: what is left of it is one send further. -/
private theorem aHave_lend (c : Dev nD) (cnt : Fin 4 → ℕ) {S : Finset (Fin 4)} {h : Fin 4} (hS : h ∈ S) :
    (bigSep S fun h' => ((aPiece h').view.loc (c : Thread nD τ) ↦[(aPiece h').view.set]{remShare (cnt h')} AB m c : sProp 𝕄))
      ⊢ iprop(((aPiece h).view.loc (c : Thread nD τ) ↦[(aPiece h).view.set]{lentShare (cnt h)} AB m c)
        ∗ bigSep S fun h' => ((aPiece h').view.loc (c : Thread nD τ) ↦[(aPiece h').view.set]{remShare (Function.update cnt h (cnt h + 1) h')} AB m c : sProp 𝕄)) := by
  rw [bigSep_erase hS, bigSep_erase hS, Function.update_self]
  refine (sep_mono_left ((a_share_step c h (cnt h) (AB m c)).1.trans sep_comm.1)).trans (Laws.sep_assoc.1.trans
    (sep_mono_right (sep_mono_right (Entails.of_eq (bigSep_congr fun i hi => ?_)))))
  rw [Function.update_of_ne (Finset.ne_of_mem_erase hi)]

theorem step_send1 (K : Dev nD × CIx → ℕ) (σ : Stage) (c : Dev nD) (h : Fin 4) (j : Fin 7)
    (hj : (h, j) ∈ σ.s1Todo) (hp : σ.paid = 7 + 7 * h.val + j.val)
    (hx : (far j, h) ∈ σ.xbHave) (hg : (j, h) ∈ σ.gPeer)
    (hland : ∀ fd : Buf (Elt F) ((slot gM c h).view.loc ((px c (far j) : Dev nD) : Thread nD τ)), ∀ i ∈ (slot gM c h).view.set,
      ((slot gM c h).view.write (Elt F) fd ((xbPiece (px c (far j)) h).view.read (Elt F) (XB m c)) Finset.univ) i = G1 m (px c (far j)) i)
    {offS : Fin 2 → ℕ} {hinS : ∀ a, offS a + S64x128.size a ≤ S512x512.size a} (hoffS : offS = ![64 * (px c (far j)).val, 128 * h.val])
    {offD : Fin 3 → ℕ} {hinD : ∀ a, offD a + S1x64x128.size a ≤ S8x64x512.size a} (hoffD : offD = ![c.val, 0, 128 * h.val])
    {offs : Fin 2 → ℕ} {hins : ∀ a, offs a + S1x1.size a ≤ S4x8.size a} (hoffs : offs = ![h.val, (far j).val])
    {offr : Fin 2 → ℕ} {hinr : ∀ a, offr a + S1x1.size a ≤ S4x8.size a} (hoffr : offr = ![h.val, c.val])
    {d : Dev nD} (hd : d = px c (far j)) {hsc} {hsrc} {hdst} {hsem}
    {α : Type} {Q : α → sProp 𝕄} {k : PUnit → Prog (TpuEff nD τ sig (Elt F) Λ₀ .tc) α} :
    St m K σ c ⊢ iprop((St m K (σ.send1 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (xbM.slice (Rect.unit (s := S512x512) offS S64x128.size hinS) (fun _ => rfl))
            (.remote (Dev.tc d : Thread nD τ) ((gM.slice (Rect.unit (s := S8x64x512) offD S1x64x128.size hinD) (fun _ => rfl)).squeeze S64x128 squeezes_S1x64x128_S64x128)
              (.dma ((cc0_scratch4.slice (Rect.unit (s := S4x8) offs S1x1.size hins)).squeeze S_ squeezes_S1x1_S_).sem) hsc)
            (.dma ((cc0_scratch5.slice (Rect.unit (s := S4x8) offr S1x1.size hinr)).squeeze S_ squeezes_S1x1_S_).sem) hsrc hdst hsem) k) Q) := by
  subst hoffS hoffD hoffs hoffr hd
  have hh := h.isLt; have hjj := j.isLt
  have hne : (c : Fin 8) ≠ px c (far j) := (px_ne c (far j) (far_ne j)).symm
  exact step_send m K σ (σ.send1 h j) c 0 1 h j (xbPiece (px c (far j)) h) gM
    (used_send 0 (by decide) c h _ (far_ne j)) (used_recv 1 (by decide) _ h _ hne)
    (duties_s1 m c h _ (far_ne j)) (duties_r1 m _ h c hne) (by omega) rfl ((pay_phase c h j).1 hp) rfl
    (pk_l (pk_l (pk_r (bigSep_pick hj)))) (ins_l (ins_l (ins_l (ins_r bigSep_ins)))) .rfl
    ((pk_l (pk_r (bigSep_pick hx))).trans (pk_l (pk_l (pk_l (pk_l (pk_l (pk_r (bigSep_pick hg))))))))
    (Entails.of_eq (payload_s1 m c h (far j) 0).symm)
    (fun fd => Entails.of_eq ((pointsTo_congr (hland fd)).trans (payload_r1 m (px c (far j)) h c 0).symm))

theorem step_send2 (K : Dev nD × CIx → ℕ) (σ : Stage) (c : Dev nD) (h : Fin 4) (j : Fin 7)
    (hj : (h, j) ∈ σ.s2Todo) (hp : σ.paid = 35 + 7 * h.val + j.val)
    (ha : h ∉ σ.aRaw) (hn : σ.aSent h = j.val) (ho : (j, h) ∈ σ.oPeer)
    (hland : ∀ fd : Buf (Elt F) ((slot oM c h).view.loc ((px c (far j) : Dev nD) : Thread nD τ)), ∀ i ∈ (slot oM c h).view.set,
      ((slot oM c h).view.write (Elt F) fd ((aPiece h).view.read (Elt F) (AB m c)) Finset.univ) i = OB m (px c (far j)) i)
    {offS : Fin 2 → ℕ} {hinS : ∀ a, offS a + S64x128.size a ≤ S64x512.size a} (hoffS : offS = ![0, 128 * h.val])
    {offD : Fin 3 → ℕ} {hinD : ∀ a, offD a + S1x64x128.size a ≤ S8x64x512.size a} (hoffD : offD = ![c.val, 0, 128 * h.val])
    {offs : Fin 2 → ℕ} {hins : ∀ a, offs a + S1x1.size a ≤ S4x8.size a} (hoffs : offs = ![h.val, (far j).val])
    {offr : Fin 2 → ℕ} {hinr : ∀ a, offr a + S1x1.size a ≤ S4x8.size a} (hoffr : offr = ![h.val, c.val])
    {d : Dev nD} (hd : d = px c (far j)) {hsc} {hsrc} {hdst} {hsem}
    {α : Type} {Q : α → sProp 𝕄} {k : PUnit → Prog (TpuEff nD τ sig (Elt F) Λ₀ .tc) α} :
    St m K σ c ⊢ iprop((St m K (σ.send2 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (aM.slice (Rect.unit (s := S64x512) offS S64x128.size hinS) (fun _ => rfl))
            (.remote (Dev.tc d : Thread nD τ) ((oM.slice (Rect.unit (s := S8x64x512) offD S1x64x128.size hinD) (fun _ => rfl)).squeeze S64x128 squeezes_S1x64x128_S64x128)
              (.dma ((cc0_scratch6.slice (Rect.unit (s := S4x8) offs S1x1.size hins)).squeeze S_ squeezes_S1x1_S_).sem) hsc)
            (.dma ((cc0_scratch7.slice (Rect.unit (s := S4x8) offr S1x1.size hinr)).squeeze S_ squeezes_S1x1_S_).sem) hsrc hdst hsem) k) Q) := by
  subst hoffS hoffD hoffs hoffr hd
  have hh := h.isLt; have hjj := j.isLt
  have hne : (c : Fin 8) ≠ px c (far j) := (px_ne c (far j) (far_ne j)).symm
  exact step_send m K σ (σ.send2 h j) c 2 3 h j (aPiece h) oM
    (used_send 2 (by decide) c h _ (far_ne j)) (used_recv 3 (by decide) _ h _ hne)
    (duties_s2 m c h _ (far_ne j)) (duties_r2 m _ h c hne) (by omega) rfl ((pay_phase c h j).2 hp) rfl
    (pk_l (pk_l (pk_l (pk_l (pk_l (pk_l (pk_l (pk_r (bigSep_pick hj))))))))) (ins_l (ins_l (ins_l (ins_l (ins_l (ins_l (ins_l (ins_l (ins_r bigSep_ins))))))))) .rfl
    ((pk_l (pk_l (pk_l (pk_l (pk_l (pk_l (pk_r (aHave_lend m c σ.aSent (Finset.mem_sdiff.mpr ⟨Finset.mem_univ _, ha⟩))))))))).trans (pk_l (pk_l (pk_l (pk_l (pk_l (pk_l (pk_l (pk_l (pk_l (pk_l (pk_l (bigSep_pick ho)))))))))))))
    (by show _ ⊢ (Rd (F := F) m).payload (s2Cell c h (far j)) 0 0; rw [payload_s2, hn]; unfold s2Pay; rw [farPos_far])
    (fun fd => Entails.of_eq ((pointsTo_congr (hland fd)).trans (payload_r2 m (px c (far j)) h c 0).symm))

end Cert.Kernel.AR

end
-- ==== Proof.KernelAR.StepWait.lean ====
import proofs.«900697_g7700000000000698_dist_ar_v7x_i8_i_m512_n512_f32_1_alg».proof.Proof.KernelAR.StepSignal

noncomputable section

namespace Cert.Kernel.AR

open Cert.Kernel Cert.Kernel.Gen
open Idealize.ShloMosaic
open Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Once every payment is made nothing is owed, so any wait is allowed. -/
theorem mayWait_end (c : Dev nD) (sm : SemLoc sig) {n : ℕ} (hn : n = 63) :
    (levAts L lv : sProp 𝕄) ⊢ MayWait (c : Thread nD τ) sm () (owedFrom c n) := by
  rw [hn, owedFrom_end, MayWait_zero]; exact BI.affine

/-- The wait on a used cell of one copy spends the credit held for it, takes the round's one payload and closes the cell, no later round having a duty. -/
theorem step_wait (K : Dev nD × CIx → ℕ) (σ σ' : Stage) (c : Dev nD) (a h : Fin 4) (s : Fin 8) {P Cl Mid : sProp 𝕄}
    (hu : usedIx c (some (a, h, s)))
    (hd : (Rd (F := F) m).duties (kcell (c, some (a, h, s))) 0 = {0})
    (hW : (levAts L lv : sProp 𝕄) ⊢ MayWait (c : Thread nD τ) (.dma (dsem (arr a) h s)) () (owedFrom c σ.paid))
    (hO : σ'.paid = σ.paid) (hT : stStage m σ' c = stStage m σ c)
    (hC : (stCells σ c : sProp 𝕄) ⊢ iprop(waitingAt (kcell (c, some (a, h, s))) N ∗ Mid))
    (hC' : iprop(Cl ∗ Mid) ⊢ stCells σ' c)
    (hS : iprop(P ∗ stScratch m σ c) ⊢ stScratch m σ' c)
    (hCl : closedAt (kcell (c, some (a, h, s))) ⊢ Cl)
    (hP : (Rd (F := F) m).payload (kcell (c, some (a, h, s))) 0 0 = P)
    {src dst : Memref sig .tc .vmem S64x128 .bf16} {hs : src.view.WordExact} {hd' : dst.view.WordExact}
    {α : Type} {Q : α → sProp 𝕄} {k : PUnit → Prog (TpuEff nD τ sig (Elt F) Λ₀ .tc) α} :
    St m K σ c ⊢ iprop((St m K σ' c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (dsem (arr a) h s) src dst hs hd') k) Q) := by
  have hamt : dst.view.dmaCredit = N := rfl
  have hexp : 0 + dst.view.dmaCredit = (Rd (F := F) m).expect (kcell (c, some (a, h, s))) 0 := by
    unfold Schedule.expect Schedule.amountOf; rw [Nat.zero_add, hd, Finset.sum_singleton]; rfl
  have hrest : bigSep ((Rd (F := F) m).duties (kcell (c, some (a, h, s))) 0 \ ∅) (fun d => (Rd (F := F) m).payload (kcell (c, some (a, h, s))) 0 d) = P := by
    rw [hd, Finset.sdiff_empty, bigSep_singleton, hP]
  unfold St stOwes
  rw [hO, hT]
  iintro ⟨#Hrec, ⟨%W, HO⟩, Hcells, Hun, Hstage, Hscr⟩ Hk
  ihave Hb := (records_get m K (c, some (a, h, s)) hu) $$ Hrec
  icases Hb with ⟨#HI, -, #Hlev⟩
  ihave ⟨⟨Hat, Hcr⟩, Hmid⟩ := hC $$ Hcells
  iapply (Rounds.wp_wait_rest_token 𝒱₀ ER (Rd m) (c : Thread nD τ) none (κ := K (c, some (a, h, s)))
      (w := .waitDma2 (dsem (arr a) h s) src dst hs hd') (sm := .dma (dsem (arr a) h s)) (k' := dst.view.dmaCredit)
      (wpE_waitDma2_eq 𝒱₀ (c : Thread nD τ) none Set.univ) (Set.mem_univ _) () (O := owedFrom c σ.paid) (W := W) (R := 0) (m := 0) (T := ∅)
      hexp) $$ [$HI $HO $Hat Hcr]
  · rw [hamt]; iframe Hcr; iapply hW; iexact Hlev
  iintro ⟨HO, Hat, -, Hpay⟩
  ihave Hpay := (Entails.of_eq hrest) $$ Hpay
  imod (Rounds.cell_close ER (Rd m) (Set.mem_univ (K (c, some (a, h, s)))) (fun hh => hh) (R := 0 + 1)
      (duties_later m (kcell (c, some (a, h, s))))) $$ [$HI $Hat] with Hz
  iapply Hk
  iframe Hrec Hun Hstage
  isplitl [HO]; · iexists _; iexact HO
  isplitl [Hmid Hz]
  · iapply hC'; iframe Hmid; iapply hCl; iexact Hz
  iapply hS; iframe

theorem step_recv1 (K : Dev nD × CIx → ℕ) (σ : Stage) (c : Dev nD) (h : Fin 4) (j : Fin 7)
    (hj : (h, j) ∈ σ.r1Todo) (hp : 35 ≤ σ.paid)
    {off : Fin 2 → ℕ} {hin : ∀ a, off a + S1x1.size a ≤ S4x8.size a} (hoff : off = ![h.val, (px c (near j)).val])
    {src dst : Memref sig .tc .vmem S64x128 .bf16} {hs : src.view.WordExact} {hd : dst.view.WordExact}
    {α : Type} {Q : α → sProp 𝕄} {k : PUnit → Prog (TpuEff nD τ sig (Elt F) Λ₀ .tc) α} :
    St m K σ c ⊢ iprop((St m K (σ.recv1 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 ((cc0_scratch5.slice (Rect.unit (s := S4x8) off S1x1.size hin)).squeeze S_ squeezes_S1x1_S_).sem src dst hs hd) k) Q) := by
  subst hoff
  have hne := px_ne c (near j) (near_ne j)
  exact step_wait m K σ (σ.recv1 h j) c 1 h _ (used_recv 1 (by decide) c h _ hne) (duties_r1 m c h _ hne)
    (mayWait_r1 c h _ σ.paid hp) rfl rfl (pk_l (pk_l (pk_l (pk_l (pk_l (pk_r (bigSep_pick hj)))))))
    (ins_l (ins_l (ins_l (ins_l (ins_l (ins_l (ins_r bigSep_ins)))))))
    (ins_l (ins_l (ins_l (ins_r bigSep_ins)))) .rfl (payload_r1 m c h _ 0)

theorem step_recv2 (K : Dev nD × CIx → ℕ) (σ : Stage) (c : Dev nD) (h : Fin 4) (j : Fin 7)
    (hj : (h, j) ∈ σ.r2Todo) (hp : σ.paid = 63)
    {off : Fin 2 → ℕ} {hin : ∀ a, off a + S1x1.size a ≤ S4x8.size a} (hoff : off = ![h.val, (px c (near j)).val])
    {src dst : Memref sig .tc .vmem S64x128 .bf16} {hs : src.view.WordExact} {hd : dst.view.WordExact}
    {α : Type} {Q : α → sProp 𝕄} {k : PUnit → Prog (TpuEff nD τ sig (Elt F) Λ₀ .tc) α} :
    St m K σ c ⊢ iprop((St m K (σ.recv2 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 ((cc0_scratch7.slice (Rect.unit (s := S4x8) off S1x1.size hin)).squeeze S_ squeezes_S1x1_S_).sem src dst hs hd) k) Q) := by
  subst hoff
  have hne := px_ne c (near j) (near_ne j)
  exact step_wait m K σ (σ.recv2 h j) c 3 h _ (used_recv 3 (by decide) c h _ hne) (duties_r2 m c h _ hne)
    (mayWait_end c _ hp) rfl rfl (pk_l (pk_l (pk_l (pk_l (pk_l (pk_l (pk_l (pk_l (pk_l (pk_l (pk_r (bigSep_pick hj))))))))))))
    (ins_l (ins_l (ins_l (ins_l (ins_l (ins_l (ins_l (ins_l (ins_l (ins_l (ins_l (bigSep_ins))))))))))))
    (ins_l (ins_l (ins_l (ins_l (ins_l (ins_l (ins_l (ins_l (ins_l (ins_r bigSep_ins)))))))))) .rfl (payload_r2 m c h _ 0)

theorem step_sendWait1 (K : Dev nD × CIx → ℕ) (σ : Stage) (c : Dev nD) (h : Fin 4) (j : Fin 7)
    (hj : (h, j) ∈ σ.s1Fly) (hp : σ.paid = 63)
    {off : Fin 2 → ℕ} {hin : ∀ a, off a + S1x1.size a ≤ S4x8.size a} (hoff : off = ![h.val, (far j).val])
    {src dst : Memref sig .tc .vmem S64x128 .bf16} {hs : src.view.WordExact} {hd : dst.view.WordExact}
    {α : Type} {Q : α → sProp 𝕄} {k : PUnit → Prog (TpuEff nD τ sig (Elt F) Λ₀ .tc) α} :
    St m K σ c ⊢ iprop((St m K (σ.sendWait1 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 ((cc0_scratch4.slice (Rect.unit (s := S4x8) off S1x1.size hin)).squeeze S_ squeezes_S1x1_S_).sem src dst hs hd) k) Q) := by
  subst hoff
  exact step_wait m K σ (σ.sendWait1 h j) c 0 h _ (used_send 0 (by decide) c h _ (far_ne j)) (duties_s1 m c h _ (far_ne j))
    (mayWait_end c _ hp) rfl rfl (pk_l (pk_l (pk_l (pk_r (bigSep_pick hj)))))
    (ins_l (ins_l (ins_l (ins_l (ins_r bigSep_ins)))))
    (ins_l (ins_r bigSep_ins)) .rfl (payload_s1 m c h _ 0)

theorem step_sendWait2 (K : Dev nD × CIx → ℕ) (σ : Stage) (c : Dev nD) (h : Fin 4) (j : Fin 7)
    (hj : (h, j) ∈ σ.s2Fly) (hp : σ.paid = 63)
    {off : Fin 2 → ℕ} {hin : ∀ a, off a + S1x1.size a ≤ S4x8.size a} (hoff : off = ![h.val, (far j).val])
    {src dst : Memref sig .tc .vmem S64x128 .bf16} {hs : src.view.WordExact} {hd : dst.view.WordExact}
    {α : Type} {Q : α → sProp 𝕄} {k : PUnit → Prog (TpuEff nD τ sig (Elt F) Λ₀ .tc) α} :
    St m K σ c ⊢ iprop((St m K (σ.sendWait2 h j) c -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 ((cc0_scratch6.slice (Rect.unit (s := S4x8) off S1x1.size hin)).squeeze S_ squeezes_S1x1_S_).sem src dst hs hd) k) Q) := by
  subst hoff
  exact step_wait m K σ (σ.sendWait2 h j) c 2 h _ (used_send 2 (by decide) c h _ (far_ne j)) (duties_s2 m c h _ (far_ne j))
    (mayWait_end c _ hp) rfl rfl (pk_l (pk_l (pk_l (pk_l (pk_l (pk_l (pk_l (pk_l (pk_r (bigSep_pick hj))))))))))
    (ins_l (ins_l (ins_l (ins_l (ins_l (ins_l (ins_l (ins_l (ins_l (ins_r bigSep_ins))))))))))
    (ins_l (ins_l (ins_l (ins_l (ins_l (ins_l (ins_l (ins_r bigSep_ins)))))))) .rfl ((payload_s2 m c h _ 0).trans (by unfold s2Pay; rw [farPos_far]))

end Cert.Kernel.AR

end
-- ==== Proof.KernelAR.Values.lean ====
import proofs.«900697_g7700000000000698_dist_ar_v7x_i8_i_m512_n512_f32_1_alg».proof.Proof.KernelAR.ProtoD
import proofs.«900697_g7700000000000698_dist_ar_v7x_i8_i_m512_n512_f32_1_alg».proof.Proof.Gen.Kernel.Skeleton
import Idealize.ShloMosaic.Lib.Pipeline.Value
import Idealize.ShloMosaic.Lib.ValueIdx

noncomputable section

namespace Cert.Kernel.AR

open Cert.Kernel Cert.Kernel.Gen
open Idealize.ShloMosaic
open Idealize.ShloMosaic.TcCoe
open Idealize.SL.Sem

variable {F : FTy → Type} [FloatOps F]

variable (m : (ℓ : Loc nD τ sig) → Buf (Elt F) ℓ)

theorem col_lt (h : Fin 4) (l : Fin 128) : 128 * h.val + l.val < 512 := by have := h.isLt; have := l.isLt; omega

theorem grp_ixg (p : Fin 8) (r : Fin 64) (l : Fin 512) : grp (ixg p r l) = p :=
  Fin.ext (by show (64 * p.val + r.val) / 64 = p.val; have := r.isLt; omega)

/-- At an index of row group `s` a device holds that group's sum: as it is if the group is its own, else as the wire carries it. -/
theorem outAt_ixg (Y : Fin 8 → S512x512.Idx → F .f32) (c s : Fin 8) (r : Fin 64) (l : Fin 512) :
    outAt Y c (ixg s r l) = if s = c then accOf Y s (ixg s r l) else wire (accOf Y s (ixg s r l)) := by
  unfold outAt; rw [grp_ixg]

/-- Element `(r, l)` of row group `p`, slab `h` sits at row `64 p + r`, column `128 h + l` of the block. -/
theorem out_emb (p : Fin 8) (h : Fin 4) (y : (rOwn p h).shape.Idx) :
    (outM.access (rOwn p h)).emb y = ixg p (y 0) ⟨128 * h.val + (y 1).val, col_lt h (y 1)⟩ :=
  funext fun a => Fin.ext (match a with
    | ⟨0, _⟩ => by show 64 * p.val + 1 * (y 0).val = 64 * p.val + (y 0).val; omega
    | ⟨1, _⟩ => by show 128 * h.val + 1 * (y 1).val = 128 * h.val + (y 1).val; omega)

theorem out_own_ok (c : Dev nD) (h : Fin 4) : ∀ f, ∀ i ∈ (outM.access (rOwn c h)).set,
    ((outM.access (rOwn c h)).write (Elt F) f
      (fun j => accOf (X m) c (ixg c (j 0) ⟨128 * h.val + (j 1).val, col_lt h (j 1)⟩)) Finset.univ) i = outAt (X m) c i := by
  intro f i hi
  obtain ⟨y, rfl⟩ := View.exists_emb_of_mem_set _ hi
  rw [View.write_emb_of_mem _ _ (Finset.mem_univ y), out_emb]
  exact ((outAt_ixg (X m) c c (y 0) ⟨128 * h.val + (y 1).val, col_lt h (y 1)⟩).trans (if_pos rfl)).symm

/-- Element `(r, l)` of slot `s`, slab `h` sits at `(s, r, 128 h + l)` of a gather buffer. -/
theorem rG_idx (s : Fin 8) (h : Fin 4) (y : S64x128.Idx) :
    (rG s h).toLoadRect.idx (Fin.cons ⟨0, Nat.one_pos⟩ y) = ValueIdx.ix3 s (y 0) ⟨128 * h.val + (y 1).val, col_lt h (y 1)⟩ :=
  funext fun a => Fin.ext (match a with
    | ⟨0, _⟩ => by show s.val + 1 * 0 = s.val; omega
    | ⟨1, _⟩ => by show 0 + 1 * (y 0).val = (y 0).val; omega
    | ⟨2, _⟩ => by show 128 * h.val + 1 * (y 1).val = 128 * h.val + (y 1).val; omega)

theorem widen_apply (v : Vec F S1x64x128 .bf16) (y : S64x128.Idx) :
    k0_pay28 v y = FloatOps.extf .f32 bitsLt_bf16_f32 (v (Fin.cons ⟨0, Nat.one_pos⟩ y)) := by
  show FloatOps.extf .f32 bitsLt_bf16_f32 (shapeCast S64x128 v shapeCasts_S1x64x128_S64x128 y) = _
  rw [shapeCast_dropUnit_apply]

theorem out_other_ok (c s : Dev nD) (h : Fin 4) (hs : s ≠ c) : ∀ f, ∀ i ∈ (outM.access (rOwn s h)).set,
    ((outM.access (rOwn s h)).write (Elt F) f
      (k0_pay28 (oM.view.readAt (Elt F) (rG s h).toLoadRect (OB m c))) Finset.univ) i = outAt (X m) c i := by
  intro f i hi
  obtain ⟨y, rfl⟩ := View.exists_emb_of_mem_set _ hi
  rw [View.write_emb_of_mem _ _ (Finset.mem_univ y), out_emb]
  refine Eq.trans ?_ ((outAt_ixg (X m) c s (y 0) ⟨128 * h.val + (y 1).val, col_lt h (y 1)⟩).trans (if_neg hs)).symm
  exact ((widen_apply _ y).trans (congrArg _ (congrArg (OB m c) (rG_idx s h y)))).trans rfl

theorem slot_emb (M : Memref sig .tc .vmem S8x64x512 .bf16) (s : Fin 8) (h : Fin 4) (y : S64x128.Idx) :
    (slot M s h).view.emb y = M.view.emb (ValueIdx.ix3 s (y 0) ⟨128 * h.val + (y 1).val, col_lt h (y 1)⟩) := by
  show M.view.emb ((rG s h).emb (Shape.reshapeEquiv _ y)) = _
  rw [Shape.reshapeEquiv_cons_one]; exact congrArg _ (rG_idx s h y)

theorem a_emb (h : Fin 4) (y : S64x128.Idx) :
    (aPiece h).view.emb y = ValueIdx.ix2 (y 0) ⟨128 * h.val + (y 1).val, col_lt h (y 1)⟩ :=
  funext fun a => Fin.ext (match a with
    | ⟨0, _⟩ => by show 0 + 1 * (y 0).val = (y 0).val; omega
    | ⟨1, _⟩ => by show 128 * h.val + 1 * (y 1).val = 128 * h.val + (y 1).val; omega)

theorem p1_land_ok (c : Dev nD) (k : Fin 8) (h : Fin 4) : ∀ fd, ∀ i ∈ (slot gM c h).view.set,
    ((slot gM c h).view.write (Elt F) fd ((xbPiece (px c k) h).view.read (Elt F) (XB m c)) Finset.univ) i
      = G1 m (px c k) i := by
  intro fd i hi
  obtain ⟨y, rfl⟩ := View.exists_emb_of_mem_set _ hi
  rw [View.write_emb_of_mem _ _ (Finset.mem_univ y), slot_emb]
  exact (congrArg (XB m c) (out_emb (px c k) h y)).trans rfl

theorem p2_land_ok (c : Dev nD) (k : Fin 8) (h : Fin 4) : ∀ fd, ∀ i ∈ (slot oM c h).view.set,
    ((slot oM c h).view.write (Elt F) fd ((aPiece h).view.read (Elt F) (AB m c)) Finset.univ) i
      = OB m (px c k) i := by
  intro fd i hi
  obtain ⟨y, rfl⟩ := View.exists_emb_of_mem_set _ hi
  rw [View.write_emb_of_mem _ _ (Finset.mem_univ y), slot_emb]
  exact (congrArg (AB m c) (a_emb h y)).trans rfl

theorem ab_store_ok (c : Dev nD) (h : Fin 4) : ∀ f, ∀ i ∈ (aM.access (rA h)).set,
    ((aM.access (rA h)).write (Elt F) f
      (fun j => narrow (accOf (X m) c (ixg c (j 0) ⟨128 * h.val + (j 1).val, col_lt h (j 1)⟩))) Finset.univ) i = AB m c i := by
  intro f i hi
  obtain ⟨y, rfl⟩ := View.exists_emb_of_mem_set _ hi
  rw [View.write_emb_of_mem _ _ (Finset.mem_univ y), show (aM.access (rA h)).emb y = _ from a_emb h y]
  rfl

theorem pay1_apply (v : Vec F S512x128 .f32) (y : S512x128.Idx) : k0_pay1 v y = narrow (v y) := by
  unfold k0_pay1; simp only [shapeCast_self]; rfl

/-- A column slab of the block, narrowed element by element, is that slab of the narrowed copy; the four slabs' printed narrowings unfold to one. -/
theorem xb_store_ok (c : Dev nD) (h : Fin 4) : ∀ f, ∀ i ∈ (xbM.access (rX h)).set,
    ((xbM.access (rX h)).write (Elt F) f (k0_pay1 (xM.view.readAt (Elt F) (rX h).toLoadRect (X m c))) Finset.univ) i
      = XB m c i := by
  intro f i hi
  obtain ⟨y, rfl⟩ := View.exists_emb_of_mem_set _ hi
  rw [View.write_emb_of_mem _ _ (Finset.mem_univ y)]
  exact (pay1_apply _ y).trans rfl

theorem xb_store_ok_0 (c : Dev nD) : ∀ f, ∀ i ∈ (xbM.access (rX 0)).set,
    ((xbM.access (rX 0)).write (Elt F) f (k0_pay1 (xM.view.readAt (Elt F) (rX 0).toLoadRect (X m c))) Finset.univ) i
      = XB m c i := xb_store_ok m c 0
theorem xb_store_ok_1 (c : Dev nD) : ∀ f, ∀ i ∈ (xbM.access (rX 1)).set,
    ((xbM.access (rX 1)).write (Elt F) f (k0_pay3 (k0_pay2 (xM.view.readAt (Elt F) (rX 1).toLoadRect (X m c)))) Finset.univ) i
      = XB m c i := xb_store_ok m c 1
theorem xb_store_ok_2 (c : Dev nD) : ∀ f, ∀ i ∈ (xbM.access (rX 2)).set,
    ((xbM.access (rX 2)).write (Elt F) f (k0_pay4 (xM.view.readAt (Elt F) (rX 2).toLoadRect (X m c))) Finset.univ) i
      = XB m c i := xb_store_ok m c 2
theorem xb_store_ok_3 (c : Dev nD) : ∀ f, ∀ i ∈ (xbM.access (rX 3)).set,
    ((xbM.access (rX 3)).write (Elt F) f (k0_pay5 (xM.view.readAt (Elt F) (rX 3).toLoadRect (X m c))) Finset.univ) i
      = XB m c i := xb_store_ok m c 3

theorem xM_read (c : Dev nD) (p : Fin 8) (h : Fin 4) (y : S64x128.Idx) :
    xM.view.readAt (Elt F) (rOwn p h).toLoadRect (X m c) y = X m c (ixg p (y 0) ⟨128 * h.val + (y 1).val, col_lt h (y 1)⟩) :=
  congrArg (X m c) (out_emb p h y)

def up (y : S64x128.Idx) : S1x64x128.Idx := Fin.cons ⟨0, Nat.one_pos⟩ y

theorem drop_apply {α : Type} (v : S1x64x128.Idx → α) (y : S64x128.Idx) :
    shapeCast S64x128 v shapeCasts_S1x64x128_S64x128 y = v (up y) :=
  shapeCast_dropUnit_apply _ v _ y

/-- Partner `k`'s landed slot holds the partner's entries of this device's row group, narrowed. -/
theorem g_read (c : Dev nD) (h : Fin 4) (k : Fin 8) (y : S64x128.Idx) :
    gM.view.readAt (Elt F) (rG (px c k) h).toLoadRect (G1 m c) (up y)
      = narrow (X m (pxn c k) (ixg c (y 0) ⟨128 * h.val + (y 1).val, col_lt h (y 1)⟩)) :=
  (congrArg (G1 m c) (rG_idx (px c k) h y)).trans rfl

abbrev vxL (c : Dev nD) (h : Fin 4) : Vec F S64x128 .f32 := xM.view.readAt (Elt F) (rOwn c h).toLoadRect (X m c)
abbrev vgL (c : Dev nD) (h : Fin 4) (k : Fin 8) : Vec F S1x64x128 .bf16 :=
  gM.view.readAt (Elt F) (rG (px c k) h).toLoadRect (G1 m c)

/-- The printed chain adds to the own entry the seven slots, widened, in the order of masks 1, 3, 4, 2, 5, 7, 6: the device's sum. -/
theorem chain (Y : Fin 8 → S512x512.Idx → F .f32) (c : Fin 8) (I : S64x128.Idx → S512x512.Idx)
    (vx : Vec F S64x128 .f32) (g : Fin 8 → Vec F S1x64x128 .bf16)
    (hx : ∀ y, vx y = Y c (I y)) (hg : ∀ k y, g k (up y) = narrow (Y (pxn c k) (I y))) :
    k0_pay9 (k0_pay8 (k0_pay7 (k0_pay6 vx (g 1)) (g 3) (g 4) (g 2)) (g 5) (g 7)) (g 6) = fun y => accOf Y c (I y) := by
  funext y
  simp only [k0_pay9, k0_pay8, k0_pay7, k0_pay6, Idealize.ShloMosaic.addf, Idealize.ShloMosaic.extf, shapeCast_self, drop_apply, hx, hg]
  rfl

/-- At the program's loads; the four slabs' chains unfold to one expression, so slab 0's stands for all. -/
theorem acc_ok (c : Dev nD) (h : Fin 4) :
    k0_pay9 (k0_pay8 (k0_pay7 (k0_pay6 (vxL m c h) (vgL m c h 1)) (vgL m c h 3) (vgL m c h 4) (vgL m c h 2)) (vgL m c h 5) (vgL m c h 7)) (vgL m c h 6)
      = fun i => accOf (X m) c (ixg c (i 0) ⟨128 * h.val + (i 1).val, col_lt h (i 1)⟩) :=
  chain (X m) c (fun y => ixg c (y 0) ⟨128 * h.val + (y 1).val, col_lt h (y 1)⟩) _ (vgL m c h)
    (fun y => xM_read m c c h y) (fun k y => g_read m c h k y)

theorem accb_ok (c : Dev nD) (h : Fin 4) :
    k0_pay10 (k0_pay8 (k0_pay7 (k0_pay6 (vxL m c h) (vgL m c h 1)) (vgL m c h 3) (vgL m c h 4) (vgL m c h 2)) (vgL m c h 5) (vgL m c h 7)) (vgL m c h 6)
      = fun i => narrow (accOf (X m) c (ixg c (i 0) ⟨128 * h.val + (i 1).val, col_lt h (i 1)⟩)) := by
  funext y; unfold k0_pay10; simp only [shapeCast_self]
  exact congrArg narrow (congrFun (acc_ok m c h) y)

theorem acc_ok_0 (c : Dev nD) :
    k0_pay9 (k0_pay8 (k0_pay7 (k0_pay6 (vxL m c 0) (vgL m c 0 1)) (vgL m c 0 3) (vgL m c 0 4) (vgL m c 0 2)) (vgL m c 0 5) (vgL m c 0 7)) (vgL m c 0 6)
      = fun i => accOf (X m) c (ixg c (i 0) ⟨128 * (0 : Fin 4).val + (i 1).val, col_lt 0 (i 1)⟩) := acc_ok m c 0
theorem accb_ok_0 (c : Dev nD) :
    k0_pay10 (k0_pay8 (k0_pay7 (k0_pay6 (vxL m c 0) (vgL m c 0 1)) (vgL m c 0 3) (vgL m c 0 4) (vgL m c 0 2)) (vgL m c 0 5) (vgL m c 0 7)) (vgL m c 0 6)
      = fun i => narrow (accOf (X m) c (ixg c (i 0) ⟨128 * (0 : Fin 4).val + (i 1).val, col_lt 0 (i 1)⟩)) := accb_ok m c 0
theorem acc_ok_1 (c : Dev nD) :
    k0_pay15 (k0_pay14 (k0_pay13 (k0_pay11 (vxL m c 1) (vgL m c 1 1)) (k0_pay12 (vgL m c 1 3)) (vgL m c 1 4) (vgL m c 1 2)) (vgL m c 1 5) (vgL m c 1 7)) (vgL m c 1 6)
      = fun i => accOf (X m) c (ixg c (i 0) ⟨128 * (1 : Fin 4).val + (i 1).val, col_lt 1 (i 1)⟩) := acc_ok m c 1
theorem accb_ok_1 (c : Dev nD) :
    k0_pay16 (k0_pay14 (k0_pay13 (k0_pay11 (vxL m c 1) (vgL m c 1 1)) (k0_pay12 (vgL m c 1 3)) (vgL m c 1 4) (vgL m c 1 2)) (vgL m c 1 5) (vgL m c 1 7)) (vgL m c 1 6)
      = fun i => narrow (accOf (X m) c (ixg c (i 0) ⟨128 * (1 : Fin 4).val + (i 1).val, col_lt 1 (i 1)⟩)) := accb_ok m c 1
theorem acc_ok_2 (c : Dev nD) :
    k0_pay20 (k0_pay19 (k0_pay18 (k0_pay17 (vxL m c 2) (vgL m c 2 1) (vgL m c 2 3)) (vgL m c 2 4) (vgL m c 2 2)) (vgL m c 2 5) (vgL m c 2 7)) (vgL m c 2 6)
      = fun i => accOf (X m) c (ixg c (i 0) ⟨128 * (2 : Fin 4).val + (i 1).val, col_lt 2 (i 1)⟩) := acc_ok m c 2
theorem accb_ok_2 (c : Dev nD) :
    k0_pay21 (k0_pay19 (k0_pay18 (k0_pay17 (vxL m c 2) (vgL m c 2 1) (vgL m c 2 3)) (vgL m c 2 4) (vgL m c 2 2)) (vgL m c 2 5) (vgL m c 2 7)) (vgL m c 2 6)
      = fun i => narrow (accOf (X m) c (ixg c (i 0) ⟨128 * (2 : Fin 4).val + (i 1).val, col_lt 2 (i 1)⟩)) := accb_ok m c 2
theorem acc_ok_3 (c : Dev nD) :
    k0_pay26 (k0_pay25 (k0_pay24 (k0_pay23 (k0_pay22 (vxL m c 3)) (vgL m c 3 1) (vgL m c 3 3)) (vgL m c 3 4) (vgL m c 3 2)) (vgL m c 3 5) (vgL m c 3 7)) (vgL m c 3 6)
      = fun i => accOf (X m) c (ixg c (i 0) ⟨128 * (3 : Fin 4).val + (i 1).val, col_lt 3 (i 1)⟩) := acc_ok m c 3
theorem accb_ok_3 (c : Dev nD) :
    k0_pay27 (k0_pay25 (k0_pay24 (k0_pay23 (k0_pay22 (vxL m c 3)) (vgL m c 3 1) (vgL m c 3 3)) (vgL m c 3 4) (vgL m c 3 2)) (vgL m c 3 5) (vgL m c 3 7)) (vgL m c 3 6)
      = fun i => narrow (accOf (X m) c (ixg c (i 0) ⟨128 * (3 : Fin 4).val + (i 1).val, col_lt 3 (i 1)⟩)) := accb_ok m c 3

end Cert.Kernel.AR

end
-- ==== Proof.KernelAR.PartsPre.lean ====
import proofs.«900697_g7700000000000698_dist_ar_v7x_i8_i_m512_n512_f32_1_alg».proof.Proof.KernelAR.ProtoG
import proofs.«900697_g7700000000000698_dist_ar_v7x_i8_i_m512_n512_f32_1_alg».proof.Proof.KernelAR.Values

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

abbrev wpB {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

-- A part of the body at the launch's six buffers and four semaphore arrays.
abbrev onBufs {β : Sort _} (f : (a0 : Memref sig .tc .vmem S512x512 .f32) → a0.IsWhole → (a1 : Memref sig .tc .vmem S512x512 .f32) → a1.IsWhole →
    (a2 : Memref sig .tc .vmem S512x512 .bf16) → a2.IsWhole → (a3 : Memref sig .tc .vmem S8x64x512 .bf16) → a3.IsWhole →
    (a4 : Memref sig .tc .vmem S64x512 .bf16) → a4.IsWhole → (a5 : Memref sig .tc .vmem S8x64x512 .bf16) → a5.IsWhole →
    DmaSems sig S4x8 → DmaSems sig S4x8 → DmaSems sig S4x8 → DmaSems sig S4x8 → β) : β :=
  f xM (Memref.isWhole_whole _) outM (Memref.isWhole_whole _) xbM (Memref.isWhole_whole _) gM (Memref.isWhole_whole _)
    aM (Memref.isWhole_whole _) oM (Memref.isWhole_whole _) cc0_scratch4 cc0_scratch5 cc0_scratch6 cc0_scratch7

abbrev xsl (c : Dev nD) (h : Fin 4) : Vec F S512x128 .f32 := xM.view.readAt (Elt F) (rX h).toLoadRect (X m c)

abbrev voL (c : Dev nD) (h : Fin 4) (k : Fin 8) : Vec F S1x64x128 .bf16 := oM.view.readAt (Elt F) (rG (px c k) h).toLoadRect (OB m c)

end Cert.Kernel.AR

end
-- ==== Proof.KernelAR.CSteps.lean ====
import proofs.«900697_g7700000000000698_dist_ar_v7x_i8_i_m512_n512_f32_1_alg».proof.Proof.KernelAR.Trans
import proofs.«900697_g7700000000000698_dist_ar_v7x_i8_i_m512_n512_f32_1_alg».proof.Proof.KernelAR.StepSignal
import proofs.«900697_g7700000000000698_dist_ar_v7x_i8_i_m512_n512_f32_1_alg».proof.Proof.KernelAR.StepLocal
import proofs.«900697_g7700000000000698_dist_ar_v7x_i8_i_m512_n512_f32_1_alg».proof.Proof.KernelAR.StepSend
import proofs.«900697_g7700000000000698_dist_ar_v7x_i8_i_m512_n512_f32_1_alg».proof.Proof.KernelAR.StepWait
import proofs.«900697_g7700000000000698_dist_ar_v7x_i8_i_m512_n512_f32_1_alg».proof.Proof.KernelAR.PartsPre

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A stage along the program's order is the stage of twelve counters: an effect bumps its own, and what it asks of the stage is arithmetic on them.
variable (m : (ℓ : Loc nD τ sig) → Buf (Elt F) ℓ) (K : Dev nD × CIx → ℕ) (c : Dev nD)
  {nsig : ℕ} {bar : Bool} {nxb n1 nr1 nown na n2 nr2 noth nw1 nw2 : ℕ}

theorem cstep_signal (j : Fin 7) {d : Dev nD} (hd : d = px c (far j)) {n : ℕ} {α : Type} {Q : α → sProp 𝕄} {k : PUnit → Prog (TpuEff nD τ sig (Elt F) Λ₀ .tc) α}
    (hj : j.val = nsig := by decide) (h1 : n1 = 0 := by decide) (h2 : n2 = 0 := by decide) (hn : n = 1 := by decide) :
    St m K (stageOf ⟨nsig, bar, nxb, n1, nr1, nown, na, n2, nr2, noth, nw1, nw2⟩) c ⊢ iprop((St m K (stageOf ⟨nsig + 1, bar, nxb, n1, nr1, nown, na, n2, nr2, noth, nw1, nw2⟩) c -∗ wpB c (k ⟨⟩) Q)
      -∗ wpB c (.op (.semSignal ((d, Proc.tc) : Thread nD τ) barS n) k) Q) := by
  have s := step_signal m K (stageOf ⟨nsig, bar, nxb, n1, nr1, nown, na, n2, nr2, noth, nw1, nw2⟩) c j
    ((mem_sigTodo _ _).2 (Nat.le_of_eq hj.symm)) (by show nsig + n1 + n2 = j.val; omega)
    (fun h => (mem_gMine _ _).2 (Or.inr (by show nsig ≤ farPos (far j); rw [farPos_far]; omega)))
    (fun h => (mem_oMine _ _).2 (Or.inr (by show nsig ≤ farPos (far j); rw [farPos_far]; omega)))
    hd hn (Q := Q) (k := k)
  rw [tr_signal ⟨nsig, bar, nxb, n1, nr1, nown, na, n2, nr2, noth, nw1, nw2⟩ j hj] at s
  exact s

theorem cstep_barWait {n : ℕ} {α : Type} {Q : α → sProp 𝕄} {k : PUnit → Prog (TpuEff nD τ sig (Elt F) Λ₀ .tc) α}
    (hb : bar = false := by decide) (hs : nsig = 7 := by decide) (h1 : n1 = 0 := by decide) (h2 : n2 = 0 := by decide) (hn : n = 7 := by decide) :
    St m K (stageOf ⟨nsig, bar, nxb, n1, nr1, nown, na, n2, nr2, noth, nw1, nw2⟩) c ⊢ iprop((St m K (stageOf ⟨nsig, true, nxb, n1, nr1, nown, na, n2, nr2, noth, nw1, nw2⟩) c -∗ wpB c (k ⟨⟩) Q)
      -∗ wpB c (.op (.semWait barS n) k) Q) := by
  subst hb
  have s := step_barWait m K (stageOf ⟨nsig, false, nxb, n1, nr1, nown, na, n2, nr2, noth, nw1, nw2⟩) c rfl (by show nsig + n1 + n2 = 7; omega) rfl rfl hn (Q := Q) (k := k)
  rw [tr_barWait ⟨nsig, false, nxb, n1, nr1, nown, na, n2, nr2, noth, nw1, nw2⟩ h1 h2] at s
  exact s

theorem cstep_xLoad {r : LoadRect S512x512} {hl : xM.view.LoadsAt r} {α : Type} {Q : α → sProp 𝕄} {k : (r.shape.Idx → Elt F .f32) → Prog (TpuEff nD τ sig (Elt F) Λ₀ .tc) α} :
    St m K (stageOf ⟨nsig, bar, nxb, n1, nr1, nown, na, n2, nr2, noth, nw1, nw2⟩) c ⊢ iprop((St m K (stageOf ⟨nsig, bar, nxb, n1, nr1, nown, na, n2, nr2, noth, nw1, nw2⟩) c -∗ wpB c (k (xM.view.readAt (Elt F) r (X m c))) Q)
      -∗ wpB c (.op (.load xM r hl) k) Q) :=
  step_xLoad m K (stageOf ⟨nsig, bar, nxb, n1, nr1, nown, na, n2, nr2, noth, nw1, nw2⟩) c

theorem cstep_xLoadOwn (h : Fin 4) {off : Fin 2 → ℕ} {hin : ∀ a, off a + S64x128.size a ≤ S512x512.size a} (hoff : off = ![64 * c.val, 128 * h.val])
    {hl : xM.view.LoadsAt (Rect.unit (s := S512x512) off S64x128.size hin).toLoadRect}
    {α : Type} {Q : α → sProp 𝕄} {k : ((Rect.unit (s := S512x512) off S64x128.size hin).toLoadRect.shape.Idx → Elt F .f32) → Prog (TpuEff nD τ sig (Elt F) Λ₀ .tc) α} :
    St m K (stageOf ⟨nsig, bar, nxb, n1, nr1, nown, na, n2, nr2, noth, nw1, nw2⟩) c ⊢ iprop((St m K (stageOf ⟨nsig, bar, nxb, n1, nr1, nown, na, n2, nr2, noth, nw1, nw2⟩) c -∗ wpB c (k (vxL m c h)) Q)
      -∗ wpB c (.op (.load xM (Rect.unit (s := S512x512) off S64x128.size hin).toLoadRect hl) k) Q) := by
  subst hoff
  exact step_xLoad m K (stageOf ⟨nsig, bar, nxb, n1, nr1, nown, na, n2, nr2, noth, nw1, nw2⟩) c

theorem cstep_xbLoadRaw (h : Fin 4) {r : LoadRect S512x512} {hl : xbM.view.LoadsAt r}
    {α : Type} {Q : α → sProp 𝕄} {k : (r.shape.Idx → Elt F .bf16) → Prog (TpuEff nD τ sig (Elt F) Λ₀ .tc) α}
    (hh : nxb ≤ h.val := by decide) (hr : r = (rX h).toLoadRect := by rfl) :
    St m K (stageOf ⟨nsig, bar, nxb, n1, nr1, nown, na, n2, nr2, noth, nw1, nw2⟩) c ⊢ iprop((∀ v, St m K (stageOf ⟨nsig, bar, nxb, n1, nr1, nown, na, n2, nr2, noth, nw1, nw2⟩) c -∗ wpB c (k v) Q)
      -∗ wpB c (.op (.load xbM r hl) k) Q) :=
  step_xbLoadRaw m K (stageOf ⟨nsig, bar, nxb, n1, nr1, nown, na, n2, nr2, noth, nw1, nw2⟩) c h ((mem_xbRaw _ _).2 hh) hr

theorem cstep_xbStore (h : Fin 4) {r : Rect S512x512} {w : r.shape.Idx → Elt F .bf16}
    {hx : (xbM.access r).Stores Finset.univ} {hm : (Finset.univ : Finset r.shape.Idx) = Finset.univ ∨ ∀ a, r.stride a = 1}
    (hw : ∀ f, ∀ i ∈ (xbM.access r).set, ((xbM.access r).write (Elt F) f w Finset.univ) i = XB m c i) {α : Type} {Q : α → sProp 𝕄} {k : PUnit → Prog (TpuEff nD τ sig (Elt F) Λ₀ .tc) α}
    (hh : h.val = nxb := by decide) (hn : n1 ≤ 7 * h.val := by decide) (hr : r = rX h := by rfl) :
    St m K (stageOf ⟨nsig, bar, nxb, n1, nr1, nown, na, n2, nr2, noth, nw1, nw2⟩) c ⊢ iprop((St m K (stageOf ⟨nsig, bar, nxb + 1, n1, nr1, nown, na, n2, nr2, noth, nw1, nw2⟩) c -∗ wpB c (k ⟨⟩) Q)
      -∗ wpB c (.op (.store xbM r w Finset.univ hx hm) k) Q) := by
  rw [← tr_xbStore ⟨nsig, bar, nxb, n1, nr1, nown, na, n2, nr2, noth, nw1, nw2⟩ h hh hn]
  exact step_xbStore m K (stageOf ⟨nsig, bar, nxb, n1, nr1, nown, na, n2, nr2, noth, nw1, nw2⟩) c h ((mem_xbRaw _ _).2 (Nat.le_of_eq hh.symm)) hr hw

theorem cstep_outLoad {r : LoadRect S512x512} {hl : outM.view.LoadsAt r} {α : Type} {Q : α → sProp 𝕄} {k : (r.shape.Idx → Elt F .f32) → Prog (TpuEff nD τ sig (Elt F) Λ₀ .tc) α} :
    St m K (stageOf ⟨nsig, bar, nxb, n1, nr1, nown, na, n2, nr2, noth, nw1, nw2⟩) c ⊢ iprop((∀ v, St m K (stageOf ⟨nsig, bar, nxb, n1, nr1, nown, na, n2, nr2, noth, nw1, nw2⟩) c -∗ wpB c (k v) Q)
      -∗ wpB c (.op (.load outM r hl) k) Q) :=
  step_outLoad m K (stageOf ⟨nsig, bar, nxb, n1, nr1, nown, na, n2, nr2, noth, nw1, nw2⟩) c

theorem cstep_outOwn (h : Fin 4) {off : Fin 2 → ℕ} {hin : ∀ a, off a + S64x128.size a ≤ S512x512.size a} (hoff : off = ![64 * c.val, 128 * h.val])
    {w : (Rect.unit (s := S512x512) off S64x128.size hin).shape.Idx → Elt F .f32}
    {hx : (outM.access (Rect.unit (s := S512x512) off S64x128.size hin)).Stores Finset.univ}
    {hm : (Finset.univ : Finset (Rect.unit (s := S512x512) off S64x128.size hin).shape.Idx) = Finset.univ
      ∨ ∀ a, (Rect.unit (s := S512x512) off S64x128.size hin).stride a = 1}
    (hw : ∀ f, ∀ i ∈ (outM.access (rOwn c h)).set, ((outM.access (rOwn c h)).write (Elt F) f w Finset.univ) i = outAt (X m) c i) {α : Type} {Q : α → sProp 𝕄} {k : PUnit → Prog (TpuEff nD τ sig (Elt F) Λ₀ .tc) α}
    (hh : h.val = nown := by decide) :
    St m K (stageOf ⟨nsig, bar, nxb, n1, nr1, nown, na, n2, nr2, noth, nw1, nw2⟩) c ⊢ iprop((St m K (stageOf ⟨nsig, bar, nxb, n1, nr1, nown + 1, na, n2, nr2, noth, nw1, nw2⟩) c -∗ wpB c (k ⟨⟩) Q)
      -∗ wpB c (.op (.store outM (Rect.unit (s := S512x512) off S64x128.size hin) w Finset.univ hx hm) k) Q) := by
  rw [← tr_outOwn ⟨nsig, bar, nxb, n1, nr1, nown, na, n2, nr2, noth, nw1, nw2⟩ h hh]
  exact step_outStore m K (stageOf ⟨nsig, bar, nxb, n1, nr1, nown, na, n2, nr2, noth, nw1, nw2⟩) c 0 h c (px_zero c).symm hoff hw

theorem cstep_outOther (h : Fin 4) (j : Fin 7) {off : Fin 2 → ℕ} {hin : ∀ a, off a + S64x128.size a ≤ S512x512.size a} (hoff : off = ![64 * (px c (near j)).val, 128 * h.val])
    {w : (Rect.unit (s := S512x512) off S64x128.size hin).shape.Idx → Elt F .f32}
    {hx : (outM.access (Rect.unit (s := S512x512) off S64x128.size hin)).Stores Finset.univ}
    {hm : (Finset.univ : Finset (Rect.unit (s := S512x512) off S64x128.size hin).shape.Idx) = Finset.univ
      ∨ ∀ a, (Rect.unit (s := S512x512) off S64x128.size hin).stride a = 1}
    (hw : ∀ f, ∀ i ∈ (outM.access (rOwn (px c (near j)) h)).set, ((outM.access (rOwn (px c (near j)) h)).write (Elt F) f w Finset.univ) i = outAt (X m) c i) {α : Type} {Q : α → sProp 𝕄} {k : PUnit → Prog (TpuEff nD τ sig (Elt F) Λ₀ .tc) α}
    (hn : 7 * h.val + j.val = noth := by decide) :
    St m K (stageOf ⟨nsig, bar, nxb, n1, nr1, nown, na, n2, nr2, noth, nw1, nw2⟩) c ⊢ iprop((St m K (stageOf ⟨nsig, bar, nxb, n1, nr1, nown, na, n2, nr2, noth + 1, nw1, nw2⟩) c -∗ wpB c (k ⟨⟩) Q)
      -∗ wpB c (.op (.store outM (Rect.unit (s := S512x512) off S64x128.size hin) w Finset.univ hx hm) k) Q) := by
  rw [← tr_outOther ⟨nsig, bar, nxb, n1, nr1, nown, na, n2, nr2, noth, nw1, nw2⟩ h j hn]
  exact step_outStore m K (stageOf ⟨nsig, bar, nxb, n1, nr1, nown, na, n2, nr2, noth, nw1, nw2⟩) c (near j) h _ rfl hoff hw

theorem cstep_aLoadRaw (h : Fin 4) {r : LoadRect S64x512} {hl : aM.view.LoadsAt r}
    {α : Type} {Q : α → sProp 𝕄} {k : (r.shape.Idx → Elt F .bf16) → Prog (TpuEff nD τ sig (Elt F) Λ₀ .tc) α}
    (hh : na ≤ h.val := by decide) (hr : r = (rA h).toLoadRect := by rfl) :
    St m K (stageOf ⟨nsig, bar, nxb, n1, nr1, nown, na, n2, nr2, noth, nw1, nw2⟩) c ⊢ iprop((∀ v, St m K (stageOf ⟨nsig, bar, nxb, n1, nr1, nown, na, n2, nr2, noth, nw1, nw2⟩) c -∗ wpB c (k v) Q)
      -∗ wpB c (.op (.load aM r hl) k) Q) :=
  step_aLoadRaw m K (stageOf ⟨nsig, bar, nxb, n1, nr1, nown, na, n2, nr2, noth, nw1, nw2⟩) c h ((mem_aRaw _ _).2 hh) hr

theorem cstep_aStore (h : Fin 4) {r : Rect S64x512} {w : r.shape.Idx → Elt F .bf16}
    {hx : (aM.access r).Stores Finset.univ} {hm : (Finset.univ : Finset r.shape.Idx) = Finset.univ ∨ ∀ a, r.stride a = 1}
    (hw : ∀ f, ∀ i ∈ (aM.access r).set, ((aM.access r).write (Elt F) f w Finset.univ) i = AB m c i) {α : Type} {Q : α → sProp 𝕄} {k : PUnit → Prog (TpuEff nD τ sig (Elt F) Λ₀ .tc) α}
    (hh : h.val = na := by decide) (hn : n2 ≤ 7 * h.val := by decide) (hr : r = rA h := by rfl) :
    St m K (stageOf ⟨nsig, bar, nxb, n1, nr1, nown, na, n2, nr2, noth, nw1, nw2⟩) c ⊢ iprop((St m K (stageOf ⟨nsig, bar, nxb, n1, nr1, nown, na + 1, n2, nr2, noth, nw1, nw2⟩) c -∗ wpB c (k ⟨⟩) Q)
      -∗ wpB c (.op (.store aM r w Finset.univ hx hm) k) Q) := by
  rw [← tr_aStore ⟨nsig, bar, nxb, n1, nr1, nown, na, n2, nr2, noth, nw1, nw2⟩ h hh hn]
  exact step_aStore m K (stageOf ⟨nsig, bar, nxb, n1, nr1, nown, na, n2, nr2, noth, nw1, nw2⟩) c h ((mem_aRaw _ _).2 (Nat.le_of_eq hh.symm)) hr hw

theorem cstep_gLoad (k₀ : Fin 8) (h : Fin 4)
    {off : Fin 3 → ℕ} {hin : ∀ a, off a + S1x64x128.size a ≤ S8x64x512.size a} (hoff : off = ![(px c k₀).val, 0, 128 * h.val])
    {hl : gM.view.LoadsAt (Rect.unit (s := S8x64x512) off S1x64x128.size hin).toLoadRect}
    {α : Type} {Q : α → sProp 𝕄} {k : ((Rect.unit (s := S8x64x512) off S1x64x128.size hin).toLoadRect.shape.Idx → Elt F .bf16) → Prog (TpuEff nD τ sig (Elt F) Λ₀ .tc) α}
    (hk0 : k₀ ≠ 0 := by decide) (hk : 7 * h.val + nearPos k₀ < nr1 := by decide) :
    St m K (stageOf ⟨nsig, bar, nxb, n1, nr1, nown, na, n2, nr2, noth, nw1, nw2⟩) c ⊢ iprop((St m K (stageOf ⟨nsig, bar, nxb, n1, nr1, nown, na, n2, nr2, noth, nw1, nw2⟩) c -∗ wpB c (k (gM.view.readAt (Elt F) (rG (px c k₀) h).toLoadRect (G1 m c))) Q)
      -∗ wpB c (.op (.load gM (Rect.unit (s := S8x64x512) off S1x64x128.size hin).toLoadRect hl) k) Q) :=
  step_gLoad m K (stageOf ⟨nsig, bar, nxb, n1, nr1, nown, na, n2, nr2, noth, nw1, nw2⟩) c k₀ h ((mem_gLanded _ _).2 ⟨hk0, hk⟩) _ rfl hoff

theorem cstep_oLoad (k₀ : Fin 8) (h : Fin 4)
    {off : Fin 3 → ℕ} {hin : ∀ a, off a + S1x64x128.size a ≤ S8x64x512.size a} (hoff : off = ![(px c k₀).val, 0, 128 * h.val])
    {hl : oM.view.LoadsAt (Rect.unit (s := S8x64x512) off S1x64x128.size hin).toLoadRect}
    {α : Type} {Q : α → sProp 𝕄} {k : ((Rect.unit (s := S8x64x512) off S1x64x128.size hin).toLoadRect.shape.Idx → Elt F .bf16) → Prog (TpuEff nD τ sig (Elt F) Λ₀ .tc) α}
    (hk0 : k₀ ≠ 0 := by decide) (hk : 7 * h.val + nearPos k₀ < nr2 := by decide) :
    St m K (stageOf ⟨nsig, bar, nxb, n1, nr1, nown, na, n2, nr2, noth, nw1, nw2⟩) c ⊢ iprop((St m K (stageOf ⟨nsig, bar, nxb, n1, nr1, nown, na, n2, nr2, noth, nw1, nw2⟩) c -∗ wpB c (k (oM.view.readAt (Elt F) (rG (px c k₀) h).toLoadRect (OB m c))) Q)
      -∗ wpB c (.op (.load oM (Rect.unit (s := S8x64x512) off S1x64x128.size hin).toLoadRect hl) k) Q) :=
  step_oLoad m K (stageOf ⟨nsig, bar, nxb, n1, nr1, nown, na, n2, nr2, noth, nw1, nw2⟩) c k₀ h ((mem_oLanded _ _).2 ⟨hk0, hk⟩) _ rfl hoff

theorem cstep_send1 (h : Fin 4) (j : Fin 7)
    {offS : Fin 2 → ℕ} {hinS : ∀ a, offS a + S64x128.size a ≤ S512x512.size a} (hoffS : offS = ![64 * (px c (far j)).val, 128 * h.val])
    {offD : Fin 3 → ℕ} {hinD : ∀ a, offD a + S1x64x128.size a ≤ S8x64x512.size a} (hoffD : offD = ![c.val, 0, 128 * h.val])
    {offr : Fin 2 → ℕ} {hinr : ∀ a, offr a + S1x1.size a ≤ S4x8.size a} (hoffr : offr = ![h.val, c.val])
    {d : Dev nD} (hd : d = px c (far j))
    {offs : Fin 2 → ℕ} {hins : ∀ a, offs a + S1x1.size a ≤ S4x8.size a} {hsc} {hsrc} {hdst} {hsem} {α : Type} {Q : α → sProp 𝕄} {k : PUnit → Prog (TpuEff nD τ sig (Elt F) Λ₀ .tc) α}
    (hoffs : offs = ![h.val, (far j).val] := by rfl)
    (hn : 7 * h.val + j.val = n1 := by decide) (hs : nsig = 7 := by decide) (h2 : n2 = 0 := by decide) (hb : bar = true := by decide)
    (hx : h.val < nxb := by decide) (hw : nw1 ≤ n1 := by decide) :
    St m K (stageOf ⟨nsig, bar, nxb, n1, nr1, nown, na, n2, nr2, noth, nw1, nw2⟩) c ⊢ iprop((St m K (stageOf ⟨nsig, bar, nxb, n1 + 1, nr1, nown, na, n2, nr2, noth, nw1, nw2⟩) c -∗ wpB c (k ⟨⟩) Q)
      -∗ wpB c (.op (.enqueueDma (xbM.slice (Rect.unit (s := S512x512) offS S64x128.size hinS) (fun _ => rfl))
            (.remote (Dev.tc d : Thread nD τ) ((gM.slice (Rect.unit (s := S8x64x512) offD S1x64x128.size hinD) (fun _ => rfl)).squeeze S64x128 squeezes_S1x64x128_S64x128)
              (.dma ((cc0_scratch4.slice (Rect.unit (s := S4x8) offs S1x1.size hins)).squeeze S_ squeezes_S1x1_S_).sem) hsc)
            (.dma ((cc0_scratch5.slice (Rect.unit (s := S4x8) offr S1x1.size hinr)).squeeze S_ squeezes_S1x1_S_).sem) hsrc hdst hsem) k) Q) := by
  subst hb
  rw [← tr_send1 ⟨nsig, true, nxb, n1, nr1, nown, na, n2, nr2, noth, nw1, nw2⟩ h j hn hw]
  exact step_send1 m K (stageOf ⟨nsig, true, nxb, n1, nr1, nown, na, n2, nr2, noth, nw1, nw2⟩) c h j ((mem_s1Todo _ _).2 (Nat.le_of_eq hn.symm))
    (by show nsig + n1 + n2 = 7 + 7 * h.val + j.val; omega)
    ((mem_xbHave _ _).2 ⟨hx, Or.inr (Or.inl (by show n1 ≤ 7 * h.val + farPos (far j); rw [farPos_far]; omega))⟩)
    ((mem_gPeer _ _).2 ⟨rfl, Nat.le_of_eq hn.symm⟩) (p1_land_ok m c (far j) h) hoffS hoffD hoffs hoffr hd

theorem cstep_send2 (h : Fin 4) (j : Fin 7)
    {offD : Fin 3 → ℕ} {hinD : ∀ a, offD a + S1x64x128.size a ≤ S8x64x512.size a} (hoffD : offD = ![c.val, 0, 128 * h.val])
    {offr : Fin 2 → ℕ} {hinr : ∀ a, offr a + S1x1.size a ≤ S4x8.size a} (hoffr : offr = ![h.val, c.val])
    {d : Dev nD} (hd : d = px c (far j))
    {offS : Fin 2 → ℕ} {hinS : ∀ a, offS a + S64x128.size a ≤ S64x512.size a}
    {offs : Fin 2 → ℕ} {hins : ∀ a, offs a + S1x1.size a ≤ S4x8.size a} {hsc} {hsrc} {hdst} {hsem} {α : Type} {Q : α → sProp 𝕄} {k : PUnit → Prog (TpuEff nD τ sig (Elt F) Λ₀ .tc) α}
    (hoffS : offS = ![0, 128 * h.val] := by rfl) (hoffs : offs = ![h.val, (far j).val] := by rfl)
    (hn : 7 * h.val + j.val = n2 := by decide) (hs : nsig = 7 := by decide) (h1 : n1 = 28 := by decide) (hb : bar = true := by decide)
    (ha : h.val < na := by decide) (hw : nw2 ≤ n2 := by decide) :
    St m K (stageOf ⟨nsig, bar, nxb, n1, nr1, nown, na, n2, nr2, noth, nw1, nw2⟩) c ⊢ iprop((St m K (stageOf ⟨nsig, bar, nxb, n1, nr1, nown, na, n2 + 1, nr2, noth, nw1, nw2⟩) c -∗ wpB c (k ⟨⟩) Q)
      -∗ wpB c (.op (.enqueueDma (aM.slice (Rect.unit (s := S64x512) offS S64x128.size hinS) (fun _ => rfl))
            (.remote (Dev.tc d : Thread nD τ) ((oM.slice (Rect.unit (s := S8x64x512) offD S1x64x128.size hinD) (fun _ => rfl)).squeeze S64x128 squeezes_S1x64x128_S64x128)
              (.dma ((cc0_scratch6.slice (Rect.unit (s := S4x8) offs S1x1.size hins)).squeeze S_ squeezes_S1x1_S_).sem) hsc)
            (.dma ((cc0_scratch7.slice (Rect.unit (s := S4x8) offr S1x1.size hinr)).squeeze S_ squeezes_S1x1_S_).sem) hsrc hdst hsem) k) Q) := by
  subst hb
  rw [← tr_send2 ⟨nsig, true, nxb, n1, nr1, nown, na, n2, nr2, noth, nw1, nw2⟩ h j hn hw]
  exact step_send2 m K (stageOf ⟨nsig, true, nxb, n1, nr1, nown, na, n2, nr2, noth, nw1, nw2⟩) c h j ((mem_s2Todo _ _).2 (Nat.le_of_eq hn.symm))
    (by show nsig + n1 + n2 = 35 + 7 * h.val + j.val; omega)
    (fun hm => absurd ((mem_aRaw _ _).1 hm) (by show ¬ na ≤ h.val; omega))
    (by show min 7 (n2 - 7 * h.val) = j.val; have := j.isLt; omega)
    ((mem_oPeer _ _).2 ⟨rfl, Nat.le_of_eq hn.symm⟩) (p2_land_ok m c (far j) h) hoffS hoffD hoffs hoffr hd

theorem cstep_recv1 (h : Fin 4) (j : Fin 7)
    {off : Fin 2 → ℕ} {hin : ∀ a, off a + S1x1.size a ≤ S4x8.size a} (hoff : off = ![h.val, (px c (near j)).val])
    {src dst : Memref sig .tc .vmem S64x128 .bf16} {hs : src.view.WordExact} {hd : dst.view.WordExact} {α : Type} {Q : α → sProp 𝕄} {k : PUnit → Prog (TpuEff nD τ sig (Elt F) Λ₀ .tc) α}
    (hn : 7 * h.val + j.val = nr1 := by decide) (hp : 35 ≤ nsig + n1 + n2 := by decide) :
    St m K (stageOf ⟨nsig, bar, nxb, n1, nr1, nown, na, n2, nr2, noth, nw1, nw2⟩) c ⊢ iprop((St m K (stageOf ⟨nsig, bar, nxb, n1, nr1 + 1, nown, na, n2, nr2, noth, nw1, nw2⟩) c -∗ wpB c (k ⟨⟩) Q)
      -∗ wpB c (.op (.waitDma2 ((cc0_scratch5.slice (Rect.unit (s := S4x8) off S1x1.size hin)).squeeze S_ squeezes_S1x1_S_).sem src dst hs hd) k) Q) := by
  rw [← tr_recv1 ⟨nsig, bar, nxb, n1, nr1, nown, na, n2, nr2, noth, nw1, nw2⟩ h j hn]
  exact step_recv1 m K (stageOf ⟨nsig, bar, nxb, n1, nr1, nown, na, n2, nr2, noth, nw1, nw2⟩) c h j ((mem_r1Todo _ _).2 (Nat.le_of_eq hn.symm)) hp hoff

theorem cstep_recv2 (h : Fin 4) (j : Fin 7)
    {off : Fin 2 → ℕ} {hin : ∀ a, off a + S1x1.size a ≤ S4x8.size a} (hoff : off = ![h.val, (px c (near j)).val])
    {src dst : Memref sig .tc .vmem S64x128 .bf16} {hs : src.view.WordExact} {hd : dst.view.WordExact} {α : Type} {Q : α → sProp 𝕄} {k : PUnit → Prog (TpuEff nD τ sig (Elt F) Λ₀ .tc) α}
    (hn : 7 * h.val + j.val = nr2 := by decide) (hp : nsig + n1 + n2 = 63 := by decide) :
    St m K (stageOf ⟨nsig, bar, nxb, n1, nr1, nown, na, n2, nr2, noth, nw1, nw2⟩) c ⊢ iprop((St m K (stageOf ⟨nsig, bar, nxb, n1, nr1, nown, na, n2, nr2 + 1, noth, nw1, nw2⟩) c -∗ wpB c (k ⟨⟩) Q)
      -∗ wpB c (.op (.waitDma2 ((cc0_scratch7.slice (Rect.unit (s := S4x8) off S1x1.size hin)).squeeze S_ squeezes_S1x1_S_).sem src dst hs hd) k) Q) := by
  rw [← tr_recv2 ⟨nsig, bar, nxb, n1, nr1, nown, na, n2, nr2, noth, nw1, nw2⟩ h j hn]
  exact step_recv2 m K (stageOf ⟨nsig, bar, nxb, n1, nr1, nown, na, n2, nr2, noth, nw1, nw2⟩) c h j ((mem_r2Todo _ _).2 (Nat.le_of_eq hn.symm)) hp hoff

theorem cstep_sendWait1 (h : Fin 4) (j : Fin 7)
    {off : Fin 2 → ℕ} {hin : ∀ a, off a + S1x1.size a ≤ S4x8.size a}
    {src dst : Memref sig .tc .vmem S64x128 .bf16} {hs : src.view.WordExact} {hd : dst.view.WordExact} {α : Type} {Q : α → sProp 𝕄} {k : PUnit → Prog (TpuEff nD τ sig (Elt F) Λ₀ .tc) α}
    (hoff : off = ![h.val, (far j).val] := by rfl) (hn : 7 * h.val + j.val = nw1 := by decide) (hf : nw1 < n1 := by decide) (hx : h.val < nxb := by decide) (hp : nsig + n1 + n2 = 63 := by decide) :
    St m K (stageOf ⟨nsig, bar, nxb, n1, nr1, nown, na, n2, nr2, noth, nw1, nw2⟩) c ⊢ iprop((St m K (stageOf ⟨nsig, bar, nxb, n1, nr1, nown, na, n2, nr2, noth, nw1 + 1, nw2⟩) c -∗ wpB c (k ⟨⟩) Q)
      -∗ wpB c (.op (.waitDma2 ((cc0_scratch4.slice (Rect.unit (s := S4x8) off S1x1.size hin)).squeeze S_ squeezes_S1x1_S_).sem src dst hs hd) k) Q) := by
  rw [← tr_sendWait1 ⟨nsig, bar, nxb, n1, nr1, nown, na, n2, nr2, noth, nw1, nw2⟩ h j hn hx]
  exact step_sendWait1 m K (stageOf ⟨nsig, bar, nxb, n1, nr1, nown, na, n2, nr2, noth, nw1, nw2⟩) c h j
    ((mem_s1Fly _ _).2 ⟨by show 7 * h.val + j.val < n1; omega, Nat.le_of_eq hn.symm⟩) hp hoff

theorem cstep_sendWait2 (h : Fin 4) (j : Fin 7)
    {off : Fin 2 → ℕ} {hin : ∀ a, off a + S1x1.size a ≤ S4x8.size a}
    {src dst : Memref sig .tc .vmem S64x128 .bf16} {hs : src.view.WordExact} {hd : dst.view.WordExact} {α : Type} {Q : α → sProp 𝕄} {k : PUnit → Prog (TpuEff nD τ sig (Elt F) Λ₀ .tc) α}
    (hoff : off = ![h.val, (far j).val] := by rfl) (hn : 7 * h.val + j.val = nw2 := by decide) (hf : nw2 < n2 := by decide) (hp : nsig + n1 + n2 = 63 := by decide) :
    St m K (stageOf ⟨nsig, bar, nxb, n1, nr1, nown, na, n2, nr2, noth, nw1, nw2⟩) c ⊢ iprop((St m K (stageOf ⟨nsig, bar, nxb, n1, nr1, nown, na, n2, nr2, noth, nw1, nw2 + 1⟩) c -∗ wpB c (k ⟨⟩) Q)
      -∗ wpB c (.op (.waitDma2 ((cc0_scratch6.slice (Rect.unit (s := S4x8) off S1x1.size hin)).squeeze S_ squeezes_S1x1_S_).sem src dst hs hd) k) Q) := by
  rw [← tr_sendWait2 ⟨nsig, bar, nxb, n1, nr1, nown, na, n2, nr2, noth, nw1, nw2⟩ h j hn]
  exact step_sendWait2 m K (stageOf ⟨nsig, bar, nxb, n1, nr1, nown, na, n2, nr2, noth, nw1, nw2⟩) c h j
    ((mem_s2Fly _ _).2 ⟨by show 7 * h.val + j.val < n2; omega, Nat.le_of_eq hn.symm⟩) hp hoff

end Cert.Kernel.AR

end
-- ==== Proof.KernelAR.Chains.lean ====
import proofs.«900697_g7700000000000698_dist_ar_v7x_i8_i_m512_n512_f32_1_alg».proof.Proof.KernelAR.ProtoA

set_option Elab.async false

namespace Cert.Kernel.AR

open Cert.Kernel Cert.Kernel.Gen
open Idealize.ShloMosaic

-- Device chain N is the partner under its mask; the masks run 6, 7, 5, 2, 4, 3, 1 and repeat.
theorem dev_eq_1 (c : Dev nD) : ⟨k0_dev1 c, k0_dev1_lt c⟩ = px c 6 := by revert c; decide +kernel
theorem dev_eq_2 (c : Dev nD) : ⟨k0_dev2 c, k0_dev2_lt c⟩ = px c 7 := by revert c; decide +kernel
theorem dev_eq_3 (c : Dev nD) : ⟨k0_dev3 c, k0_dev3_lt c⟩ = px c 5 := by revert c; decide +kernel
theorem dev_eq_4 (c : Dev nD) : ⟨k0_dev4 c, k0_dev4_lt c⟩ = px c 2 := by revert c; decide +kernel
theorem dev_eq_5 (c : Dev nD) : ⟨k0_dev5 c, k0_dev5_lt c⟩ = px c 4 := by revert c; decide +kernel
theorem dev_eq_6 (c : Dev nD) : ⟨k0_dev6 c, k0_dev6_lt c⟩ = px c 3 := by revert c; decide +kernel
theorem dev_eq_7 (c : Dev nD) : ⟨k0_dev7 c, k0_dev7_lt c⟩ = px c 1 := by revert c; decide +kernel
theorem dev_eq_8 (c : Dev nD) : ⟨k0_dev8 c, k0_dev8_lt c⟩ = px c 6 := by revert c; decide +kernel
theorem dev_eq_9 (c : Dev nD) : ⟨k0_dev9 c, k0_dev9_lt c⟩ = px c 7 := by revert c; decide +kernel
theorem dev_eq_10 (c : Dev nD) : ⟨k0_dev10 c, k0_dev10_lt c⟩ = px c 5 := by revert c; decide +kernel
theorem dev_eq_11 (c : Dev nD) : ⟨k0_dev11 c, k0_dev11_lt c⟩ = px c 2 := by revert c; decide +kernel
theorem dev_eq_12 (c : Dev nD) : ⟨k0_dev12 c, k0_dev12_lt c⟩ = px c 4 := by revert c; decide +kernel
theorem dev_eq_13 (c : Dev nD) : ⟨k0_dev13 c, k0_dev13_lt c⟩ = px c 3 := by revert c; decide +kernel
theorem dev_eq_14 (c : Dev nD) : ⟨k0_dev14 c, k0_dev14_lt c⟩ = px c 1 := by revert c; decide +kernel
theorem dev_eq_15 (c : Dev nD) : ⟨k0_dev15 c, k0_dev15_lt c⟩ = px c 6 := by revert c; decide +kernel
theorem dev_eq_16 (c : Dev nD) : ⟨k0_dev16 c, k0_dev16_lt c⟩ = px c 7 := by revert c; decide +kernel
theorem dev_eq_17 (c : Dev nD) : ⟨k0_dev17 c, k0_dev17_lt c⟩ = px c 5 := by revert c; decide +kernel
theorem dev_eq_18 (c : Dev nD) : ⟨k0_dev18 c, k0_dev18_lt c⟩ = px c 2 := by revert c; decide +kernel
theorem dev_eq_19 (c : Dev nD) : ⟨k0_dev19 c, k0_dev19_lt c⟩ = px c 4 := by revert c; decide +kernel
theorem dev_eq_20 (c : Dev nD) : ⟨k0_dev20 c, k0_dev20_lt c⟩ = px c 3 := by revert c; decide +kernel
theorem dev_eq_21 (c : Dev nD) : ⟨k0_dev21 c, k0_dev21_lt c⟩ = px c 1 := by revert c; decide +kernel
theorem dev_eq_22 (c : Dev nD) : ⟨k0_dev22 c, k0_dev22_lt c⟩ = px c 6 := by revert c; decide +kernel
theorem dev_eq_23 (c : Dev nD) : ⟨k0_dev23 c, k0_dev23_lt c⟩ = px c 7 := by revert c; decide +kernel
theorem dev_eq_24 (c : Dev nD) : ⟨k0_dev24 c, k0_dev24_lt c⟩ = px c 5 := by revert c; decide +kernel
theorem dev_eq_25 (c : Dev nD) : ⟨k0_dev25 c, k0_dev25_lt c⟩ = px c 2 := by revert c; decide +kernel
theorem dev_eq_26 (c : Dev nD) : ⟨k0_dev26 c, k0_dev26_lt c⟩ = px c 4 := by revert c; decide +kernel
theorem dev_eq_27 (c : Dev nD) : ⟨k0_dev27 c, k0_dev27_lt c⟩ = px c 3 := by revert c; decide +kernel
theorem dev_eq_28 (c : Dev nD) : ⟨k0_dev28 c, k0_dev28_lt c⟩ = px c 1 := by revert c; decide +kernel
theorem dev_eq_29 (c : Dev nD) : ⟨k0_dev29 c, k0_dev29_lt c⟩ = px c 6 := by revert c; decide +kernel
theorem dev_eq_30 (c : Dev nD) : ⟨k0_dev30 c, k0_dev30_lt c⟩ = px c 7 := by revert c; decide +kernel
theorem dev_eq_31 (c : Dev nD) : ⟨k0_dev31 c, k0_dev31_lt c⟩ = px c 5 := by revert c; decide +kernel
theorem dev_eq_32 (c : Dev nD) : ⟨k0_dev32 c, k0_dev32_lt c⟩ = px c 2 := by revert c; decide +kernel
theorem dev_eq_33 (c : Dev nD) : ⟨k0_dev33 c, k0_dev33_lt c⟩ = px c 4 := by revert c; decide +kernel
theorem dev_eq_34 (c : Dev nD) : ⟨k0_dev34 c, k0_dev34_lt c⟩ = px c 3 := by revert c; decide +kernel
theorem dev_eq_35 (c : Dev nD) : ⟨k0_dev35 c, k0_dev35_lt c⟩ = px c 1 := by revert c; decide +kernel
theorem dev_eq_36 (c : Dev nD) : ⟨k0_dev36 c, k0_dev36_lt c⟩ = px c 6 := by revert c; decide +kernel
theorem dev_eq_37 (c : Dev nD) : ⟨k0_dev37 c, k0_dev37_lt c⟩ = px c 7 := by revert c; decide +kernel
theorem dev_eq_38 (c : Dev nD) : ⟨k0_dev38 c, k0_dev38_lt c⟩ = px c 5 := by revert c; decide +kernel
theorem dev_eq_39 (c : Dev nD) : ⟨k0_dev39 c, k0_dev39_lt c⟩ = px c 2 := by revert c; decide +kernel
theorem dev_eq_40 (c : Dev nD) : ⟨k0_dev40 c, k0_dev40_lt c⟩ = px c 4 := by revert c; decide +kernel
theorem dev_eq_41 (c : Dev nD) : ⟨k0_dev41 c, k0_dev41_lt c⟩ = px c 3 := by revert c; decide +kernel
theorem dev_eq_42 (c : Dev nD) : ⟨k0_dev42 c, k0_dev42_lt c⟩ = px c 1 := by revert c; decide +kernel
theorem dev_eq_43 (c : Dev nD) : ⟨k0_dev43 c, k0_dev43_lt c⟩ = px c 6 := by revert c; decide +kernel
theorem dev_eq_44 (c : Dev nD) : ⟨k0_dev44 c, k0_dev44_lt c⟩ = px c 7 := by revert c; decide +kernel
theorem dev_eq_45 (c : Dev nD) : ⟨k0_dev45 c, k0_dev45_lt c⟩ = px c 5 := by revert c; decide +kernel
theorem dev_eq_46 (c : Dev nD) : ⟨k0_dev46 c, k0_dev46_lt c⟩ = px c 2 := by revert c; decide +kernel
theorem dev_eq_47 (c : Dev nD) : ⟨k0_dev47 c, k0_dev47_lt c⟩ = px c 4 := by revert c; decide +kernel
theorem dev_eq_48 (c : Dev nD) : ⟨k0_dev48 c, k0_dev48_lt c⟩ = px c 3 := by revert c; decide +kernel
theorem dev_eq_49 (c : Dev nD) : ⟨k0_dev49 c, k0_dev49_lt c⟩ = px c 1 := by revert c; decide +kernel
theorem dev_eq_50 (c : Dev nD) : ⟨k0_dev50 c, k0_dev50_lt c⟩ = px c 6 := by revert c; decide +kernel
theorem dev_eq_51 (c : Dev nD) : ⟨k0_dev51 c, k0_dev51_lt c⟩ = px c 7 := by revert c; decide +kernel
theorem dev_eq_52 (c : Dev nD) : ⟨k0_dev52 c, k0_dev52_lt c⟩ = px c 5 := by revert c; decide +kernel
theorem dev_eq_53 (c : Dev nD) : ⟨k0_dev53 c, k0_dev53_lt c⟩ = px c 2 := by revert c; decide +kernel
theorem dev_eq_54 (c : Dev nD) : ⟨k0_dev54 c, k0_dev54_lt c⟩ = px c 4 := by revert c; decide +kernel
theorem dev_eq_55 (c : Dev nD) : ⟨k0_dev55 c, k0_dev55_lt c⟩ = px c 3 := by revert c; decide +kernel
theorem dev_eq_56 (c : Dev nD) : ⟨k0_dev56 c, k0_dev56_lt c⟩ = px c 1 := by revert c; decide +kernel
theorem dev_eq_57 (c : Dev nD) : ⟨k0_dev57 c, k0_dev57_lt c⟩ = px c 6 := by revert c; decide +kernel
theorem dev_eq_58 (c : Dev nD) : ⟨k0_dev58 c, k0_dev58_lt c⟩ = px c 7 := by revert c; decide +kernel
theorem dev_eq_59 (c : Dev nD) : ⟨k0_dev59 c, k0_dev59_lt c⟩ = px c 5 := by revert c; decide +kernel
theorem dev_eq_60 (c : Dev nD) : ⟨k0_dev60 c, k0_dev60_lt c⟩ = px c 2 := by revert c; decide +kernel
theorem dev_eq_61 (c : Dev nD) : ⟨k0_dev61 c, k0_dev61_lt c⟩ = px c 4 := by revert c; decide +kernel
theorem dev_eq_62 (c : Dev nD) : ⟨k0_dev62 c, k0_dev62_lt c⟩ = px c 3 := by revert c; decide +kernel
theorem dev_eq_63 (c : Dev nD) : ⟨k0_dev63 c, k0_dev63_lt c⟩ = px c 1 := by revert c; decide +kernel

-- A fact about the mask words 1 to 7 follows from its check at the words 1 + r, r < 7.
theorem of_words {α : Type} {g : BitVec 32 → α} {f : ℕ → α} (h : ∀ r : Fin 7, g (BitVec.ofNat 32 (1 + r.val)) = f (1 + r.val))
    (w : ℕ) (hw : 0 < w ∧ w < 8) : g (BitVec.ofNat 32 w) = f w := by
  have e : g (BitVec.ofNat 32 (1 + (w - 1))) = f (1 + (w - 1)) := h ⟨w - 1, by omega⟩
  rwa [show 1 + (w - 1) = w by omega] at e

-- Every offset chain over a mask word varies only in the partner's number, or 64 times it (a row group of 64 rows).
theorem k0_off3_eq (d0 : Dev nD) (w : ℕ) (hw : 0 < w ∧ w < 8 := by decide) : k0_off3 d0 (BitVec.ofNat 32 w) = ![64 * (d0.val ^^^ w), 0] :=
  of_words (f := fun w => ![64 * (d0.val ^^^ w), 0]) (by revert d0; decide +kernel) w hw
theorem k0_off6_eq (d0 : Dev nD) (w : ℕ) (hw : 0 < w ∧ w < 8 := by decide) : k0_off6 d0 (BitVec.ofNat 32 w) = ![64 * (d0.val ^^^ w), 128] :=
  of_words (f := fun w => ![64 * (d0.val ^^^ w), 128]) (by revert d0; decide +kernel) w hw
theorem k0_off9_eq (d0 : Dev nD) (w : ℕ) (hw : 0 < w ∧ w < 8 := by decide) : k0_off9 d0 (BitVec.ofNat 32 w) = ![64 * (d0.val ^^^ w), 256] :=
  of_words (f := fun w => ![64 * (d0.val ^^^ w), 256]) (by revert d0; decide +kernel) w hw
theorem k0_off12_eq (d0 : Dev nD) (w : ℕ) (hw : 0 < w ∧ w < 8 := by decide) : k0_off12 d0 (BitVec.ofNat 32 w) = ![64 * (d0.val ^^^ w), 384] :=
  of_words (f := fun w => ![64 * (d0.val ^^^ w), 384]) (by revert d0; decide +kernel) w hw
theorem k0_off14_eq (d0 : Dev nD) (w : ℕ) (hw : 0 < w ∧ w < 8 := by decide) : k0_off14 d0 (BitVec.ofNat 32 w) = ![0, (d0.val ^^^ w)] :=
  of_words (f := fun w => ![0, (d0.val ^^^ w)]) (by revert d0; decide +kernel) w hw
theorem k0_off15_eq (d0 : Dev nD) (w : ℕ) (hw : 0 < w ∧ w < 8 := by decide) : k0_off15 d0 (BitVec.ofNat 32 w) = ![(d0.val ^^^ w), 0, 0] :=
  of_words (f := fun w => ![(d0.val ^^^ w), 0, 0]) (by revert d0; decide +kernel) w hw
theorem k0_off16_eq (d0 : Dev nD) (w : ℕ) (hw : 0 < w ∧ w < 8 := by decide) : k0_off16 d0 (BitVec.ofNat 32 w) = ![(d0.val ^^^ w), 0, 0] :=
  of_words (f := fun w => ![(d0.val ^^^ w), 0, 0]) (by revert d0; decide +kernel) w hw
theorem k0_off18_eq (d0 : Dev nD) (w : ℕ) (hw : 0 < w ∧ w < 8 := by decide) : k0_off18 d0 (BitVec.ofNat 32 w) = ![1, (d0.val ^^^ w)] :=
  of_words (f := fun w => ![1, (d0.val ^^^ w)]) (by revert d0; decide +kernel) w hw
theorem k0_off19_eq (d0 : Dev nD) (w : ℕ) (hw : 0 < w ∧ w < 8 := by decide) : k0_off19 d0 (BitVec.ofNat 32 w) = ![(d0.val ^^^ w), 0, 128] :=
  of_words (f := fun w => ![(d0.val ^^^ w), 0, 128]) (by revert d0; decide +kernel) w hw
theorem k0_off20_eq (d0 : Dev nD) (w : ℕ) (hw : 0 < w ∧ w < 8 := by decide) : k0_off20 d0 (BitVec.ofNat 32 w) = ![(d0.val ^^^ w), 0, 128] :=
  of_words (f := fun w => ![(d0.val ^^^ w), 0, 128]) (by revert d0; decide +kernel) w hw
theorem k0_off22_eq (d0 : Dev nD) (w : ℕ) (hw : 0 < w ∧ w < 8 := by decide) : k0_off22 d0 (BitVec.ofNat 32 w) = ![2, (d0.val ^^^ w)] :=
  of_words (f := fun w => ![2, (d0.val ^^^ w)]) (by revert d0; decide +kernel) w hw
theorem k0_off23_eq (d0 : Dev nD) (w : ℕ) (hw : 0 < w ∧ w < 8 := by decide) : k0_off23 d0 (BitVec.ofNat 32 w) = ![(d0.val ^^^ w), 0, 256] :=
  of_words (f := fun w => ![(d0.val ^^^ w), 0, 256]) (by revert d0; decide +kernel) w hw
theorem k0_off24_eq (d0 : Dev nD) (w : ℕ) (hw : 0 < w ∧ w < 8 := by decide) : k0_off24 d0 (BitVec.ofNat 32 w) = ![(d0.val ^^^ w), 0, 256] :=
  of_words (f := fun w => ![(d0.val ^^^ w), 0, 256]) (by revert d0; decide +kernel) w hw
theorem k0_off26_eq (d0 : Dev nD) (w : ℕ) (hw : 0 < w ∧ w < 8 := by decide) : k0_off26 d0 (BitVec.ofNat 32 w) = ![3, (d0.val ^^^ w)] :=
  of_words (f := fun w => ![3, (d0.val ^^^ w)]) (by revert d0; decide +kernel) w hw
theorem k0_off27_eq (d0 : Dev nD) (w : ℕ) (hw : 0 < w ∧ w < 8 := by decide) : k0_off27 d0 (BitVec.ofNat 32 w) = ![(d0.val ^^^ w), 0, 384] :=
  of_words (f := fun w => ![(d0.val ^^^ w), 0, 384]) (by revert d0; decide +kernel) w hw
theorem k0_off28_eq (d0 : Dev nD) (w : ℕ) (hw : 0 < w ∧ w < 8 := by decide) : k0_off28 d0 (BitVec.ofNat 32 w) = ![(d0.val ^^^ w), 0, 384] :=
  of_words (f := fun w => ![(d0.val ^^^ w), 0, 384]) (by revert d0; decide +kernel) w hw
theorem k0_off29_eq (d0 : Dev nD) (w : ℕ) (hw : 0 < w ∧ w < 8 := by decide) : k0_off29 d0 (BitVec.ofNat 32 w) = ![64 * (d0.val ^^^ w), 0] :=
  of_words (f := fun w => ![64 * (d0.val ^^^ w), 0]) (by revert d0; decide +kernel) w hw
theorem k0_off30_eq (d0 : Dev nD) (w : ℕ) (hw : 0 < w ∧ w < 8 := by decide) : k0_off30 d0 (BitVec.ofNat 32 w) = ![64 * (d0.val ^^^ w), 128] :=
  of_words (f := fun w => ![64 * (d0.val ^^^ w), 128]) (by revert d0; decide +kernel) w hw
theorem k0_off31_eq (d0 : Dev nD) (w : ℕ) (hw : 0 < w ∧ w < 8 := by decide) : k0_off31 d0 (BitVec.ofNat 32 w) = ![64 * (d0.val ^^^ w), 256] :=
  of_words (f := fun w => ![64 * (d0.val ^^^ w), 256]) (by revert d0; decide +kernel) w hw
theorem k0_off32_eq (d0 : Dev nD) (w : ℕ) (hw : 0 < w ∧ w < 8 := by decide) : k0_off32 d0 (BitVec.ofNat 32 w) = ![64 * (d0.val ^^^ w), 384] :=
  of_words (f := fun w => ![64 * (d0.val ^^^ w), 384]) (by revert d0; decide +kernel) w hw

end Cert.Kernel.AR
-- ==== Proof.KernelAR.Parts_01_12.lean ====
import proofs.«900697_g7700000000000698_dist_ar_v7x_i8_i_m512_n512_f32_1_alg».proof.Proof.KernelAR.CSteps
import proofs.«900697_g7700000000000698_dist_ar_v7x_i8_i_m512_n512_f32_1_alg».proof.Proof.KernelAR.PartsPre
import proofs.«900697_g7700000000000698_dist_ar_v7x_i8_i_m512_n512_f32_1_alg».proof.Proof.KernelAR.Chains
import proofs.«900697_g7700000000000698_dist_ar_v7x_i8_i_m512_n512_f32_1_alg».proof.Proof.Gen.Kernel.Skeleton

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 1 to 12: the seven entry signals and the wait for the partners', then per slab the narrowed copy and its seven scatter copies. -/
theorem part_1 (Q : (Σ' (d0 : Dev nD) (v2 : BitVec 32) (v3 : Sems sig S_), BitVec 32) → sProp 𝕄) :
    iprop(St m K (stageOf ⟨0, false, 0, 0, 0, 0, 0, 0, 0, 0, 0, 0⟩) c
        ∗ (∀ w₁ w₂, St m K (stageOf ⟨6, false, 0, 0, 0, 0, 0, 0, 0, 0, 0, 0⟩) c -∗ Q ⟨c, w₁, SemArray.scalar (sig.barrier 0 rfl), w₂⟩))
      ⊢ wpB c (onBufs k0_part1) Q := by
  rw [onBufs, k0_part1_eq_skeleton]; unfold k0_part1_skel wpB
  simp only [semSignalWord, semWaitWord, Prog.lift, Prog.bind_op, Prog.bind_ret, Prog.pure_eq_ret]
  rw [wp_deviceId]
  iintro ⟨HSt, Hk⟩
  iapply (cstep_signal m K c 0 (dev_eq_1 c)) $$ HSt; iintro HSt
  iapply (cstep_signal m K c 1 (dev_eq_2 c)) $$ HSt; iintro HSt
  iapply (cstep_signal m K c 2 (dev_eq_3 c)) $$ HSt; iintro HSt
  iapply (cstep_signal m K c 3 (dev_eq_4 c)) $$ HSt; iintro HSt
  iapply (cstep_signal m K c 4 (dev_eq_5 c)) $$ HSt; iintro HSt
  iapply (cstep_signal m K c 5 (dev_eq_6 c)) $$ HSt; iintro HSt
  iapply (le_wp_ret _ _)
  iapply Hk; iexact HSt

theorem part_2 (v2 : BitVec 32) (v3 : Sems sig S_) (v23 : BitVec 32)
    (hv3 : v3 = SemArray.scalar (sig.barrier 0 rfl)) (Q : PUnit → sProp 𝕄) :
    iprop(St m K (stageOf ⟨6, false, 0, 0, 0, 0, 0, 0, 0, 0, 0, 0⟩) c
        ∗ (St m K (stageOf ⟨7, true, 1, 1, 0, 0, 0, 0, 0, 0, 0, 0⟩) c -∗ Q ⟨⟩))
      ⊢ wpB c (onBufs k0_part2 c v2 v3 v23) Q := by
  subst hv3
  rw [onBufs, k0_part2_eq_skeleton]; unfold k0_part2_skel wpB
  simp only [semSignalWord, semWaitWord, Prog.lift, Prog.bind_op, Prog.bind_ret, Prog.pure_eq_ret]
  iintro ⟨HSt, Hk⟩
  iapply (cstep_signal m K c 6 (dev_eq_7 c)) $$ HSt; iintro HSt
  iapply (cstep_barWait m K c) $$ HSt; iintro HSt
  iapply (cstep_xLoad m K c) $$ HSt; iintro HSt
  iapply (cstep_xbLoadRaw m K c 0) $$ HSt; iintro %v HSt
  iapply (cstep_xbStore m K c 0 (xb_store_ok_0 m c)) $$ HSt; iintro HSt
  iapply (cstep_send1 m K c 0 0 (k0_off3_eq c 6) (k0_off2_eq c) (k0_off1_eq c) (dev_eq_8 c)) $$ HSt; iintro HSt
  iapply (le_wp_ret _ _)
  iapply Hk; iexact HSt

theorem part_3 (v2 : BitVec 32) (Q : PUnit → sProp 𝕄) :
    iprop(St m K (stageOf ⟨7, true, 1, 1, 0, 0, 0, 0, 0, 0, 0, 0⟩) c
        ∗ (St m K (stageOf ⟨7, true, 1, 4, 0, 0, 0, 0, 0, 0, 0, 0⟩) c -∗ Q ⟨⟩))
      ⊢ wpB c (onBufs k0_part3 c v2) Q := by
  rw [onBufs, k0_part3_eq_skeleton]; unfold k0_part3_skel wpB
  simp only [semSignalWord, semWaitWord, Prog.lift, Prog.bind_op, Prog.bind_ret, Prog.pure_eq_ret]
  iintro ⟨HSt, Hk⟩
  iapply (cstep_send1 m K c 0 1 (k0_off3_eq c 7) (k0_off2_eq c) (k0_off1_eq c) (dev_eq_9 c)) $$ HSt; iintro HSt
  iapply (cstep_send1 m K c 0 2 (k0_off3_eq c 5) (k0_off2_eq c) (k0_off1_eq c) (dev_eq_10 c)) $$ HSt; iintro HSt
  iapply (cstep_send1 m K c 0 3 (k0_off3_eq c 2) (k0_off2_eq c) (k0_off1_eq c) (dev_eq_11 c)) $$ HSt; iintro HSt
  iapply (le_wp_ret _ _)
  iapply Hk; iexact HSt

theorem part_4 (v2 : BitVec 32) (Q : FVec F S512x128 .bf16 → sProp 𝕄) :
    iprop(St m K (stageOf ⟨7, true, 1, 4, 0, 0, 0, 0, 0, 0, 0, 0⟩) c
        ∗ (St m K (stageOf ⟨7, true, 1, 7, 0, 0, 0, 0, 0, 0, 0, 0⟩) c -∗ Q (k0_pay2 (xsl m c 1))))
      ⊢ wpB c (onBufs k0_part4 c v2) Q := by
  rw [onBufs, k0_part4_eq_skeleton]; unfold k0_part4_skel wpB
  simp only [semSignalWord, semWaitWord, Prog.lift, Prog.bind_op, Prog.bind_ret, Prog.pure_eq_ret]
  iintro ⟨HSt, Hk⟩
  iapply (cstep_send1 m K c 0 4 (k0_off3_eq c 4) (k0_off2_eq c) (k0_off1_eq c) (dev_eq_12 c)) $$ HSt; iintro HSt
  iapply (cstep_send1 m K c 0 5 (k0_off3_eq c 3) (k0_off2_eq c) (k0_off1_eq c) (dev_eq_13 c)) $$ HSt; iintro HSt
  iapply (cstep_send1 m K c 0 6 (k0_off3_eq c 1) (k0_off2_eq c) (k0_off1_eq c) (dev_eq_14 c)) $$ HSt; iintro HSt
  iapply (cstep_xLoad m K c) $$ HSt; iintro HSt
  iapply (cstep_xbLoadRaw m K c 1) $$ HSt; iintro %v HSt
  iapply (le_wp_ret _ _)
  iapply Hk; iexact HSt

theorem part_5 (v2 : BitVec 32) (v110 : FVec F S512x128 .bf16) (hv : v110 = k0_pay2 (xsl m c 1)) (Q : PUnit → sProp 𝕄) :
    iprop(St m K (stageOf ⟨7, true, 1, 7, 0, 0, 0, 0, 0, 0, 0, 0⟩) c
        ∗ (St m K (stageOf ⟨7, true, 2, 9, 0, 0, 0, 0, 0, 0, 0, 0⟩) c -∗ Q ⟨⟩))
      ⊢ wpB c (onBufs k0_part5 c v2 v110) Q := by
  subst hv
  rw [onBufs, k0_part5_eq_skeleton]; unfold k0_part5_skel wpB
  simp only [semSignalWord, semWaitWord, Prog.lift, Prog.bind_op, Prog.bind_ret, Prog.pure_eq_ret]
  iintro ⟨HSt, Hk⟩
  iapply (cstep_xbStore m K c 1 (xb_store_ok_1 m c)) $$ HSt; iintro HSt
  iapply (cstep_send1 m K c 1 0 (k0_off6_eq c 6) (k0_off5_eq c) (k0_off4_eq c) (dev_eq_15 c)) $$ HSt; iintro HSt
  iapply (cstep_send1 m K c 1 1 (k0_off6_eq c 7) (k0_off5_eq c) (k0_off4_eq c) (dev_eq_16 c)) $$ HSt; iintro HSt
  iapply (le_wp_ret _ _)
  iapply Hk; iexact HSt

theorem part_6 (v2 : BitVec 32) (Q : (Σ' (v169 : BitVec 32), BitVec 32) → sProp 𝕄) :
    iprop(St m K (stageOf ⟨7, true, 2, 9, 0, 0, 0, 0, 0, 0, 0, 0⟩) c
        ∗ (∀ w₁ w₂, St m K (stageOf ⟨7, true, 2, 12, 0, 0, 0, 0, 0, 0, 0, 0⟩) c -∗ Q ⟨w₁, w₂⟩))
      ⊢ wpB c (onBufs k0_part6 c v2) Q := by
  rw [onBufs, k0_part6_eq_skeleton]; unfold k0_part6_skel wpB
  simp only [semSignalWord, semWaitWord, Prog.lift, Prog.bind_op, Prog.bind_ret, Prog.pure_eq_ret]
  iintro ⟨HSt, Hk⟩
  iapply (cstep_send1 m K c 1 2 (k0_off6_eq c 5) (k0_off5_eq c) (k0_off4_eq c) (dev_eq_17 c)) $$ HSt; iintro HSt
  iapply (cstep_send1 m K c 1 3 (k0_off6_eq c 2) (k0_off5_eq c) (k0_off4_eq c) (dev_eq_18 c)) $$ HSt; iintro HSt
  iapply (cstep_send1 m K c 1 4 (k0_off6_eq c 4) (k0_off5_eq c) (k0_off4_eq c) (dev_eq_19 c)) $$ HSt; iintro HSt
  iapply (le_wp_ret _ _)
  iapply Hk; iexact HSt

theorem part_7 (v2 : BitVec 32) (v169 : BitVec 32) (c1_i32_151 : BitVec 32) (Q : PUnit → sProp 𝕄) :
    iprop(St m K (stageOf ⟨7, true, 2, 12, 0, 0, 0, 0, 0, 0, 0, 0⟩) c
        ∗ (St m K (stageOf ⟨7, true, 3, 14, 0, 0, 0, 0, 0, 0, 0, 0⟩) c -∗ Q ⟨⟩))
      ⊢ wpB c (onBufs k0_part7 c v2 v169 c1_i32_151) Q := by
  rw [onBufs, k0_part7_eq_skeleton]; unfold k0_part7_skel wpB
  simp only [semSignalWord, semWaitWord, Prog.lift, Prog.bind_op, Prog.bind_ret, Prog.pure_eq_ret]
  iintro ⟨HSt, Hk⟩
  iapply (cstep_send1 m K c 1 5 (k0_off6_eq c 3) (k0_off5_eq c) (k0_off4_eq c) (dev_eq_20 c)) $$ HSt; iintro HSt
  iapply (cstep_send1 m K c 1 6 (k0_off6_eq c 1) (k0_off5_eq c) (k0_off4_eq c) (dev_eq_21 c)) $$ HSt; iintro HSt
  iapply (cstep_xLoad m K c) $$ HSt; iintro HSt
  iapply (cstep_xbLoadRaw m K c 2) $$ HSt; iintro %v HSt
  iapply (cstep_xbStore m K c 2 (xb_store_ok_2 m c)) $$ HSt; iintro HSt
  iapply (le_wp_ret _ _)
  iapply Hk; iexact HSt

theorem part_8 (v2 : BitVec 32) (Q : BitVec 32 → sProp 𝕄) :
    iprop(St m K (stageOf ⟨7, true, 3, 14, 0, 0, 0, 0, 0, 0, 0, 0⟩) c
        ∗ (∀ w₁, St m K (stageOf ⟨7, true, 3, 17, 0, 0, 0, 0, 0, 0, 0, 0⟩) c -∗ Q w₁))
      ⊢ wpB c (onBufs k0_part8 c v2) Q := by
  rw [onBufs, k0_part8_eq_skeleton]; unfold k0_part8_skel wpB
  simp only [semSignalWord, semWaitWord, Prog.lift, Prog.bind_op, Prog.bind_ret, Prog.pure_eq_ret]
  iintro ⟨HSt, Hk⟩
  iapply (cstep_send1 m K c 2 0 (k0_off9_eq c 6) (k0_off8_eq c) (k0_off7_eq c) (dev_eq_22 c)) $$ HSt; iintro HSt
  iapply (cstep_send1 m K c 2 1 (k0_off9_eq c 7) (k0_off8_eq c) (k0_off7_eq c) (dev_eq_23 c)) $$ HSt; iintro HSt
  iapply (cstep_send1 m K c 2 2 (k0_off9_eq c 5) (k0_off8_eq c) (k0_off7_eq c) (dev_eq_24 c)) $$ HSt; iintro HSt
  iapply (le_wp_ret _ _)
  iapply Hk; iexact HSt

theorem part_9 (v2 : BitVec 32) (v230 : BitVec 32) (Q : BitVec 32 → sProp 𝕄) :
    iprop(St m K (stageOf ⟨7, true, 3, 17, 0, 0, 0, 0, 0, 0, 0, 0⟩) c
        ∗ (∀ w₁, St m K (stageOf ⟨7, true, 3, 20, 0, 0, 0, 0, 0, 0, 0, 0⟩) c -∗ Q w₁))
      ⊢ wpB c (onBufs k0_part9 c v2 v230) Q := by
  rw [onBufs, k0_part9_eq_skeleton]; unfold k0_part9_skel wpB
  simp only [semSignalWord, semWaitWord, Prog.lift, Prog.bind_op, Prog.bind_ret, Prog.pure_eq_ret]
  iintro ⟨HSt, Hk⟩
  iapply (cstep_send1 m K c 2 3 (k0_off9_eq c 2) (k0_off8_eq c) (k0_off7_eq c) (dev_eq_25 c)) $$ HSt; iintro HSt
  iapply (cstep_send1 m K c 2 4 (k0_off9_eq c 4) (k0_off8_eq c) (k0_off7_eq c) (dev_eq_26 c)) $$ HSt; iintro HSt
  iapply (cstep_send1 m K c 2 5 (k0_off9_eq c 3) (k0_off8_eq c) (k0_off7_eq c) (dev_eq_27 c)) $$ HSt; iintro HSt
  iapply (le_wp_ret _ _)
  iapply Hk; iexact HSt

theorem part_10 (v2 : BitVec 32) (c1_i32_228 : BitVec 32) (Q : BitVec 32 → sProp 𝕄) :
    iprop(St m K (stageOf ⟨7, true, 3, 20, 0, 0, 0, 0, 0, 0, 0, 0⟩) c
        ∗ (∀ w₁, St m K (stageOf ⟨7, true, 4, 22, 0, 0, 0, 0, 0, 0, 0, 0⟩) c -∗ Q w₁))
      ⊢ wpB c (onBufs k0_part10 c v2 c1_i32_228) Q := by
  rw [onBufs, k0_part10_eq_skeleton]; unfold k0_part10_skel wpB
  simp only [semSignalWord, semWaitWord, Prog.lift, Prog.bind_op, Prog.bind_ret, Prog.pure_eq_ret]
  iintro ⟨HSt, Hk⟩
  iapply (cstep_send1 m K c 2 6 (k0_off9_eq c 1) (k0_off8_eq c) (k0_off7_eq c) (dev_eq_28 c)) $$ HSt; iintro HSt
  iapply (cstep_xLoad m K c) $$ HSt; iintro HSt
  iapply (cstep_xbLoadRaw m K c 3) $$ HSt; iintro %v HSt
  iapply (cstep_xbStore m K c 3 (xb_store_ok_3 m c)) $$ HSt; iintro HSt
  iapply (cstep_send1 m K c 3 0 (k0_off12_eq c 6) (k0_off11_eq c) (k0_off10_eq c) (dev_eq_29 c)) $$ HSt; iintro HSt
  iapply (le_wp_ret _ _)
  iapply Hk; iexact HSt

theorem part_11 (v2 : BitVec 32) (v291 : BitVec 32) (Q : PUnit → sProp 𝕄) :
    iprop(St m K (stageOf ⟨7, true, 4, 22, 0, 0, 0, 0, 0, 0, 0, 0⟩) c
        ∗ (St m K (stageOf ⟨7, true, 4, 25, 0, 0, 0, 0, 0, 0, 0, 0⟩) c -∗ Q ⟨⟩))
      ⊢ wpB c (onBufs k0_part11 c v2 v291) Q := by
  rw [onBufs, k0_part11_eq_skeleton]; unfold k0_part11_skel wpB
  simp only [semSignalWord, semWaitWord, Prog.lift, Prog.bind_op, Prog.bind_ret, Prog.pure_eq_ret]
  iintro ⟨HSt, Hk⟩
  iapply (cstep_send1 m K c 3 1 (k0_off12_eq c 7) (k0_off11_eq c) (k0_off10_eq c) (dev_eq_30 c)) $$ HSt; iintro HSt
  iapply (cstep_send1 m K c 3 2 (k0_off12_eq c 5) (k0_off11_eq c) (k0_off10_eq c) (dev_eq_31 c)) $$ HSt; iintro HSt
  iapply (cstep_send1 m K c 3 3 (k0_off12_eq c 2) (k0_off11_eq c) (k0_off10_eq c) (dev_eq_32 c)) $$ HSt; iintro HSt
  iapply (le_wp_ret _ _)
  iapply Hk; iexact HSt

theorem part_12 (v2 : BitVec 32) (Q : PUnit → sProp 𝕄) :
    iprop(St m K (stageOf ⟨7, true, 4, 25, 0, 0, 0, 0, 0, 0, 0, 0⟩) c
        ∗ (St m K (stageOf ⟨7, true, 4, 27, 0, 0, 0, 0, 0, 0, 0, 0⟩) c -∗ Q ⟨⟩))
      ⊢ wpB c (onBufs k0_part12 c v2) Q := by
  rw [onBufs, k0_part12_eq_skeleton]; unfold k0_part12_skel wpB
  simp only [semSignalWord, semWaitWord, Prog.lift, Prog.bind_op, Prog.bind_ret, Prog.pure_eq_ret]
  iintro ⟨HSt, Hk⟩
  iapply (cstep_send1 m K c 3 4 (k0_off12_eq c 4) (k0_off11_eq c) (k0_off10_eq c) (dev_eq_33 c)) $$ HSt; iintro HSt
  iapply (cstep_send1 m K c 3 5 (k0_off12_eq c 3) (k0_off11_eq c) (k0_off10_eq c) (dev_eq_34 c)) $$ HSt; iintro HSt
  iapply (le_wp_ret _ _)
  iapply Hk; iexact HSt

end Cert.Kernel.AR

end
-- ==== Proof.KernelAR.Parts_13_24.lean ====
import proofs.«900697_g7700000000000698_dist_ar_v7x_i8_i_m512_n512_f32_1_alg».proof.Proof.KernelAR.CSteps
import proofs.«900697_g7700000000000698_dist_ar_v7x_i8_i_m512_n512_f32_1_alg».proof.Proof.KernelAR.PartsPre
import proofs.«900697_g7700000000000698_dist_ar_v7x_i8_i_m512_n512_f32_1_alg».proof.Proof.KernelAR.Chains
import proofs.«900697_g7700000000000698_dist_ar_v7x_i8_i_m512_n512_f32_1_alg».proof.Proof.Gen.Kernel.Skeleton

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 13 to 24, slabs 0 and 1: the own row group plus the seven received slots in mask order 1, 3, 4, 2, 5, 7, 6; the sum is kept and sent to every partner. -/
theorem part_13 (v2 : BitVec 32) (Q : FVec F S64x128 .f32 → sProp 𝕄) :
    iprop(St m K (stageOf ⟨7, true, 4, 27, 0, 0, 0, 0, 0, 0, 0, 0⟩) c ∗ (St m K (stageOf ⟨7, true, 4, 28, 2, 0, 0, 0, 0, 0, 0, 0⟩) c -∗ Q (k0_pay6 (vxL m c 0) (vgL m c 0 1)))) ⊢ wpB c (onBufs k0_part13 c v2) Q := by
  rw [onBufs, k0_part13_eq_skeleton]; unfold k0_part13_skel wpB
  simp only [semSignalWord, semWaitWord, Prog.lift, Prog.bind_op, Prog.bind_ret, Prog.pure_eq_ret]
  iintro ⟨HSt, Hk⟩
  iapply (cstep_send1 m K c 3 6 (k0_off12_eq c 1) (k0_off11_eq c) (k0_off10_eq c) (dev_eq_35 c)) $$ HSt; iintro HSt
  iapply (cstep_xLoadOwn m K c 0 (k0_off13_eq c)) $$ HSt; iintro HSt
  iapply (cstep_recv1 m K c 0 0 (k0_off14_eq c 1)) $$ HSt; iintro HSt
  iapply (cstep_gLoad m K c 1 0 (k0_off16_eq c 1)) $$ HSt; iintro HSt
  iapply (cstep_recv1 m K c 0 1 (k0_off14_eq c 3)) $$ HSt; iintro HSt
  iapply (le_wp_ret _ _)
  iapply Hk; iexact HSt

theorem part_14 (v2 : BitVec 32) (v374 : FVec F S64x128 .f32) (Q : FVec F S64x128 .f32 → sProp 𝕄) :
    iprop(St m K (stageOf ⟨7, true, 4, 28, 2, 0, 0, 0, 0, 0, 0, 0⟩) c ∗ (St m K (stageOf ⟨7, true, 4, 28, 4, 0, 0, 0, 0, 0, 0, 0⟩) c -∗ Q (k0_pay7 v374 (vgL m c 0 3) (vgL m c 0 4) (vgL m c 0 2)))) ⊢ wpB c (onBufs k0_part14 c v2 v374) Q := by
  rw [onBufs, k0_part14_eq_skeleton]; unfold k0_part14_skel wpB
  simp only [semSignalWord, semWaitWord, Prog.lift, Prog.bind_op, Prog.bind_ret, Prog.pure_eq_ret]
  iintro ⟨HSt, Hk⟩
  iapply (cstep_gLoad m K c 3 0 (k0_off16_eq c 3)) $$ HSt; iintro HSt
  iapply (cstep_recv1 m K c 0 2 (k0_off14_eq c 4)) $$ HSt; iintro HSt
  iapply (cstep_gLoad m K c 4 0 (k0_off16_eq c 4)) $$ HSt; iintro HSt
  iapply (cstep_recv1 m K c 0 3 (k0_off14_eq c 2)) $$ HSt; iintro HSt
  iapply (cstep_gLoad m K c 2 0 (k0_off16_eq c 2)) $$ HSt; iintro HSt
  iapply (le_wp_ret _ _)
  iapply Hk; iexact HSt

theorem part_15 (v2 : BitVec 32) (v416 : FVec F S64x128 .f32) (Q : (Σ' (v444 : FVec F S64x128 .f32) (v445 : BitVec 32), BitVec 32) → sProp 𝕄) :
    iprop(St m K (stageOf ⟨7, true, 4, 28, 4, 0, 0, 0, 0, 0, 0, 0⟩) c ∗ (∀ w₁ w₂, St m K (stageOf ⟨7, true, 4, 28, 6, 0, 0, 0, 0, 0, 0, 0⟩) c -∗ Q ⟨k0_pay8 v416 (vgL m c 0 5) (vgL m c 0 7), w₁, w₂⟩)) ⊢ wpB c (onBufs k0_part15 c v2 v416) Q := by
  rw [onBufs, k0_part15_eq_skeleton]; unfold k0_part15_skel wpB
  simp only [semSignalWord, semWaitWord, Prog.lift, Prog.bind_op, Prog.bind_ret, Prog.pure_eq_ret]
  iintro ⟨HSt, Hk⟩
  iapply (cstep_recv1 m K c 0 4 (k0_off14_eq c 5)) $$ HSt; iintro HSt
  iapply (cstep_gLoad m K c 5 0 (k0_off16_eq c 5)) $$ HSt; iintro HSt
  iapply (cstep_recv1 m K c 0 5 (k0_off14_eq c 7)) $$ HSt; iintro HSt
  iapply (cstep_gLoad m K c 7 0 (k0_off16_eq c 7)) $$ HSt; iintro HSt
  iapply (le_wp_ret _ _)
  iapply Hk; iexact HSt

theorem part_16 (v2 : BitVec 32) (v444 : FVec F S64x128 .f32) (v445 : BitVec 32) (c1_i32_388 : BitVec 32)
    (ho : k0_pay9 v444 (vgL m c 0 6) = fun i => accOf (X m) c (ixg c (i 0) ⟨128 * (0 : Fin 4).val + (i 1).val, col_lt 0 (i 1)⟩))
    (hb : k0_pay10 v444 (vgL m c 0 6) = fun i => narrow (accOf (X m) c (ixg c (i 0) ⟨128 * (0 : Fin 4).val + (i 1).val, col_lt 0 (i 1)⟩)))
    (Q : BitVec 32 → sProp 𝕄) :
    iprop(St m K (stageOf ⟨7, true, 4, 28, 6, 0, 0, 0, 0, 0, 0, 0⟩) c ∗ (∀ w₁, St m K (stageOf ⟨7, true, 4, 28, 7, 1, 1, 1, 0, 0, 0, 0⟩) c -∗ Q w₁)) ⊢ wpB c (onBufs k0_part16 c v2 v444 v445 c1_i32_388) Q := by
  rw [onBufs, k0_part16_eq_skeleton]; unfold k0_part16_skel wpB
  simp only [semSignalWord, semWaitWord, Prog.lift, Prog.bind_op, Prog.bind_ret, Prog.pure_eq_ret]
  iintro ⟨HSt, Hk⟩
  iapply (cstep_recv1 m K c 0 6 (k0_off14_eq c 6)) $$ HSt; iintro HSt
  iapply (cstep_gLoad m K c 6 0 (k0_off16_eq c 6)) $$ HSt; iintro HSt
  iapply (cstep_outLoad m K c) $$ HSt; iintro %vo HSt
  iapply (cstep_outOwn m K c 0 (k0_off13_eq c) (by rw [ho]; exact out_own_ok m c 0)) $$ HSt; iintro HSt
  iapply (cstep_aLoadRaw m K c 0) $$ HSt; iintro %va HSt
  iapply (cstep_aStore m K c 0 (by rw [hb]; exact ab_store_ok m c 0)) $$ HSt; iintro HSt
  iapply (cstep_send2 m K c 0 0 (k0_off2_eq c) (k0_off1_eq c) (dev_eq_36 c)) $$ HSt; iintro HSt
  iapply (le_wp_ret _ _)
  iapply Hk; iexact HSt

theorem part_17 (v2 : BitVec 32) (v476 : BitVec 32) (Q : BitVec 32 → sProp 𝕄) :
    iprop(St m K (stageOf ⟨7, true, 4, 28, 7, 1, 1, 1, 0, 0, 0, 0⟩) c ∗ (∀ w₁, St m K (stageOf ⟨7, true, 4, 28, 7, 1, 1, 4, 0, 0, 0, 0⟩) c -∗ Q w₁)) ⊢ wpB c (onBufs k0_part17 c v2 v476) Q := by
  rw [onBufs, k0_part17_eq_skeleton]; unfold k0_part17_skel wpB
  simp only [semSignalWord, semWaitWord, Prog.lift, Prog.bind_op, Prog.bind_ret, Prog.pure_eq_ret]
  iintro ⟨HSt, Hk⟩
  iapply (cstep_send2 m K c 0 1 (k0_off2_eq c) (k0_off1_eq c) (dev_eq_37 c)) $$ HSt; iintro HSt
  iapply (cstep_send2 m K c 0 2 (k0_off2_eq c) (k0_off1_eq c) (dev_eq_38 c)) $$ HSt; iintro HSt
  iapply (cstep_send2 m K c 0 3 (k0_off2_eq c) (k0_off1_eq c) (dev_eq_39 c)) $$ HSt; iintro HSt
  iapply (le_wp_ret _ _)
  iapply Hk; iexact HSt

theorem part_18 (v2 : BitVec 32) (v506 : BitVec 32) (Q : PUnit → sProp 𝕄) :
    iprop(St m K (stageOf ⟨7, true, 4, 28, 7, 1, 1, 4, 0, 0, 0, 0⟩) c ∗ (St m K (stageOf ⟨7, true, 4, 28, 7, 1, 1, 6, 0, 0, 0, 0⟩) c -∗ Q ⟨⟩)) ⊢ wpB c (onBufs k0_part18 c v2 v506) Q := by
  rw [onBufs, k0_part18_eq_skeleton]; unfold k0_part18_skel wpB
  simp only [semSignalWord, semWaitWord, Prog.lift, Prog.bind_op, Prog.bind_ret, Prog.pure_eq_ret]
  iintro ⟨HSt, Hk⟩
  iapply (cstep_send2 m K c 0 4 (k0_off2_eq c) (k0_off1_eq c) (dev_eq_40 c)) $$ HSt; iintro HSt
  iapply (cstep_send2 m K c 0 5 (k0_off2_eq c) (k0_off1_eq c) (dev_eq_41 c)) $$ HSt; iintro HSt
  iapply (le_wp_ret _ _)
  iapply Hk; iexact HSt

theorem part_19 (v2 : BitVec 32) (Q : (Σ' (v553 : FVec F S64x128 .f32), FVec F S64x128 .f32) → sProp 𝕄) :
    iprop(St m K (stageOf ⟨7, true, 4, 28, 7, 1, 1, 6, 0, 0, 0, 0⟩) c ∗ (St m K (stageOf ⟨7, true, 4, 28, 9, 1, 1, 7, 0, 0, 0, 0⟩) c -∗ Q ⟨k0_pay11 (vxL m c 1) (vgL m c 1 1), k0_pay12 (vgL m c 1 3)⟩)) ⊢ wpB c (onBufs k0_part19 c v2) Q := by
  rw [onBufs, k0_part19_eq_skeleton]; unfold k0_part19_skel wpB
  simp only [semSignalWord, semWaitWord, Prog.lift, Prog.bind_op, Prog.bind_ret, Prog.pure_eq_ret]
  iintro ⟨HSt, Hk⟩
  iapply (cstep_send2 m K c 0 6 (k0_off2_eq c) (k0_off1_eq c) (dev_eq_42 c)) $$ HSt; iintro HSt
  iapply (cstep_xLoadOwn m K c 1 (k0_off17_eq c)) $$ HSt; iintro HSt
  iapply (cstep_recv1 m K c 1 0 (k0_off18_eq c 1)) $$ HSt; iintro HSt
  iapply (cstep_gLoad m K c 1 1 (k0_off20_eq c 1)) $$ HSt; iintro HSt
  iapply (cstep_recv1 m K c 1 1 (k0_off18_eq c 3)) $$ HSt; iintro HSt
  iapply (cstep_gLoad m K c 3 1 (k0_off20_eq c 3)) $$ HSt; iintro HSt
  iapply (le_wp_ret _ _)
  iapply Hk; iexact HSt

theorem part_20 (v2 : BitVec 32) (v553 : FVec F S64x128 .f32) (v566 : FVec F S64x128 .f32) (Q : (Σ' (v595 : FVec F S64x128 .f32), BitVec 32) → sProp 𝕄) :
    iprop(St m K (stageOf ⟨7, true, 4, 28, 9, 1, 1, 7, 0, 0, 0, 0⟩) c ∗ (∀ w₁, St m K (stageOf ⟨7, true, 4, 28, 11, 1, 1, 7, 0, 0, 0, 0⟩) c -∗ Q ⟨k0_pay13 v553 v566 (vgL m c 1 4) (vgL m c 1 2), w₁⟩)) ⊢ wpB c (onBufs k0_part20 c v2 v553 v566) Q := by
  rw [onBufs, k0_part20_eq_skeleton]; unfold k0_part20_skel wpB
  simp only [semSignalWord, semWaitWord, Prog.lift, Prog.bind_op, Prog.bind_ret, Prog.pure_eq_ret]
  iintro ⟨HSt, Hk⟩
  iapply (cstep_recv1 m K c 1 2 (k0_off18_eq c 4)) $$ HSt; iintro HSt
  iapply (cstep_gLoad m K c 4 1 (k0_off20_eq c 4)) $$ HSt; iintro HSt
  iapply (cstep_recv1 m K c 1 3 (k0_off18_eq c 2)) $$ HSt; iintro HSt
  iapply (cstep_gLoad m K c 2 1 (k0_off20_eq c 2)) $$ HSt; iintro HSt
  iapply (le_wp_ret _ _)
  iapply Hk; iexact HSt

theorem part_21 (v2 : BitVec 32) (v595 : FVec F S64x128 .f32) (v596 : BitVec 32) (Q : (Σ' (v623 : FVec F S64x128 .f32), BitVec 32) → sProp 𝕄) :
    iprop(St m K (stageOf ⟨7, true, 4, 28, 11, 1, 1, 7, 0, 0, 0, 0⟩) c ∗ (∀ w₁, St m K (stageOf ⟨7, true, 4, 28, 13, 1, 1, 7, 0, 0, 0, 0⟩) c -∗ Q ⟨k0_pay14 v595 (vgL m c 1 5) (vgL m c 1 7), w₁⟩)) ⊢ wpB c (onBufs k0_part21 c v2 v595 v596) Q := by
  rw [onBufs, k0_part21_eq_skeleton]; unfold k0_part21_skel wpB
  simp only [semSignalWord, semWaitWord, Prog.lift, Prog.bind_op, Prog.bind_ret, Prog.pure_eq_ret]
  iintro ⟨HSt, Hk⟩
  iapply (cstep_recv1 m K c 1 4 (k0_off18_eq c 5)) $$ HSt; iintro HSt
  iapply (cstep_gLoad m K c 5 1 (k0_off20_eq c 5)) $$ HSt; iintro HSt
  iapply (cstep_recv1 m K c 1 5 (k0_off18_eq c 7)) $$ HSt; iintro HSt
  iapply (cstep_gLoad m K c 7 1 (k0_off20_eq c 7)) $$ HSt; iintro HSt
  iapply (le_wp_ret _ _)
  iapply Hk; iexact HSt

theorem part_22 (v2 : BitVec 32) (v623 : FVec F S64x128 .f32) (v624 : BitVec 32)
    (ho : k0_pay15 v623 (vgL m c 1 6) = fun i => accOf (X m) c (ixg c (i 0) ⟨128 * (1 : Fin 4).val + (i 1).val, col_lt 1 (i 1)⟩))
    (hb : k0_pay16 v623 (vgL m c 1 6) = fun i => narrow (accOf (X m) c (ixg c (i 0) ⟨128 * (1 : Fin 4).val + (i 1).val, col_lt 1 (i 1)⟩)))
    (Q : PUnit → sProp 𝕄) :
    iprop(St m K (stageOf ⟨7, true, 4, 28, 13, 1, 1, 7, 0, 0, 0, 0⟩) c ∗ (St m K (stageOf ⟨7, true, 4, 28, 14, 2, 2, 8, 0, 0, 0, 0⟩) c -∗ Q ⟨⟩)) ⊢ wpB c (onBufs k0_part22 c v2 v623 v624) Q := by
  rw [onBufs, k0_part22_eq_skeleton]; unfold k0_part22_skel wpB
  simp only [semSignalWord, semWaitWord, Prog.lift, Prog.bind_op, Prog.bind_ret, Prog.pure_eq_ret]
  iintro ⟨HSt, Hk⟩
  iapply (cstep_recv1 m K c 1 6 (k0_off18_eq c 6)) $$ HSt; iintro HSt
  iapply (cstep_gLoad m K c 6 1 (k0_off20_eq c 6)) $$ HSt; iintro HSt
  iapply (cstep_outLoad m K c) $$ HSt; iintro %vo HSt
  iapply (cstep_outOwn m K c 1 (k0_off17_eq c) (by rw [ho]; exact out_own_ok m c 1)) $$ HSt; iintro HSt
  iapply (cstep_aLoadRaw m K c 1) $$ HSt; iintro %va HSt
  iapply (cstep_aStore m K c 1 (by rw [hb]; exact ab_store_ok m c 1)) $$ HSt; iintro HSt
  iapply (cstep_send2 m K c 1 0 (k0_off5_eq c) (k0_off4_eq c) (dev_eq_43 c)) $$ HSt; iintro HSt
  iapply (le_wp_ret _ _)
  iapply Hk; iexact HSt

theorem part_23 (v2 : BitVec 32) (Q : BitVec 32 → sProp 𝕄) :
    iprop(St m K (stageOf ⟨7, true, 4, 28, 14, 2, 2, 8, 0, 0, 0, 0⟩) c ∗ (∀ w₁, St m K (stageOf ⟨7, true, 4, 28, 14, 2, 2, 11, 0, 0, 0, 0⟩) c -∗ Q w₁)) ⊢ wpB c (onBufs k0_part23 c v2) Q := by
  rw [onBufs, k0_part23_eq_skeleton]; unfold k0_part23_skel wpB
  simp only [semSignalWord, semWaitWord, Prog.lift, Prog.bind_op, Prog.bind_ret, Prog.pure_eq_ret]
  iintro ⟨HSt, Hk⟩
  iapply (cstep_send2 m K c 1 1 (k0_off5_eq c) (k0_off4_eq c) (dev_eq_44 c)) $$ HSt; iintro HSt
  iapply (cstep_send2 m K c 1 2 (k0_off5_eq c) (k0_off4_eq c) (dev_eq_45 c)) $$ HSt; iintro HSt
  iapply (cstep_send2 m K c 1 3 (k0_off5_eq c) (k0_off4_eq c) (dev_eq_46 c)) $$ HSt; iintro HSt
  iapply (le_wp_ret _ _)
  iapply Hk; iexact HSt

theorem part_24 (v2 : BitVec 32) (v686 : BitVec 32) (Q : PUnit → sProp 𝕄) :
    iprop(St m K (stageOf ⟨7, true, 4, 28, 14, 2, 2, 11, 0, 0, 0, 0⟩) c ∗ (St m K (stageOf ⟨7, true, 4, 28, 14, 2, 2, 14, 0, 0, 0, 0⟩) c -∗ Q ⟨⟩)) ⊢ wpB c (onBufs k0_part24 c v2 v686) Q := by
  rw [onBufs, k0_part24_eq_skeleton]; unfold k0_part24_skel wpB
  simp only [semSignalWord, semWaitWord, Prog.lift, Prog.bind_op, Prog.bind_ret, Prog.pure_eq_ret]
  iintro ⟨HSt, Hk⟩
  iapply (cstep_send2 m K c 1 4 (k0_off5_eq c) (k0_off4_eq c) (dev_eq_47 c)) $$ HSt; iintro HSt
  iapply (cstep_send2 m K c 1 5 (k0_off5_eq c) (k0_off4_eq c) (dev_eq_48 c)) $$ HSt; iintro HSt
  iapply (cstep_send2 m K c 1 6 (k0_off5_eq c) (k0_off4_eq c) (dev_eq_49 c)) $$ HSt; iintro HSt
  iapply (le_wp_ret _ _)
  iapply Hk; iexact HSt

end Cert.Kernel.AR

end
-- ==== Proof.KernelAR.Parts_25_36.lean ====
import proofs.«900697_g7700000000000698_dist_ar_v7x_i8_i_m512_n512_f32_1_alg».proof.Proof.KernelAR.CSteps
import proofs.«900697_g7700000000000698_dist_ar_v7x_i8_i_m512_n512_f32_1_alg».proof.Proof.KernelAR.PartsPre
import proofs.«900697_g7700000000000698_dist_ar_v7x_i8_i_m512_n512_f32_1_alg».proof.Proof.KernelAR.Chains
import proofs.«900697_g7700000000000698_dist_ar_v7x_i8_i_m512_n512_f32_1_alg».proof.Proof.Gen.Kernel.Skeleton

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 25 to 36, slabs 2 and 3 of the same reduction. -/
theorem part_25 (v2 : BitVec 32) (Q : (Σ' (v746 : FVec F S64x128 .f32), BitVec 32) → sProp 𝕄) :
    iprop(St m K (stageOf ⟨7, true, 4, 28, 14, 2, 2, 14, 0, 0, 0, 0⟩) c ∗ (∀ w₁, St m K (stageOf ⟨7, true, 4, 28, 16, 2, 2, 14, 0, 0, 0, 0⟩) c -∗ Q ⟨k0_pay17 (vxL m c 2) (vgL m c 2 1) (vgL m c 2 3), w₁⟩))
      ⊢ wpB c (onBufs k0_part25 c v2) Q := by
  rw [onBufs, k0_part25_eq_skeleton]; unfold k0_part25_skel wpB
  simp only [semSignalWord, semWaitWord, Prog.lift, Prog.bind_op, Prog.bind_ret, Prog.pure_eq_ret]
  iintro ⟨HSt, Hk⟩
  iapply (cstep_xLoadOwn m K c 2 (k0_off21_eq c)) $$ HSt; iintro HSt
  iapply (cstep_recv1 m K c 2 0 (k0_off22_eq c 1)) $$ HSt; iintro HSt
  iapply (cstep_gLoad m K c 1 2 (k0_off24_eq c 1)) $$ HSt; iintro HSt
  iapply (cstep_recv1 m K c 2 1 (k0_off22_eq c 3)) $$ HSt; iintro HSt
  iapply (cstep_gLoad m K c 3 2 (k0_off24_eq c 3)) $$ HSt; iintro HSt
  iapply (le_wp_ret _ _)
  iapply Hk; iexact HSt

theorem part_26 (v2 : BitVec 32) (v746 : FVec F S64x128 .f32) (v747 : BitVec 32) (Q : (Σ' (v774 : FVec F S64x128 .f32), BitVec 32) → sProp 𝕄) :
    iprop(St m K (stageOf ⟨7, true, 4, 28, 16, 2, 2, 14, 0, 0, 0, 0⟩) c ∗ (∀ w₁, St m K (stageOf ⟨7, true, 4, 28, 18, 2, 2, 14, 0, 0, 0, 0⟩) c -∗ Q ⟨k0_pay18 v746 (vgL m c 2 4) (vgL m c 2 2), w₁⟩))
      ⊢ wpB c (onBufs k0_part26 c v2 v746 v747) Q := by
  rw [onBufs, k0_part26_eq_skeleton]; unfold k0_part26_skel wpB
  simp only [semSignalWord, semWaitWord, Prog.lift, Prog.bind_op, Prog.bind_ret, Prog.pure_eq_ret]
  iintro ⟨HSt, Hk⟩
  iapply (cstep_recv1 m K c 2 2 (k0_off22_eq c 4)) $$ HSt; iintro HSt
  iapply (cstep_gLoad m K c 4 2 (k0_off24_eq c 4)) $$ HSt; iintro HSt
  iapply (cstep_recv1 m K c 2 3 (k0_off22_eq c 2)) $$ HSt; iintro HSt
  iapply (cstep_gLoad m K c 2 2 (k0_off24_eq c 2)) $$ HSt; iintro HSt
  iapply (le_wp_ret _ _)
  iapply Hk; iexact HSt

theorem part_27 (v2 : BitVec 32) (v774 : FVec F S64x128 .f32) (v775 : BitVec 32) (Q : (Σ' (v802 : FVec F S64x128 .f32), BitVec 32) → sProp 𝕄) :
    iprop(St m K (stageOf ⟨7, true, 4, 28, 18, 2, 2, 14, 0, 0, 0, 0⟩) c ∗ (∀ w₁, St m K (stageOf ⟨7, true, 4, 28, 20, 2, 2, 14, 0, 0, 0, 0⟩) c -∗ Q ⟨k0_pay19 v774 (vgL m c 2 5) (vgL m c 2 7), w₁⟩))
      ⊢ wpB c (onBufs k0_part27 c v2 v774 v775) Q := by
  rw [onBufs, k0_part27_eq_skeleton]; unfold k0_part27_skel wpB
  simp only [semSignalWord, semWaitWord, Prog.lift, Prog.bind_op, Prog.bind_ret, Prog.pure_eq_ret]
  iintro ⟨HSt, Hk⟩
  iapply (cstep_recv1 m K c 2 4 (k0_off22_eq c 5)) $$ HSt; iintro HSt
  iapply (cstep_gLoad m K c 5 2 (k0_off24_eq c 5)) $$ HSt; iintro HSt
  iapply (cstep_recv1 m K c 2 5 (k0_off22_eq c 7)) $$ HSt; iintro HSt
  iapply (cstep_gLoad m K c 7 2 (k0_off24_eq c 7)) $$ HSt; iintro HSt
  iapply (le_wp_ret _ _)
  iapply Hk; iexact HSt

theorem part_28 (v2 : BitVec 32) (v802 : FVec F S64x128 .f32) (v803 : BitVec 32)
    (ho : k0_pay20 v802 (vgL m c 2 6) = fun i => accOf (X m) c (ixg c (i 0) ⟨128 * (2 : Fin 4).val + (i 1).val, col_lt 2 (i 1)⟩))
    (hb : k0_pay21 v802 (vgL m c 2 6) = fun i => narrow (accOf (X m) c (ixg c (i 0) ⟨128 * (2 : Fin 4).val + (i 1).val, col_lt 2 (i 1)⟩)))
    (Q : PUnit → sProp 𝕄) :
    iprop(St m K (stageOf ⟨7, true, 4, 28, 20, 2, 2, 14, 0, 0, 0, 0⟩) c ∗ (St m K (stageOf ⟨7, true, 4, 28, 21, 3, 3, 15, 0, 0, 0, 0⟩) c -∗ Q ⟨⟩))
      ⊢ wpB c (onBufs k0_part28 c v2 v802 v803) Q := by
  have hwo : ∀ f, ∀ i ∈ (outM.access (rOwn c 2)).set,
      ((outM.access (rOwn c 2)).write (Elt F) f (k0_pay20 v802 (vgL m c 2 6)) Finset.univ) i = outAt (X m) c i := by
    rw [ho]; exact out_own_ok m c 2
  have hwa : ∀ f, ∀ i ∈ (aM.access (rA 2)).set,
      ((aM.access (rA 2)).write (Elt F) f (k0_pay21 v802 (vgL m c 2 6)) Finset.univ) i = AB m c i := by
    rw [hb]; exact ab_store_ok m c 2
  rw [onBufs, k0_part28_eq_skeleton]; unfold k0_part28_skel wpB
  simp only [semSignalWord, semWaitWord, Prog.lift, Prog.bind_op, Prog.bind_ret, Prog.pure_eq_ret]
  iintro ⟨HSt, Hk⟩
  iapply (cstep_recv1 m K c 2 6 (k0_off22_eq c 6)) $$ HSt; iintro HSt
  iapply (cstep_gLoad m K c 6 2 (k0_off24_eq c 6)) $$ HSt; iintro HSt
  iapply (cstep_outLoad m K c) $$ HSt; iintro %vo HSt
  iapply (cstep_outOwn m K c 2 (k0_off21_eq c) hwo) $$ HSt; iintro HSt
  iapply (cstep_aLoadRaw m K c 2) $$ HSt; iintro %va HSt
  iapply (cstep_aStore m K c 2 hwa) $$ HSt; iintro HSt
  iapply (cstep_send2 m K c 2 0 (k0_off8_eq c) (k0_off7_eq c) (dev_eq_50 c)) $$ HSt; iintro HSt
  iapply (le_wp_ret _ _)
  iapply Hk; iexact HSt

theorem part_29 (v2 : BitVec 32) (Q : PUnit → sProp 𝕄) :
    iprop(St m K (stageOf ⟨7, true, 4, 28, 21, 3, 3, 15, 0, 0, 0, 0⟩) c ∗ (St m K (stageOf ⟨7, true, 4, 28, 21, 3, 3, 18, 0, 0, 0, 0⟩) c -∗ Q ⟨⟩))
      ⊢ wpB c (onBufs k0_part29 c v2) Q := by
  rw [onBufs, k0_part29_eq_skeleton]; unfold k0_part29_skel wpB
  simp only [semSignalWord, semWaitWord, Prog.lift, Prog.bind_op, Prog.bind_ret, Prog.pure_eq_ret]
  iintro ⟨HSt, Hk⟩
  iapply (cstep_send2 m K c 2 1 (k0_off8_eq c) (k0_off7_eq c) (dev_eq_51 c)) $$ HSt; iintro HSt
  iapply (cstep_send2 m K c 2 2 (k0_off8_eq c) (k0_off7_eq c) (dev_eq_52 c)) $$ HSt; iintro HSt
  iapply (cstep_send2 m K c 2 3 (k0_off8_eq c) (k0_off7_eq c) (dev_eq_53 c)) $$ HSt; iintro HSt
  iapply (le_wp_ret _ _)
  iapply Hk; iexact HSt

theorem part_30 (v2 : BitVec 32) (Q : (Σ' (v897 : FVec F S64x128 .f32), BitVec 32) → sProp 𝕄) :
    iprop(St m K (stageOf ⟨7, true, 4, 28, 21, 3, 3, 18, 0, 0, 0, 0⟩) c ∗ (∀ w₁, St m K (stageOf ⟨7, true, 4, 28, 21, 3, 3, 21, 0, 0, 0, 0⟩) c -∗ Q ⟨k0_pay22 (vxL m c 3), w₁⟩))
      ⊢ wpB c (onBufs k0_part30 c v2) Q := by
  rw [onBufs, k0_part30_eq_skeleton]; unfold k0_part30_skel wpB
  simp only [semSignalWord, semWaitWord, Prog.lift, Prog.bind_op, Prog.bind_ret, Prog.pure_eq_ret]
  iintro ⟨HSt, Hk⟩
  iapply (cstep_send2 m K c 2 4 (k0_off8_eq c) (k0_off7_eq c) (dev_eq_54 c)) $$ HSt; iintro HSt
  iapply (cstep_send2 m K c 2 5 (k0_off8_eq c) (k0_off7_eq c) (dev_eq_55 c)) $$ HSt; iintro HSt
  iapply (cstep_send2 m K c 2 6 (k0_off8_eq c) (k0_off7_eq c) (dev_eq_56 c)) $$ HSt; iintro HSt
  iapply (cstep_xLoadOwn m K c 3 (k0_off25_eq c)) $$ HSt; iintro HSt
  iapply (le_wp_ret _ _)
  iapply Hk; iexact HSt

theorem part_31 (v2 : BitVec 32) (v897 : FVec F S64x128 .f32) (v898 : BitVec 32) (Q : (Σ' (v925 : FVec F S64x128 .f32), BitVec 32) → sProp 𝕄) :
    iprop(St m K (stageOf ⟨7, true, 4, 28, 21, 3, 3, 21, 0, 0, 0, 0⟩) c ∗ (∀ w₁, St m K (stageOf ⟨7, true, 4, 28, 23, 3, 3, 21, 0, 0, 0, 0⟩) c -∗ Q ⟨k0_pay23 v897 (vgL m c 3 1) (vgL m c 3 3), w₁⟩))
      ⊢ wpB c (onBufs k0_part31 c v2 v897 v898) Q := by
  rw [onBufs, k0_part31_eq_skeleton]; unfold k0_part31_skel wpB
  simp only [semSignalWord, semWaitWord, Prog.lift, Prog.bind_op, Prog.bind_ret, Prog.pure_eq_ret]
  iintro ⟨HSt, Hk⟩
  iapply (cstep_recv1 m K c 3 0 (k0_off26_eq c 1)) $$ HSt; iintro HSt
  iapply (cstep_gLoad m K c 1 3 (k0_off28_eq c 1)) $$ HSt; iintro HSt
  iapply (cstep_recv1 m K c 3 1 (k0_off26_eq c 3)) $$ HSt; iintro HSt
  iapply (cstep_gLoad m K c 3 3 (k0_off28_eq c 3)) $$ HSt; iintro HSt
  iapply (le_wp_ret _ _)
  iapply Hk; iexact HSt

theorem part_32 (v2 : BitVec 32) (v925 : FVec F S64x128 .f32) (v926 : BitVec 32) (Q : (Σ' (v953 : FVec F S64x128 .f32), BitVec 32) → sProp 𝕄) :
    iprop(St m K (stageOf ⟨7, true, 4, 28, 23, 3, 3, 21, 0, 0, 0, 0⟩) c ∗ (∀ w₁, St m K (stageOf ⟨7, true, 4, 28, 25, 3, 3, 21, 0, 0, 0, 0⟩) c -∗ Q ⟨k0_pay24 v925 (vgL m c 3 4) (vgL m c 3 2), w₁⟩))
      ⊢ wpB c (onBufs k0_part32 c v2 v925 v926) Q := by
  rw [onBufs, k0_part32_eq_skeleton]; unfold k0_part32_skel wpB
  simp only [semSignalWord, semWaitWord, Prog.lift, Prog.bind_op, Prog.bind_ret, Prog.pure_eq_ret]
  iintro ⟨HSt, Hk⟩
  iapply (cstep_recv1 m K c 3 2 (k0_off26_eq c 4)) $$ HSt; iintro HSt
  iapply (cstep_gLoad m K c 4 3 (k0_off28_eq c 4)) $$ HSt; iintro HSt
  iapply (cstep_recv1 m K c 3 3 (k0_off26_eq c 2)) $$ HSt; iintro HSt
  iapply (cstep_gLoad m K c 2 3 (k0_off28_eq c 2)) $$ HSt; iintro HSt
  iapply (le_wp_ret _ _)
  iapply Hk; iexact HSt

theorem part_33 (v2 : BitVec 32) (v953 : FVec F S64x128 .f32) (v954 : BitVec 32) (Q : FVec F S64x128 .f32 → sProp 𝕄) :
    iprop(St m K (stageOf ⟨7, true, 4, 28, 25, 3, 3, 21, 0, 0, 0, 0⟩) c ∗ (St m K (stageOf ⟨7, true, 4, 28, 28, 3, 3, 21, 0, 0, 0, 0⟩) c -∗ Q (k0_pay25 v953 (vgL m c 3 5) (vgL m c 3 7))))
      ⊢ wpB c (onBufs k0_part33 c v2 v953 v954) Q := by
  rw [onBufs, k0_part33_eq_skeleton]; unfold k0_part33_skel wpB
  simp only [semSignalWord, semWaitWord, Prog.lift, Prog.bind_op, Prog.bind_ret, Prog.pure_eq_ret]
  iintro ⟨HSt, Hk⟩
  iapply (cstep_recv1 m K c 3 4 (k0_off26_eq c 5)) $$ HSt; iintro HSt
  iapply (cstep_gLoad m K c 5 3 (k0_off28_eq c 5)) $$ HSt; iintro HSt
  iapply (cstep_recv1 m K c 3 5 (k0_off26_eq c 7)) $$ HSt; iintro HSt
  iapply (cstep_gLoad m K c 7 3 (k0_off28_eq c 7)) $$ HSt; iintro HSt
  iapply (cstep_recv1 m K c 3 6 (k0_off26_eq c 6)) $$ HSt; iintro HSt
  iapply (le_wp_ret _ _)
  iapply Hk; iexact HSt

theorem part_34 (v2 : BitVec 32) (v981 : FVec F S64x128 .f32)
    (ho : k0_pay26 v981 (vgL m c 3 6) = fun i => accOf (X m) c (ixg c (i 0) ⟨128 * (3 : Fin 4).val + (i 1).val, col_lt 3 (i 1)⟩))
    (hb : k0_pay27 v981 (vgL m c 3 6) = fun i => narrow (accOf (X m) c (ixg c (i 0) ⟨128 * (3 : Fin 4).val + (i 1).val, col_lt 3 (i 1)⟩)))
    (Q : PUnit → sProp 𝕄) :
    iprop(St m K (stageOf ⟨7, true, 4, 28, 28, 3, 3, 21, 0, 0, 0, 0⟩) c ∗ (St m K (stageOf ⟨7, true, 4, 28, 28, 4, 4, 22, 0, 0, 0, 0⟩) c -∗ Q ⟨⟩))
      ⊢ wpB c (onBufs k0_part34 c v2 v981) Q := by
  have hwo : ∀ f, ∀ i ∈ (outM.access (rOwn c 3)).set,
      ((outM.access (rOwn c 3)).write (Elt F) f (k0_pay26 v981 (vgL m c 3 6)) Finset.univ) i = outAt (X m) c i := by
    rw [ho]; exact out_own_ok m c 3
  have hwa : ∀ f, ∀ i ∈ (aM.access (rA 3)).set,
      ((aM.access (rA 3)).write (Elt F) f (k0_pay27 v981 (vgL m c 3 6)) Finset.univ) i = AB m c i := by
    rw [hb]; exact ab_store_ok m c 3
  rw [onBufs, k0_part34_eq_skeleton]; unfold k0_part34_skel wpB
  simp only [semSignalWord, semWaitWord, Prog.lift, Prog.bind_op, Prog.bind_ret, Prog.pure_eq_ret]
  iintro ⟨HSt, Hk⟩
  iapply (cstep_gLoad m K c 6 3 (k0_off28_eq c 6)) $$ HSt; iintro HSt
  iapply (cstep_outLoad m K c) $$ HSt; iintro %vo HSt
  iapply (cstep_outOwn m K c 3 (k0_off25_eq c) hwo) $$ HSt; iintro HSt
  iapply (cstep_aLoadRaw m K c 3) $$ HSt; iintro %va HSt
  iapply (cstep_aStore m K c 3 hwa) $$ HSt; iintro HSt
  iapply (cstep_send2 m K c 3 0 (k0_off11_eq c) (k0_off10_eq c) (dev_eq_57 c)) $$ HSt; iintro HSt
  iapply (le_wp_ret _ _)
  iapply Hk; iexact HSt

theorem part_35 (v2 : BitVec 32) (Q : PUnit → sProp 𝕄) :
    iprop(St m K (stageOf ⟨7, true, 4, 28, 28, 4, 4, 22, 0, 0, 0, 0⟩) c ∗ (St m K (stageOf ⟨7, true, 4, 28, 28, 4, 4, 25, 0, 0, 0, 0⟩) c -∗ Q ⟨⟩))
      ⊢ wpB c (onBufs k0_part35 c v2) Q := by
  rw [onBufs, k0_part35_eq_skeleton]; unfold k0_part35_skel wpB
  simp only [semSignalWord, semWaitWord, Prog.lift, Prog.bind_op, Prog.bind_ret, Prog.pure_eq_ret]
  iintro ⟨HSt, Hk⟩
  iapply (cstep_send2 m K c 3 1 (k0_off11_eq c) (k0_off10_eq c) (dev_eq_58 c)) $$ HSt; iintro HSt
  iapply (cstep_send2 m K c 3 2 (k0_off11_eq c) (k0_off10_eq c) (dev_eq_59 c)) $$ HSt; iintro HSt
  iapply (cstep_send2 m K c 3 3 (k0_off11_eq c) (k0_off10_eq c) (dev_eq_60 c)) $$ HSt; iintro HSt
  iapply (le_wp_ret _ _)
  iapply Hk; iexact HSt

theorem part_36 (v2 : BitVec 32) (Q : BitVec 32 → sProp 𝕄) :
    iprop(St m K (stageOf ⟨7, true, 4, 28, 28, 4, 4, 25, 0, 0, 0, 0⟩) c ∗ (∀ w₁, St m K (stageOf ⟨7, true, 4, 28, 28, 4, 4, 28, 0, 0, 0, 0⟩) c -∗ Q w₁))
      ⊢ wpB c (onBufs k0_part36 c v2) Q := by
  rw [onBufs, k0_part36_eq_skeleton]; unfold k0_part36_skel wpB
  simp only [semSignalWord, semWaitWord, Prog.lift, Prog.bind_op, Prog.bind_ret, Prog.pure_eq_ret]
  iintro ⟨HSt, Hk⟩
  iapply (cstep_send2 m K c 3 4 (k0_off11_eq c) (k0_off10_eq c) (dev_eq_61 c)) $$ HSt; iintro HSt
  iapply (cstep_send2 m K c 3 5 (k0_off11_eq c) (k0_off10_eq c) (dev_eq_62 c)) $$ HSt; iintro HSt
  iapply (cstep_send2 m K c 3 6 (k0_off11_eq c) (k0_off10_eq c) (dev_eq_63 c)) $$ HSt; iintro HSt
  iapply (le_wp_ret _ _)
  iapply Hk; iexact HSt

end Cert.Kernel.AR

end
-- ==== Proof.KernelAR.Parts_37_44.lean ====
import proofs.«900697_g7700000000000698_dist_ar_v7x_i8_i_m512_n512_f32_1_alg».proof.Proof.KernelAR.CSteps
import proofs.«900697_g7700000000000698_dist_ar_v7x_i8_i_m512_n512_f32_1_alg».proof.Proof.KernelAR.PartsPre
import proofs.«900697_g7700000000000698_dist_ar_v7x_i8_i_m512_n512_f32_1_alg».proof.Proof.KernelAR.Chains
import proofs.«900697_g7700000000000698_dist_ar_v7x_i8_i_m512_n512_f32_1_alg».proof.Proof.Gen.Kernel.Skeleton

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 37 to 44: each received sum is the sender's row group of the result, slabs 0 and 1. -/
theorem part_37 (v2 : BitVec 32) (v1073 : BitVec 32) (Q : BitVec 32 → sProp 𝕄) :
    iprop(St m K (stageOf ⟨7, true, 4, 28, 28, 4, 4, 28, 0, 0, 0, 0⟩) c ∗ (∀ w₁, St m K (stageOf ⟨7, true, 4, 28, 28, 4, 4, 28, 2, 2, 0, 0⟩) c -∗ Q w₁))
      ⊢ wpB c (onBufs k0_part37 c v2 v1073) Q := by
  rw [onBufs, k0_part37_eq_skeleton]
  unfold k0_part37_skel wpB
  simp only [Prog.lift, Prog.bind_op, Prog.bind_ret, Prog.pure_eq_ret]
  iintro ⟨HSt, Hk⟩
  iapply (cstep_recv2 m K c 0 0 (k0_off14_eq c 1)) $$ HSt
  iintro HSt
  iapply (cstep_oLoad m K c 1 0 (k0_off16_eq c 1)) $$ HSt
  iintro HSt
  iapply (cstep_outLoad m K c) $$ HSt
  iintro %old1 HSt
  iapply (cstep_outOther m K c 0 0 (k0_off29_eq c 1) (out_other_ok m c (px c 1) 0 (px_ne c 1 (by decide)))) $$ HSt
  iintro HSt
  iapply (cstep_recv2 m K c 0 1 (k0_off14_eq c 3)) $$ HSt
  iintro HSt
  iapply (cstep_oLoad m K c 3 0 (k0_off16_eq c 3)) $$ HSt
  iintro HSt
  iapply (cstep_outLoad m K c) $$ HSt
  iintro %old3 HSt
  iapply (cstep_outOther m K c 0 1 (k0_off29_eq c 3) (out_other_ok m c (px c 3) 0 (px_ne c 3 (by decide)))) $$ HSt
  iintro HSt
  iapply (le_wp_ret _ _)
  iapply Hk
  iexact HSt

theorem part_38 (v2 : BitVec 32) (v1105 : BitVec 32) (Q : (Σ' (v1137 : BitVec 32), BitVec 32) → sProp 𝕄) :
    iprop(St m K (stageOf ⟨7, true, 4, 28, 28, 4, 4, 28, 2, 2, 0, 0⟩) c ∗ (∀ w₁ w₂, St m K (stageOf ⟨7, true, 4, 28, 28, 4, 4, 28, 4, 4, 0, 0⟩) c -∗ Q ⟨w₁, w₂⟩))
      ⊢ wpB c (onBufs k0_part38 c v2 v1105) Q := by
  rw [onBufs, k0_part38_eq_skeleton]
  unfold k0_part38_skel wpB
  simp only [Prog.lift, Prog.bind_op, Prog.bind_ret, Prog.pure_eq_ret]
  iintro ⟨HSt, Hk⟩
  iapply (cstep_recv2 m K c 0 2 (k0_off14_eq c 4)) $$ HSt
  iintro HSt
  iapply (cstep_oLoad m K c 4 0 (k0_off16_eq c 4)) $$ HSt
  iintro HSt
  iapply (cstep_outLoad m K c) $$ HSt
  iintro %old4 HSt
  iapply (cstep_outOther m K c 0 2 (k0_off29_eq c 4) (out_other_ok m c (px c 4) 0 (px_ne c 4 (by decide)))) $$ HSt
  iintro HSt
  iapply (cstep_recv2 m K c 0 3 (k0_off14_eq c 2)) $$ HSt
  iintro HSt
  iapply (cstep_oLoad m K c 2 0 (k0_off16_eq c 2)) $$ HSt
  iintro HSt
  iapply (cstep_outLoad m K c) $$ HSt
  iintro %old2 HSt
  iapply (cstep_outOther m K c 0 3 (k0_off29_eq c 2) (out_other_ok m c (px c 2) 0 (px_ne c 2 (by decide)))) $$ HSt
  iintro HSt
  iapply (le_wp_ret _ _)
  iapply Hk
  iexact HSt

theorem part_39 (v2 : BitVec 32) (v1137 : BitVec 32) (c1_i32_1010 : BitVec 32) (Q : BitVec 32 → sProp 𝕄) :
    iprop(St m K (stageOf ⟨7, true, 4, 28, 28, 4, 4, 28, 4, 4, 0, 0⟩) c ∗ (∀ w₁, St m K (stageOf ⟨7, true, 4, 28, 28, 4, 4, 28, 6, 6, 0, 0⟩) c -∗ Q w₁))
      ⊢ wpB c (onBufs k0_part39 c v2 v1137 c1_i32_1010) Q := by
  rw [onBufs, k0_part39_eq_skeleton]
  unfold k0_part39_skel wpB
  simp only [Prog.lift, Prog.bind_op, Prog.bind_ret, Prog.pure_eq_ret]
  iintro ⟨HSt, Hk⟩
  iapply (cstep_recv2 m K c 0 4 (k0_off14_eq c 5)) $$ HSt
  iintro HSt
  iapply (cstep_oLoad m K c 5 0 (k0_off16_eq c 5)) $$ HSt
  iintro HSt
  iapply (cstep_outLoad m K c) $$ HSt
  iintro %old5 HSt
  iapply (cstep_outOther m K c 0 4 (k0_off29_eq c 5) (out_other_ok m c (px c 5) 0 (px_ne c 5 (by decide)))) $$ HSt
  iintro HSt
  iapply (cstep_recv2 m K c 0 5 (k0_off14_eq c 7)) $$ HSt
  iintro HSt
  iapply (cstep_oLoad m K c 7 0 (k0_off16_eq c 7)) $$ HSt
  iintro HSt
  iapply (cstep_outLoad m K c) $$ HSt
  iintro %old7 HSt
  iapply (cstep_outOther m K c 0 5 (k0_off29_eq c 7) (out_other_ok m c (px c 7) 0 (px_ne c 7 (by decide)))) $$ HSt
  iintro HSt
  iapply (le_wp_ret _ _)
  iapply Hk
  iexact HSt

theorem part_40 (v2 : BitVec 32) (v1169 : BitVec 32) (Q : FVec F S64x128 .f32 → sProp 𝕄) :
    iprop(St m K (stageOf ⟨7, true, 4, 28, 28, 4, 4, 28, 6, 6, 0, 0⟩) c ∗ (St m K (stageOf ⟨7, true, 4, 28, 28, 4, 4, 28, 8, 7, 0, 0⟩) c -∗ Q (k0_pay35 (voL m c 1 1))))
      ⊢ wpB c (onBufs k0_part40 c v2 v1169) Q := by
  rw [onBufs, k0_part40_eq_skeleton]
  unfold k0_part40_skel wpB
  simp only [Prog.lift, Prog.bind_op, Prog.bind_ret, Prog.pure_eq_ret]
  iintro ⟨HSt, Hk⟩
  iapply (cstep_recv2 m K c 0 6 (k0_off14_eq c 6)) $$ HSt
  iintro HSt
  iapply (cstep_oLoad m K c 6 0 (k0_off16_eq c 6)) $$ HSt
  iintro HSt
  iapply (cstep_outLoad m K c) $$ HSt
  iintro %old6 HSt
  iapply (cstep_outOther m K c 0 6 (k0_off29_eq c 6) (out_other_ok m c (px c 6) 0 (px_ne c 6 (by decide)))) $$ HSt
  iintro HSt
  iapply (cstep_recv2 m K c 1 0 (k0_off18_eq c 1)) $$ HSt
  iintro HSt
  iapply (cstep_oLoad m K c 1 1 (k0_off20_eq c 1)) $$ HSt
  iintro HSt
  iapply (le_wp_ret _ _)
  iapply Hk
  iexact HSt

theorem part_41 (v2 : BitVec 32) (v1197 : FVec F S64x128 .f32) (hv : v1197 = k0_pay35 (voL m c 1 1)) (Q : (Σ' (v1217 : BitVec 32), FVec F S64x128 .f32) → sProp 𝕄) :
    iprop(St m K (stageOf ⟨7, true, 4, 28, 28, 4, 4, 28, 8, 7, 0, 0⟩) c ∗ (∀ w₁, St m K (stageOf ⟨7, true, 4, 28, 28, 4, 4, 28, 10, 9, 0, 0⟩) c -∗ Q ⟨w₁, k0_pay37 (voL m c 1 4)⟩))
      ⊢ wpB c (onBufs k0_part41 c v2 v1197) Q := by
  subst hv
  rw [onBufs, k0_part41_eq_skeleton]
  unfold k0_part41_skel wpB
  simp only [Prog.lift, Prog.bind_op, Prog.bind_ret, Prog.pure_eq_ret]
  iintro ⟨HSt, Hk⟩
  iapply (cstep_outLoad m K c) $$ HSt
  iintro %old1 HSt
  iapply (cstep_outOther m K c 1 0 (k0_off30_eq c 1) (out_other_ok m c (px c 1) 1 (px_ne c 1 (by decide)))) $$ HSt
  iintro HSt
  iapply (cstep_recv2 m K c 1 1 (k0_off18_eq c 3)) $$ HSt
  iintro HSt
  iapply (cstep_oLoad m K c 3 1 (k0_off20_eq c 3)) $$ HSt
  iintro HSt
  iapply (cstep_outLoad m K c) $$ HSt
  iintro %old3 HSt
  iapply (cstep_outOther m K c 1 1 (k0_off30_eq c 3) (out_other_ok m c (px c 3) 1 (px_ne c 3 (by decide)))) $$ HSt
  iintro HSt
  iapply (cstep_recv2 m K c 1 2 (k0_off18_eq c 4)) $$ HSt
  iintro HSt
  iapply (cstep_oLoad m K c 4 1 (k0_off20_eq c 4)) $$ HSt
  iintro HSt
  iapply (le_wp_ret _ _)
  iapply Hk
  iexact HSt

theorem part_42 (v2 : BitVec 32) (v1217 : BitVec 32) (v1229 : FVec F S64x128 .f32) (hv : v1229 = k0_pay37 (voL m c 1 4)) (Q : BitVec 32 → sProp 𝕄) :
    iprop(St m K (stageOf ⟨7, true, 4, 28, 28, 4, 4, 28, 10, 9, 0, 0⟩) c ∗ (∀ w₁, St m K (stageOf ⟨7, true, 4, 28, 28, 4, 4, 28, 12, 11, 0, 0⟩) c -∗ Q w₁))
      ⊢ wpB c (onBufs k0_part42 c v2 v1217 v1229) Q := by
  subst hv
  rw [onBufs, k0_part42_eq_skeleton]
  unfold k0_part42_skel wpB
  simp only [Prog.lift, Prog.bind_op, Prog.bind_ret, Prog.pure_eq_ret]
  iintro ⟨HSt, Hk⟩
  iapply (cstep_outLoad m K c) $$ HSt
  iintro %old4 HSt
  iapply (cstep_outOther m K c 1 2 (k0_off30_eq c 4) (out_other_ok m c (px c 4) 1 (px_ne c 4 (by decide)))) $$ HSt
  iintro HSt
  iapply (cstep_recv2 m K c 1 3 (k0_off18_eq c 2)) $$ HSt
  iintro HSt
  iapply (cstep_oLoad m K c 2 1 (k0_off20_eq c 2)) $$ HSt
  iintro HSt
  iapply (cstep_outLoad m K c) $$ HSt
  iintro %old2 HSt
  iapply (cstep_outOther m K c 1 3 (k0_off30_eq c 2) (out_other_ok m c (px c 2) 1 (px_ne c 2 (by decide)))) $$ HSt
  iintro HSt
  iapply (cstep_recv2 m K c 1 4 (k0_off18_eq c 5)) $$ HSt
  iintro HSt
  iapply (le_wp_ret _ _)
  iapply Hk
  iexact HSt

theorem part_43 (v2 : BitVec 32) (v1249 : BitVec 32) (Q : BitVec 32 → sProp 𝕄) :
    iprop(St m K (stageOf ⟨7, true, 4, 28, 28, 4, 4, 28, 12, 11, 0, 0⟩) c ∗ (∀ w₁, St m K (stageOf ⟨7, true, 4, 28, 28, 4, 4, 28, 13, 13, 0, 0⟩) c -∗ Q w₁))
      ⊢ wpB c (onBufs k0_part43 c v2 v1249) Q := by
  rw [onBufs, k0_part43_eq_skeleton]
  unfold k0_part43_skel wpB
  simp only [Prog.lift, Prog.bind_op, Prog.bind_ret, Prog.pure_eq_ret]
  iintro ⟨HSt, Hk⟩
  iapply (cstep_oLoad m K c 5 1 (k0_off20_eq c 5)) $$ HSt
  iintro HSt
  iapply (cstep_outLoad m K c) $$ HSt
  iintro %old5 HSt
  iapply (cstep_outOther m K c 1 4 (k0_off30_eq c 5) (out_other_ok m c (px c 5) 1 (px_ne c 5 (by decide)))) $$ HSt
  iintro HSt
  iapply (cstep_recv2 m K c 1 5 (k0_off18_eq c 7)) $$ HSt
  iintro HSt
  iapply (cstep_oLoad m K c 7 1 (k0_off20_eq c 7)) $$ HSt
  iintro HSt
  iapply (cstep_outLoad m K c) $$ HSt
  iintro %old7 HSt
  iapply (cstep_outOther m K c 1 5 (k0_off30_eq c 7) (out_other_ok m c (px c 7) 1 (px_ne c 7 (by decide)))) $$ HSt
  iintro HSt
  iapply (le_wp_ret _ _)
  iapply Hk
  iexact HSt

theorem part_44 (v2 : BitVec 32) (v1281 : BitVec 32) (Q : BitVec 32 → sProp 𝕄) :
    iprop(St m K (stageOf ⟨7, true, 4, 28, 28, 4, 4, 28, 13, 13, 0, 0⟩) c ∗ (∀ w₁, St m K (stageOf ⟨7, true, 4, 28, 28, 4, 4, 28, 15, 15, 0, 0⟩) c -∗ Q w₁))
      ⊢ wpB c (onBufs k0_part44 c v2 v1281) Q := by
  rw [onBufs, k0_part44_eq_skeleton]
  unfold k0_part44_skel wpB
  simp only [Prog.lift, Prog.bind_op, Prog.bind_ret, Prog.pure_eq_ret]
  iintro ⟨HSt, Hk⟩
  iapply (cstep_recv2 m K c 1 6 (k0_off18_eq c 6)) $$ HSt
  iintro HSt
  iapply (cstep_oLoad m K c 6 1 (k0_off20_eq c 6)) $$ HSt
  iintro HSt
  iapply (cstep_outLoad m K c) $$ HSt
  iintro %old6 HSt
  iapply (cstep_outOther m K c 1 6 (k0_off30_eq c 6) (out_other_ok m c (px c 6) 1 (px_ne c 6 (by decide)))) $$ HSt
  iintro HSt
  iapply (cstep_recv2 m K c 2 0 (k0_off22_eq c 1)) $$ HSt
  iintro HSt
  iapply (cstep_oLoad m K c 1 2 (k0_off24_eq c 1)) $$ HSt
  iintro HSt
  iapply (cstep_outLoad m K c) $$ HSt
  iintro %old1 HSt
  iapply (cstep_outOther m K c 2 0 (k0_off31_eq c 1) (out_other_ok m c (px c 1) 2 (px_ne c 1 (by decide)))) $$ HSt
  iintro HSt
  iapply (le_wp_ret _ _)
  iapply Hk
  iexact HSt

end Cert.Kernel.AR

end
-- ==== Proof.KernelAR.Parts_45_51.lean ====
import proofs.«900697_g7700000000000698_dist_ar_v7x_i8_i_m512_n512_f32_1_alg».proof.Proof.KernelAR.CSteps
import proofs.«900697_g7700000000000698_dist_ar_v7x_i8_i_m512_n512_f32_1_alg».proof.Proof.KernelAR.PartsPre
import proofs.«900697_g7700000000000698_dist_ar_v7x_i8_i_m512_n512_f32_1_alg».proof.Proof.KernelAR.Chains
import proofs.«900697_g7700000000000698_dist_ar_v7x_i8_i_m512_n512_f32_1_alg».proof.Proof.Gen.Kernel.Skeleton

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 45 to 51: the same for slabs 2 and 3; the first send cell is waited at the end. -/
theorem part_45 (v2 : BitVec 32) (v1313 : BitVec 32) (Q : BitVec 32 → sProp 𝕄) :
    iprop(St m K (stageOf ⟨7, true, 4, 28, 28, 4, 4, 28, 15, 15, 0, 0⟩) c ∗ (∀ w₁, St m K (stageOf ⟨7, true, 4, 28, 28, 4, 4, 28, 17, 17, 0, 0⟩) c -∗ Q w₁)) ⊢ wpB c (onBufs k0_part45 c v2 v1313) Q := by
  rw [onBufs, k0_part45_eq_skeleton]; unfold k0_part45_skel wpB
  simp only [semSignalWord, semWaitWord, Prog.lift, Prog.bind_op, Prog.bind_ret, Prog.pure_eq_ret]
  iintro ⟨HSt, Hk⟩
  iapply (cstep_recv2 m K c 2 1 (k0_off22_eq c 3)) $$ HSt; iintro HSt
  iapply (cstep_oLoad m K c 3 2 (k0_off24_eq c 3)) $$ HSt; iintro HSt
  iapply (cstep_outLoad m K c) $$ HSt; iintro %u3 HSt
  iapply (cstep_outOther m K c 2 1 (k0_off31_eq c 3) (out_other_ok m c (px c 3) 2 (px_ne c 3 (by decide)))) $$ HSt; iintro HSt
  iapply (cstep_recv2 m K c 2 2 (k0_off22_eq c 4)) $$ HSt; iintro HSt
  iapply (cstep_oLoad m K c 4 2 (k0_off24_eq c 4)) $$ HSt; iintro HSt
  iapply (cstep_outLoad m K c) $$ HSt; iintro %u4 HSt
  iapply (cstep_outOther m K c 2 2 (k0_off31_eq c 4) (out_other_ok m c (px c 4) 2 (px_ne c 4 (by decide)))) $$ HSt; iintro HSt
  iapply (le_wp_ret _ _ _ _ _)
  iapply Hk; iexact HSt

theorem part_46 (v2 : BitVec 32) (v1345 : BitVec 32) (Q : (Σ' (v1377 : BitVec 32), BitVec 32) → sProp 𝕄) :
    iprop(St m K (stageOf ⟨7, true, 4, 28, 28, 4, 4, 28, 17, 17, 0, 0⟩) c ∗ (∀ w₁ w₂, St m K (stageOf ⟨7, true, 4, 28, 28, 4, 4, 28, 19, 19, 0, 0⟩) c -∗ Q ⟨w₁, w₂⟩)) ⊢ wpB c (onBufs k0_part46 c v2 v1345) Q := by
  rw [onBufs, k0_part46_eq_skeleton]; unfold k0_part46_skel wpB
  simp only [semSignalWord, semWaitWord, Prog.lift, Prog.bind_op, Prog.bind_ret, Prog.pure_eq_ret]
  iintro ⟨HSt, Hk⟩
  iapply (cstep_recv2 m K c 2 3 (k0_off22_eq c 2)) $$ HSt; iintro HSt
  iapply (cstep_oLoad m K c 2 2 (k0_off24_eq c 2)) $$ HSt; iintro HSt
  iapply (cstep_outLoad m K c) $$ HSt; iintro %u2 HSt
  iapply (cstep_outOther m K c 2 3 (k0_off31_eq c 2) (out_other_ok m c (px c 2) 2 (px_ne c 2 (by decide)))) $$ HSt; iintro HSt
  iapply (cstep_recv2 m K c 2 4 (k0_off22_eq c 5)) $$ HSt; iintro HSt
  iapply (cstep_oLoad m K c 5 2 (k0_off24_eq c 5)) $$ HSt; iintro HSt
  iapply (cstep_outLoad m K c) $$ HSt; iintro %u5 HSt
  iapply (cstep_outOther m K c 2 4 (k0_off31_eq c 5) (out_other_ok m c (px c 5) 2 (px_ne c 5 (by decide)))) $$ HSt; iintro HSt
  iapply (le_wp_ret _ _ _ _ _)
  iapply Hk; iexact HSt

theorem part_47 (v2 : BitVec 32) (v1377 : BitVec 32) (c1_i32_1220 : BitVec 32) (Q : BitVec 32 → sProp 𝕄) :
    iprop(St m K (stageOf ⟨7, true, 4, 28, 28, 4, 4, 28, 19, 19, 0, 0⟩) c ∗ (∀ w₁, St m K (stageOf ⟨7, true, 4, 28, 28, 4, 4, 28, 21, 21, 0, 0⟩) c -∗ Q w₁)) ⊢ wpB c (onBufs k0_part47 c v2 v1377 c1_i32_1220) Q := by
  rw [onBufs, k0_part47_eq_skeleton]; unfold k0_part47_skel wpB
  simp only [semSignalWord, semWaitWord, Prog.lift, Prog.bind_op, Prog.bind_ret, Prog.pure_eq_ret]
  iintro ⟨HSt, Hk⟩
  iapply (cstep_recv2 m K c 2 5 (k0_off22_eq c 7)) $$ HSt; iintro HSt
  iapply (cstep_oLoad m K c 7 2 (k0_off24_eq c 7)) $$ HSt; iintro HSt
  iapply (cstep_outLoad m K c) $$ HSt; iintro %u7 HSt
  iapply (cstep_outOther m K c 2 5 (k0_off31_eq c 7) (out_other_ok m c (px c 7) 2 (px_ne c 7 (by decide)))) $$ HSt; iintro HSt
  iapply (cstep_recv2 m K c 2 6 (k0_off22_eq c 6)) $$ HSt; iintro HSt
  iapply (cstep_oLoad m K c 6 2 (k0_off24_eq c 6)) $$ HSt; iintro HSt
  iapply (cstep_outLoad m K c) $$ HSt; iintro %u6 HSt
  iapply (cstep_outOther m K c 2 6 (k0_off31_eq c 6) (out_other_ok m c (px c 6) 2 (px_ne c 6 (by decide)))) $$ HSt; iintro HSt
  iapply (le_wp_ret _ _ _ _ _)
  iapply Hk; iexact HSt

theorem part_48 (v2 : BitVec 32) (v1409 : BitVec 32) (Q : FVec F S64x128 .f32 → sProp 𝕄) :
    iprop(St m K (stageOf ⟨7, true, 4, 28, 28, 4, 4, 28, 21, 21, 0, 0⟩) c ∗ (St m K (stageOf ⟨7, true, 4, 28, 28, 4, 4, 28, 23, 22, 0, 0⟩) c -∗ Q (k0_pay50 (voL m c 3 3)))) ⊢ wpB c (onBufs k0_part48 c v2 v1409) Q := by
  rw [onBufs, k0_part48_eq_skeleton]; unfold k0_part48_skel wpB
  simp only [semSignalWord, semWaitWord, Prog.lift, Prog.bind_op, Prog.bind_ret, Prog.pure_eq_ret]
  iintro ⟨HSt, Hk⟩
  iapply (cstep_recv2 m K c 3 0 (k0_off26_eq c 1)) $$ HSt; iintro HSt
  iapply (cstep_oLoad m K c 1 3 (k0_off28_eq c 1)) $$ HSt; iintro HSt
  iapply (cstep_outLoad m K c) $$ HSt; iintro %u1 HSt
  iapply (cstep_outOther m K c 3 0 (k0_off32_eq c 1) (out_other_ok m c (px c 1) 3 (px_ne c 1 (by decide)))) $$ HSt; iintro HSt
  iapply (cstep_recv2 m K c 3 1 (k0_off26_eq c 3)) $$ HSt; iintro HSt
  iapply (cstep_oLoad m K c 3 3 (k0_off28_eq c 3)) $$ HSt; iintro HSt
  iapply (le_wp_ret _ _ _ _ _)
  iapply Hk; iexact HSt

theorem part_49 (v2 : BitVec 32) (v1437 : FVec F S64x128 .f32) (hv : v1437 = k0_pay50 (voL m c 3 3)) (Q : (Σ' (v1457 : BitVec 32), FVec F S64x128 .f32) → sProp 𝕄) :
    iprop(St m K (stageOf ⟨7, true, 4, 28, 28, 4, 4, 28, 23, 22, 0, 0⟩) c ∗ (∀ w₁, St m K (stageOf ⟨7, true, 4, 28, 28, 4, 4, 28, 25, 24, 0, 0⟩) c -∗ Q ⟨w₁, k0_pay52 (voL m c 3 2)⟩)) ⊢ wpB c (onBufs k0_part49 c v2 v1437) Q := by
  subst hv
  rw [onBufs, k0_part49_eq_skeleton]; unfold k0_part49_skel wpB
  simp only [semSignalWord, semWaitWord, Prog.lift, Prog.bind_op, Prog.bind_ret, Prog.pure_eq_ret]
  iintro ⟨HSt, Hk⟩
  iapply (cstep_outLoad m K c) $$ HSt; iintro %u3 HSt
  iapply (cstep_outOther m K c 3 1 (k0_off32_eq c 3) (out_other_ok m c (px c 3) 3 (px_ne c 3 (by decide)))) $$ HSt; iintro HSt
  iapply (cstep_recv2 m K c 3 2 (k0_off26_eq c 4)) $$ HSt; iintro HSt
  iapply (cstep_oLoad m K c 4 3 (k0_off28_eq c 4)) $$ HSt; iintro HSt
  iapply (cstep_outLoad m K c) $$ HSt; iintro %u4 HSt
  iapply (cstep_outOther m K c 3 2 (k0_off32_eq c 4) (out_other_ok m c (px c 4) 3 (px_ne c 4 (by decide)))) $$ HSt; iintro HSt
  iapply (cstep_recv2 m K c 3 3 (k0_off26_eq c 2)) $$ HSt; iintro HSt
  iapply (cstep_oLoad m K c 2 3 (k0_off28_eq c 2)) $$ HSt; iintro HSt
  iapply (le_wp_ret _ _ _ _ _)
  iapply Hk; iexact HSt

theorem part_50 (v2 : BitVec 32) (v1457 : BitVec 32) (v1469 : FVec F S64x128 .f32) (hv : v1469 = k0_pay52 (voL m c 3 2)) (Q : BitVec 32 → sProp 𝕄) :
    iprop(St m K (stageOf ⟨7, true, 4, 28, 28, 4, 4, 28, 25, 24, 0, 0⟩) c ∗ (∀ w₁, St m K (stageOf ⟨7, true, 4, 28, 28, 4, 4, 28, 27, 26, 0, 0⟩) c -∗ Q w₁)) ⊢ wpB c (onBufs k0_part50 c v2 v1457 v1469) Q := by
  subst hv
  rw [onBufs, k0_part50_eq_skeleton]; unfold k0_part50_skel wpB
  simp only [semSignalWord, semWaitWord, Prog.lift, Prog.bind_op, Prog.bind_ret, Prog.pure_eq_ret]
  iintro ⟨HSt, Hk⟩
  iapply (cstep_outLoad m K c) $$ HSt; iintro %u2 HSt
  iapply (cstep_outOther m K c 3 3 (k0_off32_eq c 2) (out_other_ok m c (px c 2) 3 (px_ne c 2 (by decide)))) $$ HSt; iintro HSt
  iapply (cstep_recv2 m K c 3 4 (k0_off26_eq c 5)) $$ HSt; iintro HSt
  iapply (cstep_oLoad m K c 5 3 (k0_off28_eq c 5)) $$ HSt; iintro HSt
  iapply (cstep_outLoad m K c) $$ HSt; iintro %u5 HSt
  iapply (cstep_outOther m K c 3 4 (k0_off32_eq c 5) (out_other_ok m c (px c 5) 3 (px_ne c 5 (by decide)))) $$ HSt; iintro HSt
  iapply (cstep_recv2 m K c 3 5 (k0_off26_eq c 7)) $$ HSt; iintro HSt
  iapply (le_wp_ret _ _ _ _ _)
  iapply Hk; iexact HSt

theorem part_51 (v2 : BitVec 32) (v1489 : BitVec 32) (Q : PUnit → sProp 𝕄) :
    iprop(St m K (stageOf ⟨7, true, 4, 28, 28, 4, 4, 28, 27, 26, 0, 0⟩) c ∗ (St m K (stageOf ⟨7, true, 4, 28, 28, 4, 4, 28, 28, 28, 1, 0⟩) c -∗ Q ⟨⟩)) ⊢ wpB c (onBufs k0_part51 c v2 v1489) Q := by
  rw [onBufs, k0_part51_eq_skeleton]; unfold k0_part51_skel wpB
  simp only [semSignalWord, semWaitWord, Prog.lift, Prog.bind_op, Prog.bind_ret, Prog.pure_eq_ret]
  iintro ⟨HSt, Hk⟩
  iapply (cstep_oLoad m K c 7 3 (k0_off28_eq c 7)) $$ HSt; iintro HSt
  iapply (cstep_outLoad m K c) $$ HSt; iintro %u7 HSt
  iapply (cstep_outOther m K c 3 5 (k0_off32_eq c 7) (out_other_ok m c (px c 7) 3 (px_ne c 7 (by decide)))) $$ HSt; iintro HSt
  iapply (cstep_recv2 m K c 3 6 (k0_off26_eq c 6)) $$ HSt; iintro HSt
  iapply (cstep_oLoad m K c 6 3 (k0_off28_eq c 6)) $$ HSt; iintro HSt
  iapply (cstep_outLoad m K c) $$ HSt; iintro %u6 HSt
  iapply (cstep_outOther m K c 3 6 (k0_off32_eq c 6) (out_other_ok m c (px c 6) 3 (px_ne c 6 (by decide)))) $$ HSt; iintro HSt
  iapply (cstep_sendWait1 m K c 0 0) $$ HSt; iintro HSt
  iapply (le_wp_ret _ _ _ _ _)
  iapply Hk; iexact HSt

end Cert.Kernel.AR

end
-- ==== Proof.KernelAR.Parts_52_63.lean ====
import proofs.«900697_g7700000000000698_dist_ar_v7x_i8_i_m512_n512_f32_1_alg».proof.Proof.KernelAR.CSteps
import proofs.«900697_g7700000000000698_dist_ar_v7x_i8_i_m512_n512_f32_1_alg».proof.Proof.KernelAR.PartsPre
import proofs.«900697_g7700000000000698_dist_ar_v7x_i8_i_m512_n512_f32_1_alg».proof.Proof.Gen.Kernel.Skeleton

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- Parts 52 to 63: the waits on the remaining send cells, in sending order. -/
theorem part_52 (Q : PUnit → sProp 𝕄) :
    iprop(St m K (stageOf ⟨7, true, 4, 28, 28, 4, 4, 28, 28, 28, 1, 0⟩) c ∗ (St m K (stageOf ⟨7, true, 4, 28, 28, 4, 4, 28, 28, 28, 6, 0⟩) c -∗ Q ⟨⟩)) ⊢ wpB c (onBufs k0_part52 c ) Q := by
  rw [onBufs, k0_part52_eq_skeleton]; unfold k0_part52_skel wpB
  simp only [semSignalWord, semWaitWord, Prog.lift, Prog.bind_op, Prog.bind_ret, Prog.pure_eq_ret]
  iintro ⟨HSt, Hk⟩
  iapply (cstep_sendWait1 m K c 0 1) $$ HSt; iintro HSt
  iapply (cstep_sendWait1 m K c 0 2) $$ HSt; iintro HSt
  iapply (cstep_sendWait1 m K c 0 3) $$ HSt; iintro HSt
  iapply (cstep_sendWait1 m K c 0 4) $$ HSt; iintro HSt
  iapply (cstep_sendWait1 m K c 0 5) $$ HSt; iintro HSt
  iapply (le_wp_ret _ _)
  iapply Hk; iexact HSt

theorem part_53 (Q : PUnit → sProp 𝕄) :
    iprop(St m K (stageOf ⟨7, true, 4, 28, 28, 4, 4, 28, 28, 28, 6, 0⟩) c ∗ (St m K (stageOf ⟨7, true, 4, 28, 28, 4, 4, 28, 28, 28, 10, 0⟩) c -∗ Q ⟨⟩)) ⊢ wpB c (onBufs k0_part53 c ) Q := by
  rw [onBufs, k0_part53_eq_skeleton]; unfold k0_part53_skel wpB
  simp only [semSignalWord, semWaitWord, Prog.lift, Prog.bind_op, Prog.bind_ret, Prog.pure_eq_ret]
  iintro ⟨HSt, Hk⟩
  iapply (cstep_sendWait1 m K c 0 6) $$ HSt; iintro HSt
  iapply (cstep_sendWait1 m K c 1 0) $$ HSt; iintro HSt
  iapply (cstep_sendWait1 m K c 1 1) $$ HSt; iintro HSt
  iapply (cstep_sendWait1 m K c 1 2) $$ HSt; iintro HSt
  iapply (le_wp_ret _ _)
  iapply Hk; iexact HSt

theorem part_54 (Q : PUnit → sProp 𝕄) :
    iprop(St m K (stageOf ⟨7, true, 4, 28, 28, 4, 4, 28, 28, 28, 10, 0⟩) c ∗ (St m K (stageOf ⟨7, true, 4, 28, 28, 4, 4, 28, 28, 28, 15, 0⟩) c -∗ Q ⟨⟩)) ⊢ wpB c (onBufs k0_part54 c ) Q := by
  rw [onBufs, k0_part54_eq_skeleton]; unfold k0_part54_skel wpB
  simp only [semSignalWord, semWaitWord, Prog.lift, Prog.bind_op, Prog.bind_ret, Prog.pure_eq_ret]
  iintro ⟨HSt, Hk⟩
  iapply (cstep_sendWait1 m K c 1 3) $$ HSt; iintro HSt
  iapply (cstep_sendWait1 m K c 1 4) $$ HSt; iintro HSt
  iapply (cstep_sendWait1 m K c 1 5) $$ HSt; iintro HSt
  iapply (cstep_sendWait1 m K c 1 6) $$ HSt; iintro HSt
  iapply (cstep_sendWait1 m K c 2 0) $$ HSt; iintro HSt
  iapply (le_wp_ret _ _)
  iapply Hk; iexact HSt

theorem part_55 (Q : PUnit → sProp 𝕄) :
    iprop(St m K (stageOf ⟨7, true, 4, 28, 28, 4, 4, 28, 28, 28, 15, 0⟩) c ∗ (St m K (stageOf ⟨7, true, 4, 28, 28, 4, 4, 28, 28, 28, 19, 0⟩) c -∗ Q ⟨⟩)) ⊢ wpB c (onBufs k0_part55 c ) Q := by
  rw [onBufs, k0_part55_eq_skeleton]; unfold k0_part55_skel wpB
  simp only [semSignalWord, semWaitWord, Prog.lift, Prog.bind_op, Prog.bind_ret, Prog.pure_eq_ret]
  iintro ⟨HSt, Hk⟩
  iapply (cstep_sendWait1 m K c 2 1) $$ HSt; iintro HSt
  iapply (cstep_sendWait1 m K c 2 2) $$ HSt; iintro HSt
  iapply (cstep_sendWait1 m K c 2 3) $$ HSt; iintro HSt
  iapply (cstep_sendWait1 m K c 2 4) $$ HSt; iintro HSt
  iapply (le_wp_ret _ _)
  iapply Hk; iexact HSt

theorem part_56 (Q : PUnit → sProp 𝕄) :
    iprop(St m K (stageOf ⟨7, true, 4, 28, 28, 4, 4, 28, 28, 28, 19, 0⟩) c ∗ (St m K (stageOf ⟨7, true, 4, 28, 28, 4, 4, 28, 28, 28, 24, 0⟩) c -∗ Q ⟨⟩)) ⊢ wpB c (onBufs k0_part56 c ) Q := by
  rw [onBufs, k0_part56_eq_skeleton]; unfold k0_part56_skel wpB
  simp only [semSignalWord, semWaitWord, Prog.lift, Prog.bind_op, Prog.bind_ret, Prog.pure_eq_ret]
  iintro ⟨HSt, Hk⟩
  iapply (cstep_sendWait1 m K c 2 5) $$ HSt; iintro HSt
  iapply (cstep_sendWait1 m K c 2 6) $$ HSt; iintro HSt
  iapply (cstep_sendWait1 m K c 3 0) $$ HSt; iintro HSt
  iapply (cstep_sendWait1 m K c 3 1) $$ HSt; iintro HSt
  iapply (cstep_sendWait1 m K c 3 2) $$ HSt; iintro HSt
  iapply (le_wp_ret _ _)
  iapply Hk; iexact HSt

theorem part_57 (Q : PUnit → sProp 𝕄) :
    iprop(St m K (stageOf ⟨7, true, 4, 28, 28, 4, 4, 28, 28, 28, 24, 0⟩) c ∗ (St m K (stageOf ⟨7, true, 4, 28, 28, 4, 4, 28, 28, 28, 28, 1⟩) c -∗ Q ⟨⟩)) ⊢ wpB c (onBufs k0_part57 c ) Q := by
  rw [onBufs, k0_part57_eq_skeleton]; unfold k0_part57_skel wpB
  simp only [semSignalWord, semWaitWord, Prog.lift, Prog.bind_op, Prog.bind_ret, Prog.pure_eq_ret]
  iintro ⟨HSt, Hk⟩
  iapply (cstep_sendWait1 m K c 3 3) $$ HSt; iintro HSt
  iapply (cstep_sendWait1 m K c 3 4) $$ HSt; iintro HSt
  iapply (cstep_sendWait1 m K c 3 5) $$ HSt; iintro HSt
  iapply (cstep_sendWait1 m K c 3 6) $$ HSt; iintro HSt
  iapply (cstep_sendWait2 m K c 0 0) $$ HSt; iintro HSt
  iapply (le_wp_ret _ _)
  iapply Hk; iexact HSt

theorem part_58 (Q : PUnit → sProp 𝕄) :
    iprop(St m K (stageOf ⟨7, true, 4, 28, 28, 4, 4, 28, 28, 28, 28, 1⟩) c ∗ (St m K (stageOf ⟨7, true, 4, 28, 28, 4, 4, 28, 28, 28, 28, 5⟩) c -∗ Q ⟨⟩)) ⊢ wpB c (onBufs k0_part58 c ) Q := by
  rw [onBufs, k0_part58_eq_skeleton]; unfold k0_part58_skel wpB
  simp only [semSignalWord, semWaitWord, Prog.lift, Prog.bind_op, Prog.bind_ret, Prog.pure_eq_ret]
  iintro ⟨HSt, Hk⟩
  iapply (cstep_sendWait2 m K c 0 1) $$ HSt; iintro HSt
  iapply (cstep_sendWait2 m K c 0 2) $$ HSt; iintro HSt
  iapply (cstep_sendWait2 m K c 0 3) $$ HSt; iintro HSt
  iapply (cstep_sendWait2 m K c 0 4) $$ HSt; iintro HSt
  iapply (le_wp_ret _ _)
  iapply Hk; iexact HSt

theorem part_59 (Q : PUnit → sProp 𝕄) :
    iprop(St m K (stageOf ⟨7, true, 4, 28, 28, 4, 4, 28, 28, 28, 28, 5⟩) c ∗ (St m K (stageOf ⟨7, true, 4, 28, 28, 4, 4, 28, 28, 28, 28, 9⟩) c -∗ Q ⟨⟩)) ⊢ wpB c (onBufs k0_part59 c ) Q := by
  rw [onBufs, k0_part59_eq_skeleton]; unfold k0_part59_skel wpB
  simp only [semSignalWord, semWaitWord, Prog.lift, Prog.bind_op, Prog.bind_ret, Prog.pure_eq_ret]
  iintro ⟨HSt, Hk⟩
  iapply (cstep_sendWait2 m K c 0 5) $$ HSt; iintro HSt
  iapply (cstep_sendWait2 m K c 0 6) $$ HSt; iintro HSt
  iapply (cstep_sendWait2 m K c 1 0) $$ HSt; iintro HSt
  iapply (cstep_sendWait2 m K c 1 1) $$ HSt; iintro HSt
  iapply (le_wp_ret _ _)
  iapply Hk; iexact HSt

theorem part_60 (Q : PUnit → sProp 𝕄) :
    iprop(St m K (stageOf ⟨7, true, 4, 28, 28, 4, 4, 28, 28, 28, 28, 9⟩) c ∗ (St m K (stageOf ⟨7, true, 4, 28, 28, 4, 4, 28, 28, 28, 28, 13⟩) c -∗ Q ⟨⟩)) ⊢ wpB c (onBufs k0_part60 c ) Q := by
  rw [onBufs, k0_part60_eq_skeleton]; unfold k0_part60_skel wpB
  simp only [semSignalWord, semWaitWord, Prog.lift, Prog.bind_op, Prog.bind_ret, Prog.pure_eq_ret]
  iintro ⟨HSt, Hk⟩
  iapply (cstep_sendWait2 m K c 1 2) $$ HSt; iintro HSt
  iapply (cstep_sendWait2 m K c 1 3) $$ HSt; iintro HSt
  iapply (cstep_sendWait2 m K c 1 4) $$ HSt; iintro HSt
  iapply (cstep_sendWait2 m K c 1 5) $$ HSt; iintro HSt
  iapply (le_wp_ret _ _)
  iapply Hk; iexact HSt

theorem part_61 (Q : PUnit → sProp 𝕄) :
    iprop(St m K (stageOf ⟨7, true, 4, 28, 28, 4, 4, 28, 28, 28, 28, 13⟩) c ∗ (St m K (stageOf ⟨7, true, 4, 28, 28, 4, 4, 28, 28, 28, 28, 18⟩) c -∗ Q ⟨⟩)) ⊢ wpB c (onBufs k0_part61 c ) Q := by
  rw [onBufs, k0_part61_eq_skeleton]; unfold k0_part61_skel wpB
  simp only [semSignalWord, semWaitWord, Prog.lift, Prog.bind_op, Prog.bind_ret, Prog.pure_eq_ret]
  iintro ⟨HSt, Hk⟩
  iapply (cstep_sendWait2 m K c 1 6) $$ HSt; iintro HSt
  iapply (cstep_sendWait2 m K c 2 0) $$ HSt; iintro HSt
  iapply (cstep_sendWait2 m K c 2 1) $$ HSt; iintro HSt
  iapply (cstep_sendWait2 m K c 2 2) $$ HSt; iintro HSt
  iapply (cstep_sendWait2 m K c 2 3) $$ HSt; iintro HSt
  iapply (le_wp_ret _ _)
  iapply Hk; iexact HSt

theorem part_62 (Q : PUnit → sProp 𝕄) :
    iprop(St m K (stageOf ⟨7, true, 4, 28, 28, 4, 4, 28, 28, 28, 28, 18⟩) c ∗ (St m K (stageOf ⟨7, true, 4, 28, 28, 4, 4, 28, 28, 28, 28, 22⟩) c -∗ Q ⟨⟩)) ⊢ wpB c (onBufs k0_part62 c ) Q := by
  rw [onBufs, k0_part62_eq_skeleton]; unfold k0_part62_skel wpB
  simp only [semSignalWord, semWaitWord, Prog.lift, Prog.bind_op, Prog.bind_ret, Prog.pure_eq_ret]
  iintro ⟨HSt, Hk⟩
  iapply (cstep_sendWait2 m K c 2 4) $$ HSt; iintro HSt
  iapply (cstep_sendWait2 m K c 2 5) $$ HSt; iintro HSt
  iapply (cstep_sendWait2 m K c 2 6) $$ HSt; iintro HSt
  iapply (cstep_sendWait2 m K c 3 0) $$ HSt; iintro HSt
  iapply (le_wp_ret _ _)
  iapply Hk; iexact HSt

theorem part_63 (Q : PUnit → sProp 𝕄) :
    iprop(St m K (stageOf ⟨7, true, 4, 28, 28, 4, 4, 28, 28, 28, 28, 22⟩) c ∗ (St m K (stageOf ⟨7, true, 4, 28, 28, 4, 4, 28, 28, 28, 28, 26⟩) c -∗ Q ⟨⟩)) ⊢ wpB c (onBufs k0_part63 c ) Q := by
  rw [onBufs, k0_part63_eq_skeleton]; unfold k0_part63_skel wpB
  simp only [semSignalWord, semWaitWord, Prog.lift, Prog.bind_op, Prog.bind_ret, Prog.pure_eq_ret]
  iintro ⟨HSt, Hk⟩
  iapply (cstep_sendWait2 m K c 3 1) $$ HSt; iintro HSt
  iapply (cstep_sendWait2 m K c 3 2) $$ HSt; iintro HSt
  iapply (cstep_sendWait2 m K c 3 3) $$ HSt; iintro HSt
  iapply (cstep_sendWait2 m K c 3 4) $$ HSt; iintro HSt
  iapply (le_wp_ret _ _)
  iapply Hk; iexact HSt

end Cert.Kernel.AR

end
-- ==== Proof.KernelAR.Wrap.lean ====
import proofs.«900697_g7700000000000698_dist_ar_v7x_i8_i_m512_n512_f32_1_alg».proof.Proof.KernelAR.ProtoG

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem bigSep_W (Φ : Fin cfg0.W → sProp 𝕄) : bigSep Finset.univ Φ = iprop(Φ (0 : Fin 2) ∗ Φ (1 : Fin 2)) := bigSep_W0 Φ

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

set_option maxRecDepth 65536 in
theorem body_obligation_of_walk
    (hwalk : ∀ (K : Dev nD × CIx → ℕ) (c : Dev nD) (Kt : PUnit → sProp 𝕄),
      iprop(St m K (stageOf k₀) c ∗ (St m K (stageOf k₁) c -∗ Kt ⟨⟩))
        ⊢ wp frame (wpE (defs₀ (F := F)) 𝒱₀ (c : Thread nD τ) none) Set.univ
            (cc0_body xM (Memref.isWhole_whole _) outM (Memref.isWhole_whole _) xbM (Memref.isWhole_whole _) gM (Memref.isWhole_whole _)
              aM (Memref.isWhole_whole _) oM (Memref.isWhole_whole _) cc0_scratch4 cc0_scratch5 cc0_scratch6 cc0_scratch7) Kt)
    (h0 : stageOf k₀ = σ₀) (h1 : stageOf k₁ = σ₁)
    (hexit : ∀ (K : Dev nD × CIx → ℕ) (c : Dev nD), St m K σ₁ c ⊢ iprop(Φ₁ c ∗ stOwes σ₁ c
      ∗ (((c : Thread nD τ).loc cc0_stg0_0) ↦{fullShare} X m c) ∗ (((c : Thread nD τ).loc cc0_stg1_0) ↦{fullShare} outAt (X m) c)))
    (c : Dev nD) : BodyObligation (dats (F := F) m ρ 0 c) (defs₀ (F := F)) 𝒱₀ () Set.univ := fun t => by
  have ht := fin_N0 t
  subst ht
  rw [bigSep_W, bigSep_W]
  simp only [owns_whole_eq]
  show iprop(Φ₀ m c ∗ (dats m ρ 0 c).owesAt () t0_0.castSucc
        ∗ (∃ d, stg c cc0_stg0_0 ((dats m ρ 0 c).before (0 : Fin 2) t0_0 d))
        ∗ (∃ d, stg c cc0_stg1_0 ((dats m ρ 0 c).before (1 : Fin 2) t0_0 d)))
      ⊢ wp frame (wpE (defs₀ (F := F)) 𝒱₀ (c : Thread nD τ) none) Set.univ
          (cc0_body xM (Memref.isWhole_whole _) outM (Memref.isWhole_whole _) xbM (Memref.isWhole_whole _) gM (Memref.isWhole_whole _)
            aM (Memref.isWhole_whole _) oM (Memref.isWhole_whole _) cc0_scratch4 cc0_scratch5 cc0_scratch6 cc0_scratch7)
          (fun _ => iprop(Φ₁ c ∗ (dats m ρ 0 c).owesAt () t0_0.succ ∗ stg c cc0_stg0_0 (X m c) ∗ stg c cc0_stg1_0 (outAt (X m) c)))
  unfold Φ₀
  iintro ⟨⟨%K, Hrec, Hcells, Hunused, Hscr⟩, Ho, ⟨%d0, %g0, %hg0, Hx⟩, ⟨%d1, %g1, %hg1, Hout⟩⟩
  have hx : g0 = X m c := by
    rw [hg0]; unfold Dat.before
    exact (if_pos (fetch0_0 t0_0)).trans rfl
  subst hx
  unfold Dat.owesAt Pipeline.owesWithin
  icases Ho with ⟨%W, %hW, HO⟩
  iapply (hwalk K c _)
  rw [h0, h1]
  isplitr []
  · unfold St stOwes stStage
    isplitl [Hrec]; · iexact Hrec
    isplitl [HO]; · iexists W; iexact HO
    isplitl [Hcells]; · iexact Hcells
    isplitl [Hunused]; · iexact Hunused
    isplitr [Hscr]
    · isplitl [Hx]; · iexact Hx
      iexists g1; isplitr
      · ipureintro; intro kh hkh; exact absurd hkh (Finset.notMem_empty kh)
      iexact Hout
    iexact Hscr
  · iintro H
    ihave H' := (hexit K c) $$ H
    unfold stOwes
    icases H' with ⟨HΦ, ⟨%W', HO'⟩, Hx', Hout'⟩
    rw [show owedFrom c σ₁.paid = 0 from owedFrom_end c]
    isplitl [HΦ]; · iexact HΦ
    isplitl [HO']
    · iexists W'; isplitr
      · ipureintro; exact fun _ _ => Or.inl trivial
      iexact HO'
    isplitl [Hx']
    · iexists _; isplitr; · (ipureintro; rfl)
      iexact Hx'
    iexists _; isplitr; · (ipureintro; rfl)
    iexact Hout'

end Cert.Kernel.AR

end
-- ==== Proof.KernelAR.Finish.lean ====
import proofs.«900697_g7700000000000698_dist_ar_v7x_i8_i_m512_n512_f32_1_alg».proof.Proof.KernelAR.ProtoG
import proofs.«900697_g7700000000000698_dist_ar_v7x_i8_i_m512_n512_f32_1_alg».proof.Proof.KernelAR.Values
import proofs.«900697_g7700000000000698_dist_ar_v7x_i8_i_m512_n512_f32_1_alg».proof.Proof.KernelAR.Geometry

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The column of the cell of array `a` used at place `j`: a mask in a send array, a sender in a receive array. -/
def col (c : Dev nD) (a : Fin 4) (j : Fin 7) : Fin 8 := if a.val % 2 = 0 then far j else px c (near j)

theorem col_zero (c : Dev nD) (j : Fin 7) : col c 0 j = far j := rfl
theorem col_one (c : Dev nD) (j : Fin 7) : col c 1 j = px c (near j) := rfl
theorem col_two (c : Dev nD) (j : Fin 7) : col c 2 j = far j := rfl
theorem col_three (c : Dev nD) (j : Fin 7) : col c 3 j = px c (near j) := rfl

theorem col_inj (c : Dev nD) (a : Fin 4) (j j' : Fin 7) : col c a j = col c a j' → j = j' := by
  unfold col; revert c a j j'; decide +kernel

theorem used_iff_col (c : Dev nD) (a : Fin 4) (k : Fin 8) : used a c k ↔ ∃ j : Fin 7, col c a j = k := by
  unfold used col; revert c a k; decide +kernel

def cellEmb (c : Dev nD) : Fin 4 × Fin 4 × Fin 7 ↪ Fin 4 × Fin 4 × Fin 8 where
  toFun x := (x.1, x.2.1, col c x.1 x.2.2)
  inj' := by
    rintro ⟨a, h, j⟩ ⟨a', h', j'⟩ e
    simp only [Prod.mk.injEq] at e
    obtain ⟨rfl, rfl, e⟩ := e
    rw [col_inj c a j j' e]

theorem cellEmb_apply (c : Dev nD) (a : Fin 4) (hj : Fin 4 × Fin 7) : cellEmb c (a, hj) = (a, hj.1, col c a hj.2) := rfl

theorem used_eq_map (c : Dev nD) :
    (Finset.univ.filter fun i : Fin 4 × Fin 4 × Fin 8 => used i.1 c i.2.2) = Finset.univ.map (cellEmb c) := by
  ext ⟨a, h, k⟩
  simp only [Finset.mem_filter, Finset.mem_univ, true_and, Finset.mem_map]
  rw [used_iff_col]
  constructor
  · rintro ⟨j, rfl⟩; exact ⟨(a, h, j), rfl⟩
  · rintro ⟨⟨a', h', j⟩, e⟩
    have e' : (a', h', col c a' j) = (a, h, k) := e
    simp only [Prod.mk.injEq] at e'
    obtain ⟨rfl, rfl, rfl⟩ := e'
    exact ⟨j, rfl⟩

def cellAt (c : Dev nD) (i : Fin 4 × Fin 4 × Fin 8) : sProp 𝕄 := semVal ((c.tc : Thread nD τ), osem i) 0

theorem fam0 (c : Dev nD) : (fun hj : Fin 4 × Fin 7 => cellAt (F := F) c (cellEmb c (0, hj)))
    = fun hj => closedAt (s1Cell c hj.1 (far hj.2)) := by
  funext hj; rw [cellEmb_apply, col_zero]; rfl
theorem fam1 (c : Dev nD) : (fun hj : Fin 4 × Fin 7 => cellAt (F := F) c (cellEmb c (1, hj)))
    = fun hj => closedAt (r1Cell c hj.1 (px c (near hj.2))) := by
  funext hj; rw [cellEmb_apply, col_one]; rfl
theorem fam2 (c : Dev nD) : (fun hj : Fin 4 × Fin 7 => cellAt (F := F) c (cellEmb c (2, hj)))
    = fun hj => closedAt (s2Cell c hj.1 (far hj.2)) := by
  funext hj; rw [cellEmb_apply, col_two]; rfl
theorem fam3 (c : Dev nD) : (fun hj : Fin 4 × Fin 7 => cellAt (F := F) c (cellEmb c (3, hj)))
    = fun hj => closedAt (r2Cell c hj.1 (px c (near hj.2))) := by
  funext hj; rw [cellEmb_apply, col_three]; rfl

/-- The used cells of the four arrays are the four closed families. -/
theorem cells_used (c : Dev nD) :
    bigSep (Finset.univ.filter fun i : Fin 4 × Fin 4 × Fin 8 => used i.1 c i.2.2) (cellAt (F := F) c)
      = iprop((bigSep Finset.univ fun hj : Fin 4 × Fin 7 => closedAt (s1Cell c hj.1 (far hj.2)))
          ∗ (bigSep Finset.univ fun hj : Fin 4 × Fin 7 => closedAt (r1Cell c hj.1 (px c (near hj.2))))
          ∗ (bigSep Finset.univ fun hj : Fin 4 × Fin 7 => closedAt (s2Cell c hj.1 (far hj.2)))
          ∗ (bigSep Finset.univ fun hj : Fin 4 × Fin 7 => closedAt (r2Cell c hj.1 (px c (near hj.2))))) := by
  rw [used_eq_map, bigSep_map, bigSep_univ_prod, show (Finset.univ : Finset (Fin 4)) = {0, 1, 2, 3} from by decide,
    bigSep_insert (by decide), bigSep_insert (by decide), bigSep_insert (by decide), bigSep_singleton,
    fam0, fam1, fam2, fam3]
  rfl

theorem ownSems0_split (c : Dev nD) : (Pipeline.ownSems0 osem c : sProp 𝕄)
    = iprop(bigSep (Finset.univ.filter fun i : Fin 4 × Fin 4 × Fin 8 => used i.1 c i.2.2) (cellAt (F := F) c) ∗ unusedSems c) :=
  bigSep_filter_split Finset.univ (fun i : Fin 4 × Fin 4 × Fin 8 => used i.1 c i.2.2)

theorem cells_exit (c : Dev nD) : iprop(stCells σ₁ c ∗ unusedSems c) ⊢ (Pipeline.ownSems0 osem c : sProp 𝕄) := by
  rw [ownSems0_split, cells_used]
  unfold stCells
  iintro ⟨⟨-, -, -, -, H1, -, H2, -, -, H3, -, H4⟩, HU⟩
  isplitr [HU]
  · isplitl [H1]
    · iexact H1
    isplitl [H2]
    · iexact H2
    isplitl [H3]
    · iexact H3
    iexact H4
  · iexact HU

theorem out_exit (c : Dev nD) : stStage m σ₁ c
    ⊢ iprop((((c : Thread nD τ).loc cc0_stg0_0) ↦{fullShare} X m c) ∗ (((c : Thread nD τ).loc cc0_stg1_0) ↦{fullShare} outAt (X m) c)) := by
  unfold stStage
  iintro ⟨H0, ⟨%f, %hf, H1⟩⟩
  have e : f = outAt (X m) c := funext fun i => by
    have hi : i ∈ Finset.univ.biUnion fun ph : Fin 8 × Fin 4 => (rOwn ph.1 ph.2).set := by
      rw [rOwn_cover]; exact Finset.mem_univ i
    obtain ⟨sh, -, hi⟩ := Finset.mem_biUnion.mp hi
    have hm : i ∈ (outM.access (rOwn (px c (mk c sh.1)) sh.2)).set := by
      rw [px_mk, show (outM.access (rOwn sh.1 sh.2)).set = (rOwn sh.1 sh.2).set from View.set_slice_whole cc0_stg1_0 (rOwn sh.1 sh.2)]
      exact hi
    exact hf (mk c sh.1, sh.2) (Finset.mem_univ _) i hm
  subst e
  isplitl [H0]
  · iexact H0
  · iexact H1

theorem xb_piece (c : Dev nD) :
    (bigSep σ₁.xbHave fun kh => (xbPiece (px c kh.1) kh.2).view.loc (c : Thread nD τ)
        ↦[(xbPiece (px c kh.1) kh.2).view.set]{fullShare} XB m c : sProp 𝕄)
      ⊢ iprop(∃ f, ((c : Thread nD τ).loc cc0_scratch0) ↦{fullShare} f) :=
  (bigSep_px c fun ph : Fin 8 × Fin 4 =>
    ((xbPiece ph.1 ph.2).view.loc (c : Thread nD τ) ↦[(xbPiece ph.1 ph.2).view.set]{fullShare} XB m c : sProp 𝕄)) ▸ xb_join c (XB m c)

/-- The own slot (mask 0) at some contents and the landed slots (the other masks) are all the slots of a gather buffer. -/
theorem slots_piece (M : Memref sig .tc .vmem S8x64x512 .bf16) (c : Dev nD) (Y : Buf (Elt F) (M.view.loc (c : Thread nD τ))) :
    iprop((bigSep (Finset.univ.filter fun kh : Fin 8 × Fin 4 => kh.1 = 0) fun kh => slotAny M c (px c kh.1) kh.2)
      ∗ (bigSep (Finset.univ.filter fun kh : Fin 8 × Fin 4 => ¬ kh.1 = 0) fun kh => (slot M (px c kh.1) kh.2).view.loc (c : Thread nD τ) ↦[(slot M (px c kh.1) kh.2).view.set]{fullShare} Y))
      ⊢ (bigSep Finset.univ fun sh : Fin 8 × Fin 4 => slotAny M c sh.1 sh.2 : sProp 𝕄) := by
  rw [← bigSep_px c (fun sh => slotAny (F := F) M c sh.1 sh.2), bigSep_filter_split Finset.univ (fun kh : Fin 8 × Fin 4 => kh.1 = 0)]
  have step : ∀ kh : Fin 8 × Fin 4,
      ((slot M (px c kh.1) kh.2).view.loc (c : Thread nD τ) ↦[(slot M (px c kh.1) kh.2).view.set]{fullShare} Y : sProp 𝕄)
        ⊢ slotAny M c (px c kh.1) kh.2 := fun kh => by
    iintro H
    iexists Y
    iexact H
  exact sep_mono_right (bigSep_mono fun kh _ => step kh)

/-- Per slab, what is left of the share after seven sends and the seven shares back are the whole slab. -/
theorem a_piece (c : Dev nD) :
    iprop((bigSep (Finset.univ \ σ₁.aRaw) fun h => (aPiece h).view.loc (c : Thread nD τ) ↦[(aPiece h).view.set]{remShare (σ₁.aSent h)} AB m c)
      ∗ (bigSep σ₁.aBack fun hj => (aPiece hj.1).view.loc (c : Thread nD τ) ↦[(aPiece hj.1).view.set]{lentShare hj.2.val} AB m c))
      ⊢ (bigSep Finset.univ fun h : Fin 4 => iprop(∃ f, (aPiece h).view.loc (c : Thread nD τ) ↦[(aPiece h).view.set]{fullShare} f) : sProp 𝕄) := by
  rw [show Finset.univ \ σ₁.aRaw = (Finset.univ : Finset (Fin 4)) from Finset.sdiff_empty, show σ₁.aBack = Finset.univ from rfl,
    bigSep_univ_prod, ← bigSep_sep']
  have step : ∀ h : Fin 4,
      iprop(((aPiece h).view.loc (c : Thread nD τ) ↦[(aPiece h).view.set]{remShare 7} AB m c)
          ∗ bigSep (Finset.univ : Finset (Fin 7)) fun j => (aPiece h).view.loc (c : Thread nD τ) ↦[(aPiece h).view.set]{lentShare j.val} AB m c)
        ⊢ (iprop(∃ f, (aPiece h).view.loc (c : Thread nD τ) ↦[(aPiece h).view.set]{fullShare} f) : sProp 𝕄) := fun h => by
    iintro H
    iexists AB m c
    iapply a_shares_join c h (AB m c) 7
    iexact H
  exact bigSep_mono fun h _ => step h

theorem scratch_exit_st (c : Dev nD) : stScratch m σ₁ c ⊢ (Pipeline.scopedRest cfg0.spec c : sProp 𝕄) := by
  rw [show (Pipeline.scopedRest cfg0.spec c : sProp 𝕄) = _ from Gen.scopedRest0_eq c]
  unfold stScratch
  iintro ⟨-, Hxb, HgM, HgL, -, -, HaR, HaB, HoM, HoL, -⟩
  isplitl [Hxb]
  · iapply xb_piece m c
    iexact Hxb
  isplitl [HgM HgL]
  · iapply (g_cut c).2
    iapply slots_piece gM c (G1 m c)
    isplitl [HgM]
    · iexact HgM
    · iexact HgL
  isplitl [HaR HaB]
  · iapply (a_cut c).2
    iapply a_piece m c
    isplitl [HaR]
    · iexact HaR
    · iexact HaB
  · iapply (o_cut c).2
    iapply slots_piece oM c (OB m c)
    isplitl [HoM]
    · iexact HoM
    · iexact HoL

/-- The body's exit: at the last stage a device holds its semaphores at zero, its scratch buffers whole, the block and the result. -/
theorem st_exit (K : Dev nD × CIx → ℕ) (c : Dev nD) : St m K σ₁ c
    ⊢ iprop(Φ₁ c ∗ stOwes σ₁ c ∗ (((c : Thread nD τ).loc cc0_stg0_0) ↦{fullShare} X m c)
        ∗ (((c : Thread nD τ).loc cc0_stg1_0) ↦{fullShare} outAt (X m) c)) := by
  unfold St Φ₁
  iintro ⟨-, HO, HC, HU, HS, HSc⟩
  isplitl [HC HU HSc]
  · isplitl [HC HU]
    · iapply cells_exit c
      isplitl [HC]
      · iexact HC
      · iexact HU
    · iapply scratch_exit_st m c
      iexact HSc
  isplitl [HO]
  · iexact HO
  · iapply out_exit m c
    iexact HS

end Cert.Kernel.AR

end
-- ==== Proof.KernelAR.Body.lean ====
import proofs.«900697_g7700000000000698_dist_ar_v7x_i8_i_m512_n512_f32_1_alg».proof.Proof.KernelAR.Parts_01_12
import proofs.«900697_g7700000000000698_dist_ar_v7x_i8_i_m512_n512_f32_1_alg».proof.Proof.KernelAR.Parts_13_24
import proofs.«900697_g7700000000000698_dist_ar_v7x_i8_i_m512_n512_f32_1_alg».proof.Proof.KernelAR.Parts_25_36
import proofs.«900697_g7700000000000698_dist_ar_v7x_i8_i_m512_n512_f32_1_alg».proof.Proof.KernelAR.Parts_37_44
import proofs.«900697_g7700000000000698_dist_ar_v7x_i8_i_m512_n512_f32_1_alg».proof.Proof.KernelAR.Parts_45_51
import proofs.«900697_g7700000000000698_dist_ar_v7x_i8_i_m512_n512_f32_1_alg».proof.Proof.KernelAR.Parts_52_63
import proofs.«900697_g7700000000000698_dist_ar_v7x_i8_i_m512_n512_f32_1_alg».proof.Proof.KernelAR.CSteps
import proofs.«900697_g7700000000000698_dist_ar_v7x_i8_i_m512_n512_f32_1_alg».proof.Proof.KernelAR.Wrap
import proofs.«900697_g7700000000000698_dist_ar_v7x_i8_i_m512_n512_f32_1_alg».proof.Proof.KernelAR.Finish

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The root part is parts 1 to 60 in sequence, each taking the counters where the one before left them. -/
theorem part_64 (K : Dev nD × CIx → ℕ) (c : Dev nD) (Q : Dev nD → sProp 𝕄) :
    iprop(St m K (stageOf ⟨0, false, 0, 0, 0, 0, 0, 0, 0, 0, 0, 0⟩) c
        ∗ (St m K (stageOf ⟨7, true, 4, 28, 28, 4, 4, 28, 28, 28, 28, 13⟩) c -∗ Q c))
      ⊢ wpB c (onBufs k0_part64) Q := by
  rw [onBufs, k0_part64_eq_skeleton]; unfold k0_part64_skel wpB
  simp only [wp_bind]
  iintro ⟨HSt, Hk⟩
  iapply (part_1 m K c _); isplitl [HSt]; · iexact HSt
  iintro %w₁ %w₂ HSt
  iapply (part_2 m K c _ _ _ rfl _); isplitl [HSt]; · iexact HSt
  iintro HSt
  iapply (part_3 m K c _ _); isplitl [HSt]; · iexact HSt
  iintro HSt
  iapply (part_4 m K c _ _); isplitl [HSt]; · iexact HSt
  iintro HSt
  iapply (part_5 m K c _ _ rfl _); isplitl [HSt]; · iexact HSt
  iintro HSt
  iapply (part_6 m K c _ _); isplitl [HSt]; · iexact HSt
  iintro %w₁ %w₂ HSt
  iapply (part_7 m K c _ _ _ _); isplitl [HSt]; · iexact HSt
  iintro HSt
  iapply (part_8 m K c _ _); isplitl [HSt]; · iexact HSt
  iintro %w₁ HSt
  iapply (part_9 m K c _ _ _); isplitl [HSt]; · iexact HSt
  iintro %w₁ HSt
  iapply (part_10 m K c _ _ _); isplitl [HSt]; · iexact HSt
  iintro %w₁ HSt
  iapply (part_11 m K c _ _ _); isplitl [HSt]; · iexact HSt
  iintro HSt
  iapply (part_12 m K c _ _); isplitl [HSt]; · iexact HSt
  iintro HSt
  iapply (part_13 m K c _ _); isplitl [HSt]; · iexact HSt
  iintro HSt
  iapply (part_14 m K c _ _ _); isplitl [HSt]; · iexact HSt
  iintro HSt
  iapply (part_15 m K c _ _ _); isplitl [HSt]; · iexact HSt
  iintro %w₁ %w₂ HSt
  iapply (part_16 m K c _ _ _ _ (acc_ok_0 m c) (accb_ok_0 m c) _); isplitl [HSt]; · iexact HSt
  iintro %w₁ HSt
  iapply (part_17 m K c _ _ _); isplitl [HSt]; · iexact HSt
  iintro %w₁ HSt
  iapply (part_18 m K c _ _ _); isplitl [HSt]; · iexact HSt
  iintro HSt
  iapply (part_19 m K c _ _); isplitl [HSt]; · iexact HSt
  iintro HSt
  iapply (part_20 m K c _ _ _ _); isplitl [HSt]; · iexact HSt
  iintro %w₁ HSt
  iapply (part_21 m K c _ _ _ _); isplitl [HSt]; · iexact HSt
  iintro %w₁ HSt
  iapply (part_22 m K c _ _ _ (acc_ok_1 m c) (accb_ok_1 m c) _); isplitl [HSt]; · iexact HSt
  iintro HSt
  iapply (part_23 m K c _ _); isplitl [HSt]; · iexact HSt
  iintro %w₁ HSt
  iapply (part_24 m K c _ _ _); isplitl [HSt]; · iexact HSt
  iintro HSt
  iapply (part_25 m K c _ _); isplitl [HSt]; · iexact HSt
  iintro %w₁ HSt
  iapply (part_26 m K c _ _ _ _); isplitl [HSt]; · iexact HSt
  iintro %w₁ HSt
  iapply (part_27 m K c _ _ _ _); isplitl [HSt]; · iexact HSt
  iintro %w₁ HSt
  iapply (part_28 m K c _ _ _ (acc_ok_2 m c) (accb_ok_2 m c) _); isplitl [HSt]; · iexact HSt
  iintro HSt
  iapply (part_29 m K c _ _); isplitl [HSt]; · iexact HSt
  iintro HSt
  iapply (part_30 m K c _ _); isplitl [HSt]; · iexact HSt
  iintro %w₁ HSt
  iapply (part_31 m K c _ _ _ _); isplitl [HSt]; · iexact HSt
  iintro %w₁ HSt
  iapply (part_32 m K c _ _ _ _); isplitl [HSt]; · iexact HSt
  iintro %w₁ HSt
  iapply (part_33 m K c _ _ _ _); isplitl [HSt]; · iexact HSt
  iintro HSt
  iapply (part_34 m K c _ _ (acc_ok_3 m c) (accb_ok_3 m c) _); isplitl [HSt]; · iexact HSt
  iintro HSt
  iapply (part_35 m K c _ _); isplitl [HSt]; · iexact HSt
  iintro HSt
  iapply (part_36 m K c _ _); isplitl [HSt]; · iexact HSt
  iintro %w₁ HSt
  iapply (part_37 m K c _ _ _); isplitl [HSt]; · iexact HSt
  iintro %w₁ HSt
  iapply (part_38 m K c _ _ _); isplitl [HSt]; · iexact HSt
  iintro %w₁ %w₂ HSt
  iapply (part_39 m K c _ _ _ _); isplitl [HSt]; · iexact HSt
  iintro %w₁ HSt
  iapply (part_40 m K c _ _ _); isplitl [HSt]; · iexact HSt
  iintro HSt
  iapply (part_41 m K c _ _ rfl _); isplitl [HSt]; · iexact HSt
  iintro %w₁ HSt
  iapply (part_42 m K c _ _ _ rfl _); isplitl [HSt]; · iexact HSt
  iintro %w₁ HSt
  iapply (part_43 m K c _ _ _); isplitl [HSt]; · iexact HSt
  iintro %w₁ HSt
  iapply (part_44 m K c _ _ _); isplitl [HSt]; · iexact HSt
  iintro %w₁ HSt
  iapply (part_45 m K c _ _ _); isplitl [HSt]; · iexact HSt
  iintro %w₁ HSt
  iapply (part_46 m K c _ _ _); isplitl [HSt]; · iexact HSt
  iintro %w₁ %w₂ HSt
  iapply (part_47 m K c _ _ _ _); isplitl [HSt]; · iexact HSt
  iintro %w₁ HSt
  iapply (part_48 m K c _ _ _); isplitl [HSt]; · iexact HSt
  iintro HSt
  iapply (part_49 m K c _ _ rfl _); isplitl [HSt]; · iexact HSt
  iintro %w₁ HSt
  iapply (part_50 m K c _ _ _ rfl _); isplitl [HSt]; · iexact HSt
  iintro %w₁ HSt
  iapply (part_51 m K c _ _ _); isplitl [HSt]; · iexact HSt
  iintro HSt
  iapply (part_52 m K c _); isplitl [HSt]; · iexact HSt
  iintro HSt
  iapply (part_53 m K c _); isplitl [HSt]; · iexact HSt
  iintro HSt
  iapply (part_54 m K c _); isplitl [HSt]; · iexact HSt
  iintro HSt
  iapply (part_55 m K c _); isplitl [HSt]; · iexact HSt
  iintro HSt
  iapply (part_56 m K c _); isplitl [HSt]; · iexact HSt
  iintro HSt
  iapply (part_57 m K c _); isplitl [HSt]; · iexact HSt
  iintro HSt
  iapply (part_58 m K c _); isplitl [HSt]; · iexact HSt
  iintro HSt
  iapply (part_59 m K c _); isplitl [HSt]; · iexact HSt
  iintro HSt
  iapply (part_60 m K c _); isplitl [HSt]; · iexact HSt
  iintro HSt
  iapply (le_wp_ret _ _)
  iapply Hk; iexact HSt

theorem walk (K : Dev nD × CIx → ℕ) (c : Dev nD) (Kt : PUnit → sProp 𝕄) :
    iprop(St m K (stageOf k₀) c ∗ (St m K (stageOf k₁) c -∗ Kt ⟨⟩))
      ⊢ wp frame (wpE (defs₀ (F := F)) 𝒱₀ (c : Thread nD τ) none) Set.univ
          (cc0_body xM (Memref.isWhole_whole _) outM (Memref.isWhole_whole _) xbM (Memref.isWhole_whole _) gM (Memref.isWhole_whole _)
            aM (Memref.isWhole_whole _) oM (Memref.isWhole_whole _) cc0_scratch4 cc0_scratch5 cc0_scratch6 cc0_scratch7) Kt := by
  unfold k₀ k₁
  rw [cc0_body_eq_skeleton]; unfold cc0_body_skel
  simp only [wp_bind, Prog.lift, Prog.bind_op, Prog.bind_ret, Prog.pure_eq_ret]
  iintro ⟨HSt, Hk⟩
  iapply (part_64 m K c _); isplitl [HSt]; · iexact HSt
  iintro HSt
  iapply (part_61 m K c _); isplitl [HSt]; · iexact HSt
  iintro HSt
  iapply (part_62 m K c _); isplitl [HSt]; · iexact HSt
  iintro HSt
  iapply (part_63 m K c _); isplitl [HSt]; · iexact HSt
  iintro HSt
  iapply (cstep_sendWait2 m K c 3 5) $$ HSt; iintro HSt
  iapply (cstep_sendWait2 m K c 3 6) $$ HSt; iintro HSt
  iapply (le_wp_ret _ _)
  iapply Hk; iexact HSt

theorem body_obligation (c : Dev nD) : BodyObligation (dats (F := F) m ρ 0 c) (defs₀ (F := F)) 𝒱₀ () Set.univ :=
  body_obligation_of_walk m ρ (walk m) stage_k₀ stage_k₁ (st_exit m) c

end Cert.Kernel.AR

end
-- ==== Proof.lean ====
import proofs.«900697_g7700000000000698_dist_ar_v7x_i8_i_m512_n512_f32_1_alg».proof.Defs
import proofs.«900697_g7700000000000698_dist_ar_v7x_i8_i_m512_n512_f32_1_alg».proof.Proof.Gen.Kernel
import proofs.«900697_g7700000000000698_dist_ar_v7x_i8_i_m512_n512_f32_1_alg».proof.Proof.Gen.KernelIdeal
import proofs.«900697_g7700000000000698_dist_ar_v7x_i8_i_m512_n512_f32_1_alg».proof.Proof.Gen.ReferenceIdeal
import proofs.«900697_g7700000000000698_dist_ar_v7x_i8_i_m512_n512_f32_1_alg».proof.Proof.Gen.Pre_finite_inputs_Kernel
import proofs.«900697_g7700000000000698_dist_ar_v7x_i8_i_m512_n512_f32_1_alg».proof.Proof.Gen.Pre_finite_inputs_ReferenceIdeal
import proofs.«900697_g7700000000000698_dist_ar_v7x_i8_i_m512_n512_f32_1_alg».proof.Proof.RefValue
import proofs.«900697_g7700000000000698_dist_ar_v7x_i8_i_m512_n512_f32_1_alg».proof.Proof.KernelIdealAR.Assemble
import proofs.«900697_g7700000000000698_dist_ar_v7x_i8_i_m512_n512_f32_1_alg».proof.Proof.KernelIdealAR.Launch
import proofs.«900697_g7700000000000698_dist_ar_v7x_i8_i_m512_n512_f32_1_alg».proof.Proof.KernelIdealAR.Body
import proofs.«900697_g7700000000000698_dist_ar_v7x_i8_i_m512_n512_f32_1_alg».proof.Proof.KernelAR.FrameOf
import proofs.«900697_g7700000000000698_dist_ar_v7x_i8_i_m512_n512_f32_1_alg».proof.Proof.KernelAR.Launch
import proofs.«900697_g7700000000000698_dist_ar_v7x_i8_i_m512_n512_f32_1_alg».proof.Proof.KernelAR.Body

noncomputable section

namespace Cert.Proof

open Idealize.ShloMosaic Idealize.SL.Sem

theorem read_out_block {F : FTy → Type} [FloatOps F] (c : Dev Cert.KernelIdeal.nD)
    (f : Buf (Elt F) (Cert.KernelIdeal.win0_1.arr.view.loc (c.tc : Thread Cert.KernelIdeal.nD Cert.KernelIdeal.τ))) :
    (Cert.KernelIdeal.win0_1.blk (0 : Fin 1)).view.read (Elt F) f = f :=
  Memref.read_access_unit_zero (Elt F) Cert.KernelIdeal.main_v1 (funext fun a => Nat.zero_mul _) _ f

theorem frame_p : Cert.frame_Kernel :=
  fun m g _ => Cert.Kernel.AR.frame_of_run (F := Bits)
    (fun m ρ => Cert.Kernel.AR.run_main m ρ (Cert.Kernel.AR.body_obligation m ρ))
    (fun m ρ c => Cert.Kernel.AR.finalA_x m ρ c) m g

theorem frame_pi : Cert.frame_KernelIdeal :=
  fun m g _ => Cert.KernelIdeal.AR.frame_of_run (F := Ideal)
    (fun m ρ => Cert.KernelIdeal.AR.run_main m ρ (Cert.KernelIdeal.AR.body_obligation m ρ))
    (fun m ρ c => Cert.KernelIdeal.AR.finalA_x m ρ c) m g

theorem algebraic : Cert.algebraic_KernelIdeal_ReferenceIdeal :=
  Cert.KernelIdeal.AR.algebraic_of_run
    (fun m ρ => Cert.KernelIdeal.AR.run_main m ρ (Cert.KernelIdeal.AR.body_obligation m ρ))
    (fun m ρ c => Cert.KernelIdeal.AR.finalA_x m ρ c)
    (fun m ρ c i => congrFun ((read_out_block c _).symm.trans (Cert.KernelIdeal.AR.finalA_out m ρ c)) i)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_p, frame_pi, Cert.ReferenceIdeal.RefValue.frame_ri, trivial, algebraic⟩

end Cert.Proof

end
